-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S1310720x1 : Shape := ⟨2, ![1310720, 1]⟩
abbrev S1310720 : Shape := ⟨1, ![1310720]⟩
abbrev S655360x2 : Shape := ⟨2, ![655360, 2]⟩
abbrev S1x16 : Shape := ⟨2, ![1, 16]⟩
abbrev S16 : Shape := ⟨1, ![16]⟩
abbrev S16x16 : Shape := ⟨2, ![16, 16]⟩
abbrev S48x16 : Shape := ⟨2, ![48, 16]⟩
abbrev S32x16 : Shape := ⟨2, ![32, 16]⟩
abbrev S16x1 : Shape := ⟨2, ![16, 1]⟩
abbrev S1 : Shape := ⟨1, ![1]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S1310720x1 : S_.BroadcastsInDim S1310720x1 (![] : Fin 0 → Fin S1310720x1.rank)
  reducesTo_S1310720x1_S_d0_1 : S1310720x1.ReducesTo [0, 1] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S48x16 : S_.BroadcastsInDim S48x16 (![] : Fin 0 → Fin S48x16.rank)
  reducesTo_S48x16_S_d0_1 : S48x16.ReducesTo [0, 1] S_
  bcast_S_S32x16 : S_.BroadcastsInDim S32x16 (![] : Fin 0 → Fin S32x16.rank)
  reducesTo_S32x16_S_d0_1 : S32x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  reducesTo_S_S_d : S_.ReducesTo [] S_
  bcast_S_S1310720 : S_.BroadcastsInDim S1310720 (![] : Fin 0 → Fin S1310720.rank)
  reducesTo_S1310720_S_d0 : S1310720.ReducesTo [0] S_

variable [Facts]

def fn_part8 {F : FTy → Type} [FloatOps F] (main_arg2 : IVec S1310720 32) (main_v134 : IVec S_ 1) (main_c_54 : IVec S_ 32) : IVec S_ 1 :=
  let main_v135 : IVec S1310720 32 := broadcastInDim S1310720 ![] bcast_S_S1310720 main_c_54
  let main_v136 : IVec S1310720 1 := cmpi .slt main_arg2 main_v135
  let main_c_55 : IVec S_ 1 := constantI S_ 1 1#1
  let main_v137 : IVec S_ 1 := (fun x v => Host.reduce IntOp.andi x v reducesTo_S1310720_S_d0 h_S_) main_v136 main_c_55
  let main_v138 : IVec S_ 1 := andi main_v134 main_v137
  main_v138

def fn_part7 {F : FTy → Type} [FloatOps F] (main_arg2 : IVec S1310720 32) (main_arg3 : IVec S1310720 32) (main_v118 : IVec S_ 1) (main_v119 : FVec F S_ .f32) : IVec S_ 1 :=
  let main_cst_46 : FVec F S_ .f32 := constant S_ .f32 0x7F800000#32
  let main_v120 : IVec S_ 1 := cmpf .olt main_v119 main_cst_46
  let main_c_47 : IVec S_ 1 := constantI S_ 1 1#1
  let main_v121 : IVec S_ 1 := (fun x v => Host.reduce IntOp.andi x v reducesTo_S_S_d h_S_) main_v120 main_c_47
  let main_v122 : IVec S_ 1 := andi main_v118 main_v121
  let main_c_48 : IVec S_ 32 := constantI S_ 32 0#32
  let main_v123 : IVec S1310720 32 := broadcastInDim S1310720 ![] bcast_S_S1310720 main_c_48
  let main_v124 : IVec S1310720 1 := cmpi .sge main_arg3 main_v123
  let main_c_49 : IVec S_ 1 := constantI S_ 1 1#1
  let main_v125 : IVec S_ 1 := (fun x v => Host.reduce IntOp.andi x v reducesTo_S1310720_S_d0 h_S_) main_v124 main_c_49
  let main_v126 : IVec S_ 1 := andi main_v122 main_v125
  let main_c_50 : IVec S_ 32 := constantI S_ 32 262144#32
  let main_v127 : IVec S1310720 32 := broadcastInDim S1310720 ![] bcast_S_S1310720 main_c_50
  let main_v128 : IVec S1310720 1 := cmpi .slt main_arg3 main_v127
  let main_c_51 : IVec S_ 1 := constantI S_ 1 1#1
  let main_v129 : IVec S_ 1 := (fun x v => Host.reduce IntOp.andi x v reducesTo_S1310720_S_d0 h_S_) main_v128 main_c_51
  let main_v130 : IVec S_ 1 := andi main_v126 main_v129
  let main_c_52 : IVec S_ 32 := constantI S_ 32 0#32
  let main_v131 : IVec S1310720 32 := broadcastInDim S1310720 ![] bcast_S_S1310720 main_c_52
  let main_v132 : IVec S1310720 1 := cmpi .sge main_arg2 main_v131
  let main_c_53 : IVec S_ 1 := constantI S_ 1 1#1
  let main_v133 : IVec S_ 1 := (fun x v => Host.reduce IntOp.andi x v reducesTo_S1310720_S_d0 h_S_) main_v132 main_c_53
  let main_v134 : IVec S_ 1 := andi main_v130 main_v133
  let main_c_54 : IVec S_ 32 := constantI S_ 32 262144#32
  fn_part8 (F := F) main_arg2 main_v134 main_c_54

def fn_part6 {F : FTy → Type} [FloatOps F] (main_arg2 : IVec S1310720 32) (main_arg3 : IVec S1310720 32) (main_arg26 : FVec F S16 .f32) (main_arg27 : FVec F S16x1 .f32) (main_arg28 : FVec F S1 .f32) (main_arg29 : FVec F S_ .f32) (main_v98 : IVec S_ 1) (main_v101 : IVec S16x16 1) (main_c_39 : IVec S_ 1) : IVec S_ 1 :=
  let main_v102 : IVec S_ 1 := (fun x v => Host.reduce IntOp.andi x v reducesTo_S16x16_S_d0_1 h_S_) main_v101 main_c_39
  let main_v103 : IVec S_ 1 := andi main_v98 main_v102
  let main_v104 : FVec F S16 .f32 := Host.absf main_arg26
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_v109 : FVec F S16x1 .f32 := Host.absf main_arg27
  let main_cst_42 : FVec F S_ .f32 := constant S_ .f32 0x7F800000#32
  let main_v110 : FVec F S16x1 .f32 := broadcastInDim S16x1 ![] bcast_S_S16x1 main_cst_42
  let main_v111 : IVec S16x1 1 := cmpf .olt main_v109 main_v110
  let main_c_43 : IVec S_ 1 := constantI S_ 1 1#1
  let main_v112 : IVec S_ 1 := (fun x v => Host.reduce IntOp.andi x v reducesTo_S16x1_S_d0_1 h_S_) main_v111 main_c_43
  let main_v113 : IVec S_ 1 := andi main_v108 main_v112
  let main_v114 : FVec F S1 .f32 := Host.absf main_arg28
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S_ .f32 := Host.absf main_arg29
  fn_part7 (F := F) main_arg2 main_arg3 main_v118 main_v119

def fn_part5 {F : FTy → Type} [FloatOps F] (main_arg2 : IVec S1310720 32) (main_arg3 : IVec S1310720 32) (main_arg23 : FVec F S16x16 .f32) (main_arg24 : FVec F S16 .f32) (main_arg25 : FVec F S16x16 .f32) (main_arg26 : FVec F S16 .f32) (main_arg27 : FVec F S16x1 .f32) (main_arg28 : FVec F S1 .f32) (main_arg29 : FVec F S_ .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16x16 .f32 := Host.absf main_arg23
  let main_cst_34 : FVec F S_ .f32 := constant S_ .f32 0x7F800000#32
  let main_v90 : FVec F S16x16 .f32 := broadcastInDim S16x16 ![] bcast_S_S16x16 main_cst_34
  let main_v91 : IVec S16x16 1 := cmpf .olt main_v89 main_v90
  let main_c_35 : IVec S_ 1 := constantI S_ 1 1#1
  let main_v92 : IVec S_ 1 := (fun x v => Host.reduce IntOp.andi x v reducesTo_S16x16_S_d0_1 h_S_) main_v91 main_c_35
  let main_v93 : IVec S_ 1 := andi main_v88 main_v92
  let main_v94 : FVec F S16 .f32 := Host.absf main_arg24
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16x16 .f32 := Host.absf main_arg25
  let main_cst_38 : FVec F S_ .f32 := constant S_ .f32 0x7F800000#32
  let main_v100 : FVec F S16x16 .f32 := broadcastInDim S16x16 ![] bcast_S_S16x16 main_cst_38
  let main_v101 : IVec S16x16 1 := cmpf .olt main_v99 main_v100
  let main_c_39 : IVec S_ 1 := constantI S_ 1 1#1
  fn_part6 (F := F) main_arg2 main_arg3 main_arg26 main_arg27 main_arg28 main_arg29 main_v98 main_v101 main_c_39

def fn_part4 {F : FTy → Type} [FloatOps F] (main_arg2 : IVec S1310720 32) (main_arg3 : IVec S1310720 32) (main_arg19 : FVec F S16x16 .f32) (main_arg20 : FVec F S16 .f32) (main_arg21 : FVec F S32x16 .f32) (main_arg22 : FVec F S16 .f32) (main_arg23 : FVec F S16x16 .f32) (main_arg24 : FVec F S16 .f32) (main_arg25 : FVec F S16x16 .f32) (main_arg26 : FVec F S16 .f32) (main_arg27 : FVec F S16x1 .f32) (main_arg28 : FVec F S1 .f32) (main_arg29 : FVec F S_ .f32) (main_v63 : IVec S_ 1) (main_v67 : IVec S_ 1) : IVec S_ 1 :=
  let main_v68 : IVec S_ 1 := andi main_v63 main_v67
  let main_v69 : FVec F S16x16 .f32 := Host.absf main_arg19
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S16 .f32 := Host.absf main_arg20
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S32x16 .f32 := Host.absf main_arg21
  let main_cst_30 : FVec F S_ .f32 := constant S_ .f32 0x7F800000#32
  let main_v80 : FVec F S32x16 .f32 := broadcastInDim S32x16 ![] bcast_S_S32x16 main_cst_30
  let main_v81 : IVec S32x16 1 := cmpf .olt main_v79 main_v80
  let main_c_31 : IVec S_ 1 := constantI S_ 1 1#1
  let main_v82 : IVec S_ 1 := (fun x v => Host.reduce IntOp.andi x v reducesTo_S32x16_S_d0_1 h_S_) main_v81 main_c_31
  let main_v83 : IVec S_ 1 := andi main_v78 main_v82
  let main_v84 : FVec F S16 .f32 := Host.absf main_arg22
  let main_cst_32 : FVec F S_ .f32 := constant S_ .f32 0x7F800000#32
  fn_part5 (F := F) main_arg2 main_arg3 main_arg23 main_arg24 main_arg25 main_arg26 main_arg27 main_arg28 main_arg29 main_v83 main_v84 main_cst_32

def fn_part3 {F : FTy → Type} [FloatOps F] (main_arg2 : IVec S1310720 32) (main_arg3 : IVec S1310720 32) (main_arg16 : FVec F S16 .f32) (main_arg17 : FVec F S48x16 .f32) (main_arg18 : FVec F S16 .f32) (main_arg19 : FVec F S16x16 .f32) (main_arg20 : FVec F S16 .f32) (main_arg21 : FVec F S32x16 .f32) (main_arg22 : FVec F S16 .f32) (main_arg23 : FVec F S16x16 .f32) (main_arg24 : FVec F S16 .f32) (main_arg25 : FVec F S16x16 .f32) (main_arg26 : FVec F S16 .f32) (main_arg27 : FVec F S16x1 .f32) (main_arg28 : FVec F S1 .f32) (main_arg29 : FVec F S_ .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg16
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S48x16 .f32 := Host.absf main_arg17
  let main_cst_22 : FVec F S_ .f32 := constant S_ .f32 0x7F800000#32
  let main_v60 : FVec F S48x16 .f32 := broadcastInDim S48x16 ![] bcast_S_S48x16 main_cst_22
  let main_v61 : IVec S48x16 1 := cmpf .olt main_v59 main_v60
  let main_c_23 : IVec S_ 1 := constantI S_ 1 1#1
  let main_v62 : IVec S_ 1 := (fun x v => Host.reduce IntOp.andi x v reducesTo_S48x16_S_d0_1 h_S_) main_v61 main_c_23
  let main_v63 : IVec S_ 1 := andi main_v58 main_v62
  let main_v64 : FVec F S16 .f32 := Host.absf main_arg18
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg2 main_arg3 main_arg19 main_arg20 main_arg21 main_arg22 main_arg23 main_arg24 main_arg25 main_arg26 main_arg27 main_arg28 main_arg29 main_v63 main_v67

def fn_part2 {F : FTy → Type} [FloatOps F] (main_arg2 : IVec S1310720 32) (main_arg3 : IVec S1310720 32) (main_arg12 : FVec F S16 .f32) (main_arg13 : FVec F S1x16 .f32) (main_arg14 : FVec F S16 .f32) (main_arg15 : FVec F S16x16 .f32) (main_arg16 : FVec F S16 .f32) (main_arg17 : FVec F S48x16 .f32) (main_arg18 : FVec F S16 .f32) (main_arg19 : FVec F S16x16 .f32) (main_arg20 : FVec F S16 .f32) (main_arg21 : FVec F S32x16 .f32) (main_arg22 : FVec F S16 .f32) (main_arg23 : FVec F S16x16 .f32) (main_arg24 : FVec F S16 .f32) (main_arg25 : FVec F S16x16 .f32) (main_arg26 : FVec F S16 .f32) (main_arg27 : FVec F S16x1 .f32) (main_arg28 : FVec F S1 .f32) (main_arg29 : FVec F S_ .f32) (main_v33 : IVec S_ 1) : IVec S_ 1 :=
  let main_v34 : FVec F S16 .f32 := Host.absf main_arg12
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S1x16 .f32 := Host.absf main_arg13
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S16 .f32 := Host.absf main_arg14
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg15
  let main_cst_18 : FVec F S_ .f32 := constant S_ .f32 0x7F800000#32
  let main_v50 : FVec F S16x16 .f32 := broadcastInDim S16x16 ![] bcast_S_S16x16 main_cst_18
  fn_part3 (F := F) main_arg2 main_arg3 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S1310720 32) (main_arg3 : IVec S1310720 32) (main_arg9 : FVec F S1x16 .f32) (main_arg10 : FVec F S16 .f32) (main_arg11 : FVec F S16x16 .f32) (main_arg12 : FVec F S16 .f32) (main_arg13 : FVec F S1x16 .f32) (main_arg14 : FVec F S16 .f32) (main_arg15 : FVec F S16x16 .f32) (main_arg16 : FVec F S16 .f32) (main_arg17 : FVec F S48x16 .f32) (main_arg18 : FVec F S16 .f32) (main_arg19 : FVec F S16x16 .f32) (main_arg20 : FVec F S16 .f32) (main_arg21 : FVec F S32x16 .f32) (main_arg22 : FVec F S16 .f32) (main_arg23 : FVec F S16x16 .f32) (main_arg24 : FVec F S16 .f32) (main_arg25 : FVec F S16x16 .f32) (main_arg26 : FVec F S16 .f32) (main_arg27 : FVec F S16x1 .f32) (main_arg28 : FVec F S1 .f32) (main_arg29 : FVec F S_ .f32) (main_v13 : IVec S_ 1) (main_v16 : IVec S1310720x1 1) : IVec S_ 1 :=
  let main_c_5 : IVec S_ 1 := constantI S_ 1 1#1
  let main_v17 : IVec S_ 1 := (fun x v => Host.reduce IntOp.andi x v reducesTo_S1310720x1_S_d0_1 h_S_) main_v16 main_c_5
  let main_v18 : IVec S_ 1 := andi main_v13 main_v17
  let main_v19 : FVec F S1x16 .f32 := Host.absf main_arg9
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16 .f32 := Host.absf main_arg10
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg11
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg2 main_arg3 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S262144x1 .f32) (main_arg1 : FVec F S1310720x1 .f32) (main_arg2 : IVec S1310720 32) (main_arg3 : IVec S1310720 32) (main_arg4 : IVec S655360x2 32) (main_arg5 : FVec F S262144x1 .f32) (main_arg6 : FVec F S1310720x1 .f32) (main_arg7 : IVec S1310720 32) (main_arg8 : IVec S1310720 32) (main_arg9 : FVec F S1x16 .f32) (main_arg10 : FVec F S16 .f32) (main_arg11 : FVec F S16x16 .f32) (main_arg12 : FVec F S16 .f32) (main_arg13 : FVec F S1x16 .f32) (main_arg14 : FVec F S16 .f32) (main_arg15 : FVec F S16x16 .f32) (main_arg16 : FVec F S16 .f32) (main_arg17 : FVec F S48x16 .f32) (main_arg18 : FVec F S16 .f32) (main_arg19 : FVec F S16x16 .f32) (main_arg20 : FVec F S16 .f32) (main_arg21 : FVec F S32x16 .f32) (main_arg22 : FVec F S16 .f32) (main_arg23 : FVec F S16x16 .f32) (main_arg24 : FVec F S16 .f32) (main_arg25 : FVec F S16x16 .f32) (main_arg26 : FVec F S16 .f32) (main_arg27 : FVec F S16x1 .f32) (main_arg28 : FVec F S1 .f32) (main_arg29 : FVec F S_ .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S1310720x1 .f32 := Host.absf main_arg1
  let main_cst_0 : FVec F S_ .f32 := constant S_ .f32 0x7F800000#32
  let main_v5 : FVec F S1310720x1 .f32 := broadcastInDim S1310720x1 ![] bcast_S_S1310720x1 main_cst_0
  let main_v6 : IVec S1310720x1 1 := cmpf .olt main_v4 main_v5
  let main_c_1 : IVec S_ 1 := constantI S_ 1 1#1
  let main_v7 : IVec S_ 1 := (fun x v => Host.reduce IntOp.andi x v reducesTo_S1310720x1_S_d0_1 h_S_) main_v6 main_c_1
  let main_v8 : IVec S_ 1 := andi main_v3 main_v7
  let main_v9 : FVec F S262144x1 .f32 := Host.absf main_arg5
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S1310720x1 .f32 := Host.absf main_arg6
  let main_cst_4 : FVec F S_ .f32 := constant S_ .f32 0x7F800000#32
  let main_v15 : FVec F S1310720x1 .f32 := broadcastInDim S1310720x1 ![] bcast_S_S1310720x1 main_cst_4
  let main_v16 : IVec S1310720x1 1 := cmpf .olt main_v14 main_v15
  fn_part1 (F := F) main_arg2 main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S262144x1 : Shape := ⟨2, ![262144, 1]⟩
abbrev S1310720x1 : Shape := ⟨2, ![1310720, 1]⟩
abbrev S1310720 : Shape := ⟨1, ![1310720]⟩
abbrev S655360x2 : Shape := ⟨2, ![655360, 2]⟩
abbrev S1x16 : Shape := ⟨2, ![1, 16]⟩
abbrev S16 : Shape := ⟨1, ![16]⟩
abbrev S16x16 : Shape := ⟨2, ![16, 16]⟩
abbrev S48x16 : Shape := ⟨2, ![48, 16]⟩
abbrev S32x16 : Shape := ⟨2, ![32, 16]⟩
abbrev S16x1 : Shape := ⟨2, ![16, 1]⟩
abbrev S1 : Shape := ⟨1, ![1]⟩
abbrev S_ : Shape := ⟨0, ![]⟩
abbrev S10240x128 : Shape := ⟨2, ![10240, 128]⟩
abbrev S1x1 : Shape := ⟨2, ![1, 1]⟩
abbrev S32x128 : Shape := ⟨2, ![32, 128]⟩
abbrev S32 : Shape := ⟨1, ![32]⟩
abbrev S32x1 : Shape := ⟨2, ![32, 1]⟩
abbrev S262144x16 : Shape := ⟨2, ![262144, 16]⟩
abbrev S4096x1 : Shape := ⟨2, ![4096, 1]⟩
abbrev S4096x16 : Shape := ⟨2, ![4096, 16]⟩
abbrev S1310720x16 : Shape := ⟨2, ![1310720, 16]⟩
abbrev S655360x1 : Shape := ⟨2, ![655360, 1]⟩
abbrev S655360 : Shape := ⟨1, ![655360]⟩
abbrev S655360x16 : Shape := ⟨2, ![655360, 16]⟩

abbrev nBuf : Space → Nat
  | .hbm => 394
  | .vmem => 161
  | .smem => 0
  | _ => 0

abbrev hbmTy0_0 (i : Nat) : BufTy := match i % 128 with
  | 0 => ⟨S262144x1, .f32⟩
  | 1 => ⟨S1310720x1, .f32⟩
  | 2 => ⟨S1310720, .i32⟩
  | 3 => ⟨S1310720, .i32⟩
  | 4 => ⟨S655360x2, .i32⟩
  | 5 => ⟨S262144x1, .f32⟩
  | 6 => ⟨S1310720x1, .f32⟩
  | 7 => ⟨S1310720, .i32⟩
  | 8 => ⟨S1310720, .i32⟩
  | 9 => ⟨S1x16, .f32⟩
  | 10 => ⟨S16, .f32⟩
  | 11 => ⟨S16x16, .f32⟩
  | 12 => ⟨S16, .f32⟩
  | 13 => ⟨S1x16, .f32⟩
  | 14 => ⟨S16, .f32⟩
  | 15 => ⟨S16x16, .f32⟩
  | 16 => ⟨S16, .f32⟩
  | 17 => ⟨S48x16, .f32⟩
  | 18 => ⟨S16, .f32⟩
  | 19 => ⟨S16x16, .f32⟩
  | 20 => ⟨S16, .f32⟩
  | 21 => ⟨S32x16, .f32⟩
  | 22 => ⟨S16, .f32⟩
  | 23 => ⟨S16x16, .f32⟩
  | 24 => ⟨S16, .f32⟩
  | 25 => ⟨S16x16, .f32⟩
  | 26 => ⟨S16, .f32⟩
  | 27 => ⟨S16x1, .f32⟩
  | 28 => ⟨S1, .f32⟩
  | 29 => ⟨S_, .f32⟩
  | 30 => ⟨S10240x128, .f32⟩
  | 31 => ⟨S1x1, .f32⟩
  | 32 => ⟨S1x16, .f32⟩
  | 33 => ⟨S1x16, .f32⟩
  | 34 => ⟨S262144x16, .f32⟩
  | 35 => ⟨S1x16, .f32⟩
  | 36 => ⟨S1x16, .f32⟩
  | 37 => ⟨S1310720x16, .f32⟩
  | 38 => ⟨S1310720x1, .i32⟩
  | 39 => ⟨S1310720x1, .i32⟩
  | 40 => ⟨S_, .i32⟩
  | 41 => ⟨S1310720, .i32⟩
  | 42 => ⟨S1310720, .i1⟩
  | 43 => ⟨S_, .i32⟩
  | 44 => ⟨S1310720, .i32⟩
  | 45 => ⟨S1310720, .i32⟩
  | 46 => ⟨S1310720, .i32⟩
  | 47 => ⟨S1310720x1, .i32⟩
  | 48 => ⟨S1, .i32⟩
  | 49 => ⟨S_, .i32⟩
  | 50 => ⟨S1310720x1, .i32⟩
  | 51 => ⟨S1310720x1, .i1⟩
  | 52 => ⟨S1x1, .i32⟩
  | 53 => ⟨S1310720x1, .i32⟩
  | 54 => ⟨S1310720x1, .i1⟩
  | 55 => ⟨S1310720x1, .i1⟩
  | 56 => ⟨S_, .i1⟩
  | 57 => ⟨S1310720, .i1⟩
  | 58 => ⟨S1310720x16, .f32⟩
  | 59 => ⟨S1310720x16, .i1⟩
  | 60 => ⟨S_, .f32⟩
  | 61 => ⟨S1310720x16, .f32⟩
  | 62 => ⟨S1310720x16, .f32⟩
  | 63 => ⟨S_, .i32⟩
  | 64 => ⟨S1310720, .i32⟩
  | 65 => ⟨S1310720, .i1⟩
  | 66 => ⟨S_, .i32⟩
  | 67 => ⟨S1310720, .i32⟩
  | 68 => ⟨S1310720, .i32⟩
  | 69 => ⟨S1310720, .i32⟩
  | 70 => ⟨S1310720x1, .i32⟩
  | 71 => ⟨S1, .i32⟩
  | 72 => ⟨S_, .i32⟩
  | 73 => ⟨S1310720x1, .i32⟩
  | 74 => ⟨S1310720x1, .i1⟩
  | 75 => ⟨S1x1, .i32⟩
  | 76 => ⟨S1310720x1, .i32⟩
  | 77 => ⟨S1310720x1, .i1⟩
  | 78 => ⟨S1310720x1, .i1⟩
  | 79 => ⟨S_, .i1⟩
  | 80 => ⟨S1310720, .i1⟩
  | 81 => ⟨S1310720x16, .f32⟩
  | 82 => ⟨S1310720x16, .i1⟩
  | 83 => ⟨S_, .f32⟩
  | 84 => ⟨S1310720x16, .f32⟩
  | 85 => ⟨S1310720x16, .f32⟩
  | 86 => ⟨S16x16, .f32⟩
  | 87 => ⟨S16x16, .f32⟩
  | 88 => ⟨S16x16, .f32⟩
  | 89 => ⟨S1x16, .f32⟩
  | 90 => ⟨S1x16, .f32⟩
  | 91 => ⟨S1310720x16, .f32⟩
  | 92 => ⟨S_, .f32⟩
  | 93 => ⟨S262144x16, .f32⟩
  | 94 => ⟨S1310720x1, .i32⟩
  | 95 => ⟨S262144x16, .f32⟩
  | 96 => ⟨S16x16, .f32⟩
  | 97 => ⟨S16x16, .f32⟩
  | 98 => ⟨S1x16, .f32⟩
  | 99 => ⟨S1x16, .f32⟩
  | 100 => ⟨S262144x16, .f32⟩
  | 101 => ⟨S_, .i32⟩
  | 102 => ⟨S1310720, .i32⟩
  | 103 => ⟨S1310720, .i1⟩
  | 104 => ⟨S_, .i32⟩
  | 105 => ⟨S1310720, .i32⟩
  | 106 => ⟨S1310720, .i32⟩
  | 107 => ⟨S1310720, .i32⟩
  | 108 => ⟨S1310720x1, .i32⟩
  | 109 => ⟨S1, .i32⟩
  | 110 => ⟨S_, .i32⟩
  | 111 => ⟨S1310720x1, .i32⟩
  | 112 => ⟨S1310720x1, .i1⟩
  | 113 => ⟨S1x1, .i32⟩
  | 114 => ⟨S1310720x1, .i32⟩
  | 115 => ⟨S1310720x1, .i1⟩
  | 116 => ⟨S1310720x1, .i1⟩
  | 117 => ⟨S_, .i1⟩
  | 118 => ⟨S1310720, .i1⟩
  | 119 => ⟨S1310720x16, .f32⟩
  | 120 => ⟨S1310720x16, .i1⟩
  | 121 => ⟨S_, .f32⟩
  | 122 => ⟨S1310720x16, .f32⟩
  | 123 => ⟨S1310720x16, .f32⟩
  | 124 => ⟨S_, .i32⟩
  | 125 => ⟨S1310720, .i32⟩
  | 126 => ⟨S1310720, .i1⟩
  | 127 => ⟨S_, .i32⟩
  | _ => ⟨S262144x1, .f32⟩

abbrev hbmTy0_1 (i : Nat) : BufTy := match i % 128 with
  | 0 => ⟨S1310720, .i32⟩
  | 1 => ⟨S1310720, .i32⟩
  | 2 => ⟨S1310720, .i32⟩
  | 3 => ⟨S1310720x1, .i32⟩
  | 4 => ⟨S1, .i32⟩
  | 5 => ⟨S_, .i32⟩
  | 6 => ⟨S1310720x1, .i32⟩
  | 7 => ⟨S1310720x1, .i1⟩
  | 8 => ⟨S1x1, .i32⟩
  | 9 => ⟨S1310720x1, .i32⟩
  | 10 => ⟨S1310720x1, .i1⟩
  | 11 => ⟨S1310720x1, .i1⟩
  | 12 => ⟨S_, .i1⟩
  | 13 => ⟨S1310720, .i1⟩
  | 14 => ⟨S1310720x16, .f32⟩
  | 15 => ⟨S1310720x16, .i1⟩
  | 16 => ⟨S_, .f32⟩
  | 17 => ⟨S1310720x16, .f32⟩
  | 18 => ⟨S1310720x16, .f32⟩
  | 19 => ⟨S16x16, .f32⟩
  | 20 => ⟨S16x16, .f32⟩
  | 21 => ⟨S16x16, .f32⟩
  | 22 => ⟨S1x16, .f32⟩
  | 23 => ⟨S1x16, .f32⟩
  | 24 => ⟨S1310720x16, .f32⟩
  | 25 => ⟨S_, .f32⟩
  | 26 => ⟨S262144x16, .f32⟩
  | 27 => ⟨S1310720x1, .i32⟩
  | 28 => ⟨S262144x16, .f32⟩
  | 29 => ⟨S16x16, .f32⟩
  | 30 => ⟨S16x16, .f32⟩
  | 31 => ⟨S1x16, .f32⟩
  | 32 => ⟨S1x16, .f32⟩
  | 33 => ⟨S262144x16, .f32⟩
  | 34 => ⟨S_, .i32⟩
  | 35 => ⟨S1310720, .i32⟩
  | 36 => ⟨S1310720, .i1⟩
  | 37 => ⟨S_, .i32⟩
  | 38 => ⟨S1310720, .i32⟩
  | 39 => ⟨S1310720, .i32⟩
  | 40 => ⟨S1310720, .i32⟩
  | 41 => ⟨S1310720x1, .i32⟩
  | 42 => ⟨S1, .i32⟩
  | 43 => ⟨S_, .i32⟩
  | 44 => ⟨S1310720x1, .i32⟩
  | 45 => ⟨S1310720x1, .i1⟩
  | 46 => ⟨S1x1, .i32⟩
  | 47 => ⟨S1310720x1, .i32⟩
  | 48 => ⟨S1310720x1, .i1⟩
  | 49 => ⟨S1310720x1, .i1⟩
  | 50 => ⟨S_, .i1⟩
  | 51 => ⟨S1310720, .i1⟩
  | 52 => ⟨S1310720x16, .f32⟩
  | 53 => ⟨S1310720x16, .i1⟩
  | 54 => ⟨S_, .f32⟩
  | 55 => ⟨S1310720x16, .f32⟩
  | 56 => ⟨S1310720x16, .f32⟩
  | 57 => ⟨S_, .i32⟩
  | 58 => ⟨S1310720, .i32⟩
  | 59 => ⟨S1310720, .i1⟩
  | 60 => ⟨S_, .i32⟩
  | 61 => ⟨S1310720, .i32⟩
  | 62 => ⟨S1310720, .i32⟩
  | 63 => ⟨S1310720, .i32⟩
  | 64 => ⟨S1310720x1, .i32⟩
  | 65 => ⟨S1, .i32⟩
  | 66 => ⟨S_, .i32⟩
  | 67 => ⟨S1310720x1, .i32⟩
  | 68 => ⟨S1310720x1, .i1⟩
  | 69 => ⟨S1x1, .i32⟩
  | 70 => ⟨S1310720x1, .i32⟩
  | 71 => ⟨S1310720x1, .i1⟩
  | 72 => ⟨S1310720x1, .i1⟩
  | 73 => ⟨S_, .i1⟩
  | 74 => ⟨S1310720, .i1⟩
  | 75 => ⟨S1310720x16, .f32⟩
  | 76 => ⟨S1310720x16, .i1⟩
  | 77 => ⟨S_, .f32⟩
  | 78 => ⟨S1310720x16, .f32⟩
  | 79 => ⟨S1310720x16, .f32⟩
  | 80 => ⟨S16x16, .f32⟩
  | 81 => ⟨S16x16, .f32⟩
  | 82 => ⟨S16x16, .f32⟩
  | 83 => ⟨S1x16, .f32⟩
  | 84 => ⟨S1x16, .f32⟩
  | 85 => ⟨S1310720x16, .f32⟩
  | 86 => ⟨S_, .f32⟩
  | 87 => ⟨S262144x16, .f32⟩
  | 88 => ⟨S1310720x1, .i32⟩
  | 89 => ⟨S262144x16, .f32⟩
  | 90 => ⟨S16x16, .f32⟩
  | 91 => ⟨S16x16, .f32⟩
  | 92 => ⟨S1x16, .f32⟩
  | 93 => ⟨S1x16, .f32⟩
  | 94 => ⟨S262144x16, .f32⟩
  | 95 => ⟨S_, .i32⟩
  | 96 => ⟨S1310720, .i32⟩
  | 97 => ⟨S1310720, .i1⟩
  | 98 => ⟨S_, .i32⟩
  | 99 => ⟨S1310720, .i32⟩
  | 100 => ⟨S1310720, .i32⟩
  | 101 => ⟨S1310720, .i32⟩
  | 102 => ⟨S1310720x1, .i32⟩
  | 103 => ⟨S1, .i32⟩
  | 104 => ⟨S_, .i32⟩
  | 105 => ⟨S1310720x1, .i32⟩
  | 106 => ⟨S1310720x1, .i1⟩
  | 107 => ⟨S1x1, .i32⟩
  | 108 => ⟨S1310720x1, .i32⟩
  | 109 => ⟨S1310720x1, .i1⟩
  | 110 => ⟨S1310720x1, .i1⟩
  | 111 => ⟨S_, .i1⟩
  | 112 => ⟨S1310720, .i1⟩
  | 113 => ⟨S1310720x16, .f32⟩
  | 114 => ⟨S1310720x16, .i1⟩
  | 115 => ⟨S_, .f32⟩
  | 116 => ⟨S1310720x16, .f32⟩
  | 117 => ⟨S1310720x16, .f32⟩
  | 118 => ⟨S_, .i32⟩
  | 119 => ⟨S1310720, .i32⟩
  | 120 => ⟨S1310720, .i1⟩
  | 121 => ⟨S_, .i32⟩
  | 122 => ⟨S1310720, .i32⟩
  | 123 => ⟨S1310720, .i32⟩
  | 124 => ⟨S1310720, .i32⟩
  | 125 => ⟨S1310720x1, .i32⟩
  | 126 => ⟨S1, .i32⟩
  | 127 => ⟨S_, .i32⟩
  | _ => ⟨S262144x1, .f32⟩

abbrev hbmTy0_2 (i : Nat) : BufTy := match i % 128 with
  | 0 => ⟨S1310720x1, .i32⟩
  | 1 => ⟨S1310720x1, .i1⟩
  | 2 => ⟨S1x1, .i32⟩
  | 3 => ⟨S1310720x1, .i32⟩
  | 4 => ⟨S1310720x1, .i1⟩
  | 5 => ⟨S1310720x1, .i1⟩
  | 6 => ⟨S_, .i1⟩
  | 7 => ⟨S1310720, .i1⟩
  | 8 => ⟨S1310720x16, .f32⟩
  | 9 => ⟨S1310720x16, .i1⟩
  | 10 => ⟨S_, .f32⟩
  | 11 => ⟨S1310720x16, .f32⟩
  | 12 => ⟨S1310720x16, .f32⟩
  | 13 => ⟨S16x16, .f32⟩
  | 14 => ⟨S16x16, .f32⟩
  | 15 => ⟨S16x16, .f32⟩
  | 16 => ⟨S1x16, .f32⟩
  | 17 => ⟨S1x16, .f32⟩
  | 18 => ⟨S1310720x16, .f32⟩
  | 19 => ⟨S_, .f32⟩
  | 20 => ⟨S262144x16, .f32⟩
  | 21 => ⟨S1310720x1, .i32⟩
  | 22 => ⟨S262144x16, .f32⟩
  | 23 => ⟨S16x16, .f32⟩
  | 24 => ⟨S16x16, .f32⟩
  | 25 => ⟨S1x16, .f32⟩
  | 26 => ⟨S1x16, .f32⟩
  | 27 => ⟨S262144x16, .f32⟩
  | 28 => ⟨S_, .i32⟩
  | 29 => ⟨S1310720, .i32⟩
  | 30 => ⟨S1310720, .i1⟩
  | 31 => ⟨S_, .i32⟩
  | 32 => ⟨S1310720, .i32⟩
  | 33 => ⟨S1310720, .i32⟩
  | 34 => ⟨S1310720, .i32⟩
  | 35 => ⟨S1310720x1, .i32⟩
  | 36 => ⟨S1, .i32⟩
  | 37 => ⟨S_, .i32⟩
  | 38 => ⟨S1310720x1, .i32⟩
  | 39 => ⟨S1310720x1, .i1⟩
  | 40 => ⟨S1x1, .i32⟩
  | 41 => ⟨S1310720x1, .i32⟩
  | 42 => ⟨S1310720x1, .i1⟩
  | 43 => ⟨S1310720x1, .i1⟩
  | 44 => ⟨S_, .i1⟩
  | 45 => ⟨S1310720, .i1⟩
  | 46 => ⟨S1310720x16, .f32⟩
  | 47 => ⟨S1310720x16, .i1⟩
  | 48 => ⟨S_, .f32⟩
  | 49 => ⟨S1310720x16, .f32⟩
  | 50 => ⟨S1310720x16, .f32⟩
  | 51 => ⟨S_, .i32⟩
  | 52 => ⟨S1310720, .i32⟩
  | 53 => ⟨S1310720, .i1⟩
  | 54 => ⟨S_, .i32⟩
  | 55 => ⟨S1310720, .i32⟩
  | 56 => ⟨S1310720, .i32⟩
  | 57 => ⟨S1310720, .i32⟩
  | 58 => ⟨S1310720x1, .i32⟩
  | 59 => ⟨S1, .i32⟩
  | 60 => ⟨S_, .i32⟩
  | 61 => ⟨S1310720x1, .i32⟩
  | 62 => ⟨S1310720x1, .i1⟩
  | 63 => ⟨S1x1, .i32⟩
  | 64 => ⟨S1310720x1, .i32⟩
  | 65 => ⟨S1310720x1, .i1⟩
  | 66 => ⟨S1310720x1, .i1⟩
  | 67 => ⟨S_, .i1⟩
  | 68 => ⟨S1310720, .i1⟩
  | 69 => ⟨S1310720x16, .f32⟩
  | 70 => ⟨S1310720x16, .i1⟩
  | 71 => ⟨S_, .f32⟩
  | 72 => ⟨S1310720x16, .f32⟩
  | 73 => ⟨S1310720x16, .f32⟩
  | 74 => ⟨S16x16, .f32⟩
  | 75 => ⟨S16x16, .f32⟩
  | 76 => ⟨S16x16, .f32⟩
  | 77 => ⟨S1x16, .f32⟩
  | 78 => ⟨S1x16, .f32⟩
  | 79 => ⟨S1310720x16, .f32⟩
  | 80 => ⟨S_, .f32⟩
  | 81 => ⟨S262144x16, .f32⟩
  | 82 => ⟨S1310720x1, .i32⟩
  | 83 => ⟨S262144x16, .f32⟩
  | 84 => ⟨S16x16, .f32⟩
  | 85 => ⟨S16x16, .f32⟩
  | 86 => ⟨S1x16, .f32⟩
  | 87 => ⟨S1x16, .f32⟩
  | 88 => ⟨S262144x16, .f32⟩
  | 89 => ⟨S655360x1, .i32⟩
  | 90 => ⟨S655360, .i32⟩
  | 91 => ⟨S655360x1, .i32⟩
  | 92 => ⟨S655360, .i32⟩
  | 93 => ⟨S_, .i32⟩
  | 94 => ⟨S655360, .i32⟩
  | 95 => ⟨S655360, .i1⟩
  | 96 => ⟨S_, .i32⟩
  | 97 => ⟨S655360, .i32⟩
  | 98 => ⟨S655360, .i32⟩
  | 99 => ⟨S655360, .i32⟩
  | 100 => ⟨S655360x1, .i32⟩
  | 101 => ⟨S655360x16, .f32⟩
  | 102 => ⟨S_, .i32⟩
  | 103 => ⟨S655360, .i32⟩
  | 104 => ⟨S655360, .i1⟩
  | 105 => ⟨S_, .i32⟩
  | 106 => ⟨S655360, .i32⟩
  | 107 => ⟨S655360, .i32⟩
  | 108 => ⟨S655360, .i32⟩
  | 109 => ⟨S655360x1, .i32⟩
  | 110 => ⟨S655360x16, .f32⟩
  | 111 => ⟨S655360x16, .f32⟩
  | 112 => ⟨S_, .f32⟩
  | 113 => ⟨S655360x16, .f32⟩
  | 114 => ⟨S655360x16, .f32⟩
  | 115 => ⟨S_, .i32⟩
  | 116 => ⟨S655360, .i32⟩
  | 117 => ⟨S655360, .i1⟩
  | 118 => ⟨S_, .i32⟩
  | 119 => ⟨S655360, .i32⟩
  | 120 => ⟨S655360, .i32⟩
  | 121 => ⟨S655360, .i32⟩
  | 122 => ⟨S655360x1, .i32⟩
  | 123 => ⟨S1310720x16, .f32⟩
  | 124 => ⟨S_, .i32⟩
  | 125 => ⟨S655360, .i32⟩
  | 126 => ⟨S655360, .i1⟩
  | 127 => ⟨S_, .i32⟩
  | _ => ⟨S262144x1, .f32⟩

abbrev hbmTy0_3 (i : Nat) : BufTy := match i % 128 with
  | 0 => ⟨S655360, .i32⟩
  | 1 => ⟨S655360, .i32⟩
  | 2 => ⟨S655360, .i32⟩
  | 3 => ⟨S655360x1, .i32⟩
  | 4 => ⟨S1310720x16, .f32⟩
  | 5 => ⟨S1x1, .f32⟩
  | 6 => ⟨S1x16, .f32⟩
  | 7 => ⟨S1x1, .f32⟩
  | 8 => ⟨S1310720x1, .f32⟩
  | 9 => ⟨S1310720, .f32⟩
  | _ => ⟨S262144x1, .f32⟩

abbrev hbmTy (i : Nat) : BufTy := match i / 128 with
  | 0 => hbmTy0_0 i
  | 1 => hbmTy0_1 i
  | 2 => hbmTy0_2 i
  | 3 => hbmTy0_3 i
  | _ => ⟨S262144x1, .f32⟩

abbrev vmemTy0_0 (i : Nat) : BufTy := match i % 128 with
  | 0 => ⟨S32x128, .f32⟩
  | 1 => ⟨S32x128, .f32⟩
  | 2 => ⟨S1x1, .f32⟩
  | 3 => ⟨S4096x1, .f32⟩
  | 4 => ⟨S4096x1, .f32⟩
  | 5 => ⟨S1x16, .f32⟩
  | 6 => ⟨S1x16, .f32⟩
  | 7 => ⟨S16x16, .f32⟩
  | 8 => ⟨S1x16, .f32⟩
  | 9 => ⟨S4096x16, .f32⟩
  | 10 => ⟨S4096x16, .f32⟩
  | 11 => ⟨S4096x1, .f32⟩
  | 12 => ⟨S4096x1, .f32⟩
  | 13 => ⟨S1x1, .f32⟩
  | 14 => ⟨S1x16, .f32⟩
  | 15 => ⟨S1x16, .f32⟩
  | 16 => ⟨S16x16, .f32⟩
  | 17 => ⟨S1x16, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S4096x16, .f32⟩
  | 25 => ⟨S4096x16, .f32⟩
  | 26 => ⟨S16x16, .f32⟩
  | 27 => ⟨S16x16, .f32⟩
  | 28 => ⟨S16x16, .f32⟩
  | 29 => ⟨S1x16, .f32⟩
  | 30 => ⟨S16x16, .f32⟩
  | 31 => ⟨S1x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S4096x16, .f32⟩
  | 38 => ⟨S16x16, .f32⟩
  | 39 => ⟨S16x16, .f32⟩
  | 40 => ⟨S1x16, .f32⟩
  | 41 => ⟨S16x16, .f32⟩
  | 42 => ⟨S1x16, .f32⟩
  | 43 => ⟨S4096x16, .f32⟩
  | 44 => ⟨S4096x16, .f32⟩
  | 45 => ⟨S4096x16, .f32⟩
  | 46 => ⟨S4096x16, .f32⟩
  | 47 => ⟨S4096x16, .f32⟩
  | 48 => ⟨S4096x16, .f32⟩
  | 49 => ⟨S4096x16, .f32⟩
  | 50 => ⟨S4096x16, .f32⟩
  | 51 => ⟨S16x16, .f32⟩
  | 52 => ⟨S16x16, .f32⟩
  | 53 => ⟨S16x16, .f32⟩
  | 54 => ⟨S1x16, .f32⟩
  | 55 => ⟨S16x16, .f32⟩
  | 56 => ⟨S1x16, .f32⟩
  | 57 => ⟨S4096x16, .f32⟩
  | 58 => ⟨S4096x16, .f32⟩
  | 59 => ⟨S4096x16, .f32⟩
  | 60 => ⟨S4096x16, .f32⟩
  | 61 => ⟨S4096x16, .f32⟩
  | 62 => ⟨S4096x16, .f32⟩
  | 63 => ⟨S16x16, .f32⟩
  | 64 => ⟨S16x16, .f32⟩
  | 65 => ⟨S1x16, .f32⟩
  | 66 => ⟨S16x16, .f32⟩
  | 67 => ⟨S1x16, .f32⟩
  | 68 => ⟨S4096x16, .f32⟩
  | 69 => ⟨S4096x16, .f32⟩
  | 70 => ⟨S4096x16, .f32⟩
  | 71 => ⟨S4096x16, .f32⟩
  | 72 => ⟨S4096x16, .f32⟩
  | 73 => ⟨S4096x16, .f32⟩
  | 74 => ⟨S4096x16, .f32⟩
  | 75 => ⟨S4096x16, .f32⟩
  | 76 => ⟨S16x16, .f32⟩
  | 77 => ⟨S16x16, .f32⟩
  | 78 => ⟨S16x16, .f32⟩
  | 79 => ⟨S1x16, .f32⟩
  | 80 => ⟨S16x16, .f32⟩
  | 81 => ⟨S1x16, .f32⟩
  | 82 => ⟨S4096x16, .f32⟩
  | 83 => ⟨S4096x16, .f32⟩
  | 84 => ⟨S4096x16, .f32⟩
  | 85 => ⟨S4096x16, .f32⟩
  | 86 => ⟨S4096x16, .f32⟩
  | 87 => ⟨S4096x16, .f32⟩
  | 88 => ⟨S16x16, .f32⟩
  | 89 => ⟨S16x16, .f32⟩
  | 90 => ⟨S1x16, .f32⟩
  | 91 => ⟨S16x16, .f32⟩
  | 92 => ⟨S1x16, .f32⟩
  | 93 => ⟨S4096x16, .f32⟩
  | 94 => ⟨S4096x16, .f32⟩
  | 95 => ⟨S4096x16, .f32⟩
  | 96 => ⟨S4096x16, .f32⟩
  | 97 => ⟨S4096x16, .f32⟩
  | 98 => ⟨S4096x16, .f32⟩
  | 99 => ⟨S4096x16, .f32⟩
  | 100 => ⟨S4096x16, .f32⟩
  | 101 => ⟨S16x16, .f32⟩
  | 102 => ⟨S16x16, .f32⟩
  | 103 => ⟨S16x16, .f32⟩
  | 104 => ⟨S1x16, .f32⟩
  | 105 => ⟨S16x16, .f32⟩
  | 106 => ⟨S1x16, .f32⟩
  | 107 => ⟨S4096x16, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S16x16, .f32⟩
  | 114 => ⟨S16x16, .f32⟩
  | 115 => ⟨S1x16, .f32⟩
  | 116 => ⟨S16x16, .f32⟩
  | 117 => ⟨S1x16, .f32⟩
  | 118 => ⟨S4096x16, .f32⟩
  | 119 => ⟨S4096x16, .f32⟩
  | 120 => ⟨S4096x16, .f32⟩
  | 121 => ⟨S4096x16, .f32⟩
  | 122 => ⟨S4096x16, .f32⟩
  | 123 => ⟨S4096x16, .f32⟩
  | 124 => ⟨S4096x16, .f32⟩
  | 125 => ⟨S4096x16, .f32⟩
  | 126 => ⟨S16x16, .f32⟩
  | 127 => ⟨S16x16, .f32⟩
  | _ => ⟨S262144x1, .f32⟩

abbrev vmemTy0_1 (i : Nat) : BufTy := match i % 128 with
  | 0 => ⟨S16x16, .f32⟩
  | 1 => ⟨S1x16, .f32⟩
  | 2 => ⟨S16x16, .f32⟩
  | 3 => ⟨S1x16, .f32⟩
  | 4 => ⟨S4096x16, .f32⟩
  | 5 => ⟨S4096x16, .f32⟩
  | 6 => ⟨S4096x16, .f32⟩
  | 7 => ⟨S4096x16, .f32⟩
  | 8 => ⟨S4096x16, .f32⟩
  | 9 => ⟨S4096x16, .f32⟩
  | 10 => ⟨S16x16, .f32⟩
  | 11 => ⟨S16x16, .f32⟩
  | 12 => ⟨S1x16, .f32⟩
  | 13 => ⟨S16x16, .f32⟩
  | 14 => ⟨S1x16, .f32⟩
  | 15 => ⟨S4096x16, .f32⟩
  | 16 => ⟨S4096x16, .f32⟩
  | 17 => ⟨S4096x16, .f32⟩
  | 18 => ⟨S4096x16, .f32⟩
  | 19 => ⟨S4096x1, .f32⟩
  | 20 => ⟨S4096x1, .f32⟩
  | 21 => ⟨S4096x1, .i32⟩
  | 22 => ⟨S4096x1, .i32⟩
  | 23 => ⟨S4096x1, .i32⟩
  | 24 => ⟨S4096x1, .i32⟩
  | 25 => ⟨S1x1, .f32⟩
  | 26 => ⟨S1x1, .f32⟩
  | 27 => ⟨S16x16, .f32⟩
  | 28 => ⟨S1x16, .f32⟩
  | 29 => ⟨S16x1, .f32⟩
  | 30 => ⟨S1x1, .f32⟩
  | 31 => ⟨S4096x1, .f32⟩
  | 32 => ⟨S4096x1, .f32⟩
  | _ => ⟨S262144x1, .f32⟩

abbrev vmemTy (i : Nat) : BufTy := match i / 128 with
  | 0 => vmemTy0_0 i
  | 1 => vmemTy0_1 i
  | _ => ⟨S262144x1, .f32⟩

abbrev bufTy : (tb : Table) → Fin (tcTables nBuf tb) → BufTy
  | .hbm, ⟨i, _⟩ => hbmTy i
  | .local _ .vmem, ⟨i, _⟩ => vmemTy i
  | _, _ => ⟨S262144x1, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 161 → Bool
  | ⟨i, _⟩ => dmaSemScopedAt i

abbrev sig : RefSig :=
  ofTc nBuf bufTy 0 161 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v10 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_cst : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v26 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v27 : Ref sig .tc := ⟨.hbm, 146, rfl⟩
abbrev main_v28 : Ref sig .tc := ⟨.hbm, 147, rfl⟩
abbrev main_v29 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_cst_0 : Ref sig .tc := ⟨.hbm, 153, rfl⟩
abbrev main_v34 : Ref sig .tc := ⟨.hbm, 154, rfl⟩
abbrev main_v35 : Ref sig .tc := ⟨.hbm, 155, rfl⟩
abbrev main_v36 : Ref sig .tc := ⟨.hbm, 156, rfl⟩
abbrev main_v37 : Ref sig .tc := ⟨.hbm, 157, rfl⟩
abbrev main_v38 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_call4_c : Ref sig .tc := ⟨.hbm, 162, rfl⟩
abbrev main_call4_v0 : Ref sig .tc := ⟨.hbm, 163, rfl⟩
abbrev main_call4_v1 : Ref sig .tc := ⟨.hbm, 164, rfl⟩
abbrev main_call4_c_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_c_1 : Ref sig .tc := ⟨.hbm, 170, rfl⟩
abbrev main_call4_c_2 : Ref sig .tc := ⟨.hbm, 171, rfl⟩
abbrev main_call4_v6 : Ref sig .tc := ⟨.hbm, 172, rfl⟩
abbrev main_call4_v7 : Ref sig .tc := ⟨.hbm, 173, rfl⟩
abbrev main_call4_v8 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_c_3 : Ref sig .tc := ⟨.hbm, 178, rfl⟩
abbrev main_call4_v12 : Ref sig .tc := ⟨.hbm, 179, rfl⟩
abbrev main_call4_v13 : Ref sig .tc := ⟨.hbm, 180, rfl⟩
abbrev main_call4_v14 : Ref sig .tc := ⟨.hbm, 181, rfl⟩
abbrev main_call4_cst : Ref sig .tc := ⟨.hbm, 182, rfl⟩
abbrev main_call4_v15 : Ref sig .tc := ⟨.hbm, 183, rfl⟩
abbrev main_v42 : Ref sig .tc := ⟨.hbm, 184, rfl⟩
abbrev main_call5_c : Ref sig .tc := ⟨.hbm, 185, rfl⟩
abbrev main_call5_v0 : Ref sig .tc := ⟨.hbm, 186, rfl⟩
abbrev main_call5_v1 : Ref sig .tc := ⟨.hbm, 187, rfl⟩
abbrev main_call5_c_0 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_call5_v5 : Ref sig .tc := ⟨.hbm, 192, rfl⟩
abbrev main_call5_c_1 : Ref sig .tc := ⟨.hbm, 193, rfl⟩
abbrev main_call5_c_2 : Ref sig .tc := ⟨.hbm, 194, rfl⟩
abbrev main_call5_v6 : Ref sig .tc := ⟨.hbm, 195, rfl⟩
abbrev main_call5_v7 : Ref sig .tc := ⟨.hbm, 196, rfl⟩
abbrev main_call5_v8 : Ref sig .tc := ⟨.hbm, 197, rfl⟩
abbrev main_call5_v9 : Ref sig .tc := ⟨.hbm, 198, rfl⟩
abbrev main_call5_v10 : Ref sig .tc := ⟨.hbm, 199, rfl⟩
abbrev main_call5_v11 : Ref sig .tc := ⟨.hbm, 200, rfl⟩
abbrev main_call5_c_3 : Ref sig .tc := ⟨.hbm, 201, rfl⟩
abbrev main_call5_v12 : Ref sig .tc := ⟨.hbm, 202, rfl⟩
abbrev main_call5_v13 : Ref sig .tc := ⟨.hbm, 203, rfl⟩
abbrev main_call5_v14 : Ref sig .tc := ⟨.hbm, 204, rfl⟩
abbrev main_call5_cst : Ref sig .tc := ⟨.hbm, 205, rfl⟩
abbrev main_call5_v15 : Ref sig .tc := ⟨.hbm, 206, rfl⟩
abbrev main_v43 : Ref sig .tc := ⟨.hbm, 207, rfl⟩
abbrev main_v44 : Ref sig .tc := ⟨.hbm, 208, rfl⟩
abbrev main_v45 : Ref sig .tc := ⟨.hbm, 209, rfl⟩
abbrev main_v46 : Ref sig .tc := ⟨.hbm, 210, rfl⟩
abbrev main_v47 : Ref sig .tc := ⟨.hbm, 211, rfl⟩
abbrev main_v48 : Ref sig .tc := ⟨.hbm, 212, rfl⟩
abbrev main_v49 : Ref sig .tc := ⟨.hbm, 213, rfl⟩
abbrev main_cst_1 : Ref sig .tc := ⟨.hbm, 214, rfl⟩
abbrev main_v50 : Ref sig .tc := ⟨.hbm, 215, rfl⟩
abbrev main_v51 : Ref sig .tc := ⟨.hbm, 216, rfl⟩
abbrev main_v52 : Ref sig .tc := ⟨.hbm, 217, rfl⟩
abbrev main_v53 : Ref sig .tc := ⟨.hbm, 218, rfl⟩
abbrev main_v54 : Ref sig .tc := ⟨.hbm, 219, rfl⟩
abbrev main_v55 : Ref sig .tc := ⟨.hbm, 220, rfl⟩
abbrev main_v56 : Ref sig .tc := ⟨.hbm, 221, rfl⟩
abbrev main_v57 : Ref sig .tc := ⟨.hbm, 222, rfl⟩
abbrev main_call6_c : Ref sig .tc := ⟨.hbm, 223, rfl⟩
abbrev main_call6_v0 : Ref sig .tc := ⟨.hbm, 224, rfl⟩
abbrev main_call6_v1 : Ref sig .tc := ⟨.hbm, 225, rfl⟩
abbrev main_call6_c_0 : Ref sig .tc := ⟨.hbm, 226, rfl⟩
abbrev main_call6_v2 : Ref sig .tc := ⟨.hbm, 227, rfl⟩
abbrev main_call6_v3 : Ref sig .tc := ⟨.hbm, 228, rfl⟩
abbrev main_call6_v4 : Ref sig .tc := ⟨.hbm, 229, rfl⟩
abbrev main_call6_v5 : Ref sig .tc := ⟨.hbm, 230, rfl⟩
abbrev main_call6_c_1 : Ref sig .tc := ⟨.hbm, 231, rfl⟩
abbrev main_call6_c_2 : Ref sig .tc := ⟨.hbm, 232, rfl⟩
abbrev main_call6_v6 : Ref sig .tc := ⟨.hbm, 233, rfl⟩
abbrev main_call6_v7 : Ref sig .tc := ⟨.hbm, 234, rfl⟩
abbrev main_call6_v8 : Ref sig .tc := ⟨.hbm, 235, rfl⟩
abbrev main_call6_v9 : Ref sig .tc := ⟨.hbm, 236, rfl⟩
abbrev main_call6_v10 : Ref sig .tc := ⟨.hbm, 237, rfl⟩
abbrev main_call6_v11 : Ref sig .tc := ⟨.hbm, 238, rfl⟩
abbrev main_call6_c_3 : Ref sig .tc := ⟨.hbm, 239, rfl⟩
abbrev main_call6_v12 : Ref sig .tc := ⟨.hbm, 240, rfl⟩
abbrev main_call6_v13 : Ref sig .tc := ⟨.hbm, 241, rfl⟩
abbrev main_call6_v14 : Ref sig .tc := ⟨.hbm, 242, rfl⟩
abbrev main_call6_cst : Ref sig .tc := ⟨.hbm, 243, rfl⟩
abbrev main_call6_v15 : Ref sig .tc := ⟨.hbm, 244, rfl⟩
abbrev main_v58 : Ref sig .tc := ⟨.hbm, 245, rfl⟩
abbrev main_call7_c : Ref sig .tc := ⟨.hbm, 246, rfl⟩
abbrev main_call7_v0 : Ref sig .tc := ⟨.hbm, 247, rfl⟩
abbrev main_call7_v1 : Ref sig .tc := ⟨.hbm, 248, rfl⟩
abbrev main_call7_c_0 : Ref sig .tc := ⟨.hbm, 249, rfl⟩
abbrev main_call7_v2 : Ref sig .tc := ⟨.hbm, 250, rfl⟩
abbrev main_call7_v3 : Ref sig .tc := ⟨.hbm, 251, rfl⟩
abbrev main_call7_v4 : Ref sig .tc := ⟨.hbm, 252, rfl⟩
abbrev main_call7_v5 : Ref sig .tc := ⟨.hbm, 253, rfl⟩
abbrev main_call7_c_1 : Ref sig .tc := ⟨.hbm, 254, rfl⟩
abbrev main_call7_c_2 : Ref sig .tc := ⟨.hbm, 255, rfl⟩
abbrev main_call7_v6 : Ref sig .tc := ⟨.hbm, 256, rfl⟩
abbrev main_call7_v7 : Ref sig .tc := ⟨.hbm, 257, rfl⟩
abbrev main_call7_v8 : Ref sig .tc := ⟨.hbm, 258, rfl⟩
abbrev main_call7_v9 : Ref sig .tc := ⟨.hbm, 259, rfl⟩
abbrev main_call7_v10 : Ref sig .tc := ⟨.hbm, 260, rfl⟩
abbrev main_call7_v11 : Ref sig .tc := ⟨.hbm, 261, rfl⟩
abbrev main_call7_c_3 : Ref sig .tc := ⟨.hbm, 262, rfl⟩
abbrev main_call7_v12 : Ref sig .tc := ⟨.hbm, 263, rfl⟩
abbrev main_call7_v13 : Ref sig .tc := ⟨.hbm, 264, rfl⟩
abbrev main_call7_v14 : Ref sig .tc := ⟨.hbm, 265, rfl⟩
abbrev main_call7_cst : Ref sig .tc := ⟨.hbm, 266, rfl⟩
abbrev main_call7_v15 : Ref sig .tc := ⟨.hbm, 267, rfl⟩
abbrev main_v59 : Ref sig .tc := ⟨.hbm, 268, rfl⟩
abbrev main_v60 : Ref sig .tc := ⟨.hbm, 269, rfl⟩
abbrev main_v61 : Ref sig .tc := ⟨.hbm, 270, rfl⟩
abbrev main_v62 : Ref sig .tc := ⟨.hbm, 271, rfl⟩
abbrev main_v63 : Ref sig .tc := ⟨.hbm, 272, rfl⟩
abbrev main_v64 : Ref sig .tc := ⟨.hbm, 273, rfl⟩
abbrev main_v65 : Ref sig .tc := ⟨.hbm, 274, rfl⟩
abbrev main_cst_2 : Ref sig .tc := ⟨.hbm, 275, rfl⟩
abbrev main_v66 : Ref sig .tc := ⟨.hbm, 276, rfl⟩
abbrev main_v67 : Ref sig .tc := ⟨.hbm, 277, rfl⟩
abbrev main_v68 : Ref sig .tc := ⟨.hbm, 278, rfl⟩
abbrev main_v69 : Ref sig .tc := ⟨.hbm, 279, rfl⟩
abbrev main_v70 : Ref sig .tc := ⟨.hbm, 280, rfl⟩
abbrev main_v71 : Ref sig .tc := ⟨.hbm, 281, rfl⟩
abbrev main_v72 : Ref sig .tc := ⟨.hbm, 282, rfl⟩
abbrev main_v73 : Ref sig .tc := ⟨.hbm, 283, rfl⟩
abbrev main_call8_c : Ref sig .tc := ⟨.hbm, 284, rfl⟩
abbrev main_call8_v0 : Ref sig .tc := ⟨.hbm, 285, rfl⟩
abbrev main_call8_v1 : Ref sig .tc := ⟨.hbm, 286, rfl⟩
abbrev main_call8_c_0 : Ref sig .tc := ⟨.hbm, 287, rfl⟩
abbrev main_call8_v2 : Ref sig .tc := ⟨.hbm, 288, rfl⟩
abbrev main_call8_v3 : Ref sig .tc := ⟨.hbm, 289, rfl⟩
abbrev main_call8_v4 : Ref sig .tc := ⟨.hbm, 290, rfl⟩
abbrev main_call8_v5 : Ref sig .tc := ⟨.hbm, 291, rfl⟩
abbrev main_call8_c_1 : Ref sig .tc := ⟨.hbm, 292, rfl⟩
abbrev main_call8_c_2 : Ref sig .tc := ⟨.hbm, 293, rfl⟩
abbrev main_call8_v6 : Ref sig .tc := ⟨.hbm, 294, rfl⟩
abbrev main_call8_v7 : Ref sig .tc := ⟨.hbm, 295, rfl⟩
abbrev main_call8_v8 : Ref sig .tc := ⟨.hbm, 296, rfl⟩
abbrev main_call8_v9 : Ref sig .tc := ⟨.hbm, 297, rfl⟩
abbrev main_call8_v10 : Ref sig .tc := ⟨.hbm, 298, rfl⟩
abbrev main_call8_v11 : Ref sig .tc := ⟨.hbm, 299, rfl⟩
abbrev main_call8_c_3 : Ref sig .tc := ⟨.hbm, 300, rfl⟩
abbrev main_call8_v12 : Ref sig .tc := ⟨.hbm, 301, rfl⟩
abbrev main_call8_v13 : Ref sig .tc := ⟨.hbm, 302, rfl⟩
abbrev main_call8_v14 : Ref sig .tc := ⟨.hbm, 303, rfl⟩
abbrev main_call8_cst : Ref sig .tc := ⟨.hbm, 304, rfl⟩
abbrev main_call8_v15 : Ref sig .tc := ⟨.hbm, 305, rfl⟩
abbrev main_v74 : Ref sig .tc := ⟨.hbm, 306, rfl⟩
abbrev main_call9_c : Ref sig .tc := ⟨.hbm, 307, rfl⟩
abbrev main_call9_v0 : Ref sig .tc := ⟨.hbm, 308, rfl⟩
abbrev main_call9_v1 : Ref sig .tc := ⟨.hbm, 309, rfl⟩
abbrev main_call9_c_0 : Ref sig .tc := ⟨.hbm, 310, rfl⟩
abbrev main_call9_v2 : Ref sig .tc := ⟨.hbm, 311, rfl⟩
abbrev main_call9_v3 : Ref sig .tc := ⟨.hbm, 312, rfl⟩
abbrev main_call9_v4 : Ref sig .tc := ⟨.hbm, 313, rfl⟩
abbrev main_call9_v5 : Ref sig .tc := ⟨.hbm, 314, rfl⟩
abbrev main_call9_c_1 : Ref sig .tc := ⟨.hbm, 315, rfl⟩
abbrev main_call9_c_2 : Ref sig .tc := ⟨.hbm, 316, rfl⟩
abbrev main_call9_v6 : Ref sig .tc := ⟨.hbm, 317, rfl⟩
abbrev main_call9_v7 : Ref sig .tc := ⟨.hbm, 318, rfl⟩
abbrev main_call9_v8 : Ref sig .tc := ⟨.hbm, 319, rfl⟩
abbrev main_call9_v9 : Ref sig .tc := ⟨.hbm, 320, rfl⟩
abbrev main_call9_v10 : Ref sig .tc := ⟨.hbm, 321, rfl⟩
abbrev main_call9_v11 : Ref sig .tc := ⟨.hbm, 322, rfl⟩
abbrev main_call9_c_3 : Ref sig .tc := ⟨.hbm, 323, rfl⟩
abbrev main_call9_v12 : Ref sig .tc := ⟨.hbm, 324, rfl⟩
abbrev main_call9_v13 : Ref sig .tc := ⟨.hbm, 325, rfl⟩
abbrev main_call9_v14 : Ref sig .tc := ⟨.hbm, 326, rfl⟩
abbrev main_call9_cst : Ref sig .tc := ⟨.hbm, 327, rfl⟩
abbrev main_call9_v15 : Ref sig .tc := ⟨.hbm, 328, rfl⟩
abbrev main_v75 : Ref sig .tc := ⟨.hbm, 329, rfl⟩
abbrev main_v76 : Ref sig .tc := ⟨.hbm, 330, rfl⟩
abbrev main_v77 : Ref sig .tc := ⟨.hbm, 331, rfl⟩
abbrev main_v78 : Ref sig .tc := ⟨.hbm, 332, rfl⟩
abbrev main_v79 : Ref sig .tc := ⟨.hbm, 333, rfl⟩
abbrev main_v80 : Ref sig .tc := ⟨.hbm, 334, rfl⟩
abbrev main_v81 : Ref sig .tc := ⟨.hbm, 335, rfl⟩
abbrev main_cst_3 : Ref sig .tc := ⟨.hbm, 336, rfl⟩
abbrev main_v82 : Ref sig .tc := ⟨.hbm, 337, rfl⟩
abbrev main_v83 : Ref sig .tc := ⟨.hbm, 338, rfl⟩
abbrev main_v84 : Ref sig .tc := ⟨.hbm, 339, rfl⟩
abbrev main_v85 : Ref sig .tc := ⟨.hbm, 340, rfl⟩
abbrev main_v86 : Ref sig .tc := ⟨.hbm, 341, rfl⟩
abbrev main_v87 : Ref sig .tc := ⟨.hbm, 342, rfl⟩
abbrev main_v88 : Ref sig .tc := ⟨.hbm, 343, rfl⟩
abbrev main_v89 : Ref sig .tc := ⟨.hbm, 344, rfl⟩
abbrev main_v90 : Ref sig .tc := ⟨.hbm, 345, rfl⟩
abbrev main_v91 : Ref sig .tc := ⟨.hbm, 346, rfl⟩
abbrev main_v92 : Ref sig .tc := ⟨.hbm, 347, rfl⟩
abbrev main_v93 : Ref sig .tc := ⟨.hbm, 348, rfl⟩
abbrev main_c : Ref sig .tc := ⟨.hbm, 349, rfl⟩
abbrev main_v94 : Ref sig .tc := ⟨.hbm, 350, rfl⟩
abbrev main_v95 : Ref sig .tc := ⟨.hbm, 351, rfl⟩
abbrev main_c_4 : Ref sig .tc := ⟨.hbm, 352, rfl⟩
abbrev main_v96 : Ref sig .tc := ⟨.hbm, 353, rfl⟩
abbrev main_v97 : Ref sig .tc := ⟨.hbm, 354, rfl⟩
abbrev main_v98 : Ref sig .tc := ⟨.hbm, 355, rfl⟩
abbrev main_v99 : Ref sig .tc := ⟨.hbm, 356, rfl⟩
abbrev main_v100 : Ref sig .tc := ⟨.hbm, 357, rfl⟩
abbrev main_c_5 : Ref sig .tc := ⟨.hbm, 358, rfl⟩
abbrev main_v101 : Ref sig .tc := ⟨.hbm, 359, rfl⟩
abbrev main_v102 : Ref sig .tc := ⟨.hbm, 360, rfl⟩
abbrev main_c_6 : Ref sig .tc := ⟨.hbm, 361, rfl⟩
abbrev main_v103 : Ref sig .tc := ⟨.hbm, 362, rfl⟩
abbrev main_v104 : Ref sig .tc := ⟨.hbm, 363, rfl⟩
abbrev main_v105 : Ref sig .tc := ⟨.hbm, 364, rfl⟩
abbrev main_v106 : Ref sig .tc := ⟨.hbm, 365, rfl⟩
abbrev main_v107 : Ref sig .tc := ⟨.hbm, 366, rfl⟩
abbrev main_v108 : Ref sig .tc := ⟨.hbm, 367, rfl⟩
abbrev main_cst_7 : Ref sig .tc := ⟨.hbm, 368, rfl⟩
abbrev main_v109 : Ref sig .tc := ⟨.hbm, 369, rfl⟩
abbrev main_v110 : Ref sig .tc := ⟨.hbm, 370, rfl⟩
abbrev main_c_8 : Ref sig .tc := ⟨.hbm, 371, rfl⟩
abbrev main_v111 : Ref sig .tc := ⟨.hbm, 372, rfl⟩
abbrev main_v112 : Ref sig .tc := ⟨.hbm, 373, rfl⟩
abbrev main_c_9 : Ref sig .tc := ⟨.hbm, 374, rfl⟩
abbrev main_v113 : Ref sig .tc := ⟨.hbm, 375, rfl⟩
abbrev main_v114 : Ref sig .tc := ⟨.hbm, 376, rfl⟩
abbrev main_v115 : Ref sig .tc := ⟨.hbm, 377, rfl⟩
abbrev main_v116 : Ref sig .tc := ⟨.hbm, 378, rfl⟩
abbrev main_v117 : Ref sig .tc := ⟨.hbm, 379, rfl⟩
abbrev main_c_10 : Ref sig .tc := ⟨.hbm, 380, rfl⟩
abbrev main_v118 : Ref sig .tc := ⟨.hbm, 381, rfl⟩
abbrev main_v119 : Ref sig .tc := ⟨.hbm, 382, rfl⟩
abbrev main_c_11 : Ref sig .tc := ⟨.hbm, 383, rfl⟩
abbrev main_v120 : Ref sig .tc := ⟨.hbm, 384, rfl⟩
abbrev main_v121 : Ref sig .tc := ⟨.hbm, 385, rfl⟩
abbrev main_v122 : Ref sig .tc := ⟨.hbm, 386, rfl⟩
abbrev main_v123 : Ref sig .tc := ⟨.hbm, 387, rfl⟩
abbrev main_v124 : Ref sig .tc := ⟨.hbm, 388, rfl⟩
abbrev main_v125 : Ref sig .tc := ⟨.hbm, 389, rfl⟩
abbrev main_v126 : Ref sig .tc := ⟨.hbm, 390, rfl⟩
abbrev main_v127 : Ref sig .tc := ⟨.hbm, 391, rfl⟩
abbrev main_v128 : Ref sig .tc := ⟨.hbm, 392, rfl⟩
abbrev main_v129 : Ref sig .tc := ⟨.hbm, 393, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg8_0 : Ref sig .tc := ⟨.vmem, 56, rfl⟩
abbrev cc5_stg9_0 : Ref sig .tc := ⟨.vmem, 57, rfl⟩
abbrev cc5_stg9_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg7_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg6_0 : Ref sig .tc := ⟨.vmem, 79, rfl⟩
abbrev cc7_stg7_0 : Ref sig .tc := ⟨.vmem, 80, rfl⟩
abbrev cc7_stg8_0 : Ref sig .tc := ⟨.vmem, 81, rfl⟩
abbrev cc7_stg9_0 : Ref sig .tc := ⟨.vmem, 82, rfl⟩
abbrev cc7_stg9_1 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg3_0 : Ref sig .tc := ⟨.vmem, 89, rfl⟩
abbrev cc8_stg4_0 : Ref sig .tc := ⟨.vmem, 90, rfl⟩
abbrev cc8_stg5_0 : Ref sig .tc := ⟨.vmem, 91, rfl⟩
abbrev cc8_stg6_0 : Ref sig .tc := ⟨.vmem, 92, rfl⟩
abbrev cc8_stg7_0 : Ref sig .tc := ⟨.vmem, 93, rfl⟩
abbrev cc8_stg7_1 : Ref sig .tc := ⟨.vmem, 94, rfl⟩
abbrev cc9_stg0_0 : Ref sig .tc := ⟨.vmem, 95, rfl⟩
abbrev cc9_stg0_1 : Ref sig .tc := ⟨.vmem, 96, rfl⟩
abbrev cc9_stg1_0 : Ref sig .tc := ⟨.vmem, 97, rfl⟩
abbrev cc9_stg1_1 : Ref sig .tc := ⟨.vmem, 98, rfl⟩
abbrev cc9_stg2_0 : Ref sig .tc := ⟨.vmem, 99, rfl⟩
abbrev cc9_stg2_1 : Ref sig .tc := ⟨.vmem, 100, rfl⟩
abbrev cc9_stg3_0 : Ref sig .tc := ⟨.vmem, 101, rfl⟩
abbrev cc9_stg4_0 : Ref sig .tc := ⟨.vmem, 102, rfl⟩
abbrev cc9_stg5_0 : Ref sig .tc := ⟨.vmem, 103, rfl⟩
abbrev cc9_stg6_0 : Ref sig .tc := ⟨.vmem, 104, rfl⟩
abbrev cc9_stg7_0 : Ref sig .tc := ⟨.vmem, 105, rfl⟩
abbrev cc9_stg8_0 : Ref sig .tc := ⟨.vmem, 106, rfl⟩
abbrev cc9_stg9_0 : Ref sig .tc := ⟨.vmem, 107, rfl⟩
abbrev cc9_stg9_1 : Ref sig .tc := ⟨.vmem, 108, rfl⟩
abbrev cc10_stg0_0 : Ref sig .tc := ⟨.vmem, 109, rfl⟩
abbrev cc10_stg0_1 : Ref sig .tc := ⟨.vmem, 110, rfl⟩
abbrev cc10_stg1_0 : Ref sig .tc := ⟨.vmem, 111, rfl⟩
abbrev cc10_stg1_1 : Ref sig .tc := ⟨.vmem, 112, rfl⟩
abbrev cc10_stg2_0 : Ref sig .tc := ⟨.vmem, 113, rfl⟩
abbrev cc10_stg3_0 : Ref sig .tc := ⟨.vmem, 114, rfl⟩
abbrev cc10_stg4_0 : Ref sig .tc := ⟨.vmem, 115, rfl⟩
abbrev cc10_stg5_0 : Ref sig .tc := ⟨.vmem, 116, rfl⟩
abbrev cc10_stg6_0 : Ref sig .tc := ⟨.vmem, 117, rfl⟩
abbrev cc10_stg7_0 : Ref sig .tc := ⟨.vmem, 118, rfl⟩
abbrev cc10_stg7_1 : Ref sig .tc := ⟨.vmem, 119, rfl⟩
abbrev cc11_stg0_0 : Ref sig .tc := ⟨.vmem, 120, rfl⟩
abbrev cc11_stg0_1 : Ref sig .tc := ⟨.vmem, 121, rfl⟩
abbrev cc11_stg1_0 : Ref sig .tc := ⟨.vmem, 122, rfl⟩
abbrev cc11_stg1_1 : Ref sig .tc := ⟨.vmem, 123, rfl⟩
abbrev cc11_stg2_0 : Ref sig .tc := ⟨.vmem, 124, rfl⟩
abbrev cc11_stg2_1 : Ref sig .tc := ⟨.vmem, 125, rfl⟩
abbrev cc11_stg3_0 : Ref sig .tc := ⟨.vmem, 126, rfl⟩
abbrev cc11_stg4_0 : Ref sig .tc := ⟨.vmem, 127, rfl⟩
abbrev cc11_stg5_0 : Ref sig .tc := ⟨.vmem, 128, rfl⟩
abbrev cc11_stg6_0 : Ref sig .tc := ⟨.vmem, 129, rfl⟩
abbrev cc11_stg7_0 : Ref sig .tc := ⟨.vmem, 130, rfl⟩
abbrev cc11_stg8_0 : Ref sig .tc := ⟨.vmem, 131, rfl⟩
abbrev cc11_stg9_0 : Ref sig .tc := ⟨.vmem, 132, rfl⟩
abbrev cc11_stg9_1 : Ref sig .tc := ⟨.vmem, 133, rfl⟩
abbrev cc12_stg0_0 : Ref sig .tc := ⟨.vmem, 134, rfl⟩
abbrev cc12_stg0_1 : Ref sig .tc := ⟨.vmem, 135, rfl⟩
abbrev cc12_stg1_0 : Ref sig .tc := ⟨.vmem, 136, rfl⟩
abbrev cc12_stg1_1 : Ref sig .tc := ⟨.vmem, 137, rfl⟩
abbrev cc12_stg2_0 : Ref sig .tc := ⟨.vmem, 138, rfl⟩
abbrev cc12_stg3_0 : Ref sig .tc := ⟨.vmem, 139, rfl⟩
abbrev cc12_stg4_0 : Ref sig .tc := ⟨.vmem, 140, rfl⟩
abbrev cc12_stg5_0 : Ref sig .tc := ⟨.vmem, 141, rfl⟩
abbrev cc12_stg6_0 : Ref sig .tc := ⟨.vmem, 142, rfl⟩
abbrev cc12_stg7_0 : Ref sig .tc := ⟨.vmem, 143, rfl⟩
abbrev cc12_stg7_1 : Ref sig .tc := ⟨.vmem, 144, rfl⟩
abbrev cc13_stg0_0 : Ref sig .tc := ⟨.vmem, 145, rfl⟩
abbrev cc13_stg0_1 : Ref sig .tc := ⟨.vmem, 146, rfl⟩
abbrev cc13_stg1_0 : Ref sig .tc := ⟨.vmem, 147, rfl⟩
abbrev cc13_stg1_1 : Ref sig .tc := ⟨.vmem, 148, rfl⟩
abbrev cc13_stg2_0 : Ref sig .tc := ⟨.vmem, 149, rfl⟩
abbrev cc13_stg2_1 : Ref sig .tc := ⟨.vmem, 150, rfl⟩
abbrev cc13_stg3_0 : Ref sig .tc := ⟨.vmem, 151, rfl⟩
abbrev cc13_stg3_1 : Ref sig .tc := ⟨.vmem, 152, rfl⟩
abbrev cc13_stg4_0 : Ref sig .tc := ⟨.vmem, 153, rfl⟩
abbrev cc13_stg5_0 : Ref sig .tc := ⟨.vmem, 154, rfl⟩
abbrev cc13_stg6_0 : Ref sig .tc := ⟨.vmem, 155, rfl⟩
abbrev cc13_stg7_0 : Ref sig .tc := ⟨.vmem, 156, rfl⟩
abbrev cc13_stg8_0 : Ref sig .tc := ⟨.vmem, 157, rfl⟩
abbrev cc13_stg9_0 : Ref sig .tc := ⟨.vmem, 158, rfl⟩
abbrev cc13_stg10_0 : Ref sig .tc := ⟨.vmem, 159, rfl⟩
abbrev cc13_stg10_1 : Ref sig .tc := ⟨.vmem, 160, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem7_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem8_0 : DmaSem sig := 56
abbrev cc5_sem9_0 : DmaSem sig := 57
abbrev cc5_sem9_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem7_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem4_0 : DmaSem sig := 77
abbrev cc7_sem5_0 : DmaSem sig := 78
abbrev cc7_sem6_0 : DmaSem sig := 79
abbrev cc7_sem7_0 : DmaSem sig := 80
abbrev cc7_sem8_0 : DmaSem sig := 81
abbrev cc7_sem9_0 : DmaSem sig := 82
abbrev cc7_sem9_1 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem3_0 : DmaSem sig := 89
abbrev cc8_sem4_0 : DmaSem sig := 90
abbrev cc8_sem5_0 : DmaSem sig := 91
abbrev cc8_sem6_0 : DmaSem sig := 92
abbrev cc8_sem7_0 : DmaSem sig := 93
abbrev cc8_sem7_1 : DmaSem sig := 94
abbrev cc9_sem0_0 : DmaSem sig := 95
abbrev cc9_sem0_1 : DmaSem sig := 96
abbrev cc9_sem1_0 : DmaSem sig := 97
abbrev cc9_sem1_1 : DmaSem sig := 98
abbrev cc9_sem2_0 : DmaSem sig := 99
abbrev cc9_sem2_1 : DmaSem sig := 100
abbrev cc9_sem3_0 : DmaSem sig := 101
abbrev cc9_sem4_0 : DmaSem sig := 102
abbrev cc9_sem5_0 : DmaSem sig := 103
abbrev cc9_sem6_0 : DmaSem sig := 104
abbrev cc9_sem7_0 : DmaSem sig := 105
abbrev cc9_sem8_0 : DmaSem sig := 106
abbrev cc9_sem9_0 : DmaSem sig := 107
abbrev cc9_sem9_1 : DmaSem sig := 108
abbrev cc10_sem0_0 : DmaSem sig := 109
abbrev cc10_sem0_1 : DmaSem sig := 110
abbrev cc10_sem1_0 : DmaSem sig := 111
abbrev cc10_sem1_1 : DmaSem sig := 112
abbrev cc10_sem2_0 : DmaSem sig := 113
abbrev cc10_sem3_0 : DmaSem sig := 114
abbrev cc10_sem4_0 : DmaSem sig := 115
abbrev cc10_sem5_0 : DmaSem sig := 116
abbrev cc10_sem6_0 : DmaSem sig := 117
abbrev cc10_sem7_0 : DmaSem sig := 118
abbrev cc10_sem7_1 : DmaSem sig := 119
abbrev cc11_sem0_0 : DmaSem sig := 120
abbrev cc11_sem0_1 : DmaSem sig := 121
abbrev cc11_sem1_0 : DmaSem sig := 122
abbrev cc11_sem1_1 : DmaSem sig := 123
abbrev cc11_sem2_0 : DmaSem sig := 124
abbrev cc11_sem2_1 : DmaSem sig := 125
abbrev cc11_sem3_0 : DmaSem sig := 126
abbrev cc11_sem4_0 : DmaSem sig := 127
abbrev cc11_sem5_0 : DmaSem sig := 128
abbrev cc11_sem6_0 : DmaSem sig := 129
abbrev cc11_sem7_0 : DmaSem sig := 130
abbrev cc11_sem8_0 : DmaSem sig := 131
abbrev cc11_sem9_0 : DmaSem sig := 132
abbrev cc11_sem9_1 : DmaSem sig := 133
abbrev cc12_sem0_0 : DmaSem sig := 134
abbrev cc12_sem0_1 : DmaSem sig := 135
abbrev cc12_sem1_0 : DmaSem sig := 136
abbrev cc12_sem1_1 : DmaSem sig := 137
abbrev cc12_sem2_0 : DmaSem sig := 138
abbrev cc12_sem3_0 : DmaSem sig := 139
abbrev cc12_sem4_0 : DmaSem sig := 140
abbrev cc12_sem5_0 : DmaSem sig := 141
abbrev cc12_sem6_0 : DmaSem sig := 142
abbrev cc12_sem7_0 : DmaSem sig := 143
abbrev cc12_sem7_1 : DmaSem sig := 144
abbrev cc13_sem0_0 : DmaSem sig := 145
abbrev cc13_sem0_1 : DmaSem sig := 146
abbrev cc13_sem1_0 : DmaSem sig := 147
abbrev cc13_sem1_1 : DmaSem sig := 148
abbrev cc13_sem2_0 : DmaSem sig := 149
abbrev cc13_sem2_1 : DmaSem sig := 150
abbrev cc13_sem3_0 : DmaSem sig := 151
abbrev cc13_sem3_1 : DmaSem sig := 152
abbrev cc13_sem4_0 : DmaSem sig := 153
abbrev cc13_sem5_0 : DmaSem sig := 154
abbrev cc13_sem6_0 : DmaSem sig := 155
abbrev cc13_sem7_0 : DmaSem sig := 156
abbrev cc13_sem8_0 : DmaSem sig := 157
abbrev cc13_sem9_0 : DmaSem sig := 158
abbrev cc13_sem10_0 : DmaSem sig := 159
abbrev cc13_sem10_1 : DmaSem sig := 160

abbrev nD : Nat := 1
abbrev τ : Topo := Topo.v7x

variable {F : FTy → Type} [FloatOps F]

abbrev grid0 : Pipeline.Grid := ⟨1, ![320], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_2 : BitVec 32 := 0#32
  let v9 : BitVec 1 := Scalar.cmpi .ne v8 c0_i32_2
  v9

def k0_cond2 (i : grid0.Coords) : BitVec 1 :=
  let arg0 : BitVec 32 := BitVec.ofNat 32 (i 0).val
  let c0_i32_3 : BitVec 32 := 0#32
  let v10 : BitVec 1 := Scalar.cmpi .ne arg0 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![320], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![320], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4096x16 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4096x16 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![320], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S16x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S16x16 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x16 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S4096x16 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S16x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x16 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4096x16 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![320], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4096x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S16x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S16x16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S16x16 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x16 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S16x16 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x16 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S4096x16 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S16x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S16x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S16x16 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x16 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S4096x16 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![320], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x16 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4096x16 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S16x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S16x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S16x16 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x16 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S16x16 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x16 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S4096x16 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![64], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4096x16 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S16x16 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S16x16 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x16 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S16x16 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x16 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S4096x16 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![320], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4096x16 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4096x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S16x16 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S16x16 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S16x16 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x16 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S16x16 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x16 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 2 → Memref sig .tc .vmem S4096x16 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev grid12 : Pipeline.Grid := ⟨1, ![64], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x16 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x16 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S16x16 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S16x16 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x16 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S16x16 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x16 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S4096x16 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![320], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_10 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x16 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4096x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4096x1 .i32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S4096x1 .i32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S1x1 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x1 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S16x16 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1x16 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev stage13_8 : Fin 1 → Memref sig .tc .vmem S16x1 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 1 → Memref sig .tc .vmem S1x1 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev stage13_10 : Fin 2 → Memref sig .tc .vmem S4096x1 .f32 := fun | 0 => Memref.whole cc13_stg10_0 | 1 => Memref.whole cc13_stg10_1 | ⟨_ + 2, h⟩ => absurd h (Nat.not_lt.2 (Nat.le_add_left _ _))
abbrev sem13_10 : Fin 2 → DmaSem sig := fun | 0 => cc13_sem10_0 | 1 => cc13_sem10_1 | ⟨_ + 2, h⟩ => absurd h (Nat.not_lt.2 (Nat.le_add_left _ _))
abbrev reads13_10 : Fin grid13.rank → Bool := ![true]

class Facts₀ : Prop where
  shapeCasts_S1310720x1_S10240x128 : S1310720x1.ShapeCasts S10240x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S16_S1x16 : S16.ShapeCasts S1x16
  inb_S4096x1_S4096x1_0_0 : ∀ a, (![0, 0] : Fin 2 → Nat) a + S4096x1.size a ≤ S4096x1.size a
  h_S4096x1 : 0 < S4096x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x16_S16x16_0_0 : ∀ a, (![0, 0] : Fin 2 → Nat) a + S16x16.size a ≤ S16x16.size a
  h_S16x16 : 0 < S16x16.numel
  inb_S4096x16_S4096x16_0_0 : ∀ a, (![0, 0] : Fin 2 → Nat) a + S4096x16.size a ≤ S4096x16.size a
  h_S4096x16 : 0 < S4096x16.numel
  inpos_S1x1_p0_0 : ∀ a, (![0, 0] : Fin 2 → Nat) a < S1x1.size a
  shapeCasts_S1310720_S1310720x1 : S1310720.ShapeCasts S1310720x1
  bcast_S_S1310720 : S_.BroadcastsInDim S1310720 (![] : Fin 0 → Fin S1310720.rank)
  bcast_S1310720_S1310720x1_0 : S1310720.BroadcastsInDim S1310720x1 (![0] : Fin 1 → Fin S1310720x1.rank)
  bcast_S_S1310720x1 : S_.BroadcastsInDim S1310720x1 (![] : Fin 0 → Fin S1310720x1.rank)
  bcast_S1_S1x1_1 : S1.BroadcastsInDim S1x1 (![1] : Fin 1 → Fin S1x1.rank)
  bcast_S1x1_S1310720x1_0_1 : S1x1.BroadcastsInDim S1310720x1 (![0, 1] : Fin 2 → Fin S1310720x1.rank)
  reducesTo_S1310720x1_S1310720_d1 : S1310720x1.ReducesTo [1] S1310720
  h_S_ : 0 < S_.numel
  bcast_S1310720_S1310720x16_0 : S1310720.BroadcastsInDim S1310720x16 (![0] : Fin 1 → Fin S1310720x16.rank)
  bcast_S_S1310720x16 : S_.BroadcastsInDim S1310720x16 (![] : Fin 0 → Fin S1310720x16.rank)
  slices_S48x16_S16x16_0_0 : S48x16.Slices ![0, 0] S16x16
  slices_S48x16_S16x16_16_0 : S48x16.Slices ![16, 0] S16x16
  slices_S48x16_S16x16_32_0 : S48x16.Slices ![32, 0] S16x16
  shapeCasts_S4096x16_S4096x16 : S4096x16.ShapeCasts S4096x16
  shapeCasts_S16x16_S16x16 : S16x16.ShapeCasts S16x16
  bcast_S_S262144x16 : S_.BroadcastsInDim S262144x16 (![] : Fin 0 → Fin S262144x16.rank)
  slices_S32x16_S16x16_0_0 : S32x16.Slices ![0, 0] S16x16
  slices_S32x16_S16x16_16_0 : S32x16.Slices ![16, 0] S16x16
  slices_S655360x2_S655360x1_0_0 : S655360x2.Slices ![0, 0] S655360x1
  shapeCasts_S655360x1_S655360 : S655360x1.ShapeCasts S655360
  slices_S655360x2_S655360x1_0_1 : S655360x2.Slices ![0, 1] S655360x1
  bcast_S_S655360 : S_.BroadcastsInDim S655360 (![] : Fin 0 → Fin S655360.rank)
  bcast_S655360_S655360x1_0 : S655360.BroadcastsInDim S655360x1 (![0] : Fin 1 → Fin S655360x1.rank)
  bcast_S_S655360x16 : S_.BroadcastsInDim S655360x16 (![] : Fin 0 → Fin S655360x16.rank)
  shapeCasts_S_S1x1 : S_.ShapeCasts S1x1
  inb_S16x1_S16x1_0_0 : ∀ a, (![0, 0] : Fin 2 → Nat) a + S16x1.size a ≤ S16x1.size a
  h_S16x1 : 0 < S16x1.numel
  broadcasts_S1x1_S4096x1 : S1x1.Broadcasts S4096x1
  shapeCasts_S4096x1_S4096x1 : S4096x1.ShapeCasts S4096x1
  shapeCasts_S1310720x1_S1310720 : S1310720x1.ShapeCasts S1310720
  dot_S4096x1_S1x16_S4096x16_1_0_0_1_n_n_wf : DotDims.WF S4096x1 S1x16 S4096x16 [1] [0] [0] [1] [] []
  dot_S4096x16_S16x16_S4096x16_1_0_0_1_n_n_wf : DotDims.WF S4096x16 S16x16 S4096x16 [1] [0] [0] [1] [] []
  gather_S262144x16_S1310720x1_S1310720x16_1_0_n_n_0_1_116_wf : GatherDims.WF S262144x16 S1310720x1 S1310720x16 [1] [0] [] [0] [] 1 ![1, 16]
  scatter_S262144x16_S1310720x1_S1310720x16_1_0_0_1_wf : ScatterDims.WF S262144x16 S1310720x1 S1310720x16 [1] [0] [0] 1
  gather_S1310720x16_S655360x1_S655360x16_1_0_n_n_0_1_116_wf : GatherDims.WF S1310720x16 S655360x1 S655360x16 [1] [0] [] [0] [] 1 ![1, 16]
  scatter_S1310720x16_S655360x1_S655360x16_1_0_0_1_wf : ScatterDims.WF S1310720x16 S655360x1 S655360x16 [1] [0] [0] 1
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S10240x128.size a
  hwx0_0 : ∀ i : grid0.Coords, EltTy.bits .f32 = 32 ∨ (Rect.block (s := S10240x128) S32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S262144x1.size a
  hwx1_0 : ∀ i : grid1.Coords, EltTy.bits .f32 = 32 ∨ (Rect.block (s := S262144x1) S4096x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x16.size a ≤ S262144x16.size a
  hwx1_5 : ∀ i : grid1.Coords, EltTy.bits .f32 = 32 ∨ (Rect.block (s := S262144x16) S4096x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x1.size a ≤ S1310720x1.size a
  hwx2_0 : ∀ i : grid2.Coords, EltTy.bits .f32 = 32 ∨ (Rect.block (s := S1310720x1) S4096x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4096x16.size a ≤ S1310720x16.size a
  hwx2_6 : ∀ i : grid2.Coords, EltTy.bits .f32 = 32 ∨ (Rect.block (s := S1310720x16) S4096x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x16.size a ≤ S1310720x16.size a
  hwx3_0 : ∀ i : grid3.Coords, EltTy.bits .f32 = 32 ∨ (Rect.block (s := S1310720x16) S4096x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x16.size a ≤ S1310720x16.size a
  hwx3_1 : ∀ i : grid3.Coords, EltTy.bits .f32 = 32 ∨ (Rect.block (s := S1310720x16) S4096x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x16.size a ≤ S1310720x16.size a
  hwx3_2 : ∀ i : grid3.Coords, EltTy.bits .f32 = 32 ∨ (Rect.block (s := S1310720x16) S4096x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x16.size a ≤ S16x16.size a
  hwx3_7 : ∀ i : grid3.Coords, EltTy.bits .f32 = 32 ∨ (Rect.block (s := S16x16) S16x16.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x16.size a ≤ S1x16.size a
  hwx3_8 : ∀ i : grid3.Coords, EltTy.bits .f32 = 32 ∨ (Rect.block (s := S1x16) S1x16.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4096x16.size a ≤ S1310720x16.size a
  hwx3_9 : ∀ i : grid3.Coords, EltTy.bits .f32 = 32 ∨ (Rect.block (s := S1310720x16) S4096x16.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x16.size a ≤ S262144x16.size a
  hwx4_0 : ∀ i : grid4.Coords, EltTy.bits .f32 = 32 ∨ (Rect.block (s := S262144x16) S4096x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x16.size a ≤ S262144x16.size a
  hwx4_1 : ∀ i : grid4.Coords, EltTy.bits .f32 = 32 ∨ (Rect.block (s := S262144x16) S4096x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x16.size a ≤ S16x16.size a
  hwx4_2 : ∀ i : grid4.Coords, EltTy.bits .f32 = 32 ∨ (Rect.block (s := S16x16) S16x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x16.size a ≤ S16x16.size a
  hwx4_3 : ∀ i : grid4.Coords, EltTy.bits .f32 = 32 ∨ (Rect.block (s := S16x16) S16x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x16.size a ≤ S16x16.size a
  hwx4_5 : ∀ i : grid4.Coords, EltTy.bits .f32 = 32 ∨ (Rect.block (s := S16x16) S16x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4096x16.size a ≤ S262144x16.size a
  hwx4_7 : ∀ i : grid4.Coords, EltTy.bits .f32 = 32 ∨ (Rect.block (s := S262144x16) S4096x16.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x16.size a ≤ S1310720x16.size a
  hwx5_0 : ∀ i : grid5.Coords, EltTy.bits .f32 = 32 ∨ (Rect.block (s := S1310720x16) S4096x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x16.size a ≤ S1310720x16.size a
  hwx5_1 : ∀ i : grid5.Coords, EltTy.bits .f32 = 32 ∨ (Rect.block (s := S1310720x16) S4096x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x16.size a ≤ S1310720x16.size a
  hwx5_2 : ∀ i : grid5.Coords, EltTy.bits .f32 = 32 ∨ (Rect.block (s := S1310720x16) S4096x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x16.size a ≤ S16x16.size a
  hwx5_3 : ∀ i : grid5.Coords, EltTy.bits .f32 = 32 ∨ (Rect.block (s := S16x16) S16x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16x16.size a ≤ S16x16.size a
  hwx5_4 : ∀ i : grid5.Coords, EltTy.bits .f32 = 32 ∨ (Rect.block (s := S16x16) S16x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x16.size a ≤ S16x16.size a
  hwx5_5 : ∀ i : grid5.Coords, EltTy.bits .f32 = 32 ∨ (Rect.block (s := S16x16) S16x16.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x16.size a ≤ S1x16.size a
  hwx5_6 : ∀ i : grid5.Coords, EltTy.bits .f32 = 32 ∨ (Rect.block (s := S1x16) S1x16.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S16x16.size a ≤ S16x16.size a
  hwx5_7 : ∀ i : grid5.Coords, EltTy.bits .f32 = 32 ∨ (Rect.block (s := S16x16) S16x16.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x16.size a ≤ S1x16.size a
  hwx5_8 : ∀ i : grid5.Coords, EltTy.bits .f32 = 32 ∨ (Rect.block (s := S1x16) S1x16.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S4096x16.size a ≤ S1310720x16.size a
  hwx5_9 : ∀ i : grid5.Coords, EltTy.bits .f32 = 32 ∨ (Rect.block (s := S1310720x16) S4096x16.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x16.size a ≤ S262144x16.size a
  hwx6_0 : ∀ i : grid6.Coords, EltTy.bits .f32 = 32 ∨ (Rect.block (s := S262144x16) S4096x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x16.size a ≤ S262144x16.size a
  hwx6_1 : ∀ i : grid6.Coords, EltTy.bits .f32 = 32 ∨ (Rect.block (s := S262144x16) S4096x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x16.size a ≤ S16x16.size a
  hwx6_2 : ∀ i : grid6.Coords, EltTy.bits .f32 = 32 ∨ (Rect.block (s := S16x16) S16x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x16.size a ≤ S16x16.size a
  hwx6_3 : ∀ i : grid6.Coords, EltTy.bits .f32 = 32 ∨ (Rect.block (s := S16x16) S16x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x16.size a ≤ S1x16.size a
  hwx6_4 : ∀ i : grid6.Coords, EltTy.bits .f32 = 32 ∨ (Rect.block (s := S1x16) S1x16.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S16x16.size a ≤ S16x16.size a
  hwx6_5 : ∀ i : grid6.Coords, EltTy.bits .f32 = 32 ∨ (Rect.block (s := S16x16) S16x16.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x16.size a ≤ S1x16.size a
  hwx6_6 : ∀ i : grid6.Coords, EltTy.bits .f32 = 32 ∨ (Rect.block (s := S1x16) S1x16.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4096x16.size a ≤ S262144x16.size a
  hwx6_7 : ∀ i : grid6.Coords, EltTy.bits .f32 = 32 ∨ (Rect.block (s := S262144x16) S4096x16.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x16.size a ≤ S1310720x16.size a
  hwx7_0 : ∀ i : grid7.Coords, EltTy.bits .f32 = 32 ∨ (Rect.block (s := S1310720x16) S4096x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x16.size a ≤ S1310720x16.size a
  hwx7_1 : ∀ i : grid7.Coords, EltTy.bits .f32 = 32 ∨ (Rect.block (s := S1310720x16) S4096x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4096x16.size a ≤ S1310720x16.size a
  hwx7_2 : ∀ i : grid7.Coords, EltTy.bits .f32 = 32 ∨ (Rect.block (s := S1310720x16) S4096x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S16x16.size a ≤ S16x16.size a
  hwx7_3 : ∀ i : grid7.Coords, EltTy.bits .f32 = 32 ∨ (Rect.block (s := S16x16) S16x16.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S16x16.size a ≤ S16x16.size a
  hwx7_4 : ∀ i : grid7.Coords, EltTy.bits .f32 = 32 ∨ (Rect.block (s := S16x16) S16x16.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S16x16.size a ≤ S16x16.size a
  hwx7_5 : ∀ i : grid7.Coords, EltTy.bits .f32 = 32 ∨ (Rect.block (s := S16x16) S16x16.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x16.size a ≤ S1x16.size a
  hwx7_6 : ∀ i : grid7.Coords, EltTy.bits .f32 = 32 ∨ (Rect.block (s := S1x16) S1x16.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S16x16.size a ≤ S16x16.size a
  hwx7_7 : ∀ i : grid7.Coords, EltTy.bits .f32 = 32 ∨ (Rect.block (s := S16x16) S16x16.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x16.size a ≤ S1x16.size a
  hwx7_8 : ∀ i : grid7.Coords, EltTy.bits .f32 = 32 ∨ (Rect.block (s := S1x16) S1x16.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S4096x16.size a ≤ S1310720x16.size a
  hwx7_9 : ∀ i : grid7.Coords, EltTy.bits .f32 = 32 ∨ (Rect.block (s := S1310720x16) S4096x16.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x16.size a ≤ S262144x16.size a
  hwx8_0 : ∀ i : grid8.Coords, EltTy.bits .f32 = 32 ∨ (Rect.block (s := S262144x16) S4096x16.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x16.size a ≤ S262144x16.size a
  hwx8_1 : ∀ i : grid8.Coords, EltTy.bits .f32 = 32 ∨ (Rect.block (s := S262144x16) S4096x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S16x16.size a ≤ S16x16.size a
  hwx8_2 : ∀ i : grid8.Coords, EltTy.bits .f32 = 32 ∨ (Rect.block (s := S16x16) S16x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S16x16.size a ≤ S16x16.size a
  hwx8_3 : ∀ i : grid8.Coords, EltTy.bits .f32 = 32 ∨ (Rect.block (s := S16x16) S16x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x16.size a ≤ S1x16.size a
  hwx8_4 : ∀ i : grid8.Coords, EltTy.bits .f32 = 32 ∨ (Rect.block (s := S1x16) S1x16.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S16x16.size a ≤ S16x16.size a
  hwx8_5 : ∀ i : grid8.Coords, EltTy.bits .f32 = 32 ∨ (Rect.block (s := S16x16) S16x16.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x16.size a ≤ S1x16.size a
  hwx8_6 : ∀ i : grid8.Coords, EltTy.bits .f32 = 32 ∨ (Rect.block (s := S1x16) S1x16.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S4096x16.size a ≤ S262144x16.size a
  hwx8_7 : ∀ i : grid8.Coords, EltTy.bits .f32 = 32 ∨ (Rect.block (s := S262144x16) S4096x16.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x16.size a ≤ S1310720x16.size a
  hwx9_0 : ∀ i : grid9.Coords, EltTy.bits .f32 = 32 ∨ (Rect.block (s := S1310720x16) S4096x16.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x16.size a ≤ S1310720x16.size a
  hwx9_1 : ∀ i : grid9.Coords, EltTy.bits .f32 = 32 ∨ (Rect.block (s := S1310720x16) S4096x16.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4096x16.size a ≤ S1310720x16.size a
  hwx9_2 : ∀ i : grid9.Coords, EltTy.bits .f32 = 32 ∨ (Rect.block (s := S1310720x16) S4096x16.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S16x16.size a ≤ S16x16.size a
  hwx9_3 : ∀ i : grid9.Coords, EltTy.bits .f32 = 32 ∨ (Rect.block (s := S16x16) S16x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S16x16.size a ≤ S16x16.size a
  hwx9_4 : ∀ i : grid9.Coords, EltTy.bits .f32 = 32 ∨ (Rect.block (s := S16x16) S16x16.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S16x16.size a ≤ S16x16.size a
  hwx9_5 : ∀ i : grid9.Coords, EltTy.bits .f32 = 32 ∨ (Rect.block (s := S16x16) S16x16.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x16.size a ≤ S1x16.size a
  hwx9_6 : ∀ i : grid9.Coords, EltTy.bits .f32 = 32 ∨ (Rect.block (s := S1x16) S1x16.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S16x16.size a ≤ S16x16.size a
  hwx9_7 : ∀ i : grid9.Coords, EltTy.bits .f32 = 32 ∨ (Rect.block (s := S16x16) S16x16.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x16.size a ≤ S1x16.size a
  hwx9_8 : ∀ i : grid9.Coords, EltTy.bits .f32 = 32 ∨ (Rect.block (s := S1x16) S1x16.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S4096x16.size a ≤ S1310720x16.size a
  hwx9_9 : ∀ i : grid9.Coords, EltTy.bits .f32 = 32 ∨ (Rect.block (s := S1310720x16) S4096x16.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x16.size a ≤ S262144x16.size a
  hwx10_0 : ∀ i : grid10.Coords, EltTy.bits .f32 = 32 ∨ (Rect.block (s := S262144x16) S4096x16.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x16.size a ≤ S262144x16.size a
  hwx10_1 : ∀ i : grid10.Coords, EltTy.bits .f32 = 32 ∨ (Rect.block (s := S262144x16) S4096x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S16x16.size a ≤ S16x16.size a
  hwx10_2 : ∀ i : grid10.Coords, EltTy.bits .f32 = 32 ∨ (Rect.block (s := S16x16) S16x16.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S16x16.size a ≤ S16x16.size a
  hwx10_3 : ∀ i : grid10.Coords, EltTy.bits .f32 = 32 ∨ (Rect.block (s := S16x16) S16x16.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x16.size a ≤ S1x16.size a
  hwx10_4 : ∀ i : grid10.Coords, EltTy.bits .f32 = 32 ∨ (Rect.block (s := S1x16) S1x16.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S16x16.size a ≤ S16x16.size a
  hwx10_5 : ∀ i : grid10.Coords, EltTy.bits .f32 = 32 ∨ (Rect.block (s := S16x16) S16x16.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x16.size a ≤ S1x16.size a
  hwx10_6 : ∀ i : grid10.Coords, EltTy.bits .f32 = 32 ∨ (Rect.block (s := S1x16) S1x16.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S4096x16.size a ≤ S262144x16.size a
  hwx10_7 : ∀ i : grid10.Coords, EltTy.bits .f32 = 32 ∨ (Rect.block (s := S262144x16) S4096x16.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x16.size a ≤ S1310720x16.size a
  hwx11_0 : ∀ i : grid11.Coords, EltTy.bits .f32 = 32 ∨ (Rect.block (s := S1310720x16) S4096x16.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4096x16.size a ≤ S1310720x16.size a
  hwx11_1 : ∀ i : grid11.Coords, EltTy.bits .f32 = 32 ∨ (Rect.block (s := S1310720x16) S4096x16.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4096x16.size a ≤ S1310720x16.size a
  hwx11_2 : ∀ i : grid11.Coords, EltTy.bits .f32 = 32 ∨ (Rect.block (s := S1310720x16) S4096x16.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S16x16.size a ≤ S16x16.size a
  hwx11_3 : ∀ i : grid11.Coords, EltTy.bits .f32 = 32 ∨ (Rect.block (s := S16x16) S16x16.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S16x16.size a ≤ S16x16.size a
  hwx11_4 : ∀ i : grid11.Coords, EltTy.bits .f32 = 32 ∨ (Rect.block (s := S16x16) S16x16.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S16x16.size a ≤ S16x16.size a
  hwx11_5 : ∀ i : grid11.Coords, EltTy.bits .f32 = 32 ∨ (Rect.block (s := S16x16) S16x16.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x16.size a ≤ S1x16.size a
  hwx11_6 : ∀ i : grid11.Coords, EltTy.bits .f32 = 32 ∨ (Rect.block (s := S1x16) S1x16.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S16x16.size a ≤ S16x16.size a
  hwx11_7 : ∀ i : grid11.Coords, EltTy.bits .f32 = 32 ∨ (Rect.block (s := S16x16) S16x16.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x16.size a ≤ S1x16.size a
  hwx11_8 : ∀ i : grid11.Coords, EltTy.bits .f32 = 32 ∨ (Rect.block (s := S1x16) S1x16.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S4096x16.size a ≤ S1310720x16.size a
  hwx11_9 : ∀ i : grid11.Coords, EltTy.bits .f32 = 32 ∨ (Rect.block (s := S1310720x16) S4096x16.size (cc11_transform_9 i) (hinb11_9 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x16.size a ≤ S262144x16.size a
  hwx12_0 : ∀ i : grid12.Coords, EltTy.bits .f32 = 32 ∨ (Rect.block (s := S262144x16) S4096x16.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x16.size a ≤ S262144x16.size a
  hwx12_1 : ∀ i : grid12.Coords, EltTy.bits .f32 = 32 ∨ (Rect.block (s := S262144x16) S4096x16.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S16x16.size a ≤ S16x16.size a
  hwx12_2 : ∀ i : grid12.Coords, EltTy.bits .f32 = 32 ∨ (Rect.block (s := S16x16) S16x16.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S16x16.size a ≤ S16x16.size a
  hwx12_3 : ∀ i : grid12.Coords, EltTy.bits .f32 = 32 ∨ (Rect.block (s := S16x16) S16x16.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x16.size a ≤ S1x16.size a
  hwx12_4 : ∀ i : grid12.Coords, EltTy.bits .f32 = 32 ∨ (Rect.block (s := S1x16) S1x16.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S16x16.size a ≤ S16x16.size a
  hwx12_5 : ∀ i : grid12.Coords, EltTy.bits .f32 = 32 ∨ (Rect.block (s := S16x16) S16x16.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x16.size a ≤ S1x16.size a
  hwx12_6 : ∀ i : grid12.Coords, EltTy.bits .f32 = 32 ∨ (Rect.block (s := S1x16) S1x16.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S4096x16.size a ≤ S262144x16.size a
  hwx12_7 : ∀ i : grid12.Coords, EltTy.bits .f32 = 32 ∨ (Rect.block (s := S262144x16) S4096x16.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x16.size a ≤ S1310720x16.size a
  hwx13_0 : ∀ i : grid13.Coords, EltTy.bits .f32 = 32 ∨ (Rect.block (s := S1310720x16) S4096x16.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4096x1.size a ≤ S1310720x1.size a
  hwx13_1 : ∀ i : grid13.Coords, EltTy.bits .f32 = 32 ∨ (Rect.block (s := S1310720x1) S4096x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4096x1.size a ≤ S1310720x1.size a
  hwx13_2 : ∀ i : grid13.Coords, EltTy.bits .i32 = 32 ∨ (Rect.block (s := S1310720x1) S4096x1.size (cc13_transform_2 i) (hinb13_2 i)).WholeWords (EltTy.packing .i32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4096x1.size a ≤ S1310720x1.size a
  hwx13_3 : ∀ i : grid13.Coords, EltTy.bits .i32 = 32 ∨ (Rect.block (s := S1310720x1) S4096x1.size (cc13_transform_3 i) (hinb13_3 i)).WholeWords (EltTy.packing .i32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x1.size a ≤ S1x1.size a
  hwx13_4 : ∀ i : grid13.Coords, EltTy.bits .f32 = 32 ∨ (Rect.block (s := S1x1) S1x1.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x1.size a ≤ S1x1.size a
  hwx13_5 : ∀ i : grid13.Coords, EltTy.bits .f32 = 32 ∨ (Rect.block (s := S1x1) S1x1.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S16x16.size a ≤ S16x16.size a
  hwx13_6 : ∀ i : grid13.Coords, EltTy.bits .f32 = 32 ∨ (Rect.block (s := S16x16) S16x16.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1x16.size a ≤ S1x16.size a
  hwx13_7 : ∀ i : grid13.Coords, EltTy.bits .f32 = 32 ∨ (Rect.block (s := S1x16) S1x16.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S16x1.size a ≤ S16x1.size a
  hwx13_8 : ∀ i : grid13.Coords, EltTy.bits .f32 = 32 ∨ (Rect.block (s := S16x1) S16x1.size (cc13_transform_8 i) (hinb13_8 i)).WholeWords (EltTy.packing .f32)
  hstage13_9 : ∀ j, (stage13_9 j).IsWhole
  nbuf13_9 : grid13.bufCount reads13_9 true = 1
  hreads13_9 : ∀ i i' : grid13.Coords, (∀ a, reads13_9 a = true → i a = i' a) → cc13_transform_9 i = cc13_transform_9 i'
  hinb13_9 : ∀ (i : grid13.Coords) a, (cc13_transform_9 i a + 1) * S1x1.size a ≤ S1x1.size a
  hwx13_9 : ∀ i : grid13.Coords, EltTy.bits .f32 = 32 ∨ (Rect.block (s := S1x1) S1x1.size (cc13_transform_9 i) (hinb13_9 i)).WholeWords (EltTy.packing .f32)
  hstage13_10 : ∀ j, (stage13_10 j).IsWhole
  nbuf13_10 : grid13.bufCount reads13_10 false = 2
  hreads13_10 : ∀ i i' : grid13.Coords, (∀ a, reads13_10 a = true → i a = i' a) → cc13_transform_10 i = cc13_transform_10 i'
  hinb13_10 : ∀ (i : grid13.Coords) a, (cc13_transform_10 i a + 1) * S4096x1.size a ≤ S1310720x1.size a
  hwx13_10 : ∀ i : grid13.Coords, EltTy.bits .f32 = 32 ∨ (Rect.block (s := S1310720x1) S4096x1.size (cc13_transform_10 i) (hinb13_10 i)).WholeWords (EltTy.packing .f32)

variable [Facts₀]

def dot_S4096x1_S1x16_S4096x16_1_0_0_1_n_n : DotDims S4096x1 S1x16 S4096x16 where
  lhsContracting := [1]
  rhsContracting := [0]
  lhsNonContracting := [0]
  rhsNonContracting := [1]
  lhsBatch := []
  rhsBatch := []
  wf := dot_S4096x1_S1x16_S4096x16_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def gather_S262144x16_S1310720x1_S1310720x16_1_0_n_n_0_1_116 : GatherDims S262144x16 S1310720x1 S1310720x16 where
  offsetDims := [1]
  collapsedSliceDims := [0]
  operandBatchingDims := []
  startIndicesBatchingDims := []
  startIndexMap := [0]
  indexVectorDim := 1
  sliceSizes := ![1, 16]
  wf := gather_S262144x16_S1310720x1_S1310720x16_1_0_n_n_0_1_116_wf
def scatter_S262144x16_S1310720x1_S1310720x16_1_0_0_1 : ScatterDims S262144x16 S1310720x1 S1310720x16 where
  updateWindowDims := [1]
  insertedWindowDims := [0]
  scatterDimsToOperandDims := [0]
  indexVectorDim := 1
  wf := scatter_S262144x16_S1310720x1_S1310720x16_1_0_0_1_wf
def gather_S1310720x16_S655360x1_S655360x16_1_0_n_n_0_1_116 : GatherDims S1310720x16 S655360x1 S655360x16 where
  offsetDims := [1]
  collapsedSliceDims := [0]
  operandBatchingDims := []
  startIndicesBatchingDims := []
  startIndexMap := [0]
  indexVectorDim := 1
  sliceSizes := ![1, 16]
  wf := gather_S1310720x16_S655360x1_S655360x16_1_0_n_n_0_1_116_wf
def scatter_S1310720x16_S655360x1_S655360x16_1_0_0_1 : ScatterDims S1310720x16 S655360x1 S655360x16 where
  updateWindowDims := [1]
  insertedWindowDims := [0]
  scatterDimsToOperandDims := [0]
  indexVectorDim := 1
  wf := scatter_S1310720x16_S655360x1_S655360x16_1_0_0_1_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_v0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg0) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S4096x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S4096x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S4096x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v10) S4096x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S4096x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S4096x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S16x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v16) S1x16.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v17) S4096x16.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v4) S4096x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S4096x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S16x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S16x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v23) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg23) S16x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v24) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v25) S4096x16.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v26) S4096x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S4096x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S4096x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v28) S16x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v29) S16x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v30) S16x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v31) S1x16.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg19) S16x16.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v32) S1x16.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v33) S4096x16.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v25) S4096x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S4096x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S16x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v38) S16x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v39) S1x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg23) S16x16.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v40) S1x16.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v41) S4096x16.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v42) S4096x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v43) S4096x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v33) S4096x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v44) S16x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v45) S16x16.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v46) S16x16.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v47) S1x16.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg19) S16x16.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v48) S1x16.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v49) S4096x16.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v41) S4096x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v52) S4096x16.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v53) S16x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v54) S16x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v55) S1x16.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg23) S16x16.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v56) S1x16.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v57) S4096x16.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v58) S4096x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v59) S4096x16.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v49) S4096x16.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v60) S16x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v61) S16x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v62) S16x16.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v63) S1x16.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg19) S16x16.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v64) S1x16.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v65) S4096x16.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v57) S4096x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v68) S4096x16.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v69) S16x16.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v70) S16x16.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v71) S1x16.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg23) S16x16.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v72) S1x16.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v73) S4096x16.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v74) S4096x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v75) S4096x16.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v65) S4096x16.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v76) S16x16.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v77) S16x16.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v78) S16x16.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v79) S1x16.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_arg19) S16x16.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v80) S1x16.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v81) S4096x16.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

abbrev win12_0 : Pipeline.Window sig grid12 :=
  Pipeline.Window.ofSpec (Memref.whole main_v73) S4096x16.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v84) S4096x16.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v85) S16x16.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v86) S16x16.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v87) S1x16.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg23) S16x16.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v88) S1x16.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v89) S4096x16.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v124) S4096x16.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg1) S4096x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v8) S4096x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v9) S4096x1.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v1) S1x1.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v125) S1x1.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_arg25) S16x16.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v126) S1x16.size cc13_transform_7 reads13_7 false true 1 stage13_7 sem13_7
    hrank13 hreads13_7 hinb13_7 nbuf13_7 (Memref.isWhole_whole _) hwx13_7 hstage13_7

abbrev win13_8 : Pipeline.Window sig grid13 :=
  Pipeline.Window.ofSpec (Memref.whole main_arg27) S16x1.size cc13_transform_8 reads13_8 false true 1 stage13_8 sem13_8
    hrank13 hreads13_8 hinb13_8 nbuf13_8 (Memref.isWhole_whole _) hwx13_8 hstage13_8

abbrev win13_9 : Pipeline.Window sig grid13 :=
  Pipeline.Window.ofSpec (Memref.whole main_v127) S1x1.size cc13_transform_9 reads13_9 false true 1 stage13_9 sem13_9
    hrank13 hreads13_9 hinb13_9 nbuf13_9 (Memref.isWhole_whole _) hwx13_9 hstage13_9

abbrev win13_10 : Pipeline.Window sig grid13 :=
  Pipeline.Window.ofSpec (Memref.whole main_v128) S4096x1.size cc13_transform_10 reads13_10 true false 2 stage13_10 sem13_10
    hrank13 hreads13_10 hinb13_10 nbuf13_10 (Memref.isWhole_whole _) hwx13_10 hstage13_10

abbrev win13 : Fin 11 → Pipeline.Window sig grid13 := fun | 0 => win13_0 | 1 => win13_1 | 2 => win13_2 | 3 => win13_3 | 4 => win13_4 | 5 => win13_5 | 6 => win13_6 | 7 => win13_7 | 8 => win13_8 | 9 => win13_9 | 10 => win13_10 | ⟨_ + 11, h⟩ => absurd h (Nat.not_lt.2 (Nat.le_add_left _ _))
abbrev spec13 : Fin 11 → Pipeline.WinSpec sig grid13.rank := fun w => (win13 w).toWinSpec

class Facts : Prop extends Facts₀ where

variable [Facts]
-- ==== ReferenceIdeal.lean ====
abbrev S262144x1 : Shape := ⟨2, ![262144, 1]⟩
abbrev S1310720x1 : Shape := ⟨2, ![1310720, 1]⟩
abbrev S1310720 : Shape := ⟨1, ![1310720]⟩
abbrev S655360x2 : Shape := ⟨2, ![655360, 2]⟩
abbrev S1x16 : Shape := ⟨2, ![1, 16]⟩
abbrev S16 : Shape := ⟨1, ![16]⟩
abbrev S16x16 : Shape := ⟨2, ![16, 16]⟩
abbrev S48x16 : Shape := ⟨2, ![48, 16]⟩
abbrev S32x16 : Shape := ⟨2, ![32, 16]⟩
abbrev S16x1 : Shape := ⟨2, ![16, 1]⟩
abbrev S1 : Shape := ⟨1, ![1]⟩
abbrev S_ : Shape := ⟨0, ![]⟩
abbrev S262144x16 : Shape := ⟨2, ![262144, 16]⟩
abbrev S1310720x16 : Shape := ⟨2, ![1310720, 16]⟩
abbrev S1310720x48 : Shape := ⟨2, ![1310720, 48]⟩
abbrev S262144x32 : Shape := ⟨2, ![262144, 32]⟩
abbrev S655360x1 : Shape := ⟨2, ![655360, 1]⟩
abbrev S655360 : Shape := ⟨1, ![655360]⟩
abbrev S655360x16 : Shape := ⟨2, ![655360, 16]⟩
abbrev S1x1 : Shape := ⟨2, ![1, 1]⟩

abbrev nBuf : Space → Nat
  | .hbm => 356
  | .vmem => 0
  | .smem => 0
  | _ => 0

abbrev hbmTy0_0 (i : Nat) : BufTy := match i % 128 with
  | 0 => ⟨S262144x1, .f32⟩
  | 1 => ⟨S1310720x1, .f32⟩
  | 2 => ⟨S1310720, .i32⟩
  | 3 => ⟨S1310720, .i32⟩
  | 4 => ⟨S655360x2, .i32⟩
  | 5 => ⟨S262144x1, .f32⟩
  | 6 => ⟨S1310720x1, .f32⟩
  | 7 => ⟨S1310720, .i32⟩
  | 8 => ⟨S1310720, .i32⟩
  | 9 => ⟨S1x16, .f32⟩
  | 10 => ⟨S16, .f32⟩
  | 11 => ⟨S16x16, .f32⟩
  | 12 => ⟨S16, .f32⟩
  | 13 => ⟨S1x16, .f32⟩
  | 14 => ⟨S16, .f32⟩
  | 15 => ⟨S16x16, .f32⟩
  | 16 => ⟨S16, .f32⟩
  | 17 => ⟨S48x16, .f32⟩
  | 18 => ⟨S16, .f32⟩
  | 19 => ⟨S16x16, .f32⟩
  | 20 => ⟨S16, .f32⟩
  | 21 => ⟨S32x16, .f32⟩
  | 22 => ⟨S16, .f32⟩
  | 23 => ⟨S16x16, .f32⟩
  | 24 => ⟨S16, .f32⟩
  | 25 => ⟨S16x16, .f32⟩
  | 26 => ⟨S16, .f32⟩
  | 27 => ⟨S16x1, .f32⟩
  | 28 => ⟨S1, .f32⟩
  | 29 => ⟨S_, .f32⟩
  | 30 => ⟨S1310720x1, .f32⟩
  | 31 => ⟨S_, .f32⟩
  | 32 => ⟨S_, .f32⟩
  | 33 => ⟨S1310720x1, .f32⟩
  | 34 => ⟨S1310720x1, .f32⟩
  | 35 => ⟨S262144x16, .f32⟩
  | 36 => ⟨S1x16, .f32⟩
  | 37 => ⟨S262144x16, .f32⟩
  | 38 => ⟨S262144x16, .f32⟩
  | 39 => ⟨S_, .f32⟩
  | 40 => ⟨S262144x16, .f32⟩
  | 41 => ⟨S262144x16, .f32⟩
  | 42 => ⟨S262144x16, .f32⟩
  | 43 => ⟨S1x16, .f32⟩
  | 44 => ⟨S262144x16, .f32⟩
  | 45 => ⟨S262144x16, .f32⟩
  | 46 => ⟨S1310720x16, .f32⟩
  | 47 => ⟨S1x16, .f32⟩
  | 48 => ⟨S1310720x16, .f32⟩
  | 49 => ⟨S1310720x16, .f32⟩
  | 50 => ⟨S_, .f32⟩
  | 51 => ⟨S1310720x16, .f32⟩
  | 52 => ⟨S1310720x16, .f32⟩
  | 53 => ⟨S1310720x16, .f32⟩
  | 54 => ⟨S1x16, .f32⟩
  | 55 => ⟨S1310720x16, .f32⟩
  | 56 => ⟨S1310720x16, .f32⟩
  | 57 => ⟨S_, .i32⟩
  | 58 => ⟨S1310720, .i32⟩
  | 59 => ⟨S1310720, .i1⟩
  | 60 => ⟨S_, .i32⟩
  | 61 => ⟨S1310720, .i32⟩
  | 62 => ⟨S1310720, .i32⟩
  | 63 => ⟨S1310720, .i32⟩
  | 64 => ⟨S1310720x1, .i32⟩
  | 65 => ⟨S1310720x16, .f32⟩
  | 66 => ⟨S_, .i32⟩
  | 67 => ⟨S1310720, .i32⟩
  | 68 => ⟨S1310720, .i1⟩
  | 69 => ⟨S_, .i32⟩
  | 70 => ⟨S1310720, .i32⟩
  | 71 => ⟨S1310720, .i32⟩
  | 72 => ⟨S1310720, .i32⟩
  | 73 => ⟨S1310720x1, .i32⟩
  | 74 => ⟨S1310720x16, .f32⟩
  | 75 => ⟨S1310720x48, .f32⟩
  | 76 => ⟨S1310720x16, .f32⟩
  | 77 => ⟨S1x16, .f32⟩
  | 78 => ⟨S1310720x16, .f32⟩
  | 79 => ⟨S1310720x16, .f32⟩
  | 80 => ⟨S_, .f32⟩
  | 81 => ⟨S1310720x16, .f32⟩
  | 82 => ⟨S1310720x16, .f32⟩
  | 83 => ⟨S1310720x16, .f32⟩
  | 84 => ⟨S1x16, .f32⟩
  | 85 => ⟨S1310720x16, .f32⟩
  | 86 => ⟨S1310720x16, .f32⟩
  | 87 => ⟨S_, .f32⟩
  | 88 => ⟨S262144x16, .f32⟩
  | 89 => ⟨S1310720x1, .i32⟩
  | 90 => ⟨S262144x16, .f32⟩
  | 91 => ⟨S262144x32, .f32⟩
  | 92 => ⟨S262144x16, .f32⟩
  | 93 => ⟨S1x16, .f32⟩
  | 94 => ⟨S262144x16, .f32⟩
  | 95 => ⟨S262144x16, .f32⟩
  | 96 => ⟨S_, .f32⟩
  | 97 => ⟨S262144x16, .f32⟩
  | 98 => ⟨S262144x16, .f32⟩
  | 99 => ⟨S262144x16, .f32⟩
  | 100 => ⟨S1x16, .f32⟩
  | 101 => ⟨S262144x16, .f32⟩
  | 102 => ⟨S262144x16, .f32⟩
  | 103 => ⟨S_, .i32⟩
  | 104 => ⟨S1310720, .i32⟩
  | 105 => ⟨S1310720, .i1⟩
  | 106 => ⟨S_, .i32⟩
  | 107 => ⟨S1310720, .i32⟩
  | 108 => ⟨S1310720, .i32⟩
  | 109 => ⟨S1310720, .i32⟩
  | 110 => ⟨S1310720x1, .i32⟩
  | 111 => ⟨S1310720x16, .f32⟩
  | 112 => ⟨S_, .i32⟩
  | 113 => ⟨S1310720, .i32⟩
  | 114 => ⟨S1310720, .i1⟩
  | 115 => ⟨S_, .i32⟩
  | 116 => ⟨S1310720, .i32⟩
  | 117 => ⟨S1310720, .i32⟩
  | 118 => ⟨S1310720, .i32⟩
  | 119 => ⟨S1310720x1, .i32⟩
  | 120 => ⟨S1310720x16, .f32⟩
  | 121 => ⟨S1310720x48, .f32⟩
  | 122 => ⟨S1310720x16, .f32⟩
  | 123 => ⟨S1x16, .f32⟩
  | 124 => ⟨S1310720x16, .f32⟩
  | 125 => ⟨S1310720x16, .f32⟩
  | 126 => ⟨S_, .f32⟩
  | 127 => ⟨S1310720x16, .f32⟩
  | _ => ⟨S262144x1, .f32⟩

abbrev hbmTy0_1 (i : Nat) : BufTy := match i % 128 with
  | 0 => ⟨S1310720x16, .f32⟩
  | 1 => ⟨S1310720x16, .f32⟩
  | 2 => ⟨S1x16, .f32⟩
  | 3 => ⟨S1310720x16, .f32⟩
  | 4 => ⟨S1310720x16, .f32⟩
  | 5 => ⟨S_, .f32⟩
  | 6 => ⟨S262144x16, .f32⟩
  | 7 => ⟨S1310720x1, .i32⟩
  | 8 => ⟨S262144x16, .f32⟩
  | 9 => ⟨S262144x32, .f32⟩
  | 10 => ⟨S262144x16, .f32⟩
  | 11 => ⟨S1x16, .f32⟩
  | 12 => ⟨S262144x16, .f32⟩
  | 13 => ⟨S262144x16, .f32⟩
  | 14 => ⟨S_, .f32⟩
  | 15 => ⟨S262144x16, .f32⟩
  | 16 => ⟨S262144x16, .f32⟩
  | 17 => ⟨S262144x16, .f32⟩
  | 18 => ⟨S1x16, .f32⟩
  | 19 => ⟨S262144x16, .f32⟩
  | 20 => ⟨S262144x16, .f32⟩
  | 21 => ⟨S_, .i32⟩
  | 22 => ⟨S1310720, .i32⟩
  | 23 => ⟨S1310720, .i1⟩
  | 24 => ⟨S_, .i32⟩
  | 25 => ⟨S1310720, .i32⟩
  | 26 => ⟨S1310720, .i32⟩
  | 27 => ⟨S1310720, .i32⟩
  | 28 => ⟨S1310720x1, .i32⟩
  | 29 => ⟨S1310720x16, .f32⟩
  | 30 => ⟨S_, .i32⟩
  | 31 => ⟨S1310720, .i32⟩
  | 32 => ⟨S1310720, .i1⟩
  | 33 => ⟨S_, .i32⟩
  | 34 => ⟨S1310720, .i32⟩
  | 35 => ⟨S1310720, .i32⟩
  | 36 => ⟨S1310720, .i32⟩
  | 37 => ⟨S1310720x1, .i32⟩
  | 38 => ⟨S1310720x16, .f32⟩
  | 39 => ⟨S1310720x48, .f32⟩
  | 40 => ⟨S1310720x16, .f32⟩
  | 41 => ⟨S1x16, .f32⟩
  | 42 => ⟨S1310720x16, .f32⟩
  | 43 => ⟨S1310720x16, .f32⟩
  | 44 => ⟨S_, .f32⟩
  | 45 => ⟨S1310720x16, .f32⟩
  | 46 => ⟨S1310720x16, .f32⟩
  | 47 => ⟨S1310720x16, .f32⟩
  | 48 => ⟨S1x16, .f32⟩
  | 49 => ⟨S1310720x16, .f32⟩
  | 50 => ⟨S1310720x16, .f32⟩
  | 51 => ⟨S_, .f32⟩
  | 52 => ⟨S262144x16, .f32⟩
  | 53 => ⟨S1310720x1, .i32⟩
  | 54 => ⟨S262144x16, .f32⟩
  | 55 => ⟨S262144x32, .f32⟩
  | 56 => ⟨S262144x16, .f32⟩
  | 57 => ⟨S1x16, .f32⟩
  | 58 => ⟨S262144x16, .f32⟩
  | 59 => ⟨S262144x16, .f32⟩
  | 60 => ⟨S_, .f32⟩
  | 61 => ⟨S262144x16, .f32⟩
  | 62 => ⟨S262144x16, .f32⟩
  | 63 => ⟨S262144x16, .f32⟩
  | 64 => ⟨S1x16, .f32⟩
  | 65 => ⟨S262144x16, .f32⟩
  | 66 => ⟨S262144x16, .f32⟩
  | 67 => ⟨S_, .i32⟩
  | 68 => ⟨S1310720, .i32⟩
  | 69 => ⟨S1310720, .i1⟩
  | 70 => ⟨S_, .i32⟩
  | 71 => ⟨S1310720, .i32⟩
  | 72 => ⟨S1310720, .i32⟩
  | 73 => ⟨S1310720, .i32⟩
  | 74 => ⟨S1310720x1, .i32⟩
  | 75 => ⟨S1310720x16, .f32⟩
  | 76 => ⟨S_, .i32⟩
  | 77 => ⟨S1310720, .i32⟩
  | 78 => ⟨S1310720, .i1⟩
  | 79 => ⟨S_, .i32⟩
  | 80 => ⟨S1310720, .i32⟩
  | 81 => ⟨S1310720, .i32⟩
  | 82 => ⟨S1310720, .i32⟩
  | 83 => ⟨S1310720x1, .i32⟩
  | 84 => ⟨S1310720x16, .f32⟩
  | 85 => ⟨S1310720x48, .f32⟩
  | 86 => ⟨S1310720x16, .f32⟩
  | 87 => ⟨S1x16, .f32⟩
  | 88 => ⟨S1310720x16, .f32⟩
  | 89 => ⟨S1310720x16, .f32⟩
  | 90 => ⟨S_, .f32⟩
  | 91 => ⟨S1310720x16, .f32⟩
  | 92 => ⟨S1310720x16, .f32⟩
  | 93 => ⟨S1310720x16, .f32⟩
  | 94 => ⟨S1x16, .f32⟩
  | 95 => ⟨S1310720x16, .f32⟩
  | 96 => ⟨S1310720x16, .f32⟩
  | 97 => ⟨S_, .f32⟩
  | 98 => ⟨S262144x16, .f32⟩
  | 99 => ⟨S1310720x1, .i32⟩
  | 100 => ⟨S262144x16, .f32⟩
  | 101 => ⟨S262144x32, .f32⟩
  | 102 => ⟨S262144x16, .f32⟩
  | 103 => ⟨S1x16, .f32⟩
  | 104 => ⟨S262144x16, .f32⟩
  | 105 => ⟨S262144x16, .f32⟩
  | 106 => ⟨S_, .f32⟩
  | 107 => ⟨S262144x16, .f32⟩
  | 108 => ⟨S262144x16, .f32⟩
  | 109 => ⟨S262144x16, .f32⟩
  | 110 => ⟨S1x16, .f32⟩
  | 111 => ⟨S262144x16, .f32⟩
  | 112 => ⟨S262144x16, .f32⟩
  | 113 => ⟨S_, .i32⟩
  | 114 => ⟨S1310720, .i32⟩
  | 115 => ⟨S1310720, .i1⟩
  | 116 => ⟨S_, .i32⟩
  | 117 => ⟨S1310720, .i32⟩
  | 118 => ⟨S1310720, .i32⟩
  | 119 => ⟨S1310720, .i32⟩
  | 120 => ⟨S1310720x1, .i32⟩
  | 121 => ⟨S1310720x16, .f32⟩
  | 122 => ⟨S_, .i32⟩
  | 123 => ⟨S1310720, .i32⟩
  | 124 => ⟨S1310720, .i1⟩
  | 125 => ⟨S_, .i32⟩
  | 126 => ⟨S1310720, .i32⟩
  | 127 => ⟨S1310720, .i32⟩
  | _ => ⟨S262144x1, .f32⟩

abbrev hbmTy0_2 (i : Nat) : BufTy := match i % 128 with
  | 0 => ⟨S1310720, .i32⟩
  | 1 => ⟨S1310720x1, .i32⟩
  | 2 => ⟨S1310720x16, .f32⟩
  | 3 => ⟨S1310720x48, .f32⟩
  | 4 => ⟨S1310720x16, .f32⟩
  | 5 => ⟨S1x16, .f32⟩
  | 6 => ⟨S1310720x16, .f32⟩
  | 7 => ⟨S1310720x16, .f32⟩
  | 8 => ⟨S_, .f32⟩
  | 9 => ⟨S1310720x16, .f32⟩
  | 10 => ⟨S1310720x16, .f32⟩
  | 11 => ⟨S1310720x16, .f32⟩
  | 12 => ⟨S1x16, .f32⟩
  | 13 => ⟨S1310720x16, .f32⟩
  | 14 => ⟨S1310720x16, .f32⟩
  | 15 => ⟨S_, .f32⟩
  | 16 => ⟨S262144x16, .f32⟩
  | 17 => ⟨S1310720x1, .i32⟩
  | 18 => ⟨S262144x16, .f32⟩
  | 19 => ⟨S262144x32, .f32⟩
  | 20 => ⟨S262144x16, .f32⟩
  | 21 => ⟨S1x16, .f32⟩
  | 22 => ⟨S262144x16, .f32⟩
  | 23 => ⟨S262144x16, .f32⟩
  | 24 => ⟨S_, .f32⟩
  | 25 => ⟨S262144x16, .f32⟩
  | 26 => ⟨S262144x16, .f32⟩
  | 27 => ⟨S262144x16, .f32⟩
  | 28 => ⟨S1x16, .f32⟩
  | 29 => ⟨S262144x16, .f32⟩
  | 30 => ⟨S262144x16, .f32⟩
  | 31 => ⟨S655360x1, .i32⟩
  | 32 => ⟨S655360, .i32⟩
  | 33 => ⟨S_, .i32⟩
  | 34 => ⟨S655360, .i32⟩
  | 35 => ⟨S655360, .i1⟩
  | 36 => ⟨S_, .i32⟩
  | 37 => ⟨S655360, .i32⟩
  | 38 => ⟨S655360, .i32⟩
  | 39 => ⟨S655360, .i32⟩
  | 40 => ⟨S655360x1, .i32⟩
  | 41 => ⟨S655360x16, .f32⟩
  | 42 => ⟨S655360x1, .i32⟩
  | 43 => ⟨S655360, .i32⟩
  | 44 => ⟨S_, .i32⟩
  | 45 => ⟨S655360, .i32⟩
  | 46 => ⟨S655360, .i1⟩
  | 47 => ⟨S_, .i32⟩
  | 48 => ⟨S655360, .i32⟩
  | 49 => ⟨S655360, .i32⟩
  | 50 => ⟨S655360, .i32⟩
  | 51 => ⟨S655360x1, .i32⟩
  | 52 => ⟨S655360x16, .f32⟩
  | 53 => ⟨S655360x16, .f32⟩
  | 54 => ⟨S_, .f32⟩
  | 55 => ⟨S655360x16, .f32⟩
  | 56 => ⟨S655360x16, .f32⟩
  | 57 => ⟨S655360x1, .i32⟩
  | 58 => ⟨S655360, .i32⟩
  | 59 => ⟨S_, .i32⟩
  | 60 => ⟨S655360, .i32⟩
  | 61 => ⟨S655360, .i1⟩
  | 62 => ⟨S_, .i32⟩
  | 63 => ⟨S655360, .i32⟩
  | 64 => ⟨S655360, .i32⟩
  | 65 => ⟨S655360, .i32⟩
  | 66 => ⟨S655360x1, .i32⟩
  | 67 => ⟨S1310720x16, .f32⟩
  | 68 => ⟨S655360x1, .i32⟩
  | 69 => ⟨S655360, .i32⟩
  | 70 => ⟨S_, .i32⟩
  | 71 => ⟨S655360, .i32⟩
  | 72 => ⟨S655360, .i1⟩
  | 73 => ⟨S_, .i32⟩
  | 74 => ⟨S655360, .i32⟩
  | 75 => ⟨S655360, .i32⟩
  | 76 => ⟨S655360, .i32⟩
  | 77 => ⟨S655360x1, .i32⟩
  | 78 => ⟨S1310720x16, .f32⟩
  | 79 => ⟨S1310720x16, .f32⟩
  | 80 => ⟨S1x16, .f32⟩
  | 81 => ⟨S1310720x16, .f32⟩
  | 82 => ⟨S1310720x16, .f32⟩
  | 83 => ⟨S_, .f32⟩
  | 84 => ⟨S1310720x16, .f32⟩
  | 85 => ⟨S1310720x16, .f32⟩
  | 86 => ⟨S1310720x1, .f32⟩
  | 87 => ⟨S1x1, .f32⟩
  | 88 => ⟨S1310720x1, .f32⟩
  | 89 => ⟨S1310720x1, .f32⟩
  | 90 => ⟨S1310720x1, .f32⟩
  | 91 => ⟨S1310720x1, .f32⟩
  | 92 => ⟨S1310720x1, .f32⟩
  | 93 => ⟨S1310720x1, .f32⟩
  | 94 => ⟨S1310720x1, .f32⟩
  | 95 => ⟨S1310720, .f32⟩
  | 96 => ⟨S1310720, .i1⟩
  | 97 => ⟨S_, .f32⟩
  | 98 => ⟨S1310720, .f32⟩
  | 99 => ⟨S1310720, .f32⟩
  | _ => ⟨S262144x1, .f32⟩

abbrev hbmTy (i : Nat) : BufTy := match i / 128 with
  | 0 => hbmTy0_0 i
  | 1 => hbmTy0_1 i
  | 2 => hbmTy0_2 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call0_cst : Ref sig .tc := ⟨.hbm, 39, rfl⟩
abbrev main_call0_v0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call1_cst : Ref sig .tc := ⟨.hbm, 50, rfl⟩
abbrev main_call1_v0 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c : Ref sig .tc := ⟨.hbm, 57, rfl⟩
abbrev main_v22 : Ref sig .tc := ⟨.hbm, 58, rfl⟩
abbrev main_v23 : Ref sig .tc := ⟨.hbm, 59, rfl⟩
abbrev main_c_0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_1 : Ref sig .tc := ⟨.hbm, 66, rfl⟩
abbrev main_v29 : Ref sig .tc := ⟨.hbm, 67, rfl⟩
abbrev main_v30 : Ref sig .tc := ⟨.hbm, 68, rfl⟩
abbrev main_c_2 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call2_cst : Ref sig .tc := ⟨.hbm, 80, rfl⟩
abbrev main_call2_v0 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_3 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call3_cst : Ref sig .tc := ⟨.hbm, 96, rfl⟩
abbrev main_call3_v0 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_4 : Ref sig .tc := ⟨.hbm, 103, rfl⟩
abbrev main_v59 : Ref sig .tc := ⟨.hbm, 104, rfl⟩
abbrev main_v60 : Ref sig .tc := ⟨.hbm, 105, rfl⟩
abbrev main_c_5 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c_6 : Ref sig .tc := ⟨.hbm, 112, rfl⟩
abbrev main_v66 : Ref sig .tc := ⟨.hbm, 113, rfl⟩
abbrev main_v67 : Ref sig .tc := ⟨.hbm, 114, rfl⟩
abbrev main_c_7 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call4_cst : Ref sig .tc := ⟨.hbm, 126, rfl⟩
abbrev main_call4_v0 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_8 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_call5_cst : Ref sig .tc := ⟨.hbm, 142, rfl⟩
abbrev main_call5_v0 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_9 : Ref sig .tc := ⟨.hbm, 149, rfl⟩
abbrev main_v96 : Ref sig .tc := ⟨.hbm, 150, rfl⟩
abbrev main_v97 : Ref sig .tc := ⟨.hbm, 151, rfl⟩
abbrev main_c_10 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_c_11 : Ref sig .tc := ⟨.hbm, 158, rfl⟩
abbrev main_v103 : Ref sig .tc := ⟨.hbm, 159, rfl⟩
abbrev main_v104 : Ref sig .tc := ⟨.hbm, 160, rfl⟩
abbrev main_c_12 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_call6_cst : Ref sig .tc := ⟨.hbm, 172, rfl⟩
abbrev main_call6_v0 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_13 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_call7_cst : Ref sig .tc := ⟨.hbm, 188, rfl⟩
abbrev main_call7_v0 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_c_14 : Ref sig .tc := ⟨.hbm, 195, rfl⟩
abbrev main_v133 : Ref sig .tc := ⟨.hbm, 196, rfl⟩
abbrev main_v134 : Ref sig .tc := ⟨.hbm, 197, rfl⟩
abbrev main_c_15 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_c_16 : Ref sig .tc := ⟨.hbm, 204, rfl⟩
abbrev main_v140 : Ref sig .tc := ⟨.hbm, 205, rfl⟩
abbrev main_v141 : Ref sig .tc := ⟨.hbm, 206, rfl⟩
abbrev main_c_17 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_call8_cst : Ref sig .tc := ⟨.hbm, 218, rfl⟩
abbrev main_call8_v0 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_18 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_call9_cst : Ref sig .tc := ⟨.hbm, 234, rfl⟩
abbrev main_call9_v0 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_c_19 : Ref sig .tc := ⟨.hbm, 241, rfl⟩
abbrev main_v170 : Ref sig .tc := ⟨.hbm, 242, rfl⟩
abbrev main_v171 : Ref sig .tc := ⟨.hbm, 243, rfl⟩
abbrev main_c_20 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_c_21 : Ref sig .tc := ⟨.hbm, 250, rfl⟩
abbrev main_v177 : Ref sig .tc := ⟨.hbm, 251, rfl⟩
abbrev main_v178 : Ref sig .tc := ⟨.hbm, 252, rfl⟩
abbrev main_c_22 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_call10_cst : Ref sig .tc := ⟨.hbm, 264, rfl⟩
abbrev main_call10_v0 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_cst_23 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_call11_cst : Ref sig .tc := ⟨.hbm, 280, rfl⟩
abbrev main_call11_v0 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_c_24 : Ref sig .tc := ⟨.hbm, 289, rfl⟩
abbrev main_v209 : Ref sig .tc := ⟨.hbm, 290, rfl⟩
abbrev main_v210 : Ref sig .tc := ⟨.hbm, 291, rfl⟩
abbrev main_c_25 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_c_26 : Ref sig .tc := ⟨.hbm, 300, rfl⟩
abbrev main_v218 : Ref sig .tc := ⟨.hbm, 301, rfl⟩
abbrev main_v219 : Ref sig .tc := ⟨.hbm, 302, rfl⟩
abbrev main_c_27 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_cst_28 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_c_29 : Ref sig .tc := ⟨.hbm, 315, rfl⟩
abbrev main_v230 : Ref sig .tc := ⟨.hbm, 316, rfl⟩
abbrev main_v231 : Ref sig .tc := ⟨.hbm, 317, rfl⟩
abbrev main_c_30 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_c_31 : Ref sig .tc := ⟨.hbm, 326, rfl⟩
abbrev main_v239 : Ref sig .tc := ⟨.hbm, 327, rfl⟩
abbrev main_v240 : Ref sig .tc := ⟨.hbm, 328, rfl⟩
abbrev main_c_32 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_call12_cst : Ref sig .tc := ⟨.hbm, 339, rfl⟩
abbrev main_call12_v0 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_cst_33 : Ref sig .tc := ⟨.hbm, 353, rfl⟩
abbrev main_call13_v0 : Ref sig .tc := ⟨.hbm, 354, rfl⟩
abbrev main_v262 : Ref sig .tc := ⟨.hbm, 355, rfl⟩

abbrev nD : Nat := 1
abbrev τ : Topo := Topo.v7x

variable {F : FTy → Type} [FloatOps F]

class Facts₀ : Prop where
  reducesTo_S1310720x1_S_d0_1 : S1310720x1.ReducesTo [0, 1] S_
  h_S_ : 0 < S_.numel
  bcast_S_S1310720x1 : S_.BroadcastsInDim S1310720x1 (![] : Fin 0 → Fin S1310720x1.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  bcast_S1x16_S1310720x16_0_1 : S1x16.BroadcastsInDim S1310720x16 (![0, 1] : Fin 2 → Fin S1310720x16.rank)
  bcast_S_S1310720x16 : S_.BroadcastsInDim S1310720x16 (![] : Fin 0 → Fin S1310720x16.rank)
  bcast_S_S1310720 : S_.BroadcastsInDim S1310720 (![] : Fin 0 → Fin S1310720.rank)
  bcast_S1310720_S1310720x1_0 : S1310720.BroadcastsInDim S1310720x1 (![0] : Fin 1 → Fin S1310720x1.rank)
  concatenates_S1310720x16_S1310720x16_S1310720x16_S1310720x48_d1 : Shape.Concatenates [S1310720x16, S1310720x16, S1310720x16] S1310720x48 1
  concatenates_S262144x16_S262144x16_S262144x32_d1 : Shape.Concatenates [S262144x16, S262144x16] S262144x32 1
  slices_S655360x2_S655360x1_0_0 : S655360x2.Slices ![0, 0] S655360x1
  shapeCasts_S655360x1_S655360 : S655360x1.ShapeCasts S655360
  bcast_S_S655360 : S_.BroadcastsInDim S655360 (![] : Fin 0 → Fin S655360.rank)
  bcast_S655360_S655360x1_0 : S655360.BroadcastsInDim S655360x1 (![0] : Fin 1 → Fin S655360x1.rank)
  slices_S655360x2_S655360x1_0_1 : S655360x2.Slices ![0, 1] S655360x1
  bcast_S_S655360x16 : S_.BroadcastsInDim S655360x16 (![] : Fin 0 → Fin S655360x16.rank)
  bcast_S1_S1x1_1 : S1.BroadcastsInDim S1x1 (![1] : Fin 1 → Fin S1x1.rank)
  bcast_S1x1_S1310720x1_0_1 : S1x1.BroadcastsInDim S1310720x1 (![0, 1] : Fin 2 → Fin S1310720x1.rank)
  shapeCasts_S1310720x1_S1310720 : S1310720x1.ShapeCasts S1310720
  dot_S262144x1_S1x16_S262144x16_1_0_0_1_n_n_wf : DotDims.WF S262144x1 S1x16 S262144x16 [1] [0] [0] [1] [] []
  dot_S262144x16_S16x16_S262144x16_1_0_0_1_n_n_wf : DotDims.WF S262144x16 S16x16 S262144x16 [1] [0] [0] [1] [] []
  dot_S1310720x1_S1x16_S1310720x16_1_0_0_1_n_n_wf : DotDims.WF S1310720x1 S1x16 S1310720x16 [1] [0] [0] [1] [] []
  dot_S1310720x16_S16x16_S1310720x16_1_0_0_1_n_n_wf : DotDims.WF S1310720x16 S16x16 S1310720x16 [1] [0] [0] [1] [] []
  gather_S262144x16_S1310720x1_S1310720x16_1_0_n_n_0_1_116_wf : GatherDims.WF S262144x16 S1310720x1 S1310720x16 [1] [0] [] [0] [] 1 ![1, 16]
  dot_S1310720x48_S48x16_S1310720x16_1_0_0_1_n_n_wf : DotDims.WF S1310720x48 S48x16 S1310720x16 [1] [0] [0] [1] [] []
  scatter_S262144x16_S1310720x1_S1310720x16_1_0_0_1_wf : ScatterDims.WF S262144x16 S1310720x1 S1310720x16 [1] [0] [0] 1
  dot_S262144x32_S32x16_S262144x16_1_0_0_1_n_n_wf : DotDims.WF S262144x32 S32x16 S262144x16 [1] [0] [0] [1] [] []
  gather_S1310720x16_S655360x1_S655360x16_1_0_n_n_0_1_116_wf : GatherDims.WF S1310720x16 S655360x1 S655360x16 [1] [0] [] [0] [] 1 ![1, 16]
  scatter_S1310720x16_S655360x1_S655360x16_1_0_0_1_wf : ScatterDims.WF S1310720x16 S655360x1 S655360x16 [1] [0] [0] 1
  dot_S1310720x16_S16x1_S1310720x1_1_0_0_1_n_n_wf : DotDims.WF S1310720x16 S16x1 S1310720x1 [1] [0] [0] [1] [] []

variable [Facts₀]

def dot_S262144x1_S1x16_S262144x16_1_0_0_1_n_n : DotDims S262144x1 S1x16 S262144x16 where
  lhsContracting := [1]
  rhsContracting := [0]
  lhsNonContracting := [0]
  rhsNonContracting := [1]
  lhsBatch := []
  rhsBatch := []
  wf := dot_S262144x1_S1x16_S262144x16_1_0_0_1_n_n_wf
def dot_S262144x16_S16x16_S262144x16_1_0_0_1_n_n : DotDims S262144x16 S16x16 S262144x16 where
  lhsContracting := [1]
  rhsContracting := [0]
  lhsNonContracting := [0]
  rhsNonContracting := [1]
  lhsBatch := []
  rhsBatch := []
  wf := dot_S262144x16_S16x16_S262144x16_1_0_0_1_n_n_wf
def dot_S1310720x1_S1x16_S1310720x16_1_0_0_1_n_n : DotDims S1310720x1 S1x16 S1310720x16 where
  lhsContracting := [1]
  rhsContracting := [0]
  lhsNonContracting := [0]
  rhsNonContracting := [1]
  lhsBatch := []
  rhsBatch := []
  wf := dot_S1310720x1_S1x16_S1310720x16_1_0_0_1_n_n_wf
def dot_S1310720x16_S16x16_S1310720x16_1_0_0_1_n_n : DotDims S1310720x16 S16x16 S1310720x16 where
  lhsContracting := [1]
  rhsContracting := [0]
  lhsNonContracting := [0]
  rhsNonContracting := [1]
  lhsBatch := []
  rhsBatch := []
  wf := dot_S1310720x16_S16x16_S1310720x16_1_0_0_1_n_n_wf
def gather_S262144x16_S1310720x1_S1310720x16_1_0_n_n_0_1_116 : GatherDims S262144x16 S1310720x1 S1310720x16 where
  offsetDims := [1]
  collapsedSliceDims := [0]
  operandBatchingDims := []
  startIndicesBatchingDims := []
  startIndexMap := [0]
  indexVectorDim := 1
  sliceSizes := ![1, 16]
  wf := gather_S262144x16_S1310720x1_S1310720x16_1_0_n_n_0_1_116_wf
def dot_S1310720x48_S48x16_S1310720x16_1_0_0_1_n_n : DotDims S1310720x48 S48x16 S1310720x16 where
  lhsContracting := [1]
  rhsContracting := [0]
  lhsNonContracting := [0]
  rhsNonContracting := [1]
  lhsBatch := []
  rhsBatch := []
  wf := dot_S1310720x48_S48x16_S1310720x16_1_0_0_1_n_n_wf
def scatter_S262144x16_S1310720x1_S1310720x16_1_0_0_1 : ScatterDims S262144x16 S1310720x1 S1310720x16 where
  updateWindowDims := [1]
  insertedWindowDims := [0]
  scatterDimsToOperandDims := [0]
  indexVectorDim := 1
  wf := scatter_S262144x16_S1310720x1_S1310720x16_1_0_0_1_wf
def dot_S262144x32_S32x16_S262144x16_1_0_0_1_n_n : DotDims S262144x32 S32x16 S262144x16 where
  lhsContracting := [1]
  rhsContracting := [0]
  lhsNonContracting := [0]
  rhsNonContracting := [1]
  lhsBatch := []
  rhsBatch := []
  wf := dot_S262144x32_S32x16_S262144x16_1_0_0_1_n_n_wf
def gather_S1310720x16_S655360x1_S655360x16_1_0_n_n_0_1_116 : GatherDims S1310720x16 S655360x1 S655360x16 where
  offsetDims := [1]
  collapsedSliceDims := [0]
  operandBatchingDims := []
  startIndicesBatchingDims := []
  startIndexMap := [0]
  indexVectorDim := 1
  sliceSizes := ![1, 16]
  wf := gather_S1310720x16_S655360x1_S655360x16_1_0_n_n_0_1_116_wf
def scatter_S1310720x16_S655360x1_S655360x16_1_0_0_1 : ScatterDims S1310720x16 S655360x1 S655360x16 where
  updateWindowDims := [1]
  insertedWindowDims := [0]
  scatterDimsToOperandDims := [0]
  indexVectorDim := 1
  wf := scatter_S1310720x16_S655360x1_S655360x16_1_0_0_1_wf
def dot_S1310720x16_S16x1_S1310720x1_1_0_0_1_n_n : DotDims S1310720x16 S16x1 S1310720x1 where
  lhsContracting := [1]
  rhsContracting := [0]
  lhsNonContracting := [0]
  rhsNonContracting := [1]
  lhsBatch := []
  rhsBatch := []
  wf := dot_S1310720x16_S16x1_S1310720x1_1_0_0_1_n_n_wf

class Facts : Prop extends Facts₀ where

variable [Facts]
-- ==== Proof.K.R0.lean ====
import proofs.«408468_j77438260346965_2_alg».proof.Proof.Gen.Kernel.Launch
import proofs.«408468_j77438260346965_2_alg».proof.Proof.Gen.Kernel.Skeleton
import proofs.«408468_j77438260346965_2_alg».proof.Proof.Gen.Kernel.Points
import Idealize.ShloMosaic.Lib.Pipeline.FrameBody
import Idealize.ShloMosaic.Lib.Pipeline.FrameSuffix
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- Window w's block of its array at grid point t.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hcond0_1 : ∀ t : Fin cfg0.N, k0_cond1 (grid0.coords t) = 1#1 ↔ t.val = 0 :=
  (by decide +kernel : ∀ t : Fin grid0.N, k0_cond1 (grid0.coords t) = 1#1 ↔ t.val = 0)

theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

theorem idle0_1 (i : grid0.Coords) : cfg0.idle 1 i = false := by
  have h : ∀ n : Fin 320, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide +kernel
  exact h (i 0)

abbrev r0_in : Rect S32x128 := Rect.unit (s := S32x128) ![0, 0] S32x128.size inb_S32x128_S32x128_0_0
abbrev r0_out : Rect S1x1 := Rect.unit (s := S1x1) ![0, 0] S1x1.size inb_S1x1_S1x1_0_0

-- The output block at the first grid point, from the input block alone.
def out0_A (x0 : Vec F S32x128 .f32) : Vec F S1x1 .f32 :=
  View.canon [⟨r0_out, k0_pay1 (View.ld x0 r0_in)⟩]

-- The output block at a later grid point, from the input block and the running value xo.
def out0_B (x0 : Vec F S32x128 .f32) (xo : Vec F S1x1 .f32) : Vec F S1x1 .f32 :=
  View.canon [⟨r0_out, k0_pay2 (View.ld x0 r0_in) (View.ld xo r0_out)⟩]

-- At the first point the body produces out0_A, at a later one out0_B of the value xo it finds; the input stays as it was.
set_option maxHeartbeats 1000000 in
theorem sound_kernel0 (c : Dev nD) (E : Set ℕ) (i : grid0.Coords) (arg1 : Memref sig .tc .vmem S32x128 .f32) (harg1 : arg1.IsWhole)
    (arg2 : Memref sig .tc .vmem S1x1 .f32) (harg2 : arg2.IsWhole) (x0 : Vec F S32x128 .f32) (xo out : Vec F S1x1 .f32)
    (h : k0_cond1 i = 1#1 ∧ ¬ k0_cond2 i = 1#1 ∧ out = out0_A x0 ∨ ¬ k0_cond1 i = 1#1 ∧ k0_cond2 i = 1#1 ∧ out = out0_B x0 xo)
    (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare out) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  rcases h with ⟨h1, h2, rfl⟩ | ⟨h1, h2, rfl⟩ <;>
  · iintro ⟨⟨%f0, %hf0, H0⟩, ⟨%f1, %hf1, H1⟩, Hk⟩
    subst hf0; subst hf1
    sl_exec (disch := first | exact h1 | exact h2)
    sl_step
    iapply Hk
    isplitl [H0]
    · iexists _; isplitr; · ipureintro; rfl
      iexact H0
    iexists _; isplitr
    swap; · iexact H1
    ipureintro
    exact View.read_writes_eq_canon _ _ _ (View.cover_of_tiled _ S1x1.size (by rfl))

-- The running value after grid point n, by recursion on n.
def outsAt0 (c : Dev nD) : (n : ℕ) → n < cfg0.N → Vec F S1x1 .f32
  | 0, hn => out0_A (iblk0 V c 0 ⟨0, hn⟩)
  | n + 1, hn => out0_B (iblk0 V c 0 ⟨n + 1, hn⟩) (outsAt0 c n (Nat.lt_of_succ_lt hn))

theorem outsAt0_first (c : Dev nD) (t : Fin cfg0.N) (h0 : t.val = 0) :
    outsAt0 V c t.val t.isLt = out0_A (iblk0 V c 0 t) := by
  obtain ⟨n, hn⟩ := t
  cases n with
  | zero => rfl
  | succ n => exact absurd h0 (Nat.succ_ne_zero n)

theorem outsAt0_later (c : Dev nD) (t : Fin cfg0.N) (h0 : t.val ≠ 0) :
    outsAt0 V c t.val t.isLt
      = out0_B (iblk0 V c 0 t) (outsAt0 V c (t.val - 1) (Nat.lt_of_le_of_lt (Nat.sub_le _ _) t.isLt)) := by
  obtain ⟨n, hn⟩ := t
  cases n with
  | zero => exact absurd rfl h0
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = outsAt0 V c t.val t.isLt := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1_later (c : Dev nD) (t : Fin cfg0.N) (h0 : t.val ≠ 0) (d) :
    (dat0 V c).before 1 t d = outsAt0 V c (t.val - 1) (Nat.lt_of_le_of_lt (Nat.sub_le _ _) t.isLt) := by
  have hN : t.val < 320 := lt_of_lt_of_eq t.isLt (show cfg0.N = 320 from N_0)
  rw [Dat.before_out_kept _ 1 rfl t h0 (Bool.eq_false_iff.mpr fun h => by have := (flush0_1 _).mp h; dsimp only at this; omega)
    idle0_1 (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl, after0_1]
  by_cases h0 : t.val = 0
  · rw [outsAt0_first V c t h0]
    dsimp only [dat0]
    iintro ⟨HΦ, Ho, ⟨%d0, H0⟩, ⟨%d1, H1⟩⟩
    iapply (sound_kernel0 c Set.univ (grid0.coords t) (st0_0 t) _ (st0_1 t) _ (iblk0 V c 0 t) _ _ (.inl ⟨(hcond0_1 t).mpr h0, fun h => (hcond0_2 t).mp h h0, rfl⟩) _)
    isplitl [H0]; · iexact H0
    isplitl [H1]; · iexact H1
    iintro ⟨H0, H1⟩
    iframe
  · rw [outsAt0_later V c t h0]
    simp only [before0_1_later V c t h0]
    dsimp only [dat0]
    iintro ⟨HΦ, Ho, ⟨%d0, H0⟩, ⟨%d1, H1⟩⟩
    iapply (sound_kernel0 c Set.univ (grid0.coords t) (st0_0 t) _ (st0_1 t) _ (iblk0 V c 0 t) _ _ (.inr ⟨fun h => h0 ((hcond0_1 t).mp h), (hcond0_2 t).mpr h0, rfl⟩) _)
    isplitl [H0]; · iexact H0
    isplitl [H1]; · iexact H1
    iintro ⟨H0, H1⟩
    iframe

-- The body's contract at every grid point, by cases on whether the point is the first.
theorem body_obligation0 (c : Dev nD) : BodyObligation (dat0 (F := F) V c) (defs₀ (F := F)) Variants.none () Set.univ := fun t => by
  rw [bigSep_W0, bigSep_W0]
  have hi : cfg0.idle 1 (cfg0.grid.coords t) = false := idle0_1 _
  rw [hi]
  exact sound_body0 V c t

end Cert.Kernel.Hand
end
-- ==== Proof.K.R1.lean ====
import proofs.«408468_j77438260346965_2_alg».proof.Proof.Gen.Kernel.Launch
import proofs.«408468_j77438260346965_2_alg».proof.Proof.Gen.Kernel.Skeleton
import proofs.«408468_j77438260346965_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block of its array at grid point t.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x1 := Rect.unit (s := S4096x1) ![0, 0] S4096x1.size inb_S4096x1_S4096x1_0_0
abbrev r1_1 : Rect S1x16 := Rect.unit (s := S1x16) ![0, 0] S1x16.size inb_S1x16_S1x16_0_0
abbrev r1_2 : Rect S16x16 := Rect.unit (s := S16x16) ![0, 0] S16x16.size inb_S16x16_S16x16_0_0
abbrev r1_3 : Rect S4096x16 := Rect.unit (s := S4096x16) ![0, 0] S4096x16.size inb_S4096x16_S4096x16_0_0

-- The output block as a function of the input blocks.
def out1_5 (x0 : Vec F S4096x1 .f32) (x1 : Vec F S1x16 .f32) (x2 : Vec F S1x16 .f32) (x3 : Vec F S16x16 .f32) (x4 : Vec F S1x16 .f32) :
    Vec F S4096x16 .f32 :=
  View.canon [⟨r1_3, k1_pay1 (View.ld x0 r1_0) (View.ld x1 r1_1) (View.ld x2 r1_1) (View.ld x3 r1_2) (View.ld x4 r1_1)⟩]

-- From input blocks x the body produces the output block above and leaves the inputs as they were.
set_option maxHeartbeats 1000000 in
theorem sound_kernel1 (c : Dev nD) (E : Set ℕ) (i : grid1.Coords)
    (arg1 : Memref sig .tc .vmem S4096x1 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S1x16 .f32) (harg5 : arg5.IsWhole) (arg6 : Memref sig .tc .vmem S4096x16 .f32) (harg6 : arg6.IsWhole)
    (x0 : Vec F S4096x1 .f32) (x1 : Vec F S1x16 .f32) (x2 : Vec F S1x16 .f32) (x3 : Vec F S16x16 .f32) (x4 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__encode_kernel i arg1 harg1 arg2 harg2 arg3 harg3 arg4 harg4 arg5 harg5 arg6 harg6) K := by
  simp only [cc1__encode_kernel_eq_skeleton]; unfold cc1__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4096x16.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

-- The body's contract at every grid point, from the triple above.
theorem body_obligation1 (c : Dev nD) : BodyObligation (dat1 (F := F) V c) (defs₀ (F := F)) Variants.none () Set.univ := fun t => by
  show iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.castSucc ∗ (dat1 V c).owesAt () t.castSucc
        ∗ bigSep Finset.univ fun w : Fin cfg1.W => owns (c : Thread nD τ) ((cfg1.win w).stage (cfg1.slots t w)) fullShare ((dat1 V c).after w t))
  rw [bigSep_W1, bigSep_W1]
  simp only [before1_0, before1_1, before1_2, before1_3, before1_4]
  dsimp only [dat1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) (st1_0 t) _ (st1_1 t) _ (st1_2 t) _ (st1_3 t) _ (st1_4 t) _ (st1_5 t) _ (iblk1 V c 0 t) (iblk1 V c 1 t) (iblk1 V c 2 t) (iblk1 V c 3 t) (iblk1 V c 4 t) _)
  iframe
  isplitl [H5]; · iexists _; iexact H5
  iintro ⟨H0, H1, H2, H3, H4, H5⟩
  iframe

end Cert.Kernel.Hand
end
-- ==== Proof.K.R2.lean ====
import proofs.«408468_j77438260346965_2_alg».proof.Proof.Gen.Kernel.Launch
import proofs.«408468_j77438260346965_2_alg».proof.Proof.Gen.Kernel.Skeleton
import proofs.«408468_j77438260346965_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block of its array at grid point t.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4096x1 := Rect.unit (s := S4096x1) ![0, 0] S4096x1.size inb_S4096x1_S4096x1_0_0
abbrev r2_1 : Rect S1x1 := Rect.unit (s := S1x1) ![0, 0] S1x1.size inb_S1x1_S1x1_0_0
abbrev r2_2 : Rect S1x16 := Rect.unit (s := S1x16) ![0, 0] S1x16.size inb_S1x16_S1x16_0_0
abbrev r2_3 : Rect S16x16 := Rect.unit (s := S16x16) ![0, 0] S16x16.size inb_S16x16_S16x16_0_0
abbrev r2_4 : Rect S4096x16 := Rect.unit (s := S4096x16) ![0, 0] S4096x16.size inb_S4096x16_S4096x16_0_0

-- The output block as a function of the input blocks.
def out2_6 (x0 : Vec F S4096x1 .f32) (x1 : Vec F S1x1 .f32) (x2 : Vec F S1x16 .f32) (x3 : Vec F S1x16 .f32) (x4 : Vec F S16x16 .f32) (x5 : Vec F S1x16 .f32) : Vec F S4096x16 .f32 :=
  View.canon [⟨r2_4, k2_pay1 (View.ld x1 r2_1) (View.ld x0 r2_0) (View.ld x2 r2_2) (View.ld x3 r2_2) (View.ld x4 r2_3) (View.ld x5 r2_2)⟩]

-- From input blocks x the body produces the output block above and leaves the inputs as they were.
set_option maxHeartbeats 1000000 in
theorem sound_kernel2 (c : Dev nD) (E : Set ℕ) (i : grid2.Coords) (arg1 : Memref sig .tc .vmem S4096x1 .f32) (harg1 : arg1.IsWhole) (arg2 : Memref sig .tc .vmem S1x1 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S4096x16 .f32) (harg7 : arg7.IsWhole)
    (x0 : Vec F S4096x1 .f32) (x1 : Vec F S1x1 .f32) (x2 : Vec F S1x16 .f32) (x3 : Vec F S1x16 .f32) (x4 : Vec F S16x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__encode_div_kernel i arg1 harg1 arg2 harg2 arg3 harg3 arg4 harg4 arg5 harg5 arg6 harg6 arg7 harg7) K := by
  simp only [cc2__encode_div_kernel_eq_skeleton]; unfold cc2__encode_div_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S4096x16.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

-- The body's contract at every grid point, from the triple above.
theorem body_obligation2 (c : Dev nD) : BodyObligation (dat2 (F := F) V c) (defs₀ (F := F)) Variants.none () Set.univ := fun t => by
  show iprop((dat2 V c).Φ t.castSucc ∗ (dat2 V c).owesAt () t.castSucc
      ∗ bigSep Finset.univ fun w : Fin cfg2.W => iprop(∃ d, owns (c : Thread nD τ) ((cfg2.win w).stage (cfg2.slots t w)) fullShare ((dat2 V c).before w t d)))
    ⊢ wp frame (wpE (defs₀ (F := F)) Variants.none c none) Set.univ (bodyAt2 t) fun _ =>
      iprop((dat2 V c).Φ t.castSucc ∗ (dat2 V c).owesAt () t.castSucc
        ∗ bigSep Finset.univ fun w : Fin cfg2.W => owns (c : Thread nD τ) ((cfg2.win w).stage (cfg2.slots t w)) fullShare ((dat2 V c).after w t))
  rw [bigSep_W2, bigSep_W2]
  simp only [before2_0, before2_1, before2_2, before2_3, before2_4, before2_5]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) (st2_0 t) _ (st2_1 t) _ (st2_2 t) _ (st2_3 t) _ (st2_4 t) _ (st2_5 t) _ (st2_6 t) _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

end Cert.Kernel.Hand
-- ==== Proof.K.R3.lean ====
import proofs.«408468_j77438260346965_2_alg».proof.Proof.Gen.Kernel.Launch
import proofs.«408468_j77438260346965_2_alg».proof.Proof.Gen.Kernel.Skeleton
import proofs.«408468_j77438260346965_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4096x16 := Rect.unit (s := S4096x16) ![0, 0] S4096x16.size inb_S4096x16_S4096x16_0_0
abbrev r3_1 : Rect S16x16 := Rect.unit (s := S16x16) ![0, 0] S16x16.size inb_S16x16_S16x16_0_0
abbrev r3_2 : Rect S1x16 := Rect.unit (s := S1x16) ![0, 0] S1x16.size inb_S1x16_S1x16_0_0

/-- The block the body stores, as a function of the nine blocks it reads. -/
def out3_9 (x0 x1 x2 : Vec F S4096x16 .f32) (x3 x4 x5 : Vec F S16x16 .f32) (x6 : Vec F S1x16 .f32) (x7 : Vec F S16x16 .f32)
    (x8 : Vec F S1x16 .f32) : Vec F S4096x16 .f32 :=
  View.canon [⟨r3_0, k3_pay1
    (k3_pay2 (View.ld x0 r3_0) (View.ld x1 r3_0) (View.ld x2 r3_0) (View.ld x3 r3_1) (View.ld x4 r3_1) (View.ld x5 r3_1)
      (View.ld x6 r3_2) (View.ld x7 r3_1))
    (k3_pay3 (View.ld x8 r3_2))⟩]

set_option maxHeartbeats 1000000 in
/-- Run on ten whole blocks, the body returns the nine it reads unchanged and the tenth as `out3_9` of them; `Φ` and `O` are framed. -/
theorem sound_kernel3 {c : Dev nD} {E : Set ℕ} {i : grid3.Coords} {Φ O : sProp 𝕄}
    {arg1 arg2 arg3 arg10 : Memref sig .tc .vmem S4096x16 .f32} {arg4 arg5 arg6 arg8 : Memref sig .tc .vmem S16x16 .f32}
    {arg7 arg9 : Memref sig .tc .vmem S1x16 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole} {harg10 : arg10.IsWhole}
    {x0 x1 x2 y : Vec F S4096x16 .f32} {x3 x4 x5 x7 : Vec F S16x16 .f32} {x6 x8 : Vec F S1x16 .f32}
    {b0 b1 b2 b9 : Vec F S4096x16 .f32 → Vec F S4096x16 .f32} {b3 b4 b5 b7 : Vec F S16x16 .f32 → Vec F S16x16 .f32}
    {b6 b8 : Vec F S1x16 .f32 → Vec F S1x16 .f32}
    (h0 : ∀ d, b0 d = x0) (h1 : ∀ d, b1 d = x1) (h2 : ∀ d, b2 d = x2) (h3 : ∀ d, b3 d = x3) (h4 : ∀ d, b4 d = x4)
    (h5 : ∀ d, b5 d = x5) (h6 : ∀ d, b6 d = x6) (h7 : ∀ d, b7 d = x7) (h8 : ∀ d, b8 d = x8)
    (h9 : y = out3_9 x0 x1 x2 x3 x4 x5 x6 x7 x8) :
    iprop(Φ ∗ O ∗ (∃ d, owns (c : Thread nD τ) arg1 fullShare (b0 d)) ∗ (∃ d, owns (c : Thread nD τ) arg2 fullShare (b1 d)) ∗ (∃ d, owns (c : Thread nD τ) arg3 fullShare (b2 d))
        ∗ (∃ d, owns (c : Thread nD τ) arg4 fullShare (b3 d)) ∗ (∃ d, owns (c : Thread nD τ) arg5 fullShare (b4 d)) ∗ (∃ d, owns (c : Thread nD τ) arg6 fullShare (b5 d))
        ∗ (∃ d, owns (c : Thread nD τ) arg7 fullShare (b6 d)) ∗ (∃ d, owns (c : Thread nD τ) arg8 fullShare (b7 d)) ∗ (∃ d, owns (c : Thread nD τ) arg9 fullShare (b8 d)) ∗ (∃ d, owns (c : Thread nD τ) arg10 fullShare (b9 d)))
      ⊢ wp frame (wpE (defs₀ (F := F)) Variants.none c none) E
          (cc3__edge_update_kernel i arg1 harg1 arg2 harg2 arg3 harg3 arg4 harg4 arg5 harg5 arg6 harg6 arg7 harg7 arg8 harg8 arg9 harg9 arg10 harg10) fun _ =>
          iprop(Φ ∗ O ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare y) := by
  subst h9
  simp only [h0, h1, h2, h3, h4, h5, h6, h7, h8]
  simp only [cc3__edge_update_kernel_eq_skeleton]; unfold cc3__edge_update_kernel_skel
  simp only [k3_part1_eq_skeleton]; unfold k3_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
  subst hf0 hf1 hf2 hf3 hf4 hf5 hf6 hf7 hf8
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S4096x16.size (by rfl))

/-- At every point each block read is returned as found and the block written is `out3_9` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t)
        (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t =
    out3_9 (iblk3 V c 0 t) (iblk3 V c 1 t) (iblk3 V c 2 t) (iblk3 V c 3 t) (iblk3 V c 4 t) (iblk3 V c 5 t)
      (iblk3 V c 6 t) (iblk3 V c 7 t) (iblk3 V c 8 t) := by dsimp only [dat3]

theorem before3 (c : Dev nD) (w : Fin 10) (hw : w ≠ 9) (t : Fin cfg3.N) (d) : (dat3 V c).before w t d = (dat3 V c).after w t := by
  fin_cases w <;> first
    | exact absurd rfl hw
    | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  exact sound_kernel3 (before3 V c 0 (by decide) t) (before3 V c 1 (by decide) t) (before3 V c 2 (by decide) t) (before3 V c 3 (by decide) t) (before3 V c 4 (by decide) t) (before3 V c 5 (by decide) t) (before3 V c 6 (by decide) t) (before3 V c 7 (by decide) t) (before3 V c 8 (by decide) t) (by dsimp only [dat3])

end Cert.Kernel.Hand

end
-- ==== Proof.K.R4.lean ====
import proofs.«408468_j77438260346965_2_alg».proof.Proof.Gen.Kernel.Launch
import proofs.«408468_j77438260346965_2_alg».proof.Proof.Gen.Kernel.Skeleton
import proofs.«408468_j77438260346965_2_alg».proof.Proof.Gen.Kernel.Points
import Idealize.ShloMosaic.Lib.Pipeline.FrameBody
import Idealize.ShloMosaic.Lib.Pipeline.FrameSuffix
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev r4_0 : Rect S4096x16 := Rect.unit (s := S4096x16) ![0, 0] S4096x16.size inb_S4096x16_S4096x16_0_0
abbrev r4_1 : Rect S16x16 := Rect.unit (s := S16x16) ![0, 0] S16x16.size inb_S16x16_S16x16_0_0
abbrev r4_2 : Rect S1x16 := Rect.unit (s := S1x16) ![0, 0] S1x16.size inb_S1x16_S1x16_0_0

/-- The body reads the seven input tiles whole and stores one value over the whole output tile. -/
def out4_7 (x0 : Vec F S4096x16 .f32) (x1 : Vec F S4096x16 .f32) (x2 : Vec F S16x16 .f32) (x3 : Vec F S16x16 .f32) (x4 : Vec F S1x16 .f32) (x5 : Vec F S16x16 .f32) (x6 : Vec F S1x16 .f32) : Vec F S4096x16 .f32 :=
  View.canon [⟨r4_0, k4_pay1 (View.ld x0 r4_0) (View.ld x1 r4_0) (View.ld x2 r4_1) (View.ld x3 r4_1) (View.ld x4 r4_2) (View.ld x5 r4_1) (View.ld x6 r4_2)⟩]

theorem cover4_7 (p0 : Vec F S4096x16 .f32) (y : S4096x16.Idx) :
    ∃ pc ∈ ([⟨r4_0, p0⟩] : List (View.Piece (Elt F) S4096x16 .f32)), y ∈ pc.1.set :=
  View.cover_of_tiled [⟨r4_0, p0⟩] S4096x16.size (by rfl) y

set_option maxHeartbeats 1000000 in
/-- The body keeps the seven input tiles and leaves `out4_7` of them in the output tile, whatever that held. -/
theorem sound_kernel4 (c : Dev nD) (E : Set ℕ) (i : grid4.Coords) (arg1 : Memref sig .tc .vmem S4096x16 .f32) (harg1 : arg1.IsWhole) (arg2 : Memref sig .tc .vmem S4096x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S4096x16 .f32) (harg8 : arg8.IsWhole)
    (x0 : Vec F S4096x16 .f32) (x1 : Vec F S4096x16 .f32) (x2 : Vec F S16x16 .f32) (x3 : Vec F S16x16 .f32) (x4 : Vec F S1x16 .f32) (x5 : Vec F S16x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__node_update_kernel i arg1 harg1 arg2 harg2 arg3 harg3 arg4 harg4 arg5 harg5 arg6 harg6 arg7 harg7 arg8 harg8) K := by
  simp only [cc4__node_update_kernel_eq_skeleton]; unfold cc4__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)
/-- The same for any program equal to the body, under a frame, each input tile handed over beneath a binder its contents do not mention. -/
theorem sound_body4 (kern : (i : grid4.Coords) → (arg1 : Memref sig .tc .vmem S4096x16 .f32) → arg1.IsWhole → (arg2 : Memref sig .tc .vmem S4096x16 .f32) → arg2.IsWhole → (arg3 : Memref sig .tc .vmem S16x16 .f32) → arg3.IsWhole → (arg4 : Memref sig .tc .vmem S16x16 .f32) → arg4.IsWhole → (arg5 : Memref sig .tc .vmem S1x16 .f32) → arg5.IsWhole → (arg6 : Memref sig .tc .vmem S16x16 .f32) → arg6.IsWhole → (arg7 : Memref sig .tc .vmem S1x16 .f32) → arg7.IsWhole → (arg8 : Memref sig .tc .vmem S4096x16 .f32) → arg8.IsWhole → Prog (TpuEff nD τ sig (Elt F) Λ₀ .tc) PUnit) (hk : kern = cc4__node_update_kernel) (c : Dev nD) (i : grid4.Coords) (arg1 : Memref sig .tc .vmem S4096x16 .f32) (harg1 : arg1.IsWhole) (arg2 : Memref sig .tc .vmem S4096x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S4096x16 .f32) (harg8 : arg8.IsWhole)
    (x0 : Vec F S4096x16 .f32) (x1 : Vec F S4096x16 .f32) (x2 : Vec F S16x16 .f32) (x3 : Vec F S16x16 .f32) (x4 : Vec F S1x16 .f32) (x5 : Vec F S16x16 .f32) (x6 : Vec F S1x16 .f32) {β0 β1 β2 β3 β4 β5 β6 β7 : Type} (g : β7 → Vec F S4096x16 .f32) (R R' : sProp 𝕄) :
    iprop(R ∗ R' ∗ (∃ _ : β0, owns (c : Thread nD τ) arg1 fullShare x0) ∗ (∃ _ : β1, owns (c : Thread nD τ) arg2 fullShare x1) ∗ (∃ _ : β2, owns (c : Thread nD τ) arg3 fullShare x2) ∗ (∃ _ : β3, owns (c : Thread nD τ) arg4 fullShare x3) ∗ (∃ _ : β4, owns (c : Thread nD τ) arg5 fullShare x4) ∗ (∃ _ : β5, owns (c : Thread nD τ) arg6 fullShare x5) ∗ (∃ _ : β6, owns (c : Thread nD τ) arg7 fullShare x6) ∗ (∃ d, owns (c : Thread nD τ) arg8 fullShare (g d)))
      ⊢ wp frame (wpE (defs₀ (F := F)) Variants.none c none) Set.univ (kern i arg1 harg1 arg2 harg2 arg3 harg3 arg4 harg4 arg5 harg5 arg6 harg6 arg7 harg7 arg8 harg8) fun _ =>
          iprop(R ∗ R' ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) := by
  subst hk
  iintro ⟨HR, HR', ⟨%_, H0⟩, ⟨%_, H1⟩, ⟨%_, H2⟩, ⟨%_, H3⟩, ⟨%_, H4⟩, ⟨%_, H5⟩, ⟨%_, H6⟩, ⟨%_, H7⟩⟩
  iapply (sound_kernel4 c Set.univ i arg1 harg1 arg2 harg2 arg3 harg3 arg4 harg4 arg5 harg5 arg6 harg6 arg7 harg7 arg8 harg8 x0 x1 x2 x3 x4 x5 x6 _)
  iframe
  isplitl [H7]
  · iexists _; iexact H7
  iintro H; iexact H

/-- Window `w`'s block at point `t` of the arrays `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- After the body each input tile holds its block, the output tile `out4_7` of the seven input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := rfl

theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by
  dsimp only [dat4]

/-- For an input window the contents before the body at a point are the contents after it: the body writes the output only. -/
theorem before4 (c : Dev nD) : ∀ w : Fin cfg4.W, (cfg4.win w).isOut = false → ∀ (t : Fin cfg4.N) (d),
    (dat4 V c).before w t d = (dat4 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat4 V c).before_in_eq_fetched _ rfl (fun _ => rfl) (fun _ _ _ => rfl) (fun _ => rfl) t d
  | ⟨7, _⟩, h, _, _ => nomatch h

theorem body_obligation4 (c : Dev nD) : BodyObligation (dat4 (F := F) V c) (defs₀ (F := F)) Variants.none () Set.univ := fun t => by
  rw [bigSep_W4, bigSep_W4]
  simp (disch := exact rfl) only [before4 V c]
  rw [after4_7]
  show _ ⊢ wp _ _ _ (bodyAt4 t) _
  exact sound_body4 cc4__node_update_kernel rfl c _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _ _ _

end Cert.Kernel.Hand
-- ==== Proof.K.R5.lean ====
import proofs.«408468_j77438260346965_2_alg».proof.Proof.K.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- At every point each block read is returned as found and the block written is `out3_9` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out3_9 (iblk5 V c 0 t) (iblk5 V c 1 t) (iblk5 V c 2 t) (iblk5 V c 3 t) (iblk5 V c 4 t) (iblk5 V c 5 t)
        (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_9 (c : Dev nD) (t : Fin cfg5.N) : (dat5 V c).after 9 t =
    out3_9 (iblk5 V c 0 t) (iblk5 V c 1 t) (iblk5 V c 2 t) (iblk5 V c 3 t) (iblk5 V c 4 t) (iblk5 V c 5 t)
      (iblk5 V c 6 t) (iblk5 V c 7 t) (iblk5 V c 8 t) := by dsimp only [dat5]

theorem before5 (c : Dev nD) (w : Fin 10) (hw : w ≠ 9) (t : Fin cfg5.N) (d) : (dat5 V c).before w t d = (dat5 V c).after w t := by
  fin_cases w <;> first
    | exact absurd rfl hw
    | exact (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  have e : cc5__edge_update_kernel (F := F) = cc3__edge_update_kernel (F := F) := rfl
  show _ ⊢ wp _ _ _ (bodyAt5 t) _
  unfold bodyAt5
  rw [e]
  exact sound_kernel3 (before5 V c 0 (by decide) t) (before5 V c 1 (by decide) t) (before5 V c 2 (by decide) t) (before5 V c 3 (by decide) t) (before5 V c 4 (by decide) t) (before5 V c 5 (by decide) t) (before5 V c 6 (by decide) t) (before5 V c 7 (by decide) t) (before5 V c 8 (by decide) t) (by dsimp only [dat5])

end Cert.Kernel.Hand

end
-- ==== Proof.K.R6.lean ====
import proofs.«408468_j77438260346965_2_alg».proof.Proof.K.R4
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- After the body each input tile holds its block, the output tile `out4_7` of the seven input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out4_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t = out4_7 (iblk6 V c 0 t) (iblk6 V c 1 t) (iblk6 V c 2 t) (iblk6 V c 3 t) (iblk6 V c 4 t) (iblk6 V c 5 t) (iblk6 V c 6 t) := by
  dsimp only [dat6]

/-- For an input window the contents before the body at a point are the contents after it: the body writes the output only. -/
theorem before6 (c : Dev nD) : ∀ w : Fin cfg6.W, (cfg6.win w).isOut = false → ∀ (t : Fin cfg6.N) (d),
    (dat6 V c).before w t d = (dat6 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat6 V c).before_in_eq_fetched _ rfl (fun _ => rfl) (fun _ _ _ => rfl) (fun _ => rfl) t d
  | ⟨7, _⟩, h, _, _ => nomatch h

theorem body_obligation6 (c : Dev nD) : BodyObligation (dat6 (F := F) V c) (defs₀ (F := F)) Variants.none () Set.univ := fun t => by
  rw [bigSep_W6, bigSep_W6]
  simp (disch := exact rfl) only [before6 V c]
  rw [after6_7]
  show _ ⊢ wp _ _ _ (bodyAt6 t) _
  exact sound_body4 cc6__node_update_kernel rfl c _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _ _ _

end Cert.Kernel.Hand
-- ==== Proof.K.R7.lean ====
import proofs.«408468_j77438260346965_2_alg».proof.Proof.K.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- At every point each block read is returned as found and the block written is `out3_9` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out3_9 (iblk7 V c 0 t) (iblk7 V c 1 t) (iblk7 V c 2 t) (iblk7 V c 3 t) (iblk7 V c 4 t) (iblk7 V c 5 t)
        (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_9 (c : Dev nD) (t : Fin cfg7.N) : (dat7 V c).after 9 t =
    out3_9 (iblk7 V c 0 t) (iblk7 V c 1 t) (iblk7 V c 2 t) (iblk7 V c 3 t) (iblk7 V c 4 t) (iblk7 V c 5 t)
      (iblk7 V c 6 t) (iblk7 V c 7 t) (iblk7 V c 8 t) := by dsimp only [dat7]

theorem before7 (c : Dev nD) (w : Fin 10) (hw : w ≠ 9) (t : Fin cfg7.N) (d) : (dat7 V c).before w t d = (dat7 V c).after w t := by
  fin_cases w <;> first
    | exact absurd rfl hw
    | exact (dat7 V c).before_in_eq_fetched _ rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  have e : cc7__edge_update_kernel (F := F) = cc3__edge_update_kernel (F := F) := rfl
  show _ ⊢ wp _ _ _ (bodyAt7 t) _
  unfold bodyAt7
  rw [e]
  exact sound_kernel3 (before7 V c 0 (by decide) t) (before7 V c 1 (by decide) t) (before7 V c 2 (by decide) t) (before7 V c 3 (by decide) t) (before7 V c 4 (by decide) t) (before7 V c 5 (by decide) t) (before7 V c 6 (by decide) t) (before7 V c 7 (by decide) t) (before7 V c 8 (by decide) t) (by dsimp only [dat7])

end Cert.Kernel.Hand

end
-- ==== Proof.K.R8.lean ====
import proofs.«408468_j77438260346965_2_alg».proof.Proof.K.R4
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- After the body each input tile holds its block, the output tile `out4_7` of the seven input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out4_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := rfl

theorem after8_7 (c : Dev nD) (t : Fin cfg8.N) : (dat8 V c).after 7 t = out4_7 (iblk8 V c 0 t) (iblk8 V c 1 t) (iblk8 V c 2 t) (iblk8 V c 3 t) (iblk8 V c 4 t) (iblk8 V c 5 t) (iblk8 V c 6 t) := by
  dsimp only [dat8]

/-- For an input window the contents before the body at a point are the contents after it: the body writes the output only. -/
theorem before8 (c : Dev nD) : ∀ w : Fin cfg8.W, (cfg8.win w).isOut = false → ∀ (t : Fin cfg8.N) (d),
    (dat8 V c).before w t d = (dat8 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat8 V c).before_in_eq_fetched _ rfl (fun _ => rfl) (fun _ _ _ => rfl) (fun _ => rfl) t d
  | ⟨7, _⟩, h, _, _ => nomatch h

theorem body_obligation8 (c : Dev nD) : BodyObligation (dat8 (F := F) V c) (defs₀ (F := F)) Variants.none () Set.univ := fun t => by
  rw [bigSep_W8, bigSep_W8]
  simp (disch := exact rfl) only [before8 V c]
  rw [after8_7]
  show _ ⊢ wp _ _ _ (bodyAt8 t) _
  exact sound_body4 cc8__node_update_kernel rfl c _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _ _ _

end Cert.Kernel.Hand
-- ==== Proof.K.R9.lean ====
import proofs.«408468_j77438260346965_2_alg».proof.Proof.K.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- At every point each block read is returned as found and the block written is `out3_9` of them. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out3_9 (iblk9 V c 0 t) (iblk9 V c 1 t) (iblk9 V c 2 t) (iblk9 V c 3 t) (iblk9 V c 4 t) (iblk9 V c 5 t)
        (iblk9 V c 6 t) (iblk9 V c 7 t) (iblk9 V c 8 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_9 (c : Dev nD) (t : Fin cfg9.N) : (dat9 V c).after 9 t =
    out3_9 (iblk9 V c 0 t) (iblk9 V c 1 t) (iblk9 V c 2 t) (iblk9 V c 3 t) (iblk9 V c 4 t) (iblk9 V c 5 t)
      (iblk9 V c 6 t) (iblk9 V c 7 t) (iblk9 V c 8 t) := by dsimp only [dat9]

theorem before9 (c : Dev nD) (w : Fin 10) (hw : w ≠ 9) (t : Fin cfg9.N) (d) : (dat9 V c).before w t d = (dat9 V c).after w t := by
  fin_cases w <;> first
    | exact absurd rfl hw
    | exact (dat9 V c).before_in_eq_fetched _ rfl (fun _ => rfl) (fun _ _ _ => rfl) (fun _ => rfl) t d

theorem body_obligation9 (c : Dev nD) : BodyObligation (dat9 (F := F) V c) (defs₀ (F := F)) Variants.none () Set.univ := fun t => by
  rw [bigSep_W9, bigSep_W9]
  have e : cc9__edge_update_kernel (F := F) = cc3__edge_update_kernel (F := F) := rfl
  show _ ⊢ wp _ _ _ (bodyAt9 t) _
  unfold bodyAt9
  rw [e]
  exact sound_kernel3 (before9 V c 0 (by decide) t) (before9 V c 1 (by decide) t) (before9 V c 2 (by decide) t) (before9 V c 3 (by decide) t) (before9 V c 4 (by decide) t) (before9 V c 5 (by decide) t) (before9 V c 6 (by decide) t) (before9 V c 7 (by decide) t) (before9 V c 8 (by decide) t) (by dsimp only [dat9])

end Cert.Kernel.Hand

end
-- ==== Proof.K.R10.lean ====
import proofs.«408468_j77438260346965_2_alg».proof.Proof.K.R4
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- After the body each input tile holds its block, the output tile `out4_7` of the seven input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out4_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := rfl

theorem after10_7 (c : Dev nD) (t : Fin cfg10.N) : (dat10 V c).after 7 t = out4_7 (iblk10 V c 0 t) (iblk10 V c 1 t) (iblk10 V c 2 t) (iblk10 V c 3 t) (iblk10 V c 4 t) (iblk10 V c 5 t) (iblk10 V c 6 t) := by
  dsimp only [dat10]

/-- For an input window the contents before the body at a point are the contents after it: the body writes the output only. -/
theorem before10 (c : Dev nD) : ∀ w : Fin cfg10.W, (cfg10.win w).isOut = false → ∀ (t : Fin cfg10.N) (d),
    (dat10 V c).before w t d = (dat10 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat10 V c).before_in_eq_fetched _ rfl (fun _ => rfl) (fun _ _ _ => rfl) (fun _ => rfl) t d
  | ⟨7, _⟩, h, _, _ => nomatch h

theorem body_obligation10 (c : Dev nD) : BodyObligation (dat10 (F := F) V c) (defs₀ (F := F)) Variants.none () Set.univ := fun t => by
  rw [bigSep_W10, bigSep_W10]
  simp (disch := exact rfl) only [before10 V c]
  rw [after10_7]
  show _ ⊢ wp _ _ _ (bodyAt10 t) _
  exact sound_body4 cc10__node_update_kernel rfl c _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _ _ _

end Cert.Kernel.Hand
-- ==== Proof.K.R11.lean ====
import proofs.«408468_j77438260346965_2_alg».proof.Proof.K.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- At every point each block read is returned as found and the block written is `out3_9` of them. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out3_9 (iblk11 V c 0 t) (iblk11 V c 1 t) (iblk11 V c 2 t) (iblk11 V c 3 t) (iblk11 V c 4 t) (iblk11 V c 5 t)
        (iblk11 V c 6 t) (iblk11 V c 7 t) (iblk11 V c 8 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_9 (c : Dev nD) (t : Fin cfg11.N) : (dat11 V c).after 9 t =
    out3_9 (iblk11 V c 0 t) (iblk11 V c 1 t) (iblk11 V c 2 t) (iblk11 V c 3 t) (iblk11 V c 4 t) (iblk11 V c 5 t)
      (iblk11 V c 6 t) (iblk11 V c 7 t) (iblk11 V c 8 t) := by dsimp only [dat11]

theorem before11 (c : Dev nD) (w : Fin 10) (hw : w ≠ 9) (t : Fin cfg11.N) (d) : (dat11 V c).before w t d = (dat11 V c).after w t := by
  fin_cases w <;> first
    | exact absurd rfl hw
    | exact (dat11 V c).before_in_eq_fetched _ rfl (fun _ => rfl) (fun _ _ _ => rfl) (fun _ => rfl) t d

theorem body_obligation11 (c : Dev nD) : BodyObligation (dat11 (F := F) V c) (defs₀ (F := F)) Variants.none () Set.univ := fun t => by
  rw [bigSep_W11, bigSep_W11]
  have e : cc11__edge_update_kernel (F := F) = cc3__edge_update_kernel (F := F) := rfl
  show _ ⊢ wp _ _ _ (bodyAt11 t) _
  unfold bodyAt11
  rw [e]
  exact sound_kernel3 (before11 V c 0 (by decide) t) (before11 V c 1 (by decide) t) (before11 V c 2 (by decide) t) (before11 V c 3 (by decide) t) (before11 V c 4 (by decide) t) (before11 V c 5 (by decide) t) (before11 V c 6 (by decide) t) (before11 V c 7 (by decide) t) (before11 V c 8 (by decide) t) (by dsimp only [dat11])

end Cert.Kernel.Hand

end
-- ==== Proof.K.R12.lean ====
import proofs.«408468_j77438260346965_2_alg».proof.Proof.K.R4
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- After the body each input tile holds its block, the output tile `out4_7` of the seven input blocks. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out4_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := rfl

theorem after12_7 (c : Dev nD) (t : Fin cfg12.N) : (dat12 V c).after 7 t = out4_7 (iblk12 V c 0 t) (iblk12 V c 1 t) (iblk12 V c 2 t) (iblk12 V c 3 t) (iblk12 V c 4 t) (iblk12 V c 5 t) (iblk12 V c 6 t) := by
  dsimp only [dat12]

/-- For an input window the contents before the body at a point are the contents after it: the body writes the output only. -/
theorem before12 (c : Dev nD) : ∀ w : Fin cfg12.W, (cfg12.win w).isOut = false → ∀ (t : Fin cfg12.N) (d),
    (dat12 V c).before w t d = (dat12 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat12 V c).before_in_eq_fetched _ rfl (fun _ => rfl) (fun _ _ _ => rfl) (fun _ => rfl) t d
  | ⟨7, _⟩, h, _, _ => nomatch h

theorem body_obligation12 (c : Dev nD) : BodyObligation (dat12 (F := F) V c) (defs₀ (F := F)) Variants.none () Set.univ := fun t => by
  rw [bigSep_W12, bigSep_W12]
  simp (disch := exact rfl) only [before12 V c]
  rw [after12_7]
  show _ ⊢ wp _ _ _ (bodyAt12 t) _
  exact sound_body4 cc12__node_update_kernel rfl c _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _ _ _

end Cert.Kernel.Hand
-- ==== Proof.K.R13.lean ====
import proofs.«408468_j77438260346965_2_alg».proof.Proof.Gen.Kernel.Launch
import proofs.«408468_j77438260346965_2_alg».proof.Proof.Gen.Kernel.Skeleton
import proofs.«408468_j77438260346965_2_alg».proof.Proof.Gen.Kernel.Points
import Idealize.ShloMosaic.Lib.Pipeline.FrameBody
import Idealize.ShloMosaic.Lib.Pipeline.FrameSuffix
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- Window w's block of its array at grid point t.
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_0 : Rect S4096x16 := Rect.unit (s := S4096x16) ![0, 0] S4096x16.size inb_S4096x16_S4096x16_0_0
abbrev r13_1 : Rect S16x16 := Rect.unit (s := S16x16) ![0, 0] S16x16.size inb_S16x16_S16x16_0_0
abbrev r13_2 : Rect S1x16 := Rect.unit (s := S1x16) ![0, 0] S1x16.size inb_S1x16_S1x16_0_0
abbrev r13_3 : Rect S16x1 := Rect.unit (s := S16x1) ![0, 0] S16x1.size inb_S16x1_S16x1_0_0
abbrev r13_4 : Rect S1x1 := Rect.unit (s := S1x1) ![0, 0] S1x1.size inb_S1x1_S1x1_0_0
abbrev r13_5 : Rect S4096x1 := Rect.unit (s := S4096x1) ![0, 0] S4096x1.size inb_S4096x1_S4096x1_0_0

-- The output block as a function of the input blocks.
def out13_10 (x0 : Vec F S4096x16 .f32) (x1 : Vec F S4096x1 .f32) (x2 : Vec F S4096x1 .i32) (x3 : Vec F S4096x1 .i32) (x4 : Vec F S1x1 .f32) (x5 : Vec F S1x1 .f32) (x6 : Vec F S16x16 .f32) (x7 : Vec F S1x16 .f32) (x8 : Vec F S16x1 .f32) (x9 : Vec F S1x1 .f32) : Vec F S4096x1 .f32 :=
  View.canon [⟨r13_5, k13_pay1 (k13_pay2 (View.ld x0 r13_0) (View.ld x6 r13_1) (View.ld x7 r13_2) (View.ld x8 r13_3) (View.ld x9 r13_4) (View.ld x4 r13_4) (View.ld x5 r13_4) (View.ld x1 r13_5)) (k13_pay3 (View.ld x2 r13_5) (View.ld x3 r13_5)) (Scalar.ofBits .f32 0x00000000#32)⟩]

-- From input blocks x the body produces the output block above and leaves the inputs as they were.
set_option maxHeartbeats 1000000 in
theorem sound_kernel13 (c : Dev nD) (E : Set ℕ) (i : grid13.Coords) (arg1 : Memref sig .tc .vmem S4096x16 .f32) (harg1 : arg1.IsWhole) (arg2 : Memref sig .tc .vmem S4096x1 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x1 .f32) (harg10 : arg10.IsWhole) (arg11 : Memref sig .tc .vmem S4096x1 .f32) (harg11 : arg11.IsWhole)
    (x0 : Vec F S4096x16 .f32) (x1 : Vec F S4096x1 .f32) (x2 : Vec F S4096x1 .i32) (x3 : Vec F S4096x1 .i32) (x4 : Vec F S1x1 .f32) (x5 : Vec F S1x1 .f32) (x6 : Vec F S16x16 .f32) (x7 : Vec F S1x16 .f32) (x8 : Vec F S16x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out13_10 x0 x1 x2 x3 x4 x5 x6 x7 x8 x9)) -∗ K ⟨⟩))
      ⊢ wp frame (wpE (defs₀ (F := F)) Variants.none c none) E (cc13__decode_mask_kernel i arg1 harg1 arg2 harg2 arg3 harg3 arg4 harg4 arg5 harg5 arg6 harg6 arg7 harg7 arg8 harg8 arg9 harg9 arg10 harg10 arg11 harg11) K := by
  simp only [cc13__decode_mask_kernel_eq_skeleton]; unfold cc13__decode_mask_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (View.cover_of_tiled _ S4096x1.size (by rfl))

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => iblk13 V c 7 t
    | ⟨8, _⟩ => iblk13 V c 8 t
    | ⟨9, _⟩ => iblk13 V c 9 t
    | ⟨10, _⟩ => out13_10 (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_10 (c : Dev nD) (t : Fin cfg13.N) : (dat13 V c).after 10 t = out13_10 (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d
theorem before13_2 (c : Dev nD) (t : Fin cfg13.N) (d) : (dat13 V c).before 2 t d = iblk13 V c 2 t :=
  (dat13 V c).before_in_eq_fetched 2 rfl (fun _ => rfl) (fun _ _ _ => rfl) (fun _ => rfl) t d
theorem before13_3 (c : Dev nD) (t : Fin cfg13.N) (d) : (dat13 V c).before 3 t d = iblk13 V c 3 t :=
  (dat13 V c).before_in_eq_fetched 3 rfl (fun _ => rfl) (fun _ _ _ => rfl) (fun _ => rfl) t d
theorem before13_4 (c : Dev nD) (t : Fin cfg13.N) (d) : (dat13 V c).before 4 t d = iblk13 V c 4 t :=
  (dat13 V c).before_in_eq_fetched 4 rfl (fun _ => rfl) (fun _ _ _ => rfl) (fun _ => rfl) t d
theorem before13_5 (c : Dev nD) (t : Fin cfg13.N) (d) : (dat13 V c).before 5 t d = iblk13 V c 5 t :=
  (dat13 V c).before_in_eq_fetched 5 rfl (fun _ => rfl) (fun _ _ _ => rfl) (fun _ => rfl) t d
theorem before13_6 (c : Dev nD) (t : Fin cfg13.N) (d) : (dat13 V c).before 6 t d = iblk13 V c 6 t :=
  (dat13 V c).before_in_eq_fetched 6 rfl (fun _ => rfl) (fun _ _ _ => rfl) (fun _ => rfl) t d
theorem before13_7 (c : Dev nD) (t : Fin cfg13.N) (d) : (dat13 V c).before 7 t d = iblk13 V c 7 t :=
  (dat13 V c).before_in_eq_fetched 7 rfl (fun _ => rfl) (fun _ _ _ => rfl) (fun _ => rfl) t d
theorem before13_8 (c : Dev nD) (t : Fin cfg13.N) (d) : (dat13 V c).before 8 t d = iblk13 V c 8 t :=
  (dat13 V c).before_in_eq_fetched 8 rfl (fun _ => rfl) (fun _ _ _ => rfl) (fun _ => rfl) t d
theorem before13_9 (c : Dev nD) (t : Fin cfg13.N) (d) : (dat13 V c).before 9 t d = iblk13 V c 9 t :=
  (dat13 V c).before_in_eq_fetched 9 rfl (fun _ => rfl) (fun _ _ _ => rfl) (fun _ => rfl) t d

-- The body's contract at every grid point, from the triple above.
theorem body_obligation13 (c : Dev nD) : BodyObligation (dat13 (F := F) V c) (defs₀ (F := F)) Variants.none () Set.univ := fun t => by
  show iprop((dat13 V c).Φ t.castSucc ∗ (dat13 V c).owesAt () t.castSucc
      ∗ bigSep Finset.univ fun w : Fin cfg13.W => iprop(∃ d, owns (c : Thread nD τ) ((cfg13.win w).stage (cfg13.slots t w)) fullShare ((dat13 V c).before w t d)))
    ⊢ wp frame (wpE (defs₀ (F := F)) Variants.none c none) Set.univ (bodyAt13 t) fun _ =>
      iprop((dat13 V c).Φ t.castSucc ∗ (dat13 V c).owesAt () t.castSucc
        ∗ bigSep Finset.univ fun w : Fin cfg13.W => owns (c : Thread nD τ) ((cfg13.win w).stage (cfg13.slots t w)) fullShare ((dat13 V c).after w t))
  rw [bigSep_W13, bigSep_W13]
  simp only [before13_0, before13_1, before13_2, before13_3, before13_4, before13_5, before13_6, before13_7, before13_8, before13_9]
  dsimp only [dat13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel13 c Set.univ (grid13.coords t) (st13_0 t) _ (st13_1 t) _ (st13_2 t) _ (st13_3 t) _ (st13_4 t) _ (st13_5 t) _ (st13_6 t) _ (st13_7 t) _ (st13_8 t) _ (st13_9 t) _ (st13_10 t) _ (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) _)
  iframe
  isplitl [H10]; · iexists _; iexact H10
  iintro ⟨H0, H1, H2, H3, H4, H5, H6, H7, H8, H9, H10⟩
  iframe

end Cert.Kernel.Hand
-- ==== Proof.K.Run.lean ====
import proofs.«408468_j77438260346965_2_alg».proof.Proof.K.RegionsP
import proofs.«408468_j77438260346965_2_alg».proof.Proof.K.R0
import proofs.«408468_j77438260346965_2_alg».proof.Proof.K.R1
import proofs.«408468_j77438260346965_2_alg».proof.Proof.K.R2
import proofs.«408468_j77438260346965_2_alg».proof.Proof.K.R3
import proofs.«408468_j77438260346965_2_alg».proof.Proof.K.R4
import proofs.«408468_j77438260346965_2_alg».proof.Proof.K.R5
import proofs.«408468_j77438260346965_2_alg».proof.Proof.K.R6
import proofs.«408468_j77438260346965_2_alg».proof.Proof.K.R7
import proofs.«408468_j77438260346965_2_alg».proof.Proof.K.R8
import proofs.«408468_j77438260346965_2_alg».proof.Proof.K.R9
import proofs.«408468_j77438260346965_2_alg».proof.Proof.K.R10
import proofs.«408468_j77438260346965_2_alg».proof.Proof.K.R11
import proofs.«408468_j77438260346965_2_alg».proof.Proof.K.R12
import proofs.«408468_j77438260346965_2_alg».proof.Proof.K.R13
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) :
    (c : Dev nD) → (b : Ref sig .tc) → Buf (Elt F) ((c : Thread nD τ).loc b) := fun c b => W c b

abbrev W0 (c : Dev nD) : Valuation τ sig (Elt F) := fun b => m (c, b)

abbrev W1 (c : Dev nD) : Valuation τ sig (Elt F) := StableHlo.after hostOps0 (W0 m c)

def W2 (c : Dev nD) : Valuation τ sig (Elt F) :=
  Function.update (W1 m c) main_v1 ((dat0 (atTc (W1 m)) c).arrAt 1 cfg0.N)

abbrev W3 (c : Dev nD) : Valuation τ sig (Elt F) := StableHlo.after hostOps1 (W2 m c)

def W4 (c : Dev nD) : Valuation τ sig (Elt F) :=
  Function.update (W3 m c) main_v4 ((dat1 (atTc (W3 m)) c).arrAt 5 cfg1.N)

abbrev W5 (c : Dev nD) : Valuation τ sig (Elt F) := StableHlo.after hostOps2 (W4 m c)

def W6 (c : Dev nD) : Valuation τ sig (Elt F) :=
  Function.update (W5 m c) main_v7 ((dat2 (atTc (W5 m)) c).arrAt 6 cfg2.N)

abbrev W7 (c : Dev nD) : Valuation τ sig (Elt F) := StableHlo.after hostOps3 (W6 m c)

abbrev W8 (c : Dev nD) : Valuation τ sig (Elt F) := StableHlo.after hostOps3_1 (W7 m c)

abbrev W9 (c : Dev nD) : Valuation τ sig (Elt F) := StableHlo.after hostOps3_2 (W8 m c)

abbrev W10 (c : Dev nD) : Valuation τ sig (Elt F) := StableHlo.after hostOps3_3 (W9 m c)

def W11 (c : Dev nD) : Valuation τ sig (Elt F) :=
  Function.update (W10 m c) main_v17 ((dat3 (atTc (W10 m)) c).arrAt 9 cfg3.N)

abbrev W12 (c : Dev nD) : Valuation τ sig (Elt F) := StableHlo.after hostOps4 (W11 m c)

def W13 (c : Dev nD) : Valuation τ sig (Elt F) :=
  Function.update (W12 m c) main_v25 ((dat4 (atTc (W12 m)) c).arrAt 7 cfg4.N)

abbrev W14 (c : Dev nD) : Valuation τ sig (Elt F) := StableHlo.after hostOps5 (W13 m c)

abbrev W15 (c : Dev nD) : Valuation τ sig (Elt F) := StableHlo.after hostOps5_1 (W14 m c)

abbrev W16 (c : Dev nD) : Valuation τ sig (Elt F) := StableHlo.after hostOps5_2 (W15 m c)

def W17 (c : Dev nD) : Valuation τ sig (Elt F) :=
  Function.update (W16 m c) main_v33 ((dat5 (atTc (W16 m)) c).arrAt 9 cfg5.N)

abbrev W18 (c : Dev nD) : Valuation τ sig (Elt F) := StableHlo.after hostOps6 (W17 m c)

def W19 (c : Dev nD) : Valuation τ sig (Elt F) :=
  Function.update (W18 m c) main_v41 ((dat6 (atTc (W18 m)) c).arrAt 7 cfg6.N)

abbrev W20 (c : Dev nD) : Valuation τ sig (Elt F) := StableHlo.after hostOps7 (W19 m c)

abbrev W21 (c : Dev nD) : Valuation τ sig (Elt F) := StableHlo.after hostOps7_1 (W20 m c)

abbrev W22 (c : Dev nD) : Valuation τ sig (Elt F) := StableHlo.after hostOps7_2 (W21 m c)

def W23 (c : Dev nD) : Valuation τ sig (Elt F) :=
  Function.update (W22 m c) main_v49 ((dat7 (atTc (W22 m)) c).arrAt 9 cfg7.N)

abbrev W24 (c : Dev nD) : Valuation τ sig (Elt F) := StableHlo.after hostOps8 (W23 m c)

def W25 (c : Dev nD) : Valuation τ sig (Elt F) :=
  Function.update (W24 m c) main_v57 ((dat8 (atTc (W24 m)) c).arrAt 7 cfg8.N)

abbrev W26 (c : Dev nD) : Valuation τ sig (Elt F) := StableHlo.after hostOps9 (W25 m c)

abbrev W27 (c : Dev nD) : Valuation τ sig (Elt F) := StableHlo.after hostOps9_1 (W26 m c)

abbrev W28 (c : Dev nD) : Valuation τ sig (Elt F) := StableHlo.after hostOps9_2 (W27 m c)

def W29 (c : Dev nD) : Valuation τ sig (Elt F) :=
  Function.update (W28 m c) main_v65 ((dat9 (atTc (W28 m)) c).arrAt 9 cfg9.N)

abbrev W30 (c : Dev nD) : Valuation τ sig (Elt F) := StableHlo.after hostOps10 (W29 m c)

def W31 (c : Dev nD) : Valuation τ sig (Elt F) :=
  Function.update (W30 m c) main_v73 ((dat10 (atTc (W30 m)) c).arrAt 7 cfg10.N)

abbrev W32 (c : Dev nD) : Valuation τ sig (Elt F) := StableHlo.after hostOps11 (W31 m c)

abbrev W33 (c : Dev nD) : Valuation τ sig (Elt F) := StableHlo.after hostOps11_1 (W32 m c)

abbrev W34 (c : Dev nD) : Valuation τ sig (Elt F) := StableHlo.after hostOps11_2 (W33 m c)

def W35 (c : Dev nD) : Valuation τ sig (Elt F) :=
  Function.update (W34 m c) main_v81 ((dat11 (atTc (W34 m)) c).arrAt 9 cfg11.N)

abbrev W36 (c : Dev nD) : Valuation τ sig (Elt F) := StableHlo.after hostOps12 (W35 m c)

def W37 (c : Dev nD) : Valuation τ sig (Elt F) :=
  Function.update (W36 m c) main_v89 ((dat12 (atTc (W36 m)) c).arrAt 7 cfg12.N)

abbrev W38 (c : Dev nD) : Valuation τ sig (Elt F) := StableHlo.after hostOps13 (W37 m c)

def W39 (c : Dev nD) : Valuation τ sig (Elt F) :=
  Function.update (W38 m c) main_v128 ((dat13 (atTc (W38 m)) c).arrAt 10 cfg13.N)

abbrev W40 (c : Dev nD) : Valuation τ sig (Elt F) := StableHlo.after hostOps14 (W39 m c)

theorem W2_out (c : Dev nD) : W2 m c main_v1 = (dat0 (atTc (W1 m)) c).arrAt 1 cfg0.N := by
  unfold W2; exact Function.update_self _ _ _
theorem W2_of_ne (c : Dev nD) (b : Ref sig .tc) (h : b ≠ main_v1) : W2 m c b = W1 m c b := by
  unfold W2; exact Function.update_of_ne (StableHlo.devRef_ne_of_ne h) _ _
theorem W4_out (c : Dev nD) : W4 m c main_v4 = (dat1 (atTc (W3 m)) c).arrAt 5 cfg1.N := by
  unfold W4; exact Function.update_self _ _ _
theorem W4_of_ne (c : Dev nD) (b : Ref sig .tc) (h : b ≠ main_v4) : W4 m c b = W3 m c b := by
  unfold W4; exact Function.update_of_ne (StableHlo.devRef_ne_of_ne h) _ _
theorem W6_out (c : Dev nD) : W6 m c main_v7 = (dat2 (atTc (W5 m)) c).arrAt 6 cfg2.N := by
  unfold W6; exact Function.update_self _ _ _
theorem W6_of_ne (c : Dev nD) (b : Ref sig .tc) (h : b ≠ main_v7) : W6 m c b = W5 m c b := by
  unfold W6; exact Function.update_of_ne (StableHlo.devRef_ne_of_ne h) _ _
theorem W11_out (c : Dev nD) : W11 m c main_v17 = (dat3 (atTc (W10 m)) c).arrAt 9 cfg3.N := by
  unfold W11; exact Function.update_self _ _ _
theorem W11_of_ne (c : Dev nD) (b : Ref sig .tc) (h : b ≠ main_v17) : W11 m c b = W10 m c b := by
  unfold W11; exact Function.update_of_ne (StableHlo.devRef_ne_of_ne h) _ _
theorem W13_out (c : Dev nD) : W13 m c main_v25 = (dat4 (atTc (W12 m)) c).arrAt 7 cfg4.N := by
  unfold W13; exact Function.update_self _ _ _
theorem W13_of_ne (c : Dev nD) (b : Ref sig .tc) (h : b ≠ main_v25) : W13 m c b = W12 m c b := by
  unfold W13; exact Function.update_of_ne (StableHlo.devRef_ne_of_ne h) _ _
theorem W17_out (c : Dev nD) : W17 m c main_v33 = (dat5 (atTc (W16 m)) c).arrAt 9 cfg5.N := by
  unfold W17; exact Function.update_self _ _ _
theorem W17_of_ne (c : Dev nD) (b : Ref sig .tc) (h : b ≠ main_v33) : W17 m c b = W16 m c b := by
  unfold W17; exact Function.update_of_ne (StableHlo.devRef_ne_of_ne h) _ _
theorem W19_out (c : Dev nD) : W19 m c main_v41 = (dat6 (atTc (W18 m)) c).arrAt 7 cfg6.N := by
  unfold W19; exact Function.update_self _ _ _
theorem W19_of_ne (c : Dev nD) (b : Ref sig .tc) (h : b ≠ main_v41) : W19 m c b = W18 m c b := by
  unfold W19; exact Function.update_of_ne (StableHlo.devRef_ne_of_ne h) _ _
theorem W23_out (c : Dev nD) : W23 m c main_v49 = (dat7 (atTc (W22 m)) c).arrAt 9 cfg7.N := by
  unfold W23; exact Function.update_self _ _ _
theorem W23_of_ne (c : Dev nD) (b : Ref sig .tc) (h : b ≠ main_v49) : W23 m c b = W22 m c b := by
  unfold W23; exact Function.update_of_ne (StableHlo.devRef_ne_of_ne h) _ _
theorem W25_out (c : Dev nD) : W25 m c main_v57 = (dat8 (atTc (W24 m)) c).arrAt 7 cfg8.N := by
  unfold W25; exact Function.update_self _ _ _
theorem W25_of_ne (c : Dev nD) (b : Ref sig .tc) (h : b ≠ main_v57) : W25 m c b = W24 m c b := by
  unfold W25; exact Function.update_of_ne (StableHlo.devRef_ne_of_ne h) _ _
theorem W29_out (c : Dev nD) : W29 m c main_v65 = (dat9 (atTc (W28 m)) c).arrAt 9 cfg9.N := by
  unfold W29; exact Function.update_self _ _ _
theorem W29_of_ne (c : Dev nD) (b : Ref sig .tc) (h : b ≠ main_v65) : W29 m c b = W28 m c b := by
  unfold W29; exact Function.update_of_ne (StableHlo.devRef_ne_of_ne h) _ _
theorem W31_out (c : Dev nD) : W31 m c main_v73 = (dat10 (atTc (W30 m)) c).arrAt 7 cfg10.N := by
  unfold W31; exact Function.update_self _ _ _
theorem W31_of_ne (c : Dev nD) (b : Ref sig .tc) (h : b ≠ main_v73) : W31 m c b = W30 m c b := by
  unfold W31; exact Function.update_of_ne (StableHlo.devRef_ne_of_ne h) _ _
theorem W35_out (c : Dev nD) : W35 m c main_v81 = (dat11 (atTc (W34 m)) c).arrAt 9 cfg11.N := by
  unfold W35; exact Function.update_self _ _ _
theorem W35_of_ne (c : Dev nD) (b : Ref sig .tc) (h : b ≠ main_v81) : W35 m c b = W34 m c b := by
  unfold W35; exact Function.update_of_ne (StableHlo.devRef_ne_of_ne h) _ _
theorem W37_out (c : Dev nD) : W37 m c main_v89 = (dat12 (atTc (W36 m)) c).arrAt 7 cfg12.N := by
  unfold W37; exact Function.update_self _ _ _
theorem W37_of_ne (c : Dev nD) (b : Ref sig .tc) (h : b ≠ main_v89) : W37 m c b = W36 m c b := by
  unfold W37; exact Function.update_of_ne (StableHlo.devRef_ne_of_ne h) _ _
theorem W39_out (c : Dev nD) : W39 m c main_v128 = (dat13 (atTc (W38 m)) c).arrAt 10 cfg13.N := by
  unfold W39; exact Function.update_self _ _ _
theorem W39_of_ne (c : Dev nD) (b : Ref sig .tc) (h : b ≠ main_v128) : W39 m c b = W38 m c b := by
  unfold W39; exact Function.update_of_ne (StableHlo.devRef_ne_of_ne h) _ _

def outs : Outs (F := F) := fun J r c =>
  match J with
  | 2 => W2 m c r
  | 4 => W4 m c r
  | 6 => W6 m c r
  | 11 => W11 m c r
  | 13 => W13 m c r
  | 17 => W17 m c r
  | 19 => W19 m c r
  | 23 => W23 m c r
  | 25 => W25 m c r
  | 29 => W29 m c r
  | 31 => W31 m c r
  | 35 => W35 m c r
  | 37 => W37 m c r
  | 39 => W39 m c r
  | _ => W0 m c r

theorem V0_eq (c : Dev nD) : V0 m c = W0 m c := rfl
theorem V1_eq (c : Dev nD) : V1 m c = W1 m c := rfl
theorem V2_eq (c : Dev nD) : V2 m (outs m) c = W2 m c := by
  show Function.update (W1 m c) main_v1 (W2 m c main_v1) = W2 m c
  rw [W2_out]; rfl
theorem V3_eq (c : Dev nD) : V3 m (outs m) c = W3 m c := congrArg (StableHlo.after hostOps1) (V2_eq m c)
theorem V4_eq (c : Dev nD) : V4 m (outs m) c = W4 m c := by
  show Function.update (V3 m (outs m) c) main_v4 (W4 m c main_v4) = W4 m c
  rw [V3_eq, W4_out]; rfl
theorem V5_eq (c : Dev nD) : V5 m (outs m) c = W5 m c := congrArg (StableHlo.after hostOps2) (V4_eq m c)
theorem V6_eq (c : Dev nD) : V6 m (outs m) c = W6 m c := by
  show Function.update (V5 m (outs m) c) main_v7 (W6 m c main_v7) = W6 m c
  rw [V5_eq, W6_out]; rfl
theorem V7_eq (c : Dev nD) : V7 m (outs m) c = W7 m c := congrArg (StableHlo.after hostOps3) (V6_eq m c)
theorem V8_eq (c : Dev nD) : V8 m (outs m) c = W8 m c := congrArg (StableHlo.after hostOps3_1) (V7_eq m c)
theorem V9_eq (c : Dev nD) : V9 m (outs m) c = W9 m c := congrArg (StableHlo.after hostOps3_2) (V8_eq m c)
theorem V10_eq (c : Dev nD) : V10 m (outs m) c = W10 m c := congrArg (StableHlo.after hostOps3_3) (V9_eq m c)
theorem V11_eq (c : Dev nD) : V11 m (outs m) c = W11 m c := by
  show Function.update (V10 m (outs m) c) main_v17 (W11 m c main_v17) = W11 m c
  rw [V10_eq, W11_out]; rfl
theorem V12_eq (c : Dev nD) : V12 m (outs m) c = W12 m c := congrArg (StableHlo.after hostOps4) (V11_eq m c)
theorem V13_eq (c : Dev nD) : V13 m (outs m) c = W13 m c := by
  show Function.update (V12 m (outs m) c) main_v25 (W13 m c main_v25) = W13 m c
  rw [V12_eq, W13_out]; rfl
theorem V14_eq (c : Dev nD) : V14 m (outs m) c = W14 m c := congrArg (StableHlo.after hostOps5) (V13_eq m c)
theorem V15_eq (c : Dev nD) : V15 m (outs m) c = W15 m c := congrArg (StableHlo.after hostOps5_1) (V14_eq m c)
theorem V16_eq (c : Dev nD) : V16 m (outs m) c = W16 m c := congrArg (StableHlo.after hostOps5_2) (V15_eq m c)
theorem V17_eq (c : Dev nD) : V17 m (outs m) c = W17 m c := by
  show Function.update (V16 m (outs m) c) main_v33 (W17 m c main_v33) = W17 m c
  rw [V16_eq, W17_out]; rfl
theorem V18_eq (c : Dev nD) : V18 m (outs m) c = W18 m c := congrArg (StableHlo.after hostOps6) (V17_eq m c)
theorem V19_eq (c : Dev nD) : V19 m (outs m) c = W19 m c := by
  show Function.update (V18 m (outs m) c) main_v41 (W19 m c main_v41) = W19 m c
  rw [V18_eq, W19_out]; rfl
theorem V20_eq (c : Dev nD) : V20 m (outs m) c = W20 m c := congrArg (StableHlo.after hostOps7) (V19_eq m c)
theorem V21_eq (c : Dev nD) : V21 m (outs m) c = W21 m c := congrArg (StableHlo.after hostOps7_1) (V20_eq m c)
theorem V22_eq (c : Dev nD) : V22 m (outs m) c = W22 m c := congrArg (StableHlo.after hostOps7_2) (V21_eq m c)
theorem V23_eq (c : Dev nD) : V23 m (outs m) c = W23 m c := by
  show Function.update (V22 m (outs m) c) main_v49 (W23 m c main_v49) = W23 m c
  rw [V22_eq, W23_out]; rfl
theorem V24_eq (c : Dev nD) : V24 m (outs m) c = W24 m c := congrArg (StableHlo.after hostOps8) (V23_eq m c)
theorem V25_eq (c : Dev nD) : V25 m (outs m) c = W25 m c := by
  show Function.update (V24 m (outs m) c) main_v57 (W25 m c main_v57) = W25 m c
  rw [V24_eq, W25_out]; rfl
theorem V26_eq (c : Dev nD) : V26 m (outs m) c = W26 m c := congrArg (StableHlo.after hostOps9) (V25_eq m c)
theorem V27_eq (c : Dev nD) : V27 m (outs m) c = W27 m c := congrArg (StableHlo.after hostOps9_1) (V26_eq m c)
theorem V28_eq (c : Dev nD) : V28 m (outs m) c = W28 m c := congrArg (StableHlo.after hostOps9_2) (V27_eq m c)
theorem V29_eq (c : Dev nD) : V29 m (outs m) c = W29 m c := by
  show Function.update (V28 m (outs m) c) main_v65 (W29 m c main_v65) = W29 m c
  rw [V28_eq, W29_out]; rfl
theorem V30_eq (c : Dev nD) : V30 m (outs m) c = W30 m c := congrArg (StableHlo.after hostOps10) (V29_eq m c)
theorem V31_eq (c : Dev nD) : V31 m (outs m) c = W31 m c := by
  show Function.update (V30 m (outs m) c) main_v73 (W31 m c main_v73) = W31 m c
  rw [V30_eq, W31_out]; rfl
theorem V32_eq (c : Dev nD) : V32 m (outs m) c = W32 m c := congrArg (StableHlo.after hostOps11) (V31_eq m c)
theorem V33_eq (c : Dev nD) : V33 m (outs m) c = W33 m c := congrArg (StableHlo.after hostOps11_1) (V32_eq m c)
theorem V34_eq (c : Dev nD) : V34 m (outs m) c = W34 m c := congrArg (StableHlo.after hostOps11_2) (V33_eq m c)
theorem V35_eq (c : Dev nD) : V35 m (outs m) c = W35 m c := by
  show Function.update (V34 m (outs m) c) main_v81 (W35 m c main_v81) = W35 m c
  rw [V34_eq, W35_out]; rfl
theorem V36_eq (c : Dev nD) : V36 m (outs m) c = W36 m c := congrArg (StableHlo.after hostOps12) (V35_eq m c)
theorem V37_eq (c : Dev nD) : V37 m (outs m) c = W37 m c := by
  show Function.update (V36 m (outs m) c) main_v89 (W37 m c main_v89) = W37 m c
  rw [V36_eq, W37_out]; rfl
theorem V38_eq (c : Dev nD) : V38 m (outs m) c = W38 m c := congrArg (StableHlo.after hostOps13) (V37_eq m c)
theorem V39_eq (c : Dev nD) : V39 m (outs m) c = W39 m c := by
  show Function.update (V38 m (outs m) c) main_v128 (W39 m c main_v128) = W39 m c
  rw [V38_eq, W39_out]; rfl
theorem V40_eq (c : Dev nD) : V40 m (outs m) c = W40 m c := congrArg (StableHlo.after hostOps14) (V39_eq m c)

def pdats : (p : Fin 14) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W10 m)) c
  | ⟨4, _⟩ => fun c => dat4 (atTc (W12 m)) c
  | ⟨5, _⟩ => fun c => dat5 (atTc (W16 m)) c
  | ⟨6, _⟩ => fun c => dat6 (atTc (W18 m)) c
  | ⟨7, _⟩ => fun c => dat7 (atTc (W22 m)) c
  | ⟨8, _⟩ => fun c => dat8 (atTc (W24 m)) c
  | ⟨9, _⟩ => fun c => dat9 (atTc (W28 m)) c
  | ⟨10, _⟩ => fun c => dat10 (atTc (W30 m)) c
  | ⟨11, _⟩ => fun c => dat11 (atTc (W34 m)) c
  | ⟨12, _⟩ => fun c => dat12 (atTc (W36 m)) c
  | ⟨13, _⟩ => fun c => dat13 (atTc (W38 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Hand

end
-- ==== Proof.K.RegLib.lean ====
import proofs.«408468_j77438260346965_2_alg».proof.Proof.K.Run

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

section
variable {cfg : Pipeline.Cfg sig Λ₀} {c : Dev nD} (d : Dat τ (Elt F) Unit ℕ (UR sig nD τ) ℕ cfg c)

/-- A core owing nothing gives what proof data that owe nothing ask for at `t`. -/
theorem owes_in (t : Fin (cfg.N + 1)) (h0 : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound; rw [h0, hr]
  iintro ⟨%W, HO⟩; iexists W; isplitr; · ipureintro; exact fun _ _ => Or.inl trivial
  iexact HO

/-- Proof data that owe nothing at `t` give back a core owing nothing. -/
theorem owes_out (t : Fin (cfg.N + 1)) (h0 : d.owed t = 0) :
    d.owesAt () t ⊢ (iprop(∃ W, owes (c : Thread nD τ) (0 : CellTallies nD τ sig Unit) W) : sProp 𝕄) := by
  unfold Pipeline.Dat.owesAt Pipeline.owesWithin; rw [h0]
  iintro ⟨%W, -, HO⟩; iexists W; iexact HO
end

/-- All fourteen proof data have one shape: the same invariant, full shares, nothing owed. -/
theorem pdats_plain (p : Fin 14) (c : Dev nD) : (∀ t, (pdats m p c).Φ t = Pipeline.ΦA (cfgs p).spec c)
    ∧ (∀ w, (pdats m p c).q w = fullShare) ∧ (∀ t, (pdats m p c).owed t = 0) ∧ (pdats m p c).recorded 0 = Set.univ := by
  fin_cases p <;> exact ⟨fun _ => rfl, fun _ => rfl, fun _ => rfl, rfl⟩

set_option backward.isDefEq.respectTransparency.types false in
/-- Region `p` as a segment from contents `Win` to `Wout`, which is `Win` except at the output window's array. -/
def regOf (p : Fin 14) (Win Wout : Dev nD → Valuation τ sig (Elt F)) (o : Fin (cfgs p).W)
    (lf : Pipeline.LaunchFacts (nD := nD) (τ := τ) cfgs p)
    (hbody : ∀ c, BodyObligation (pdats m p c) (defs₀ (F := F)) 𝒱₀ () Set.univ)
    (hA : ∀ c w, (pdats m p c).A w = atTc Win c (Pipeline.arrRef (cfgs p).spec w))
    (hout : ∀ c, Wout c (Pipeline.arrRef (cfgs p).spec o) = (pdats m p c).arrAt o (cfgs p).N)
    (hne : ∀ c (b : Ref sig .tc), b ≠ Pipeline.arrRef (cfgs p).spec o → Wout c b = Win c b)
    (ho : ∀ w, w ≠ o → ((cfgs p).win w).isOut = false ∧ Pipeline.arrRef (cfgs p).spec w ≠ Pipeline.arrRef (cfgs p).spec o) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (pdats_plain m p c).2.2.1
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m) lf.win lf.arr_whole c
      ((pdats m p c).share_full (pdats_plain m p c).2.1) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owes_in _ 0 ((pdats_plain m p c).2.2.1 0) (pdats_plain m p c).2.2.2; iexact HO
    isplitl [Hp]; · iexact Hp
    iexact Hrest
  hin c := by
    refine .trans ?_ (Entails.of_eq ((pdats_plain m p c).1 0).symm); unfold Pipeline.ΦA
    iintro ⟨Hp, -, Hr⟩
    isplitl [Hr]; · iexact Hr
    iexact Hp
  hout c := by
    rw [Pipeline.ownSems0_none]; refine (Entails.of_eq ((pdats_plain m p c).1 (Fin.last _))).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).2.1)
      (atTc Win c) (atTc Wout c) ((pdats m p c).arrAt · (cfgs p).N)
      (fun w => by
        by_cases h : w = o
        · subst h; exact (hout c).symm
        · exact ((pdats m p c).arrAt_in w (ho w h).1 _).trans ((hA c w).trans (hne c _ (ho w h).2).symm))
      fun b hb => hne c b fun h => hb (h ▸ Finset.mem_image.mpr ⟨o, Finset.mem_univ _, rfl⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply owes_out _ _ ((pdats_plain m p c).2.2.1 _); iexact HO

end Cert.Kernel.Hand

end
-- ==== Proof.K.Reg0.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg0 : Pipeline.RegionSeg (pcfgs (F := F)) adm (pdats m) () defs₀ 𝒱₀ L lv 0 :=
  regOf m 0 (W1 m) (W2 m) (1 : Fin 2) launch0 (body_obligation0 _)
    (A_eq0 _) (W2_out m) (W2_of_ne m) (by decide)

theorem hpre0 (c : Dev nD) :
    iprop(StableHlo.held (c : Thread nD τ) (Pipeline.ucRefs τ sig) (V1 m c) ∗ R c) ⊢ (reg0 m).pre c := by
  rw [V1_eq]; exact .rfl
theorem hpost0 (c : Dev nD) :
    (reg0 m).post c ⊢ iprop(StableHlo.held (c : Thread nD τ) (Pipeline.ucRefs τ sig) (V2 m (outs m) c) ∗ R c) := by
  rw [V2_eq]; exact .rfl

end Cert.Kernel.Hand
-- ==== Proof.K.Reg1.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg1 : Pipeline.RegionSeg (pcfgs (F := F)) adm (pdats m) () defs₀ 𝒱₀ L lv 1 :=
  regOf m 1 (W3 m) (W4 m) (5 : Fin 6) launch1 (body_obligation1 _)
    (A_eq1 _) (W4_out m) (W4_of_ne m) (by decide)

theorem hpre1 (c : Dev nD) :
    iprop(StableHlo.held (c : Thread nD τ) (Pipeline.ucRefs τ sig) (V3 m (outs m) c) ∗ R c) ⊢ (reg1 m).pre c := by
  rw [V3_eq]; exact .rfl
theorem hpost1 (c : Dev nD) :
    (reg1 m).post c ⊢ iprop(StableHlo.held (c : Thread nD τ) (Pipeline.ucRefs τ sig) (V4 m (outs m) c) ∗ R c) := by
  rw [V4_eq]; exact .rfl

end Cert.Kernel.Hand
-- ==== Proof.K.Reg2.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg2 : Pipeline.RegionSeg (pcfgs (F := F)) adm (pdats m) () defs₀ 𝒱₀ L lv 2 :=
  regOf m 2 (W5 m) (W6 m) (6 : Fin 7) launch2 (body_obligation2 _)
    (A_eq2 _) (W6_out m) (W6_of_ne m) (by decide)

theorem hpre2 (c : Dev nD) :
    iprop(StableHlo.held (c : Thread nD τ) (Pipeline.ucRefs τ sig) (V5 m (outs m) c) ∗ R c) ⊢ (reg2 m).pre c := by
  rw [V5_eq]; exact .rfl
theorem hpost2 (c : Dev nD) :
    (reg2 m).post c ⊢ iprop(StableHlo.held (c : Thread nD τ) (Pipeline.ucRefs τ sig) (V6 m (outs m) c) ∗ R c) := by
  rw [V6_eq]; exact .rfl

end Cert.Kernel.Hand
-- ==== Proof.K.Reg3.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg3 : Pipeline.RegionSeg (pcfgs (F := F)) adm (pdats m) () defs₀ 𝒱₀ L lv 3 :=
  regOf m 3 (W10 m) (W11 m) (9 : Fin 10) launch3 (body_obligation3 _)
    (A_eq3 _) (W11_out m) (W11_of_ne m) (by decide)

theorem hpre3 (c : Dev nD) :
    iprop(StableHlo.held (c : Thread nD τ) (Pipeline.ucRefs τ sig) (V10 m (outs m) c) ∗ R c) ⊢ (reg3 m).pre c := by
  rw [V10_eq]; exact .rfl
theorem hpost3 (c : Dev nD) :
    (reg3 m).post c ⊢ iprop(StableHlo.held (c : Thread nD τ) (Pipeline.ucRefs τ sig) (V11 m (outs m) c) ∗ R c) := by
  rw [V11_eq]; exact .rfl

end Cert.Kernel.Hand
-- ==== Proof.K.Reg4.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg4 : Pipeline.RegionSeg (pcfgs (F := F)) adm (pdats m) () defs₀ 𝒱₀ L lv 4 :=
  regOf m 4 (W12 m) (W13 m) (7 : Fin 8) launch4 (body_obligation4 _)
    (A_eq4 _) (W13_out m) (W13_of_ne m) (by decide)

theorem hpre4 (c : Dev nD) :
    iprop(StableHlo.held (c : Thread nD τ) (Pipeline.ucRefs τ sig) (V12 m (outs m) c) ∗ R c) ⊢ (reg4 m).pre c := by
  rw [V12_eq]; exact .rfl
theorem hpost4 (c : Dev nD) :
    (reg4 m).post c ⊢ iprop(StableHlo.held (c : Thread nD τ) (Pipeline.ucRefs τ sig) (V13 m (outs m) c) ∗ R c) := by
  rw [V13_eq]; exact .rfl

end Cert.Kernel.Hand
-- ==== Proof.K.Reg5.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg5 : Pipeline.RegionSeg (pcfgs (F := F)) adm (pdats m) () defs₀ 𝒱₀ L lv 5 :=
  regOf m 5 (W16 m) (W17 m) (9 : Fin 10) launch5 (body_obligation5 _)
    (A_eq5 _) (W17_out m) (W17_of_ne m) (by decide)

theorem hpre5 (c : Dev nD) :
    iprop(StableHlo.held (c : Thread nD τ) (Pipeline.ucRefs τ sig) (V16 m (outs m) c) ∗ R c) ⊢ (reg5 m).pre c := by
  rw [V16_eq]; exact .rfl
theorem hpost5 (c : Dev nD) :
    (reg5 m).post c ⊢ iprop(StableHlo.held (c : Thread nD τ) (Pipeline.ucRefs τ sig) (V17 m (outs m) c) ∗ R c) := by
  rw [V17_eq]; exact .rfl

end Cert.Kernel.Hand
-- ==== Proof.K.Reg6.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg6 : Pipeline.RegionSeg (pcfgs (F := F)) adm (pdats m) () defs₀ 𝒱₀ L lv 6 :=
  regOf m 6 (W18 m) (W19 m) (7 : Fin 8) launch6 (body_obligation6 _)
    (A_eq6 _) (W19_out m) (W19_of_ne m) (by decide)

theorem hpre6 (c : Dev nD) :
    iprop(StableHlo.held (c : Thread nD τ) (Pipeline.ucRefs τ sig) (V18 m (outs m) c) ∗ R c) ⊢ (reg6 m).pre c := by
  rw [V18_eq]; exact .rfl
theorem hpost6 (c : Dev nD) :
    (reg6 m).post c ⊢ iprop(StableHlo.held (c : Thread nD τ) (Pipeline.ucRefs τ sig) (V19 m (outs m) c) ∗ R c) := by
  rw [V19_eq]; exact .rfl

end Cert.Kernel.Hand
-- ==== Proof.K.Reg7.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg7 : Pipeline.RegionSeg (pcfgs (F := F)) adm (pdats m) () defs₀ 𝒱₀ L lv 7 :=
  regOf m 7 (W22 m) (W23 m) (9 : Fin 10) launch7 (body_obligation7 _)
    (A_eq7 _) (W23_out m) (W23_of_ne m) (by decide)

theorem hpre7 (c : Dev nD) :
    iprop(StableHlo.held (c : Thread nD τ) (Pipeline.ucRefs τ sig) (V22 m (outs m) c) ∗ R c) ⊢ (reg7 m).pre c := by
  rw [V22_eq]; exact .rfl
theorem hpost7 (c : Dev nD) :
    (reg7 m).post c ⊢ iprop(StableHlo.held (c : Thread nD τ) (Pipeline.ucRefs τ sig) (V23 m (outs m) c) ∗ R c) := by
  rw [V23_eq]; exact .rfl

end Cert.Kernel.Hand
-- ==== Proof.K.Reg8.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg8 : Pipeline.RegionSeg (pcfgs (F := F)) adm (pdats m) () defs₀ 𝒱₀ L lv 8 :=
  regOf m 8 (W24 m) (W25 m) (7 : Fin 8) launch8 (body_obligation8 _)
    (A_eq8 _) (W25_out m) (W25_of_ne m) (by decide)

theorem hpre8 (c : Dev nD) :
    iprop(StableHlo.held (c : Thread nD τ) (Pipeline.ucRefs τ sig) (V24 m (outs m) c) ∗ R c) ⊢ (reg8 m).pre c := by
  rw [V24_eq]; exact .rfl
theorem hpost8 (c : Dev nD) :
    (reg8 m).post c ⊢ iprop(StableHlo.held (c : Thread nD τ) (Pipeline.ucRefs τ sig) (V25 m (outs m) c) ∗ R c) := by
  rw [V25_eq]; exact .rfl

end Cert.Kernel.Hand
-- ==== Proof.K.Reg9.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg9 : Pipeline.RegionSeg (pcfgs (F := F)) adm (pdats m) () defs₀ 𝒱₀ L lv 9 :=
  regOf m 9 (W28 m) (W29 m) (9 : Fin 10) launch9 (body_obligation9 _)
    (A_eq9 _) (W29_out m) (W29_of_ne m) (by decide)

theorem hpre9 (c : Dev nD) :
    iprop(StableHlo.held (c : Thread nD τ) (Pipeline.ucRefs τ sig) (V28 m (outs m) c) ∗ R c) ⊢ (reg9 m).pre c := by
  rw [V28_eq]; exact .rfl
theorem hpost9 (c : Dev nD) :
    (reg9 m).post c ⊢ iprop(StableHlo.held (c : Thread nD τ) (Pipeline.ucRefs τ sig) (V29 m (outs m) c) ∗ R c) := by
  rw [V29_eq]; exact .rfl

end Cert.Kernel.Hand
-- ==== Proof.K.Reg10.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg10 : Pipeline.RegionSeg (pcfgs (F := F)) adm (pdats m) () defs₀ 𝒱₀ L lv 10 :=
  regOf m 10 (W30 m) (W31 m) (7 : Fin 8) launch10 (body_obligation10 _)
    (A_eq10 _) (W31_out m) (W31_of_ne m) (by decide)

theorem hpre10 (c : Dev nD) :
    iprop(StableHlo.held (c : Thread nD τ) (Pipeline.ucRefs τ sig) (V30 m (outs m) c) ∗ R c) ⊢ (reg10 m).pre c := by
  rw [V30_eq]; exact .rfl
theorem hpost10 (c : Dev nD) :
    (reg10 m).post c ⊢ iprop(StableHlo.held (c : Thread nD τ) (Pipeline.ucRefs τ sig) (V31 m (outs m) c) ∗ R c) := by
  rw [V31_eq]; exact .rfl

end Cert.Kernel.Hand
-- ==== Proof.K.Reg11.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg11 : Pipeline.RegionSeg (pcfgs (F := F)) adm (pdats m) () defs₀ 𝒱₀ L lv 11 :=
  regOf m 11 (W34 m) (W35 m) (9 : Fin 10) launch11 (body_obligation11 _)
    (A_eq11 _) (W35_out m) (W35_of_ne m) (by decide)

theorem hpre11 (c : Dev nD) :
    iprop(StableHlo.held (c : Thread nD τ) (Pipeline.ucRefs τ sig) (V34 m (outs m) c) ∗ R c) ⊢ (reg11 m).pre c := by
  rw [V34_eq]; exact .rfl
theorem hpost11 (c : Dev nD) :
    (reg11 m).post c ⊢ iprop(StableHlo.held (c : Thread nD τ) (Pipeline.ucRefs τ sig) (V35 m (outs m) c) ∗ R c) := by
  rw [V35_eq]; exact .rfl

end Cert.Kernel.Hand
-- ==== Proof.K.Reg12.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg12 : Pipeline.RegionSeg (pcfgs (F := F)) adm (pdats m) () defs₀ 𝒱₀ L lv 12 :=
  regOf m 12 (W36 m) (W37 m) (7 : Fin 8) launch12 (body_obligation12 _)
    (A_eq12 _) (W37_out m) (W37_of_ne m) (by decide)

theorem hpre12 (c : Dev nD) :
    iprop(StableHlo.held (c : Thread nD τ) (Pipeline.ucRefs τ sig) (V36 m (outs m) c) ∗ R c) ⊢ (reg12 m).pre c := by
  rw [V36_eq]; exact .rfl
theorem hpost12 (c : Dev nD) :
    (reg12 m).post c ⊢ iprop(StableHlo.held (c : Thread nD τ) (Pipeline.ucRefs τ sig) (V37 m (outs m) c) ∗ R c) := by
  rw [V37_eq]; exact .rfl

end Cert.Kernel.Hand
-- ==== Proof.K.Reg13.lean ====
import proofs.«408468_j77438260346965_2_alg».proof.Proof.K.RegLib

namespace Cert.Kernel.Hand

open Cert.Kernel Cert.Kernel.Gen Cert.Kernel.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg13 : Pipeline.RegionSeg (pcfgs (F := F)) adm (pdats m) () defs₀ 𝒱₀ L lv 13 :=
  regOf m 13 (W38 m) (W39 m) (10 : Fin 11) launch13 (body_obligation13 _)
    (A_eq13 _) (W39_out m) (W39_of_ne m) (by decide)

theorem hpre13 (c : Dev nD) :
    iprop(StableHlo.held (c : Thread nD τ) (Pipeline.ucRefs τ sig) (V38 m (outs m) c) ∗ R c) ⊢ (reg13 m).pre c := by
  rw [V38_eq]; exact .rfl
theorem hpost13 (c : Dev nD) :
    (reg13 m).post c ⊢ iprop(StableHlo.held (c : Thread nD τ) (Pipeline.ucRefs τ sig) (V39 m (outs m) c) ∗ R c) := by
  rw [V39_eq]; exact .rfl

end Cert.Kernel.Hand
-- ==== Proof.K.Frame.lean ====
import proofs.«408468_j77438260346965_2_alg».proof.Proof.K.Reg0
import proofs.«408468_j77438260346965_2_alg».proof.Proof.K.Reg1
import proofs.«408468_j77438260346965_2_alg».proof.Proof.K.Reg2
import proofs.«408468_j77438260346965_2_alg».proof.Proof.K.Reg3
import proofs.«408468_j77438260346965_2_alg».proof.Proof.K.Reg4
import proofs.«408468_j77438260346965_2_alg».proof.Proof.K.Reg5
import proofs.«408468_j77438260346965_2_alg».proof.Proof.K.Reg6
import proofs.«408468_j77438260346965_2_alg».proof.Proof.K.Reg7
import proofs.«408468_j77438260346965_2_alg».proof.Proof.K.Reg8
import proofs.«408468_j77438260346965_2_alg».proof.Proof.K.Reg9
import proofs.«408468_j77438260346965_2_alg».proof.Proof.K.Reg10
import proofs.«408468_j77438260346965_2_alg».proof.Proof.K.Reg11
import proofs.«408468_j77438260346965_2_alg».proof.Proof.K.Reg12
import proofs.«408468_j77438260346965_2_alg».proof.Proof.K.Reg13

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E : Fin 15 → Dev nD → sProp 𝕄 := fun _ c => R c

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c
        ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE14 (c : Dev nD) : E (F := F) 14 c
    ⊢ (iprop(∃ W, owes (c : Thread nD τ) (0 : CellTallies nD τ sig Unit) W) : sProp 𝕄) := by
  iintro ⟨-, HO⟩; iexact HO

set_option backward.isDefEq.respectTransparency.types false in

theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_cond m emb₁ () 𝒱₀ L lv (fun _ _ => rfl) ρ (outs m) (pdats m) 0 (fun _ => iprop(emp)) u₀ hu₀ E (hE0 ρ) hE14
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)

end Cert.Kernel.Hand

end
-- ==== Proof.Ki.R0.lean ====
import proofs.«408468_j77438260346965_2_alg».proof.Proof.Gen.KernelIdeal.Launch
import proofs.«408468_j77438260346965_2_alg».proof.Proof.Gen.KernelIdeal.Skeleton
import proofs.«408468_j77438260346965_2_alg».proof.Proof.Gen.KernelIdeal.Points
import Idealize.ShloMosaic.Lib.Pipeline.FrameBody
import Idealize.ShloMosaic.Lib.Pipeline.FrameSuffix
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- Window w's block of its array at grid point t.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hcond0_1 : ∀ t : Fin cfg0.N, k0_cond1 (grid0.coords t) = 1#1 ↔ t.val = 0 :=
  (by decide +kernel : ∀ t : Fin grid0.N, k0_cond1 (grid0.coords t) = 1#1 ↔ t.val = 0)

theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

theorem idle0_1 (i : grid0.Coords) : cfg0.idle 1 i = false := by
  have h : ∀ n : Fin 320, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide +kernel
  exact h (i 0)

abbrev r0_in : Rect S32x128 := Rect.unit (s := S32x128) ![0, 0] S32x128.size inb_S32x128_S32x128_0_0
abbrev r0_out : Rect S1x1 := Rect.unit (s := S1x1) ![0, 0] S1x1.size inb_S1x1_S1x1_0_0

-- The output block at the first grid point, from the input block alone.
def out0_A (x0 : Vec F S32x128 .f32) : Vec F S1x1 .f32 :=
  View.canon [⟨r0_out, k0_pay1 (View.ld x0 r0_in)⟩]

-- The output block at a later grid point, from the input block and the running value xo.
def out0_B (x0 : Vec F S32x128 .f32) (xo : Vec F S1x1 .f32) : Vec F S1x1 .f32 :=
  View.canon [⟨r0_out, k0_pay2 (View.ld x0 r0_in) (View.ld xo r0_out)⟩]

-- At the first point the body produces out0_A, at a later one out0_B of the value xo it finds; the input stays as it was.
set_option maxHeartbeats 1000000 in
theorem sound_kernel0 (c : Dev nD) (E : Set ℕ) (i : grid0.Coords) (arg1 : Memref sig .tc .vmem S32x128 .f32) (harg1 : arg1.IsWhole)
    (arg2 : Memref sig .tc .vmem S1x1 .f32) (harg2 : arg2.IsWhole) (x0 : Vec F S32x128 .f32) (xo out : Vec F S1x1 .f32)
    (h : k0_cond1 i = 1#1 ∧ ¬ k0_cond2 i = 1#1 ∧ out = out0_A x0 ∨ ¬ k0_cond1 i = 1#1 ∧ k0_cond2 i = 1#1 ∧ out = out0_B x0 xo)
    (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare out) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  rcases h with ⟨h1, h2, rfl⟩ | ⟨h1, h2, rfl⟩ <;>
  · iintro ⟨⟨%f0, %hf0, H0⟩, ⟨%f1, %hf1, H1⟩, Hk⟩
    subst hf0; subst hf1
    sl_exec (disch := first | exact h1 | exact h2)
    sl_step
    iapply Hk
    isplitl [H0]
    · iexists _; isplitr; · ipureintro; rfl
      iexact H0
    iexists _; isplitr
    swap; · iexact H1
    ipureintro
    exact View.read_writes_eq_canon _ _ _ (View.cover_of_tiled _ S1x1.size (by rfl))

-- The running value after grid point n, by recursion on n.
def outsAt0 (c : Dev nD) : (n : ℕ) → n < cfg0.N → Vec F S1x1 .f32
  | 0, hn => out0_A (iblk0 V c 0 ⟨0, hn⟩)
  | n + 1, hn => out0_B (iblk0 V c 0 ⟨n + 1, hn⟩) (outsAt0 c n (Nat.lt_of_succ_lt hn))

theorem outsAt0_first (c : Dev nD) (t : Fin cfg0.N) (h0 : t.val = 0) :
    outsAt0 V c t.val t.isLt = out0_A (iblk0 V c 0 t) := by
  obtain ⟨n, hn⟩ := t
  cases n with
  | zero => rfl
  | succ n => exact absurd h0 (Nat.succ_ne_zero n)

theorem outsAt0_later (c : Dev nD) (t : Fin cfg0.N) (h0 : t.val ≠ 0) :
    outsAt0 V c t.val t.isLt
      = out0_B (iblk0 V c 0 t) (outsAt0 V c (t.val - 1) (Nat.lt_of_le_of_lt (Nat.sub_le _ _) t.isLt)) := by
  obtain ⟨n, hn⟩ := t
  cases n with
  | zero => exact absurd rfl h0
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = outsAt0 V c t.val t.isLt := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1_later (c : Dev nD) (t : Fin cfg0.N) (h0 : t.val ≠ 0) (d) :
    (dat0 V c).before 1 t d = outsAt0 V c (t.val - 1) (Nat.lt_of_le_of_lt (Nat.sub_le _ _) t.isLt) := by
  have hN : t.val < 320 := lt_of_lt_of_eq t.isLt (show cfg0.N = 320 from N_0)
  rw [Dat.before_out_kept _ 1 rfl t h0 (Bool.eq_false_iff.mpr fun h => by have := (flush0_1 _).mp h; dsimp only at this; omega)
    idle0_1 (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl, after0_1]
  by_cases h0 : t.val = 0
  · rw [outsAt0_first V c t h0]
    dsimp only [dat0]
    iintro ⟨HΦ, Ho, ⟨%d0, H0⟩, ⟨%d1, H1⟩⟩
    iapply (sound_kernel0 c Set.univ (grid0.coords t) (st0_0 t) _ (st0_1 t) _ (iblk0 V c 0 t) _ _ (.inl ⟨(hcond0_1 t).mpr h0, fun h => (hcond0_2 t).mp h h0, rfl⟩) _)
    isplitl [H0]; · iexact H0
    isplitl [H1]; · iexact H1
    iintro ⟨H0, H1⟩
    iframe
  · rw [outsAt0_later V c t h0]
    simp only [before0_1_later V c t h0]
    dsimp only [dat0]
    iintro ⟨HΦ, Ho, ⟨%d0, H0⟩, ⟨%d1, H1⟩⟩
    iapply (sound_kernel0 c Set.univ (grid0.coords t) (st0_0 t) _ (st0_1 t) _ (iblk0 V c 0 t) _ _ (.inr ⟨fun h => h0 ((hcond0_1 t).mp h), (hcond0_2 t).mpr h0, rfl⟩) _)
    isplitl [H0]; · iexact H0
    isplitl [H1]; · iexact H1
    iintro ⟨H0, H1⟩
    iframe

-- The body's contract at every grid point, by cases on whether the point is the first.
theorem body_obligation0 (c : Dev nD) : BodyObligation (dat0 (F := F) V c) (defs₀ (F := F)) Variants.none () Set.univ := fun t => by
  rw [bigSep_W0, bigSep_W0]
  have hi : cfg0.idle 1 (cfg0.grid.coords t) = false := idle0_1 _
  rw [hi]
  exact sound_body0 V c t

end Cert.KernelIdeal.Hand
end
-- ==== Proof.Ki.R1.lean ====
import proofs.«408468_j77438260346965_2_alg».proof.Proof.Gen.KernelIdeal.Launch
import proofs.«408468_j77438260346965_2_alg».proof.Proof.Gen.KernelIdeal.Skeleton
import proofs.«408468_j77438260346965_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block of its array at grid point t.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x1 := Rect.unit (s := S4096x1) ![0, 0] S4096x1.size inb_S4096x1_S4096x1_0_0
abbrev r1_1 : Rect S1x16 := Rect.unit (s := S1x16) ![0, 0] S1x16.size inb_S1x16_S1x16_0_0
abbrev r1_2 : Rect S16x16 := Rect.unit (s := S16x16) ![0, 0] S16x16.size inb_S16x16_S16x16_0_0
abbrev r1_3 : Rect S4096x16 := Rect.unit (s := S4096x16) ![0, 0] S4096x16.size inb_S4096x16_S4096x16_0_0

-- The output block as a function of the input blocks.
def out1_5 (x0 : Vec F S4096x1 .f32) (x1 : Vec F S1x16 .f32) (x2 : Vec F S1x16 .f32) (x3 : Vec F S16x16 .f32) (x4 : Vec F S1x16 .f32) :
    Vec F S4096x16 .f32 :=
  View.canon [⟨r1_3, k1_pay1 (View.ld x0 r1_0) (View.ld x1 r1_1) (View.ld x2 r1_1) (View.ld x3 r1_2) (View.ld x4 r1_1)⟩]

-- From input blocks x the body produces the output block above and leaves the inputs as they were.
set_option maxHeartbeats 1000000 in
theorem sound_kernel1 (c : Dev nD) (E : Set ℕ) (i : grid1.Coords)
    (arg1 : Memref sig .tc .vmem S4096x1 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S1x16 .f32) (harg5 : arg5.IsWhole) (arg6 : Memref sig .tc .vmem S4096x16 .f32) (harg6 : arg6.IsWhole)
    (x0 : Vec F S4096x1 .f32) (x1 : Vec F S1x16 .f32) (x2 : Vec F S1x16 .f32) (x3 : Vec F S16x16 .f32) (x4 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__encode_kernel i arg1 harg1 arg2 harg2 arg3 harg3 arg4 harg4 arg5 harg5 arg6 harg6) K := by
  simp only [cc1__encode_kernel_eq_skeleton]; unfold cc1__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4096x16.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

-- The body's contract at every grid point, from the triple above.
theorem body_obligation1 (c : Dev nD) : BodyObligation (dat1 (F := F) V c) (defs₀ (F := F)) Variants.none () Set.univ := fun t => by
  show iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.castSucc ∗ (dat1 V c).owesAt () t.castSucc
        ∗ bigSep Finset.univ fun w : Fin cfg1.W => owns (c : Thread nD τ) ((cfg1.win w).stage (cfg1.slots t w)) fullShare ((dat1 V c).after w t))
  rw [bigSep_W1, bigSep_W1]
  simp only [before1_0, before1_1, before1_2, before1_3, before1_4]
  dsimp only [dat1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) (st1_0 t) _ (st1_1 t) _ (st1_2 t) _ (st1_3 t) _ (st1_4 t) _ (st1_5 t) _ (iblk1 V c 0 t) (iblk1 V c 1 t) (iblk1 V c 2 t) (iblk1 V c 3 t) (iblk1 V c 4 t) _)
  iframe
  isplitl [H5]; · iexists _; iexact H5
  iintro ⟨H0, H1, H2, H3, H4, H5⟩
  iframe

end Cert.KernelIdeal.Hand
end
-- ==== Proof.Ki.R2.lean ====
import proofs.«408468_j77438260346965_2_alg».proof.Proof.Gen.KernelIdeal.Launch
import proofs.«408468_j77438260346965_2_alg».proof.Proof.Gen.KernelIdeal.Skeleton
import proofs.«408468_j77438260346965_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block of its array at grid point t.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4096x1 := Rect.unit (s := S4096x1) ![0, 0] S4096x1.size inb_S4096x1_S4096x1_0_0
abbrev r2_1 : Rect S1x1 := Rect.unit (s := S1x1) ![0, 0] S1x1.size inb_S1x1_S1x1_0_0
abbrev r2_2 : Rect S1x16 := Rect.unit (s := S1x16) ![0, 0] S1x16.size inb_S1x16_S1x16_0_0
abbrev r2_3 : Rect S16x16 := Rect.unit (s := S16x16) ![0, 0] S16x16.size inb_S16x16_S16x16_0_0
abbrev r2_4 : Rect S4096x16 := Rect.unit (s := S4096x16) ![0, 0] S4096x16.size inb_S4096x16_S4096x16_0_0

-- The output block as a function of the input blocks.
def out2_6 (x0 : Vec F S4096x1 .f32) (x1 : Vec F S1x1 .f32) (x2 : Vec F S1x16 .f32) (x3 : Vec F S1x16 .f32) (x4 : Vec F S16x16 .f32) (x5 : Vec F S1x16 .f32) : Vec F S4096x16 .f32 :=
  View.canon [⟨r2_4, k2_pay1 (View.ld x1 r2_1) (View.ld x0 r2_0) (View.ld x2 r2_2) (View.ld x3 r2_2) (View.ld x4 r2_3) (View.ld x5 r2_2)⟩]

-- From input blocks x the body produces the output block above and leaves the inputs as they were.
set_option maxHeartbeats 1000000 in
theorem sound_kernel2 (c : Dev nD) (E : Set ℕ) (i : grid2.Coords) (arg1 : Memref sig .tc .vmem S4096x1 .f32) (harg1 : arg1.IsWhole) (arg2 : Memref sig .tc .vmem S1x1 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S4096x16 .f32) (harg7 : arg7.IsWhole)
    (x0 : Vec F S4096x1 .f32) (x1 : Vec F S1x1 .f32) (x2 : Vec F S1x16 .f32) (x3 : Vec F S1x16 .f32) (x4 : Vec F S16x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__encode_div_kernel i arg1 harg1 arg2 harg2 arg3 harg3 arg4 harg4 arg5 harg5 arg6 harg6 arg7 harg7) K := by
  simp only [cc2__encode_div_kernel_eq_skeleton]; unfold cc2__encode_div_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S4096x16.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

-- The body's contract at every grid point, from the triple above.
theorem body_obligation2 (c : Dev nD) : BodyObligation (dat2 (F := F) V c) (defs₀ (F := F)) Variants.none () Set.univ := fun t => by
  show iprop((dat2 V c).Φ t.castSucc ∗ (dat2 V c).owesAt () t.castSucc
      ∗ bigSep Finset.univ fun w : Fin cfg2.W => iprop(∃ d, owns (c : Thread nD τ) ((cfg2.win w).stage (cfg2.slots t w)) fullShare ((dat2 V c).before w t d)))
    ⊢ wp frame (wpE (defs₀ (F := F)) Variants.none c none) Set.univ (bodyAt2 t) fun _ =>
      iprop((dat2 V c).Φ t.castSucc ∗ (dat2 V c).owesAt () t.castSucc
        ∗ bigSep Finset.univ fun w : Fin cfg2.W => owns (c : Thread nD τ) ((cfg2.win w).stage (cfg2.slots t w)) fullShare ((dat2 V c).after w t))
  rw [bigSep_W2, bigSep_W2]
  simp only [before2_0, before2_1, before2_2, before2_3, before2_4, before2_5]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) (st2_0 t) _ (st2_1 t) _ (st2_2 t) _ (st2_3 t) _ (st2_4 t) _ (st2_5 t) _ (st2_6 t) _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

end Cert.KernelIdeal.Hand
-- ==== Proof.Ki.R3.lean ====
import proofs.«408468_j77438260346965_2_alg».proof.Proof.Gen.KernelIdeal.Launch
import proofs.«408468_j77438260346965_2_alg».proof.Proof.Gen.KernelIdeal.Skeleton
import proofs.«408468_j77438260346965_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4096x16 := Rect.unit (s := S4096x16) ![0, 0] S4096x16.size inb_S4096x16_S4096x16_0_0
abbrev r3_1 : Rect S16x16 := Rect.unit (s := S16x16) ![0, 0] S16x16.size inb_S16x16_S16x16_0_0
abbrev r3_2 : Rect S1x16 := Rect.unit (s := S1x16) ![0, 0] S1x16.size inb_S1x16_S1x16_0_0

/-- The block the body stores, as a function of the nine blocks it reads. -/
def out3_9 (x0 x1 x2 : Vec F S4096x16 .f32) (x3 x4 x5 : Vec F S16x16 .f32) (x6 : Vec F S1x16 .f32) (x7 : Vec F S16x16 .f32)
    (x8 : Vec F S1x16 .f32) : Vec F S4096x16 .f32 :=
  View.canon [⟨r3_0, k3_pay1
    (k3_pay2 (View.ld x0 r3_0) (View.ld x1 r3_0) (View.ld x2 r3_0) (View.ld x3 r3_1) (View.ld x4 r3_1) (View.ld x5 r3_1)
      (View.ld x6 r3_2) (View.ld x7 r3_1))
    (k3_pay3 (View.ld x8 r3_2))⟩]

set_option maxHeartbeats 1000000 in
/-- Run on ten whole blocks, the body returns the nine it reads unchanged and the tenth as `out3_9` of them; `Φ` and `O` are framed. -/
theorem sound_kernel3 {c : Dev nD} {E : Set ℕ} {i : grid3.Coords} {Φ O : sProp 𝕄}
    {arg1 arg2 arg3 arg10 : Memref sig .tc .vmem S4096x16 .f32} {arg4 arg5 arg6 arg8 : Memref sig .tc .vmem S16x16 .f32}
    {arg7 arg9 : Memref sig .tc .vmem S1x16 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole} {harg10 : arg10.IsWhole}
    {x0 x1 x2 y : Vec F S4096x16 .f32} {x3 x4 x5 x7 : Vec F S16x16 .f32} {x6 x8 : Vec F S1x16 .f32}
    {b0 b1 b2 b9 : Vec F S4096x16 .f32 → Vec F S4096x16 .f32} {b3 b4 b5 b7 : Vec F S16x16 .f32 → Vec F S16x16 .f32}
    {b6 b8 : Vec F S1x16 .f32 → Vec F S1x16 .f32}
    (h0 : ∀ d, b0 d = x0) (h1 : ∀ d, b1 d = x1) (h2 : ∀ d, b2 d = x2) (h3 : ∀ d, b3 d = x3) (h4 : ∀ d, b4 d = x4)
    (h5 : ∀ d, b5 d = x5) (h6 : ∀ d, b6 d = x6) (h7 : ∀ d, b7 d = x7) (h8 : ∀ d, b8 d = x8)
    (h9 : y = out3_9 x0 x1 x2 x3 x4 x5 x6 x7 x8) :
    iprop(Φ ∗ O ∗ (∃ d, owns (c : Thread nD τ) arg1 fullShare (b0 d)) ∗ (∃ d, owns (c : Thread nD τ) arg2 fullShare (b1 d)) ∗ (∃ d, owns (c : Thread nD τ) arg3 fullShare (b2 d))
        ∗ (∃ d, owns (c : Thread nD τ) arg4 fullShare (b3 d)) ∗ (∃ d, owns (c : Thread nD τ) arg5 fullShare (b4 d)) ∗ (∃ d, owns (c : Thread nD τ) arg6 fullShare (b5 d))
        ∗ (∃ d, owns (c : Thread nD τ) arg7 fullShare (b6 d)) ∗ (∃ d, owns (c : Thread nD τ) arg8 fullShare (b7 d)) ∗ (∃ d, owns (c : Thread nD τ) arg9 fullShare (b8 d)) ∗ (∃ d, owns (c : Thread nD τ) arg10 fullShare (b9 d)))
      ⊢ wp frame (wpE (defs₀ (F := F)) Variants.none c none) E
          (cc3__edge_update_kernel i arg1 harg1 arg2 harg2 arg3 harg3 arg4 harg4 arg5 harg5 arg6 harg6 arg7 harg7 arg8 harg8 arg9 harg9 arg10 harg10) fun _ =>
          iprop(Φ ∗ O ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare y) := by
  subst h9
  simp only [h0, h1, h2, h3, h4, h5, h6, h7, h8]
  simp only [cc3__edge_update_kernel_eq_skeleton]; unfold cc3__edge_update_kernel_skel
  simp only [k3_part1_eq_skeleton]; unfold k3_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
  subst hf0 hf1 hf2 hf3 hf4 hf5 hf6 hf7 hf8
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S4096x16.size (by rfl))

/-- At every point each block read is returned as found and the block written is `out3_9` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t)
        (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t =
    out3_9 (iblk3 V c 0 t) (iblk3 V c 1 t) (iblk3 V c 2 t) (iblk3 V c 3 t) (iblk3 V c 4 t) (iblk3 V c 5 t)
      (iblk3 V c 6 t) (iblk3 V c 7 t) (iblk3 V c 8 t) := by dsimp only [dat3]

theorem before3 (c : Dev nD) (w : Fin 10) (hw : w ≠ 9) (t : Fin cfg3.N) (d) : (dat3 V c).before w t d = (dat3 V c).after w t := by
  fin_cases w <;> first
    | exact absurd rfl hw
    | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  exact sound_kernel3 (before3 V c 0 (by decide) t) (before3 V c 1 (by decide) t) (before3 V c 2 (by decide) t) (before3 V c 3 (by decide) t) (before3 V c 4 (by decide) t) (before3 V c 5 (by decide) t) (before3 V c 6 (by decide) t) (before3 V c 7 (by decide) t) (before3 V c 8 (by decide) t) (by dsimp only [dat3])

end Cert.KernelIdeal.Hand

end
-- ==== Proof.Ki.R4.lean ====
import proofs.«408468_j77438260346965_2_alg».proof.Proof.Gen.KernelIdeal.Launch
import proofs.«408468_j77438260346965_2_alg».proof.Proof.Gen.KernelIdeal.Skeleton
import proofs.«408468_j77438260346965_2_alg».proof.Proof.Gen.KernelIdeal.Points
import Idealize.ShloMosaic.Lib.Pipeline.FrameBody
import Idealize.ShloMosaic.Lib.Pipeline.FrameSuffix
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev r4_0 : Rect S4096x16 := Rect.unit (s := S4096x16) ![0, 0] S4096x16.size inb_S4096x16_S4096x16_0_0
abbrev r4_1 : Rect S16x16 := Rect.unit (s := S16x16) ![0, 0] S16x16.size inb_S16x16_S16x16_0_0
abbrev r4_2 : Rect S1x16 := Rect.unit (s := S1x16) ![0, 0] S1x16.size inb_S1x16_S1x16_0_0

/-- The body reads the seven input tiles whole and stores one value over the whole output tile. -/
def out4_7 (x0 : Vec F S4096x16 .f32) (x1 : Vec F S4096x16 .f32) (x2 : Vec F S16x16 .f32) (x3 : Vec F S16x16 .f32) (x4 : Vec F S1x16 .f32) (x5 : Vec F S16x16 .f32) (x6 : Vec F S1x16 .f32) : Vec F S4096x16 .f32 :=
  View.canon [⟨r4_0, k4_pay1 (View.ld x0 r4_0) (View.ld x1 r4_0) (View.ld x2 r4_1) (View.ld x3 r4_1) (View.ld x4 r4_2) (View.ld x5 r4_1) (View.ld x6 r4_2)⟩]

theorem cover4_7 (p0 : Vec F S4096x16 .f32) (y : S4096x16.Idx) :
    ∃ pc ∈ ([⟨r4_0, p0⟩] : List (View.Piece (Elt F) S4096x16 .f32)), y ∈ pc.1.set :=
  View.cover_of_tiled [⟨r4_0, p0⟩] S4096x16.size (by rfl) y

set_option maxHeartbeats 1000000 in
/-- The body keeps the seven input tiles and leaves `out4_7` of them in the output tile, whatever that held. -/
theorem sound_kernel4 (c : Dev nD) (E : Set ℕ) (i : grid4.Coords) (arg1 : Memref sig .tc .vmem S4096x16 .f32) (harg1 : arg1.IsWhole) (arg2 : Memref sig .tc .vmem S4096x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S4096x16 .f32) (harg8 : arg8.IsWhole)
    (x0 : Vec F S4096x16 .f32) (x1 : Vec F S4096x16 .f32) (x2 : Vec F S16x16 .f32) (x3 : Vec F S16x16 .f32) (x4 : Vec F S1x16 .f32) (x5 : Vec F S16x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__node_update_kernel i arg1 harg1 arg2 harg2 arg3 harg3 arg4 harg4 arg5 harg5 arg6 harg6 arg7 harg7 arg8 harg8) K := by
  simp only [cc4__node_update_kernel_eq_skeleton]; unfold cc4__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)
/-- The same for any program equal to the body, under a frame, each input tile handed over beneath a binder its contents do not mention. -/
theorem sound_body4 (kern : (i : grid4.Coords) → (arg1 : Memref sig .tc .vmem S4096x16 .f32) → arg1.IsWhole → (arg2 : Memref sig .tc .vmem S4096x16 .f32) → arg2.IsWhole → (arg3 : Memref sig .tc .vmem S16x16 .f32) → arg3.IsWhole → (arg4 : Memref sig .tc .vmem S16x16 .f32) → arg4.IsWhole → (arg5 : Memref sig .tc .vmem S1x16 .f32) → arg5.IsWhole → (arg6 : Memref sig .tc .vmem S16x16 .f32) → arg6.IsWhole → (arg7 : Memref sig .tc .vmem S1x16 .f32) → arg7.IsWhole → (arg8 : Memref sig .tc .vmem S4096x16 .f32) → arg8.IsWhole → Prog (TpuEff nD τ sig (Elt F) Λ₀ .tc) PUnit) (hk : kern = cc4__node_update_kernel) (c : Dev nD) (i : grid4.Coords) (arg1 : Memref sig .tc .vmem S4096x16 .f32) (harg1 : arg1.IsWhole) (arg2 : Memref sig .tc .vmem S4096x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S4096x16 .f32) (harg8 : arg8.IsWhole)
    (x0 : Vec F S4096x16 .f32) (x1 : Vec F S4096x16 .f32) (x2 : Vec F S16x16 .f32) (x3 : Vec F S16x16 .f32) (x4 : Vec F S1x16 .f32) (x5 : Vec F S16x16 .f32) (x6 : Vec F S1x16 .f32) {β0 β1 β2 β3 β4 β5 β6 β7 : Type} (g : β7 → Vec F S4096x16 .f32) (R R' : sProp 𝕄) :
    iprop(R ∗ R' ∗ (∃ _ : β0, owns (c : Thread nD τ) arg1 fullShare x0) ∗ (∃ _ : β1, owns (c : Thread nD τ) arg2 fullShare x1) ∗ (∃ _ : β2, owns (c : Thread nD τ) arg3 fullShare x2) ∗ (∃ _ : β3, owns (c : Thread nD τ) arg4 fullShare x3) ∗ (∃ _ : β4, owns (c : Thread nD τ) arg5 fullShare x4) ∗ (∃ _ : β5, owns (c : Thread nD τ) arg6 fullShare x5) ∗ (∃ _ : β6, owns (c : Thread nD τ) arg7 fullShare x6) ∗ (∃ d, owns (c : Thread nD τ) arg8 fullShare (g d)))
      ⊢ wp frame (wpE (defs₀ (F := F)) Variants.none c none) Set.univ (kern i arg1 harg1 arg2 harg2 arg3 harg3 arg4 harg4 arg5 harg5 arg6 harg6 arg7 harg7 arg8 harg8) fun _ =>
          iprop(R ∗ R' ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) := by
  subst hk
  iintro ⟨HR, HR', ⟨%_, H0⟩, ⟨%_, H1⟩, ⟨%_, H2⟩, ⟨%_, H3⟩, ⟨%_, H4⟩, ⟨%_, H5⟩, ⟨%_, H6⟩, ⟨%_, H7⟩⟩
  iapply (sound_kernel4 c Set.univ i arg1 harg1 arg2 harg2 arg3 harg3 arg4 harg4 arg5 harg5 arg6 harg6 arg7 harg7 arg8 harg8 x0 x1 x2 x3 x4 x5 x6 _)
  iframe
  isplitl [H7]
  · iexists _; iexact H7
  iintro H; iexact H

/-- Window `w`'s block at point `t` of the arrays `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- After the body each input tile holds its block, the output tile `out4_7` of the seven input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := rfl

theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by
  dsimp only [dat4]

/-- For an input window the contents before the body at a point are the contents after it: the body writes the output only. -/
theorem before4 (c : Dev nD) : ∀ w : Fin cfg4.W, (cfg4.win w).isOut = false → ∀ (t : Fin cfg4.N) (d),
    (dat4 V c).before w t d = (dat4 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat4 V c).before_in_eq_fetched _ rfl (fun _ => rfl) (fun _ _ _ => rfl) (fun _ => rfl) t d
  | ⟨7, _⟩, h, _, _ => nomatch h

theorem body_obligation4 (c : Dev nD) : BodyObligation (dat4 (F := F) V c) (defs₀ (F := F)) Variants.none () Set.univ := fun t => by
  rw [bigSep_W4, bigSep_W4]
  simp (disch := exact rfl) only [before4 V c]
  rw [after4_7]
  show _ ⊢ wp _ _ _ (bodyAt4 t) _
  exact sound_body4 cc4__node_update_kernel rfl c _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _ _ _

end Cert.KernelIdeal.Hand
-- ==== Proof.Ki.R5.lean ====
import proofs.«408468_j77438260346965_2_alg».proof.Proof.Ki.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- At every point each block read is returned as found and the block written is `out3_9` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out3_9 (iblk5 V c 0 t) (iblk5 V c 1 t) (iblk5 V c 2 t) (iblk5 V c 3 t) (iblk5 V c 4 t) (iblk5 V c 5 t)
        (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_9 (c : Dev nD) (t : Fin cfg5.N) : (dat5 V c).after 9 t =
    out3_9 (iblk5 V c 0 t) (iblk5 V c 1 t) (iblk5 V c 2 t) (iblk5 V c 3 t) (iblk5 V c 4 t) (iblk5 V c 5 t)
      (iblk5 V c 6 t) (iblk5 V c 7 t) (iblk5 V c 8 t) := by dsimp only [dat5]

theorem before5 (c : Dev nD) (w : Fin 10) (hw : w ≠ 9) (t : Fin cfg5.N) (d) : (dat5 V c).before w t d = (dat5 V c).after w t := by
  fin_cases w <;> first
    | exact absurd rfl hw
    | exact (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  have e : cc5__edge_update_kernel (F := F) = cc3__edge_update_kernel (F := F) := rfl
  show _ ⊢ wp _ _ _ (bodyAt5 t) _
  unfold bodyAt5
  rw [e]
  exact sound_kernel3 (before5 V c 0 (by decide) t) (before5 V c 1 (by decide) t) (before5 V c 2 (by decide) t) (before5 V c 3 (by decide) t) (before5 V c 4 (by decide) t) (before5 V c 5 (by decide) t) (before5 V c 6 (by decide) t) (before5 V c 7 (by decide) t) (before5 V c 8 (by decide) t) (by dsimp only [dat5])

end Cert.KernelIdeal.Hand

end
-- ==== Proof.Ki.R6.lean ====
import proofs.«408468_j77438260346965_2_alg».proof.Proof.Ki.R4
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- After the body each input tile holds its block, the output tile `out4_7` of the seven input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out4_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t = out4_7 (iblk6 V c 0 t) (iblk6 V c 1 t) (iblk6 V c 2 t) (iblk6 V c 3 t) (iblk6 V c 4 t) (iblk6 V c 5 t) (iblk6 V c 6 t) := by
  dsimp only [dat6]

/-- For an input window the contents before the body at a point are the contents after it: the body writes the output only. -/
theorem before6 (c : Dev nD) : ∀ w : Fin cfg6.W, (cfg6.win w).isOut = false → ∀ (t : Fin cfg6.N) (d),
    (dat6 V c).before w t d = (dat6 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat6 V c).before_in_eq_fetched _ rfl (fun _ => rfl) (fun _ _ _ => rfl) (fun _ => rfl) t d
  | ⟨7, _⟩, h, _, _ => nomatch h

theorem body_obligation6 (c : Dev nD) : BodyObligation (dat6 (F := F) V c) (defs₀ (F := F)) Variants.none () Set.univ := fun t => by
  rw [bigSep_W6, bigSep_W6]
  simp (disch := exact rfl) only [before6 V c]
  rw [after6_7]
  show _ ⊢ wp _ _ _ (bodyAt6 t) _
  exact sound_body4 cc6__node_update_kernel rfl c _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _ _ _

end Cert.KernelIdeal.Hand
-- ==== Proof.Ki.R7.lean ====
import proofs.«408468_j77438260346965_2_alg».proof.Proof.Ki.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- At every point each block read is returned as found and the block written is `out3_9` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out3_9 (iblk7 V c 0 t) (iblk7 V c 1 t) (iblk7 V c 2 t) (iblk7 V c 3 t) (iblk7 V c 4 t) (iblk7 V c 5 t)
        (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_9 (c : Dev nD) (t : Fin cfg7.N) : (dat7 V c).after 9 t =
    out3_9 (iblk7 V c 0 t) (iblk7 V c 1 t) (iblk7 V c 2 t) (iblk7 V c 3 t) (iblk7 V c 4 t) (iblk7 V c 5 t)
      (iblk7 V c 6 t) (iblk7 V c 7 t) (iblk7 V c 8 t) := by dsimp only [dat7]

theorem before7 (c : Dev nD) (w : Fin 10) (hw : w ≠ 9) (t : Fin cfg7.N) (d) : (dat7 V c).before w t d = (dat7 V c).after w t := by
  fin_cases w <;> first
    | exact absurd rfl hw
    | exact (dat7 V c).before_in_eq_fetched _ rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  have e : cc7__edge_update_kernel (F := F) = cc3__edge_update_kernel (F := F) := rfl
  show _ ⊢ wp _ _ _ (bodyAt7 t) _
  unfold bodyAt7
  rw [e]
  exact sound_kernel3 (before7 V c 0 (by decide) t) (before7 V c 1 (by decide) t) (before7 V c 2 (by decide) t) (before7 V c 3 (by decide) t) (before7 V c 4 (by decide) t) (before7 V c 5 (by decide) t) (before7 V c 6 (by decide) t) (before7 V c 7 (by decide) t) (before7 V c 8 (by decide) t) (by dsimp only [dat7])

end Cert.KernelIdeal.Hand

end
-- ==== Proof.Ki.R8.lean ====
import proofs.«408468_j77438260346965_2_alg».proof.Proof.Ki.R4
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- After the body each input tile holds its block, the output tile `out4_7` of the seven input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out4_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := rfl

theorem after8_7 (c : Dev nD) (t : Fin cfg8.N) : (dat8 V c).after 7 t = out4_7 (iblk8 V c 0 t) (iblk8 V c 1 t) (iblk8 V c 2 t) (iblk8 V c 3 t) (iblk8 V c 4 t) (iblk8 V c 5 t) (iblk8 V c 6 t) := by
  dsimp only [dat8]

/-- For an input window the contents before the body at a point are the contents after it: the body writes the output only. -/
theorem before8 (c : Dev nD) : ∀ w : Fin cfg8.W, (cfg8.win w).isOut = false → ∀ (t : Fin cfg8.N) (d),
    (dat8 V c).before w t d = (dat8 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat8 V c).before_in_eq_fetched _ rfl (fun _ => rfl) (fun _ _ _ => rfl) (fun _ => rfl) t d
  | ⟨7, _⟩, h, _, _ => nomatch h

theorem body_obligation8 (c : Dev nD) : BodyObligation (dat8 (F := F) V c) (defs₀ (F := F)) Variants.none () Set.univ := fun t => by
  rw [bigSep_W8, bigSep_W8]
  simp (disch := exact rfl) only [before8 V c]
  rw [after8_7]
  show _ ⊢ wp _ _ _ (bodyAt8 t) _
  exact sound_body4 cc8__node_update_kernel rfl c _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _ _ _

end Cert.KernelIdeal.Hand
-- ==== Proof.Ki.R9.lean ====
import proofs.«408468_j77438260346965_2_alg».proof.Proof.Ki.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- At every point each block read is returned as found and the block written is `out3_9` of them. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out3_9 (iblk9 V c 0 t) (iblk9 V c 1 t) (iblk9 V c 2 t) (iblk9 V c 3 t) (iblk9 V c 4 t) (iblk9 V c 5 t)
        (iblk9 V c 6 t) (iblk9 V c 7 t) (iblk9 V c 8 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_9 (c : Dev nD) (t : Fin cfg9.N) : (dat9 V c).after 9 t =
    out3_9 (iblk9 V c 0 t) (iblk9 V c 1 t) (iblk9 V c 2 t) (iblk9 V c 3 t) (iblk9 V c 4 t) (iblk9 V c 5 t)
      (iblk9 V c 6 t) (iblk9 V c 7 t) (iblk9 V c 8 t) := by dsimp only [dat9]

theorem before9 (c : Dev nD) (w : Fin 10) (hw : w ≠ 9) (t : Fin cfg9.N) (d) : (dat9 V c).before w t d = (dat9 V c).after w t := by
  fin_cases w <;> first
    | exact absurd rfl hw
    | exact (dat9 V c).before_in_eq_fetched _ rfl (fun _ => rfl) (fun _ _ _ => rfl) (fun _ => rfl) t d

theorem body_obligation9 (c : Dev nD) : BodyObligation (dat9 (F := F) V c) (defs₀ (F := F)) Variants.none () Set.univ := fun t => by
  rw [bigSep_W9, bigSep_W9]
  have e : cc9__edge_update_kernel (F := F) = cc3__edge_update_kernel (F := F) := rfl
  show _ ⊢ wp _ _ _ (bodyAt9 t) _
  unfold bodyAt9
  rw [e]
  exact sound_kernel3 (before9 V c 0 (by decide) t) (before9 V c 1 (by decide) t) (before9 V c 2 (by decide) t) (before9 V c 3 (by decide) t) (before9 V c 4 (by decide) t) (before9 V c 5 (by decide) t) (before9 V c 6 (by decide) t) (before9 V c 7 (by decide) t) (before9 V c 8 (by decide) t) (by dsimp only [dat9])

end Cert.KernelIdeal.Hand

end
-- ==== Proof.Ki.R10.lean ====
import proofs.«408468_j77438260346965_2_alg».proof.Proof.Ki.R4
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- After the body each input tile holds its block, the output tile `out4_7` of the seven input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out4_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := rfl

theorem after10_7 (c : Dev nD) (t : Fin cfg10.N) : (dat10 V c).after 7 t = out4_7 (iblk10 V c 0 t) (iblk10 V c 1 t) (iblk10 V c 2 t) (iblk10 V c 3 t) (iblk10 V c 4 t) (iblk10 V c 5 t) (iblk10 V c 6 t) := by
  dsimp only [dat10]

/-- For an input window the contents before the body at a point are the contents after it: the body writes the output only. -/
theorem before10 (c : Dev nD) : ∀ w : Fin cfg10.W, (cfg10.win w).isOut = false → ∀ (t : Fin cfg10.N) (d),
    (dat10 V c).before w t d = (dat10 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat10 V c).before_in_eq_fetched _ rfl (fun _ => rfl) (fun _ _ _ => rfl) (fun _ => rfl) t d
  | ⟨7, _⟩, h, _, _ => nomatch h

theorem body_obligation10 (c : Dev nD) : BodyObligation (dat10 (F := F) V c) (defs₀ (F := F)) Variants.none () Set.univ := fun t => by
  rw [bigSep_W10, bigSep_W10]
  simp (disch := exact rfl) only [before10 V c]
  rw [after10_7]
  show _ ⊢ wp _ _ _ (bodyAt10 t) _
  exact sound_body4 cc10__node_update_kernel rfl c _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _ _ _

end Cert.KernelIdeal.Hand
-- ==== Proof.Ki.R11.lean ====
import proofs.«408468_j77438260346965_2_alg».proof.Proof.Ki.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- At every point each block read is returned as found and the block written is `out3_9` of them. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out3_9 (iblk11 V c 0 t) (iblk11 V c 1 t) (iblk11 V c 2 t) (iblk11 V c 3 t) (iblk11 V c 4 t) (iblk11 V c 5 t)
        (iblk11 V c 6 t) (iblk11 V c 7 t) (iblk11 V c 8 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_9 (c : Dev nD) (t : Fin cfg11.N) : (dat11 V c).after 9 t =
    out3_9 (iblk11 V c 0 t) (iblk11 V c 1 t) (iblk11 V c 2 t) (iblk11 V c 3 t) (iblk11 V c 4 t) (iblk11 V c 5 t)
      (iblk11 V c 6 t) (iblk11 V c 7 t) (iblk11 V c 8 t) := by dsimp only [dat11]

theorem before11 (c : Dev nD) (w : Fin 10) (hw : w ≠ 9) (t : Fin cfg11.N) (d) : (dat11 V c).before w t d = (dat11 V c).after w t := by
  fin_cases w <;> first
    | exact absurd rfl hw
    | exact (dat11 V c).before_in_eq_fetched _ rfl (fun _ => rfl) (fun _ _ _ => rfl) (fun _ => rfl) t d

theorem body_obligation11 (c : Dev nD) : BodyObligation (dat11 (F := F) V c) (defs₀ (F := F)) Variants.none () Set.univ := fun t => by
  rw [bigSep_W11, bigSep_W11]
  have e : cc11__edge_update_kernel (F := F) = cc3__edge_update_kernel (F := F) := rfl
  show _ ⊢ wp _ _ _ (bodyAt11 t) _
  unfold bodyAt11
  rw [e]
  exact sound_kernel3 (before11 V c 0 (by decide) t) (before11 V c 1 (by decide) t) (before11 V c 2 (by decide) t) (before11 V c 3 (by decide) t) (before11 V c 4 (by decide) t) (before11 V c 5 (by decide) t) (before11 V c 6 (by decide) t) (before11 V c 7 (by decide) t) (before11 V c 8 (by decide) t) (by dsimp only [dat11])

end Cert.KernelIdeal.Hand

end
-- ==== Proof.Ki.R12.lean ====
import proofs.«408468_j77438260346965_2_alg».proof.Proof.Ki.R4
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block at point `t` of the arrays `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- After the body each input tile holds its block, the output tile `out4_7` of the seven input blocks. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out4_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := rfl

theorem after12_7 (c : Dev nD) (t : Fin cfg12.N) : (dat12 V c).after 7 t = out4_7 (iblk12 V c 0 t) (iblk12 V c 1 t) (iblk12 V c 2 t) (iblk12 V c 3 t) (iblk12 V c 4 t) (iblk12 V c 5 t) (iblk12 V c 6 t) := by
  dsimp only [dat12]

/-- For an input window the contents before the body at a point are the contents after it: the body writes the output only. -/
theorem before12 (c : Dev nD) : ∀ w : Fin cfg12.W, (cfg12.win w).isOut = false → ∀ (t : Fin cfg12.N) (d),
    (dat12 V c).before w t d = (dat12 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat12 V c).before_in_eq_fetched _ rfl (fun _ => rfl) (fun _ _ _ => rfl) (fun _ => rfl) t d
  | ⟨7, _⟩, h, _, _ => nomatch h

theorem body_obligation12 (c : Dev nD) : BodyObligation (dat12 (F := F) V c) (defs₀ (F := F)) Variants.none () Set.univ := fun t => by
  rw [bigSep_W12, bigSep_W12]
  simp (disch := exact rfl) only [before12 V c]
  rw [after12_7]
  show _ ⊢ wp _ _ _ (bodyAt12 t) _
  exact sound_body4 cc12__node_update_kernel rfl c _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _ _ _

end Cert.KernelIdeal.Hand
-- ==== Proof.Ki.R13.lean ====
import proofs.«408468_j77438260346965_2_alg».proof.Proof.Gen.KernelIdeal.Launch
import proofs.«408468_j77438260346965_2_alg».proof.Proof.Gen.KernelIdeal.Skeleton
import proofs.«408468_j77438260346965_2_alg».proof.Proof.Gen.KernelIdeal.Points
import Idealize.ShloMosaic.Lib.Pipeline.FrameBody
import Idealize.ShloMosaic.Lib.Pipeline.FrameSuffix
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- Window w's block of its array at grid point t.
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_0 : Rect S4096x16 := Rect.unit (s := S4096x16) ![0, 0] S4096x16.size inb_S4096x16_S4096x16_0_0
abbrev r13_1 : Rect S16x16 := Rect.unit (s := S16x16) ![0, 0] S16x16.size inb_S16x16_S16x16_0_0
abbrev r13_2 : Rect S1x16 := Rect.unit (s := S1x16) ![0, 0] S1x16.size inb_S1x16_S1x16_0_0
abbrev r13_3 : Rect S16x1 := Rect.unit (s := S16x1) ![0, 0] S16x1.size inb_S16x1_S16x1_0_0
abbrev r13_4 : Rect S1x1 := Rect.unit (s := S1x1) ![0, 0] S1x1.size inb_S1x1_S1x1_0_0
abbrev r13_5 : Rect S4096x1 := Rect.unit (s := S4096x1) ![0, 0] S4096x1.size inb_S4096x1_S4096x1_0_0

-- The output block as a function of the input blocks.
def out13_10 (x0 : Vec F S4096x16 .f32) (x1 : Vec F S4096x1 .f32) (x2 : Vec F S4096x1 .i32) (x3 : Vec F S4096x1 .i32) (x4 : Vec F S1x1 .f32) (x5 : Vec F S1x1 .f32) (x6 : Vec F S16x16 .f32) (x7 : Vec F S1x16 .f32) (x8 : Vec F S16x1 .f32) (x9 : Vec F S1x1 .f32) : Vec F S4096x1 .f32 :=
  View.canon [⟨r13_5, k13_pay1 (k13_pay2 (View.ld x0 r13_0) (View.ld x6 r13_1) (View.ld x7 r13_2) (View.ld x8 r13_3) (View.ld x9 r13_4) (View.ld x4 r13_4) (View.ld x5 r13_4) (View.ld x1 r13_5)) (k13_pay3 (View.ld x2 r13_5) (View.ld x3 r13_5)) (Scalar.ofBits .f32 0x00000000#32)⟩]

-- From input blocks x the body produces the output block above and leaves the inputs as they were.
set_option maxHeartbeats 1000000 in
theorem sound_kernel13 (c : Dev nD) (E : Set ℕ) (i : grid13.Coords) (arg1 : Memref sig .tc .vmem S4096x16 .f32) (harg1 : arg1.IsWhole) (arg2 : Memref sig .tc .vmem S4096x1 .f32) (harg2 : arg2.IsWhole) (arg3 : Memref sig .tc .vmem S4096x1 .i32) (harg3 : arg3.IsWhole) (arg4 : Memref sig .tc .vmem S4096x1 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S16x16 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x1 .f32) (harg10 : arg10.IsWhole) (arg11 : Memref sig .tc .vmem S4096x1 .f32) (harg11 : arg11.IsWhole)
    (x0 : Vec F S4096x16 .f32) (x1 : Vec F S4096x1 .f32) (x2 : Vec F S4096x1 .i32) (x3 : Vec F S4096x1 .i32) (x4 : Vec F S1x1 .f32) (x5 : Vec F S1x1 .f32) (x6 : Vec F S16x16 .f32) (x7 : Vec F S1x16 .f32) (x8 : Vec F S16x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out13_10 x0 x1 x2 x3 x4 x5 x6 x7 x8 x9)) -∗ K ⟨⟩))
      ⊢ wp frame (wpE (defs₀ (F := F)) Variants.none c none) E (cc13__decode_mask_kernel i arg1 harg1 arg2 harg2 arg3 harg3 arg4 harg4 arg5 harg5 arg6 harg6 arg7 harg7 arg8 harg8 arg9 harg9 arg10 harg10 arg11 harg11) K := by
  simp only [cc13__decode_mask_kernel_eq_skeleton]; unfold cc13__decode_mask_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (View.cover_of_tiled _ S4096x1.size (by rfl))

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => iblk13 V c 7 t
    | ⟨8, _⟩ => iblk13 V c 8 t
    | ⟨9, _⟩ => iblk13 V c 9 t
    | ⟨10, _⟩ => out13_10 (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_10 (c : Dev nD) (t : Fin cfg13.N) : (dat13 V c).after 10 t = out13_10 (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d
theorem before13_2 (c : Dev nD) (t : Fin cfg13.N) (d) : (dat13 V c).before 2 t d = iblk13 V c 2 t :=
  (dat13 V c).before_in_eq_fetched 2 rfl (fun _ => rfl) (fun _ _ _ => rfl) (fun _ => rfl) t d
theorem before13_3 (c : Dev nD) (t : Fin cfg13.N) (d) : (dat13 V c).before 3 t d = iblk13 V c 3 t :=
  (dat13 V c).before_in_eq_fetched 3 rfl (fun _ => rfl) (fun _ _ _ => rfl) (fun _ => rfl) t d
theorem before13_4 (c : Dev nD) (t : Fin cfg13.N) (d) : (dat13 V c).before 4 t d = iblk13 V c 4 t :=
  (dat13 V c).before_in_eq_fetched 4 rfl (fun _ => rfl) (fun _ _ _ => rfl) (fun _ => rfl) t d
theorem before13_5 (c : Dev nD) (t : Fin cfg13.N) (d) : (dat13 V c).before 5 t d = iblk13 V c 5 t :=
  (dat13 V c).before_in_eq_fetched 5 rfl (fun _ => rfl) (fun _ _ _ => rfl) (fun _ => rfl) t d
theorem before13_6 (c : Dev nD) (t : Fin cfg13.N) (d) : (dat13 V c).before 6 t d = iblk13 V c 6 t :=
  (dat13 V c).before_in_eq_fetched 6 rfl (fun _ => rfl) (fun _ _ _ => rfl) (fun _ => rfl) t d
theorem before13_7 (c : Dev nD) (t : Fin cfg13.N) (d) : (dat13 V c).before 7 t d = iblk13 V c 7 t :=
  (dat13 V c).before_in_eq_fetched 7 rfl (fun _ => rfl) (fun _ _ _ => rfl) (fun _ => rfl) t d
theorem before13_8 (c : Dev nD) (t : Fin cfg13.N) (d) : (dat13 V c).before 8 t d = iblk13 V c 8 t :=
  (dat13 V c).before_in_eq_fetched 8 rfl (fun _ => rfl) (fun _ _ _ => rfl) (fun _ => rfl) t d
theorem before13_9 (c : Dev nD) (t : Fin cfg13.N) (d) : (dat13 V c).before 9 t d = iblk13 V c 9 t :=
  (dat13 V c).before_in_eq_fetched 9 rfl (fun _ => rfl) (fun _ _ _ => rfl) (fun _ => rfl) t d

-- The body's contract at every grid point, from the triple above.
theorem body_obligation13 (c : Dev nD) : BodyObligation (dat13 (F := F) V c) (defs₀ (F := F)) Variants.none () Set.univ := fun t => by
  show iprop((dat13 V c).Φ t.castSucc ∗ (dat13 V c).owesAt () t.castSucc
      ∗ bigSep Finset.univ fun w : Fin cfg13.W => iprop(∃ d, owns (c : Thread nD τ) ((cfg13.win w).stage (cfg13.slots t w)) fullShare ((dat13 V c).before w t d)))
    ⊢ wp frame (wpE (defs₀ (F := F)) Variants.none c none) Set.univ (bodyAt13 t) fun _ =>
      iprop((dat13 V c).Φ t.castSucc ∗ (dat13 V c).owesAt () t.castSucc
        ∗ bigSep Finset.univ fun w : Fin cfg13.W => owns (c : Thread nD τ) ((cfg13.win w).stage (cfg13.slots t w)) fullShare ((dat13 V c).after w t))
  rw [bigSep_W13, bigSep_W13]
  simp only [before13_0, before13_1, before13_2, before13_3, before13_4, before13_5, before13_6, before13_7, before13_8, before13_9]
  dsimp only [dat13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel13 c Set.univ (grid13.coords t) (st13_0 t) _ (st13_1 t) _ (st13_2 t) _ (st13_3 t) _ (st13_4 t) _ (st13_5 t) _ (st13_6 t) _ (st13_7 t) _ (st13_8 t) _ (st13_9 t) _ (st13_10 t) _ (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) _)
  iframe
  isplitl [H10]; · iexists _; iexact H10
  iintro ⟨H0, H1, H2, H3, H4, H5, H6, H7, H8, H9, H10⟩
  iframe

end Cert.KernelIdeal.Hand
-- ==== Proof.Ki.Run.lean ====
import proofs.«408468_j77438260346965_2_alg».proof.Proof.Ki.RegionsP
import proofs.«408468_j77438260346965_2_alg».proof.Proof.Ki.R0
import proofs.«408468_j77438260346965_2_alg».proof.Proof.Ki.R1
import proofs.«408468_j77438260346965_2_alg».proof.Proof.Ki.R2
import proofs.«408468_j77438260346965_2_alg».proof.Proof.Ki.R3
import proofs.«408468_j77438260346965_2_alg».proof.Proof.Ki.R4
import proofs.«408468_j77438260346965_2_alg».proof.Proof.Ki.R5
import proofs.«408468_j77438260346965_2_alg».proof.Proof.Ki.R6
import proofs.«408468_j77438260346965_2_alg».proof.Proof.Ki.R7
import proofs.«408468_j77438260346965_2_alg».proof.Proof.Ki.R8
import proofs.«408468_j77438260346965_2_alg».proof.Proof.Ki.R9
import proofs.«408468_j77438260346965_2_alg».proof.Proof.Ki.R10
import proofs.«408468_j77438260346965_2_alg».proof.Proof.Ki.R11
import proofs.«408468_j77438260346965_2_alg».proof.Proof.Ki.R12
import proofs.«408468_j77438260346965_2_alg».proof.Proof.Ki.R13
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) :
    (c : Dev nD) → (b : Ref sig .tc) → Buf (Elt F) ((c : Thread nD τ).loc b) := fun c b => W c b

abbrev W0 (c : Dev nD) : Valuation τ sig (Elt F) := fun b => m (c, b)

abbrev W1 (c : Dev nD) : Valuation τ sig (Elt F) := StableHlo.after hostOps0 (W0 m c)

def W2 (c : Dev nD) : Valuation τ sig (Elt F) :=
  Function.update (W1 m c) main_v1 ((dat0 (atTc (W1 m)) c).arrAt 1 cfg0.N)

abbrev W3 (c : Dev nD) : Valuation τ sig (Elt F) := StableHlo.after hostOps1 (W2 m c)

def W4 (c : Dev nD) : Valuation τ sig (Elt F) :=
  Function.update (W3 m c) main_v4 ((dat1 (atTc (W3 m)) c).arrAt 5 cfg1.N)

abbrev W5 (c : Dev nD) : Valuation τ sig (Elt F) := StableHlo.after hostOps2 (W4 m c)

def W6 (c : Dev nD) : Valuation τ sig (Elt F) :=
  Function.update (W5 m c) main_v7 ((dat2 (atTc (W5 m)) c).arrAt 6 cfg2.N)

abbrev W7 (c : Dev nD) : Valuation τ sig (Elt F) := StableHlo.after hostOps3 (W6 m c)

abbrev W8 (c : Dev nD) : Valuation τ sig (Elt F) := StableHlo.after hostOps3_1 (W7 m c)

abbrev W9 (c : Dev nD) : Valuation τ sig (Elt F) := StableHlo.after hostOps3_2 (W8 m c)

abbrev W10 (c : Dev nD) : Valuation τ sig (Elt F) := StableHlo.after hostOps3_3 (W9 m c)

def W11 (c : Dev nD) : Valuation τ sig (Elt F) :=
  Function.update (W10 m c) main_v17 ((dat3 (atTc (W10 m)) c).arrAt 9 cfg3.N)

abbrev W12 (c : Dev nD) : Valuation τ sig (Elt F) := StableHlo.after hostOps4 (W11 m c)

def W13 (c : Dev nD) : Valuation τ sig (Elt F) :=
  Function.update (W12 m c) main_v25 ((dat4 (atTc (W12 m)) c).arrAt 7 cfg4.N)

abbrev W14 (c : Dev nD) : Valuation τ sig (Elt F) := StableHlo.after hostOps5 (W13 m c)

abbrev W15 (c : Dev nD) : Valuation τ sig (Elt F) := StableHlo.after hostOps5_1 (W14 m c)

abbrev W16 (c : Dev nD) : Valuation τ sig (Elt F) := StableHlo.after hostOps5_2 (W15 m c)

def W17 (c : Dev nD) : Valuation τ sig (Elt F) :=
  Function.update (W16 m c) main_v33 ((dat5 (atTc (W16 m)) c).arrAt 9 cfg5.N)

abbrev W18 (c : Dev nD) : Valuation τ sig (Elt F) := StableHlo.after hostOps6 (W17 m c)

def W19 (c : Dev nD) : Valuation τ sig (Elt F) :=
  Function.update (W18 m c) main_v41 ((dat6 (atTc (W18 m)) c).arrAt 7 cfg6.N)

abbrev W20 (c : Dev nD) : Valuation τ sig (Elt F) := StableHlo.after hostOps7 (W19 m c)

abbrev W21 (c : Dev nD) : Valuation τ sig (Elt F) := StableHlo.after hostOps7_1 (W20 m c)

abbrev W22 (c : Dev nD) : Valuation τ sig (Elt F) := StableHlo.after hostOps7_2 (W21 m c)

def W23 (c : Dev nD) : Valuation τ sig (Elt F) :=
  Function.update (W22 m c) main_v49 ((dat7 (atTc (W22 m)) c).arrAt 9 cfg7.N)

abbrev W24 (c : Dev nD) : Valuation τ sig (Elt F) := StableHlo.after hostOps8 (W23 m c)

def W25 (c : Dev nD) : Valuation τ sig (Elt F) :=
  Function.update (W24 m c) main_v57 ((dat8 (atTc (W24 m)) c).arrAt 7 cfg8.N)

abbrev W26 (c : Dev nD) : Valuation τ sig (Elt F) := StableHlo.after hostOps9 (W25 m c)

abbrev W27 (c : Dev nD) : Valuation τ sig (Elt F) := StableHlo.after hostOps9_1 (W26 m c)

abbrev W28 (c : Dev nD) : Valuation τ sig (Elt F) := StableHlo.after hostOps9_2 (W27 m c)

def W29 (c : Dev nD) : Valuation τ sig (Elt F) :=
  Function.update (W28 m c) main_v65 ((dat9 (atTc (W28 m)) c).arrAt 9 cfg9.N)

abbrev W30 (c : Dev nD) : Valuation τ sig (Elt F) := StableHlo.after hostOps10 (W29 m c)

def W31 (c : Dev nD) : Valuation τ sig (Elt F) :=
  Function.update (W30 m c) main_v73 ((dat10 (atTc (W30 m)) c).arrAt 7 cfg10.N)

abbrev W32 (c : Dev nD) : Valuation τ sig (Elt F) := StableHlo.after hostOps11 (W31 m c)

abbrev W33 (c : Dev nD) : Valuation τ sig (Elt F) := StableHlo.after hostOps11_1 (W32 m c)

abbrev W34 (c : Dev nD) : Valuation τ sig (Elt F) := StableHlo.after hostOps11_2 (W33 m c)

def W35 (c : Dev nD) : Valuation τ sig (Elt F) :=
  Function.update (W34 m c) main_v81 ((dat11 (atTc (W34 m)) c).arrAt 9 cfg11.N)

abbrev W36 (c : Dev nD) : Valuation τ sig (Elt F) := StableHlo.after hostOps12 (W35 m c)

def W37 (c : Dev nD) : Valuation τ sig (Elt F) :=
  Function.update (W36 m c) main_v89 ((dat12 (atTc (W36 m)) c).arrAt 7 cfg12.N)

abbrev W38 (c : Dev nD) : Valuation τ sig (Elt F) := StableHlo.after hostOps13 (W37 m c)

def W39 (c : Dev nD) : Valuation τ sig (Elt F) :=
  Function.update (W38 m c) main_v128 ((dat13 (atTc (W38 m)) c).arrAt 10 cfg13.N)

abbrev W40 (c : Dev nD) : Valuation τ sig (Elt F) := StableHlo.after hostOps14 (W39 m c)

theorem W2_out (c : Dev nD) : W2 m c main_v1 = (dat0 (atTc (W1 m)) c).arrAt 1 cfg0.N := by
  unfold W2; exact Function.update_self _ _ _
theorem W2_of_ne (c : Dev nD) (b : Ref sig .tc) (h : b ≠ main_v1) : W2 m c b = W1 m c b := by
  unfold W2; exact Function.update_of_ne (StableHlo.devRef_ne_of_ne h) _ _
theorem W4_out (c : Dev nD) : W4 m c main_v4 = (dat1 (atTc (W3 m)) c).arrAt 5 cfg1.N := by
  unfold W4; exact Function.update_self _ _ _
theorem W4_of_ne (c : Dev nD) (b : Ref sig .tc) (h : b ≠ main_v4) : W4 m c b = W3 m c b := by
  unfold W4; exact Function.update_of_ne (StableHlo.devRef_ne_of_ne h) _ _
theorem W6_out (c : Dev nD) : W6 m c main_v7 = (dat2 (atTc (W5 m)) c).arrAt 6 cfg2.N := by
  unfold W6; exact Function.update_self _ _ _
theorem W6_of_ne (c : Dev nD) (b : Ref sig .tc) (h : b ≠ main_v7) : W6 m c b = W5 m c b := by
  unfold W6; exact Function.update_of_ne (StableHlo.devRef_ne_of_ne h) _ _
theorem W11_out (c : Dev nD) : W11 m c main_v17 = (dat3 (atTc (W10 m)) c).arrAt 9 cfg3.N := by
  unfold W11; exact Function.update_self _ _ _
theorem W11_of_ne (c : Dev nD) (b : Ref sig .tc) (h : b ≠ main_v17) : W11 m c b = W10 m c b := by
  unfold W11; exact Function.update_of_ne (StableHlo.devRef_ne_of_ne h) _ _
theorem W13_out (c : Dev nD) : W13 m c main_v25 = (dat4 (atTc (W12 m)) c).arrAt 7 cfg4.N := by
  unfold W13; exact Function.update_self _ _ _
theorem W13_of_ne (c : Dev nD) (b : Ref sig .tc) (h : b ≠ main_v25) : W13 m c b = W12 m c b := by
  unfold W13; exact Function.update_of_ne (StableHlo.devRef_ne_of_ne h) _ _
theorem W17_out (c : Dev nD) : W17 m c main_v33 = (dat5 (atTc (W16 m)) c).arrAt 9 cfg5.N := by
  unfold W17; exact Function.update_self _ _ _
theorem W17_of_ne (c : Dev nD) (b : Ref sig .tc) (h : b ≠ main_v33) : W17 m c b = W16 m c b := by
  unfold W17; exact Function.update_of_ne (StableHlo.devRef_ne_of_ne h) _ _
theorem W19_out (c : Dev nD) : W19 m c main_v41 = (dat6 (atTc (W18 m)) c).arrAt 7 cfg6.N := by
  unfold W19; exact Function.update_self _ _ _
theorem W19_of_ne (c : Dev nD) (b : Ref sig .tc) (h : b ≠ main_v41) : W19 m c b = W18 m c b := by
  unfold W19; exact Function.update_of_ne (StableHlo.devRef_ne_of_ne h) _ _
theorem W23_out (c : Dev nD) : W23 m c main_v49 = (dat7 (atTc (W22 m)) c).arrAt 9 cfg7.N := by
  unfold W23; exact Function.update_self _ _ _
theorem W23_of_ne (c : Dev nD) (b : Ref sig .tc) (h : b ≠ main_v49) : W23 m c b = W22 m c b := by
  unfold W23; exact Function.update_of_ne (StableHlo.devRef_ne_of_ne h) _ _
theorem W25_out (c : Dev nD) : W25 m c main_v57 = (dat8 (atTc (W24 m)) c).arrAt 7 cfg8.N := by
  unfold W25; exact Function.update_self _ _ _
theorem W25_of_ne (c : Dev nD) (b : Ref sig .tc) (h : b ≠ main_v57) : W25 m c b = W24 m c b := by
  unfold W25; exact Function.update_of_ne (StableHlo.devRef_ne_of_ne h) _ _
theorem W29_out (c : Dev nD) : W29 m c main_v65 = (dat9 (atTc (W28 m)) c).arrAt 9 cfg9.N := by
  unfold W29; exact Function.update_self _ _ _
theorem W29_of_ne (c : Dev nD) (b : Ref sig .tc) (h : b ≠ main_v65) : W29 m c b = W28 m c b := by
  unfold W29; exact Function.update_of_ne (StableHlo.devRef_ne_of_ne h) _ _
theorem W31_out (c : Dev nD) : W31 m c main_v73 = (dat10 (atTc (W30 m)) c).arrAt 7 cfg10.N := by
  unfold W31; exact Function.update_self _ _ _
theorem W31_of_ne (c : Dev nD) (b : Ref sig .tc) (h : b ≠ main_v73) : W31 m c b = W30 m c b := by
  unfold W31; exact Function.update_of_ne (StableHlo.devRef_ne_of_ne h) _ _
theorem W35_out (c : Dev nD) : W35 m c main_v81 = (dat11 (atTc (W34 m)) c).arrAt 9 cfg11.N := by
  unfold W35; exact Function.update_self _ _ _
theorem W35_of_ne (c : Dev nD) (b : Ref sig .tc) (h : b ≠ main_v81) : W35 m c b = W34 m c b := by
  unfold W35; exact Function.update_of_ne (StableHlo.devRef_ne_of_ne h) _ _
theorem W37_out (c : Dev nD) : W37 m c main_v89 = (dat12 (atTc (W36 m)) c).arrAt 7 cfg12.N := by
  unfold W37; exact Function.update_self _ _ _
theorem W37_of_ne (c : Dev nD) (b : Ref sig .tc) (h : b ≠ main_v89) : W37 m c b = W36 m c b := by
  unfold W37; exact Function.update_of_ne (StableHlo.devRef_ne_of_ne h) _ _
theorem W39_out (c : Dev nD) : W39 m c main_v128 = (dat13 (atTc (W38 m)) c).arrAt 10 cfg13.N := by
  unfold W39; exact Function.update_self _ _ _
theorem W39_of_ne (c : Dev nD) (b : Ref sig .tc) (h : b ≠ main_v128) : W39 m c b = W38 m c b := by
  unfold W39; exact Function.update_of_ne (StableHlo.devRef_ne_of_ne h) _ _

def outs : Outs (F := F) := fun J r c =>
  match J with
  | 2 => W2 m c r
  | 4 => W4 m c r
  | 6 => W6 m c r
  | 11 => W11 m c r
  | 13 => W13 m c r
  | 17 => W17 m c r
  | 19 => W19 m c r
  | 23 => W23 m c r
  | 25 => W25 m c r
  | 29 => W29 m c r
  | 31 => W31 m c r
  | 35 => W35 m c r
  | 37 => W37 m c r
  | 39 => W39 m c r
  | _ => W0 m c r

theorem V0_eq (c : Dev nD) : V0 m c = W0 m c := rfl
theorem V1_eq (c : Dev nD) : V1 m c = W1 m c := rfl
theorem V2_eq (c : Dev nD) : V2 m (outs m) c = W2 m c := by
  show Function.update (W1 m c) main_v1 (W2 m c main_v1) = W2 m c
  rw [W2_out]; rfl
theorem V3_eq (c : Dev nD) : V3 m (outs m) c = W3 m c := congrArg (StableHlo.after hostOps1) (V2_eq m c)
theorem V4_eq (c : Dev nD) : V4 m (outs m) c = W4 m c := by
  show Function.update (V3 m (outs m) c) main_v4 (W4 m c main_v4) = W4 m c
  rw [V3_eq, W4_out]; rfl
theorem V5_eq (c : Dev nD) : V5 m (outs m) c = W5 m c := congrArg (StableHlo.after hostOps2) (V4_eq m c)
theorem V6_eq (c : Dev nD) : V6 m (outs m) c = W6 m c := by
  show Function.update (V5 m (outs m) c) main_v7 (W6 m c main_v7) = W6 m c
  rw [V5_eq, W6_out]; rfl
theorem V7_eq (c : Dev nD) : V7 m (outs m) c = W7 m c := congrArg (StableHlo.after hostOps3) (V6_eq m c)
theorem V8_eq (c : Dev nD) : V8 m (outs m) c = W8 m c := congrArg (StableHlo.after hostOps3_1) (V7_eq m c)
theorem V9_eq (c : Dev nD) : V9 m (outs m) c = W9 m c := congrArg (StableHlo.after hostOps3_2) (V8_eq m c)
theorem V10_eq (c : Dev nD) : V10 m (outs m) c = W10 m c := congrArg (StableHlo.after hostOps3_3) (V9_eq m c)
theorem V11_eq (c : Dev nD) : V11 m (outs m) c = W11 m c := by
  show Function.update (V10 m (outs m) c) main_v17 (W11 m c main_v17) = W11 m c
  rw [V10_eq, W11_out]; rfl
theorem V12_eq (c : Dev nD) : V12 m (outs m) c = W12 m c := congrArg (StableHlo.after hostOps4) (V11_eq m c)
theorem V13_eq (c : Dev nD) : V13 m (outs m) c = W13 m c := by
  show Function.update (V12 m (outs m) c) main_v25 (W13 m c main_v25) = W13 m c
  rw [V12_eq, W13_out]; rfl
theorem V14_eq (c : Dev nD) : V14 m (outs m) c = W14 m c := congrArg (StableHlo.after hostOps5) (V13_eq m c)
theorem V15_eq (c : Dev nD) : V15 m (outs m) c = W15 m c := congrArg (StableHlo.after hostOps5_1) (V14_eq m c)
theorem V16_eq (c : Dev nD) : V16 m (outs m) c = W16 m c := congrArg (StableHlo.after hostOps5_2) (V15_eq m c)
theorem V17_eq (c : Dev nD) : V17 m (outs m) c = W17 m c := by
  show Function.update (V16 m (outs m) c) main_v33 (W17 m c main_v33) = W17 m c
  rw [V16_eq, W17_out]; rfl
theorem V18_eq (c : Dev nD) : V18 m (outs m) c = W18 m c := congrArg (StableHlo.after hostOps6) (V17_eq m c)
theorem V19_eq (c : Dev nD) : V19 m (outs m) c = W19 m c := by
  show Function.update (V18 m (outs m) c) main_v41 (W19 m c main_v41) = W19 m c
  rw [V18_eq, W19_out]; rfl
theorem V20_eq (c : Dev nD) : V20 m (outs m) c = W20 m c := congrArg (StableHlo.after hostOps7) (V19_eq m c)
theorem V21_eq (c : Dev nD) : V21 m (outs m) c = W21 m c := congrArg (StableHlo.after hostOps7_1) (V20_eq m c)
theorem V22_eq (c : Dev nD) : V22 m (outs m) c = W22 m c := congrArg (StableHlo.after hostOps7_2) (V21_eq m c)
theorem V23_eq (c : Dev nD) : V23 m (outs m) c = W23 m c := by
  show Function.update (V22 m (outs m) c) main_v49 (W23 m c main_v49) = W23 m c
  rw [V22_eq, W23_out]; rfl
theorem V24_eq (c : Dev nD) : V24 m (outs m) c = W24 m c := congrArg (StableHlo.after hostOps8) (V23_eq m c)
theorem V25_eq (c : Dev nD) : V25 m (outs m) c = W25 m c := by
  show Function.update (V24 m (outs m) c) main_v57 (W25 m c main_v57) = W25 m c
  rw [V24_eq, W25_out]; rfl
theorem V26_eq (c : Dev nD) : V26 m (outs m) c = W26 m c := congrArg (StableHlo.after hostOps9) (V25_eq m c)
theorem V27_eq (c : Dev nD) : V27 m (outs m) c = W27 m c := congrArg (StableHlo.after hostOps9_1) (V26_eq m c)
theorem V28_eq (c : Dev nD) : V28 m (outs m) c = W28 m c := congrArg (StableHlo.after hostOps9_2) (V27_eq m c)
theorem V29_eq (c : Dev nD) : V29 m (outs m) c = W29 m c := by
  show Function.update (V28 m (outs m) c) main_v65 (W29 m c main_v65) = W29 m c
  rw [V28_eq, W29_out]; rfl
theorem V30_eq (c : Dev nD) : V30 m (outs m) c = W30 m c := congrArg (StableHlo.after hostOps10) (V29_eq m c)
theorem V31_eq (c : Dev nD) : V31 m (outs m) c = W31 m c := by
  show Function.update (V30 m (outs m) c) main_v73 (W31 m c main_v73) = W31 m c
  rw [V30_eq, W31_out]; rfl
theorem V32_eq (c : Dev nD) : V32 m (outs m) c = W32 m c := congrArg (StableHlo.after hostOps11) (V31_eq m c)
theorem V33_eq (c : Dev nD) : V33 m (outs m) c = W33 m c := congrArg (StableHlo.after hostOps11_1) (V32_eq m c)
theorem V34_eq (c : Dev nD) : V34 m (outs m) c = W34 m c := congrArg (StableHlo.after hostOps11_2) (V33_eq m c)
theorem V35_eq (c : Dev nD) : V35 m (outs m) c = W35 m c := by
  show Function.update (V34 m (outs m) c) main_v81 (W35 m c main_v81) = W35 m c
  rw [V34_eq, W35_out]; rfl
theorem V36_eq (c : Dev nD) : V36 m (outs m) c = W36 m c := congrArg (StableHlo.after hostOps12) (V35_eq m c)
theorem V37_eq (c : Dev nD) : V37 m (outs m) c = W37 m c := by
  show Function.update (V36 m (outs m) c) main_v89 (W37 m c main_v89) = W37 m c
  rw [V36_eq, W37_out]; rfl
theorem V38_eq (c : Dev nD) : V38 m (outs m) c = W38 m c := congrArg (StableHlo.after hostOps13) (V37_eq m c)
theorem V39_eq (c : Dev nD) : V39 m (outs m) c = W39 m c := by
  show Function.update (V38 m (outs m) c) main_v128 (W39 m c main_v128) = W39 m c
  rw [V38_eq, W39_out]; rfl
theorem V40_eq (c : Dev nD) : V40 m (outs m) c = W40 m c := congrArg (StableHlo.after hostOps14) (V39_eq m c)

def pdats : (p : Fin 14) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W10 m)) c
  | ⟨4, _⟩ => fun c => dat4 (atTc (W12 m)) c
  | ⟨5, _⟩ => fun c => dat5 (atTc (W16 m)) c
  | ⟨6, _⟩ => fun c => dat6 (atTc (W18 m)) c
  | ⟨7, _⟩ => fun c => dat7 (atTc (W22 m)) c
  | ⟨8, _⟩ => fun c => dat8 (atTc (W24 m)) c
  | ⟨9, _⟩ => fun c => dat9 (atTc (W28 m)) c
  | ⟨10, _⟩ => fun c => dat10 (atTc (W30 m)) c
  | ⟨11, _⟩ => fun c => dat11 (atTc (W34 m)) c
  | ⟨12, _⟩ => fun c => dat12 (atTc (W36 m)) c
  | ⟨13, _⟩ => fun c => dat13 (atTc (W38 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Hand

end
-- ==== Proof.Ki.RegLib.lean ====
import proofs.«408468_j77438260346965_2_alg».proof.Proof.Ki.Run

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

section
variable {cfg : Pipeline.Cfg sig Λ₀} {c : Dev nD} (d : Dat τ (Elt F) Unit ℕ (UR sig nD τ) ℕ cfg c)

/-- A core owing nothing gives what proof data that owe nothing ask for at `t`. -/
theorem owes_in (t : Fin (cfg.N + 1)) (h0 : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound; rw [h0, hr]
  iintro ⟨%W, HO⟩; iexists W; isplitr; · ipureintro; exact fun _ _ => Or.inl trivial
  iexact HO

/-- Proof data that owe nothing at `t` give back a core owing nothing. -/
theorem owes_out (t : Fin (cfg.N + 1)) (h0 : d.owed t = 0) :
    d.owesAt () t ⊢ (iprop(∃ W, owes (c : Thread nD τ) (0 : CellTallies nD τ sig Unit) W) : sProp 𝕄) := by
  unfold Pipeline.Dat.owesAt Pipeline.owesWithin; rw [h0]
  iintro ⟨%W, -, HO⟩; iexists W; iexact HO
end

/-- All fourteen proof data have one shape: the same invariant, full shares, nothing owed. -/
theorem pdats_plain (p : Fin 14) (c : Dev nD) : (∀ t, (pdats m p c).Φ t = Pipeline.ΦA (cfgs p).spec c)
    ∧ (∀ w, (pdats m p c).q w = fullShare) ∧ (∀ t, (pdats m p c).owed t = 0) ∧ (pdats m p c).recorded 0 = Set.univ := by
  fin_cases p <;> exact ⟨fun _ => rfl, fun _ => rfl, fun _ => rfl, rfl⟩

set_option backward.isDefEq.respectTransparency.types false in
/-- Region `p` as a segment from contents `Win` to `Wout`, which is `Win` except at the output window's array. -/
def regOf (p : Fin 14) (Win Wout : Dev nD → Valuation τ sig (Elt F)) (o : Fin (cfgs p).W)
    (lf : Pipeline.LaunchFacts (nD := nD) (τ := τ) cfgs p)
    (hbody : ∀ c, BodyObligation (pdats m p c) (defs₀ (F := F)) 𝒱₀ () Set.univ)
    (hA : ∀ c w, (pdats m p c).A w = atTc Win c (Pipeline.arrRef (cfgs p).spec w))
    (hout : ∀ c, Wout c (Pipeline.arrRef (cfgs p).spec o) = (pdats m p c).arrAt o (cfgs p).N)
    (hne : ∀ c (b : Ref sig .tc), b ≠ Pipeline.arrRef (cfgs p).spec o → Wout c b = Win c b)
    (ho : ∀ w, w ≠ o → ((cfgs p).win w).isOut = false ∧ Pipeline.arrRef (cfgs p).spec w ≠ Pipeline.arrRef (cfgs p).spec o) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (pdats_plain m p c).2.2.1
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m) lf.win lf.arr_whole c
      ((pdats m p c).share_full (pdats_plain m p c).2.1) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owes_in _ 0 ((pdats_plain m p c).2.2.1 0) (pdats_plain m p c).2.2.2; iexact HO
    isplitl [Hp]; · iexact Hp
    iexact Hrest
  hin c := by
    refine .trans ?_ (Entails.of_eq ((pdats_plain m p c).1 0).symm); unfold Pipeline.ΦA
    iintro ⟨Hp, -, Hr⟩
    isplitl [Hr]; · iexact Hr
    iexact Hp
  hout c := by
    rw [Pipeline.ownSems0_none]; refine (Entails.of_eq ((pdats_plain m p c).1 (Fin.last _))).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).2.1)
      (atTc Win c) (atTc Wout c) ((pdats m p c).arrAt · (cfgs p).N)
      (fun w => by
        by_cases h : w = o
        · subst h; exact (hout c).symm
        · exact ((pdats m p c).arrAt_in w (ho w h).1 _).trans ((hA c w).trans (hne c _ (ho w h).2).symm))
      fun b hb => hne c b fun h => hb (h ▸ Finset.mem_image.mpr ⟨o, Finset.mem_univ _, rfl⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply owes_out _ _ ((pdats_plain m p c).2.2.1 _); iexact HO

end Cert.KernelIdeal.Hand

end
-- ==== Proof.Ki.Reg0.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg0 : Pipeline.RegionSeg (pcfgs (F := F)) adm (pdats m) () defs₀ 𝒱₀ L lv 0 :=
  regOf m 0 (W1 m) (W2 m) (1 : Fin 2) launch0 (body_obligation0 _)
    (A_eq0 _) (W2_out m) (W2_of_ne m) (by decide)

theorem hpre0 (c : Dev nD) :
    iprop(StableHlo.held (c : Thread nD τ) (Pipeline.ucRefs τ sig) (V1 m c) ∗ R c) ⊢ (reg0 m).pre c := by
  rw [V1_eq]; exact .rfl
theorem hpost0 (c : Dev nD) :
    (reg0 m).post c ⊢ iprop(StableHlo.held (c : Thread nD τ) (Pipeline.ucRefs τ sig) (V2 m (outs m) c) ∗ R c) := by
  rw [V2_eq]; exact .rfl

end Cert.KernelIdeal.Hand
-- ==== Proof.Ki.Reg1.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg1 : Pipeline.RegionSeg (pcfgs (F := F)) adm (pdats m) () defs₀ 𝒱₀ L lv 1 :=
  regOf m 1 (W3 m) (W4 m) (5 : Fin 6) launch1 (body_obligation1 _)
    (A_eq1 _) (W4_out m) (W4_of_ne m) (by decide)

theorem hpre1 (c : Dev nD) :
    iprop(StableHlo.held (c : Thread nD τ) (Pipeline.ucRefs τ sig) (V3 m (outs m) c) ∗ R c) ⊢ (reg1 m).pre c := by
  rw [V3_eq]; exact .rfl
theorem hpost1 (c : Dev nD) :
    (reg1 m).post c ⊢ iprop(StableHlo.held (c : Thread nD τ) (Pipeline.ucRefs τ sig) (V4 m (outs m) c) ∗ R c) := by
  rw [V4_eq]; exact .rfl

end Cert.KernelIdeal.Hand
-- ==== Proof.Ki.Reg2.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg2 : Pipeline.RegionSeg (pcfgs (F := F)) adm (pdats m) () defs₀ 𝒱₀ L lv 2 :=
  regOf m 2 (W5 m) (W6 m) (6 : Fin 7) launch2 (body_obligation2 _)
    (A_eq2 _) (W6_out m) (W6_of_ne m) (by decide)

theorem hpre2 (c : Dev nD) :
    iprop(StableHlo.held (c : Thread nD τ) (Pipeline.ucRefs τ sig) (V5 m (outs m) c) ∗ R c) ⊢ (reg2 m).pre c := by
  rw [V5_eq]; exact .rfl
theorem hpost2 (c : Dev nD) :
    (reg2 m).post c ⊢ iprop(StableHlo.held (c : Thread nD τ) (Pipeline.ucRefs τ sig) (V6 m (outs m) c) ∗ R c) := by
  rw [V6_eq]; exact .rfl

end Cert.KernelIdeal.Hand
-- ==== Proof.Ki.Reg3.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg3 : Pipeline.RegionSeg (pcfgs (F := F)) adm (pdats m) () defs₀ 𝒱₀ L lv 3 :=
  regOf m 3 (W10 m) (W11 m) (9 : Fin 10) launch3 (body_obligation3 _)
    (A_eq3 _) (W11_out m) (W11_of_ne m) (by decide)

theorem hpre3 (c : Dev nD) :
    iprop(StableHlo.held (c : Thread nD τ) (Pipeline.ucRefs τ sig) (V10 m (outs m) c) ∗ R c) ⊢ (reg3 m).pre c := by
  rw [V10_eq]; exact .rfl
theorem hpost3 (c : Dev nD) :
    (reg3 m).post c ⊢ iprop(StableHlo.held (c : Thread nD τ) (Pipeline.ucRefs τ sig) (V11 m (outs m) c) ∗ R c) := by
  rw [V11_eq]; exact .rfl

end Cert.KernelIdeal.Hand
-- ==== Proof.Ki.Reg4.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg4 : Pipeline.RegionSeg (pcfgs (F := F)) adm (pdats m) () defs₀ 𝒱₀ L lv 4 :=
  regOf m 4 (W12 m) (W13 m) (7 : Fin 8) launch4 (body_obligation4 _)
    (A_eq4 _) (W13_out m) (W13_of_ne m) (by decide)

theorem hpre4 (c : Dev nD) :
    iprop(StableHlo.held (c : Thread nD τ) (Pipeline.ucRefs τ sig) (V12 m (outs m) c) ∗ R c) ⊢ (reg4 m).pre c := by
  rw [V12_eq]; exact .rfl
theorem hpost4 (c : Dev nD) :
    (reg4 m).post c ⊢ iprop(StableHlo.held (c : Thread nD τ) (Pipeline.ucRefs τ sig) (V13 m (outs m) c) ∗ R c) := by
  rw [V13_eq]; exact .rfl

end Cert.KernelIdeal.Hand
-- ==== Proof.Ki.Reg5.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg5 : Pipeline.RegionSeg (pcfgs (F := F)) adm (pdats m) () defs₀ 𝒱₀ L lv 5 :=
  regOf m 5 (W16 m) (W17 m) (9 : Fin 10) launch5 (body_obligation5 _)
    (A_eq5 _) (W17_out m) (W17_of_ne m) (by decide)

theorem hpre5 (c : Dev nD) :
    iprop(StableHlo.held (c : Thread nD τ) (Pipeline.ucRefs τ sig) (V16 m (outs m) c) ∗ R c) ⊢ (reg5 m).pre c := by
  rw [V16_eq]; exact .rfl
theorem hpost5 (c : Dev nD) :
    (reg5 m).post c ⊢ iprop(StableHlo.held (c : Thread nD τ) (Pipeline.ucRefs τ sig) (V17 m (outs m) c) ∗ R c) := by
  rw [V17_eq]; exact .rfl

end Cert.KernelIdeal.Hand
-- ==== Proof.Ki.Reg6.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg6 : Pipeline.RegionSeg (pcfgs (F := F)) adm (pdats m) () defs₀ 𝒱₀ L lv 6 :=
  regOf m 6 (W18 m) (W19 m) (7 : Fin 8) launch6 (body_obligation6 _)
    (A_eq6 _) (W19_out m) (W19_of_ne m) (by decide)

theorem hpre6 (c : Dev nD) :
    iprop(StableHlo.held (c : Thread nD τ) (Pipeline.ucRefs τ sig) (V18 m (outs m) c) ∗ R c) ⊢ (reg6 m).pre c := by
  rw [V18_eq]; exact .rfl
theorem hpost6 (c : Dev nD) :
    (reg6 m).post c ⊢ iprop(StableHlo.held (c : Thread nD τ) (Pipeline.ucRefs τ sig) (V19 m (outs m) c) ∗ R c) := by
  rw [V19_eq]; exact .rfl

end Cert.KernelIdeal.Hand
-- ==== Proof.Ki.Reg7.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg7 : Pipeline.RegionSeg (pcfgs (F := F)) adm (pdats m) () defs₀ 𝒱₀ L lv 7 :=
  regOf m 7 (W22 m) (W23 m) (9 : Fin 10) launch7 (body_obligation7 _)
    (A_eq7 _) (W23_out m) (W23_of_ne m) (by decide)

theorem hpre7 (c : Dev nD) :
    iprop(StableHlo.held (c : Thread nD τ) (Pipeline.ucRefs τ sig) (V22 m (outs m) c) ∗ R c) ⊢ (reg7 m).pre c := by
  rw [V22_eq]; exact .rfl
theorem hpost7 (c : Dev nD) :
    (reg7 m).post c ⊢ iprop(StableHlo.held (c : Thread nD τ) (Pipeline.ucRefs τ sig) (V23 m (outs m) c) ∗ R c) := by
  rw [V23_eq]; exact .rfl

end Cert.KernelIdeal.Hand
-- ==== Proof.Ki.Reg8.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg8 : Pipeline.RegionSeg (pcfgs (F := F)) adm (pdats m) () defs₀ 𝒱₀ L lv 8 :=
  regOf m 8 (W24 m) (W25 m) (7 : Fin 8) launch8 (body_obligation8 _)
    (A_eq8 _) (W25_out m) (W25_of_ne m) (by decide)

theorem hpre8 (c : Dev nD) :
    iprop(StableHlo.held (c : Thread nD τ) (Pipeline.ucRefs τ sig) (V24 m (outs m) c) ∗ R c) ⊢ (reg8 m).pre c := by
  rw [V24_eq]; exact .rfl
theorem hpost8 (c : Dev nD) :
    (reg8 m).post c ⊢ iprop(StableHlo.held (c : Thread nD τ) (Pipeline.ucRefs τ sig) (V25 m (outs m) c) ∗ R c) := by
  rw [V25_eq]; exact .rfl

end Cert.KernelIdeal.Hand
-- ==== Proof.Ki.Reg9.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg9 : Pipeline.RegionSeg (pcfgs (F := F)) adm (pdats m) () defs₀ 𝒱₀ L lv 9 :=
  regOf m 9 (W28 m) (W29 m) (9 : Fin 10) launch9 (body_obligation9 _)
    (A_eq9 _) (W29_out m) (W29_of_ne m) (by decide)

theorem hpre9 (c : Dev nD) :
    iprop(StableHlo.held (c : Thread nD τ) (Pipeline.ucRefs τ sig) (V28 m (outs m) c) ∗ R c) ⊢ (reg9 m).pre c := by
  rw [V28_eq]; exact .rfl
theorem hpost9 (c : Dev nD) :
    (reg9 m).post c ⊢ iprop(StableHlo.held (c : Thread nD τ) (Pipeline.ucRefs τ sig) (V29 m (outs m) c) ∗ R c) := by
  rw [V29_eq]; exact .rfl

end Cert.KernelIdeal.Hand
-- ==== Proof.Ki.Reg10.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg10 : Pipeline.RegionSeg (pcfgs (F := F)) adm (pdats m) () defs₀ 𝒱₀ L lv 10 :=
  regOf m 10 (W30 m) (W31 m) (7 : Fin 8) launch10 (body_obligation10 _)
    (A_eq10 _) (W31_out m) (W31_of_ne m) (by decide)

theorem hpre10 (c : Dev nD) :
    iprop(StableHlo.held (c : Thread nD τ) (Pipeline.ucRefs τ sig) (V30 m (outs m) c) ∗ R c) ⊢ (reg10 m).pre c := by
  rw [V30_eq]; exact .rfl
theorem hpost10 (c : Dev nD) :
    (reg10 m).post c ⊢ iprop(StableHlo.held (c : Thread nD τ) (Pipeline.ucRefs τ sig) (V31 m (outs m) c) ∗ R c) := by
  rw [V31_eq]; exact .rfl

end Cert.KernelIdeal.Hand
-- ==== Proof.Ki.Reg11.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg11 : Pipeline.RegionSeg (pcfgs (F := F)) adm (pdats m) () defs₀ 𝒱₀ L lv 11 :=
  regOf m 11 (W34 m) (W35 m) (9 : Fin 10) launch11 (body_obligation11 _)
    (A_eq11 _) (W35_out m) (W35_of_ne m) (by decide)

theorem hpre11 (c : Dev nD) :
    iprop(StableHlo.held (c : Thread nD τ) (Pipeline.ucRefs τ sig) (V34 m (outs m) c) ∗ R c) ⊢ (reg11 m).pre c := by
  rw [V34_eq]; exact .rfl
theorem hpost11 (c : Dev nD) :
    (reg11 m).post c ⊢ iprop(StableHlo.held (c : Thread nD τ) (Pipeline.ucRefs τ sig) (V35 m (outs m) c) ∗ R c) := by
  rw [V35_eq]; exact .rfl

end Cert.KernelIdeal.Hand
-- ==== Proof.Ki.Reg12.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg12 : Pipeline.RegionSeg (pcfgs (F := F)) adm (pdats m) () defs₀ 𝒱₀ L lv 12 :=
  regOf m 12 (W36 m) (W37 m) (7 : Fin 8) launch12 (body_obligation12 _)
    (A_eq12 _) (W37_out m) (W37_of_ne m) (by decide)

theorem hpre12 (c : Dev nD) :
    iprop(StableHlo.held (c : Thread nD τ) (Pipeline.ucRefs τ sig) (V36 m (outs m) c) ∗ R c) ⊢ (reg12 m).pre c := by
  rw [V36_eq]; exact .rfl
theorem hpost12 (c : Dev nD) :
    (reg12 m).post c ⊢ iprop(StableHlo.held (c : Thread nD τ) (Pipeline.ucRefs τ sig) (V37 m (outs m) c) ∗ R c) := by
  rw [V37_eq]; exact .rfl

end Cert.KernelIdeal.Hand
-- ==== Proof.Ki.Reg13.lean ====
import proofs.«408468_j77438260346965_2_alg».proof.Proof.Ki.RegLib

namespace Cert.KernelIdeal.Hand

open Cert.KernelIdeal Cert.KernelIdeal.Gen Cert.KernelIdeal.GenP
open Idealize.ShloMosaic Idealize.ShloMosaic.TcCoe
open Idealize.SL Idealize.SL.BI Idealize.SL.BI.BIBase

variable {F : FTy → Type} [FloatOps F] (m : (ℓ : Loc nD τ sig) → Buf (Elt F) ℓ)

noncomputable def reg13 : Pipeline.RegionSeg (pcfgs (F := F)) adm (pdats m) () defs₀ 𝒱₀ L lv 13 :=
  regOf m 13 (W38 m) (W39 m) (10 : Fin 11) launch13 (body_obligation13 _)
    (A_eq13 _) (W39_out m) (W39_of_ne m) (by decide)

theorem hpre13 (c : Dev nD) :
    iprop(StableHlo.held (c : Thread nD τ) (Pipeline.ucRefs τ sig) (V38 m (outs m) c) ∗ R c) ⊢ (reg13 m).pre c := by
  rw [V38_eq]; exact .rfl
theorem hpost13 (c : Dev nD) :
    (reg13 m).post c ⊢ iprop(StableHlo.held (c : Thread nD τ) (Pipeline.ucRefs τ sig) (V39 m (outs m) c) ∗ R c) := by
  rw [V39_eq]; exact .rfl

end Cert.KernelIdeal.Hand
-- ==== Proof.Ki.Frame.lean ====
import proofs.«408468_j77438260346965_2_alg».proof.Proof.Ki.Reg0
import proofs.«408468_j77438260346965_2_alg».proof.Proof.Ki.Reg1
import proofs.«408468_j77438260346965_2_alg».proof.Proof.Ki.Reg2
import proofs.«408468_j77438260346965_2_alg».proof.Proof.Ki.Reg3
import proofs.«408468_j77438260346965_2_alg».proof.Proof.Ki.Reg4
import proofs.«408468_j77438260346965_2_alg».proof.Proof.Ki.Reg5
import proofs.«408468_j77438260346965_2_alg».proof.Proof.Ki.Reg6
import proofs.«408468_j77438260346965_2_alg».proof.Proof.Ki.Reg7
import proofs.«408468_j77438260346965_2_alg».proof.Proof.Ki.Reg8
import proofs.«408468_j77438260346965_2_alg».proof.Proof.Ki.Reg9
import proofs.«408468_j77438260346965_2_alg».proof.Proof.Ki.Reg10
import proofs.«408468_j77438260346965_2_alg».proof.Proof.Ki.Reg11
import proofs.«408468_j77438260346965_2_alg».proof.Proof.Ki.Reg12
import proofs.«408468_j77438260346965_2_alg».proof.Proof.Ki.Reg13

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E : Fin 15 → Dev nD → sProp 𝕄 := fun _ c => R c

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c
        ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE14 (c : Dev nD) : E (F := F) 14 c
    ⊢ (iprop(∃ W, owes (c : Thread nD τ) (0 : CellTallies nD τ sig Unit) W) : sProp 𝕄) := by
  iintro ⟨-, HO⟩; iexact HO

set_option backward.isDefEq.respectTransparency.types false in

theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_cond m emb₁ () 𝒱₀ L lv (fun _ _ => rfl) ρ (outs m) (pdats m) 0 (fun _ => iprop(emp)) u₀ hu₀ E (hE0 ρ) hE14
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)

end Cert.KernelIdeal.Hand

end
-- ==== Proof.Ref.RunOps.lean ====
import proofs.«408468_j77438260346965_2_alg».proof.Proof.Gen.ReferenceIdeal
import Idealize.ShloMosaic.Lib.StableHlo.Run

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

abbrev B0 : List (HloOp τ sig (Elt F)) :=
  [ unary main_arg1 main_v0 (Host.absf : (⟨S1310720x1, .f32⟩ : BufTy).Contents (Elt F) → (⟨S1310720x1, .f32⟩ : BufTy).Contents (Elt F)),
    nullary main_cst (constant S_ .f32 0xFF800000#32),
    binary main_v0 main_cst main_v1 ((fun x v => Host.reduce FloatOps.maximumf x v reducesTo_S1310720x1_S_d0_1 h_S_) : (⟨S1310720x1, .f32⟩ : BufTy).Contents (Elt F) → (⟨S_, .f32⟩ : BufTy).Contents (Elt F) → (⟨S_, .f32⟩ : BufTy).Contents (Elt F)),
    unary main_v1 main_v2 (broadcastInDim S1310720x1 ![] bcast_S_S1310720x1 : (⟨S_, .f32⟩ : BufTy).Contents (Elt F) → (⟨S1310720x1, .f32⟩ : BufTy).Contents (Elt F)),
    binary main_arg1 main_v2 main_v3 (Host.divf : (⟨S1310720x1, .f32⟩ : BufTy).Contents (Elt F) → (⟨S1310720x1, .f32⟩ : BufTy).Contents (Elt F) → (⟨S1310720x1, .f32⟩ : BufTy).Contents (Elt F)),
    binary main_arg0 main_arg9 main_v4 ((fun l r => Host.dotGeneral dot_S262144x1_S1x16_S262144x16_1_0_0_1_n_n none l r) : (⟨S262144x1, .f32⟩ : BufTy).Contents (Elt F) → (⟨S1x16, .f32⟩ : BufTy).Contents (Elt F) → (⟨S262144x16, .f32⟩ : BufTy).Contents (Elt F)),
    unary main_arg10 main_v5 (broadcastInDim S1x16 ![1] bcast_S16_S1x16_1 : (⟨S16, .f32⟩ : BufTy).Contents (Elt F) → (⟨S1x16, .f32⟩ : BufTy).Contents (Elt F)),
    unary main_v5 main_v6 (broadcastInDim S262144x16 ![0, 1] bcast_S1x16_S262144x16_0_1 : (⟨S1x16, .f32⟩ : BufTy).Contents (Elt F) → (⟨S262144x16, .f32⟩ : BufTy).Contents (Elt F)),
    binary main_v4 main_v6 main_v7 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x16, .f32⟩) main_call0_v0) (broadcastInDim S262144x16 ![] bcast_S_S262144x16),
    TRef.binary (TRef.of (T := ⟨S262144x16, .f32⟩) main_v7) (TRef.of (T := ⟨S262144x16, .f32⟩) main_call0_v0) (TRef.of (T := ⟨S262144x16, .f32⟩) main_v8) maximumf,
    binary main_v8 main_arg11 main_v9 ((fun l r => Host.dotGeneral dot_S262144x16_S16x16_S262144x16_1_0_0_1_n_n none l r) : (⟨S262144x16, .f32⟩ : BufTy).Contents (Elt F) → (⟨S16x16, .f32⟩ : BufTy).Contents (Elt F) → (⟨S262144x16, .f32⟩ : BufTy).Contents (Elt F)),
    unary main_arg12 main_v10 (broadcastInDim S1x16 ![1] bcast_S16_S1x16_1 : (⟨S16, .f32⟩ : BufTy).Contents (Elt F) → (⟨S1x16, .f32⟩ : BufTy).Contents (Elt F)),
    unary main_v10 main_v11 (broadcastInDim S262144x16 ![0, 1] bcast_S1x16_S262144x16_0_1 : (⟨S1x16, .f32⟩ : BufTy).Contents (Elt F) → (⟨S262144x16, .f32⟩ : BufTy).Contents (Elt F)),
    binary main_v9 main_v11 main_v12 (addf : (⟨S262144x16, .f32⟩ : BufTy).Contents (Elt F) → (⟨S262144x16, .f32⟩ : BufTy).Contents (Elt F) → (⟨S262144x16, .f32⟩ : BufTy).Contents (Elt F)),
    binary main_v3 main_arg13 main_v13 ((fun l r => Host.dotGeneral dot_S1310720x1_S1x16_S1310720x16_1_0_0_1_n_n none l r) : (⟨S1310720x1, .f32⟩ : BufTy).Contents (Elt F) → (⟨S1x16, .f32⟩ : BufTy).Contents (Elt F) → (⟨S1310720x16, .f32⟩ : BufTy).Contents (Elt F)),
    unary main_arg14 main_v14 (broadcastInDim S1x16 ![1] bcast_S16_S1x16_1 : (⟨S16, .f32⟩ : BufTy).Contents (Elt F) → (⟨S1x16, .f32⟩ : BufTy).Contents (Elt F)),
    unary main_v14 main_v15 (broadcastInDim S1310720x16 ![0, 1] bcast_S1x16_S1310720x16_0_1 : (⟨S1x16, .f32⟩ : BufTy).Contents (Elt F) → (⟨S1310720x16, .f32⟩ : BufTy).Contents (Elt F)),
    binary main_v13 main_v15 main_v16 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1310720x16, .f32⟩) main_call1_v0) (broadcastInDim S1310720x16 ![] bcast_S_S1310720x16),
    TRef.binary (TRef.of (T := ⟨S1310720x16, .f32⟩) main_v16) (TRef.of (T := ⟨S1310720x16, .f32⟩) main_call1_v0) (TRef.of (T := ⟨S1310720x16, .f32⟩) main_v17) maximumf,
    binary main_v17 main_arg15 main_v18 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg16 main_v19 (broadcastInDim S1x16 ![1] bcast_S16_S1x16_1 : (⟨S16, .f32⟩ : BufTy).Contents (Elt F) → (⟨S1x16, .f32⟩ : BufTy).Contents (Elt F)),
    unary main_v19 main_v20 (broadcastInDim S1310720x16 ![0, 1] bcast_S1x16_S1310720x16_0_1 : (⟨S1x16, .f32⟩ : BufTy).Contents (Elt F) → (⟨S1310720x16, .f32⟩ : BufTy).Contents (Elt F)),
    binary main_v18 main_v20 main_v21 (addf : (⟨S1310720x16, .f32⟩ : BufTy).Contents (Elt F) → (⟨S1310720x16, .f32⟩ : BufTy).Contents (Elt F) → (⟨S1310720x16, .f32⟩ : BufTy).Contents (Elt F)),
    nullary main_c (constantI S_ 32 0#32),
    unary main_c main_v22 (broadcastInDim S1310720 ![] bcast_S_S1310720 : (⟨S_, .i32⟩ : BufTy).Contents (Elt F) → (⟨S1310720, .i32⟩ : BufTy).Contents (Elt F)),
    binary main_arg3 main_v22 main_v23 (cmpi .slt : (⟨S1310720, .i32⟩ : BufTy).Contents (Elt F) → (⟨S1310720, .i32⟩ : BufTy).Contents (Elt F) → (⟨S1310720, .i1⟩ : BufTy).Contents (Elt F)),
    nullary main_c_0 (constantI S_ 32 262144#32),
    unary main_c_0 main_v24 (broadcastInDim S1310720 ![] bcast_S_S1310720 : (⟨S_, .i32⟩ : BufTy).Contents (Elt F) → (⟨S1310720, .i32⟩ : BufTy).Contents (Elt F)),
    binary main_arg3 main_v24 main_v25 (addi : (⟨S1310720, .i32⟩ : BufTy).Contents (Elt F) → (⟨S1310720, .i32⟩ : BufTy).Contents (Elt F) → (⟨S1310720, .i32⟩ : BufTy).Contents (Elt F)),
    ternary main_v23 main_v25 main_arg3 main_v26 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v26 main_v27 (broadcastInDim S1310720x1 ![0] bcast_S1310720_S1310720x1_0 : (⟨S1310720, .i32⟩ : BufTy).Contents (Elt F) → (⟨S1310720x1, .i32⟩ : BufTy).Contents (Elt F)),
    binary main_v12 main_v27 main_v28 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)),
    nullary main_c_1 (constantI S_ 32 0#32),
    unary main_c_1 main_v29 (broadcastInDim S1310720 ![] bcast_S_S1310720 : (⟨S_, .i32⟩ : BufTy).Contents (Elt F) → (⟨S1310720, .i32⟩ : BufTy).Contents (Elt F)),
    binary main_arg2 main_v29 main_v30 (cmpi .slt : (⟨S1310720, .i32⟩ : BufTy).Contents (Elt F) → (⟨S1310720, .i32⟩ : BufTy).Contents (Elt F) → (⟨S1310720, .i1⟩ : BufTy).Contents (Elt F)),
    nullary main_c_2 (constantI S_ 32 262144#32),
    unary main_c_2 main_v31 (broadcastInDim S1310720 ![] bcast_S_S1310720 : (⟨S_, .i32⟩ : BufTy).Contents (Elt F) → (⟨S1310720, .i32⟩ : BufTy).Contents (Elt F)),
    binary main_arg2 main_v31 main_v32 (addi : (⟨S1310720, .i32⟩ : BufTy).Contents (Elt F) → (⟨S1310720, .i32⟩ : BufTy).Contents (Elt F) → (⟨S1310720, .i32⟩ : BufTy).Contents (Elt F)),
    ternary main_v30 main_v32 main_arg2 main_v33 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v33 main_v34 (broadcastInDim S1310720x1 ![0] bcast_S1310720_S1310720x1_0 : (⟨S1310720, .i32⟩ : BufTy).Contents (Elt F) → (⟨S1310720x1, .i32⟩ : BufTy).Contents (Elt F)),
    binary main_v12 main_v34 main_v35 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)) ]

theorem B0_sub : (B0 : List (HloOp τ sig (Elt F))).Forall fun op => op.bufs ⊆ tcRefs τ sig :=
  ⟨unary_bufs_sub .., nullary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem B0_fresh : ∀ op ∈ (B0 : List (HloOp τ sig (Elt F))), op.fresh = ∅ := by
  intro _ h; (repeat (cases h with | head => rfl | tail _ h => ?_)); exact nomatch h

abbrev B1 : List (HloOp τ sig (Elt F)) :=
  [ nary ![main_v28, main_v35, main_v21] main_v36 (fun u => concatenate S1310720x48 1 [⟨S1310720x16, u 0⟩, ⟨S1310720x16, u 1⟩, ⟨S1310720x16, u 2⟩] concatenates_S1310720x16_S1310720x16_S1310720x16_S1310720x48_d1),
    binary main_v36 main_arg17 main_v37 ((fun l r => Host.dotGeneral dot_S1310720x48_S48x16_S1310720x16_1_0_0_1_n_n none l r) : (⟨S1310720x48, .f32⟩ : BufTy).Contents (Elt F) → (⟨S48x16, .f32⟩ : BufTy).Contents (Elt F) → (⟨S1310720x16, .f32⟩ : BufTy).Contents (Elt F)),
    unary main_arg18 main_v38 (broadcastInDim S1x16 ![1] bcast_S16_S1x16_1 : (⟨S16, .f32⟩ : BufTy).Contents (Elt F) → (⟨S1x16, .f32⟩ : BufTy).Contents (Elt F)),
    unary main_v38 main_v39 (broadcastInDim S1310720x16 ![0, 1] bcast_S1x16_S1310720x16_0_1 : (⟨S1x16, .f32⟩ : BufTy).Contents (Elt F) → (⟨S1310720x16, .f32⟩ : BufTy).Contents (Elt F)),
    binary main_v37 main_v39 main_v40 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1310720x16, .f32⟩) main_call2_v0) (broadcastInDim S1310720x16 ![] bcast_S_S1310720x16),
    TRef.binary (TRef.of (T := ⟨S1310720x16, .f32⟩) main_v40) (TRef.of (T := ⟨S1310720x16, .f32⟩) main_call2_v0) (TRef.of (T := ⟨S1310720x16, .f32⟩) main_v41) maximumf,
    binary main_v41 main_arg19 main_v42 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg20 main_v43 (broadcastInDim S1x16 ![1] bcast_S16_S1x16_1 : (⟨S16, .f32⟩ : BufTy).Contents (Elt F) → (⟨S1x16, .f32⟩ : BufTy).Contents (Elt F)),
    unary main_v43 main_v44 (broadcastInDim S1310720x16 ![0, 1] bcast_S1x16_S1310720x16_0_1 : (⟨S1x16, .f32⟩ : BufTy).Contents (Elt F) → (⟨S1310720x16, .f32⟩ : BufTy).Contents (Elt F)),
    binary main_v42 main_v44 main_v45 (addf : (⟨S1310720x16, .f32⟩ : BufTy).Contents (Elt F) → (⟨S1310720x16, .f32⟩ : BufTy).Contents (Elt F) → (⟨S1310720x16, .f32⟩ : BufTy).Contents (Elt F)),
    nullary main_cst_3 (constant S_ .f32 0x00000000#32),
    unary main_cst_3 main_v46 (broadcastInDim S262144x16 ![] bcast_S_S262144x16 : (⟨S_, .f32⟩ : BufTy).Contents (Elt F) → (⟨S262144x16, .f32⟩ : BufTy).Contents (Elt F)),
    unary main_arg2 main_v47 (broadcastInDim S1310720x1 ![0] bcast_S1310720_S1310720x1_0 : (⟨S1310720, .i32⟩ : BufTy).Contents (Elt F) → (⟨S1310720x1, .i32⟩ : BufTy).Contents (Elt F)),
    ternary main_v46 main_v47 main_v45 main_v48 ((fun x i u => Host.scatterAdd scatter_S262144x16_S1310720x1_S1310720x16_1_0_0_1 x i u) : (⟨S262144x16, .f32⟩ : BufTy).Contents (Elt F) → (⟨S1310720x1, .i32⟩ : BufTy).Contents (Elt F) → (⟨S1310720x16, .f32⟩ : BufTy).Contents (Elt F) → (⟨S262144x16, .f32⟩ : BufTy).Contents (Elt F)) ]

theorem B1_sub : (B1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩

theorem B1_fresh : ∀ op ∈ (B1 : List (HloOp τ sig (Elt F))), op.fresh = ∅ := by
  intro _ h; (repeat (cases h with | head => rfl | tail _ h => ?_)); exact nomatch h

abbrev B2 : List (HloOp τ sig (Elt F)) :=
  [ binary main_v12 main_v48 main_v49 ((fun a b => concatenate S262144x32 1 [⟨S262144x16, a⟩, ⟨S262144x16, b⟩] concatenates_S262144x16_S262144x16_S262144x32_d1) : (⟨S262144x16, .f32⟩ : BufTy).Contents (Elt F) → (⟨S262144x16, .f32⟩ : BufTy).Contents (Elt F) → (⟨S262144x32, .f32⟩ : BufTy).Contents (Elt F)),
    binary main_v49 main_arg21 main_v50 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg22 main_v51 (broadcastInDim S1x16 ![1] bcast_S16_S1x16_1 : (⟨S16, .f32⟩ : BufTy).Contents (Elt F) → (⟨S1x16, .f32⟩ : BufTy).Contents (Elt F)),
    unary main_v51 main_v52 (broadcastInDim S262144x16 ![0, 1] bcast_S1x16_S262144x16_0_1 : (⟨S1x16, .f32⟩ : BufTy).Contents (Elt F) → (⟨S262144x16, .f32⟩ : BufTy).Contents (Elt F)),
    binary main_v50 main_v52 main_v53 (addf : (⟨S262144x16, .f32⟩ : BufTy).Contents (Elt F) → (⟨S262144x16, .f32⟩ : BufTy).Contents (Elt F) → (⟨S262144x16, .f32⟩ : BufTy).Contents (Elt F)) ]

theorem B2_sub : (B2 : List (HloOp τ sig (Elt F))).Forall fun op => op.bufs ⊆ tcRefs τ sig :=
  ⟨binary_bufs_sub .., binary_bufs_sub .., unary_bufs_sub .., unary_bufs_sub .., binary_bufs_sub ..⟩

theorem B2_fresh : ∀ op ∈ (B2 : List (HloOp τ sig (Elt F))), op.fresh = ∅ := by
  intro _ h; (repeat (cases h with | head => rfl | tail _ h => ?_)); exact nomatch h

abbrev B3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S262144x16, .f32⟩) main_call3_v0) (broadcastInDim S262144x16 ![] bcast_S_S262144x16),
    TRef.binary (TRef.of (T := ⟨S262144x16, .f32⟩) main_v53) (TRef.of (T := ⟨S262144x16, .f32⟩) main_call3_v0) (TRef.of (T := ⟨S262144x16, .f32⟩) main_v54) maximumf,
    binary main_v54 main_arg23 main_v55 ((fun l r => Host.dotGeneral dot_S262144x16_S16x16_S262144x16_1_0_0_1_n_n none l r) : (⟨S262144x16, .f32⟩ : BufTy).Contents (Elt F) → (⟨S16x16, .f32⟩ : BufTy).Contents (Elt F) → (⟨S262144x16, .f32⟩ : BufTy).Contents (Elt F)),
    unary main_arg24 main_v56 (broadcastInDim S1x16 ![1] bcast_S16_S1x16_1 : (⟨S16, .f32⟩ : BufTy).Contents (Elt F) → (⟨S1x16, .f32⟩ : BufTy).Contents (Elt F)),
    unary main_v56 main_v57 (broadcastInDim S262144x16 ![0, 1] bcast_S1x16_S262144x16_0_1 : (⟨S1x16, .f32⟩ : BufTy).Contents (Elt F) → (⟨S262144x16, .f32⟩ : BufTy).Contents (Elt F)),
    binary main_v55 main_v57 main_v58 (addf : (⟨S262144x16, .f32⟩ : BufTy).Contents (Elt F) → (⟨S262144x16, .f32⟩ : BufTy).Contents (Elt F) → (⟨S262144x16, .f32⟩ : BufTy).Contents (Elt F)),
    nullary main_c_4 (constantI S_ 32 0#32),
    unary main_c_4 main_v59 (broadcastInDim S1310720 ![] bcast_S_S1310720 : (⟨S_, .i32⟩ : BufTy).Contents (Elt F) → (⟨S1310720, .i32⟩ : BufTy).Contents (Elt F)),
    binary main_arg3 main_v59 main_v60 (cmpi .slt : (⟨S1310720, .i32⟩ : BufTy).Contents (Elt F) → (⟨S1310720, .i32⟩ : BufTy).Contents (Elt F) → (⟨S1310720, .i1⟩ : BufTy).Contents (Elt F)),
    nullary main_c_5 (constantI S_ 32 262144#32),
    unary main_c_5 main_v61 (broadcastInDim S1310720 ![] bcast_S_S1310720 : (⟨S_, .i32⟩ : BufTy).Contents (Elt F) → (⟨S1310720, .i32⟩ : BufTy).Contents (Elt F)),
    binary main_arg3 main_v61 main_v62 (addi : (⟨S1310720, .i32⟩ : BufTy).Contents (Elt F) → (⟨S1310720, .i32⟩ : BufTy).Contents (Elt F) → (⟨S1310720, .i32⟩ : BufTy).Contents (Elt F)),
    ternary main_v60 main_v62 main_arg3 main_v63 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v63 main_v64 (broadcastInDim S1310720x1 ![0] bcast_S1310720_S1310720x1_0 : (⟨S1310720, .i32⟩ : BufTy).Contents (Elt F) → (⟨S1310720x1, .i32⟩ : BufTy).Contents (Elt F)),
    binary main_v58 main_v64 main_v65 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)),
    nullary main_c_6 (constantI S_ 32 0#32),
    unary main_c_6 main_v66 (broadcastInDim S1310720 ![] bcast_S_S1310720 : (⟨S_, .i32⟩ : BufTy).Contents (Elt F) → (⟨S1310720, .i32⟩ : BufTy).Contents (Elt F)),
    binary main_arg2 main_v66 main_v67 (cmpi .slt : (⟨S1310720, .i32⟩ : BufTy).Contents (Elt F) → (⟨S1310720, .i32⟩ : BufTy).Contents (Elt F) → (⟨S1310720, .i1⟩ : BufTy).Contents (Elt F)),
    nullary main_c_7 (constantI S_ 32 262144#32),
    unary main_c_7 main_v68 (broadcastInDim S1310720 ![] bcast_S_S1310720 : (⟨S_, .i32⟩ : BufTy).Contents (Elt F) → (⟨S1310720, .i32⟩ : BufTy).Contents (Elt F)),
    binary main_arg2 main_v68 main_v69 (addi : (⟨S1310720, .i32⟩ : BufTy).Contents (Elt F) → (⟨S1310720, .i32⟩ : BufTy).Contents (Elt F) → (⟨S1310720, .i32⟩ : BufTy).Contents (Elt F)),
    ternary main_v67 main_v69 main_arg2 main_v70 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v70 main_v71 (broadcastInDim S1310720x1 ![0] bcast_S1310720_S1310720x1_0 : (⟨S1310720, .i32⟩ : BufTy).Contents (Elt F) → (⟨S1310720x1, .i32⟩ : BufTy).Contents (Elt F)),
    binary main_v58 main_v71 main_v72 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)) ]

theorem B3_sub : (B3 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem B3_fresh : ∀ op ∈ (B3 : List (HloOp τ sig (Elt F))), op.fresh = ∅ := by
  intro _ h; (repeat (cases h with | head => rfl | tail _ h => ?_)); exact nomatch h

abbrev B4 : List (HloOp τ sig (Elt F)) :=
  [ nary ![main_v65, main_v72, main_v45] main_v73 (fun u => concatenate S1310720x48 1 [⟨S1310720x16, u 0⟩, ⟨S1310720x16, u 1⟩, ⟨S1310720x16, u 2⟩] concatenates_S1310720x16_S1310720x16_S1310720x16_S1310720x48_d1),
    binary main_v73 main_arg17 main_v74 ((fun l r => Host.dotGeneral dot_S1310720x48_S48x16_S1310720x16_1_0_0_1_n_n none l r) : (⟨S1310720x48, .f32⟩ : BufTy).Contents (Elt F) → (⟨S48x16, .f32⟩ : BufTy).Contents (Elt F) → (⟨S1310720x16, .f32⟩ : BufTy).Contents (Elt F)),
    unary main_arg18 main_v75 (broadcastInDim S1x16 ![1] bcast_S16_S1x16_1 : (⟨S16, .f32⟩ : BufTy).Contents (Elt F) → (⟨S1x16, .f32⟩ : BufTy).Contents (Elt F)),
    unary main_v75 main_v76 (broadcastInDim S1310720x16 ![0, 1] bcast_S1x16_S1310720x16_0_1 : (⟨S1x16, .f32⟩ : BufTy).Contents (Elt F) → (⟨S1310720x16, .f32⟩ : BufTy).Contents (Elt F)),
    binary main_v74 main_v76 main_v77 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1310720x16, .f32⟩) main_call4_v0) (broadcastInDim S1310720x16 ![] bcast_S_S1310720x16),
    TRef.binary (TRef.of (T := ⟨S1310720x16, .f32⟩) main_v77) (TRef.of (T := ⟨S1310720x16, .f32⟩) main_call4_v0) (TRef.of (T := ⟨S1310720x16, .f32⟩) main_v78) maximumf,
    binary main_v78 main_arg19 main_v79 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg20 main_v80 (broadcastInDim S1x16 ![1] bcast_S16_S1x16_1 : (⟨S16, .f32⟩ : BufTy).Contents (Elt F) → (⟨S1x16, .f32⟩ : BufTy).Contents (Elt F)),
    unary main_v80 main_v81 (broadcastInDim S1310720x16 ![0, 1] bcast_S1x16_S1310720x16_0_1 : (⟨S1x16, .f32⟩ : BufTy).Contents (Elt F) → (⟨S1310720x16, .f32⟩ : BufTy).Contents (Elt F)),
    binary main_v79 main_v81 main_v82 (addf : (⟨S1310720x16, .f32⟩ : BufTy).Contents (Elt F) → (⟨S1310720x16, .f32⟩ : BufTy).Contents (Elt F) → (⟨S1310720x16, .f32⟩ : BufTy).Contents (Elt F)),
    nullary main_cst_8 (constant S_ .f32 0x00000000#32),
    unary main_cst_8 main_v83 (broadcastInDim S262144x16 ![] bcast_S_S262144x16 : (⟨S_, .f32⟩ : BufTy).Contents (Elt F) → (⟨S262144x16, .f32⟩ : BufTy).Contents (Elt F)),
    unary main_arg2 main_v84 (broadcastInDim S1310720x1 ![0] bcast_S1310720_S1310720x1_0 : (⟨S1310720, .i32⟩ : BufTy).Contents (Elt F) → (⟨S1310720x1, .i32⟩ : BufTy).Contents (Elt F)),
    ternary main_v83 main_v84 main_v82 main_v85 ((fun x i u => Host.scatterAdd scatter_S262144x16_S1310720x1_S1310720x16_1_0_0_1 x i u) : (⟨S262144x16, .f32⟩ : BufTy).Contents (Elt F) → (⟨S1310720x1, .i32⟩ : BufTy).Contents (Elt F) → (⟨S1310720x16, .f32⟩ : BufTy).Contents (Elt F) → (⟨S262144x16, .f32⟩ : BufTy).Contents (Elt F)) ]

theorem B4_sub : (B4 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩

theorem B4_fresh : ∀ op ∈ (B4 : List (HloOp τ sig (Elt F))), op.fresh = ∅ := by
  intro _ h; (repeat (cases h with | head => rfl | tail _ h => ?_)); exact nomatch h

abbrev B5 : List (HloOp τ sig (Elt F)) :=
  [ binary main_v58 main_v85 main_v86 ((fun a b => concatenate S262144x32 1 [⟨S262144x16, a⟩, ⟨S262144x16, b⟩] concatenates_S262144x16_S262144x16_S262144x32_d1) : (⟨S262144x16, .f32⟩ : BufTy).Contents (Elt F) → (⟨S262144x16, .f32⟩ : BufTy).Contents (Elt F) → (⟨S262144x32, .f32⟩ : BufTy).Contents (Elt F)),
    binary main_v86 main_arg21 main_v87 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg22 main_v88 (broadcastInDim S1x16 ![1] bcast_S16_S1x16_1 : (⟨S16, .f32⟩ : BufTy).Contents (Elt F) → (⟨S1x16, .f32⟩ : BufTy).Contents (Elt F)),
    unary main_v88 main_v89 (broadcastInDim S262144x16 ![0, 1] bcast_S1x16_S262144x16_0_1 : (⟨S1x16, .f32⟩ : BufTy).Contents (Elt F) → (⟨S262144x16, .f32⟩ : BufTy).Contents (Elt F)),
    binary main_v87 main_v89 main_v90 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S262144x16, .f32⟩) main_call5_v0) (broadcastInDim S262144x16 ![] bcast_S_S262144x16),
    TRef.binary (TRef.of (T := ⟨S262144x16, .f32⟩) main_v90) (TRef.of (T := ⟨S262144x16, .f32⟩) main_call5_v0) (TRef.of (T := ⟨S262144x16, .f32⟩) main_v91) maximumf,
    binary main_v91 main_arg23 main_v92 ((fun l r => Host.dotGeneral dot_S262144x16_S16x16_S262144x16_1_0_0_1_n_n none l r) : (⟨S262144x16, .f32⟩ : BufTy).Contents (Elt F) → (⟨S16x16, .f32⟩ : BufTy).Contents (Elt F) → (⟨S262144x16, .f32⟩ : BufTy).Contents (Elt F)),
    unary main_arg24 main_v93 (broadcastInDim S1x16 ![1] bcast_S16_S1x16_1 : (⟨S16, .f32⟩ : BufTy).Contents (Elt F) → (⟨S1x16, .f32⟩ : BufTy).Contents (Elt F)),
    unary main_v93 main_v94 (broadcastInDim S262144x16 ![0, 1] bcast_S1x16_S262144x16_0_1 : (⟨S1x16, .f32⟩ : BufTy).Contents (Elt F) → (⟨S262144x16, .f32⟩ : BufTy).Contents (Elt F)),
    binary main_v92 main_v94 main_v95 (addf : (⟨S262144x16, .f32⟩ : BufTy).Contents (Elt F) → (⟨S262144x16, .f32⟩ : BufTy).Contents (Elt F) → (⟨S262144x16, .f32⟩ : BufTy).Contents (Elt F)),
    nullary main_c_9 (constantI S_ 32 0#32),
    unary main_c_9 main_v96 (broadcastInDim S1310720 ![] bcast_S_S1310720 : (⟨S_, .i32⟩ : BufTy).Contents (Elt F) → (⟨S1310720, .i32⟩ : BufTy).Contents (Elt F)),
    binary main_arg3 main_v96 main_v97 (cmpi .slt : (⟨S1310720, .i32⟩ : BufTy).Contents (Elt F) → (⟨S1310720, .i32⟩ : BufTy).Contents (Elt F) → (⟨S1310720, .i1⟩ : BufTy).Contents (Elt F)),
    nullary main_c_10 (constantI S_ 32 262144#32),
    unary main_c_10 main_v98 (broadcastInDim S1310720 ![] bcast_S_S1310720 : (⟨S_, .i32⟩ : BufTy).Contents (Elt F) → (⟨S1310720, .i32⟩ : BufTy).Contents (Elt F)),
    binary main_arg3 main_v98 main_v99 (addi : (⟨S1310720, .i32⟩ : BufTy).Contents (Elt F) → (⟨S1310720, .i32⟩ : BufTy).Contents (Elt F) → (⟨S1310720, .i32⟩ : BufTy).Contents (Elt F)),
    ternary main_v97 main_v99 main_arg3 main_v100 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v100 main_v101 (broadcastInDim S1310720x1 ![0] bcast_S1310720_S1310720x1_0 : (⟨S1310720, .i32⟩ : BufTy).Contents (Elt F) → (⟨S1310720x1, .i32⟩ : BufTy).Contents (Elt F)),
    binary main_v95 main_v101 main_v102 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)),
    nullary main_c_11 (constantI S_ 32 0#32),
    unary main_c_11 main_v103 (broadcastInDim S1310720 ![] bcast_S_S1310720 : (⟨S_, .i32⟩ : BufTy).Contents (Elt F) → (⟨S1310720, .i32⟩ : BufTy).Contents (Elt F)),
    binary main_arg2 main_v103 main_v104 (cmpi .slt : (⟨S1310720, .i32⟩ : BufTy).Contents (Elt F) → (⟨S1310720, .i32⟩ : BufTy).Contents (Elt F) → (⟨S1310720, .i1⟩ : BufTy).Contents (Elt F)),
    nullary main_c_12 (constantI S_ 32 262144#32) ]

theorem B5_sub : (B5 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub ..⟩

theorem B5_fresh : ∀ op ∈ (B5 : List (HloOp τ sig (Elt F))), op.fresh = ∅ := by
  intro _ h; (repeat (cases h with | head => rfl | tail _ h => ?_)); exact nomatch h

abbrev B6 : List (HloOp τ sig (Elt F)) :=
  [ unary main_c_12 main_v105 (broadcastInDim S1310720 ![] bcast_S_S1310720 : (⟨S_, .i32⟩ : BufTy).Contents (Elt F) → (⟨S1310720, .i32⟩ : BufTy).Contents (Elt F)),
    binary main_arg2 main_v105 main_v106 (addi : (⟨S1310720, .i32⟩ : BufTy).Contents (Elt F) → (⟨S1310720, .i32⟩ : BufTy).Contents (Elt F) → (⟨S1310720, .i32⟩ : BufTy).Contents (Elt F)),
    ternary main_v104 main_v106 main_arg2 main_v107 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v107 main_v108 (broadcastInDim S1310720x1 ![0] bcast_S1310720_S1310720x1_0 : (⟨S1310720, .i32⟩ : BufTy).Contents (Elt F) → (⟨S1310720x1, .i32⟩ : BufTy).Contents (Elt F)),
    binary main_v95 main_v108 main_v109 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)) ]

theorem B6_sub : (B6 : List (HloOp τ sig (Elt F))).Forall fun op => op.bufs ⊆ tcRefs τ sig :=
  ⟨unary_bufs_sub .., binary_bufs_sub .., ternary_bufs_sub .., unary_bufs_sub .., binary_bufs_sub ..⟩

theorem B6_fresh : ∀ op ∈ (B6 : List (HloOp τ sig (Elt F))), op.fresh = ∅ := by
  intro _ h; (repeat (cases h with | head => rfl | tail _ h => ?_)); exact nomatch h

abbrev B7 : List (HloOp τ sig (Elt F)) :=
  [ nary ![main_v102, main_v109, main_v82] main_v110 (fun u => concatenate S1310720x48 1 [⟨S1310720x16, u 0⟩, ⟨S1310720x16, u 1⟩, ⟨S1310720x16, u 2⟩] concatenates_S1310720x16_S1310720x16_S1310720x16_S1310720x48_d1),
    binary main_v110 main_arg17 main_v111 ((fun l r => Host.dotGeneral dot_S1310720x48_S48x16_S1310720x16_1_0_0_1_n_n none l r) : (⟨S1310720x48, .f32⟩ : BufTy).Contents (Elt F) → (⟨S48x16, .f32⟩ : BufTy).Contents (Elt F) → (⟨S1310720x16, .f32⟩ : BufTy).Contents (Elt F)),
    unary main_arg18 main_v112 (broadcastInDim S1x16 ![1] bcast_S16_S1x16_1 : (⟨S16, .f32⟩ : BufTy).Contents (Elt F) → (⟨S1x16, .f32⟩ : BufTy).Contents (Elt F)),
    unary main_v112 main_v113 (broadcastInDim S1310720x16 ![0, 1] bcast_S1x16_S1310720x16_0_1 : (⟨S1x16, .f32⟩ : BufTy).Contents (Elt F) → (⟨S1310720x16, .f32⟩ : BufTy).Contents (Elt F)),
    binary main_v111 main_v113 main_v114 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1310720x16, .f32⟩) main_call6_v0) (broadcastInDim S1310720x16 ![] bcast_S_S1310720x16),
    TRef.binary (TRef.of (T := ⟨S1310720x16, .f32⟩) main_v114) (TRef.of (T := ⟨S1310720x16, .f32⟩) main_call6_v0) (TRef.of (T := ⟨S1310720x16, .f32⟩) main_v115) maximumf,
    binary main_v115 main_arg19 main_v116 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg20 main_v117 (broadcastInDim S1x16 ![1] bcast_S16_S1x16_1 : (⟨S16, .f32⟩ : BufTy).Contents (Elt F) → (⟨S1x16, .f32⟩ : BufTy).Contents (Elt F)),
    unary main_v117 main_v118 (broadcastInDim S1310720x16 ![0, 1] bcast_S1x16_S1310720x16_0_1 : (⟨S1x16, .f32⟩ : BufTy).Contents (Elt F) → (⟨S1310720x16, .f32⟩ : BufTy).Contents (Elt F)),
    binary main_v116 main_v118 main_v119 (addf : (⟨S1310720x16, .f32⟩ : BufTy).Contents (Elt F) → (⟨S1310720x16, .f32⟩ : BufTy).Contents (Elt F) → (⟨S1310720x16, .f32⟩ : BufTy).Contents (Elt F)),
    nullary main_cst_13 (constant S_ .f32 0x00000000#32),
    unary main_cst_13 main_v120 (broadcastInDim S262144x16 ![] bcast_S_S262144x16 : (⟨S_, .f32⟩ : BufTy).Contents (Elt F) → (⟨S262144x16, .f32⟩ : BufTy).Contents (Elt F)),
    unary main_arg2 main_v121 (broadcastInDim S1310720x1 ![0] bcast_S1310720_S1310720x1_0 : (⟨S1310720, .i32⟩ : BufTy).Contents (Elt F) → (⟨S1310720x1, .i32⟩ : BufTy).Contents (Elt F)),
    ternary main_v120 main_v121 main_v119 main_v122 ((fun x i u => Host.scatterAdd scatter_S262144x16_S1310720x1_S1310720x16_1_0_0_1 x i u) : (⟨S262144x16, .f32⟩ : BufTy).Contents (Elt F) → (⟨S1310720x1, .i32⟩ : BufTy).Contents (Elt F) → (⟨S1310720x16, .f32⟩ : BufTy).Contents (Elt F) → (⟨S262144x16, .f32⟩ : BufTy).Contents (Elt F)) ]

theorem B7_sub : (B7 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩

theorem B7_fresh : ∀ op ∈ (B7 : List (HloOp τ sig (Elt F))), op.fresh = ∅ := by
  intro _ h; (repeat (cases h with | head => rfl | tail _ h => ?_)); exact nomatch h

abbrev B8 : List (HloOp τ sig (Elt F)) :=
  [ binary main_v95 main_v122 main_v123 ((fun a b => concatenate S262144x32 1 [⟨S262144x16, a⟩, ⟨S262144x16, b⟩] concatenates_S262144x16_S262144x16_S262144x32_d1) : (⟨S262144x16, .f32⟩ : BufTy).Contents (Elt F) → (⟨S262144x16, .f32⟩ : BufTy).Contents (Elt F) → (⟨S262144x32, .f32⟩ : BufTy).Contents (Elt F)),
    binary main_v123 main_arg21 main_v124 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg22 main_v125 (broadcastInDim S1x16 ![1] bcast_S16_S1x16_1 : (⟨S16, .f32⟩ : BufTy).Contents (Elt F) → (⟨S1x16, .f32⟩ : BufTy).Contents (Elt F)),
    unary main_v125 main_v126 (broadcastInDim S262144x16 ![0, 1] bcast_S1x16_S262144x16_0_1 : (⟨S1x16, .f32⟩ : BufTy).Contents (Elt F) → (⟨S262144x16, .f32⟩ : BufTy).Contents (Elt F)),
    binary main_v124 main_v126 main_v127 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x16, .f32⟩) main_call7_v0) (broadcastInDim S262144x16 ![] bcast_S_S262144x16),
    TRef.binary (TRef.of (T := ⟨S262144x16, .f32⟩) main_v127) (TRef.of (T := ⟨S262144x16, .f32⟩) main_call7_v0) (TRef.of (T := ⟨S262144x16, .f32⟩) main_v128) maximumf,
    binary main_v128 main_arg23 main_v129 ((fun l r => Host.dotGeneral dot_S262144x16_S16x16_S262144x16_1_0_0_1_n_n none l r) : (⟨S262144x16, .f32⟩ : BufTy).Contents (Elt F) → (⟨S16x16, .f32⟩ : BufTy).Contents (Elt F) → (⟨S262144x16, .f32⟩ : BufTy).Contents (Elt F)),
    unary main_arg24 main_v130 (broadcastInDim S1x16 ![1] bcast_S16_S1x16_1 : (⟨S16, .f32⟩ : BufTy).Contents (Elt F) → (⟨S1x16, .f32⟩ : BufTy).Contents (Elt F)),
    unary main_v130 main_v131 (broadcastInDim S262144x16 ![0, 1] bcast_S1x16_S262144x16_0_1 : (⟨S1x16, .f32⟩ : BufTy).Contents (Elt F) → (⟨S262144x16, .f32⟩ : BufTy).Contents (Elt F)),
    binary main_v129 main_v131 main_v132 (addf : (⟨S262144x16, .f32⟩ : BufTy).Contents (Elt F) → (⟨S262144x16, .f32⟩ : BufTy).Contents (Elt F) → (⟨S262144x16, .f32⟩ : BufTy).Contents (Elt F)),
    nullary main_c_14 (constantI S_ 32 0#32),
    unary main_c_14 main_v133 (broadcastInDim S1310720 ![] bcast_S_S1310720 : (⟨S_, .i32⟩ : BufTy).Contents (Elt F) → (⟨S1310720, .i32⟩ : BufTy).Contents (Elt F)),
    binary main_arg3 main_v133 main_v134 (cmpi .slt : (⟨S1310720, .i32⟩ : BufTy).Contents (Elt F) → (⟨S1310720, .i32⟩ : BufTy).Contents (Elt F) → (⟨S1310720, .i1⟩ : BufTy).Contents (Elt F)),
    nullary main_c_15 (constantI S_ 32 262144#32),
    unary main_c_15 main_v135 (broadcastInDim S1310720 ![] bcast_S_S1310720 : (⟨S_, .i32⟩ : BufTy).Contents (Elt F) → (⟨S1310720, .i32⟩ : BufTy).Contents (Elt F)),
    binary main_arg3 main_v135 main_v136 (addi : (⟨S1310720, .i32⟩ : BufTy).Contents (Elt F) → (⟨S1310720, .i32⟩ : BufTy).Contents (Elt F) → (⟨S1310720, .i32⟩ : BufTy).Contents (Elt F)),
    ternary main_v134 main_v136 main_arg3 main_v137 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v137 main_v138 (broadcastInDim S1310720x1 ![0] bcast_S1310720_S1310720x1_0 : (⟨S1310720, .i32⟩ : BufTy).Contents (Elt F) → (⟨S1310720x1, .i32⟩ : BufTy).Contents (Elt F)),
    binary main_v132 main_v138 main_v139 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)),
    nullary main_c_16 (constantI S_ 32 0#32),
    unary main_c_16 main_v140 (broadcastInDim S1310720 ![] bcast_S_S1310720 : (⟨S_, .i32⟩ : BufTy).Contents (Elt F) → (⟨S1310720, .i32⟩ : BufTy).Contents (Elt F)),
    binary main_arg2 main_v140 main_v141 (cmpi .slt : (⟨S1310720, .i32⟩ : BufTy).Contents (Elt F) → (⟨S1310720, .i32⟩ : BufTy).Contents (Elt F) → (⟨S1310720, .i1⟩ : BufTy).Contents (Elt F)),
    nullary main_c_17 (constantI S_ 32 262144#32),
    unary main_c_17 main_v142 (broadcastInDim S1310720 ![] bcast_S_S1310720 : (⟨S_, .i32⟩ : BufTy).Contents (Elt F) → (⟨S1310720, .i32⟩ : BufTy).Contents (Elt F)),
    binary main_arg2 main_v142 main_v143 (addi : (⟨S1310720, .i32⟩ : BufTy).Contents (Elt F) → (⟨S1310720, .i32⟩ : BufTy).Contents (Elt F) → (⟨S1310720, .i32⟩ : BufTy).Contents (Elt F)),
    ternary main_v141 main_v143 main_arg2 main_v144 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v144 main_v145 (broadcastInDim S1310720x1 ![0] bcast_S1310720_S1310720x1_0 : (⟨S1310720, .i32⟩ : BufTy).Contents (Elt F) → (⟨S1310720x1, .i32⟩ : BufTy).Contents (Elt F)),
    binary main_v132 main_v145 main_v146 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)) ]

theorem B8_sub : (B8 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem B8_fresh : ∀ op ∈ (B8 : List (HloOp τ sig (Elt F))), op.fresh = ∅ := by
  intro _ h; (repeat (cases h with | head => rfl | tail _ h => ?_)); exact nomatch h

abbrev B9 : List (HloOp τ sig (Elt F)) :=
  [ nary ![main_v139, main_v146, main_v119] main_v147 (fun u => concatenate S1310720x48 1 [⟨S1310720x16, u 0⟩, ⟨S1310720x16, u 1⟩, ⟨S1310720x16, u 2⟩] concatenates_S1310720x16_S1310720x16_S1310720x16_S1310720x48_d1),
    binary main_v147 main_arg17 main_v148 ((fun l r => Host.dotGeneral dot_S1310720x48_S48x16_S1310720x16_1_0_0_1_n_n none l r) : (⟨S1310720x48, .f32⟩ : BufTy).Contents (Elt F) → (⟨S48x16, .f32⟩ : BufTy).Contents (Elt F) → (⟨S1310720x16, .f32⟩ : BufTy).Contents (Elt F)),
    unary main_arg18 main_v149 (broadcastInDim S1x16 ![1] bcast_S16_S1x16_1 : (⟨S16, .f32⟩ : BufTy).Contents (Elt F) → (⟨S1x16, .f32⟩ : BufTy).Contents (Elt F)),
    unary main_v149 main_v150 (broadcastInDim S1310720x16 ![0, 1] bcast_S1x16_S1310720x16_0_1 : (⟨S1x16, .f32⟩ : BufTy).Contents (Elt F) → (⟨S1310720x16, .f32⟩ : BufTy).Contents (Elt F)),
    binary main_v148 main_v150 main_v151 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1310720x16, .f32⟩) main_call8_v0) (broadcastInDim S1310720x16 ![] bcast_S_S1310720x16),
    TRef.binary (TRef.of (T := ⟨S1310720x16, .f32⟩) main_v151) (TRef.of (T := ⟨S1310720x16, .f32⟩) main_call8_v0) (TRef.of (T := ⟨S1310720x16, .f32⟩) main_v152) maximumf,
    binary main_v152 main_arg19 main_v153 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg20 main_v154 (broadcastInDim S1x16 ![1] bcast_S16_S1x16_1 : (⟨S16, .f32⟩ : BufTy).Contents (Elt F) → (⟨S1x16, .f32⟩ : BufTy).Contents (Elt F)),
    unary main_v154 main_v155 (broadcastInDim S1310720x16 ![0, 1] bcast_S1x16_S1310720x16_0_1 : (⟨S1x16, .f32⟩ : BufTy).Contents (Elt F) → (⟨S1310720x16, .f32⟩ : BufTy).Contents (Elt F)),
    binary main_v153 main_v155 main_v156 (addf : (⟨S1310720x16, .f32⟩ : BufTy).Contents (Elt F) → (⟨S1310720x16, .f32⟩ : BufTy).Contents (Elt F) → (⟨S1310720x16, .f32⟩ : BufTy).Contents (Elt F)),
    nullary main_cst_18 (constant S_ .f32 0x00000000#32),
    unary main_cst_18 main_v157 (broadcastInDim S262144x16 ![] bcast_S_S262144x16 : (⟨S_, .f32⟩ : BufTy).Contents (Elt F) → (⟨S262144x16, .f32⟩ : BufTy).Contents (Elt F)),
    unary main_arg2 main_v158 (broadcastInDim S1310720x1 ![0] bcast_S1310720_S1310720x1_0 : (⟨S1310720, .i32⟩ : BufTy).Contents (Elt F) → (⟨S1310720x1, .i32⟩ : BufTy).Contents (Elt F)) ]

theorem B9_sub : (B9 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub ..⟩

theorem B9_fresh : ∀ op ∈ (B9 : List (HloOp τ sig (Elt F))), op.fresh = ∅ := by
  intro _ h; (repeat (cases h with | head => rfl | tail _ h => ?_)); exact nomatch h

abbrev B10 : List (HloOp τ sig (Elt F)) :=
  [ ternary main_v157 main_v158 main_v156 main_v159 ((fun x i u => Host.scatterAdd scatter_S262144x16_S1310720x1_S1310720x16_1_0_0_1 x i u) : (⟨S262144x16, .f32⟩ : BufTy).Contents (Elt F) → (⟨S1310720x1, .i32⟩ : BufTy).Contents (Elt F) → (⟨S1310720x16, .f32⟩ : BufTy).Contents (Elt F) → (⟨S262144x16, .f32⟩ : BufTy).Contents (Elt F)) ]

theorem B10_sub : (B10 : List (HloOp τ sig (Elt F))).Forall fun op => op.bufs ⊆ tcRefs τ sig :=
  ternary_bufs_sub ..

theorem B10_fresh : ∀ op ∈ (B10 : List (HloOp τ sig (Elt F))), op.fresh = ∅ := by
  intro _ h; (repeat (cases h with | head => rfl | tail _ h => ?_)); exact nomatch h

abbrev B11 : List (HloOp τ sig (Elt F)) :=
  [ binary main_v132 main_v159 main_v160 ((fun a b => concatenate S262144x32 1 [⟨S262144x16, a⟩, ⟨S262144x16, b⟩] concatenates_S262144x16_S262144x16_S262144x32_d1) : (⟨S262144x16, .f32⟩ : BufTy).Contents (Elt F) → (⟨S262144x16, .f32⟩ : BufTy).Contents (Elt F) → (⟨S262144x32, .f32⟩ : BufTy).Contents (Elt F)),
    binary main_v160 main_arg21 main_v161 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg22 main_v162 (broadcastInDim S1x16 ![1] bcast_S16_S1x16_1 : (⟨S16, .f32⟩ : BufTy).Contents (Elt F) → (⟨S1x16, .f32⟩ : BufTy).Contents (Elt F)),
    unary main_v162 main_v163 (broadcastInDim S262144x16 ![0, 1] bcast_S1x16_S262144x16_0_1 : (⟨S1x16, .f32⟩ : BufTy).Contents (Elt F) → (⟨S262144x16, .f32⟩ : BufTy).Contents (Elt F)),
    binary main_v161 main_v163 main_v164 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S262144x16, .f32⟩) main_call9_v0) (broadcastInDim S262144x16 ![] bcast_S_S262144x16),
    TRef.binary (TRef.of (T := ⟨S262144x16, .f32⟩) main_v164) (TRef.of (T := ⟨S262144x16, .f32⟩) main_call9_v0) (TRef.of (T := ⟨S262144x16, .f32⟩) main_v165) maximumf,
    binary main_v165 main_arg23 main_v166 ((fun l r => Host.dotGeneral dot_S262144x16_S16x16_S262144x16_1_0_0_1_n_n none l r) : (⟨S262144x16, .f32⟩ : BufTy).Contents (Elt F) → (⟨S16x16, .f32⟩ : BufTy).Contents (Elt F) → (⟨S262144x16, .f32⟩ : BufTy).Contents (Elt F)),
    unary main_arg24 main_v167 (broadcastInDim S1x16 ![1] bcast_S16_S1x16_1 : (⟨S16, .f32⟩ : BufTy).Contents (Elt F) → (⟨S1x16, .f32⟩ : BufTy).Contents (Elt F)),
    unary main_v167 main_v168 (broadcastInDim S262144x16 ![0, 1] bcast_S1x16_S262144x16_0_1 : (⟨S1x16, .f32⟩ : BufTy).Contents (Elt F) → (⟨S262144x16, .f32⟩ : BufTy).Contents (Elt F)),
    binary main_v166 main_v168 main_v169 (addf : (⟨S262144x16, .f32⟩ : BufTy).Contents (Elt F) → (⟨S262144x16, .f32⟩ : BufTy).Contents (Elt F) → (⟨S262144x16, .f32⟩ : BufTy).Contents (Elt F)),
    nullary main_c_19 (constantI S_ 32 0#32),
    unary main_c_19 main_v170 (broadcastInDim S1310720 ![] bcast_S_S1310720 : (⟨S_, .i32⟩ : BufTy).Contents (Elt F) → (⟨S1310720, .i32⟩ : BufTy).Contents (Elt F)),
    binary main_arg3 main_v170 main_v171 (cmpi .slt : (⟨S1310720, .i32⟩ : BufTy).Contents (Elt F) → (⟨S1310720, .i32⟩ : BufTy).Contents (Elt F) → (⟨S1310720, .i1⟩ : BufTy).Contents (Elt F)),
    nullary main_c_20 (constantI S_ 32 262144#32),
    unary main_c_20 main_v172 (broadcastInDim S1310720 ![] bcast_S_S1310720 : (⟨S_, .i32⟩ : BufTy).Contents (Elt F) → (⟨S1310720, .i32⟩ : BufTy).Contents (Elt F)),
    binary main_arg3 main_v172 main_v173 (addi : (⟨S1310720, .i32⟩ : BufTy).Contents (Elt F) → (⟨S1310720, .i32⟩ : BufTy).Contents (Elt F) → (⟨S1310720, .i32⟩ : BufTy).Contents (Elt F)),
    ternary main_v171 main_v173 main_arg3 main_v174 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v174 main_v175 (broadcastInDim S1310720x1 ![0] bcast_S1310720_S1310720x1_0 : (⟨S1310720, .i32⟩ : BufTy).Contents (Elt F) → (⟨S1310720x1, .i32⟩ : BufTy).Contents (Elt F)),
    binary main_v169 main_v175 main_v176 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)),
    nullary main_c_21 (constantI S_ 32 0#32),
    unary main_c_21 main_v177 (broadcastInDim S1310720 ![] bcast_S_S1310720 : (⟨S_, .i32⟩ : BufTy).Contents (Elt F) → (⟨S1310720, .i32⟩ : BufTy).Contents (Elt F)),
    binary main_arg2 main_v177 main_v178 (cmpi .slt : (⟨S1310720, .i32⟩ : BufTy).Contents (Elt F) → (⟨S1310720, .i32⟩ : BufTy).Contents (Elt F) → (⟨S1310720, .i1⟩ : BufTy).Contents (Elt F)),
    nullary main_c_22 (constantI S_ 32 262144#32),
    unary main_c_22 main_v179 (broadcastInDim S1310720 ![] bcast_S_S1310720 : (⟨S_, .i32⟩ : BufTy).Contents (Elt F) → (⟨S1310720, .i32⟩ : BufTy).Contents (Elt F)),
    binary main_arg2 main_v179 main_v180 (addi : (⟨S1310720, .i32⟩ : BufTy).Contents (Elt F) → (⟨S1310720, .i32⟩ : BufTy).Contents (Elt F) → (⟨S1310720, .i32⟩ : BufTy).Contents (Elt F)),
    ternary main_v178 main_v180 main_arg2 main_v181 (select : (⟨S1310720, .i1⟩ : BufTy).Contents (Elt F) → (⟨S1310720, .i32⟩ : BufTy).Contents (Elt F) → (⟨S1310720, .i32⟩ : BufTy).Contents (Elt F) → (⟨S1310720, .i32⟩ : BufTy).Contents (Elt F)),
    unary main_v181 main_v182 (broadcastInDim S1310720x1 ![0] bcast_S1310720_S1310720x1_0 : (⟨S1310720, .i32⟩ : BufTy).Contents (Elt F) → (⟨S1310720x1, .i32⟩ : BufTy).Contents (Elt F)),
    binary main_v169 main_v182 main_v183 ((fun x i => Host.gather gather_S262144x16_S1310720x1_S1310720x16_1_0_n_n_0_1_116 x i) : (⟨S262144x16, .f32⟩ : BufTy).Contents (Elt F) → (⟨S1310720x1, .i32⟩ : BufTy).Contents (Elt F) → (⟨S1310720x16, .f32⟩ : BufTy).Contents (Elt F)) ]

theorem B11_sub : (B11 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem B11_fresh : ∀ op ∈ (B11 : List (HloOp τ sig (Elt F))), op.fresh = ∅ := by
  intro _ h; (repeat (cases h with | head => rfl | tail _ h => ?_)); exact nomatch h

abbrev B12 : List (HloOp τ sig (Elt F)) :=
  [ nary ![main_v176, main_v183, main_v156] main_v184 (fun u => concatenate S1310720x48 1 [⟨S1310720x16, u 0⟩, ⟨S1310720x16, u 1⟩, ⟨S1310720x16, u 2⟩] concatenates_S1310720x16_S1310720x16_S1310720x16_S1310720x48_d1),
    binary main_v184 main_arg17 main_v185 ((fun l r => Host.dotGeneral dot_S1310720x48_S48x16_S1310720x16_1_0_0_1_n_n none l r) : (⟨S1310720x48, .f32⟩ : BufTy).Contents (Elt F) → (⟨S48x16, .f32⟩ : BufTy).Contents (Elt F) → (⟨S1310720x16, .f32⟩ : BufTy).Contents (Elt F)),
    unary main_arg18 main_v186 (broadcastInDim S1x16 ![1] bcast_S16_S1x16_1 : (⟨S16, .f32⟩ : BufTy).Contents (Elt F) → (⟨S1x16, .f32⟩ : BufTy).Contents (Elt F)),
    unary main_v186 main_v187 (broadcastInDim S1310720x16 ![0, 1] bcast_S1x16_S1310720x16_0_1 : (⟨S1x16, .f32⟩ : BufTy).Contents (Elt F) → (⟨S1310720x16, .f32⟩ : BufTy).Contents (Elt F)),
    binary main_v185 main_v187 main_v188 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1310720x16, .f32⟩) main_call10_v0) (broadcastInDim S1310720x16 ![] bcast_S_S1310720x16),
    TRef.binary (TRef.of (T := ⟨S1310720x16, .f32⟩) main_v188) (TRef.of (T := ⟨S1310720x16, .f32⟩) main_call10_v0) (TRef.of (T := ⟨S1310720x16, .f32⟩) main_v189) maximumf,
    binary main_v189 main_arg19 main_v190 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg20 main_v191 (broadcastInDim S1x16 ![1] bcast_S16_S1x16_1 : (⟨S16, .f32⟩ : BufTy).Contents (Elt F) → (⟨S1x16, .f32⟩ : BufTy).Contents (Elt F)),
    unary main_v191 main_v192 (broadcastInDim S1310720x16 ![0, 1] bcast_S1x16_S1310720x16_0_1 : (⟨S1x16, .f32⟩ : BufTy).Contents (Elt F) → (⟨S1310720x16, .f32⟩ : BufTy).Contents (Elt F)),
    binary main_v190 main_v192 main_v193 (addf : (⟨S1310720x16, .f32⟩ : BufTy).Contents (Elt F) → (⟨S1310720x16, .f32⟩ : BufTy).Contents (Elt F) → (⟨S1310720x16, .f32⟩ : BufTy).Contents (Elt F)),
    nullary main_cst_23 (constant S_ .f32 0x00000000#32),
    unary main_cst_23 main_v194 (broadcastInDim S262144x16 ![] bcast_S_S262144x16 : (⟨S_, .f32⟩ : BufTy).Contents (Elt F) → (⟨S262144x16, .f32⟩ : BufTy).Contents (Elt F)),
    unary main_arg2 main_v195 (broadcastInDim S1310720x1 ![0] bcast_S1310720_S1310720x1_0 : (⟨S1310720, .i32⟩ : BufTy).Contents (Elt F) → (⟨S1310720x1, .i32⟩ : BufTy).Contents (Elt F)),
    ternary main_v194 main_v195 main_v193 main_v196 ((fun x i u => Host.scatterAdd scatter_S262144x16_S1310720x1_S1310720x16_1_0_0_1 x i u) : (⟨S262144x16, .f32⟩ : BufTy).Contents (Elt F) → (⟨S1310720x1, .i32⟩ : BufTy).Contents (Elt F) → (⟨S1310720x16, .f32⟩ : BufTy).Contents (Elt F) → (⟨S262144x16, .f32⟩ : BufTy).Contents (Elt F)) ]

theorem B12_sub : (B12 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩

theorem B12_fresh : ∀ op ∈ (B12 : List (HloOp τ sig (Elt F))), op.fresh = ∅ := by
  intro _ h; (repeat (cases h with | head => rfl | tail _ h => ?_)); exact nomatch h

abbrev B13 : List (HloOp τ sig (Elt F)) :=
  [ binary main_v169 main_v196 main_v197 ((fun a b => concatenate S262144x32 1 [⟨S262144x16, a⟩, ⟨S262144x16, b⟩] concatenates_S262144x16_S262144x16_S262144x32_d1) : (⟨S262144x16, .f32⟩ : BufTy).Contents (Elt F) → (⟨S262144x16, .f32⟩ : BufTy).Contents (Elt F) → (⟨S262144x32, .f32⟩ : BufTy).Contents (Elt F)),
    binary main_v197 main_arg21 main_v198 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg22 main_v199 (broadcastInDim S1x16 ![1] bcast_S16_S1x16_1 : (⟨S16, .f32⟩ : BufTy).Contents (Elt F) → (⟨S1x16, .f32⟩ : BufTy).Contents (Elt F)),
    unary main_v199 main_v200 (broadcastInDim S262144x16 ![0, 1] bcast_S1x16_S262144x16_0_1 : (⟨S1x16, .f32⟩ : BufTy).Contents (Elt F) → (⟨S262144x16, .f32⟩ : BufTy).Contents (Elt F)),
    binary main_v198 main_v200 main_v201 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S262144x16, .f32⟩) main_call11_v0) (broadcastInDim S262144x16 ![] bcast_S_S262144x16),
    TRef.binary (TRef.of (T := ⟨S262144x16, .f32⟩) main_v201) (TRef.of (T := ⟨S262144x16, .f32⟩) main_call11_v0) (TRef.of (T := ⟨S262144x16, .f32⟩) main_v202) maximumf,
    binary main_v202 main_arg23 main_v203 ((fun l r => Host.dotGeneral dot_S262144x16_S16x16_S262144x16_1_0_0_1_n_n none l r) : (⟨S262144x16, .f32⟩ : BufTy).Contents (Elt F) → (⟨S16x16, .f32⟩ : BufTy).Contents (Elt F) → (⟨S262144x16, .f32⟩ : BufTy).Contents (Elt F)),
    unary main_arg24 main_v204 (broadcastInDim S1x16 ![1] bcast_S16_S1x16_1 : (⟨S16, .f32⟩ : BufTy).Contents (Elt F) → (⟨S1x16, .f32⟩ : BufTy).Contents (Elt F)),
    unary main_v204 main_v205 (broadcastInDim S262144x16 ![0, 1] bcast_S1x16_S262144x16_0_1 : (⟨S1x16, .f32⟩ : BufTy).Contents (Elt F) → (⟨S262144x16, .f32⟩ : BufTy).Contents (Elt F)),
    binary main_v203 main_v205 main_v206 (addf : (⟨S262144x16, .f32⟩ : BufTy).Contents (Elt F) → (⟨S262144x16, .f32⟩ : BufTy).Contents (Elt F) → (⟨S262144x16, .f32⟩ : BufTy).Contents (Elt F)),
    unary main_arg4 main_v207 ((extractStridedSlice S655360x1 ![0, 0] · slices_S655360x2_S655360x1_0_0) : (⟨S655360x2, .i32⟩ : BufTy).Contents (Elt F) → (⟨S655360x1, .i32⟩ : BufTy).Contents (Elt F)),
    reshape main_v207 main_v208 rfl shapeCasts_S655360x1_S655360,
    nullary main_c_24 (constantI S_ 32 0#32),
    unary main_c_24 main_v209 (broadcastInDim S655360 ![] bcast_S_S655360 : (⟨S_, .i32⟩ : BufTy).Contents (Elt F) → (⟨S655360, .i32⟩ : BufTy).Contents (Elt F)),
    binary main_v208 main_v209 main_v210 (cmpi .slt : (⟨S655360, .i32⟩ : BufTy).Contents (Elt F) → (⟨S655360, .i32⟩ : BufTy).Contents (Elt F) → (⟨S655360, .i1⟩ : BufTy).Contents (Elt F)),
    nullary main_c_25 (constantI S_ 32 1310720#32),
    unary main_c_25 main_v211 (broadcastInDim S655360 ![] bcast_S_S655360 : (⟨S_, .i32⟩ : BufTy).Contents (Elt F) → (⟨S655360, .i32⟩ : BufTy).Contents (Elt F)) ]

theorem B13_sub : (B13 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub ..⟩

theorem B13_fresh : ∀ op ∈ (B13 : List (HloOp τ sig (Elt F))), op.fresh = ∅ := by
  intro _ h; (repeat (cases h with | head => rfl | tail _ h => ?_)); exact nomatch h

abbrev B14 : List (HloOp τ sig (Elt F)) :=
  [ binary main_v208 main_v211 main_v212 (addi : (⟨S655360, .i32⟩ : BufTy).Contents (Elt F) → (⟨S655360, .i32⟩ : BufTy).Contents (Elt F) → (⟨S655360, .i32⟩ : BufTy).Contents (Elt F)),
    ternary main_v210 main_v212 main_v208 main_v213 (select : (⟨S655360, .i1⟩ : BufTy).Contents (Elt F) → (⟨S655360, .i32⟩ : BufTy).Contents (Elt F) → (⟨S655360, .i32⟩ : BufTy).Contents (Elt F) → (⟨S655360, .i32⟩ : BufTy).Contents (Elt F)),
    unary main_v213 main_v214 (broadcastInDim S655360x1 ![0] bcast_S655360_S655360x1_0 : (⟨S655360, .i32⟩ : BufTy).Contents (Elt F) → (⟨S655360x1, .i32⟩ : BufTy).Contents (Elt F)),
    binary main_v193 main_v214 main_v215 ((fun x i => Host.gather gather_S1310720x16_S655360x1_S655360x16_1_0_n_n_0_1_116 x i) : (⟨S1310720x16, .f32⟩ : BufTy).Contents (Elt F) → (⟨S655360x1, .i32⟩ : BufTy).Contents (Elt F) → (⟨S655360x16, .f32⟩ : BufTy).Contents (Elt F)),
    unary main_arg4 main_v216 ((extractStridedSlice S655360x1 ![0, 1] · slices_S655360x2_S655360x1_0_1) : (⟨S655360x2, .i32⟩ : BufTy).Contents (Elt F) → (⟨S655360x1, .i32⟩ : BufTy).Contents (Elt F)),
    reshape main_v216 main_v217 rfl shapeCasts_S655360x1_S655360,
    nullary main_c_26 (constantI S_ 32 0#32),
    unary main_c_26 main_v218 (broadcastInDim S655360 ![] bcast_S_S655360 : (⟨S_, .i32⟩ : BufTy).Contents (Elt F) → (⟨S655360, .i32⟩ : BufTy).Contents (Elt F)),
    binary main_v217 main_v218 main_v219 (cmpi .slt : (⟨S655360, .i32⟩ : BufTy).Contents (Elt F) → (⟨S655360, .i32⟩ : BufTy).Contents (Elt F) → (⟨S655360, .i1⟩ : BufTy).Contents (Elt F)),
    nullary main_c_27 (constantI S_ 32 1310720#32),
    unary main_c_27 main_v220 (broadcastInDim S655360 ![] bcast_S_S655360 : (⟨S_, .i32⟩ : BufTy).Contents (Elt F) → (⟨S655360, .i32⟩ : BufTy).Contents (Elt F)),
    binary main_v217 main_v220 main_v221 (addi : (⟨S655360, .i32⟩ : BufTy).Contents (Elt F) → (⟨S655360, .i32⟩ : BufTy).Contents (Elt F) → (⟨S655360, .i32⟩ : BufTy).Contents (Elt F)),
    ternary main_v219 main_v221 main_v217 main_v222 (select : (⟨S655360, .i1⟩ : BufTy).Contents (Elt F) → (⟨S655360, .i32⟩ : BufTy).Contents (Elt F) → (⟨S655360, .i32⟩ : BufTy).Contents (Elt F) → (⟨S655360, .i32⟩ : BufTy).Contents (Elt F)),
    unary main_v222 main_v223 (broadcastInDim S655360x1 ![0] bcast_S655360_S655360x1_0 : (⟨S655360, .i32⟩ : BufTy).Contents (Elt F) → (⟨S655360x1, .i32⟩ : BufTy).Contents (Elt F)),
    binary main_v193 main_v223 main_v224 ((fun x i => Host.gather gather_S1310720x16_S655360x1_S655360x16_1_0_n_n_0_1_116 x i) : (⟨S1310720x16, .f32⟩ : BufTy).Contents (Elt F) → (⟨S655360x1, .i32⟩ : BufTy).Contents (Elt F) → (⟨S655360x16, .f32⟩ : BufTy).Contents (Elt F)),
    binary main_v215 main_v224 main_v225 (addf : (⟨S655360x16, .f32⟩ : BufTy).Contents (Elt F) → (⟨S655360x16, .f32⟩ : BufTy).Contents (Elt F) → (⟨S655360x16, .f32⟩ : BufTy).Contents (Elt F)),
    nullary main_cst_28 (constant S_ .f32 0x3F000000#32),
    unary main_cst_28 main_v226 (broadcastInDim S655360x16 ![] bcast_S_S655360x16 : (⟨S_, .f32⟩ : BufTy).Contents (Elt F) → (⟨S655360x16, .f32⟩ : BufTy).Contents (Elt F)),
    binary main_v226 main_v225 main_v227 (mulf : (⟨S655360x16, .f32⟩ : BufTy).Contents (Elt F) → (⟨S655360x16, .f32⟩ : BufTy).Contents (Elt F) → (⟨S655360x16, .f32⟩ : BufTy).Contents (Elt F)) ]

theorem B14_sub : (B14 : List (HloOp τ sig (Elt F))).Forall fun op => op.bufs ⊆ tcRefs τ sig :=
  ⟨binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

theorem B14_fresh : ∀ op ∈ (B14 : List (HloOp τ sig (Elt F))), op.fresh = ∅ := by
  intro _ h; (repeat (cases h with | head => rfl | tail _ h => ?_)); exact nomatch h

abbrev B15 : List (HloOp τ sig (Elt F)) :=
  [ unary main_arg4 main_v228 ((extractStridedSlice S655360x1 ![0, 0] · slices_S655360x2_S655360x1_0_0) : (⟨S655360x2, .i32⟩ : BufTy).Contents (Elt F) → (⟨S655360x1, .i32⟩ : BufTy).Contents (Elt F)),
    reshape main_v228 main_v229 rfl shapeCasts_S655360x1_S655360,
    nullary main_c_29 (constantI S_ 32 0#32),
    unary main_c_29 main_v230 (broadcastInDim S655360 ![] bcast_S_S655360 : (⟨S_, .i32⟩ : BufTy).Contents (Elt F) → (⟨S655360, .i32⟩ : BufTy).Contents (Elt F)),
    binary main_v229 main_v230 main_v231 (cmpi .slt : (⟨S655360, .i32⟩ : BufTy).Contents (Elt F) → (⟨S655360, .i32⟩ : BufTy).Contents (Elt F) → (⟨S655360, .i1⟩ : BufTy).Contents (Elt F)),
    nullary main_c_30 (constantI S_ 32 1310720#32),
    unary main_c_30 main_v232 (broadcastInDim S655360 ![] bcast_S_S655360 : (⟨S_, .i32⟩ : BufTy).Contents (Elt F) → (⟨S655360, .i32⟩ : BufTy).Contents (Elt F)),
    binary main_v229 main_v232 main_v233 (addi : (⟨S655360, .i32⟩ : BufTy).Contents (Elt F) → (⟨S655360, .i32⟩ : BufTy).Contents (Elt F) → (⟨S655360, .i32⟩ : BufTy).Contents (Elt F)),
    ternary main_v231 main_v233 main_v229 main_v234 (select : (⟨S655360, .i1⟩ : BufTy).Contents (Elt F) → (⟨S655360, .i32⟩ : BufTy).Contents (Elt F) → (⟨S655360, .i32⟩ : BufTy).Contents (Elt F) → (⟨S655360, .i32⟩ : BufTy).Contents (Elt F)),
    unary main_v234 main_v235 (broadcastInDim S655360x1 ![0] bcast_S655360_S655360x1_0 : (⟨S655360, .i32⟩ : BufTy).Contents (Elt F) → (⟨S655360x1, .i32⟩ : BufTy).Contents (Elt F)),
    ternary main_v193 main_v235 main_v227 main_v236 ((fun x i u => Host.scatter scatter_S1310720x16_S655360x1_S655360x16_1_0_0_1 (fun _ b => b) x i u) : (⟨S1310720x16, .f32⟩ : BufTy).Contents (Elt F) → (⟨S655360x1, .i32⟩ : BufTy).Contents (Elt F) → (⟨S655360x16, .f32⟩ : BufTy).Contents (Elt F) → (⟨S1310720x16, .f32⟩ : BufTy).Contents (Elt F)),
    unary main_arg4 main_v237 ((extractStridedSlice S655360x1 ![0, 1] · slices_S655360x2_S655360x1_0_1) : (⟨S655360x2, .i32⟩ : BufTy).Contents (Elt F) → (⟨S655360x1, .i32⟩ : BufTy).Contents (Elt F)),
    reshape main_v237 main_v238 rfl shapeCasts_S655360x1_S655360,
    nullary main_c_31 (constantI S_ 32 0#32),
    unary main_c_31 main_v239 (broadcastInDim S655360 ![] bcast_S_S655360 : (⟨S_, .i32⟩ : BufTy).Contents (Elt F) → (⟨S655360, .i32⟩ : BufTy).Contents (Elt F)),
    binary main_v238 main_v239 main_v240 (cmpi .slt : (⟨S655360, .i32⟩ : BufTy).Contents (Elt F) → (⟨S655360, .i32⟩ : BufTy).Contents (Elt F) → (⟨S655360, .i1⟩ : BufTy).Contents (Elt F)),
    nullary main_c_32 (constantI S_ 32 1310720#32),
    unary main_c_32 main_v241 (broadcastInDim S655360 ![] bcast_S_S655360 : (⟨S_, .i32⟩ : BufTy).Contents (Elt F) → (⟨S655360, .i32⟩ : BufTy).Contents (Elt F)),
    binary main_v238 main_v241 main_v242 (addi : (⟨S655360, .i32⟩ : BufTy).Contents (Elt F) → (⟨S655360, .i32⟩ : BufTy).Contents (Elt F) → (⟨S655360, .i32⟩ : BufTy).Contents (Elt F)),
    ternary main_v240 main_v242 main_v238 main_v243 (select : (⟨S655360, .i1⟩ : BufTy).Contents (Elt F) → (⟨S655360, .i32⟩ : BufTy).Contents (Elt F) → (⟨S655360, .i32⟩ : BufTy).Contents (Elt F) → (⟨S655360, .i32⟩ : BufTy).Contents (Elt F)),
    unary main_v243 main_v244 (broadcastInDim S655360x1 ![0] bcast_S655360_S655360x1_0 : (⟨S655360, .i32⟩ : BufTy).Contents (Elt F) → (⟨S655360x1, .i32⟩ : BufTy).Contents (Elt F)),
    ternary main_v236 main_v244 main_v227 main_v245 ((fun x i u => Host.scatter scatter_S1310720x16_S655360x1_S655360x16_1_0_0_1 (fun _ b => b) x i u) : (⟨S1310720x16, .f32⟩ : BufTy).Contents (Elt F) → (⟨S655360x1, .i32⟩ : BufTy).Contents (Elt F) → (⟨S655360x16, .f32⟩ : BufTy).Contents (Elt F) → (⟨S1310720x16, .f32⟩ : BufTy).Contents (Elt F)),
    binary main_v245 main_arg25 main_v246 ((fun l r => Host.dotGeneral dot_S1310720x16_S16x16_S1310720x16_1_0_0_1_n_n none l r) : (⟨S1310720x16, .f32⟩ : BufTy).Contents (Elt F) → (⟨S16x16, .f32⟩ : BufTy).Contents (Elt F) → (⟨S1310720x16, .f32⟩ : BufTy).Contents (Elt F)),
    unary main_arg26 main_v247 (broadcastInDim S1x16 ![1] bcast_S16_S1x16_1 : (⟨S16, .f32⟩ : BufTy).Contents (Elt F) → (⟨S1x16, .f32⟩ : BufTy).Contents (Elt F)),
    unary main_v247 main_v248 (broadcastInDim S1310720x16 ![0, 1] bcast_S1x16_S1310720x16_0_1 : (⟨S1x16, .f32⟩ : BufTy).Contents (Elt F) → (⟨S1310720x16, .f32⟩ : BufTy).Contents (Elt F)),
    binary main_v246 main_v248 main_v249 (addf : (⟨S1310720x16, .f32⟩ : BufTy).Contents (Elt F) → (⟨S1310720x16, .f32⟩ : BufTy).Contents (Elt F) → (⟨S1310720x16, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1310720x16, .f32⟩) main_call12_v0) (broadcastInDim S1310720x16 ![] bcast_S_S1310720x16),
    TRef.binary (TRef.of (T := ⟨S1310720x16, .f32⟩) main_v249) (TRef.of (T := ⟨S1310720x16, .f32⟩) main_call12_v0) (TRef.of (T := ⟨S1310720x16, .f32⟩) main_v250) maximumf,
    binary main_v250 main_arg27 main_v251 ((fun l r => Host.dotGeneral dot_S1310720x16_S16x1_S1310720x1_1_0_0_1_n_n none l r) : (⟨S1310720x16, .f32⟩ : BufTy).Contents (Elt F) → (⟨S16x1, .f32⟩ : BufTy).Contents (Elt F) → (⟨S1310720x1, .f32⟩ : BufTy).Contents (Elt F)),
    unary main_arg28 main_v252 (broadcastInDim S1x1 ![1] bcast_S1_S1x1_1 : (⟨S1, .f32⟩ : BufTy).Contents (Elt F) → (⟨S1x1, .f32⟩ : BufTy).Contents (Elt F)),
    unary main_v252 main_v253 (broadcastInDim S1310720x1 ![0, 1] bcast_S1x1_S1310720x1_0_1 : (⟨S1x1, .f32⟩ : BufTy).Contents (Elt F) → (⟨S1310720x1, .f32⟩ : BufTy).Contents (Elt F)),
    binary main_v251 main_v253 main_v254 (addf : (⟨S1310720x1, .f32⟩ : BufTy).Contents (Elt F) → (⟨S1310720x1, .f32⟩ : BufTy).Contents (Elt F) → (⟨S1310720x1, .f32⟩ : BufTy).Contents (Elt F)),
    unary main_v1 main_v255 (broadcastInDim S1310720x1 ![] bcast_S_S1310720x1 : (⟨S_, .f32⟩ : BufTy).Contents (Elt F) → (⟨S1310720x1, .f32⟩ : BufTy).Contents (Elt F)),
    binary main_v254 main_v255 main_v256 (mulf : (⟨S1310720x1, .f32⟩ : BufTy).Contents (Elt F) → (⟨S1310720x1, .f32⟩ : BufTy).Contents (Elt F) → (⟨S1310720x1, .f32⟩ : BufTy).Contents (Elt F)),
    unary main_arg29 main_v257 (broadcastInDim S1310720x1 ![] bcast_S_S1310720x1 : (⟨S_, .f32⟩ : BufTy).Contents (Elt F) → (⟨S1310720x1, .f32⟩ : BufTy).Contents (Elt F)),
    binary main_v257 main_v256 main_v258 (mulf : (⟨S1310720x1, .f32⟩ : BufTy).Contents (Elt F) → (⟨S1310720x1, .f32⟩ : BufTy).Contents (Elt F) → (⟨S1310720x1, .f32⟩ : BufTy).Contents (Elt F)),
    binary main_arg1 main_v258 main_v259 (addf : (⟨S1310720x1, .f32⟩ : BufTy).Contents (Elt F) → (⟨S1310720x1, .f32⟩ : BufTy).Contents (Elt F) → (⟨S1310720x1, .f32⟩ : BufTy).Contents (Elt F)),
    reshape main_v259 main_v260 rfl shapeCasts_S1310720x1_S1310720,
    binary main_arg3 main_arg2 main_v261 (cmpi .sge : (⟨S1310720, .i32⟩ : BufTy).Contents (Elt F) → (⟨S1310720, .i32⟩ : BufTy).Contents (Elt F) → (⟨S1310720, .i1⟩ : BufTy).Contents (Elt F)),
    nullary main_cst_33 (constant S_ .f32 0x00000000#32),
    TRef.unary (TRef.of (T := ⟨S_, .f32⟩) main_cst_33) (TRef.of (T := ⟨S1310720, .f32⟩) main_call13_v0) (broadcastInDim S1310720 ![] bcast_S_S1310720),
    TRef.ternary (TRef.of (T := ⟨S1310720, .i1⟩) main_v261) (TRef.of (T := ⟨S1310720, .f32⟩) main_v260) (TRef.of (T := ⟨S1310720, .f32⟩) main_call13_v0) (TRef.of (T := ⟨S1310720, .f32⟩) main_v262) select ]

theorem B15_sub : (B15 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., unary_bufs_sub .., binary_bufs_sub .., binary_bufs_sub .., reshape_bufs_sub .., binary_bufs_sub .., nullary_bufs_sub .., unary_bufs_sub .., ternary_bufs_sub ..⟩

theorem B15_fresh : ∀ op ∈ (B15 : List (HloOp τ sig (Elt F))), op.fresh = ∅ := by
  intro _ h; (repeat (cases h with | head => rfl | tail _ h => ?_)); exact nomatch h

set_option maxRecDepth 8192 in
set_option maxHeartbeats 4000000 in
theorem main_part0_eq (d : Dev nD) : main_part0 (F := F) d = seq (B0 ++ B1 ++ B2) := rfl

set_option maxRecDepth 8192 in
set_option maxHeartbeats 4000000 in
theorem main_part1_eq (d : Dev nD) : main_part1 (F := F) d = seq (B3 ++ B4 ++ B5) := rfl

set_option maxRecDepth 8192 in
set_option maxHeartbeats 4000000 in
theorem main_part2_eq (d : Dev nD) : main_part2 (F := F) d = seq (B6 ++ B7 ++ B8 ++ B9) := rfl

set_option maxRecDepth 8192 in
set_option maxHeartbeats 4000000 in
theorem main_part3_eq (d : Dev nD) : main_part3 (F := F) d = seq (B10 ++ B11 ++ B12 ++ B13) := rfl

set_option maxRecDepth 8192 in
set_option maxHeartbeats 4000000 in
theorem main_part4_eq (d : Dev nD) : main_part4 (F := F) d = seq (B14 ++ B15) := rfl

def ops : List (HloOp τ sig (Elt F)) := B0 ++ B1 ++ B2 ++ B3 ++ B4 ++ B5 ++ B6 ++ B7 ++ B8 ++ B9 ++ B10 ++ B11 ++ B12 ++ B13 ++ B14 ++ B15

theorem scopedRefs_eq : (Finset.univ.filter fun b : Ref sig .tc => b.isScoped) = ∅ := by decide
theorem scopedSems_eq : (Finset.univ.filter fun sm : SemLoc sig => sm.isScoped .tc) = ∅ := by decide

end Cert.Ref

end
-- ==== Proof.Ref.RunS0.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B0_W : List (Ref sig .tc) := [main_v0, main_cst, main_v1, main_v2, main_v3, main_v4, main_v5, main_v6, main_v7, main_call0_cst, main_call0_v0, main_v8, main_v9, main_v10, main_v11, main_v12, main_v13, main_v14, main_v15, main_v16, main_call1_cst, main_call1_v0, main_v17, main_v18, main_v19, main_v20, main_v21, main_c, main_v22, main_v23, main_c_0, main_v24, main_v25, main_v26, main_v27, main_v28, main_c_1, main_v29, main_v30, main_c_2, main_v31, main_v32, main_v33, main_v34, main_v35]

theorem B0_writes : (B0 : List (HloOp τ sig (Elt F))).Forall fun op => op.writes ⊆ (B0_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B0_keep (W : Valuation τ sig (Elt F)) (r : Ref sig .tc) (h : r ∉ B0_W) :
    after B0 W (Proc.devRef .tc r) = W (Proc.devRef .tc r) :=
  after_of_writes_sub B0 _ B0_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

set_option maxRecDepth 8192 in
set_option maxHeartbeats 1600000 in
theorem B0_main_v1
    (a1 : W (no_index (Proc.devRef .tc main_arg1)) = x1) :
    after B0 W (no_index (Proc.devRef .tc main_v1)) = val_main_v1 (F := F) x1 := by
  after_results_simp
  try dsimp only [Matrix.cons_val]
  try after_results_simp
  try simp only [TRef.ofBuf, TRef.toBuf, cast_eq]
  rw [a1]
  rfl

set_option maxRecDepth 8192 in
set_option maxHeartbeats 1600000 in
theorem B0_main_v12
    (a0 : W (no_index (Proc.devRef .tc main_arg0)) = x0)
    (a9 : W (no_index (Proc.devRef .tc main_arg9)) = x9)
    (a10 : W (no_index (Proc.devRef .tc main_arg10)) = x10)
    (a11 : W (no_index (Proc.devRef .tc main_arg11)) = x11)
    (a12 : W (no_index (Proc.devRef .tc main_arg12)) = x12) :
    after B0 W (no_index (Proc.devRef .tc main_v12)) = val_main_v12 (F := F) x0 x9 x10 x11 x12 := by
  after_results_simp
  try dsimp only [Matrix.cons_val]
  try after_results_simp
  try simp only [TRef.ofBuf, TRef.toBuf, cast_eq]
  rw [a0, a9, a10, a11, a12]
  rfl

set_option maxRecDepth 8192 in
set_option maxHeartbeats 1600000 in
theorem B0_main_v21
    (a1 : W (no_index (Proc.devRef .tc main_arg1)) = x1)
    (a13 : W (no_index (Proc.devRef .tc main_arg13)) = x13)
    (a14 : W (no_index (Proc.devRef .tc main_arg14)) = x14)
    (a15 : W (no_index (Proc.devRef .tc main_arg15)) = x15)
    (a16 : W (no_index (Proc.devRef .tc main_arg16)) = x16) :
    after B0 W (no_index (Proc.devRef .tc main_v21)) = val_main_v21 (F := F) x1 x13 x14 x15 x16 := by
  after_results_simp
  try dsimp only [Matrix.cons_val]
  try after_results_simp
  try simp only [TRef.ofBuf, TRef.toBuf, cast_eq]
  rw [a1, a13, a14, a15, a16]
  rfl

set_option maxRecDepth 8192 in
set_option maxHeartbeats 1600000 in
theorem B0_main_v28
    (a0 : W (no_index (Proc.devRef .tc main_arg0)) = x0)
    (a3 : W (no_index (Proc.devRef .tc main_arg3)) = x3)
    (a9 : W (no_index (Proc.devRef .tc main_arg9)) = x9)
    (a10 : W (no_index (Proc.devRef .tc main_arg10)) = x10)
    (a11 : W (no_index (Proc.devRef .tc main_arg11)) = x11)
    (a12 : W (no_index (Proc.devRef .tc main_arg12)) = x12) :
    after B0 W (no_index (Proc.devRef .tc main_v28)) = val_main_v28 (F := F) x0 x3 x9 x10 x11 x12 := by
  after_results_simp
  try dsimp only [Matrix.cons_val]
  try after_results_simp
  try simp only [TRef.ofBuf, TRef.toBuf, cast_eq]
  rw [a0, a3, a9, a10, a11, a12]
  rfl

set_option maxRecDepth 8192 in
set_option maxHeartbeats 1600000 in
theorem B0_main_v35
    (a0 : W (no_index (Proc.devRef .tc main_arg0)) = x0)
    (a2 : W (no_index (Proc.devRef .tc main_arg2)) = x2)
    (a9 : W (no_index (Proc.devRef .tc main_arg9)) = x9)
    (a10 : W (no_index (Proc.devRef .tc main_arg10)) = x10)
    (a11 : W (no_index (Proc.devRef .tc main_arg11)) = x11)
    (a12 : W (no_index (Proc.devRef .tc main_arg12)) = x12) :
    after B0 W (no_index (Proc.devRef .tc main_v35)) = val_main_v35 (F := F) x0 x2 x9 x10 x11 x12 := by
  after_results_simp
  try dsimp only [Matrix.cons_val]
  try after_results_simp
  try simp only [TRef.ofBuf, TRef.toBuf, cast_eq]
  rw [a0, a2, a9, a10, a11, a12]
  rfl

end Stages

end Cert.Ref

end
-- ==== Proof.Ref.RunS1.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B1_W : List (Ref sig .tc) := [main_v36, main_v37, main_v38, main_v39, main_v40, main_call2_cst, main_call2_v0, main_v41, main_v42, main_v43, main_v44, main_v45, main_cst_3, main_v46, main_v47, main_v48]

theorem B1_writes : (B1 : List (HloOp τ sig (Elt F))).Forall fun op => op.writes ⊆ (B1_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B1_keep (W : Valuation τ sig (Elt F)) (r : Ref sig .tc) (h : r ∉ B1_W) :
    after B1 W (Proc.devRef .tc r) = W (Proc.devRef .tc r) :=
  after_of_writes_sub B1 _ B1_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B1_main_v1 (h1 : W (no_index (Proc.devRef .tc main_v1)) = val_main_v1 (F := F) x1) :
    after B1 W (no_index (Proc.devRef .tc main_v1)) = val_main_v1 (F := F) x1 :=
  (B1_keep W main_v1 (by decide)).trans h1

theorem B1_main_v12 (h12 : W (no_index (Proc.devRef .tc main_v12)) = val_main_v12 (F := F) x0 x9 x10 x11 x12) :
    after B1 W (no_index (Proc.devRef .tc main_v12)) = val_main_v12 (F := F) x0 x9 x10 x11 x12 :=
  (B1_keep W main_v12 (by decide)).trans h12

set_option maxRecDepth 8192 in
set_option maxHeartbeats 1600000 in
theorem B1_main_v45
    (a17 : W (no_index (Proc.devRef .tc main_arg17)) = x17) (a18 : W (no_index (Proc.devRef .tc main_arg18)) = x18)
    (a19 : W (no_index (Proc.devRef .tc main_arg19)) = x19) (a20 : W (no_index (Proc.devRef .tc main_arg20)) = x20)
    (h21 : W (no_index (Proc.devRef .tc main_v21)) = val_main_v21 (F := F) x1 x13 x14 x15 x16)
    (h28 : W (no_index (Proc.devRef .tc main_v28)) = val_main_v28 (F := F) x0 x3 x9 x10 x11 x12)
    (h35 : W (no_index (Proc.devRef .tc main_v35)) = val_main_v35 (F := F) x0 x2 x9 x10 x11 x12) :
    after B1 W (no_index (Proc.devRef .tc main_v45)) = val_main_v45 (F := F) x0 x1 x2 x3 x9 x10 x11 x12 x13 x14 x15 x16 x17 x18 x19 x20 := by
  after_results_simp
  try dsimp only [Matrix.cons_val]
  try after_results_simp
  try simp only [TRef.ofBuf, TRef.toBuf, cast_eq]
  rw [a17, a18, a19, a20, h21, h28, h35]
  rfl

set_option maxRecDepth 8192 in
set_option maxHeartbeats 1600000 in
theorem B1_main_v48
    (a2 : W (no_index (Proc.devRef .tc main_arg2)) = x2)
    (a17 : W (no_index (Proc.devRef .tc main_arg17)) = x17) (a18 : W (no_index (Proc.devRef .tc main_arg18)) = x18)
    (a19 : W (no_index (Proc.devRef .tc main_arg19)) = x19) (a20 : W (no_index (Proc.devRef .tc main_arg20)) = x20)
    (h21 : W (no_index (Proc.devRef .tc main_v21)) = val_main_v21 (F := F) x1 x13 x14 x15 x16)
    (h28 : W (no_index (Proc.devRef .tc main_v28)) = val_main_v28 (F := F) x0 x3 x9 x10 x11 x12)
    (h35 : W (no_index (Proc.devRef .tc main_v35)) = val_main_v35 (F := F) x0 x2 x9 x10 x11 x12) :
    after B1 W (no_index (Proc.devRef .tc main_v48)) = val_main_v48 (F := F) x0 x1 x2 x3 x9 x10 x11 x12 x13 x14 x15 x16 x17 x18 x19 x20 := by
  after_results_simp
  try dsimp only [Matrix.cons_val]
  try after_results_simp
  try simp only [TRef.ofBuf, TRef.toBuf, cast_eq]
  rw [a2, a17, a18, a19, a20, h21, h28, h35]
  rfl

end Stages

end Cert.Ref

end
-- ==== Proof.Ref.RunS2.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B2_W : List (Ref sig .tc) := [main_v49, main_v50, main_v51, main_v52, main_v53]

theorem B2_writes : (B2 : List (HloOp τ sig (Elt F))).Forall fun op => op.writes ⊆ (B2_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B2_keep (W : Valuation τ sig (Elt F)) (r : Ref sig .tc) (h : r ∉ B2_W) :
    after B2 W (Proc.devRef .tc r) = W (Proc.devRef .tc r) :=
  after_of_writes_sub B2 _ B2_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B2_main_v1 (h1 : W (no_index (Proc.devRef .tc main_v1)) = val_main_v1 (F := F) x1) :
    after B2 W (no_index (Proc.devRef .tc main_v1)) = val_main_v1 (F := F) x1 :=
  (B2_keep W main_v1 (by decide)).trans h1

theorem B2_main_v45 (h45 : W (no_index (Proc.devRef .tc main_v45)) = val_main_v45 (F := F) x0 x1 x2 x3 x9 x10 x11 x12 x13 x14 x15 x16 x17 x18 x19 x20) :
    after B2 W (no_index (Proc.devRef .tc main_v45)) = val_main_v45 (F := F) x0 x1 x2 x3 x9 x10 x11 x12 x13 x14 x15 x16 x17 x18 x19 x20 :=
  (B2_keep W main_v45 (by decide)).trans h45

set_option maxRecDepth 8192 in
set_option maxHeartbeats 1600000 in
theorem B2_main_v53
    (a21 : W (no_index (Proc.devRef .tc main_arg21)) = x21)
    (a22 : W (no_index (Proc.devRef .tc main_arg22)) = x22)
    (h12 : W (no_index (Proc.devRef .tc main_v12)) = val_main_v12 (F := F) x0 x9 x10 x11 x12)
    (h48 : W (no_index (Proc.devRef .tc main_v48)) = val_main_v48 (F := F) x0 x1 x2 x3 x9 x10 x11 x12 x13 x14 x15 x16 x17 x18 x19 x20) :
    after B2 W (no_index (Proc.devRef .tc main_v53)) = val_main_v53 (F := F) x0 x1 x2 x3 x9 x10 x11 x12 x13 x14 x15 x16 x17 x18 x19 x20 x21 x22 := by
  after_results_simp
  try dsimp only [Matrix.cons_val]
  try after_results_simp
  try simp only [TRef.ofBuf, TRef.toBuf, cast_eq]
  rw [a21, a22, h12, h48]
  rfl

end Stages

end Cert.Ref

end
-- ==== Proof.Ref.RunS3.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B3_W : List (Ref sig .tc) := [main_call3_cst, main_call3_v0, main_v54, main_v55, main_v56, main_v57, main_v58, main_c_4, main_v59, main_v60, main_c_5, main_v61, main_v62, main_v63, main_v64, main_v65, main_c_6, main_v66, main_v67, main_c_7, main_v68, main_v69, main_v70, main_v71, main_v72]

theorem B3_writes : (B3 : List (HloOp τ sig (Elt F))).Forall fun op => op.writes ⊆ (B3_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B3_keep (W : Valuation τ sig (Elt F)) (r : Ref sig .tc) (h : r ∉ B3_W) :
    after B3 W (Proc.devRef .tc r) = W (Proc.devRef .tc r) :=
  after_of_writes_sub B3 _ B3_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B3_main_v1 (h1 : W (no_index (Proc.devRef .tc main_v1)) = val_main_v1 (F := F) x1) :
    after B3 W (no_index (Proc.devRef .tc main_v1)) = val_main_v1 (F := F) x1 :=
  (B3_keep W main_v1 (by decide)).trans h1

theorem B3_main_v45 (h45 : W (no_index (Proc.devRef .tc main_v45)) = val_main_v45 (F := F) x0 x1 x2 x3 x9 x10 x11 x12 x13 x14 x15 x16 x17 x18 x19 x20) :
    after B3 W (no_index (Proc.devRef .tc main_v45)) = val_main_v45 (F := F) x0 x1 x2 x3 x9 x10 x11 x12 x13 x14 x15 x16 x17 x18 x19 x20 :=
  (B3_keep W main_v45 (by decide)).trans h45

set_option maxRecDepth 8192 in
set_option maxHeartbeats 1600000 in
theorem B3_main_v58
    (a23 : W (no_index (Proc.devRef .tc main_arg23)) = x23)
    (a24 : W (no_index (Proc.devRef .tc main_arg24)) = x24)
    (h53 : W (no_index (Proc.devRef .tc main_v53)) = val_main_v53 (F := F) x0 x1 x2 x3 x9 x10 x11 x12 x13 x14 x15 x16 x17 x18 x19 x20 x21 x22) :
    after B3 W (no_index (Proc.devRef .tc main_v58)) = val_main_v58 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a23, a24, h53]
  rfl

set_option maxRecDepth 8192 in
set_option maxHeartbeats 1600000 in
theorem B3_main_v65
    (a3 : W (no_index (Proc.devRef .tc main_arg3)) = x3)
    (a23 : W (no_index (Proc.devRef .tc main_arg23)) = x23)
    (a24 : W (no_index (Proc.devRef .tc main_arg24)) = x24)
    (h53 : W (no_index (Proc.devRef .tc main_v53)) = val_main_v53 (F := F) x0 x1 x2 x3 x9 x10 x11 x12 x13 x14 x15 x16 x17 x18 x19 x20 x21 x22) :
    after B3 W (no_index (Proc.devRef .tc main_v65)) = val_main_v65 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a3, a23, a24, h53]
  rfl

set_option maxRecDepth 8192 in
set_option maxHeartbeats 1600000 in
theorem B3_main_v72
    (a2 : W (no_index (Proc.devRef .tc main_arg2)) = x2)
    (a23 : W (no_index (Proc.devRef .tc main_arg23)) = x23)
    (a24 : W (no_index (Proc.devRef .tc main_arg24)) = x24)
    (h53 : W (no_index (Proc.devRef .tc main_v53)) = val_main_v53 (F := F) x0 x1 x2 x3 x9 x10 x11 x12 x13 x14 x15 x16 x17 x18 x19 x20 x21 x22) :
    after B3 W (no_index (Proc.devRef .tc main_v72)) = val_main_v72 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, a23, a24, h53]
  rfl

end Stages

end Cert.Ref

end
-- ==== Proof.Ref.RunS4.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B4_W : List (Ref sig .tc) := [main_v73, main_v74, main_v75, main_v76, main_v77, main_call4_cst, main_call4_v0, main_v78, main_v79, main_v80, main_v81, main_v82, main_cst_8, main_v83, main_v84, main_v85]

theorem B4_writes : (B4 : List (HloOp τ sig (Elt F))).Forall fun op => op.writes ⊆ (B4_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B4_keep (W : Valuation τ sig (Elt F)) (r : Ref sig .tc) (h : r ∉ B4_W) :
    after B4 W (Proc.devRef .tc r) = W (Proc.devRef .tc r) :=
  after_of_writes_sub B4 _ B4_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B4_main_v1 (h1 : W (no_index (Proc.devRef .tc main_v1)) = val_main_v1 (F := F) x1) :
    after B4 W (no_index (Proc.devRef .tc main_v1)) = val_main_v1 (F := F) x1 :=
  (B4_keep W main_v1 (by decide)).trans h1

theorem B4_main_v58 (h58 : W (no_index (Proc.devRef .tc main_v58)) = val_main_v58 (F := F) x0 x1 x2 x3 x9 x10 x11 x12 x13 x14 x15 x16 x17 x18 x19 x20 x21 x22 x23 x24) :
    after B4 W (no_index (Proc.devRef .tc main_v58)) = val_main_v58 (F := F) x0 x1 x2 x3 x9 x10 x11 x12 x13 x14 x15 x16 x17 x18 x19 x20 x21 x22 x23 x24 :=
  (B4_keep W main_v58 (by decide)).trans h58

set_option maxRecDepth 8192 in
set_option maxHeartbeats 1600000 in
theorem B4_main_v82
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h45 : W (no_index (Proc.devRef .tc main_v45)) = val_main_v45 (F := F) x0 x1 x2 x3 x9 x10 x11 x12 x13 x14 x15 x16 x17 x18 x19 x20)
    (h65 : W (no_index (Proc.devRef .tc main_v65)) = val_main_v65 (F := F) x0 x1 x2 x3 x9 x10 x11 x12 x13 x14 x15 x16 x17 x18 x19 x20 x21 x22 x23 x24)
    (h72 : W (no_index (Proc.devRef .tc main_v72)) = val_main_v72 (F := F) x0 x1 x2 x3 x9 x10 x11 x12 x13 x14 x15 x16 x17 x18 x19 x20 x21 x22 x23 x24) :
    after B4 W (no_index (Proc.devRef .tc main_v82)) = val_main_v82 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a17, a18, a19, a20, h45, h65, h72]
  rfl

set_option maxRecDepth 8192 in
set_option maxHeartbeats 1600000 in
theorem B4_main_v85
    (a2 : W (no_index (Proc.devRef .tc main_arg2)) = x2)
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h45 : W (no_index (Proc.devRef .tc main_v45)) = val_main_v45 (F := F) x0 x1 x2 x3 x9 x10 x11 x12 x13 x14 x15 x16 x17 x18 x19 x20)
    (h65 : W (no_index (Proc.devRef .tc main_v65)) = val_main_v65 (F := F) x0 x1 x2 x3 x9 x10 x11 x12 x13 x14 x15 x16 x17 x18 x19 x20 x21 x22 x23 x24)
    (h72 : W (no_index (Proc.devRef .tc main_v72)) = val_main_v72 (F := F) x0 x1 x2 x3 x9 x10 x11 x12 x13 x14 x15 x16 x17 x18 x19 x20 x21 x22 x23 x24) :
    after B4 W (no_index (Proc.devRef .tc main_v85)) = val_main_v85 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, a17, a18, a19, a20, h45, h65, h72]
  rfl

end Stages

end Cert.Ref

end
-- ==== Proof.Ref.RunS5.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B5_W : List (Ref sig .tc) := [main_v86, main_v87, main_v88, main_v89, main_v90, main_call5_cst, main_call5_v0, main_v91, main_v92, main_v93, main_v94, main_v95, main_c_9, main_v96, main_v97, main_c_10, main_v98, main_v99, main_v100, main_v101, main_v102, main_c_11, main_v103, main_v104, main_c_12]

theorem B5_writes : (B5 : List (HloOp τ sig (Elt F))).Forall fun op => op.writes ⊆ (B5_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B5_keep (W : Valuation τ sig (Elt F)) (r : Ref sig .tc) (h : r ∉ B5_W) :
    after B5 W (Proc.devRef .tc r) = W (Proc.devRef .tc r) :=
  after_of_writes_sub B5 _ B5_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B5_main_v1 (h1 : W (no_index (Proc.devRef .tc main_v1)) = val_main_v1 (F := F) x1) :
    after B5 W (no_index (Proc.devRef .tc main_v1)) = val_main_v1 (F := F) x1 :=
  (B5_keep W main_v1 (by decide)).trans h1

theorem B5_main_v82 (h82 : W (no_index (Proc.devRef .tc main_v82)) = val_main_v82 (F := F) x0 x1 x2 x3 x9 x10 x11 x12 x13 x14 x15 x16 x17 x18 x19 x20 x21 x22 x23 x24) :
    after B5 W (no_index (Proc.devRef .tc main_v82)) = val_main_v82 (F := F) x0 x1 x2 x3 x9 x10 x11 x12 x13 x14 x15 x16 x17 x18 x19 x20 x21 x22 x23 x24 :=
  (B5_keep W main_v82 (by decide)).trans h82

set_option maxRecDepth 8192 in
set_option maxHeartbeats 1600000 in
theorem B5_main_v95
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h58 : W (no_index (Proc.devRef .tc main_v58)) = val_main_v58 (F := F) x0 x1 x2 x3 x9 x10 x11 x12 x13 x14 x15 x16 x17 x18 x19 x20 x21 x22 x23 x24)
    (h85 : W (no_index (Proc.devRef .tc main_v85)) = val_main_v85 (F := F) x0 x1 x2 x3 x9 x10 x11 x12 x13 x14 x15 x16 x17 x18 x19 x20 x21 x22 x23 x24) :
    after B5 W (no_index (Proc.devRef .tc main_v95)) = val_main_v95 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a21, a22, a23, a24, h58, h85]
  rfl

set_option maxRecDepth 8192 in
set_option maxHeartbeats 1600000 in
theorem B5_main_v102
    (a3 : W (no_index (Proc.devRef .tc main_arg3)) = x3)
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h58 : W (no_index (Proc.devRef .tc main_v58)) = val_main_v58 (F := F) x0 x1 x2 x3 x9 x10 x11 x12 x13 x14 x15 x16 x17 x18 x19 x20 x21 x22 x23 x24)
    (h85 : W (no_index (Proc.devRef .tc main_v85)) = val_main_v85 (F := F) x0 x1 x2 x3 x9 x10 x11 x12 x13 x14 x15 x16 x17 x18 x19 x20 x21 x22 x23 x24) :
    after B5 W (no_index (Proc.devRef .tc main_v102)) = val_main_v102 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a3, a21, a22, a23, a24, h58, h85]
  rfl

set_option maxRecDepth 8192 in
set_option maxHeartbeats 1600000 in
theorem B5_main_v104
    (a2 : W (no_index (Proc.devRef .tc main_arg2)) = x2) :
    after B5 W (no_index (Proc.devRef .tc main_v104)) = val_main_v104 (F := F) x2 := by
  after_results_simp
  try dsimp only [Matrix.cons_val]
  try after_results_simp
  try simp only [TRef.ofBuf, TRef.toBuf, cast_eq]
  rw [a2]
  rfl

set_option maxRecDepth 8192 in
set_option maxHeartbeats 1600000 in
theorem B5_main_c_12 :
    after B5 W (no_index (Proc.devRef .tc main_c_12)) = val_main_c_12 (F := F) := by
  after_results_simp
  try dsimp only [Matrix.cons_val]
  try after_results_simp
  try simp only [TRef.ofBuf, TRef.toBuf, cast_eq]
  rfl

end Stages

end Cert.Ref

end
-- ==== Proof.Ref.RunS6.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B6_W : List (Ref sig .tc) := [main_v105, main_v106, main_v107, main_v108, main_v109]

theorem B6_writes : (B6 : List (HloOp τ sig (Elt F))).Forall fun op => op.writes ⊆ (B6_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B6_keep (W : Valuation τ sig (Elt F)) (r : Ref sig .tc) (h : r ∉ B6_W) :
    after B6 W (Proc.devRef .tc r) = W (Proc.devRef .tc r) :=
  after_of_writes_sub B6 _ B6_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B6_main_v1 (h1 : W (no_index (Proc.devRef .tc main_v1)) = val_main_v1 (F := F) x1) :
    after B6 W (no_index (Proc.devRef .tc main_v1)) = val_main_v1 (F := F) x1 :=
  (B6_keep W main_v1 (by decide)).trans h1

theorem B6_main_v82 (h82 : W (no_index (Proc.devRef .tc main_v82)) = val_main_v82 (F := F) x0 x1 x2 x3 x9 x10 x11 x12 x13 x14 x15 x16 x17 x18 x19 x20 x21 x22 x23 x24) :
    after B6 W (no_index (Proc.devRef .tc main_v82)) = val_main_v82 (F := F) x0 x1 x2 x3 x9 x10 x11 x12 x13 x14 x15 x16 x17 x18 x19 x20 x21 x22 x23 x24 :=
  (B6_keep W main_v82 (by decide)).trans h82

theorem B6_main_v95 (h95 : W (no_index (Proc.devRef .tc main_v95)) = val_main_v95 (F := F) x0 x1 x2 x3 x9 x10 x11 x12 x13 x14 x15 x16 x17 x18 x19 x20 x21 x22 x23 x24) :
    after B6 W (no_index (Proc.devRef .tc main_v95)) = val_main_v95 (F := F) x0 x1 x2 x3 x9 x10 x11 x12 x13 x14 x15 x16 x17 x18 x19 x20 x21 x22 x23 x24 :=
  (B6_keep W main_v95 (by decide)).trans h95

theorem B6_main_v102 (h102 : W (no_index (Proc.devRef .tc main_v102)) = val_main_v102 (F := F) x0 x1 x2 x3 x9 x10 x11 x12 x13 x14 x15 x16 x17 x18 x19 x20 x21 x22 x23 x24) :
    after B6 W (no_index (Proc.devRef .tc main_v102)) = val_main_v102 (F := F) x0 x1 x2 x3 x9 x10 x11 x12 x13 x14 x15 x16 x17 x18 x19 x20 x21 x22 x23 x24 :=
  (B6_keep W main_v102 (by decide)).trans h102

set_option maxRecDepth 8192 in
set_option maxHeartbeats 1600000 in
theorem B6_main_v109
    (a2 : W (no_index (Proc.devRef .tc main_arg2)) = x2)
    (h95 : W (no_index (Proc.devRef .tc main_v95)) = val_main_v95 (F := F) x0 x1 x2 x3 x9 x10 x11 x12 x13 x14 x15 x16 x17 x18 x19 x20 x21 x22 x23 x24)
    (h104 : W (no_index (Proc.devRef .tc main_v104)) = val_main_v104 (F := F) x2)
    (h_c_12 : W (no_index (Proc.devRef .tc main_c_12)) = val_main_c_12 (F := F)) :
    after B6 W (no_index (Proc.devRef .tc main_v109)) = val_main_v109 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, h95, h104, h_c_12]
  rfl

end Stages

end Cert.Ref

end
-- ==== Proof.Ref.RunS7.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B7_W : List (Ref sig .tc) := [main_v110, main_v111, main_v112, main_v113, main_v114, main_call6_cst, main_call6_v0, main_v115, main_v116, main_v117, main_v118, main_v119, main_cst_13, main_v120, main_v121, main_v122]

theorem B7_writes : (B7 : List (HloOp τ sig (Elt F))).Forall fun op => op.writes ⊆ (B7_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B7_keep (W : Valuation τ sig (Elt F)) (r : Ref sig .tc) (h : r ∉ B7_W) :
    after B7 W (Proc.devRef .tc r) = W (Proc.devRef .tc r) :=
  after_of_writes_sub B7 _ B7_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B7_main_v1 (h1 : W (no_index (Proc.devRef .tc main_v1)) = val_main_v1 (F := F) x1) :
    after B7 W (no_index (Proc.devRef .tc main_v1)) = val_main_v1 (F := F) x1 :=
  (B7_keep W main_v1 (by decide)).trans h1

theorem B7_main_v95 (h95 : W (no_index (Proc.devRef .tc main_v95)) = val_main_v95 (F := F) x0 x1 x2 x3 x9 x10 x11 x12 x13 x14 x15 x16 x17 x18 x19 x20 x21 x22 x23 x24) :
    after B7 W (no_index (Proc.devRef .tc main_v95)) = val_main_v95 (F := F) x0 x1 x2 x3 x9 x10 x11 x12 x13 x14 x15 x16 x17 x18 x19 x20 x21 x22 x23 x24 :=
  (B7_keep W main_v95 (by decide)).trans h95

set_option maxRecDepth 8192 in
set_option maxHeartbeats 1600000 in
theorem B7_main_v119
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h82 : W (no_index (Proc.devRef .tc main_v82)) = val_main_v82 (F := F) x0 x1 x2 x3 x9 x10 x11 x12 x13 x14 x15 x16 x17 x18 x19 x20 x21 x22 x23 x24)
    (h102 : W (no_index (Proc.devRef .tc main_v102)) = val_main_v102 (F := F) x0 x1 x2 x3 x9 x10 x11 x12 x13 x14 x15 x16 x17 x18 x19 x20 x21 x22 x23 x24)
    (h109 : W (no_index (Proc.devRef .tc main_v109)) = val_main_v109 (F := F) x0 x1 x2 x3 x9 x10 x11 x12 x13 x14 x15 x16 x17 x18 x19 x20 x21 x22 x23 x24) :
    after B7 W (no_index (Proc.devRef .tc main_v119)) = val_main_v119 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a17, a18, a19, a20, h82, h102, h109]
  rfl

set_option maxRecDepth 8192 in
set_option maxHeartbeats 1600000 in
theorem B7_main_v122
    (a2 : W (no_index (Proc.devRef .tc main_arg2)) = x2)
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h82 : W (no_index (Proc.devRef .tc main_v82)) = val_main_v82 (F := F) x0 x1 x2 x3 x9 x10 x11 x12 x13 x14 x15 x16 x17 x18 x19 x20 x21 x22 x23 x24)
    (h102 : W (no_index (Proc.devRef .tc main_v102)) = val_main_v102 (F := F) x0 x1 x2 x3 x9 x10 x11 x12 x13 x14 x15 x16 x17 x18 x19 x20 x21 x22 x23 x24)
    (h109 : W (no_index (Proc.devRef .tc main_v109)) = val_main_v109 (F := F) x0 x1 x2 x3 x9 x10 x11 x12 x13 x14 x15 x16 x17 x18 x19 x20 x21 x22 x23 x24) :
    after B7 W (no_index (Proc.devRef .tc main_v122)) = val_main_v122 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, a17, a18, a19, a20, h82, h102, h109]
  rfl

end Stages

end Cert.Ref

end
-- ==== Proof.Ref.RunS8.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B8_W : List (Ref sig .tc) := [main_v123, main_v124, main_v125, main_v126, main_v127, main_call7_cst, main_call7_v0, main_v128, main_v129, main_v130, main_v131, main_v132, main_c_14, main_v133, main_v134, main_c_15, main_v135, main_v136, main_v137, main_v138, main_v139, main_c_16, main_v140, main_v141, main_c_17, main_v142, main_v143, main_v144, main_v145, main_v146]

theorem B8_writes : (B8 : List (HloOp τ sig (Elt F))).Forall fun op => op.writes ⊆ (B8_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B8_keep (W : Valuation τ sig (Elt F)) (r : Ref sig .tc) (h : r ∉ B8_W) :
    after B8 W (Proc.devRef .tc r) = W (Proc.devRef .tc r) :=
  after_of_writes_sub B8 _ B8_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B8_main_v1 (h1 : W (no_index (Proc.devRef .tc main_v1)) = val_main_v1 (F := F) x1) :
    after B8 W (no_index (Proc.devRef .tc main_v1)) = val_main_v1 (F := F) x1 :=
  (B8_keep W main_v1 (by decide)).trans h1

theorem B8_main_v119 (h119 : W (no_index (Proc.devRef .tc main_v119)) = val_main_v119 (F := F) x0 x1 x2 x3 x9 x10 x11 x12 x13 x14 x15 x16 x17 x18 x19 x20 x21 x22 x23 x24) :
    after B8 W (no_index (Proc.devRef .tc main_v119)) = val_main_v119 (F := F) x0 x1 x2 x3 x9 x10 x11 x12 x13 x14 x15 x16 x17 x18 x19 x20 x21 x22 x23 x24 :=
  (B8_keep W main_v119 (by decide)).trans h119

set_option maxRecDepth 8192 in
set_option maxHeartbeats 1600000 in
theorem B8_main_v132
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h95 : W (no_index (Proc.devRef .tc main_v95)) = val_main_v95 (F := F) x0 x1 x2 x3 x9 x10 x11 x12 x13 x14 x15 x16 x17 x18 x19 x20 x21 x22 x23 x24)
    (h122 : W (no_index (Proc.devRef .tc main_v122)) = val_main_v122 (F := F) x0 x1 x2 x3 x9 x10 x11 x12 x13 x14 x15 x16 x17 x18 x19 x20 x21 x22 x23 x24) :
    after B8 W (no_index (Proc.devRef .tc main_v132)) = val_main_v132 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a21, a22, a23, a24, h95, h122]
  rfl

set_option maxRecDepth 8192 in
set_option maxHeartbeats 1600000 in
theorem B8_main_v139
    (a3 : W (no_index (Proc.devRef .tc main_arg3)) = x3)
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h95 : W (no_index (Proc.devRef .tc main_v95)) = val_main_v95 (F := F) x0 x1 x2 x3 x9 x10 x11 x12 x13 x14 x15 x16 x17 x18 x19 x20 x21 x22 x23 x24)
    (h122 : W (no_index (Proc.devRef .tc main_v122)) = val_main_v122 (F := F) x0 x1 x2 x3 x9 x10 x11 x12 x13 x14 x15 x16 x17 x18 x19 x20 x21 x22 x23 x24) :
    after B8 W (no_index (Proc.devRef .tc main_v139)) = val_main_v139 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a3, a21, a22, a23, a24, h95, h122]
  rfl

set_option maxRecDepth 8192 in
set_option maxHeartbeats 1600000 in
theorem B8_main_v146
    (a2 : W (no_index (Proc.devRef .tc main_arg2)) = x2)
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h95 : W (no_index (Proc.devRef .tc main_v95)) = val_main_v95 (F := F) x0 x1 x2 x3 x9 x10 x11 x12 x13 x14 x15 x16 x17 x18 x19 x20 x21 x22 x23 x24)
    (h122 : W (no_index (Proc.devRef .tc main_v122)) = val_main_v122 (F := F) x0 x1 x2 x3 x9 x10 x11 x12 x13 x14 x15 x16 x17 x18 x19 x20 x21 x22 x23 x24) :
    after B8 W (no_index (Proc.devRef .tc main_v146)) = val_main_v146 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, a21, a22, a23, a24, h95, h122]
  rfl

end Stages

end Cert.Ref

end
-- ==== Proof.Ref.RunS9.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B9_W : List (Ref sig .tc) := [main_v147, main_v148, main_v149, main_v150, main_v151, main_call8_cst, main_call8_v0, main_v152, main_v153, main_v154, main_v155, main_v156, main_cst_18, main_v157, main_v158]

theorem B9_writes : (B9 : List (HloOp τ sig (Elt F))).Forall fun op => op.writes ⊆ (B9_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B9_keep (W : Valuation τ sig (Elt F)) (r : Ref sig .tc) (h : r ∉ B9_W) :
    after B9 W (Proc.devRef .tc r) = W (Proc.devRef .tc r) :=
  after_of_writes_sub B9 _ B9_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B9_main_v1 (h1 : W (no_index (Proc.devRef .tc main_v1)) = val_main_v1 (F := F) x1) :
    after B9 W (no_index (Proc.devRef .tc main_v1)) = val_main_v1 (F := F) x1 :=
  (B9_keep W main_v1 (by decide)).trans h1

theorem B9_main_v132 (h132 : W (no_index (Proc.devRef .tc main_v132)) = val_main_v132 (F := F) x0 x1 x2 x3 x9 x10 x11 x12 x13 x14 x15 x16 x17 x18 x19 x20 x21 x22 x23 x24) :
    after B9 W (no_index (Proc.devRef .tc main_v132)) = val_main_v132 (F := F) x0 x1 x2 x3 x9 x10 x11 x12 x13 x14 x15 x16 x17 x18 x19 x20 x21 x22 x23 x24 :=
  (B9_keep W main_v132 (by decide)).trans h132

set_option maxRecDepth 8192 in
set_option maxHeartbeats 1600000 in
theorem B9_main_v156
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h119 : W (no_index (Proc.devRef .tc main_v119)) = val_main_v119 (F := F) x0 x1 x2 x3 x9 x10 x11 x12 x13 x14 x15 x16 x17 x18 x19 x20 x21 x22 x23 x24)
    (h139 : W (no_index (Proc.devRef .tc main_v139)) = val_main_v139 (F := F) x0 x1 x2 x3 x9 x10 x11 x12 x13 x14 x15 x16 x17 x18 x19 x20 x21 x22 x23 x24)
    (h146 : W (no_index (Proc.devRef .tc main_v146)) = val_main_v146 (F := F) x0 x1 x2 x3 x9 x10 x11 x12 x13 x14 x15 x16 x17 x18 x19 x20 x21 x22 x23 x24) :
    after B9 W (no_index (Proc.devRef .tc main_v156)) = val_main_v156 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a17, a18, a19, a20, h119, h139, h146]
  rfl

set_option maxRecDepth 8192 in
set_option maxHeartbeats 1600000 in
theorem B9_main_v157 :
    after B9 W (no_index (Proc.devRef .tc main_v157)) = val_main_v157 (F := F) := by
  after_results_simp
  try dsimp only [Matrix.cons_val]
  try after_results_simp
  try simp only [TRef.ofBuf, TRef.toBuf, cast_eq]
  rfl

set_option maxRecDepth 8192 in
set_option maxHeartbeats 1600000 in
theorem B9_main_v158
    (a2 : W (no_index (Proc.devRef .tc main_arg2)) = x2) :
    after B9 W (no_index (Proc.devRef .tc main_v158)) = val_main_v158 (F := F) x2 := by
  after_results_simp
  try dsimp only [Matrix.cons_val]
  try after_results_simp
  try simp only [TRef.ofBuf, TRef.toBuf, cast_eq]
  rw [a2]
  rfl

end Stages

end Cert.Ref

end
-- ==== Proof.Ref.RunS10.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B10_W : List (Ref sig .tc) := [main_v159]

theorem B10_writes : (B10 : List (HloOp τ sig (Elt F))).Forall fun op => op.writes ⊆ (B10_W.map (Proc.devRef (τ := τ) .tc)).toFinset := by
  simp only [List.Forall]
  exact (by simp only [nullary_writes, unary_writes, binary_writes, ternary_writes, reshape_writes, nary_writes, Finset.singleton_subset_iff, List.mem_toFinset]; exact List.mem_map_of_mem (by decide))

theorem B10_keep (W : Valuation τ sig (Elt F)) (r : Ref sig .tc) (h : r ∉ B10_W) :
    after B10 W (Proc.devRef .tc r) = W (Proc.devRef .tc r) :=
  after_of_writes_sub B10 _ B10_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B10_main_v1 (h1 : W (no_index (Proc.devRef .tc main_v1)) = val_main_v1 (F := F) x1) :
    after B10 W (no_index (Proc.devRef .tc main_v1)) = val_main_v1 (F := F) x1 :=
  (B10_keep W main_v1 (by decide)).trans h1

theorem B10_main_v132 (h132 : W (no_index (Proc.devRef .tc main_v132)) = val_main_v132 (F := F) x0 x1 x2 x3 x9 x10 x11 x12 x13 x14 x15 x16 x17 x18 x19 x20 x21 x22 x23 x24) :
    after B10 W (no_index (Proc.devRef .tc main_v132)) = val_main_v132 (F := F) x0 x1 x2 x3 x9 x10 x11 x12 x13 x14 x15 x16 x17 x18 x19 x20 x21 x22 x23 x24 :=
  (B10_keep W main_v132 (by decide)).trans h132

theorem B10_main_v156 (h156 : W (no_index (Proc.devRef .tc main_v156)) = val_main_v156 (F := F) x0 x1 x2 x3 x9 x10 x11 x12 x13 x14 x15 x16 x17 x18 x19 x20 x21 x22 x23 x24) :
    after B10 W (no_index (Proc.devRef .tc main_v156)) = val_main_v156 (F := F) x0 x1 x2 x3 x9 x10 x11 x12 x13 x14 x15 x16 x17 x18 x19 x20 x21 x22 x23 x24 :=
  (B10_keep W main_v156 (by decide)).trans h156

set_option maxRecDepth 8192 in
set_option maxHeartbeats 1600000 in
theorem B10_main_v159
    (h156 : W (no_index (Proc.devRef .tc main_v156)) = val_main_v156 (F := F) x0 x1 x2 x3 x9 x10 x11 x12 x13 x14 x15 x16 x17 x18 x19 x20 x21 x22 x23 x24)
    (h157 : W (no_index (Proc.devRef .tc main_v157)) = val_main_v157 (F := F))
    (h158 : W (no_index (Proc.devRef .tc main_v158)) = val_main_v158 (F := F) x2) :
    after B10 W (no_index (Proc.devRef .tc main_v159)) = val_main_v159 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [h156, h157, h158]
  rfl

end Stages

end Cert.Ref

end
-- ==== Proof.Ref.RunS11.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B11_W : List (Ref sig .tc) := [main_v160, main_v161, main_v162, main_v163, main_v164, main_call9_cst, main_call9_v0, main_v165, main_v166, main_v167, main_v168, main_v169, main_c_19, main_v170, main_v171, main_c_20, main_v172, main_v173, main_v174, main_v175, main_v176, main_c_21, main_v177, main_v178, main_c_22, main_v179, main_v180, main_v181, main_v182, main_v183]

theorem B11_writes : (B11 : List (HloOp τ sig (Elt F))).Forall fun op => op.writes ⊆ (B11_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B11_keep (W : Valuation τ sig (Elt F)) (r : Ref sig .tc) (h : r ∉ B11_W) :
    after B11 W (Proc.devRef .tc r) = W (Proc.devRef .tc r) :=
  after_of_writes_sub B11 _ B11_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B11_main_v1 (h1 : W (no_index (Proc.devRef .tc main_v1)) = val_main_v1 (F := F) x1) :
    after B11 W (no_index (Proc.devRef .tc main_v1)) = val_main_v1 (F := F) x1 :=
  (B11_keep W main_v1 (by decide)).trans h1

theorem B11_main_v156 (h156 : W (no_index (Proc.devRef .tc main_v156)) = val_main_v156 (F := F) x0 x1 x2 x3 x9 x10 x11 x12 x13 x14 x15 x16 x17 x18 x19 x20 x21 x22 x23 x24) :
    after B11 W (no_index (Proc.devRef .tc main_v156)) = val_main_v156 (F := F) x0 x1 x2 x3 x9 x10 x11 x12 x13 x14 x15 x16 x17 x18 x19 x20 x21 x22 x23 x24 :=
  (B11_keep W main_v156 (by decide)).trans h156

set_option maxRecDepth 8192 in
set_option maxHeartbeats 1600000 in
theorem B11_main_v169
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h132 : W (no_index (Proc.devRef .tc main_v132)) = val_main_v132 (F := F) x0 x1 x2 x3 x9 x10 x11 x12 x13 x14 x15 x16 x17 x18 x19 x20 x21 x22 x23 x24)
    (h159 : W (no_index (Proc.devRef .tc main_v159)) = val_main_v159 (F := F) x0 x1 x2 x3 x9 x10 x11 x12 x13 x14 x15 x16 x17 x18 x19 x20 x21 x22 x23 x24) :
    after B11 W (no_index (Proc.devRef .tc main_v169)) = val_main_v169 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a21, a22, a23, a24, h132, h159]
  rfl

set_option maxRecDepth 8192 in
set_option maxHeartbeats 1600000 in
theorem B11_main_v176
    (a3 : W (no_index (Proc.devRef .tc main_arg3)) = x3)
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h132 : W (no_index (Proc.devRef .tc main_v132)) = val_main_v132 (F := F) x0 x1 x2 x3 x9 x10 x11 x12 x13 x14 x15 x16 x17 x18 x19 x20 x21 x22 x23 x24)
    (h159 : W (no_index (Proc.devRef .tc main_v159)) = val_main_v159 (F := F) x0 x1 x2 x3 x9 x10 x11 x12 x13 x14 x15 x16 x17 x18 x19 x20 x21 x22 x23 x24) :
    after B11 W (no_index (Proc.devRef .tc main_v176)) = val_main_v176 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a3, a21, a22, a23, a24, h132, h159]
  rfl

set_option maxRecDepth 8192 in
set_option maxHeartbeats 1600000 in
theorem B11_main_v183
    (a2 : W (no_index (Proc.devRef .tc main_arg2)) = x2)
    (a21 : W (no_index (Proc.devRef .tc main_arg21)) = x21)
    (a22 : W (no_index (Proc.devRef .tc main_arg22)) = x22)
    (a23 : W (no_index (Proc.devRef .tc main_arg23)) = x23)
    (a24 : W (no_index (Proc.devRef .tc main_arg24)) = x24)
    (h132 : W (no_index (Proc.devRef .tc main_v132)) = val_main_v132 (F := F) x0 x1 x2 x3 x9 x10 x11 x12 x13 x14 x15 x16 x17 x18 x19 x20 x21 x22 x23 x24)
    (h159 : W (no_index (Proc.devRef .tc main_v159)) = val_main_v159 (F := F) x0 x1 x2 x3 x9 x10 x11 x12 x13 x14 x15 x16 x17 x18 x19 x20 x21 x22 x23 x24) :
    after B11 W (no_index (Proc.devRef .tc main_v183)) = val_main_v183 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, a21, a22, a23, a24, h132, h159]
  rfl

end Stages

end Cert.Ref

end
-- ==== Proof.Ref.RunS12.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B12_W : List (Ref sig .tc) := [main_v184, main_v185, main_v186, main_v187, main_v188, main_call10_cst, main_call10_v0, main_v189, main_v190, main_v191, main_v192, main_v193, main_cst_23, main_v194, main_v195, main_v196]

theorem B12_writes : (B12 : List (HloOp τ sig (Elt F))).Forall fun op => op.writes ⊆ (B12_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B12_keep (W : Valuation τ sig (Elt F)) (r : Ref sig .tc) (h : r ∉ B12_W) :
    after B12 W (Proc.devRef .tc r) = W (Proc.devRef .tc r) :=
  after_of_writes_sub B12 _ B12_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B12_main_v1 (h1 : W (no_index (Proc.devRef .tc main_v1)) = val_main_v1 (F := F) x1) :
    after B12 W (no_index (Proc.devRef .tc main_v1)) = val_main_v1 (F := F) x1 :=
  (B12_keep W main_v1 (by decide)).trans h1

theorem B12_main_v169 (h169 : W (no_index (Proc.devRef .tc main_v169)) = val_main_v169 (F := F) x0 x1 x2 x3 x9 x10 x11 x12 x13 x14 x15 x16 x17 x18 x19 x20 x21 x22 x23 x24) :
    after B12 W (no_index (Proc.devRef .tc main_v169)) = val_main_v169 (F := F) x0 x1 x2 x3 x9 x10 x11 x12 x13 x14 x15 x16 x17 x18 x19 x20 x21 x22 x23 x24 :=
  (B12_keep W main_v169 (by decide)).trans h169

set_option maxRecDepth 8192 in
set_option maxHeartbeats 1600000 in
theorem B12_main_v193
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h156 : W (no_index (Proc.devRef .tc main_v156)) = val_main_v156 (F := F) x0 x1 x2 x3 x9 x10 x11 x12 x13 x14 x15 x16 x17 x18 x19 x20 x21 x22 x23 x24)
    (h176 : W (no_index (Proc.devRef .tc main_v176)) = val_main_v176 (F := F) x0 x1 x2 x3 x9 x10 x11 x12 x13 x14 x15 x16 x17 x18 x19 x20 x21 x22 x23 x24)
    (h183 : W (no_index (Proc.devRef .tc main_v183)) = val_main_v183 (F := F) x0 x1 x2 x3 x9 x10 x11 x12 x13 x14 x15 x16 x17 x18 x19 x20 x21 x22 x23 x24) :
    after B12 W (no_index (Proc.devRef .tc main_v193)) = val_main_v193 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a17, a18, a19, a20, h156, h176, h183]
  rfl

set_option maxRecDepth 8192 in
set_option maxHeartbeats 1600000 in
theorem B12_main_v196
    (a2 : W (no_index (Proc.devRef .tc main_arg2)) = x2)
    (a17 : W (no_index (Proc.devRef .tc main_arg17)) = x17)
    (a18 : W (no_index (Proc.devRef .tc main_arg18)) = x18)
    (a19 : W (no_index (Proc.devRef .tc main_arg19)) = x19)
    (a20 : W (no_index (Proc.devRef .tc main_arg20)) = x20)
    (h156 : W (no_index (Proc.devRef .tc main_v156)) = val_main_v156 (F := F) x0 x1 x2 x3 x9 x10 x11 x12 x13 x14 x15 x16 x17 x18 x19 x20 x21 x22 x23 x24)
    (h176 : W (no_index (Proc.devRef .tc main_v176)) = val_main_v176 (F := F) x0 x1 x2 x3 x9 x10 x11 x12 x13 x14 x15 x16 x17 x18 x19 x20 x21 x22 x23 x24)
    (h183 : W (no_index (Proc.devRef .tc main_v183)) = val_main_v183 (F := F) x0 x1 x2 x3 x9 x10 x11 x12 x13 x14 x15 x16 x17 x18 x19 x20 x21 x22 x23 x24) :
    after B12 W (no_index (Proc.devRef .tc main_v196)) = val_main_v196 (F := F) x0 x1 x2 x3 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a2, a17, a18, a19, a20, h156, h176, h183]
  rfl

end Stages

end Cert.Ref

end
-- ==== Proof.Ref.RunS13.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B13_W : List (Ref sig .tc) := [main_v197, main_v198, main_v199, main_v200, main_v201, main_call11_cst, main_call11_v0, main_v202, main_v203, main_v204, main_v205, main_v206, main_v207, main_v208, main_c_24, main_v209, main_v210, main_c_25, main_v211]

theorem B13_writes : (B13 : List (HloOp τ sig (Elt F))).Forall fun op => op.writes ⊆ (B13_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B13_keep (W : Valuation τ sig (Elt F)) (r : Ref sig .tc) (h : r ∉ B13_W) :
    after B13 W (Proc.devRef .tc r) = W (Proc.devRef .tc r) :=
  after_of_writes_sub B13 _ B13_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B13_main_v1 (h1 : W (no_index (Proc.devRef .tc main_v1)) = val_main_v1 (F := F) x1) :
    after B13 W (no_index (Proc.devRef .tc main_v1)) = val_main_v1 (F := F) x1 :=
  (B13_keep W main_v1 (by decide)).trans h1

theorem B13_main_v193 (h193 : W (no_index (Proc.devRef .tc main_v193)) = val_main_v193 (F := F) x0 x1 x2 x3 x9 x10 x11 x12 x13 x14 x15 x16 x17 x18 x19 x20 x21 x22 x23 x24) :
    after B13 W (no_index (Proc.devRef .tc main_v193)) = val_main_v193 (F := F) x0 x1 x2 x3 x9 x10 x11 x12 x13 x14 x15 x16 x17 x18 x19 x20 x21 x22 x23 x24 :=
  (B13_keep W main_v193 (by decide)).trans h193

set_option maxRecDepth 8192 in
set_option maxHeartbeats 1600000 in
theorem B13_main_v208
    (a4 : W (no_index (Proc.devRef .tc main_arg4)) = x4) :
    after B13 W (no_index (Proc.devRef .tc main_v208)) = val_main_v208 (F := F) x4 := by
  after_results_simp
  try dsimp only [Matrix.cons_val]
  try after_results_simp
  try simp only [TRef.ofBuf, TRef.toBuf, cast_eq]
  rw [a4]
  rfl

set_option maxRecDepth 8192 in
set_option maxHeartbeats 1600000 in
theorem B13_main_v210
    (a4 : W (no_index (Proc.devRef .tc main_arg4)) = x4) :
    after B13 W (no_index (Proc.devRef .tc main_v210)) = val_main_v210 (F := F) x4 := by
  after_results_simp
  try dsimp only [Matrix.cons_val]
  try after_results_simp
  try simp only [TRef.ofBuf, TRef.toBuf, cast_eq]
  rw [a4]
  rfl

set_option maxRecDepth 8192 in
set_option maxHeartbeats 1600000 in
theorem B13_main_v211 :
    after B13 W (no_index (Proc.devRef .tc main_v211)) = val_main_v211 (F := F) := by
  after_results_simp
  try dsimp only [Matrix.cons_val]
  try after_results_simp
  try simp only [TRef.ofBuf, TRef.toBuf, cast_eq]
  rfl

end Stages

end Cert.Ref

end
-- ==== Proof.Ref.RunS14.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B14_W : List (Ref sig .tc) := [main_v212, main_v213, main_v214, main_v215, main_v216, main_v217, main_c_26, main_v218, main_v219, main_c_27, main_v220, main_v221, main_v222, main_v223, main_v224, main_v225, main_cst_28, main_v226, main_v227]

theorem B14_writes : (B14 : List (HloOp τ sig (Elt F))).Forall fun op => op.writes ⊆ (B14_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B14_keep (W : Valuation τ sig (Elt F)) (r : Ref sig .tc) (h : r ∉ B14_W) :
    after B14 W (Proc.devRef .tc r) = W (Proc.devRef .tc r) :=
  after_of_writes_sub B14 _ B14_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

theorem B14_main_v1 (h1 : W (no_index (Proc.devRef .tc main_v1)) = val_main_v1 (F := F) x1) :
    after B14 W (no_index (Proc.devRef .tc main_v1)) = val_main_v1 (F := F) x1 :=
  (B14_keep W main_v1 (by decide)).trans h1

theorem B14_main_v193 (h193 : W (no_index (Proc.devRef .tc main_v193)) = val_main_v193 (F := F) x0 x1 x2 x3 x9 x10 x11 x12 x13 x14 x15 x16 x17 x18 x19 x20 x21 x22 x23 x24) :
    after B14 W (no_index (Proc.devRef .tc main_v193)) = val_main_v193 (F := F) x0 x1 x2 x3 x9 x10 x11 x12 x13 x14 x15 x16 x17 x18 x19 x20 x21 x22 x23 x24 :=
  (B14_keep W main_v193 (by decide)).trans h193

set_option maxRecDepth 8192 in
set_option maxHeartbeats 1600000 in
theorem B14_main_v227
    (a4 : W (no_index (Proc.devRef .tc main_arg4)) = x4)
    (h193 : W (no_index (Proc.devRef .tc main_v193)) = val_main_v193 (F := F) x0 x1 x2 x3 x9 x10 x11 x12 x13 x14 x15 x16 x17 x18 x19 x20 x21 x22 x23 x24)
    (h208 : W (no_index (Proc.devRef .tc main_v208)) = val_main_v208 (F := F) x4)
    (h210 : W (no_index (Proc.devRef .tc main_v210)) = val_main_v210 (F := F) x4)
    (h211 : W (no_index (Proc.devRef .tc main_v211)) = val_main_v211 (F := F)) :
    after B14 W (no_index (Proc.devRef .tc main_v227)) = val_main_v227 (F := F) x0 x1 x2 x3 x4 x9 x10 x11 x12 x13 x14 x15 x16 x17 x18 x19 x20 x21 x22 x23 x24 := by
  after_results_simp
  try dsimp only [Matrix.cons_val]
  try after_results_simp
  try simp only [TRef.ofBuf, TRef.toBuf, cast_eq]
  rw [a4, h193, h208, h210, h211]
  rfl

end Stages

end Cert.Ref

end
-- ==== Proof.Ref.RunS15.lean ====
import proofs.«408468_j77438260346965_2_alg».proof.Proof.Ref.RunOps
import proofs.«408468_j77438260346965_2_alg».proof.Proof.Ref.ReadP

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev B15_W : List (Ref sig .tc) := [main_v228, main_v229, main_c_29, main_v230, main_v231, main_c_30, main_v232, main_v233, main_v234, main_v235, main_v236, main_v237, main_v238, main_c_31, main_v239, main_v240, main_c_32, main_v241, main_v242, main_v243, main_v244, main_v245, main_v246, main_v247, main_v248, main_v249, main_call12_cst, main_call12_v0, main_v250, main_v251, main_v252, main_v253, main_v254, main_v255, main_v256, main_v257, main_v258, main_v259, main_v260, main_v261, main_cst_33, main_call13_v0, main_v262]

theorem B15_writes : (B15 : List (HloOp τ sig (Elt F))).Forall fun op => op.writes ⊆ (B15_W.map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem B15_keep (W : Valuation τ sig (Elt F)) (r : Ref sig .tc) (h : r ∉ B15_W) :
    after B15 W (Proc.devRef .tc r) = W (Proc.devRef .tc r) :=
  after_of_writes_sub B15 _ B15_writes h

section Stages

variable (W : Valuation τ sig (Elt F))
variable (x0 : (⟨S262144x1, .f32⟩ : BufTy).Contents (Elt F)) (x1 : (⟨S1310720x1, .f32⟩ : BufTy).Contents (Elt F)) (x2 x3 : (⟨S1310720, .i32⟩ : BufTy).Contents (Elt F)) (x4 : (⟨S655360x2, .i32⟩ : BufTy).Contents (Elt F)) (x9 : (⟨S1x16, .f32⟩ : BufTy).Contents (Elt F)) (x10 : (⟨S16, .f32⟩ : BufTy).Contents (Elt F)) (x11 : (⟨S16x16, .f32⟩ : BufTy).Contents (Elt F)) (x12 : (⟨S16, .f32⟩ : BufTy).Contents (Elt F)) (x13 : (⟨S1x16, .f32⟩ : BufTy).Contents (Elt F)) (x14 : (⟨S16, .f32⟩ : BufTy).Contents (Elt F)) (x15 : (⟨S16x16, .f32⟩ : BufTy).Contents (Elt F)) (x16 : (⟨S16, .f32⟩ : BufTy).Contents (Elt F)) (x17 : (⟨S48x16, .f32⟩ : BufTy).Contents (Elt F)) (x18 : (⟨S16, .f32⟩ : BufTy).Contents (Elt F)) (x19 : (⟨S16x16, .f32⟩ : BufTy).Contents (Elt F)) (x20 : (⟨S16, .f32⟩ : BufTy).Contents (Elt F)) (x21 : (⟨S32x16, .f32⟩ : BufTy).Contents (Elt F)) (x22 : (⟨S16, .f32⟩ : BufTy).Contents (Elt F)) (x23 : (⟨S16x16, .f32⟩ : BufTy).Contents (Elt F)) (x24 : (⟨S16, .f32⟩ : BufTy).Contents (Elt F)) (x25 : (⟨S16x16, .f32⟩ : BufTy).Contents (Elt F)) (x26 : (⟨S16, .f32⟩ : BufTy).Contents (Elt F)) (x27 : (⟨S16x1, .f32⟩ : BufTy).Contents (Elt F)) (x28 : (⟨S1, .f32⟩ : BufTy).Contents (Elt F)) (x29 : (⟨S_, .f32⟩ : BufTy).Contents (Elt F))

set_option maxRecDepth 8192 in
set_option maxHeartbeats 1600000 in
theorem B15_main_v262
    (a1 : W (no_index (Proc.devRef .tc main_arg1)) = x1)
    (a2 : W (no_index (Proc.devRef .tc main_arg2)) = x2)
    (a3 : W (no_index (Proc.devRef .tc main_arg3)) = x3)
    (a4 : W (no_index (Proc.devRef .tc main_arg4)) = x4)
    (a25 : W (no_index (Proc.devRef .tc main_arg25)) = x25)
    (a26 : W (no_index (Proc.devRef .tc main_arg26)) = x26)
    (a27 : W (no_index (Proc.devRef .tc main_arg27)) = x27)
    (a28 : W (no_index (Proc.devRef .tc main_arg28)) = x28)
    (a29 : W (no_index (Proc.devRef .tc main_arg29)) = x29)
    (h1 : W (no_index (Proc.devRef .tc main_v1)) = val_main_v1 (F := F) x1)
    (h193 : W (no_index (Proc.devRef .tc main_v193)) = val_main_v193 (F := F) x0 x1 x2 x3 x9 x10 x11 x12 x13 x14 x15 x16 x17 x18 x19 x20 x21 x22 x23 x24)
    (h227 : W (no_index (Proc.devRef .tc main_v227)) = val_main_v227 (F := F) x0 x1 x2 x3 x4 x9 x10 x11 x12 x13 x14 x15 x16 x17 x18 x19 x20 x21 x22 x23 x24) :
    after B15 W (no_index (Proc.devRef .tc main_v262)) = val_main_v262 (F := F) x0 x1 x2 x3 x4 x9 x10 x11 x12 x13 x14 x15 x16 x17 x18 x19 x20 x21 x22 x23 x24 x25 x26 x27 x28 x29 := by
  after_results_simp
  try dsimp only [Matrix.cons_val]
  try after_results_simp
  try simp only [TRef.ofBuf, TRef.toBuf, cast_eq]
  rw [a1, a2, a3, a4, a25, a26, a27, a28, a29, h1, h193, h227]
  rfl

end Stages

end Cert.Ref

end
-- ==== Proof.Ref.RunChain.lean ====
import proofs.«408468_j77438260346965_2_alg».proof.Proof.Ref.RunS0
import proofs.«408468_j77438260346965_2_alg».proof.Proof.Ref.RunS1
import proofs.«408468_j77438260346965_2_alg».proof.Proof.Ref.RunS2
import proofs.«408468_j77438260346965_2_alg».proof.Proof.Ref.RunS3
import proofs.«408468_j77438260346965_2_alg».proof.Proof.Ref.RunS4
import proofs.«408468_j77438260346965_2_alg».proof.Proof.Ref.RunS5
import proofs.«408468_j77438260346965_2_alg».proof.Proof.Ref.RunS6
import proofs.«408468_j77438260346965_2_alg».proof.Proof.Ref.RunS7
import proofs.«408468_j77438260346965_2_alg».proof.Proof.Ref.RunS8
import proofs.«408468_j77438260346965_2_alg».proof.Proof.Ref.RunS9
import proofs.«408468_j77438260346965_2_alg».proof.Proof.Ref.RunS10
import proofs.«408468_j77438260346965_2_alg».proof.Proof.Ref.RunS11
import proofs.«408468_j77438260346965_2_alg».proof.Proof.Ref.RunS12
import proofs.«408468_j77438260346965_2_alg».proof.Proof.Ref.RunS13
import proofs.«408468_j77438260346965_2_alg».proof.Proof.Ref.RunS14
import proofs.«408468_j77438260346965_2_alg».proof.Proof.Ref.RunS15
import Idealize.ShloMosaic.Lib.Pipeline.Frame

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem args_not_B0 : ∀ r ∈ argRefs, r ∉ B0_W := by decide
theorem args_not_B1 : ∀ r ∈ argRefs, r ∉ B1_W := by decide
theorem args_not_B2 : ∀ r ∈ argRefs, r ∉ B2_W := by decide
theorem args_not_B3 : ∀ r ∈ argRefs, r ∉ B3_W := by decide
theorem args_not_B4 : ∀ r ∈ argRefs, r ∉ B4_W := by decide
theorem args_not_B5 : ∀ r ∈ argRefs, r ∉ B5_W := by decide
theorem args_not_B6 : ∀ r ∈ argRefs, r ∉ B6_W := by decide
theorem args_not_B7 : ∀ r ∈ argRefs, r ∉ B7_W := by decide
theorem args_not_B8 : ∀ r ∈ argRefs, r ∉ B8_W := by decide
theorem args_not_B9 : ∀ r ∈ argRefs, r ∉ B9_W := by decide
theorem args_not_B10 : ∀ r ∈ argRefs, r ∉ B10_W := by decide
theorem args_not_B11 : ∀ r ∈ argRefs, r ∉ B11_W := by decide
theorem args_not_B12 : ∀ r ∈ argRefs, r ∉ B12_W := by decide
theorem args_not_B13 : ∀ r ∈ argRefs, r ∉ B13_W := by decide
theorem args_not_B14 : ∀ r ∈ argRefs, r ∉ B14_W := by decide
theorem args_not_B15 : ∀ r ∈ argRefs, r ∉ B15_W := by decide

def at0 (V : Valuation τ sig (Elt F)) : Valuation τ sig (Elt F) := V
theorem args0 (V : Valuation τ sig (Elt F)) : ∀ r ∈ argRefs, at0 V (Proc.devRef .tc r) = V (Proc.devRef .tc r) := fun _ _ => rfl

def at1 (V : Valuation τ sig (Elt F)) : Valuation τ sig (Elt F) := after B0 (at0 V)
theorem args1 (V : Valuation τ sig (Elt F)) : ∀ r ∈ argRefs, at1 V (Proc.devRef .tc r) = V (Proc.devRef .tc r) :=
  fun r hr => (B0_keep _ r (args_not_B0 r hr)).trans (args0 V r hr)
theorem st1_main_v1 (V : Valuation τ sig (Elt F)) :
    at1 V (no_index (Proc.devRef .tc main_v1)) = val_main_v1 (F := F) (V (Proc.devRef .tc main_arg1)) :=
  B0_main_v1 (W := at0 V) (x1 := (V (Proc.devRef .tc main_arg1))) (a1 := args0 V main_arg1 (by decide))
theorem st1_main_v12 (V : Valuation τ sig (Elt F)) :
    at1 V (no_index (Proc.devRef .tc main_v12)) = val_main_v12 (F := F) (V (Proc.devRef .tc main_arg0)) (V (Proc.devRef .tc main_arg9)) (V (Proc.devRef .tc main_arg10)) (V (Proc.devRef .tc main_arg11)) (V (Proc.devRef .tc main_arg12)) :=
  B0_main_v12 (W := at0 V) (x0 := (V (Proc.devRef .tc main_arg0))) (x9 := (V (Proc.devRef .tc main_arg9))) (x10 := (V (Proc.devRef .tc main_arg10))) (x11 := (V (Proc.devRef .tc main_arg11))) (x12 := (V (Proc.devRef .tc main_arg12))) (a0 := args0 V main_arg0 (by decide)) (a9 := args0 V main_arg9 (by decide)) (a10 := args0 V main_arg10 (by decide)) (a11 := args0 V main_arg11 (by decide)) (a12 := args0 V main_arg12 (by decide))
theorem st1_main_v21 (V : Valuation τ sig (Elt F)) :
    at1 V (no_index (Proc.devRef .tc main_v21)) = val_main_v21 (F := F) (V (Proc.devRef .tc main_arg1)) (V (Proc.devRef .tc main_arg13)) (V (Proc.devRef .tc main_arg14)) (V (Proc.devRef .tc main_arg15)) (V (Proc.devRef .tc main_arg16)) :=
  B0_main_v21 (W := at0 V) (x1 := (V (Proc.devRef .tc main_arg1))) (x13 := (V (Proc.devRef .tc main_arg13))) (x14 := (V (Proc.devRef .tc main_arg14))) (x15 := (V (Proc.devRef .tc main_arg15))) (x16 := (V (Proc.devRef .tc main_arg16))) (a1 := args0 V main_arg1 (by decide)) (a13 := args0 V main_arg13 (by decide)) (a14 := args0 V main_arg14 (by decide)) (a15 := args0 V main_arg15 (by decide)) (a16 := args0 V main_arg16 (by decide))
theorem st1_main_v28 (V : Valuation τ sig (Elt F)) :
    at1 V (no_index (Proc.devRef .tc main_v28)) = val_main_v28 (F := F) (V (Proc.devRef .tc main_arg0)) (V (Proc.devRef .tc main_arg3)) (V (Proc.devRef .tc main_arg9)) (V (Proc.devRef .tc main_arg10)) (V (Proc.devRef .tc main_arg11)) (V (Proc.devRef .tc main_arg12)) :=
  B0_main_v28 (W := at0 V) (x0 := (V (Proc.devRef .tc main_arg0))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (a0 := args0 V main_arg0 (by decide)) (a3 := args0 V main_arg3 (by decide)) (a9 := args0 V main_arg9 (by decide)) (a10 := args0 V main_arg10 (by decide)) (a11 := args0 V main_arg11 (by decide)) (a12 := args0 V main_arg12 (by decide))
theorem st1_main_v35 (V : Valuation τ sig (Elt F)) :
    at1 V (no_index (Proc.devRef .tc main_v35)) = val_main_v35 (F := F) (V (Proc.devRef .tc main_arg0)) (V (Proc.devRef .tc main_arg2)) (V (Proc.devRef .tc main_arg9)) (V (Proc.devRef .tc main_arg10)) (V (Proc.devRef .tc main_arg11)) (V (Proc.devRef .tc main_arg12)) :=
  B0_main_v35 (W := at0 V) (x0 := (V (Proc.devRef .tc main_arg0))) (x2 := (V (Proc.devRef .tc main_arg2))) (x9 := (V (Proc.devRef .tc main_arg9))) (x10 := (V (Proc.devRef .tc main_arg10))) (x11 := (V (Proc.devRef .tc main_arg11))) (x12 := (V (Proc.devRef .tc main_arg12))) (a0 := args0 V main_arg0 (by decide)) (a2 := args0 V main_arg2 (by decide)) (a9 := args0 V main_arg9 (by decide)) (a10 := args0 V main_arg10 (by decide)) (a11 := args0 V main_arg11 (by decide)) (a12 := args0 V main_arg12 (by decide))

def at2 (V : Valuation τ sig (Elt F)) : Valuation τ sig (Elt F) := after B1 (at1 V)
theorem args2 (V : Valuation τ sig (Elt F)) : ∀ r ∈ argRefs, at2 V (Proc.devRef .tc r) = V (Proc.devRef .tc r) :=
  fun r hr => (B1_keep _ r (args_not_B1 r hr)).trans (args1 V r hr)
theorem st2_main_v1 (V : Valuation τ sig (Elt F)) :
    at2 V (no_index (Proc.devRef .tc main_v1)) = val_main_v1 (F := F) (V (Proc.devRef .tc main_arg1)) :=
  B1_main_v1 (W := at1 V) (x1 := (V (Proc.devRef .tc main_arg1))) (h1 := st1_main_v1 V)
theorem st2_main_v12 (V : Valuation τ sig (Elt F)) :
    at2 V (no_index (Proc.devRef .tc main_v12)) = val_main_v12 (F := F) (V (Proc.devRef .tc main_arg0)) (V (Proc.devRef .tc main_arg9)) (V (Proc.devRef .tc main_arg10)) (V (Proc.devRef .tc main_arg11)) (V (Proc.devRef .tc main_arg12)) :=
  B1_main_v12 (W := at1 V) (x0 := (V (Proc.devRef .tc main_arg0))) (x9 := (V (Proc.devRef .tc main_arg9))) (x10 := (V (Proc.devRef .tc main_arg10))) (x11 := (V (Proc.devRef .tc main_arg11))) (x12 := (V (Proc.devRef .tc main_arg12))) (h12 := st1_main_v12 V)
theorem st2_main_v45 (V : Valuation τ sig (Elt F)) :
    at2 V (no_index (Proc.devRef .tc main_v45)) = val_main_v45 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) :=
  B1_main_v45 (W := at1 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (a17 := args1 V main_arg17 (by decide)) (a18 := args1 V main_arg18 (by decide)) (a19 := args1 V main_arg19 (by decide)) (a20 := args1 V main_arg20 (by decide)) (h21 := st1_main_v21 V) (h28 := st1_main_v28 V) (h35 := st1_main_v35 V)
theorem st2_main_v48 (V : Valuation τ sig (Elt F)) :
    at2 V (no_index (Proc.devRef .tc main_v48)) = val_main_v48 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) :=
  B1_main_v48 (W := at1 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (a2 := args1 V main_arg2 (by decide)) (a17 := args1 V main_arg17 (by decide)) (a18 := args1 V main_arg18 (by decide)) (a19 := args1 V main_arg19 (by decide)) (a20 := args1 V main_arg20 (by decide)) (h21 := st1_main_v21 V) (h28 := st1_main_v28 V) (h35 := st1_main_v35 V)

def at3 (V : Valuation τ sig (Elt F)) : Valuation τ sig (Elt F) := after B2 (at2 V)
theorem args3 (V : Valuation τ sig (Elt F)) : ∀ r ∈ argRefs, at3 V (Proc.devRef .tc r) = V (Proc.devRef .tc r) :=
  fun r hr => (B2_keep _ r (args_not_B2 r hr)).trans (args2 V r hr)
theorem st3_main_v1 (V : Valuation τ sig (Elt F)) :
    at3 V (no_index (Proc.devRef .tc main_v1)) = val_main_v1 (F := F) (V (Proc.devRef .tc main_arg1)) :=
  B2_main_v1 (W := at2 V) (x1 := (V (Proc.devRef .tc main_arg1))) (h1 := st2_main_v1 V)
theorem st3_main_v45 (V : Valuation τ sig (Elt F)) :
    at3 V (no_index (Proc.devRef .tc main_v45)) = val_main_v45 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) :=
  B2_main_v45 (W := at2 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (h45 := st2_main_v45 V)
theorem st3_main_v53 (V : Valuation τ sig (Elt F)) :
    at3 V (no_index (Proc.devRef .tc main_v53)) = val_main_v53 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  B2_main_v53 (W := at2 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (a21 := args2 V main_arg21 (by decide)) (a22 := args2 V main_arg22 (by decide)) (h12 := st2_main_v12 V) (h48 := st2_main_v48 V)

def at4 (V : Valuation τ sig (Elt F)) : Valuation τ sig (Elt F) := after B3 (at3 V)
theorem args4 (V : Valuation τ sig (Elt F)) : ∀ r ∈ argRefs, at4 V (Proc.devRef .tc r) = V (Proc.devRef .tc r) :=
  fun r hr => (B3_keep _ r (args_not_B3 r hr)).trans (args3 V r hr)
theorem st4_main_v1 (V : Valuation τ sig (Elt F)) :
    at4 V (no_index (Proc.devRef .tc main_v1)) = val_main_v1 (F := F) (V (Proc.devRef .tc main_arg1)) :=
  B3_main_v1 (W := at3 V) (x1 := (V (Proc.devRef .tc main_arg1))) (h1 := st3_main_v1 V)
theorem st4_main_v45 (V : Valuation τ sig (Elt F)) :
    at4 V (no_index (Proc.devRef .tc main_v45)) = val_main_v45 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) :=
  B3_main_v45 (W := at3 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (h45 := st3_main_v45 V)
theorem st4_main_v58 (V : Valuation τ sig (Elt F)) :
    at4 V (no_index (Proc.devRef .tc main_v58)) = val_main_v58 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B3_main_v58 (W := at3 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a23 := args3 V main_arg23 (by decide)) (a24 := args3 V main_arg24 (by decide)) (h53 := st3_main_v53 V)
theorem st4_main_v65 (V : Valuation τ sig (Elt F)) :
    at4 V (no_index (Proc.devRef .tc main_v65)) = val_main_v65 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B3_main_v65 (W := at3 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a3 := args3 V main_arg3 (by decide)) (a23 := args3 V main_arg23 (by decide)) (a24 := args3 V main_arg24 (by decide)) (h53 := st3_main_v53 V)
theorem st4_main_v72 (V : Valuation τ sig (Elt F)) :
    at4 V (no_index (Proc.devRef .tc main_v72)) = val_main_v72 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B3_main_v72 (W := at3 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args3 V main_arg2 (by decide)) (a23 := args3 V main_arg23 (by decide)) (a24 := args3 V main_arg24 (by decide)) (h53 := st3_main_v53 V)

def at5 (V : Valuation τ sig (Elt F)) : Valuation τ sig (Elt F) := after B4 (at4 V)
theorem args5 (V : Valuation τ sig (Elt F)) : ∀ r ∈ argRefs, at5 V (Proc.devRef .tc r) = V (Proc.devRef .tc r) :=
  fun r hr => (B4_keep _ r (args_not_B4 r hr)).trans (args4 V r hr)
theorem st5_main_v1 (V : Valuation τ sig (Elt F)) :
    at5 V (no_index (Proc.devRef .tc main_v1)) = val_main_v1 (F := F) (V (Proc.devRef .tc main_arg1)) :=
  B4_main_v1 (W := at4 V) (x1 := (V (Proc.devRef .tc main_arg1))) (h1 := st4_main_v1 V)
theorem st5_main_v58 (V : Valuation τ sig (Elt F)) :
    at5 V (no_index (Proc.devRef .tc main_v58)) = val_main_v58 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B4_main_v58 (W := at4 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h58 := st4_main_v58 V)
theorem st5_main_v82 (V : Valuation τ sig (Elt F)) :
    at5 V (no_index (Proc.devRef .tc main_v82)) = val_main_v82 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B4_main_v82 (W := at4 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a17 := args4 V main_arg17 (by decide)) (a18 := args4 V main_arg18 (by decide)) (a19 := args4 V main_arg19 (by decide)) (a20 := args4 V main_arg20 (by decide)) (h45 := st4_main_v45 V) (h65 := st4_main_v65 V) (h72 := st4_main_v72 V)
theorem st5_main_v85 (V : Valuation τ sig (Elt F)) :
    at5 V (no_index (Proc.devRef .tc main_v85)) = val_main_v85 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B4_main_v85 (W := at4 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args4 V main_arg2 (by decide)) (a17 := args4 V main_arg17 (by decide)) (a18 := args4 V main_arg18 (by decide)) (a19 := args4 V main_arg19 (by decide)) (a20 := args4 V main_arg20 (by decide)) (h45 := st4_main_v45 V) (h65 := st4_main_v65 V) (h72 := st4_main_v72 V)

def at6 (V : Valuation τ sig (Elt F)) : Valuation τ sig (Elt F) := after B5 (at5 V)
theorem args6 (V : Valuation τ sig (Elt F)) : ∀ r ∈ argRefs, at6 V (Proc.devRef .tc r) = V (Proc.devRef .tc r) :=
  fun r hr => (B5_keep _ r (args_not_B5 r hr)).trans (args5 V r hr)
theorem st6_main_v1 (V : Valuation τ sig (Elt F)) :
    at6 V (no_index (Proc.devRef .tc main_v1)) = val_main_v1 (F := F) (V (Proc.devRef .tc main_arg1)) :=
  B5_main_v1 (W := at5 V) (x1 := (V (Proc.devRef .tc main_arg1))) (h1 := st5_main_v1 V)
theorem st6_main_v82 (V : Valuation τ sig (Elt F)) :
    at6 V (no_index (Proc.devRef .tc main_v82)) = val_main_v82 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B5_main_v82 (W := at5 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h82 := st5_main_v82 V)
theorem st6_main_v95 (V : Valuation τ sig (Elt F)) :
    at6 V (no_index (Proc.devRef .tc main_v95)) = val_main_v95 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B5_main_v95 (W := at5 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a21 := args5 V main_arg21 (by decide)) (a22 := args5 V main_arg22 (by decide)) (a23 := args5 V main_arg23 (by decide)) (a24 := args5 V main_arg24 (by decide)) (h58 := st5_main_v58 V) (h85 := st5_main_v85 V)
theorem st6_main_v102 (V : Valuation τ sig (Elt F)) :
    at6 V (no_index (Proc.devRef .tc main_v102)) = val_main_v102 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B5_main_v102 (W := at5 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a3 := args5 V main_arg3 (by decide)) (a21 := args5 V main_arg21 (by decide)) (a22 := args5 V main_arg22 (by decide)) (a23 := args5 V main_arg23 (by decide)) (a24 := args5 V main_arg24 (by decide)) (h58 := st5_main_v58 V) (h85 := st5_main_v85 V)
theorem st6_main_v104 (V : Valuation τ sig (Elt F)) :
    at6 V (no_index (Proc.devRef .tc main_v104)) = val_main_v104 (F := F) (V (Proc.devRef .tc main_arg2)) :=
  B5_main_v104 (W := at5 V) (x2 := (V (Proc.devRef .tc main_arg2))) (a2 := args5 V main_arg2 (by decide))
theorem st6_main_c_12 (V : Valuation τ sig (Elt F)) :
    at6 V (no_index (Proc.devRef .tc main_c_12)) = val_main_c_12 (F := F) :=
  B5_main_c_12 (W := at5 V)

def at7 (V : Valuation τ sig (Elt F)) : Valuation τ sig (Elt F) := after B6 (at6 V)
theorem args7 (V : Valuation τ sig (Elt F)) : ∀ r ∈ argRefs, at7 V (Proc.devRef .tc r) = V (Proc.devRef .tc r) :=
  fun r hr => (B6_keep _ r (args_not_B6 r hr)).trans (args6 V r hr)
theorem st7_main_v1 (V : Valuation τ sig (Elt F)) :
    at7 V (no_index (Proc.devRef .tc main_v1)) = val_main_v1 (F := F) (V (Proc.devRef .tc main_arg1)) :=
  B6_main_v1 (W := at6 V) (x1 := (V (Proc.devRef .tc main_arg1))) (h1 := st6_main_v1 V)
theorem st7_main_v82 (V : Valuation τ sig (Elt F)) :
    at7 V (no_index (Proc.devRef .tc main_v82)) = val_main_v82 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B6_main_v82 (W := at6 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h82 := st6_main_v82 V)
theorem st7_main_v95 (V : Valuation τ sig (Elt F)) :
    at7 V (no_index (Proc.devRef .tc main_v95)) = val_main_v95 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B6_main_v95 (W := at6 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h95 := st6_main_v95 V)
theorem st7_main_v102 (V : Valuation τ sig (Elt F)) :
    at7 V (no_index (Proc.devRef .tc main_v102)) = val_main_v102 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B6_main_v102 (W := at6 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h102 := st6_main_v102 V)
theorem st7_main_v109 (V : Valuation τ sig (Elt F)) :
    at7 V (no_index (Proc.devRef .tc main_v109)) = val_main_v109 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B6_main_v109 (W := at6 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args6 V main_arg2 (by decide)) (h95 := st6_main_v95 V) (h104 := st6_main_v104 V) (h_c_12 := st6_main_c_12 V)

def at8 (V : Valuation τ sig (Elt F)) : Valuation τ sig (Elt F) := after B7 (at7 V)
theorem args8 (V : Valuation τ sig (Elt F)) : ∀ r ∈ argRefs, at8 V (Proc.devRef .tc r) = V (Proc.devRef .tc r) :=
  fun r hr => (B7_keep _ r (args_not_B7 r hr)).trans (args7 V r hr)
theorem st8_main_v1 (V : Valuation τ sig (Elt F)) :
    at8 V (no_index (Proc.devRef .tc main_v1)) = val_main_v1 (F := F) (V (Proc.devRef .tc main_arg1)) :=
  B7_main_v1 (W := at7 V) (x1 := (V (Proc.devRef .tc main_arg1))) (h1 := st7_main_v1 V)
theorem st8_main_v95 (V : Valuation τ sig (Elt F)) :
    at8 V (no_index (Proc.devRef .tc main_v95)) = val_main_v95 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B7_main_v95 (W := at7 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h95 := st7_main_v95 V)
theorem st8_main_v119 (V : Valuation τ sig (Elt F)) :
    at8 V (no_index (Proc.devRef .tc main_v119)) = val_main_v119 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B7_main_v119 (W := at7 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a17 := args7 V main_arg17 (by decide)) (a18 := args7 V main_arg18 (by decide)) (a19 := args7 V main_arg19 (by decide)) (a20 := args7 V main_arg20 (by decide)) (h82 := st7_main_v82 V) (h102 := st7_main_v102 V) (h109 := st7_main_v109 V)
theorem st8_main_v122 (V : Valuation τ sig (Elt F)) :
    at8 V (no_index (Proc.devRef .tc main_v122)) = val_main_v122 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B7_main_v122 (W := at7 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args7 V main_arg2 (by decide)) (a17 := args7 V main_arg17 (by decide)) (a18 := args7 V main_arg18 (by decide)) (a19 := args7 V main_arg19 (by decide)) (a20 := args7 V main_arg20 (by decide)) (h82 := st7_main_v82 V) (h102 := st7_main_v102 V) (h109 := st7_main_v109 V)

def at9 (V : Valuation τ sig (Elt F)) : Valuation τ sig (Elt F) := after B8 (at8 V)
theorem args9 (V : Valuation τ sig (Elt F)) : ∀ r ∈ argRefs, at9 V (Proc.devRef .tc r) = V (Proc.devRef .tc r) :=
  fun r hr => (B8_keep _ r (args_not_B8 r hr)).trans (args8 V r hr)
theorem st9_main_v1 (V : Valuation τ sig (Elt F)) :
    at9 V (no_index (Proc.devRef .tc main_v1)) = val_main_v1 (F := F) (V (Proc.devRef .tc main_arg1)) :=
  B8_main_v1 (W := at8 V) (x1 := (V (Proc.devRef .tc main_arg1))) (h1 := st8_main_v1 V)
theorem st9_main_v119 (V : Valuation τ sig (Elt F)) :
    at9 V (no_index (Proc.devRef .tc main_v119)) = val_main_v119 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B8_main_v119 (W := at8 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h119 := st8_main_v119 V)
theorem st9_main_v132 (V : Valuation τ sig (Elt F)) :
    at9 V (no_index (Proc.devRef .tc main_v132)) = val_main_v132 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B8_main_v132 (W := at8 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a21 := args8 V main_arg21 (by decide)) (a22 := args8 V main_arg22 (by decide)) (a23 := args8 V main_arg23 (by decide)) (a24 := args8 V main_arg24 (by decide)) (h95 := st8_main_v95 V) (h122 := st8_main_v122 V)
theorem st9_main_v139 (V : Valuation τ sig (Elt F)) :
    at9 V (no_index (Proc.devRef .tc main_v139)) = val_main_v139 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B8_main_v139 (W := at8 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a3 := args8 V main_arg3 (by decide)) (a21 := args8 V main_arg21 (by decide)) (a22 := args8 V main_arg22 (by decide)) (a23 := args8 V main_arg23 (by decide)) (a24 := args8 V main_arg24 (by decide)) (h95 := st8_main_v95 V) (h122 := st8_main_v122 V)
theorem st9_main_v146 (V : Valuation τ sig (Elt F)) :
    at9 V (no_index (Proc.devRef .tc main_v146)) = val_main_v146 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B8_main_v146 (W := at8 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args8 V main_arg2 (by decide)) (a21 := args8 V main_arg21 (by decide)) (a22 := args8 V main_arg22 (by decide)) (a23 := args8 V main_arg23 (by decide)) (a24 := args8 V main_arg24 (by decide)) (h95 := st8_main_v95 V) (h122 := st8_main_v122 V)

def at10 (V : Valuation τ sig (Elt F)) : Valuation τ sig (Elt F) := after B9 (at9 V)
theorem args10 (V : Valuation τ sig (Elt F)) : ∀ r ∈ argRefs, at10 V (Proc.devRef .tc r) = V (Proc.devRef .tc r) :=
  fun r hr => (B9_keep _ r (args_not_B9 r hr)).trans (args9 V r hr)
theorem st10_main_v1 (V : Valuation τ sig (Elt F)) :
    at10 V (no_index (Proc.devRef .tc main_v1)) = val_main_v1 (F := F) (V (Proc.devRef .tc main_arg1)) :=
  B9_main_v1 (W := at9 V) (x1 := (V (Proc.devRef .tc main_arg1))) (h1 := st9_main_v1 V)
theorem st10_main_v132 (V : Valuation τ sig (Elt F)) :
    at10 V (no_index (Proc.devRef .tc main_v132)) = val_main_v132 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B9_main_v132 (W := at9 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h132 := st9_main_v132 V)
theorem st10_main_v156 (V : Valuation τ sig (Elt F)) :
    at10 V (no_index (Proc.devRef .tc main_v156)) = val_main_v156 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B9_main_v156 (W := at9 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a17 := args9 V main_arg17 (by decide)) (a18 := args9 V main_arg18 (by decide)) (a19 := args9 V main_arg19 (by decide)) (a20 := args9 V main_arg20 (by decide)) (h119 := st9_main_v119 V) (h139 := st9_main_v139 V) (h146 := st9_main_v146 V)
theorem st10_main_v157 (V : Valuation τ sig (Elt F)) :
    at10 V (no_index (Proc.devRef .tc main_v157)) = val_main_v157 (F := F) :=
  B9_main_v157 (W := at9 V)
theorem st10_main_v158 (V : Valuation τ sig (Elt F)) :
    at10 V (no_index (Proc.devRef .tc main_v158)) = val_main_v158 (F := F) (V (Proc.devRef .tc main_arg2)) :=
  B9_main_v158 (W := at9 V) (x2 := (V (Proc.devRef .tc main_arg2))) (a2 := args9 V main_arg2 (by decide))

def at11 (V : Valuation τ sig (Elt F)) : Valuation τ sig (Elt F) := after B10 (at10 V)
theorem args11 (V : Valuation τ sig (Elt F)) : ∀ r ∈ argRefs, at11 V (Proc.devRef .tc r) = V (Proc.devRef .tc r) :=
  fun r hr => (B10_keep _ r (args_not_B10 r hr)).trans (args10 V r hr)
theorem st11_main_v1 (V : Valuation τ sig (Elt F)) :
    at11 V (no_index (Proc.devRef .tc main_v1)) = val_main_v1 (F := F) (V (Proc.devRef .tc main_arg1)) :=
  B10_main_v1 (W := at10 V) (x1 := (V (Proc.devRef .tc main_arg1))) (h1 := st10_main_v1 V)
theorem st11_main_v132 (V : Valuation τ sig (Elt F)) :
    at11 V (no_index (Proc.devRef .tc main_v132)) = val_main_v132 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B10_main_v132 (W := at10 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h132 := st10_main_v132 V)
theorem st11_main_v156 (V : Valuation τ sig (Elt F)) :
    at11 V (no_index (Proc.devRef .tc main_v156)) = val_main_v156 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B10_main_v156 (W := at10 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h156 := st10_main_v156 V)
theorem st11_main_v159 (V : Valuation τ sig (Elt F)) :
    at11 V (no_index (Proc.devRef .tc main_v159)) = val_main_v159 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B10_main_v159 (W := at10 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h156 := st10_main_v156 V) (h157 := st10_main_v157 V) (h158 := st10_main_v158 V)

def at12 (V : Valuation τ sig (Elt F)) : Valuation τ sig (Elt F) := after B11 (at11 V)
theorem args12 (V : Valuation τ sig (Elt F)) : ∀ r ∈ argRefs, at12 V (Proc.devRef .tc r) = V (Proc.devRef .tc r) :=
  fun r hr => (B11_keep _ r (args_not_B11 r hr)).trans (args11 V r hr)
theorem st12_main_v1 (V : Valuation τ sig (Elt F)) :
    at12 V (no_index (Proc.devRef .tc main_v1)) = val_main_v1 (F := F) (V (Proc.devRef .tc main_arg1)) :=
  B11_main_v1 (W := at11 V) (x1 := (V (Proc.devRef .tc main_arg1))) (h1 := st11_main_v1 V)
theorem st12_main_v156 (V : Valuation τ sig (Elt F)) :
    at12 V (no_index (Proc.devRef .tc main_v156)) = val_main_v156 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B11_main_v156 (W := at11 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h156 := st11_main_v156 V)
theorem st12_main_v169 (V : Valuation τ sig (Elt F)) :
    at12 V (no_index (Proc.devRef .tc main_v169)) = val_main_v169 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B11_main_v169 (W := at11 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a21 := args11 V main_arg21 (by decide)) (a22 := args11 V main_arg22 (by decide)) (a23 := args11 V main_arg23 (by decide)) (a24 := args11 V main_arg24 (by decide)) (h132 := st11_main_v132 V) (h159 := st11_main_v159 V)
theorem st12_main_v176 (V : Valuation τ sig (Elt F)) :
    at12 V (no_index (Proc.devRef .tc main_v176)) = val_main_v176 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B11_main_v176 (W := at11 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a3 := args11 V main_arg3 (by decide)) (a21 := args11 V main_arg21 (by decide)) (a22 := args11 V main_arg22 (by decide)) (a23 := args11 V main_arg23 (by decide)) (a24 := args11 V main_arg24 (by decide)) (h132 := st11_main_v132 V) (h159 := st11_main_v159 V)
theorem st12_main_v183 (V : Valuation τ sig (Elt F)) :
    at12 V (no_index (Proc.devRef .tc main_v183)) = val_main_v183 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B11_main_v183 (W := at11 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args11 V main_arg2 (by decide)) (a21 := args11 V main_arg21 (by decide)) (a22 := args11 V main_arg22 (by decide)) (a23 := args11 V main_arg23 (by decide)) (a24 := args11 V main_arg24 (by decide)) (h132 := st11_main_v132 V) (h159 := st11_main_v159 V)

def at13 (V : Valuation τ sig (Elt F)) : Valuation τ sig (Elt F) := after B12 (at12 V)
theorem args13 (V : Valuation τ sig (Elt F)) : ∀ r ∈ argRefs, at13 V (Proc.devRef .tc r) = V (Proc.devRef .tc r) :=
  fun r hr => (B12_keep _ r (args_not_B12 r hr)).trans (args12 V r hr)
theorem st13_main_v1 (V : Valuation τ sig (Elt F)) :
    at13 V (no_index (Proc.devRef .tc main_v1)) = val_main_v1 (F := F) (V (Proc.devRef .tc main_arg1)) :=
  B12_main_v1 (W := at12 V) (x1 := (V (Proc.devRef .tc main_arg1))) (h1 := st12_main_v1 V)
theorem st13_main_v169 (V : Valuation τ sig (Elt F)) :
    at13 V (no_index (Proc.devRef .tc main_v169)) = val_main_v169 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B12_main_v169 (W := at12 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h169 := st12_main_v169 V)
theorem st13_main_v193 (V : Valuation τ sig (Elt F)) :
    at13 V (no_index (Proc.devRef .tc main_v193)) = val_main_v193 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B12_main_v193 (W := at12 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a17 := args12 V main_arg17 (by decide)) (a18 := args12 V main_arg18 (by decide)) (a19 := args12 V main_arg19 (by decide)) (a20 := args12 V main_arg20 (by decide)) (h156 := st12_main_v156 V) (h176 := st12_main_v176 V) (h183 := st12_main_v183 V)
theorem st13_main_v196 (V : Valuation τ sig (Elt F)) :
    at13 V (no_index (Proc.devRef .tc main_v196)) = val_main_v196 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B12_main_v196 (W := at12 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a2 := args12 V main_arg2 (by decide)) (a17 := args12 V main_arg17 (by decide)) (a18 := args12 V main_arg18 (by decide)) (a19 := args12 V main_arg19 (by decide)) (a20 := args12 V main_arg20 (by decide)) (h156 := st12_main_v156 V) (h176 := st12_main_v176 V) (h183 := st12_main_v183 V)

def at14 (V : Valuation τ sig (Elt F)) : Valuation τ sig (Elt F) := after B13 (at13 V)
theorem args14 (V : Valuation τ sig (Elt F)) : ∀ r ∈ argRefs, at14 V (Proc.devRef .tc r) = V (Proc.devRef .tc r) :=
  fun r hr => (B13_keep _ r (args_not_B13 r hr)).trans (args13 V r hr)
theorem st14_main_v1 (V : Valuation τ sig (Elt F)) :
    at14 V (no_index (Proc.devRef .tc main_v1)) = val_main_v1 (F := F) (V (Proc.devRef .tc main_arg1)) :=
  B13_main_v1 (W := at13 V) (x1 := (V (Proc.devRef .tc main_arg1))) (h1 := st13_main_v1 V)
theorem st14_main_v193 (V : Valuation τ sig (Elt F)) :
    at14 V (no_index (Proc.devRef .tc main_v193)) = val_main_v193 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B13_main_v193 (W := at13 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h193 := st13_main_v193 V)
theorem st14_main_v208 (V : Valuation τ sig (Elt F)) :
    at14 V (no_index (Proc.devRef .tc main_v208)) = val_main_v208 (F := F) (V (Proc.devRef .tc main_arg4)) :=
  B13_main_v208 (W := at13 V) (x4 := (V (Proc.devRef .tc main_arg4))) (a4 := args13 V main_arg4 (by decide))
theorem st14_main_v210 (V : Valuation τ sig (Elt F)) :
    at14 V (no_index (Proc.devRef .tc main_v210)) = val_main_v210 (F := F) (V (Proc.devRef .tc main_arg4)) :=
  B13_main_v210 (W := at13 V) (x4 := (V (Proc.devRef .tc main_arg4))) (a4 := args13 V main_arg4 (by decide))
theorem st14_main_v211 (V : Valuation τ sig (Elt F)) :
    at14 V (no_index (Proc.devRef .tc main_v211)) = val_main_v211 (F := F) :=
  B13_main_v211 (W := at13 V)

def at15 (V : Valuation τ sig (Elt F)) : Valuation τ sig (Elt F) := after B14 (at14 V)
theorem args15 (V : Valuation τ sig (Elt F)) : ∀ r ∈ argRefs, at15 V (Proc.devRef .tc r) = V (Proc.devRef .tc r) :=
  fun r hr => (B14_keep _ r (args_not_B14 r hr)).trans (args14 V r hr)
theorem st15_main_v1 (V : Valuation τ sig (Elt F)) :
    at15 V (no_index (Proc.devRef .tc main_v1)) = val_main_v1 (F := F) (V (Proc.devRef .tc main_arg1)) :=
  B14_main_v1 (W := at14 V) (x1 := (V (Proc.devRef .tc main_arg1))) (h1 := st14_main_v1 V)
theorem st15_main_v193 (V : Valuation τ sig (Elt F)) :
    at15 V (no_index (Proc.devRef .tc main_v193)) = val_main_v193 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B14_main_v193 (W := at14 V) (x0 := (V (Proc.devRef .tc main_arg0))) (x1 := (V (Proc.devRef .tc main_arg1))) (x2 := (V (Proc.devRef .tc main_arg2))) (x3 := (V (Proc.devRef .tc main_arg3))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (h193 := st14_main_v193 V)
theorem st15_main_v227 (V : Valuation τ sig (Elt F)) :
    at15 V (no_index (Proc.devRef .tc main_v227)) = val_main_v227 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  B14_main_v227 (W := at14 V) (x0 := (V (Proc.devRef .tc main_arg0))) (x1 := (V (Proc.devRef .tc main_arg1))) (x2 := (V (Proc.devRef .tc main_arg2))) (x3 := (V (Proc.devRef .tc main_arg3))) (x4 := (V (Proc.devRef .tc main_arg4))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (a4 := args14 V main_arg4 (by decide)) (h193 := st14_main_v193 V) (h208 := st14_main_v208 V) (h210 := st14_main_v210 V) (h211 := st14_main_v211 V)

def at16 (V : Valuation τ sig (Elt F)) : Valuation τ sig (Elt F) := after B15 (at15 V)
theorem args16 (V : Valuation τ sig (Elt F)) : ∀ r ∈ argRefs, at16 V (Proc.devRef .tc r) = V (Proc.devRef .tc r) :=
  fun r hr => (B15_keep _ r (args_not_B15 r hr)).trans (args15 V r hr)
theorem st16_main_v262 (V : Valuation τ sig (Elt F)) :
    at16 V (no_index (Proc.devRef .tc main_v262)) = val_main_v262 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) :=
  B15_main_v262 (W := at15 V) (x0 := (V (Proc.devRef .tc main_arg0))) (x1 := (V (Proc.devRef .tc main_arg1))) (x2 := (V (Proc.devRef .tc main_arg2))) (x3 := (V (Proc.devRef .tc main_arg3))) (x4 := (V (Proc.devRef .tc main_arg4))) (x9 := (V (Proc.devRef .tc main_arg9))) (x10 := (V (Proc.devRef .tc main_arg10))) (x11 := (V (Proc.devRef .tc main_arg11))) (x12 := (V (Proc.devRef .tc main_arg12))) (x13 := (V (Proc.devRef .tc main_arg13))) (x14 := (V (Proc.devRef .tc main_arg14))) (x15 := (V (Proc.devRef .tc main_arg15))) (x16 := (V (Proc.devRef .tc main_arg16))) (x17 := (V (Proc.devRef .tc main_arg17))) (x18 := (V (Proc.devRef .tc main_arg18))) (x19 := (V (Proc.devRef .tc main_arg19))) (x20 := (V (Proc.devRef .tc main_arg20))) (x21 := (V (Proc.devRef .tc main_arg21))) (x22 := (V (Proc.devRef .tc main_arg22))) (x23 := (V (Proc.devRef .tc main_arg23))) (x24 := (V (Proc.devRef .tc main_arg24))) (x25 := (V (Proc.devRef .tc main_arg25))) (x26 := (V (Proc.devRef .tc main_arg26))) (x27 := (V (Proc.devRef .tc main_arg27))) (x28 := (V (Proc.devRef .tc main_arg28))) (x29 := (V (Proc.devRef .tc main_arg29))) (a1 := args15 V main_arg1 (by decide)) (a2 := args15 V main_arg2 (by decide)) (a3 := args15 V main_arg3 (by decide)) (a4 := args15 V main_arg4 (by decide)) (a25 := args15 V main_arg25 (by decide)) (a26 := args15 V main_arg26 (by decide)) (a27 := args15 V main_arg27 (by decide)) (a28 := args15 V main_arg28 (by decide)) (a29 := args15 V main_arg29 (by decide)) (h1 := st15_main_v1 V) (h193 := st15_main_v193 V) (h227 := st15_main_v227 V)

theorem after_ops (V : Valuation τ sig (Elt F)) : after ops V = at16 V := by
  simp only [ops, after_append]
  rfl

end Cert.Ref

end
-- ==== Proof.Ref.Run.lean ====
import proofs.«408468_j77438260346965_2_alg».proof.Proof.Ref.RunChain

noncomputable section

namespace Cert.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem ops_sub : (ops : List (HloOp τ sig (Elt F))).Forall fun op => op.bufs ⊆ tcRefs τ sig := by
  simp only [ops, List.forall_append]
  exact ⟨⟨⟨⟨⟨⟨⟨⟨⟨⟨⟨⟨⟨⟨⟨B0_sub, B1_sub⟩, B2_sub⟩, B3_sub⟩, B4_sub⟩, B5_sub⟩, B6_sub⟩, B7_sub⟩, B8_sub⟩, B9_sub⟩, B10_sub⟩, B11_sub⟩, B12_sub⟩, B13_sub⟩, B14_sub⟩, B15_sub⟩

theorem ops_fresh : ∀ op ∈ (ops : List (HloOp τ sig (Elt F))), op.fresh = ∅ := by
  simp only [ops, List.forall_mem_append]
  exact ⟨⟨⟨⟨⟨⟨⟨⟨⟨⟨⟨⟨⟨⟨⟨B0_fresh, B1_fresh⟩, B2_fresh⟩, B3_fresh⟩, B4_fresh⟩, B5_fresh⟩, B6_fresh⟩, B7_fresh⟩, B8_fresh⟩, B9_fresh⟩, B10_fresh⟩, B11_fresh⟩, B12_fresh⟩, B13_fresh⟩, B14_fresh⟩, B15_fresh⟩

theorem main_eq (c : Dev nD) : main (F := F) c = seq ops := by
  simp only [main, main_part0_eq, main_part1_eq, main_part2_eq, main_part3_eq, main_part4_eq, ops, seq_append, bind_assoc]

theorem run_res (m : (ℓ : Loc nD τ sig) → Buf (Elt F) ℓ) (c : Dev nD) :
    after ops (launchContents m c) (Proc.devRef .tc main_v262) = val_main_v262 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) :=
  (congrFun (after_ops (launchContents m c)) (Proc.devRef .tc main_v262)).trans (st16_main_v262 (launchContents m c))

theorem run_arg (m : (ℓ : Loc nD τ sig) → Buf (Elt F) ℓ) (c : Dev nD) (b : Ref sig .tc) (hb : b ∈ argRefs) :
    after ops (launchContents m c) (Proc.devRef .tc b) = m ((c.tc : Thread nD τ).loc b) :=
  (congrFun (after_ops (launchContents m c)) (Proc.devRef .tc b)).trans (args16 (launchContents m c) b hb)

set_option maxHeartbeats 1000000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v262) = val_main_v262 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) := by
  refine (θ_run defs _ _).mono (fun r h c => ⟨(h c main_v262).trans (run_res m c), ?_⟩)
    (run_seq scopedRefs_eq scopedSems_eq defs main (fun _ => ops) main_eq (fun _ => ops_sub) m ρ (fun _ => ops_fresh))
  have hall : ∀ b ∈ argRefs, r.2.mem ((c.tc : Thread nD τ).loc b) = m ((c.tc : Thread nD τ).loc b) :=
    fun b hb => (h c b).trans (run_arg m c b hb)
  simp only [argRefs, List.forall_mem_cons, List.not_mem_nil, false_implies, implies_true, and_true] at hall
  exact hall

end Cert.Ref

end
-- ==== Proof.Ki.RunValue.lean ====
import proofs.«408468_j77438260346965_2_alg».proof.Proof.Ki.Frame

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_value : θ_run defs (onTc (τ := τ) (main (F := F))) ⟨m, fun _ => 0, ρ⟩ (fun r => ∀ c : Dev nD,
      r.2.mem ((c.tc : Thread nD τ).loc main_v129) = W40 m c main_v129
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14 ] from rfl]
      with_reducible exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V40 m (outs m) c))
    (hch := fun c => ⟨.rfl, hpre0 m c, hpost0 m c, hpre1 m c, hpost1 m c, hpre2 m c, hpost2 m c, .rfl, .rfl, .rfl, hpre3 m c, hpost3 m c, hpre4 m c, hpost4 m c, .rfl, .rfl, hpre5 m c, hpost5 m c, hpre6 m c, hpost6 m c, .rfl, .rfl, hpre7 m c, hpost7 m c, hpre8 m c, hpost8 m c, .rfl, .rfl, hpre9 m c, hpost9 m c, hpre10 m c, hpost10 m c, .rfl, .rfl, hpre11 m c, hpost11 m c, hpre12 m c, hpost12 m c, hpre13 m c, hpost13 m c, sep_mono .rfl (hE14 c)⟩)
    (hinit := ?_) (QY := fun c s => s.mem ((c.tc : Thread nD τ).loc main_v129) = W40 m c main_v129 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28) ∧ s.mem ((c.tc : Thread nD τ).loc main_arg29) = m ((c.tc : Thread nD τ).loc main_arg29))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E 0)]
    isplitl [Hh]; · iexact Hh
    iexact HE
  ·
    unfold StableHlo.held
    iintro ⟨Hh, HSI⟩
    ihave Hr := (pointsTo_read_all (Pipeline.ucRefs τ sig) (fun b => ((c : Thread nD τ).1, b)) (V40 m (outs m) c) s') $$ [Hh HSI]
    · isplitl [Hh] <;> iassumption
    icases Hr with ⟨%h, HSI⟩
    imodintro
    isplitr
    · ipureintro
      exact ⟨(h (Proc.devRef .tc main_v129) (Finset.mem_filter.mpr ⟨StableHlo.devRef_mem_tcRefs main_v129, by decide⟩)).trans (congrFun (V40_eq m c) _),
        (h (Proc.devRef .tc main_arg0) (Finset.mem_filter.mpr ⟨StableHlo.devRef_mem_tcRefs main_arg0, by decide⟩)).trans (V40_main_arg0 m (outs m) c),
        (h (Proc.devRef .tc main_arg1) (Finset.mem_filter.mpr ⟨StableHlo.devRef_mem_tcRefs main_arg1, by decide⟩)).trans (V40_main_arg1 m (outs m) c),
        (h (Proc.devRef .tc main_arg2) (Finset.mem_filter.mpr ⟨StableHlo.devRef_mem_tcRefs main_arg2, by decide⟩)).trans (V40_main_arg2 m (outs m) c),
        (h (Proc.devRef .tc main_arg3) (Finset.mem_filter.mpr ⟨StableHlo.devRef_mem_tcRefs main_arg3, by decide⟩)).trans (V40_main_arg3 m (outs m) c),
        (h (Proc.devRef .tc main_arg4) (Finset.mem_filter.mpr ⟨StableHlo.devRef_mem_tcRefs main_arg4, by decide⟩)).trans (V40_main_arg4 m (outs m) c),
        (h (Proc.devRef .tc main_arg5) (Finset.mem_filter.mpr ⟨StableHlo.devRef_mem_tcRefs main_arg5, by decide⟩)).trans (V40_main_arg5 m (outs m) c),
        (h (Proc.devRef .tc main_arg6) (Finset.mem_filter.mpr ⟨StableHlo.devRef_mem_tcRefs main_arg6, by decide⟩)).trans (V40_main_arg6 m (outs m) c),
        (h (Proc.devRef .tc main_arg7) (Finset.mem_filter.mpr ⟨StableHlo.devRef_mem_tcRefs main_arg7, by decide⟩)).trans (V40_main_arg7 m (outs m) c),
        (h (Proc.devRef .tc main_arg8) (Finset.mem_filter.mpr ⟨StableHlo.devRef_mem_tcRefs main_arg8, by decide⟩)).trans (V40_main_arg8 m (outs m) c),
        (h (Proc.devRef .tc main_arg9) (Finset.mem_filter.mpr ⟨StableHlo.devRef_mem_tcRefs main_arg9, by decide⟩)).trans (V40_main_arg9 m (outs m) c),
        (h (Proc.devRef .tc main_arg10) (Finset.mem_filter.mpr ⟨StableHlo.devRef_mem_tcRefs main_arg10, by decide⟩)).trans (V40_main_arg10 m (outs m) c),
        (h (Proc.devRef .tc main_arg11) (Finset.mem_filter.mpr ⟨StableHlo.devRef_mem_tcRefs main_arg11, by decide⟩)).trans (V40_main_arg11 m (outs m) c),
        (h (Proc.devRef .tc main_arg12) (Finset.mem_filter.mpr ⟨StableHlo.devRef_mem_tcRefs main_arg12, by decide⟩)).trans (V40_main_arg12 m (outs m) c),
        (h (Proc.devRef .tc main_arg13) (Finset.mem_filter.mpr ⟨StableHlo.devRef_mem_tcRefs main_arg13, by decide⟩)).trans (V40_main_arg13 m (outs m) c),
        (h (Proc.devRef .tc main_arg14) (Finset.mem_filter.mpr ⟨StableHlo.devRef_mem_tcRefs main_arg14, by decide⟩)).trans (V40_main_arg14 m (outs m) c),
        (h (Proc.devRef .tc main_arg15) (Finset.mem_filter.mpr ⟨StableHlo.devRef_mem_tcRefs main_arg15, by decide⟩)).trans (V40_main_arg15 m (outs m) c),
        (h (Proc.devRef .tc main_arg16) (Finset.mem_filter.mpr ⟨StableHlo.devRef_mem_tcRefs main_arg16, by decide⟩)).trans (V40_main_arg16 m (outs m) c),
        (h (Proc.devRef .tc main_arg17) (Finset.mem_filter.mpr ⟨StableHlo.devRef_mem_tcRefs main_arg17, by decide⟩)).trans (V40_main_arg17 m (outs m) c),
        (h (Proc.devRef .tc main_arg18) (Finset.mem_filter.mpr ⟨StableHlo.devRef_mem_tcRefs main_arg18, by decide⟩)).trans (V40_main_arg18 m (outs m) c),
        (h (Proc.devRef .tc main_arg19) (Finset.mem_filter.mpr ⟨StableHlo.devRef_mem_tcRefs main_arg19, by decide⟩)).trans (V40_main_arg19 m (outs m) c),
        (h (Proc.devRef .tc main_arg20) (Finset.mem_filter.mpr ⟨StableHlo.devRef_mem_tcRefs main_arg20, by decide⟩)).trans (V40_main_arg20 m (outs m) c),
        (h (Proc.devRef .tc main_arg21) (Finset.mem_filter.mpr ⟨StableHlo.devRef_mem_tcRefs main_arg21, by decide⟩)).trans (V40_main_arg21 m (outs m) c),
        (h (Proc.devRef .tc main_arg22) (Finset.mem_filter.mpr ⟨StableHlo.devRef_mem_tcRefs main_arg22, by decide⟩)).trans (V40_main_arg22 m (outs m) c),
        (h (Proc.devRef .tc main_arg23) (Finset.mem_filter.mpr ⟨StableHlo.devRef_mem_tcRefs main_arg23, by decide⟩)).trans (V40_main_arg23 m (outs m) c),
        (h (Proc.devRef .tc main_arg24) (Finset.mem_filter.mpr ⟨StableHlo.devRef_mem_tcRefs main_arg24, by decide⟩)).trans (V40_main_arg24 m (outs m) c),
        (h (Proc.devRef .tc main_arg25) (Finset.mem_filter.mpr ⟨StableHlo.devRef_mem_tcRefs main_arg25, by decide⟩)).trans (V40_main_arg25 m (outs m) c),
        (h (Proc.devRef .tc main_arg26) (Finset.mem_filter.mpr ⟨StableHlo.devRef_mem_tcRefs main_arg26, by decide⟩)).trans (V40_main_arg26 m (outs m) c),
        (h (Proc.devRef .tc main_arg27) (Finset.mem_filter.mpr ⟨StableHlo.devRef_mem_tcRefs main_arg27, by decide⟩)).trans (V40_main_arg27 m (outs m) c),
        (h (Proc.devRef .tc main_arg28) (Finset.mem_filter.mpr ⟨StableHlo.devRef_mem_tcRefs main_arg28, by decide⟩)).trans (V40_main_arg28 m (outs m) c),
        (h (Proc.devRef .tc main_arg29) (Finset.mem_filter.mpr ⟨StableHlo.devRef_mem_tcRefs main_arg29, by decide⟩)).trans (V40_main_arg29 m (outs m) c)⟩
    · iexact HSI

end Cert.KernelIdeal.Hand

end
-- ==== Proof.Ki.ChainKeep.lean ====
import proofs.«408468_j77438260346965_2_alg».proof.Proof.Ki.Run

set_option maxRecDepth 16384

noncomputable section

namespace Cert.KernelIdeal.Hand

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ)

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h
theorem W8_keep (c : Dev nD) (r : Ref sig .tc) (h : r ∉ hostOps3_1_W) : W8 m c r = W7 m c r :=
  StableHlo.after_of_writes_sub hostOps3_1 _ hostOps3_1_writes h
theorem W9_keep (c : Dev nD) (r : Ref sig .tc) (h : r ∉ hostOps3_2_W) : W9 m c r = W8 m c r :=
  StableHlo.after_of_writes_sub hostOps3_2 _ hostOps3_2_writes h
theorem W10_keep (c : Dev nD) (r : Ref sig .tc) (h : r ∉ hostOps3_3_W) : W10 m c r = W9 m c r :=
  StableHlo.after_of_writes_sub hostOps3_3 _ hostOps3_3_writes h
theorem W12_keep (c : Dev nD) (r : Ref sig .tc) (h : r ∉ hostOps4_W) : W12 m c r = W11 m c r :=
  StableHlo.after_of_writes_sub hostOps4 _ hostOps4_writes h
theorem W14_keep (c : Dev nD) (r : Ref sig .tc) (h : r ∉ hostOps5_W) : W14 m c r = W13 m c r :=
  StableHlo.after_of_writes_sub hostOps5 _ hostOps5_writes h
theorem W15_keep (c : Dev nD) (r : Ref sig .tc) (h : r ∉ hostOps5_1_W) : W15 m c r = W14 m c r :=
  StableHlo.after_of_writes_sub hostOps5_1 _ hostOps5_1_writes h
theorem W16_keep (c : Dev nD) (r : Ref sig .tc) (h : r ∉ hostOps5_2_W) : W16 m c r = W15 m c r :=
  StableHlo.after_of_writes_sub hostOps5_2 _ hostOps5_2_writes h
theorem W18_keep (c : Dev nD) (r : Ref sig .tc) (h : r ∉ hostOps6_W) : W18 m c r = W17 m c r :=
  StableHlo.after_of_writes_sub hostOps6 _ hostOps6_writes h
theorem W20_keep (c : Dev nD) (r : Ref sig .tc) (h : r ∉ hostOps7_W) : W20 m c r = W19 m c r :=
  StableHlo.after_of_writes_sub hostOps7 _ hostOps7_writes h
theorem W21_keep (c : Dev nD) (r : Ref sig .tc) (h : r ∉ hostOps7_1_W) : W21 m c r = W20 m c r :=
  StableHlo.after_of_writes_sub hostOps7_1 _ hostOps7_1_writes h
theorem W22_keep (c : Dev nD) (r : Ref sig .tc) (h : r ∉ hostOps7_2_W) : W22 m c r = W21 m c r :=
  StableHlo.after_of_writes_sub hostOps7_2 _ hostOps7_2_writes h
theorem W24_keep (c : Dev nD) (r : Ref sig .tc) (h : r ∉ hostOps8_W) : W24 m c r = W23 m c r :=
  StableHlo.after_of_writes_sub hostOps8 _ hostOps8_writes h
theorem W26_keep (c : Dev nD) (r : Ref sig .tc) (h : r ∉ hostOps9_W) : W26 m c r = W25 m c r :=
  StableHlo.after_of_writes_sub hostOps9 _ hostOps9_writes h
theorem W27_keep (c : Dev nD) (r : Ref sig .tc) (h : r ∉ hostOps9_1_W) : W27 m c r = W26 m c r :=
  StableHlo.after_of_writes_sub hostOps9_1 _ hostOps9_1_writes h
theorem W28_keep (c : Dev nD) (r : Ref sig .tc) (h : r ∉ hostOps9_2_W) : W28 m c r = W27 m c r :=
  StableHlo.after_of_writes_sub hostOps9_2 _ hostOps9_2_writes h
theorem W30_keep (c : Dev nD) (r : Ref sig .tc) (h : r ∉ hostOps10_W) : W30 m c r = W29 m c r :=
  StableHlo.after_of_writes_sub hostOps10 _ hostOps10_writes h
theorem W32_keep (c : Dev nD) (r : Ref sig .tc) (h : r ∉ hostOps11_W) : W32 m c r = W31 m c r :=
  StableHlo.after_of_writes_sub hostOps11 _ hostOps11_writes h
theorem W33_keep (c : Dev nD) (r : Ref sig .tc) (h : r ∉ hostOps11_1_W) : W33 m c r = W32 m c r :=
  StableHlo.after_of_writes_sub hostOps11_1 _ hostOps11_1_writes h
theorem W34_keep (c : Dev nD) (r : Ref sig .tc) (h : r ∉ hostOps11_2_W) : W34 m c r = W33 m c r :=
  StableHlo.after_of_writes_sub hostOps11_2 _ hostOps11_2_writes h
theorem W36_keep (c : Dev nD) (r : Ref sig .tc) (h : r ∉ hostOps12_W) : W36 m c r = W35 m c r :=
  StableHlo.after_of_writes_sub hostOps12 _ hostOps12_writes h
theorem W38_keep (c : Dev nD) (r : Ref sig .tc) (h : r ∉ hostOps13_W) : W38 m c r = W37 m c r :=
  StableHlo.after_of_writes_sub hostOps13 _ hostOps13_writes h
theorem W40_keep (c : Dev nD) (r : Ref sig .tc) (h : r ∉ hostOps14_W) : W40 m c r = W39 m c r :=
  StableHlo.after_of_writes_sub hostOps14 _ hostOps14_writes h

theorem W0_eq (c : Dev nD) (r : Ref sig .tc) : W0 m c r = m ((c : Thread nD τ).loc r) := rfl

macro "w_back" : tactic =>
  `(tactic| repeat (first
      | (rw [W40_keep]; rotate_left; decide) | (rw [W39_of_ne]; rotate_left; decide)
      | (rw [W38_keep]; rotate_left; decide) | (rw [W37_of_ne]; rotate_left; decide)
      | (rw [W36_keep]; rotate_left; decide) | (rw [W35_of_ne]; rotate_left; decide)
      | (rw [W34_keep]; rotate_left; decide) | (rw [W33_keep]; rotate_left; decide)
      | (rw [W32_keep]; rotate_left; decide) | (rw [W31_of_ne]; rotate_left; decide)
      | (rw [W30_keep]; rotate_left; decide) | (rw [W29_of_ne]; rotate_left; decide)
      | (rw [W28_keep]; rotate_left; decide) | (rw [W27_keep]; rotate_left; decide)
      | (rw [W26_keep]; rotate_left; decide) | (rw [W25_of_ne]; rotate_left; decide)
      | (rw [W24_keep]; rotate_left; decide) | (rw [W23_of_ne]; rotate_left; decide)
      | (rw [W22_keep]; rotate_left; decide) | (rw [W21_keep]; rotate_left; decide)
      | (rw [W20_keep]; rotate_left; decide) | (rw [W19_of_ne]; rotate_left; decide)
      | (rw [W18_keep]; rotate_left; decide) | (rw [W17_of_ne]; rotate_left; decide)
      | (rw [W16_keep]; rotate_left; decide) | (rw [W15_keep]; rotate_left; decide)
      | (rw [W14_keep]; rotate_left; decide) | (rw [W13_of_ne]; rotate_left; decide)
      | (rw [W12_keep]; rotate_left; decide) | (rw [W11_of_ne]; rotate_left; decide)
      | (rw [W10_keep]; rotate_left; decide) | (rw [W9_keep]; rotate_left; decide)
      | (rw [W8_keep]; rotate_left; decide) | (rw [W7_keep]; rotate_left; decide)
      | (rw [W6_of_ne]; rotate_left; decide) | (rw [W5_keep]; rotate_left; decide)
      | (rw [W4_of_ne]; rotate_left; decide) | (rw [W3_keep]; rotate_left; decide)
      | (rw [W2_of_ne]; rotate_left; decide) | (rw [W1_keep]; rotate_left; decide)))

example (c : Dev nD) : W10 m c main_v4 = W4 m c main_v4 := by w_back

example (c : Dev nD) : W38 m c main_arg3 = W0 m c main_arg3 := by w_back

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def cur2 {α : Type} {n m : ℕ} (v : (⟨2, ![n, m]⟩ : Shape).Idx → α) : Fin n → Fin m → α := fun p q => v (ix2 p q)

def unc2 {α : Type} {n m : ℕ} (f : Fin n → Fin m → α) : (⟨2, ![n, m]⟩ : Shape).Idx → α := fun i => f (i 0) (i 1)

theorem unc2_ix2 {α : Type} {n m : ℕ} (f : Fin n → Fin m → α) (p : Fin n) (q : Fin m) : unc2 f (ix2 p q) = f p q := rfl

theorem cur2_unc2 {α : Type} {n m : ℕ} (f : Fin n → Fin m → α) : cur2 (unc2 f) = f := rfl

theorem unc2_cur2 {α : Type} {n m : ℕ} (v : (⟨2, ![n, m]⟩ : Shape).Idx → α) : unc2 (cur2 v) = v :=
  funext fun i => congrArg v (eq_ix2 i).symm

def row1 {α : Type} {m : ℕ} (v : (⟨2, ![1, m]⟩ : Shape).Idx → α) : Fin m → α := fun q => v (ix2 (0 : Fin 1) q)

def col1 {α : Type} {n : ℕ} (v : (⟨2, ![n, 1]⟩ : Shape).Idx → α) : Fin n → α := fun p => v (ix2 p (0 : Fin 1))

variable {R K H C A B D : ℕ}

def lin (x : Fin R → Fin K → EReal) (W : Fin K → Fin H → EReal) (b : Fin H → EReal) : Fin R → Fin H → EReal :=
  fun r h => (∑ k, x r k * W k h) + b h

def relu (y : Fin R → Fin H → EReal) : Fin R → Fin H → EReal := fun r h => max (y r h) 0

def mlp (x : Fin R → Fin K → EReal) (W1 : Fin K → Fin H → EReal) (b1 : Fin H → EReal)
    (W2 : Fin H → Fin C → EReal) (b2 : Fin C → EReal) : Fin R → Fin C → EReal :=
  lin (relu (lin x W1 b1)) W2 b2

def lin2 (xa : Fin R → Fin A → EReal) (xb : Fin R → Fin B → EReal) (Wa : Fin A → Fin H → EReal) (Wb : Fin B → Fin H → EReal)
    (b : Fin H → EReal) : Fin R → Fin H → EReal :=
  fun r h => ((∑ k, xa r k * Wa k h) + (∑ k, xb r k * Wb k h)) + b h

def lin3 (xa : Fin R → Fin A → EReal) (xb : Fin R → Fin B → EReal) (xc : Fin R → Fin D → EReal)
    (Wa : Fin A → Fin H → EReal) (Wb : Fin B → Fin H → EReal) (Wc : Fin D → Fin H → EReal) (b : Fin H → EReal) :
    Fin R → Fin H → EReal :=
  fun r h => (((∑ k, xa r k * Wa k h) + (∑ k, xb r k * Wb k h)) + (∑ k, xc r k * Wc k h)) + b h

def cat2 {α : Type} (a : Fin R → Fin A → α) (b : Fin R → Fin B → α) : Fin R → Fin (A + B) → α := fun r => Fin.append (a r) (b r)

def top {α : Type} (W : Fin (A + B) → Fin H → α) : Fin A → Fin H → α := fun k => W (Fin.castAdd B k)
def bot {α : Type} (W : Fin (A + B) → Fin H → α) : Fin B → Fin H → α := fun k => W (Fin.natAdd A k)

theorem lin_cat2 (a : Fin R → Fin A → EReal) (b : Fin R → Fin B → EReal) (W : Fin (A + B) → Fin H → EReal) (bias : Fin H → EReal) :
    lin (cat2 a b) W bias = lin2 a b (top W) (bot W) bias := by
  funext r h
  simp only [lin, lin2, cat2, top, bot, Fin.sum_univ_add, Fin.append_left, Fin.append_right]

theorem lin_cat3 (a : Fin R → Fin A → EReal) (b : Fin R → Fin B → EReal) (c : Fin R → Fin D → EReal)
    (W : Fin (A + B + D) → Fin H → EReal) (bias : Fin H → EReal) :
    lin (cat2 (cat2 a b) c) W bias = lin3 a b c (top (top W)) (bot (top W)) (bot W) bias := by
  funext r h
  simp only [lin, lin3, cat2, top, bot, Fin.sum_univ_add, Fin.append_left, Fin.append_right]

variable {n : ℕ}

def absmax (e : Fin n → EReal) : EReal := Finset.univ.sup fun k => max (e k) (-(e k))

def scale (e : Fin n → EReal) (s : EReal) : Fin n → EReal := fun k => Ideal.div (e k) s

def masked (mask : Fin n → BitVec 1) (e : Fin n → EReal) (α norm : EReal) (dec : Fin n → EReal) : Fin n → EReal :=
  fun k => Scalar.select (mask k) (e k + α * (dec k * norm)) 0

end Cert.Spec

end
-- ==== Proof.SpecNet.lean ====
import proofs.«408468_j77438260346965_2_alg».proof.Proof.Spec

noncomputable section

namespace Cert.Spec

structure Ops (N E : ℕ) where
  atS : (Fin N → Fin 16 → EReal) → Fin E → Fin 16 → EReal
  atR : (Fin N → Fin 16 → EReal) → Fin E → Fin 16 → EReal
  segsum : (Fin E → Fin 16 → EReal) → Fin N → Fin 16 → EReal
  pairavg : (Fin E → Fin 16 → EReal) → Fin E → Fin 16 → EReal
  mask : Fin E → BitVec 1

structure Wts (K C : ℕ) where
  W1 : Fin K → Fin 16 → EReal
  b1 : Fin 16 → EReal
  W2 : Fin 16 → Fin C → EReal
  b2 : Fin C → EReal

def Wts.app {K C R : ℕ} (w : Wts K C) (x : Fin R → Fin K → EReal) : Fin R → Fin C → EReal := mlp x w.W1 w.b1 w.W2 w.b2

variable {N E : ℕ}

def edgeStep (o : Ops N E) (mpe : Wts (16 + 16 + 16) 16) (hn : Fin N → Fin 16 → EReal) (he : Fin E → Fin 16 → EReal) :
    Fin E → Fin 16 → EReal :=
  mpe.app (cat2 (cat2 (o.atS hn) (o.atR hn)) he)

def nodeStep (o : Ops N E) (mpn : Wts (16 + 16) 16) (hn : Fin N → Fin 16 → EReal) (he' : Fin E → Fin 16 → EReal) :
    Fin N → Fin 16 → EReal :=
  mpn.app (cat2 hn (o.segsum he'))

def round (o : Ops N E) (mpe : Wts (16 + 16 + 16) 16) (mpn : Wts (16 + 16) 16)
    (s : (Fin N → Fin 16 → EReal) × (Fin E → Fin 16 → EReal)) : (Fin N → Fin 16 → EReal) × (Fin E → Fin 16 → EReal) :=
  (nodeStep o mpn s.1 (edgeStep o mpe s.1 s.2), edgeStep o mpe s.1 s.2)

def result (o : Ops N E) (nodeW edgeW : Wts 1 16) (mpe : Wts (16 + 16 + 16) 16) (mpn : Wts (16 + 16) 16) (dec : Wts 16 1)
    (nodes : Fin N → EReal) (e : Fin E → EReal) (α : EReal) : Fin E → EReal :=
  let norm := absmax e
  let hn0 := nodeW.app (fun r (_ : Fin 1) => nodes r)
  let he0 := edgeW.app (fun r (_ : Fin 1) => scale e norm r)
  let s5 := round o mpe mpn (round o mpe mpn (round o mpe mpn (round o mpe mpn (round o mpe mpn (hn0, he0)))))
  let d := dec.app (o.pairavg s5.2)
  masked o.mask e α norm (fun k => d k (0 : Fin 1))

end Cert.Spec

end
-- ==== Proof.Ki.ChainDefs.lean ====
import proofs.«408468_j77438260346965_2_alg».proof.Proof.Gen.KernelIdeal
import proofs.«408468_j77438260346965_2_alg».proof.Proof.SpecNet
import Idealize.ShloMosaic.Lib.ValueIdx

noncomputable section

namespace Cert.KernelIdeal.Hand

open Cert.KernelIdeal Cert.KernelIdeal.Facts₀
open Idealize.ShloMosaic Idealize.ShloMosaic.TcCoe Idealize.ShloMosaic.ValueIdx
open Cert.Spec

def kWrapN (idx : IVec S1310720 32) : IVec S1310720x1 32 :=
  broadcastInDim S1310720x1 (![0] : Fin 1 → Fin S1310720x1.rank) bcast_S1310720_S1310720x1_0
    (select (cmpi .slt idx (broadcastInDim S1310720 (![] : Fin 0 → Fin S1310720.rank) bcast_S_S1310720 (constantI S_ 32 0#32)))
      (addi idx (broadcastInDim S1310720 (![] : Fin 0 → Fin S1310720.rank) bcast_S_S1310720 (constantI S_ 32 262144#32))) idx)

def kInRange (w : IVec S1310720x1 32) : IVec S1310720 1 :=
  Host.reduce IntOp.andi
    (andi (cmpi .sge w (broadcastInDim S1310720x1 (![] : Fin 0 → Fin S1310720x1.rank) bcast_S_S1310720x1 (constantI S_ 32 0#32)))
      (cmpi .sle w
        (broadcastInDim S1310720x1 (![0, 1] : Fin 2 → Fin S1310720x1.rank) bcast_S1x1_S1310720x1_0_1
          (broadcastInDim S1x1 (![1] : Fin 1 → Fin S1x1.rank) bcast_S1_S1x1_1 (constantI S1 32 262143#32)))))
    (constantI S_ 1 1#1) reducesTo_S1310720x1_S1310720_d1 h_S_

def kFill : FVec Ideal S1310720x16 .f32 :=
  broadcastInDim S1310720x16 (![] : Fin 0 → Fin S1310720x16.rank) bcast_S_S1310720x16 (constant (F := Ideal) S_ .f32 0x7FC00000#32)

def kTake (hn : FVec Ideal S262144x16 .f32) (idx : IVec S1310720 32) : FVec Ideal S1310720x16 .f32 :=
  select
    (broadcastInDim S1310720x16 (![0] : Fin 1 → Fin S1310720x16.rank) bcast_S1310720_S1310720x16_0 (kInRange (kWrapN idx)))
    (Host.gather gather_S262144x16_S1310720x1_S1310720x16_1_0_n_n_0_1_116 hn (kWrapN idx))
    kFill

def kZerosN : FVec Ideal S262144x16 .f32 :=
  broadcastInDim S262144x16 (![] : Fin 0 → Fin S262144x16.rank) bcast_S_S262144x16 (constant (F := Ideal) S_ .f32 0x00000000#32)

def kSum (recv : IVec S1310720 32) (he : FVec Ideal S1310720x16 .f32) : FVec Ideal S262144x16 .f32 :=
  Host.scatterAdd (F := Ideal) scatter_S262144x16_S1310720x1_S1310720x16_1_0_0_1 kZerosN
    (broadcastInDim S1310720x1 (![0] : Fin 1 → Fin S1310720x1.rank) bcast_S1310720_S1310720x1_0 recv) he

def kPairCol0 (bi : IVec S655360x2 32) : IVec S655360 32 :=
  shapeCast S655360 (extractStridedSlice S655360x1 ![0, 0] bi slices_S655360x2_S655360x1_0_0) shapeCasts_S655360x1_S655360

def kPairCol1 (bi : IVec S655360x2 32) : IVec S655360 32 :=
  shapeCast S655360 (extractStridedSlice S655360x1 ![0, 1] bi slices_S655360x2_S655360x1_0_1) shapeCasts_S655360x1_S655360

def kWrapE (idx : IVec S655360 32) : IVec S655360x1 32 :=
  broadcastInDim S655360x1 (![0] : Fin 1 → Fin S655360x1.rank) bcast_S655360_S655360x1_0
    (select (cmpi .slt idx (broadcastInDim S655360 (![] : Fin 0 → Fin S655360.rank) bcast_S_S655360 (constantI S_ 32 0#32)))
      (addi idx (broadcastInDim S655360 (![] : Fin 0 → Fin S655360.rank) bcast_S_S655360 (constantI S_ 32 1310720#32))) idx)

def kRowsE (he : FVec Ideal S1310720x16 .f32) (idx : IVec S655360 32) : FVec Ideal S655360x16 .f32 :=
  Host.gather gather_S1310720x16_S655360x1_S655360x16_1_0_n_n_0_1_116 he (kWrapE idx)

def kHalfE : FVec Ideal S655360x16 .f32 :=
  broadcastInDim S655360x16 (![] : Fin 0 → Fin S655360x16.rank) bcast_S_S655360x16 (constant (F := Ideal) S_ .f32 0x3F000000#32)

def kAvgE (bi : IVec S655360x2 32) (he : FVec Ideal S1310720x16 .f32) : FVec Ideal S655360x16 .f32 :=
  mulf kHalfE (addf (kRowsE he (kPairCol0 bi)) (kRowsE he (kPairCol1 bi)))

def kSetE (x : FVec Ideal S1310720x16 .f32) (idx : IVec S655360 32) (u : FVec Ideal S655360x16 .f32) : FVec Ideal S1310720x16 .f32 :=
  Host.scatter scatter_S1310720x16_S655360x1_S655360x16_1_0_0_1 (fun _ b => b) x (kWrapE idx) u

def kPairAvg (bi : IVec S655360x2 32) (he : FVec Ideal S1310720x16 .f32) : FVec Ideal S1310720x16 .f32 :=
  kSetE (kSetE he (kPairCol0 bi) (kAvgE bi he)) (kPairCol1 bi) (kAvgE bi he)

def kMaskGE (send recv : IVec S1310720 32) : IVec S1310720 1 := cmpi .sge send recv

attribute [irreducible] kWrapN kInRange kFill kTake kZerosN kSum kPairCol0 kPairCol1 kWrapE kRowsE kHalfE kAvgE kSetE kPairAvg

def opsK (recv send : IVec S1310720 32) (bi : IVec S655360x2 32) : Cert.Spec.Ops 262144 1310720 where
  atS hn := cur2 (kTake (unc2 hn) send)
  atR hn := cur2 (kTake (unc2 hn) recv)
  segsum he := cur2 (kSum recv (unc2 he))
  pairavg he := cur2 (kPairAvg bi (unc2 he))
  mask k := kMaskGE send recv (ix1 k)

theorem opsK_atS (recv send : IVec S1310720 32) (bi : IVec S655360x2 32) (hn : Fin 262144 → Fin 16 → EReal) :
    (opsK recv send bi).atS hn = cur2 (kTake (unc2 hn) send) := rfl

theorem opsK_atR (recv send : IVec S1310720 32) (bi : IVec S655360x2 32) (hn : Fin 262144 → Fin 16 → EReal) :
    (opsK recv send bi).atR hn = cur2 (kTake (unc2 hn) recv) := rfl

theorem opsK_segsum (recv send : IVec S1310720 32) (bi : IVec S655360x2 32) (he : Fin 1310720 → Fin 16 → EReal) :
    (opsK recv send bi).segsum he = cur2 (kSum recv (unc2 he)) := rfl

theorem opsK_pairavg (recv send : IVec S1310720 32) (bi : IVec S655360x2 32) (he : Fin 1310720 → Fin 16 → EReal) :
    (opsK recv send bi).pairavg he = cur2 (kPairAvg bi (unc2 he)) := rfl

theorem opsK_mask (recv send : IVec S1310720 32) (bi : IVec S655360x2 32) (k : Fin 1310720) :
    (opsK recv send bi).mask k = kMaskGE send recv (ix1 k) := rfl

variable (m : (ℓ : Loc nD τ sig) → Buf (Elt Ideal) ℓ) (c : Dev nD)

def opsAt : Cert.Spec.Ops 262144 1310720 :=
  opsK (m ((c : Thread nD τ).loc main_arg2)) (m ((c : Thread nD τ).loc main_arg3)) (m ((c : Thread nD τ).loc main_arg4))

end Cert.KernelIdeal.Hand

end
-- ==== Proof.Ki.ChainHost.lean ====
import proofs.«408468_j77438260346965_2_alg».proof.Proof.Gen.KernelIdeal.Launch
import proofs.«408468_j77438260346965_2_alg».proof.Proof.Ki.ChainDefs

set_option maxRecDepth 16384

noncomputable section

namespace Cert.KernelIdeal.Hand

open Cert.KernelIdeal Cert.KernelIdeal.Gen
open Idealize.ShloMosaic Idealize.ShloMosaic.TcCoe Idealize.ShloMosaic.ValueIdx

theorem ofBuf_toBuf_of {Val : EltTy → Type} {T : BufTy} (r : Ref sig .tc) (p1 q1 : r.ty = T) (p2 q2 : r.space ≠ .host)
    (p3 q3 : r.isScoped = false) (v : T.Contents Val) :
    (StableHlo.TRef.of r p1 p2 p3).ofBuf ((StableHlo.TRef.of r q1 q2 q3).toBuf v) = v := by
  subst p1
  rfl

variable (X : Valuation τ sig (Elt Ideal))

theorem ofBuf_arg3 (p1 p2 p3) :
    (StableHlo.TRef.of (T := ⟨S1310720, .i32⟩) main_arg3 p1 p2 p3).ofBuf (X main_arg3) = X main_arg3 := rfl
theorem ofBuf_arg2 (p1 p2 p3) :
    (StableHlo.TRef.of (T := ⟨S1310720, .i32⟩) main_arg2 p1 p2 p3).ofBuf (X main_arg2) = X main_arg2 := rfl
theorem ofBuf_v4 (p1 p2 p3) :
    (StableHlo.TRef.of (T := ⟨S262144x16, .f32⟩) main_v4 p1 p2 p3).ofBuf (X main_v4) = X main_v4 := rfl
theorem ofBuf_v25 (p1 p2 p3) :
    (StableHlo.TRef.of (T := ⟨S262144x16, .f32⟩) main_v25 p1 p2 p3).ofBuf (X main_v25) = X main_v25 := rfl
theorem ofBuf_v41 (p1 p2 p3) :
    (StableHlo.TRef.of (T := ⟨S262144x16, .f32⟩) main_v41 p1 p2 p3).ofBuf (X main_v41) = X main_v41 := rfl
theorem ofBuf_v57 (p1 p2 p3) :
    (StableHlo.TRef.of (T := ⟨S262144x16, .f32⟩) main_v57 p1 p2 p3).ofBuf (X main_v57) = X main_v57 := rfl
theorem ofBuf_v73 (p1 p2 p3) :
    (StableHlo.TRef.of (T := ⟨S262144x16, .f32⟩) main_v73 p1 p2 p3).ofBuf (X main_v73) = X main_v73 := rfl

theorem toBuf_v10 (p1 p2 p3) (v : (⟨S1310720x16, .f32⟩ : BufTy).Contents (Elt Ideal)) :
    (StableHlo.TRef.of (T := ⟨S1310720x16, .f32⟩) main_v10 p1 p2 p3).toBuf v = v := rfl
theorem toBuf_v11 (p1 p2 p3) (v : (⟨S1310720x16, .f32⟩ : BufTy).Contents (Elt Ideal)) :
    (StableHlo.TRef.of (T := ⟨S1310720x16, .f32⟩) main_v11 p1 p2 p3).toBuf v = v := rfl
theorem toBuf_v26 (p1 p2 p3) (v : (⟨S1310720x16, .f32⟩ : BufTy).Contents (Elt Ideal)) :
    (StableHlo.TRef.of (T := ⟨S1310720x16, .f32⟩) main_v26 p1 p2 p3).toBuf v = v := rfl
theorem toBuf_v27 (p1 p2 p3) (v : (⟨S1310720x16, .f32⟩ : BufTy).Contents (Elt Ideal)) :
    (StableHlo.TRef.of (T := ⟨S1310720x16, .f32⟩) main_v27 p1 p2 p3).toBuf v = v := rfl
theorem toBuf_v42 (p1 p2 p3) (v : (⟨S1310720x16, .f32⟩ : BufTy).Contents (Elt Ideal)) :
    (StableHlo.TRef.of (T := ⟨S1310720x16, .f32⟩) main_v42 p1 p2 p3).toBuf v = v := rfl
theorem toBuf_v43 (p1 p2 p3) (v : (⟨S1310720x16, .f32⟩ : BufTy).Contents (Elt Ideal)) :
    (StableHlo.TRef.of (T := ⟨S1310720x16, .f32⟩) main_v43 p1 p2 p3).toBuf v = v := rfl
theorem toBuf_v58 (p1 p2 p3) (v : (⟨S1310720x16, .f32⟩ : BufTy).Contents (Elt Ideal)) :
    (StableHlo.TRef.of (T := ⟨S1310720x16, .f32⟩) main_v58 p1 p2 p3).toBuf v = v := rfl
theorem toBuf_v59 (p1 p2 p3) (v : (⟨S1310720x16, .f32⟩ : BufTy).Contents (Elt Ideal)) :
    (StableHlo.TRef.of (T := ⟨S1310720x16, .f32⟩) main_v59 p1 p2 p3).toBuf v = v := rfl
theorem toBuf_v74 (p1 p2 p3) (v : (⟨S1310720x16, .f32⟩ : BufTy).Contents (Elt Ideal)) :
    (StableHlo.TRef.of (T := ⟨S1310720x16, .f32⟩) main_v74 p1 p2 p3).toBuf v = v := rfl
theorem toBuf_v75 (p1 p2 p3) (v : (⟨S1310720x16, .f32⟩ : BufTy).Contents (Elt Ideal)) :
    (StableHlo.TRef.of (T := ⟨S1310720x16, .f32⟩) main_v75 p1 p2 p3).toBuf v = v := rfl

theorem host_v10 : StableHlo.after (hostOps3_1 (F := Ideal)) X main_v10 = kTake (X main_v4) (X main_arg3) := by
  unfold kTake kInRange kWrapN kFill
  after_results_simp
  simp only [ofBuf_toBuf_of, ofBuf_arg3, ofBuf_v4, toBuf_v10]

theorem host_v11 : StableHlo.after (hostOps3_2 (F := Ideal)) X main_v11 = kTake (X main_v4) (X main_arg2) := by
  unfold kTake kInRange kWrapN kFill
  after_results_simp
  simp only [ofBuf_toBuf_of, ofBuf_arg2, ofBuf_v4, toBuf_v11]

theorem host_v12 : StableHlo.after (hostOps3_3 (F := Ideal)) X main_v12
    = extractStridedSlice S16x16 ![0, 0] (X main_arg17) slices_S48x16_S16x16_0_0 := by after_results
theorem host_v13 : StableHlo.after (hostOps3_3 (F := Ideal)) X main_v13
    = extractStridedSlice S16x16 ![16, 0] (X main_arg17) slices_S48x16_S16x16_16_0 := by after_results
theorem host_v14 : StableHlo.after (hostOps3_3 (F := Ideal)) X main_v14
    = extractStridedSlice S16x16 ![32, 0] (X main_arg17) slices_S48x16_S16x16_32_0 := by after_results
theorem host_v15 : StableHlo.after (hostOps3_3 (F := Ideal)) X main_v15
    = shapeCast S1x16 (X main_arg18) shapeCasts_S16_S1x16 := by after_results; rfl
theorem host_v16 : StableHlo.after (hostOps3_3 (F := Ideal)) X main_v16
    = shapeCast S1x16 (X main_arg20) shapeCasts_S16_S1x16 := by after_results; rfl

theorem host_v20 : StableHlo.after (hostOps4 (F := Ideal)) X main_v20 = kSum (X main_arg2) (X main_v17) := by
  unfold kSum kZerosN
  after_results
theorem host_v21 : StableHlo.after (hostOps4 (F := Ideal)) X main_v21
    = extractStridedSlice S16x16 ![0, 0] (X main_arg21) slices_S32x16_S16x16_0_0 := by after_results
theorem host_v22 : StableHlo.after (hostOps4 (F := Ideal)) X main_v22
    = extractStridedSlice S16x16 ![16, 0] (X main_arg21) slices_S32x16_S16x16_16_0 := by after_results
theorem host_v23 : StableHlo.after (hostOps4 (F := Ideal)) X main_v23
    = shapeCast S1x16 (X main_arg22) shapeCasts_S16_S1x16 := by after_results; rfl
theorem host_v24 : StableHlo.after (hostOps4 (F := Ideal)) X main_v24
    = shapeCast S1x16 (X main_arg24) shapeCasts_S16_S1x16 := by after_results; rfl

theorem host_v26 : StableHlo.after (hostOps5 (F := Ideal)) X main_v26 = kTake (X main_v25) (X main_arg3) := by
  unfold kTake kInRange kWrapN kFill
  after_results_simp
  simp only [ofBuf_toBuf_of, ofBuf_arg3, ofBuf_v25, toBuf_v26]

theorem host_v27 : StableHlo.after (hostOps5_1 (F := Ideal)) X main_v27 = kTake (X main_v25) (X main_arg2) := by
  unfold kTake kInRange kWrapN kFill
  after_results_simp
  simp only [ofBuf_toBuf_of, ofBuf_arg2, ofBuf_v25, toBuf_v27]

theorem host_v28 : StableHlo.after (hostOps5_2 (F := Ideal)) X main_v28
    = extractStridedSlice S16x16 ![0, 0] (X main_arg17) slices_S48x16_S16x16_0_0 := by after_results
theorem host_v29 : StableHlo.after (hostOps5_2 (F := Ideal)) X main_v29
    = extractStridedSlice S16x16 ![16, 0] (X main_arg17) slices_S48x16_S16x16_16_0 := by after_results
theorem host_v30 : StableHlo.after (hostOps5_2 (F := Ideal)) X main_v30
    = extractStridedSlice S16x16 ![32, 0] (X main_arg17) slices_S48x16_S16x16_32_0 := by after_results
theorem host_v31 : StableHlo.after (hostOps5_2 (F := Ideal)) X main_v31
    = shapeCast S1x16 (X main_arg18) shapeCasts_S16_S1x16 := by after_results; rfl
theorem host_v32 : StableHlo.after (hostOps5_2 (F := Ideal)) X main_v32
    = shapeCast S1x16 (X main_arg20) shapeCasts_S16_S1x16 := by after_results; rfl

theorem host_v36 : StableHlo.after (hostOps6 (F := Ideal)) X main_v36 = kSum (X main_arg2) (X main_v33) := by
  unfold kSum kZerosN
  after_results
theorem host_v37 : StableHlo.after (hostOps6 (F := Ideal)) X main_v37
    = extractStridedSlice S16x16 ![0, 0] (X main_arg21) slices_S32x16_S16x16_0_0 := by after_results
theorem host_v38 : StableHlo.after (hostOps6 (F := Ideal)) X main_v38
    = extractStridedSlice S16x16 ![16, 0] (X main_arg21) slices_S32x16_S16x16_16_0 := by after_results
theorem host_v39 : StableHlo.after (hostOps6 (F := Ideal)) X main_v39
    = shapeCast S1x16 (X main_arg22) shapeCasts_S16_S1x16 := by after_results; rfl
theorem host_v40 : StableHlo.after (hostOps6 (F := Ideal)) X main_v40
    = shapeCast S1x16 (X main_arg24) shapeCasts_S16_S1x16 := by after_results; rfl

theorem host_v42 : StableHlo.after (hostOps7 (F := Ideal)) X main_v42 = kTake (X main_v41) (X main_arg3) := by
  unfold kTake kInRange kWrapN kFill
  after_results_simp
  simp only [ofBuf_toBuf_of, ofBuf_arg3, ofBuf_v41, toBuf_v42]

theorem host_v43 : StableHlo.after (hostOps7_1 (F := Ideal)) X main_v43 = kTake (X main_v41) (X main_arg2) := by
  unfold kTake kInRange kWrapN kFill
  after_results_simp
  simp only [ofBuf_toBuf_of, ofBuf_arg2, ofBuf_v41, toBuf_v43]

theorem host_v44 : StableHlo.after (hostOps7_2 (F := Ideal)) X main_v44
    = extractStridedSlice S16x16 ![0, 0] (X main_arg17) slices_S48x16_S16x16_0_0 := by after_results
theorem host_v45 : StableHlo.after (hostOps7_2 (F := Ideal)) X main_v45
    = extractStridedSlice S16x16 ![16, 0] (X main_arg17) slices_S48x16_S16x16_16_0 := by after_results
theorem host_v46 : StableHlo.after (hostOps7_2 (F := Ideal)) X main_v46
    = extractStridedSlice S16x16 ![32, 0] (X main_arg17) slices_S48x16_S16x16_32_0 := by after_results
theorem host_v47 : StableHlo.after (hostOps7_2 (F := Ideal)) X main_v47
    = shapeCast S1x16 (X main_arg18) shapeCasts_S16_S1x16 := by after_results; rfl
theorem host_v48 : StableHlo.after (hostOps7_2 (F := Ideal)) X main_v48
    = shapeCast S1x16 (X main_arg20) shapeCasts_S16_S1x16 := by after_results; rfl

theorem host_v52 : StableHlo.after (hostOps8 (F := Ideal)) X main_v52 = kSum (X main_arg2) (X main_v49) := by
  unfold kSum kZerosN
  after_results
theorem host_v53 : StableHlo.after (hostOps8 (F := Ideal)) X main_v53
    = extractStridedSlice S16x16 ![0, 0] (X main_arg21) slices_S32x16_S16x16_0_0 := by after_results
theorem host_v54 : StableHlo.after (hostOps8 (F := Ideal)) X main_v54
    = extractStridedSlice S16x16 ![16, 0] (X main_arg21) slices_S32x16_S16x16_16_0 := by after_results
theorem host_v55 : StableHlo.after (hostOps8 (F := Ideal)) X main_v55
    = shapeCast S1x16 (X main_arg22) shapeCasts_S16_S1x16 := by after_results; rfl
theorem host_v56 : StableHlo.after (hostOps8 (F := Ideal)) X main_v56
    = shapeCast S1x16 (X main_arg24) shapeCasts_S16_S1x16 := by after_results; rfl

theorem host_v58 : StableHlo.after (hostOps9 (F := Ideal)) X main_v58 = kTake (X main_v57) (X main_arg3) := by
  unfold kTake kInRange kWrapN kFill
  after_results_simp
  simp only [ofBuf_toBuf_of, ofBuf_arg3, ofBuf_v57, toBuf_v58]

theorem host_v59 : StableHlo.after (hostOps9_1 (F := Ideal)) X main_v59 = kTake (X main_v57) (X main_arg2) := by
  unfold kTake kInRange kWrapN kFill
  after_results_simp
  simp only [ofBuf_toBuf_of, ofBuf_arg2, ofBuf_v57, toBuf_v59]

theorem host_v60 : StableHlo.after (hostOps9_2 (F := Ideal)) X main_v60
    = extractStridedSlice S16x16 ![0, 0] (X main_arg17) slices_S48x16_S16x16_0_0 := by after_results
theorem host_v61 : StableHlo.after (hostOps9_2 (F := Ideal)) X main_v61
    = extractStridedSlice S16x16 ![16, 0] (X main_arg17) slices_S48x16_S16x16_16_0 := by after_results
theorem host_v62 : StableHlo.after (hostOps9_2 (F := Ideal)) X main_v62
    = extractStridedSlice S16x16 ![32, 0] (X main_arg17) slices_S48x16_S16x16_32_0 := by after_results
theorem host_v63 : StableHlo.after (hostOps9_2 (F := Ideal)) X main_v63
    = shapeCast S1x16 (X main_arg18) shapeCasts_S16_S1x16 := by after_results; rfl
theorem host_v64 : StableHlo.after (hostOps9_2 (F := Ideal)) X main_v64
    = shapeCast S1x16 (X main_arg20) shapeCasts_S16_S1x16 := by after_results; rfl

theorem host_v68 : StableHlo.after (hostOps10 (F := Ideal)) X main_v68 = kSum (X main_arg2) (X main_v65) := by
  unfold kSum kZerosN
  after_results
theorem host_v69 : StableHlo.after (hostOps10 (F := Ideal)) X main_v69
    = extractStridedSlice S16x16 ![0, 0] (X main_arg21) slices_S32x16_S16x16_0_0 := by after_results
theorem host_v70 : StableHlo.after (hostOps10 (F := Ideal)) X main_v70
    = extractStridedSlice S16x16 ![16, 0] (X main_arg21) slices_S32x16_S16x16_16_0 := by after_results
theorem host_v71 : StableHlo.after (hostOps10 (F := Ideal)) X main_v71
    = shapeCast S1x16 (X main_arg22) shapeCasts_S16_S1x16 := by after_results; rfl
theorem host_v72 : StableHlo.after (hostOps10 (F := Ideal)) X main_v72
    = shapeCast S1x16 (X main_arg24) shapeCasts_S16_S1x16 := by after_results; rfl

theorem host_v74 : StableHlo.after (hostOps11 (F := Ideal)) X main_v74 = kTake (X main_v73) (X main_arg3) := by
  unfold kTake kInRange kWrapN kFill
  after_results_simp
  simp only [ofBuf_toBuf_of, ofBuf_arg3, ofBuf_v73, toBuf_v74]

theorem host_v75 : StableHlo.after (hostOps11_1 (F := Ideal)) X main_v75 = kTake (X main_v73) (X main_arg2) := by
  unfold kTake kInRange kWrapN kFill
  after_results_simp
  simp only [ofBuf_toBuf_of, ofBuf_arg2, ofBuf_v73, toBuf_v75]

theorem host_v76 : StableHlo.after (hostOps11_2 (F := Ideal)) X main_v76
    = extractStridedSlice S16x16 ![0, 0] (X main_arg17) slices_S48x16_S16x16_0_0 := by after_results
theorem host_v77 : StableHlo.after (hostOps11_2 (F := Ideal)) X main_v77
    = extractStridedSlice S16x16 ![16, 0] (X main_arg17) slices_S48x16_S16x16_16_0 := by after_results
theorem host_v78 : StableHlo.after (hostOps11_2 (F := Ideal)) X main_v78
    = extractStridedSlice S16x16 ![32, 0] (X main_arg17) slices_S48x16_S16x16_32_0 := by after_results
theorem host_v79 : StableHlo.after (hostOps11_2 (F := Ideal)) X main_v79
    = shapeCast S1x16 (X main_arg18) shapeCasts_S16_S1x16 := by after_results; rfl
theorem host_v80 : StableHlo.after (hostOps11_2 (F := Ideal)) X main_v80
    = shapeCast S1x16 (X main_arg20) shapeCasts_S16_S1x16 := by after_results; rfl

end Cert.KernelIdeal.Hand

end
-- ==== Proof.Ki.ChainIn.lean ====
import proofs.«408468_j77438260346965_2_alg».proof.Proof.Ki.ChainKeep
import proofs.«408468_j77438260346965_2_alg».proof.Proof.Ki.ChainHost

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (c : Dev nD)

theorem in_v10 : W10 m c main_v10 = kTake (W4 m c main_v4) (W0 m c main_arg3) := by
  have ht : W7 m c main_v4 = W4 m c main_v4 := by w_back
  have hi : W7 m c main_arg3 = W0 m c main_arg3 := by w_back
  w_back
  rw [show W8 m c main_v10 = _ from host_v10 (W7 m c), ht, hi]
theorem in_v11 : W10 m c main_v11 = kTake (W4 m c main_v4) (W0 m c main_arg2) := by
  have ht : W8 m c main_v4 = W4 m c main_v4 := by w_back
  have hi : W8 m c main_arg2 = W0 m c main_arg2 := by w_back
  w_back
  rw [show W9 m c main_v11 = _ from host_v11 (W8 m c), ht, hi]
theorem in3_v7 : W10 m c main_v7 = W6 m c main_v7 := by w_back
theorem in_v12 : W10 m c main_v12 = extractStridedSlice S16x16 ![0, 0] (W0 m c main_arg17) slices_S48x16_S16x16_0_0 := by
  rw [show W10 m c main_v12 = _ from host_v12 (W9 m c)]
  w_back
theorem in_v13 : W10 m c main_v13 = extractStridedSlice S16x16 ![16, 0] (W0 m c main_arg17) slices_S48x16_S16x16_16_0 := by
  rw [show W10 m c main_v13 = _ from host_v13 (W9 m c)]
  w_back
theorem in_v14 : W10 m c main_v14 = extractStridedSlice S16x16 ![32, 0] (W0 m c main_arg17) slices_S48x16_S16x16_32_0 := by
  rw [show W10 m c main_v14 = _ from host_v14 (W9 m c)]
  w_back
theorem in_v15 : W10 m c main_v15 = shapeCast S1x16 (W0 m c main_arg18) shapeCasts_S16_S1x16 := by
  rw [show W10 m c main_v15 = _ from host_v15 (W9 m c)]
  w_back
theorem in3_arg19 : W10 m c main_arg19 = W0 m c main_arg19 := by w_back
theorem in_v16 : W10 m c main_v16 = shapeCast S1x16 (W0 m c main_arg20) shapeCasts_S16_S1x16 := by
  rw [show W10 m c main_v16 = _ from host_v16 (W9 m c)]
  w_back

theorem in4_v4 : W12 m c main_v4 = W4 m c main_v4 := by w_back
theorem in_v20 : W12 m c main_v20 = kSum (W0 m c main_arg2) (W11 m c main_v17) := by
  have hi : W11 m c main_arg2 = W0 m c main_arg2 := by w_back
  rw [show W12 m c main_v20 = _ from host_v20 (W11 m c), hi]
theorem in_v21 : W12 m c main_v21 = extractStridedSlice S16x16 ![0, 0] (W0 m c main_arg21) slices_S32x16_S16x16_0_0 := by
  rw [show W12 m c main_v21 = _ from host_v21 (W11 m c)]
  w_back
theorem in_v22 : W12 m c main_v22 = extractStridedSlice S16x16 ![16, 0] (W0 m c main_arg21) slices_S32x16_S16x16_16_0 := by
  rw [show W12 m c main_v22 = _ from host_v22 (W11 m c)]
  w_back
theorem in_v23 : W12 m c main_v23 = shapeCast S1x16 (W0 m c main_arg22) shapeCasts_S16_S1x16 := by
  rw [show W12 m c main_v23 = _ from host_v23 (W11 m c)]
  w_back
theorem in4_arg23 : W12 m c main_arg23 = W0 m c main_arg23 := by w_back
theorem in_v24 : W12 m c main_v24 = shapeCast S1x16 (W0 m c main_arg24) shapeCasts_S16_S1x16 := by
  rw [show W12 m c main_v24 = _ from host_v24 (W11 m c)]
  w_back

theorem in_v26 : W16 m c main_v26 = kTake (W13 m c main_v25) (W0 m c main_arg3) := by
  have hi : W13 m c main_arg3 = W0 m c main_arg3 := by w_back
  w_back
  rw [show W14 m c main_v26 = _ from host_v26 (W13 m c), hi]
theorem in_v27 : W16 m c main_v27 = kTake (W13 m c main_v25) (W0 m c main_arg2) := by
  have ht : W14 m c main_v25 = W13 m c main_v25 := by w_back
  have hi : W14 m c main_arg2 = W0 m c main_arg2 := by w_back
  w_back
  rw [show W15 m c main_v27 = _ from host_v27 (W14 m c), ht, hi]
theorem in5_v17 : W16 m c main_v17 = W11 m c main_v17 := by w_back
theorem in_v28 : W16 m c main_v28 = extractStridedSlice S16x16 ![0, 0] (W0 m c main_arg17) slices_S48x16_S16x16_0_0 := by
  rw [show W16 m c main_v28 = _ from host_v28 (W15 m c)]
  w_back
theorem in_v29 : W16 m c main_v29 = extractStridedSlice S16x16 ![16, 0] (W0 m c main_arg17) slices_S48x16_S16x16_16_0 := by
  rw [show W16 m c main_v29 = _ from host_v29 (W15 m c)]
  w_back
theorem in_v30 : W16 m c main_v30 = extractStridedSlice S16x16 ![32, 0] (W0 m c main_arg17) slices_S48x16_S16x16_32_0 := by
  rw [show W16 m c main_v30 = _ from host_v30 (W15 m c)]
  w_back
theorem in_v31 : W16 m c main_v31 = shapeCast S1x16 (W0 m c main_arg18) shapeCasts_S16_S1x16 := by
  rw [show W16 m c main_v31 = _ from host_v31 (W15 m c)]
  w_back
theorem in5_arg19 : W16 m c main_arg19 = W0 m c main_arg19 := by w_back
theorem in_v32 : W16 m c main_v32 = shapeCast S1x16 (W0 m c main_arg20) shapeCasts_S16_S1x16 := by
  rw [show W16 m c main_v32 = _ from host_v32 (W15 m c)]
  w_back

theorem in6_v25 : W18 m c main_v25 = W13 m c main_v25 := by w_back
theorem in_v36 : W18 m c main_v36 = kSum (W0 m c main_arg2) (W17 m c main_v33) := by
  have hi : W17 m c main_arg2 = W0 m c main_arg2 := by w_back
  rw [show W18 m c main_v36 = _ from host_v36 (W17 m c), hi]
theorem in_v37 : W18 m c main_v37 = extractStridedSlice S16x16 ![0, 0] (W0 m c main_arg21) slices_S32x16_S16x16_0_0 := by
  rw [show W18 m c main_v37 = _ from host_v37 (W17 m c)]
  w_back
theorem in_v38 : W18 m c main_v38 = extractStridedSlice S16x16 ![16, 0] (W0 m c main_arg21) slices_S32x16_S16x16_16_0 := by
  rw [show W18 m c main_v38 = _ from host_v38 (W17 m c)]
  w_back
theorem in_v39 : W18 m c main_v39 = shapeCast S1x16 (W0 m c main_arg22) shapeCasts_S16_S1x16 := by
  rw [show W18 m c main_v39 = _ from host_v39 (W17 m c)]
  w_back
theorem in6_arg23 : W18 m c main_arg23 = W0 m c main_arg23 := by w_back
theorem in_v40 : W18 m c main_v40 = shapeCast S1x16 (W0 m c main_arg24) shapeCasts_S16_S1x16 := by
  rw [show W18 m c main_v40 = _ from host_v40 (W17 m c)]
  w_back

theorem in_v42 : W22 m c main_v42 = kTake (W19 m c main_v41) (W0 m c main_arg3) := by
  have hi : W19 m c main_arg3 = W0 m c main_arg3 := by w_back
  w_back
  rw [show W20 m c main_v42 = _ from host_v42 (W19 m c), hi]
theorem in_v43 : W22 m c main_v43 = kTake (W19 m c main_v41) (W0 m c main_arg2) := by
  have ht : W20 m c main_v41 = W19 m c main_v41 := by w_back
  have hi : W20 m c main_arg2 = W0 m c main_arg2 := by w_back
  w_back
  rw [show W21 m c main_v43 = _ from host_v43 (W20 m c), ht, hi]
theorem in7_v33 : W22 m c main_v33 = W17 m c main_v33 := by w_back
theorem in_v44 : W22 m c main_v44 = extractStridedSlice S16x16 ![0, 0] (W0 m c main_arg17) slices_S48x16_S16x16_0_0 := by
  rw [show W22 m c main_v44 = _ from host_v44 (W21 m c)]
  w_back
theorem in_v45 : W22 m c main_v45 = extractStridedSlice S16x16 ![16, 0] (W0 m c main_arg17) slices_S48x16_S16x16_16_0 := by
  rw [show W22 m c main_v45 = _ from host_v45 (W21 m c)]
  w_back
theorem in_v46 : W22 m c main_v46 = extractStridedSlice S16x16 ![32, 0] (W0 m c main_arg17) slices_S48x16_S16x16_32_0 := by
  rw [show W22 m c main_v46 = _ from host_v46 (W21 m c)]
  w_back
theorem in_v47 : W22 m c main_v47 = shapeCast S1x16 (W0 m c main_arg18) shapeCasts_S16_S1x16 := by
  rw [show W22 m c main_v47 = _ from host_v47 (W21 m c)]
  w_back
theorem in7_arg19 : W22 m c main_arg19 = W0 m c main_arg19 := by w_back
theorem in_v48 : W22 m c main_v48 = shapeCast S1x16 (W0 m c main_arg20) shapeCasts_S16_S1x16 := by
  rw [show W22 m c main_v48 = _ from host_v48 (W21 m c)]
  w_back

theorem in8_v41 : W24 m c main_v41 = W19 m c main_v41 := by w_back
theorem in_v52 : W24 m c main_v52 = kSum (W0 m c main_arg2) (W23 m c main_v49) := by
  have hi : W23 m c main_arg2 = W0 m c main_arg2 := by w_back
  rw [show W24 m c main_v52 = _ from host_v52 (W23 m c), hi]
theorem in_v53 : W24 m c main_v53 = extractStridedSlice S16x16 ![0, 0] (W0 m c main_arg21) slices_S32x16_S16x16_0_0 := by
  rw [show W24 m c main_v53 = _ from host_v53 (W23 m c)]
  w_back
theorem in_v54 : W24 m c main_v54 = extractStridedSlice S16x16 ![16, 0] (W0 m c main_arg21) slices_S32x16_S16x16_16_0 := by
  rw [show W24 m c main_v54 = _ from host_v54 (W23 m c)]
  w_back
theorem in_v55 : W24 m c main_v55 = shapeCast S1x16 (W0 m c main_arg22) shapeCasts_S16_S1x16 := by
  rw [show W24 m c main_v55 = _ from host_v55 (W23 m c)]
  w_back
theorem in8_arg23 : W24 m c main_arg23 = W0 m c main_arg23 := by w_back
theorem in_v56 : W24 m c main_v56 = shapeCast S1x16 (W0 m c main_arg24) shapeCasts_S16_S1x16 := by
  rw [show W24 m c main_v56 = _ from host_v56 (W23 m c)]
  w_back

theorem in_v58 : W28 m c main_v58 = kTake (W25 m c main_v57) (W0 m c main_arg3) := by
  have hi : W25 m c main_arg3 = W0 m c main_arg3 := by w_back
  w_back
  rw [show W26 m c main_v58 = _ from host_v58 (W25 m c), hi]
theorem in_v59 : W28 m c main_v59 = kTake (W25 m c main_v57) (W0 m c main_arg2) := by
  have ht : W26 m c main_v57 = W25 m c main_v57 := by w_back
  have hi : W26 m c main_arg2 = W0 m c main_arg2 := by w_back
  w_back
  rw [show W27 m c main_v59 = _ from host_v59 (W26 m c), ht, hi]
theorem in9_v49 : W28 m c main_v49 = W23 m c main_v49 := by w_back
theorem in_v60 : W28 m c main_v60 = extractStridedSlice S16x16 ![0, 0] (W0 m c main_arg17) slices_S48x16_S16x16_0_0 := by
  rw [show W28 m c main_v60 = _ from host_v60 (W27 m c)]
  w_back
theorem in_v61 : W28 m c main_v61 = extractStridedSlice S16x16 ![16, 0] (W0 m c main_arg17) slices_S48x16_S16x16_16_0 := by
  rw [show W28 m c main_v61 = _ from host_v61 (W27 m c)]
  w_back
theorem in_v62 : W28 m c main_v62 = extractStridedSlice S16x16 ![32, 0] (W0 m c main_arg17) slices_S48x16_S16x16_32_0 := by
  rw [show W28 m c main_v62 = _ from host_v62 (W27 m c)]
  w_back
theorem in_v63 : W28 m c main_v63 = shapeCast S1x16 (W0 m c main_arg18) shapeCasts_S16_S1x16 := by
  rw [show W28 m c main_v63 = _ from host_v63 (W27 m c)]
  w_back
theorem in9_arg19 : W28 m c main_arg19 = W0 m c main_arg19 := by w_back
theorem in_v64 : W28 m c main_v64 = shapeCast S1x16 (W0 m c main_arg20) shapeCasts_S16_S1x16 := by
  rw [show W28 m c main_v64 = _ from host_v64 (W27 m c)]
  w_back

theorem in10_v57 : W30 m c main_v57 = W25 m c main_v57 := by w_back
theorem in_v68 : W30 m c main_v68 = kSum (W0 m c main_arg2) (W29 m c main_v65) := by
  have hi : W29 m c main_arg2 = W0 m c main_arg2 := by w_back
  rw [show W30 m c main_v68 = _ from host_v68 (W29 m c), hi]
theorem in_v69 : W30 m c main_v69 = extractStridedSlice S16x16 ![0, 0] (W0 m c main_arg21) slices_S32x16_S16x16_0_0 := by
  rw [show W30 m c main_v69 = _ from host_v69 (W29 m c)]
  w_back
theorem in_v70 : W30 m c main_v70 = extractStridedSlice S16x16 ![16, 0] (W0 m c main_arg21) slices_S32x16_S16x16_16_0 := by
  rw [show W30 m c main_v70 = _ from host_v70 (W29 m c)]
  w_back
theorem in_v71 : W30 m c main_v71 = shapeCast S1x16 (W0 m c main_arg22) shapeCasts_S16_S1x16 := by
  rw [show W30 m c main_v71 = _ from host_v71 (W29 m c)]
  w_back
theorem in10_arg23 : W30 m c main_arg23 = W0 m c main_arg23 := by w_back
theorem in_v72 : W30 m c main_v72 = shapeCast S1x16 (W0 m c main_arg24) shapeCasts_S16_S1x16 := by
  rw [show W30 m c main_v72 = _ from host_v72 (W29 m c)]
  w_back

theorem in_v74 : W34 m c main_v74 = kTake (W31 m c main_v73) (W0 m c main_arg3) := by
  have hi : W31 m c main_arg3 = W0 m c main_arg3 := by w_back
  w_back
  rw [show W32 m c main_v74 = _ from host_v74 (W31 m c), hi]
theorem in_v75 : W34 m c main_v75 = kTake (W31 m c main_v73) (W0 m c main_arg2) := by
  have ht : W32 m c main_v73 = W31 m c main_v73 := by w_back
  have hi : W32 m c main_arg2 = W0 m c main_arg2 := by w_back
  w_back
  rw [show W33 m c main_v75 = _ from host_v75 (W32 m c), ht, hi]
theorem in11_v65 : W34 m c main_v65 = W29 m c main_v65 := by w_back
theorem in_v76 : W34 m c main_v76 = extractStridedSlice S16x16 ![0, 0] (W0 m c main_arg17) slices_S48x16_S16x16_0_0 := by
  rw [show W34 m c main_v76 = _ from host_v76 (W33 m c)]
  w_back
theorem in_v77 : W34 m c main_v77 = extractStridedSlice S16x16 ![16, 0] (W0 m c main_arg17) slices_S48x16_S16x16_16_0 := by
  rw [show W34 m c main_v77 = _ from host_v77 (W33 m c)]
  w_back
theorem in_v78 : W34 m c main_v78 = extractStridedSlice S16x16 ![32, 0] (W0 m c main_arg17) slices_S48x16_S16x16_32_0 := by
  rw [show W34 m c main_v78 = _ from host_v78 (W33 m c)]
  w_back
theorem in_v79 : W34 m c main_v79 = shapeCast S1x16 (W0 m c main_arg18) shapeCasts_S16_S1x16 := by
  rw [show W34 m c main_v79 = _ from host_v79 (W33 m c)]
  w_back
theorem in11_arg19 : W34 m c main_arg19 = W0 m c main_arg19 := by w_back
theorem in_v80 : W34 m c main_v80 = shapeCast S1x16 (W0 m c main_arg20) shapeCasts_S16_S1x16 := by
  rw [show W34 m c main_v80 = _ from host_v80 (W33 m c)]
  w_back

end Cert.KernelIdeal.Hand

end
-- ==== Proof.Ki.ChainSteps.lean ====
import proofs.«408468_j77438260346965_2_alg».proof.Proof.SpecNet
import Idealize.ShloMosaic.Lib.Pipeline.Value
import Idealize.ShloMosaic.Lib.ValueIdx

noncomputable section

open scoped BigOperators

namespace Cert.KernelIdeal.Hand

open Idealize.ShloMosaic Idealize.ShloMosaic.ValueIdx
open Cert.Spec

section Slices
variable {α : Type}

theorem cur2_slice48_0 (W : (⟨2, ![48, 16]⟩ : Shape).Idx → α)
    (h : (⟨2, ![48, 16]⟩ : Shape).Slices ![0, 0] ⟨2, ![16, 16]⟩) :
    cur2 (extractStridedSlice ⟨2, ![16, 16]⟩ ![0, 0] W h)
      = top (top (cur2 W : Fin (16 + 16 + 16) → Fin 16 → α)) := by
  funext k q
  exact extractStridedSlice_apply _ W h (ix2 k q) (ix2 (Fin.castAdd 16 (Fin.castAdd 16 k)) q) fun a => by
    match a with
    | ⟨0, _⟩ => exact (Nat.zero_add _).symm
    | ⟨1, _⟩ => exact (Nat.zero_add _).symm

theorem cur2_slice48_16 (W : (⟨2, ![48, 16]⟩ : Shape).Idx → α)
    (h : (⟨2, ![48, 16]⟩ : Shape).Slices ![16, 0] ⟨2, ![16, 16]⟩) :
    cur2 (extractStridedSlice ⟨2, ![16, 16]⟩ ![16, 0] W h)
      = bot (top (cur2 W : Fin (16 + 16 + 16) → Fin 16 → α)) := by
  funext k q
  exact extractStridedSlice_apply _ W h (ix2 k q) (ix2 (Fin.castAdd 16 (Fin.natAdd 16 k)) q) fun a => by
    match a with
    | ⟨0, _⟩ => rfl
    | ⟨1, _⟩ => exact (Nat.zero_add _).symm

theorem cur2_slice48_32 (W : (⟨2, ![48, 16]⟩ : Shape).Idx → α)
    (h : (⟨2, ![48, 16]⟩ : Shape).Slices ![32, 0] ⟨2, ![16, 16]⟩) :
    cur2 (extractStridedSlice ⟨2, ![16, 16]⟩ ![32, 0] W h)
      = bot (cur2 W : Fin (16 + 16 + 16) → Fin 16 → α) := by
  funext k q
  exact extractStridedSlice_apply _ W h (ix2 k q) (ix2 (Fin.natAdd (16 + 16) k) q) fun a => by
    match a with
    | ⟨0, _⟩ => rfl
    | ⟨1, _⟩ => exact (Nat.zero_add _).symm

theorem cur2_slice32_0 (W : (⟨2, ![32, 16]⟩ : Shape).Idx → α)
    (h : (⟨2, ![32, 16]⟩ : Shape).Slices ![0, 0] ⟨2, ![16, 16]⟩) :
    cur2 (extractStridedSlice ⟨2, ![16, 16]⟩ ![0, 0] W h) = top (cur2 W : Fin (16 + 16) → Fin 16 → α) := by
  funext k q
  exact extractStridedSlice_apply _ W h (ix2 k q) (ix2 (Fin.castAdd 16 k) q) fun a => by
    match a with
    | ⟨0, _⟩ => exact (Nat.zero_add _).symm
    | ⟨1, _⟩ => exact (Nat.zero_add _).symm

theorem cur2_slice32_16 (W : (⟨2, ![32, 16]⟩ : Shape).Idx → α)
    (h : (⟨2, ![32, 16]⟩ : Shape).Slices ![16, 0] ⟨2, ![16, 16]⟩) :
    cur2 (extractStridedSlice ⟨2, ![16, 16]⟩ ![16, 0] W h) = bot (cur2 W : Fin (16 + 16) → Fin 16 → α) := by
  funext k q
  exact extractStridedSlice_apply _ W h (ix2 k q) (ix2 (Fin.natAdd 16 k) q) fun a => by
    match a with
    | ⟨0, _⟩ => rfl
    | ⟨1, _⟩ => exact (Nat.zero_add _).symm

end Slices

section Reshapes
variable {α : Type} {n : ℕ}

theorem row1_shapeCast (b : (⟨1, ![n]⟩ : Shape).Idx → α) (h : (⟨1, ![n]⟩ : Shape).ShapeCasts ⟨2, ![1, n]⟩) :
    row1 (shapeCast ⟨2, ![1, n]⟩ b h) = fun q => b (ix1 q) := by
  funext q
  exact shapeCast_apply b h (ix2 (0 : Fin 1) q) (ix1 q) (by
    rw [Shape.rowMajor_val_one, Shape.rowMajor_val_two]
    show q.val = (0 : ℕ) * _ + q.val
    omega)

theorem col_shapeCast (v : (⟨1, ![n]⟩ : Shape).Idx → α) (h : (⟨1, ![n]⟩ : Shape).ShapeCasts ⟨2, ![n, 1]⟩) (k : Fin n) :
    shapeCast ⟨2, ![n, 1]⟩ v h (ix2 k (0 : Fin 1)) = v (ix1 k) :=
  shapeCast_apply v h (ix2 k (0 : Fin 1)) (ix1 k) (by
    rw [Shape.rowMajor_val_one, Shape.rowMajor_val_two]
    show k.val = k.val * 1 + 0
    omega)

theorem shapeCast_col (v : (⟨2, ![n, 1]⟩ : Shape).Idx → α) (h : (⟨2, ![n, 1]⟩ : Shape).ShapeCasts ⟨1, ![n]⟩) (k : Fin n) :
    shapeCast ⟨1, ![n]⟩ v h (ix1 k) = v (ix2 k (0 : Fin 1)) :=
  shapeCast_apply v h (ix1 k) (ix2 k (0 : Fin 1)) (by
    rw [Shape.rowMajor_val_one, Shape.rowMajor_val_two]
    show k.val * 1 + 0 = k.val
    omega)

theorem scalar_shapeCast (v : (⟨0, ![]⟩ : Shape).Idx → α) (h : (⟨0, ![]⟩ : Shape).ShapeCasts ⟨2, ![1, 1]⟩) :
    shapeCast ⟨2, ![1, 1]⟩ v h (ix2 (0 : Fin 1) (0 : Fin 1)) = v ix0 :=
  shapeCast_apply v h (ix2 (0 : Fin 1) (0 : Fin 1)) ix0 (by
    rw [Shape.rowMajor_val_two]
    have := ((⟨0, ![]⟩ : Shape).rowMajor ix0).isLt
    show ((⟨0, ![]⟩ : Shape).rowMajor ix0).val = 0 * 1 + 0
    have hn : (⟨0, ![]⟩ : Shape).numel = 1 := rfl
    omega)

end Reshapes

section Norm

theorem tiles_shapeCast {α : Type} (e : (⟨2, ![1310720, 1]⟩ : Shape).Idx → α)
    (h : (⟨2, ![1310720, 1]⟩ : Shape).ShapeCasts ⟨2, ![10240, 128]⟩) (p : Fin 10240) (q : Fin 128) :
    shapeCast ⟨2, ![10240, 128]⟩ e h (ix2 p q)
      = e (ix2 (⟨128 * p.val + q.val, by have := p.isLt; have := q.isLt; omega⟩ : Fin 1310720) (0 : Fin 1)) :=
  shapeCast_apply e h (ix2 p q) _ (by
    rw [Shape.rowMajor_val_two, Shape.rowMajor_val_two]
    show (128 * p.val + q.val) * 1 + 0 = p.val * 128 + q.val
    omega)

theorem sup_tiles (g : Fin 1310720 → EReal) (x : Fin 10240 → Fin 128 → EReal)
    (hx : ∀ (p : Fin 10240) (q : Fin 128),
      x p q = g ⟨128 * p.val + q.val, by have := p.isLt; have := q.isLt; omega⟩) :
    (Finset.univ.sup fun p : Fin 10240 => Finset.univ.sup fun q : Fin 128 => x p q) = Finset.univ.sup g := by
  simp only [Finset.sup_univ_eq_iSup]
  rw [← (finProdFinEquiv (m := 10240) (n := 128)).iSup_comp (g := g), iSup_prod]
  refine iSup_congr fun p => iSup_congr fun q => ?_
  rw [hx p q]
  refine congrArg g (Fin.ext ?_)
  show 128 * p.val + q.val = q.val + 128 * p.val
  omega

theorem absmax_tiles (e : (⟨2, ![1310720, 1]⟩ : Shape).Idx → EReal)
    (h : (⟨2, ![1310720, 1]⟩ : Shape).ShapeCasts ⟨2, ![10240, 128]⟩) :
    (Finset.univ.sup fun p : Fin 10240 => Finset.univ.sup fun q : Fin 128 =>
        max (shapeCast ⟨2, ![10240, 128]⟩ e h (ix2 p q)) (-(shapeCast ⟨2, ![10240, 128]⟩ e h (ix2 p q))))
      = absmax (col1 e) :=
  sup_tiles (fun k => max (col1 e k) (-(col1 e k))) _ fun p q => by
    rw [tiles_shapeCast e h p q]
    rfl

end Norm

theorem cur2_col {α : Type} {n : ℕ} (v : (⟨2, ![n, 1]⟩ : Shape).Idx → α) : cur2 v = fun r (_ : Fin 1) => col1 v r := by
  funext r q
  obtain rfl : q = 0 := Subsingleton.elim _ _
  rfl

section Stages
variable {N E : ℕ}

theorem encoder_eq {R : ℕ} (w : Wts 1 16) (col : Fin R → EReal)
    (x : Fin R → Fin 1 → EReal) (W1 : Fin 1 → Fin 16 → EReal) (b1 : Fin 16 → EReal) (W2 : Fin 16 → Fin 16 → EReal)
    (b2 : Fin 16 → EReal)
    (hx : x = fun r _ => col r) (h1 : W1 = w.W1) (h2 : b1 = w.b1) (h3 : W2 = w.W2) (h4 : b2 = w.b2) :
    mlp x W1 b1 W2 b2 = w.app fun r (_ : Fin 1) => col r := by
  subst hx h1 h2 h3 h4
  rfl

theorem edge_step_eq (o : Ops N E) (w : Wts (16 + 16 + 16) 16) (hn : Fin N → Fin 16 → EReal) (he : Fin E → Fin 16 → EReal)
    (xs xr xe : Fin E → Fin 16 → EReal) (Wa Wb Wc : Fin 16 → Fin 16 → EReal) (b1 : Fin 16 → EReal)
    (W2 : Fin 16 → Fin 16 → EReal) (b2 : Fin 16 → EReal)
    (hs : xs = o.atS hn) (hr : xr = o.atR hn) (hE : xe = he)
    (ha : Wa = top (top w.W1)) (hb : Wb = bot (top w.W1)) (hc : Wc = bot w.W1)
    (h1 : b1 = w.b1) (h2 : W2 = w.W2) (h3 : b2 = w.b2) :
    lin (relu (lin3 xs xr xe Wa Wb Wc b1)) W2 b2 = edgeStep o w hn he := by
  subst hs hr hE ha hb hc h1 h2 h3
  rw [← lin_cat3]
  rfl

theorem node_step_eq (o : Ops N E) (w : Wts (16 + 16) 16) (hn : Fin N → Fin 16 → EReal) (he' : Fin E → Fin 16 → EReal)
    (xn xa : Fin N → Fin 16 → EReal) (Wa Wb : Fin 16 → Fin 16 → EReal) (b1 : Fin 16 → EReal)
    (W2 : Fin 16 → Fin 16 → EReal) (b2 : Fin 16 → EReal)
    (hN : xn = hn) (hA : xa = o.segsum he')
    (ha : Wa = top w.W1) (hb : Wb = bot w.W1) (h1 : b1 = w.b1) (h2 : W2 = w.W2) (h3 : b2 = w.b2) :
    lin (relu (lin2 xn xa Wa Wb b1)) W2 b2 = nodeStep o w hn he' := by
  subst hN hA ha hb h1 h2 h3
  rw [← lin_cat2]
  rfl

theorem decode_eq (o : Ops N E) (w : Wts 16 1) (he : Fin E → Fin 16 → EReal) (e : Fin E → EReal) (α norm : EReal)
    (mk : Fin E → BitVec 1) (e' : Fin E → EReal) (α' norm' : EReal)
    (x : Fin E → Fin 16 → EReal) (W1 : Fin 16 → Fin 16 → EReal) (b1 : Fin 16 → EReal) (W2 : Fin 16 → Fin 1 → EReal)
    (b2 : Fin 1 → EReal)
    (hm : mk = o.mask) (he' : e' = e) (hα : α' = α) (hnorm : norm' = norm)
    (hx : x = o.pairavg he) (h1 : W1 = w.W1) (h2 : b1 = w.b1) (h3 : W2 = w.W2) (h4 : b2 = w.b2) :
    masked mk e' α' norm' (fun k => mlp x W1 b1 W2 b2 k (0 : Fin 1))
      = masked o.mask e α norm fun k => w.app (o.pairavg he) k (0 : Fin 1) := by
  subst hm he' hα hnorm hx h1 h2 h3 h4
  rfl

end Stages

end Cert.KernelIdeal.Hand

end
-- ==== Proof.SpecArgs.lean ====
import proofs.«408468_j77438260346965_2_alg».proof.Proof.SpecNet

noncomputable section

namespace Cert.Spec

open Idealize.ShloMosaic Idealize.ShloMosaic.ValueIdx

def wtsOf {K C : ℕ} (W1 : (⟨2, ![K, 16]⟩ : Shape).Idx → EReal) (b1 : (⟨1, ![16]⟩ : Shape).Idx → EReal)
    (W2 : (⟨2, ![16, C]⟩ : Shape).Idx → EReal) (b2 : (⟨1, ![C]⟩ : Shape).Idx → EReal) : Wts K C where
  W1 := cur2 W1
  b1 := fun h => b1 (ix1 h)
  W2 := cur2 W2
  b2 := fun j => b2 (ix1 j)

def resultOf {N E : ℕ} (o : Ops N E)
    (nodes : (⟨2, ![N, 1]⟩ : Shape).Idx → EReal) (edges : (⟨2, ![E, 1]⟩ : Shape).Idx → EReal)
    (nW1 : (⟨2, ![1, 16]⟩ : Shape).Idx → EReal) (nb1 : (⟨1, ![16]⟩ : Shape).Idx → EReal)
    (nW2 : (⟨2, ![16, 16]⟩ : Shape).Idx → EReal) (nb2 : (⟨1, ![16]⟩ : Shape).Idx → EReal)
    (eW1 : (⟨2, ![1, 16]⟩ : Shape).Idx → EReal) (eb1 : (⟨1, ![16]⟩ : Shape).Idx → EReal)
    (eW2 : (⟨2, ![16, 16]⟩ : Shape).Idx → EReal) (eb2 : (⟨1, ![16]⟩ : Shape).Idx → EReal)
    (pW1 : (⟨2, ![16 + 16 + 16, 16]⟩ : Shape).Idx → EReal) (pb1 : (⟨1, ![16]⟩ : Shape).Idx → EReal)
    (pW2 : (⟨2, ![16, 16]⟩ : Shape).Idx → EReal) (pb2 : (⟨1, ![16]⟩ : Shape).Idx → EReal)
    (qW1 : (⟨2, ![16 + 16, 16]⟩ : Shape).Idx → EReal) (qb1 : (⟨1, ![16]⟩ : Shape).Idx → EReal)
    (qW2 : (⟨2, ![16, 16]⟩ : Shape).Idx → EReal) (qb2 : (⟨1, ![16]⟩ : Shape).Idx → EReal)
    (dW1 : (⟨2, ![16, 16]⟩ : Shape).Idx → EReal) (db1 : (⟨1, ![16]⟩ : Shape).Idx → EReal)
    (dW2 : (⟨2, ![16, 1]⟩ : Shape).Idx → EReal) (db2 : (⟨1, ![1]⟩ : Shape).Idx → EReal)
    (α : (⟨0, ![]⟩ : Shape).Idx → EReal) : Fin E → EReal :=
  result o (wtsOf nW1 nb1 nW2 nb2) (wtsOf eW1 eb1 eW2 eb2) (wtsOf pW1 pb1 pW2 pb2) (wtsOf qW1 qb1 qW2 qb2) (wtsOf dW1 db1 dW2 db2)
    (col1 nodes) (col1 edges) (α ix0)

end Cert.Spec

end
-- ==== Proof.Ki.Val3.lean ====
import proofs.«408468_j77438260346965_2_alg».proof.Proof.Ki.R3
import proofs.«408468_j77438260346965_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem lhs3_0 (i : S4096x16.Idx) (q : dot_S4096x16_S16x16_S4096x16_1_0_0_1_n_n.contr.Idx) :
    (dot_S4096x16_S16x16_S4096x16_1_0_0_1_n_n.lhsIdx i q 0).val = (i 0).val := by
  unfold DotDims.lhsIdx
  rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
  rfl
theorem lhs3_1 (i : S4096x16.Idx) (q : dot_S4096x16_S16x16_S4096x16_1_0_0_1_n_n.contr.Idx) :
    (dot_S4096x16_S16x16_S4096x16_1_0_0_1_n_n.lhsIdx i q 1).val = (q ⟨0, by decide⟩).val :=
  dot_S4096x16_S16x16_S4096x16_1_0_0_1_n_n.lhsIdx_val_of_single rfl i q
theorem rhs3_0 (i : S4096x16.Idx) (q : dot_S4096x16_S16x16_S4096x16_1_0_0_1_n_n.contr.Idx) :
    (dot_S4096x16_S16x16_S4096x16_1_0_0_1_n_n.rhsIdx i q 0).val = (q ⟨0, by decide⟩).val :=
  dot_S4096x16_S16x16_S4096x16_1_0_0_1_n_n.rhsIdx_val_of_single rfl i q
theorem rhs3_1 (i : S4096x16.Idx) (q : dot_S4096x16_S16x16_S4096x16_1_0_0_1_n_n.contr.Idx) :
    (dot_S4096x16_S16x16_S4096x16_1_0_0_1_n_n.rhsIdx i q 1).val = (i 1).val := by
  unfold DotDims.rhsIdx
  rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
  rfl

theorem mm3_apply {φ₁ φ₂ : FTy} (a : FVec Ideal S4096x16 φ₁) (w : FVec Ideal S16x16 φ₂) (p : Fin 4096) (q : Fin 16) :
    FloatOps.matmul dot_S4096x16_S16x16_S4096x16_1_0_0_1_n_n none a w (constant S4096x16 .f32 0x00000000#32) (ix2 p q)
      = ∑ k : Fin 16, a (ix2 p k) * w (ix2 k q) := by
  rw [Ideal.matmul_constant_zero_apply, ← Equiv.sum_comp (contrEquiv1 dot_S4096x16_S16x16_S4096x16_1_0_0_1_n_n 16 rfl rfl).symm]
  refine Finset.sum_congr rfl fun k _ => ?_
  have hk := contrEquiv1_symm_val dot_S4096x16_S16x16_S4096x16_1_0_0_1_n_n 16 rfl rfl k
  have el : dot_S4096x16_S16x16_S4096x16_1_0_0_1_n_n.lhsIdx (ix2 p q) ((contrEquiv1 dot_S4096x16_S16x16_S4096x16_1_0_0_1_n_n 16 rfl rfl).symm k) = ix2 p k := funext fun a => Fin.ext (by
    match a with
    | ⟨0, _⟩ => exact lhs3_0 _ _
    | ⟨1, _⟩ => exact (lhs3_1 _ _).trans hk)
  have er : dot_S4096x16_S16x16_S4096x16_1_0_0_1_n_n.rhsIdx (ix2 p q) ((contrEquiv1 dot_S4096x16_S16x16_S4096x16_1_0_0_1_n_n 16 rfl rfl).symm k) = ix2 k q := funext fun a => Fin.ext (by
    match a with
    | ⟨0, _⟩ => exact (rhs3_0 _ _).trans hk
    | ⟨1, _⟩ => exact rhs3_1 _ _)
  rw [el, er]

theorem pay3_apply (x0 x1 x2 : Vec Ideal S4096x16 .f32) (x3 x4 x5 : Vec Ideal S16x16 .f32) (x6 : Vec Ideal S1x16 .f32)
    (x7 : Vec Ideal S16x16 .f32) (x8 : Vec Ideal S1x16 .f32) (p : Fin 4096) (q : Fin 16) :
    k3_pay1 (k3_pay2 x0 x1 x2 x3 x4 x5 x6 x7) (k3_pay3 x8) (ix2 p q)
      = lin (relu (lin3 (cur2 x0) (cur2 x1) (cur2 x2) (cur2 x3) (cur2 x4) (cur2 x5) (row1 x6))) (cur2 x7) (row1 x8) p q := by
  unfold k3_pay1 k3_pay2 k3_pay3
  simp only [matmul, shapeCast_self]
  rw [addf_apply, mm3_apply, broadcastTo_1b_ab_apply]
  have hz0 : (FloatOps.ofBits FTy.f32 0#32 : Ideal .f32) = 0 := Ideal.ofBits_zero_f32
  simp only [lin, relu, lin3, cur2, row1]
  refine congrArg₂ (· + ·) (Finset.sum_congr rfl fun k _ => ?_) rfl
  rw [truncf_apply, truncf_apply, maximumf_apply, broadcast_apply, addf_apply, addf_apply, addf_apply, mm3_apply, mm3_apply,
    mm3_apply, broadcastTo_1b_ab_apply, hz0]
  simp only [truncf_apply]

theorem layers3_row {R R' : ℕ} (xa xb xc : Fin R → Fin 16 → EReal) (ya yb yc : Fin R' → Fin 16 → EReal)
    (Wa Wb Wc : Fin 16 → Fin 16 → EReal) (b : Fin 16 → EReal) (W : Fin 16 → Fin 16 → EReal) (b' : Fin 16 → EReal)
    (r : Fin R) (r' : Fin R') (ha : xa r = ya r') (hb : xb r = yb r') (hc : xc r = yc r') :
    lin (relu (lin3 xa xb xc Wa Wb Wc b)) W b' r = lin (relu (lin3 ya yb yc Wa Wb Wc b)) W b' r' := by
  funext h
  simp only [lin, relu, lin3, ha, hb, hc]

theorem hz3 : (![0, 0] : Fin 2 → Nat) = fun _ => 0 := funext fun a => by fin_cases a <;> rfl

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = t.val ∧ win3_9.index t (1 : Fin 2) = 0 :=
  (by decide +kernel : ∀ t : Fin grid3.N, _)

abbrev a3_0 (c : Dev nD) : Vec Ideal S1310720x16 .f32 := V c (Pipeline.arrRef spec3 0)
abbrev a3_1 (c : Dev nD) : Vec Ideal S1310720x16 .f32 := V c (Pipeline.arrRef spec3 1)
abbrev a3_2 (c : Dev nD) : Vec Ideal S1310720x16 .f32 := V c (Pipeline.arrRef spec3 2)
abbrev a3_3 (c : Dev nD) : Vec Ideal S16x16 .f32 := V c (Pipeline.arrRef spec3 3)
abbrev a3_4 (c : Dev nD) : Vec Ideal S16x16 .f32 := V c (Pipeline.arrRef spec3 4)
abbrev a3_5 (c : Dev nD) : Vec Ideal S16x16 .f32 := V c (Pipeline.arrRef spec3 5)
abbrev a3_6 (c : Dev nD) : Vec Ideal S1x16 .f32 := V c (Pipeline.arrRef spec3 6)
abbrev a3_7 (c : Dev nD) : Vec Ideal S16x16 .f32 := V c (Pipeline.arrRef spec3 7)
abbrev a3_8 (c : Dev nD) : Vec Ideal S1x16 .f32 := V c (Pipeline.arrRef spec3 8)

theorem blk3_0_row (c : Dev nD) (t : Fin cfg3.N) (p : Fin 4096) (r : Fin 1310720) (hr : r.val = t.val * 4096 + p.val) :
    cur2 (iblk3 V c 0 t : Vec Ideal S4096x16 .f32) p = cur2 (a3_0 V c) r := by
  funext k
  show (iblk3 V c 0 t : Vec Ideal S4096x16 .f32) (ix2 p k) = a3_0 V c (ix2 r k)
  unfold iblk3
  rw [View.read_apply]
  refine congrArg (a3_0 V c) ?_
  funext a
  apply Fin.ext
  match a with
  | ⟨0, _⟩ => show win3_0.index t (0 : Fin 2) * 4096 + 1 * p.val = r.val; rw [(idx3_0 t).1, hr]; omega
  | ⟨1, _⟩ => show win3_0.index t (1 : Fin 2) * 16 + 1 * k.val = k.val; rw [(idx3_0 t).2]; omega

theorem blk3_1_row (c : Dev nD) (t : Fin cfg3.N) (p : Fin 4096) (r : Fin 1310720) (hr : r.val = t.val * 4096 + p.val) :
    cur2 (iblk3 V c 1 t : Vec Ideal S4096x16 .f32) p = cur2 (a3_1 V c) r := by
  funext k
  show (iblk3 V c 1 t : Vec Ideal S4096x16 .f32) (ix2 p k) = a3_1 V c (ix2 r k)
  unfold iblk3
  rw [View.read_apply]
  refine congrArg (a3_1 V c) ?_
  funext a
  apply Fin.ext
  match a with
  | ⟨0, _⟩ => show win3_1.index t (0 : Fin 2) * 4096 + 1 * p.val = r.val; rw [(idx3_1 t).1, hr]; omega
  | ⟨1, _⟩ => show win3_1.index t (1 : Fin 2) * 16 + 1 * k.val = k.val; rw [(idx3_1 t).2]; omega

theorem blk3_2_row (c : Dev nD) (t : Fin cfg3.N) (p : Fin 4096) (r : Fin 1310720) (hr : r.val = t.val * 4096 + p.val) :
    cur2 (iblk3 V c 2 t : Vec Ideal S4096x16 .f32) p = cur2 (a3_2 V c) r := by
  funext k
  show (iblk3 V c 2 t : Vec Ideal S4096x16 .f32) (ix2 p k) = a3_2 V c (ix2 r k)
  unfold iblk3
  rw [View.read_apply]
  refine congrArg (a3_2 V c) ?_
  funext a
  apply Fin.ext
  match a with
  | ⟨0, _⟩ => show win3_2.index t (0 : Fin 2) * 4096 + 1 * p.val = r.val; rw [(idx3_2 t).1, hr]; omega
  | ⟨1, _⟩ => show win3_2.index t (1 : Fin 2) * 16 + 1 * k.val = k.val; rw [(idx3_2 t).2]; omega

theorem blk3_3_whole (c : Dev nD) (t : Fin cfg3.N) : (iblk3 V c 3 t : Vec Ideal S16x16 .f32) = a3_3 V c := by
  funext y
  unfold iblk3
  rw [View.read_apply]
  refine congrArg (a3_3 V c) ?_
  funext a
  apply Fin.ext
  match a with
  | ⟨0, _⟩ => show win3_3.index t (0 : Fin 2) * 16 + 1 * (y 0).val = (y 0).val; rw [(idx3_3 t).1]; omega
  | ⟨1, _⟩ => show win3_3.index t (1 : Fin 2) * 16 + 1 * (y 1).val = (y 1).val; rw [(idx3_3 t).2]; omega

theorem blk3_4_whole (c : Dev nD) (t : Fin cfg3.N) : (iblk3 V c 4 t : Vec Ideal S16x16 .f32) = a3_4 V c := by
  funext y
  unfold iblk3
  rw [View.read_apply]
  refine congrArg (a3_4 V c) ?_
  funext a
  apply Fin.ext
  match a with
  | ⟨0, _⟩ => show win3_4.index t (0 : Fin 2) * 16 + 1 * (y 0).val = (y 0).val; rw [(idx3_4 t).1]; omega
  | ⟨1, _⟩ => show win3_4.index t (1 : Fin 2) * 16 + 1 * (y 1).val = (y 1).val; rw [(idx3_4 t).2]; omega

theorem blk3_5_whole (c : Dev nD) (t : Fin cfg3.N) : (iblk3 V c 5 t : Vec Ideal S16x16 .f32) = a3_5 V c := by
  funext y
  unfold iblk3
  rw [View.read_apply]
  refine congrArg (a3_5 V c) ?_
  funext a
  apply Fin.ext
  match a with
  | ⟨0, _⟩ => show win3_5.index t (0 : Fin 2) * 16 + 1 * (y 0).val = (y 0).val; rw [(idx3_5 t).1]; omega
  | ⟨1, _⟩ => show win3_5.index t (1 : Fin 2) * 16 + 1 * (y 1).val = (y 1).val; rw [(idx3_5 t).2]; omega

theorem blk3_6_whole (c : Dev nD) (t : Fin cfg3.N) : (iblk3 V c 6 t : Vec Ideal S1x16 .f32) = a3_6 V c := by
  funext y
  unfold iblk3
  rw [View.read_apply]
  refine congrArg (a3_6 V c) ?_
  funext a
  apply Fin.ext
  match a with
  | ⟨0, _⟩ => show win3_6.index t (0 : Fin 2) * 1 + 1 * (y 0).val = (y 0).val; rw [(idx3_6 t).1]; omega
  | ⟨1, _⟩ => show win3_6.index t (1 : Fin 2) * 16 + 1 * (y 1).val = (y 1).val; rw [(idx3_6 t).2]; omega

theorem blk3_7_whole (c : Dev nD) (t : Fin cfg3.N) : (iblk3 V c 7 t : Vec Ideal S16x16 .f32) = a3_7 V c := by
  funext y
  unfold iblk3
  rw [View.read_apply]
  refine congrArg (a3_7 V c) ?_
  funext a
  apply Fin.ext
  match a with
  | ⟨0, _⟩ => show win3_7.index t (0 : Fin 2) * 16 + 1 * (y 0).val = (y 0).val; rw [(idx3_7 t).1]; omega
  | ⟨1, _⟩ => show win3_7.index t (1 : Fin 2) * 16 + 1 * (y 1).val = (y 1).val; rw [(idx3_7 t).2]; omega

theorem blk3_8_whole (c : Dev nD) (t : Fin cfg3.N) : (iblk3 V c 8 t : Vec Ideal S1x16 .f32) = a3_8 V c := by
  funext y
  unfold iblk3
  rw [View.read_apply]
  refine congrArg (a3_8 V c) ?_
  funext a
  apply Fin.ext
  match a with
  | ⟨0, _⟩ => show win3_8.index t (0 : Fin 2) * 1 + 1 * (y 0).val = (y 0).val; rw [(idx3_8 t).1]; omega
  | ⟨1, _⟩ => show win3_8.index t (1 : Fin 2) * 16 + 1 * (y 1).val = (y 1).val; rw [(idx3_8 t).2]; omega

theorem emb3_9 (t : Fin cfg3.N) (p : Fin 4096) (q : Fin 16) (r : Fin 1310720) (hr : r.val = t.val * 4096 + p.val) :
    ((cfg3.win 9).blk t).view.emb (ix2 p q) = ix2 r q := by
  funext a
  apply Fin.ext
  match a with
  | ⟨0, _⟩ => show win3_9.index t (0 : Fin 2) * 4096 + 1 * p.val = r.val; rw [(idx3_9 t).1, hr]; omega
  | ⟨1, _⟩ => show win3_9.index t (1 : Fin 2) * 16 + 1 * q.val = q.val; rw [(idx3_9 t).2]; omega

abbrev G3 (c : Dev nD) : Vec Ideal S1310720x16 .f32 :=
  unc2 (lin (relu (lin3 (cur2 (a3_0 V c)) (cur2 (a3_1 V c)) (cur2 (a3_2 V c)) (cur2 (a3_3 V c)) (cur2 (a3_4 V c))
    (cur2 (a3_5 V c)) (row1 (a3_6 V c)))) (cur2 (a3_7 V c)) (row1 (a3_8 V c)))

theorem flushed3_eq (c : Dev nD) (t : Fin cfg3.N) :
    (dat3 V c).flushed 9 t = ((cfg3.win 9).blk t).view.read (Elt Ideal) (G3 V c) := by
  show (cfg3.win 9).cut (grid3.coords t) ((dat3 V c).after 9 t) = _
  rw [after3_9]
  unfold out3_9
  rw [View.canon_unit_zero hz3]
  simp only [View.ld_unit_zero (S := S4096x16) hz3, View.ld_unit_zero (S := S16x16) hz3, View.ld_unit_zero (S := S1x16) hz3]
  funext j
  obtain ⟨p, q, rfl⟩ : ∃ (p : Fin 4096) (q : Fin 16), j = ix2 p q := ⟨j 0, j 1, eq_ix2 j⟩
  have ht : t.val < 320 := lt_of_lt_of_eq t.isLt N_3
  have hr : (⟨t.val * 4096 + p.val, by omega⟩ : Fin 1310720).val = t.val * 4096 + p.val := rfl
  rw [View.read_apply, emb3_9 t p q _ hr]
  show k3_pay1 (k3_pay2 (iblk3 V c 0 t) (iblk3 V c 1 t) (iblk3 V c 2 t) (iblk3 V c 3 t) (iblk3 V c 4 t) (iblk3 V c 5 t)
      (iblk3 V c 6 t) (iblk3 V c 7 t)) (k3_pay3 (iblk3 V c 8 t)) (ix2 p q) = _
  rw [pay3_apply (iblk3 V c 0 t) (iblk3 V c 1 t) (iblk3 V c 2 t) (iblk3 V c 3 t) (iblk3 V c 4 t) (iblk3 V c 5 t)
      (iblk3 V c 6 t) (iblk3 V c 7 t) (iblk3 V c 8 t) p q,
    blk3_3_whole, blk3_4_whole, blk3_5_whole, blk3_6_whole, blk3_7_whole, blk3_8_whole]
  exact congrFun (layers3_row _ _ _ _ _ _ _ _ _ _ _ _ p _ (blk3_0_row V c t p _ hr) (blk3_1_row V c t p _ hr)
    (blk3_2_row V c t p _ hr)) q

theorem cover3 (i : S1310720x16.Idx) :
    ∃ t : Fin cfg3.N, (cfg3.win 9).flush t = true ∧ i ∈ ((cfg3.win 9).blk t).view.set := by
  have h0 : (i 0).val < 1310720 := idx2_lt0 i
  have hlt : (i 0).val / 4096 < cfg3.N := lt_of_lt_of_eq (by omega) N_3.symm
  have hp : (i 0).val % 4096 < 4096 := Nat.mod_lt _ (by decide)
  refine ⟨⟨(i 0).val / 4096, hlt⟩, flush3_9 _, ?_⟩
  have he := emb3_9 ⟨(i 0).val / 4096, hlt⟩ ⟨(i 0).val % 4096, hp⟩ (i 1) (i 0)
    (by show (i 0).val = (i 0).val / 4096 * 4096 + (i 0).val % 4096; omega)
  have hm := View.emb_mem_set (v := ((cfg3.win 9).blk ⟨(i 0).val / 4096, hlt⟩).view) (ix2 (⟨(i 0).val % 4096, hp⟩ : Fin 4096) (i 1))
  rw [he] at hm
  exact (congrArg (fun j : S1310720x16.Idx => j ∈ ((cfg3.win 9).blk ⟨(i 0).val / 4096, hlt⟩).view.set) (eq_ix2 i)).mpr hm

theorem final3 (c : Dev nD) : (dat3 (F := Ideal) V c).arrAt 9 cfg3.N =
    unc2 (lin (relu (lin3 (cur2 (V c (Pipeline.arrRef spec3 0) : Vec Ideal S1310720x16 .f32))
      (cur2 (V c (Pipeline.arrRef spec3 1) : Vec Ideal S1310720x16 .f32))
      (cur2 (V c (Pipeline.arrRef spec3 2) : Vec Ideal S1310720x16 .f32))
      (cur2 (V c (Pipeline.arrRef spec3 3) : Vec Ideal S16x16 .f32))
      (cur2 (V c (Pipeline.arrRef spec3 4) : Vec Ideal S16x16 .f32))
      (cur2 (V c (Pipeline.arrRef spec3 5) : Vec Ideal S16x16 .f32))
      (row1 (V c (Pipeline.arrRef spec3 6) : Vec Ideal S1x16 .f32))))
      (cur2 (V c (Pipeline.arrRef spec3 7) : Vec Ideal S16x16 .f32))
      (row1 (V c (Pipeline.arrRef spec3 8) : Vec Ideal S1x16 .f32))) :=
  (dat3 V c).arrAt_eq_of_cover 9 (G3 V c) (fun t _ => flushed3_eq V c t) cover3

end Cert.KernelIdeal.Hand

end
-- ==== Proof.Ki.Val4.lean ====
import proofs.«408468_j77438260346965_2_alg».proof.Proof.Ki.R4
import proofs.«408468_j77438260346965_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384
noncomputable section
namespace Cert.KernelIdeal.Hand
open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)
open scoped BigOperators
variable (V : (c : Dev nD) → (b : Ref sig .tc) → Buf (Elt Ideal) ((c : Thread nD τ).loc b))

local notation "D16" => dot_S4096x16_S16x16_S4096x16_1_0_0_1_n_n

def contr4 : (D16).contr.Idx ≃ Fin 16 := contrEquiv1 D16 16 rfl rfl

theorem lhsIdx4 (p : Fin 4096) (q k : Fin 16) : (D16).lhsIdx (ix2 p q) (contr4.symm k) = ix2 p k := by
  funext a
  apply Fin.ext
  match a with
  | ⟨0, _⟩ => rfl
  | ⟨1, _⟩ => exact contrEquiv1_symm_val D16 16 rfl rfl k

theorem rhsIdx4 (p : Fin 4096) (q k : Fin 16) : (D16).rhsIdx (ix2 p q) (contr4.symm k) = ix2 k q := by
  funext a
  apply Fin.ext
  match a with
  | ⟨0, _⟩ => exact contrEquiv1_symm_val D16 16 rfl rfl k
  | ⟨1, _⟩ => rfl

/-- A [4096 × 16] by [16 × 16] product into the zero accumulator, read at (p, q), is the row-by-column sum. -/
theorem matmul4_apply {φ₁ φ₂ : FTy} (a : FVec Ideal S4096x16 φ₁) (b : FVec Ideal S16x16 φ₂) (p : Fin 4096) (q : Fin 16) :
    matmul D16 none a b (constant S4096x16 .f32 0x00000000#32) (ix2 p q) = ∑ k : Fin 16, a (ix2 p k) * b (ix2 k q) := by
  simp only [matmul]
  rw [Ideal.matmul_constant_zero_apply, ← Equiv.sum_comp contr4.symm]
  exact Finset.sum_congr rfl fun k _ => by rw [lhsIdx4, rhsIdx4]

/-- On the extended reals the stored value at (p, q) is the second layer over the rectified first layer: the format changes are the identity and the zero splats add nothing. -/
theorem pay4_apply (v0 v3 : Vec Ideal S4096x16 .f32) (v6 v9 : Vec Ideal S16x16 .f32) (v15 : Vec Ideal S1x16 .f32)
    (v21 : Vec Ideal S16x16 .f32) (v25 : Vec Ideal S1x16 .f32) (p : Fin 4096) (q : Fin 16) :
    k4_pay1 v0 v3 v6 v9 v15 v21 v25 (ix2 p q)
      = lin (relu (lin2 (cur2 v0) (cur2 v3) (cur2 v6) (cur2 v9) (row1 v15))) (cur2 v21) (row1 v25) p q := by
  unfold k4_pay1
  simp only [shapeCast_self]
  rw [addf_apply, matmul4_apply, broadcastTo_1b_ab_apply]
  simp only [lin, relu, lin2, cur2, row1]
  refine congrArg (· + v25 (ix2 (0 : Fin 1) q)) (Finset.sum_congr rfl fun k _ => ?_)
  rw [truncf_apply, truncf_apply, maximumf_apply, addf_apply, addf_apply, matmul4_apply, matmul4_apply,
    broadcastTo_1b_ab_apply, broadcast_apply, Ideal.ofBits_def, Ideal.ofBits_zero_f32]
  rfl

/-- The row-tile windows sit at row tile t, every weight and bias window at its array's one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

def row4 (t : Fin cfg4.N) (p : Fin 4096) : Fin 262144 := ⟨t.val * 4096 + p.val, by
  have ht : t.val < 64 := t.isLt
  have hp := p.isLt
  omega⟩

theorem emb4_7 (t : Fin cfg4.N) (p : Fin 4096) (q : Fin 16) :
    (((cfg4.win 7).blk t).view.emb (ix2 p q) : S262144x16.Idx) = ix2 (row4 t p) q := by
  obtain ⟨-, -, -, -, -, -, -, -, -, -, -, -, -, -, e0, e1⟩ := idx_facts4 t
  funext a; apply Fin.ext
  match a with
  | ⟨0, _⟩ => show win4_7.index t (0 : Fin 2) * 4096 + 1 * p.val = t.val * 4096 + p.val; omega
  | ⟨1, _⟩ => show win4_7.index t (1 : Fin 2) * 16 + 1 * q.val = q.val; omega
theorem emb4_0 (t : Fin cfg4.N) (p : Fin 4096) (k : Fin 16) :
    (((cfg4.win 0).blk t).view.emb (ix2 p k) : S262144x16.Idx) = ix2 (row4 t p) k := by
  obtain ⟨e0, e1, -⟩ := idx_facts4 t
  funext a; apply Fin.ext
  match a with
  | ⟨0, _⟩ => show win4_0.index t (0 : Fin 2) * 4096 + 1 * p.val = t.val * 4096 + p.val; omega
  | ⟨1, _⟩ => show win4_0.index t (1 : Fin 2) * 16 + 1 * k.val = k.val; omega
theorem emb4_1 (t : Fin cfg4.N) (p : Fin 4096) (k : Fin 16) :
    (((cfg4.win 1).blk t).view.emb (ix2 p k) : S262144x16.Idx) = ix2 (row4 t p) k := by
  obtain ⟨-, -, e0, e1, -⟩ := idx_facts4 t
  funext a; apply Fin.ext
  match a with
  | ⟨0, _⟩ => show win4_1.index t (0 : Fin 2) * 4096 + 1 * p.val = t.val * 4096 + p.val; omega
  | ⟨1, _⟩ => show win4_1.index t (1 : Fin 2) * 16 + 1 * k.val = k.val; omega
theorem emb4_2 (t : Fin cfg4.N) (a b : Fin 16) :
    (((cfg4.win 2).blk t).view.emb (ix2 a b) : S16x16.Idx) = ix2 a b := by
  obtain ⟨-, -, -, -, e0, e1, -⟩ := idx_facts4 t
  funext x; apply Fin.ext
  match x with
  | ⟨0, _⟩ => show win4_2.index t (0 : Fin 2) * 16 + 1 * a.val = a.val; omega
  | ⟨1, _⟩ => show win4_2.index t (1 : Fin 2) * 16 + 1 * b.val = b.val; omega
theorem emb4_3 (t : Fin cfg4.N) (a b : Fin 16) :
    (((cfg4.win 3).blk t).view.emb (ix2 a b) : S16x16.Idx) = ix2 a b := by
  obtain ⟨-, -, -, -, -, -, e0, e1, -⟩ := idx_facts4 t
  funext x; apply Fin.ext
  match x with
  | ⟨0, _⟩ => show win4_3.index t (0 : Fin 2) * 16 + 1 * a.val = a.val; omega
  | ⟨1, _⟩ => show win4_3.index t (1 : Fin 2) * 16 + 1 * b.val = b.val; omega
theorem emb4_4 (t : Fin cfg4.N) (b : Fin 16) :
    (((cfg4.win 4).blk t).view.emb (ix2 (0 : Fin 1) b) : S1x16.Idx) = ix2 (0 : Fin 1) b := by
  obtain ⟨-, -, -, -, -, -, -, -, e0, e1, -⟩ := idx_facts4 t
  funext x; apply Fin.ext
  match x with
  | ⟨0, _⟩ => show win4_4.index t (0 : Fin 2) * 1 + 1 * 0 = 0; omega
  | ⟨1, _⟩ => show win4_4.index t (1 : Fin 2) * 16 + 1 * b.val = b.val; omega
theorem emb4_5 (t : Fin cfg4.N) (a b : Fin 16) :
    (((cfg4.win 5).blk t).view.emb (ix2 a b) : S16x16.Idx) = ix2 a b := by
  obtain ⟨-, -, -, -, -, -, -, -, -, -, e0, e1, -⟩ := idx_facts4 t
  funext x; apply Fin.ext
  match x with
  | ⟨0, _⟩ => show win4_5.index t (0 : Fin 2) * 16 + 1 * a.val = a.val; omega
  | ⟨1, _⟩ => show win4_5.index t (1 : Fin 2) * 16 + 1 * b.val = b.val; omega
theorem emb4_6 (t : Fin cfg4.N) (b : Fin 16) :
    (((cfg4.win 6).blk t).view.emb (ix2 (0 : Fin 1) b) : S1x16.Idx) = ix2 (0 : Fin 1) b := by
  obtain ⟨-, -, -, -, -, -, -, -, -, -, -, -, e0, e1, -⟩ := idx_facts4 t
  funext x; apply Fin.ext
  match x with
  | ⟨0, _⟩ => show win4_6.index t (0 : Fin 2) * 1 + 1 * 0 = 0; omega
  | ⟨1, _⟩ => show win4_6.index t (1 : Fin 2) * 16 + 1 * b.val = b.val; omega

theorem hz4 : (![0, 0] : Fin 2 → Nat) = fun _ => 0 := funext fun a => by fin_cases a <;> rfl

/-- The two-layer value is row-local: row p of the stored tile is row r of the arrays' value once row p of each row tile is row r of its array and the weights and biases are the arrays themselves. -/
theorem out4_7_rows (A0 A1 : Vec Ideal S262144x16 .f32) (A2 A3 : Vec Ideal S16x16 .f32) (A4 : Vec Ideal S1x16 .f32)
    (A5 : Vec Ideal S16x16 .f32) (A6 : Vec Ideal S1x16 .f32)
    (x0 x1 : Vec Ideal S4096x16 .f32) (x2 x3 : Vec Ideal S16x16 .f32) (x4 : Vec Ideal S1x16 .f32) (x5 : Vec Ideal S16x16 .f32)
    (x6 : Vec Ideal S1x16 .f32) (r : Fin 262144) (p : Fin 4096) (q : Fin 16)
    (h0 : ∀ k, x0 (ix2 p k) = A0 (ix2 r k)) (h1 : ∀ k, x1 (ix2 p k) = A1 (ix2 r k))
    (h2 : ∀ a b, x2 (ix2 a b) = A2 (ix2 a b)) (h3 : ∀ a b, x3 (ix2 a b) = A3 (ix2 a b))
    (h4 : ∀ b, x4 (ix2 (0 : Fin 1) b) = A4 (ix2 (0 : Fin 1) b)) (h5 : ∀ a b, x5 (ix2 a b) = A5 (ix2 a b))
    (h6 : ∀ b, x6 (ix2 (0 : Fin 1) b) = A6 (ix2 (0 : Fin 1) b)) :
    out4_7 x0 x1 x2 x3 x4 x5 x6 (ix2 p q) = unc2 (lin (relu (lin2 (cur2 A0) (cur2 A1) (cur2 A2) (cur2 A3) (row1 A4))) (cur2 A5) (row1 A6)) (ix2 r q) := by
  unfold out4_7
  rw [View.canon_unit_zero hz4]
  simp only [View.ld_unit_zero (S := S4096x16) hz4, View.ld_unit_zero (S := S16x16) hz4, View.ld_unit_zero (S := S1x16) hz4]
  rw [pay4_apply]
  simp only [unc2_ix2, lin, relu, lin2, cur2, row1, h0, h1, h2, h3, h4, h5, h6]

/-- Over any seven arrays read through the windows' index maps, the tile stored at point t is row tile t of the two-layer value of the arrays. -/
theorem tile4 (A0 A1 : Vec Ideal S262144x16 .f32) (A2 A3 : Vec Ideal S16x16 .f32) (A4 : Vec Ideal S1x16 .f32)
    (A5 : Vec Ideal S16x16 .f32) (A6 : Vec Ideal S1x16 .f32) (t : Fin cfg4.N) (j : S4096x16.Idx) :
    out4_7 (F := Ideal) (fun y => A0 (((cfg4.win 0).blk t).view.emb y)) (fun y => A1 (((cfg4.win 1).blk t).view.emb y))
        (fun y => A2 (((cfg4.win 2).blk t).view.emb y)) (fun y => A3 (((cfg4.win 3).blk t).view.emb y))
        (fun y => A4 (((cfg4.win 4).blk t).view.emb y)) (fun y => A5 (((cfg4.win 5).blk t).view.emb y))
        (fun y => A6 (((cfg4.win 6).blk t).view.emb y)) j
      = unc2 (lin (relu (lin2 (cur2 A0) (cur2 A1) (cur2 A2) (cur2 A3) (row1 A4))) (cur2 A5) (row1 A6)) (((cfg4.win 7).blk t).view.emb j) := by
  obtain ⟨p, q, rfl⟩ : ∃ (p : Fin 4096) (q : Fin 16), j = ix2 p q := ⟨j 0, j 1, eq_ix2 j⟩
  rw [emb4_7]
  exact out4_7_rows A0 A1 A2 A3 A4 A5 A6 _ _ _ _ _ _ _ (row4 t p) p q (fun k => congrArg A0 (emb4_0 t p k))
    (fun k => congrArg A1 (emb4_1 t p k)) (fun a b => congrArg A2 (emb4_2 t a b)) (fun a b => congrArg A3 (emb4_3 t a b))
    (fun b => congrArg A4 (emb4_4 t b)) (fun a b => congrArg A5 (emb4_5 t a b)) (fun b => congrArg A6 (emb4_6 t b))

/-- Row r of the output array lies in tile r / 4096, at row r % 4096 of it. -/
theorem cover4_out (i : S262144x16.Idx) : ∃ t : Fin cfg4.N, (cfg4.win 7).flush t = true ∧ i ∈ ((cfg4.win 7).blk t).view.set := by
  have hi : (i 0).val < 262144 := idx2_lt0 i
  obtain ⟨t, ht⟩ : ∃ t : Fin cfg4.N, t.val = (i 0).val / 4096 :=
    ⟨⟨(i 0).val / 4096, (by omega : (i 0).val / 4096 < 64)⟩, rfl⟩
  obtain ⟨p, hp⟩ : ∃ p : Fin 4096, p.val = (i 0).val % 4096 := ⟨⟨(i 0).val % 4096, Nat.mod_lt _ (by decide)⟩, rfl⟩
  obtain ⟨q, hq⟩ : ∃ q : Fin 16, q = i 1 := ⟨i 1, rfl⟩
  have h0 : row4 t p = i 0 := Fin.ext (by show t.val * 4096 + p.val = (i 0).val; omega)
  have h : ((cfg4.win 7).blk t).view.emb (ix2 p q) = i := by
    rw [emb4_7, h0, hq]; exact (eq_ix2 i).symm
  refine ⟨t, flush4_7 t, ?_⟩
  have hm := ((cfg4.win 7).blk t).view.emb_mem_set (ix2 p q)
  rw [h] at hm
  exact hm

/-- The output array ends as the two-layer value of the input arrays: point t contributes row tile t, and the 64 tiles cover the array. -/
theorem final4 (c : Dev nD) : (dat4 (F := Ideal) V c).arrAt 7 cfg4.N
    = unc2 (lin (relu (lin2 (cur2 (V c (Pipeline.arrRef spec4 0))) (cur2 (V c (Pipeline.arrRef spec4 1))) (cur2 (V c (Pipeline.arrRef spec4 2))) (cur2 (V c (Pipeline.arrRef spec4 3))) (row1 (V c (Pipeline.arrRef spec4 4))))) (cur2 (V c (Pipeline.arrRef spec4 5))) (row1 (V c (Pipeline.arrRef spec4 6)))) :=
  (dat4 (F := Ideal) V c).arrAt_eq_of_cover 7 _ (fun t _ => by
    show (cfg4.win 7).cut (grid4.coords t) ((dat4 (F := Ideal) V c).after 7 t) = _
    rw [after4_7]
    exact funext (tile4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) t))
    cover4_out

end Cert.KernelIdeal.Hand
-- ==== Proof.Ki.Val5.lean ====
import proofs.«408468_j77438260346965_2_alg».proof.Proof.Ki.R5
import proofs.«408468_j77438260346965_2_alg».proof.Proof.Ki.Val3

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = t.val ∧ win5_9.index t (1 : Fin 2) = 0 :=
  (by decide +kernel : ∀ t : Fin grid5.N, _)

abbrev a5_0 (c : Dev nD) : Vec Ideal S1310720x16 .f32 := V c (Pipeline.arrRef spec5 0)
abbrev a5_1 (c : Dev nD) : Vec Ideal S1310720x16 .f32 := V c (Pipeline.arrRef spec5 1)
abbrev a5_2 (c : Dev nD) : Vec Ideal S1310720x16 .f32 := V c (Pipeline.arrRef spec5 2)
abbrev a5_3 (c : Dev nD) : Vec Ideal S16x16 .f32 := V c (Pipeline.arrRef spec5 3)
abbrev a5_4 (c : Dev nD) : Vec Ideal S16x16 .f32 := V c (Pipeline.arrRef spec5 4)
abbrev a5_5 (c : Dev nD) : Vec Ideal S16x16 .f32 := V c (Pipeline.arrRef spec5 5)
abbrev a5_6 (c : Dev nD) : Vec Ideal S1x16 .f32 := V c (Pipeline.arrRef spec5 6)
abbrev a5_7 (c : Dev nD) : Vec Ideal S16x16 .f32 := V c (Pipeline.arrRef spec5 7)
abbrev a5_8 (c : Dev nD) : Vec Ideal S1x16 .f32 := V c (Pipeline.arrRef spec5 8)

theorem blk5_0_row (c : Dev nD) (t : Fin cfg5.N) (p : Fin 4096) (r : Fin 1310720) (hr : r.val = t.val * 4096 + p.val) :
    cur2 (iblk5 V c 0 t : Vec Ideal S4096x16 .f32) p = cur2 (a5_0 V c) r := by
  funext k
  show (iblk5 V c 0 t : Vec Ideal S4096x16 .f32) (ix2 p k) = a5_0 V c (ix2 r k)
  unfold iblk5
  rw [View.read_apply]
  refine congrArg (a5_0 V c) ?_
  funext a
  apply Fin.ext
  match a with
  | ⟨0, _⟩ => show win5_0.index t (0 : Fin 2) * 4096 + 1 * p.val = r.val; rw [(idx5_0 t).1, hr]; omega
  | ⟨1, _⟩ => show win5_0.index t (1 : Fin 2) * 16 + 1 * k.val = k.val; rw [(idx5_0 t).2]; omega

theorem blk5_1_row (c : Dev nD) (t : Fin cfg5.N) (p : Fin 4096) (r : Fin 1310720) (hr : r.val = t.val * 4096 + p.val) :
    cur2 (iblk5 V c 1 t : Vec Ideal S4096x16 .f32) p = cur2 (a5_1 V c) r := by
  funext k
  show (iblk5 V c 1 t : Vec Ideal S4096x16 .f32) (ix2 p k) = a5_1 V c (ix2 r k)
  unfold iblk5
  rw [View.read_apply]
  refine congrArg (a5_1 V c) ?_
  funext a
  apply Fin.ext
  match a with
  | ⟨0, _⟩ => show win5_1.index t (0 : Fin 2) * 4096 + 1 * p.val = r.val; rw [(idx5_1 t).1, hr]; omega
  | ⟨1, _⟩ => show win5_1.index t (1 : Fin 2) * 16 + 1 * k.val = k.val; rw [(idx5_1 t).2]; omega

theorem blk5_2_row (c : Dev nD) (t : Fin cfg5.N) (p : Fin 4096) (r : Fin 1310720) (hr : r.val = t.val * 4096 + p.val) :
    cur2 (iblk5 V c 2 t : Vec Ideal S4096x16 .f32) p = cur2 (a5_2 V c) r := by
  funext k
  show (iblk5 V c 2 t : Vec Ideal S4096x16 .f32) (ix2 p k) = a5_2 V c (ix2 r k)
  unfold iblk5
  rw [View.read_apply]
  refine congrArg (a5_2 V c) ?_
  funext a
  apply Fin.ext
  match a with
  | ⟨0, _⟩ => show win5_2.index t (0 : Fin 2) * 4096 + 1 * p.val = r.val; rw [(idx5_2 t).1, hr]; omega
  | ⟨1, _⟩ => show win5_2.index t (1 : Fin 2) * 16 + 1 * k.val = k.val; rw [(idx5_2 t).2]; omega

theorem blk5_3_whole (c : Dev nD) (t : Fin cfg5.N) : (iblk5 V c 3 t : Vec Ideal S16x16 .f32) = a5_3 V c := by
  funext y
  unfold iblk5
  rw [View.read_apply]
  refine congrArg (a5_3 V c) ?_
  funext a
  apply Fin.ext
  match a with
  | ⟨0, _⟩ => show win5_3.index t (0 : Fin 2) * 16 + 1 * (y 0).val = (y 0).val; rw [(idx5_3 t).1]; omega
  | ⟨1, _⟩ => show win5_3.index t (1 : Fin 2) * 16 + 1 * (y 1).val = (y 1).val; rw [(idx5_3 t).2]; omega

theorem blk5_4_whole (c : Dev nD) (t : Fin cfg5.N) : (iblk5 V c 4 t : Vec Ideal S16x16 .f32) = a5_4 V c := by
  funext y
  unfold iblk5
  rw [View.read_apply]
  refine congrArg (a5_4 V c) ?_
  funext a
  apply Fin.ext
  match a with
  | ⟨0, _⟩ => show win5_4.index t (0 : Fin 2) * 16 + 1 * (y 0).val = (y 0).val; rw [(idx5_4 t).1]; omega
  | ⟨1, _⟩ => show win5_4.index t (1 : Fin 2) * 16 + 1 * (y 1).val = (y 1).val; rw [(idx5_4 t).2]; omega

theorem blk5_5_whole (c : Dev nD) (t : Fin cfg5.N) : (iblk5 V c 5 t : Vec Ideal S16x16 .f32) = a5_5 V c := by
  funext y
  unfold iblk5
  rw [View.read_apply]
  refine congrArg (a5_5 V c) ?_
  funext a
  apply Fin.ext
  match a with
  | ⟨0, _⟩ => show win5_5.index t (0 : Fin 2) * 16 + 1 * (y 0).val = (y 0).val; rw [(idx5_5 t).1]; omega
  | ⟨1, _⟩ => show win5_5.index t (1 : Fin 2) * 16 + 1 * (y 1).val = (y 1).val; rw [(idx5_5 t).2]; omega

theorem blk5_6_whole (c : Dev nD) (t : Fin cfg5.N) : (iblk5 V c 6 t : Vec Ideal S1x16 .f32) = a5_6 V c := by
  funext y
  unfold iblk5
  rw [View.read_apply]
  refine congrArg (a5_6 V c) ?_
  funext a
  apply Fin.ext
  match a with
  | ⟨0, _⟩ => show win5_6.index t (0 : Fin 2) * 1 + 1 * (y 0).val = (y 0).val; rw [(idx5_6 t).1]; omega
  | ⟨1, _⟩ => show win5_6.index t (1 : Fin 2) * 16 + 1 * (y 1).val = (y 1).val; rw [(idx5_6 t).2]; omega

theorem blk5_7_whole (c : Dev nD) (t : Fin cfg5.N) : (iblk5 V c 7 t : Vec Ideal S16x16 .f32) = a5_7 V c := by
  funext y
  unfold iblk5
  rw [View.read_apply]
  refine congrArg (a5_7 V c) ?_
  funext a
  apply Fin.ext
  match a with
  | ⟨0, _⟩ => show win5_7.index t (0 : Fin 2) * 16 + 1 * (y 0).val = (y 0).val; rw [(idx5_7 t).1]; omega
  | ⟨1, _⟩ => show win5_7.index t (1 : Fin 2) * 16 + 1 * (y 1).val = (y 1).val; rw [(idx5_7 t).2]; omega

theorem blk5_8_whole (c : Dev nD) (t : Fin cfg5.N) : (iblk5 V c 8 t : Vec Ideal S1x16 .f32) = a5_8 V c := by
  funext y
  unfold iblk5
  rw [View.read_apply]
  refine congrArg (a5_8 V c) ?_
  funext a
  apply Fin.ext
  match a with
  | ⟨0, _⟩ => show win5_8.index t (0 : Fin 2) * 1 + 1 * (y 0).val = (y 0).val; rw [(idx5_8 t).1]; omega
  | ⟨1, _⟩ => show win5_8.index t (1 : Fin 2) * 16 + 1 * (y 1).val = (y 1).val; rw [(idx5_8 t).2]; omega

theorem emb5_9 (t : Fin cfg5.N) (p : Fin 4096) (q : Fin 16) (r : Fin 1310720) (hr : r.val = t.val * 4096 + p.val) :
    ((cfg5.win 9).blk t).view.emb (ix2 p q) = ix2 r q := by
  funext a
  apply Fin.ext
  match a with
  | ⟨0, _⟩ => show win5_9.index t (0 : Fin 2) * 4096 + 1 * p.val = r.val; rw [(idx5_9 t).1, hr]; omega
  | ⟨1, _⟩ => show win5_9.index t (1 : Fin 2) * 16 + 1 * q.val = q.val; rw [(idx5_9 t).2]; omega

abbrev G5 (c : Dev nD) : Vec Ideal S1310720x16 .f32 :=
  unc2 (lin (relu (lin3 (cur2 (a5_0 V c)) (cur2 (a5_1 V c)) (cur2 (a5_2 V c)) (cur2 (a5_3 V c)) (cur2 (a5_4 V c))
    (cur2 (a5_5 V c)) (row1 (a5_6 V c)))) (cur2 (a5_7 V c)) (row1 (a5_8 V c)))

theorem flushed5_eq (c : Dev nD) (t : Fin cfg5.N) :
    (dat5 V c).flushed 9 t = ((cfg5.win 9).blk t).view.read (Elt Ideal) (G5 V c) := by
  show (cfg5.win 9).cut (grid5.coords t) ((dat5 V c).after 9 t) = _
  rw [after5_9]
  unfold out3_9
  rw [View.canon_unit_zero hz3]
  simp only [View.ld_unit_zero (S := S4096x16) hz3, View.ld_unit_zero (S := S16x16) hz3, View.ld_unit_zero (S := S1x16) hz3]
  funext j
  obtain ⟨p, q, rfl⟩ : ∃ (p : Fin 4096) (q : Fin 16), j = ix2 p q := ⟨j 0, j 1, eq_ix2 j⟩
  have ht : t.val < 320 := lt_of_lt_of_eq t.isLt N_5
  have hr : (⟨t.val * 4096 + p.val, by omega⟩ : Fin 1310720).val = t.val * 4096 + p.val := rfl
  rw [View.read_apply, emb5_9 t p q _ hr]
  show k3_pay1 (k3_pay2 (iblk5 V c 0 t) (iblk5 V c 1 t) (iblk5 V c 2 t) (iblk5 V c 3 t) (iblk5 V c 4 t) (iblk5 V c 5 t)
      (iblk5 V c 6 t) (iblk5 V c 7 t)) (k3_pay3 (iblk5 V c 8 t)) (ix2 p q) = _
  rw [pay3_apply (iblk5 V c 0 t) (iblk5 V c 1 t) (iblk5 V c 2 t) (iblk5 V c 3 t) (iblk5 V c 4 t) (iblk5 V c 5 t)
      (iblk5 V c 6 t) (iblk5 V c 7 t) (iblk5 V c 8 t) p q,
    blk5_3_whole, blk5_4_whole, blk5_5_whole, blk5_6_whole, blk5_7_whole, blk5_8_whole]
  exact congrFun (layers3_row _ _ _ _ _ _ _ _ _ _ _ _ p _ (blk5_0_row V c t p _ hr) (blk5_1_row V c t p _ hr)
    (blk5_2_row V c t p _ hr)) q

theorem cover5 (i : S1310720x16.Idx) :
    ∃ t : Fin cfg5.N, (cfg5.win 9).flush t = true ∧ i ∈ ((cfg5.win 9).blk t).view.set := by
  have h0 : (i 0).val < 1310720 := idx2_lt0 i
  have hlt : (i 0).val / 4096 < cfg5.N := lt_of_lt_of_eq (by omega) N_5.symm
  have hp : (i 0).val % 4096 < 4096 := Nat.mod_lt _ (by decide)
  refine ⟨⟨(i 0).val / 4096, hlt⟩, flush5_9 _, ?_⟩
  have he := emb5_9 ⟨(i 0).val / 4096, hlt⟩ ⟨(i 0).val % 4096, hp⟩ (i 1) (i 0)
    (by show (i 0).val = (i 0).val / 4096 * 4096 + (i 0).val % 4096; omega)
  have hm := View.emb_mem_set (v := ((cfg5.win 9).blk ⟨(i 0).val / 4096, hlt⟩).view) (ix2 (⟨(i 0).val % 4096, hp⟩ : Fin 4096) (i 1))
  rw [he] at hm
  exact (congrArg (fun j : S1310720x16.Idx => j ∈ ((cfg5.win 9).blk ⟨(i 0).val / 4096, hlt⟩).view.set) (eq_ix2 i)).mpr hm

theorem final5 (c : Dev nD) : (dat5 (F := Ideal) V c).arrAt 9 cfg5.N =
    unc2 (lin (relu (lin3 (cur2 (V c (Pipeline.arrRef spec5 0) : Vec Ideal S1310720x16 .f32))
      (cur2 (V c (Pipeline.arrRef spec5 1) : Vec Ideal S1310720x16 .f32))
      (cur2 (V c (Pipeline.arrRef spec5 2) : Vec Ideal S1310720x16 .f32))
      (cur2 (V c (Pipeline.arrRef spec5 3) : Vec Ideal S16x16 .f32))
      (cur2 (V c (Pipeline.arrRef spec5 4) : Vec Ideal S16x16 .f32))
      (cur2 (V c (Pipeline.arrRef spec5 5) : Vec Ideal S16x16 .f32))
      (row1 (V c (Pipeline.arrRef spec5 6) : Vec Ideal S1x16 .f32))))
      (cur2 (V c (Pipeline.arrRef spec5 7) : Vec Ideal S16x16 .f32))
      (row1 (V c (Pipeline.arrRef spec5 8) : Vec Ideal S1x16 .f32))) :=
  (dat5 V c).arrAt_eq_of_cover 9 (G5 V c) (fun t _ => flushed5_eq V c t) cover5

end Cert.KernelIdeal.Hand

end
-- ==== Proof.Ki.Val6.lean ====
import proofs.«408468_j77438260346965_2_alg».proof.Proof.Ki.R6
import proofs.«408468_j77438260346965_2_alg».proof.Proof.Ki.Val4
set_option maxRecDepth 16384
noncomputable section
namespace Cert.KernelIdeal.Hand
open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)
open scoped BigOperators
variable (V : (c : Dev nD) → (b : Ref sig .tc) → Buf (Elt Ideal) ((c : Thread nD τ).loc b))

/-- The output array ends as the two-layer value of the input arrays: point t contributes row tile t, and the 64 tiles cover the array. -/
theorem final6 (c : Dev nD) : (dat6 (F := Ideal) V c).arrAt 7 cfg6.N
    = unc2 (lin (relu (lin2 (cur2 (V c (Pipeline.arrRef spec6 0))) (cur2 (V c (Pipeline.arrRef spec6 1))) (cur2 (V c (Pipeline.arrRef spec6 2))) (cur2 (V c (Pipeline.arrRef spec6 3))) (row1 (V c (Pipeline.arrRef spec6 4))))) (cur2 (V c (Pipeline.arrRef spec6 5))) (row1 (V c (Pipeline.arrRef spec6 6)))) :=
  (dat6 (F := Ideal) V c).arrAt_eq_of_cover 7 _ (fun t _ => by
    show (cfg6.win 7).cut (grid6.coords t) ((dat6 (F := Ideal) V c).after 7 t) = _
    rw [after6_7]
    exact funext (tile4 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) t))
    cover4_out

end Cert.KernelIdeal.Hand
-- ==== Proof.Ki.Val7.lean ====
import proofs.«408468_j77438260346965_2_alg».proof.Proof.Ki.R7
import proofs.«408468_j77438260346965_2_alg».proof.Proof.Ki.Val3

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = t.val ∧ win7_1.index t (1 : Fin 2) = 0 :=
  (by decide +kernel : ∀ t : Fin grid7.N, _)
theorem idx7_2 : ∀ t : Fin cfg7.N, win7_2.index t (0 : Fin 2) = t.val ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 2) = 0 ∧ win7_7.index t (1 : Fin 2) = 0 :=
  (by decide +kernel : ∀ t : Fin grid7.N, _)
theorem idx7_8 : ∀ t : Fin cfg7.N, win7_8.index t (0 : Fin 2) = 0 ∧ win7_8.index t (1 : Fin 2) = 0 :=
  (by decide +kernel : ∀ t : Fin grid7.N, _)
theorem idx7_9 : ∀ t : Fin cfg7.N, win7_9.index t (0 : Fin 2) = t.val ∧ win7_9.index t (1 : Fin 2) = 0 :=
  (by decide +kernel : ∀ t : Fin grid7.N, _)

abbrev a7_0 (c : Dev nD) : Vec Ideal S1310720x16 .f32 := V c (Pipeline.arrRef spec7 0)
abbrev a7_1 (c : Dev nD) : Vec Ideal S1310720x16 .f32 := V c (Pipeline.arrRef spec7 1)
abbrev a7_2 (c : Dev nD) : Vec Ideal S1310720x16 .f32 := V c (Pipeline.arrRef spec7 2)
abbrev a7_3 (c : Dev nD) : Vec Ideal S16x16 .f32 := V c (Pipeline.arrRef spec7 3)
abbrev a7_4 (c : Dev nD) : Vec Ideal S16x16 .f32 := V c (Pipeline.arrRef spec7 4)
abbrev a7_5 (c : Dev nD) : Vec Ideal S16x16 .f32 := V c (Pipeline.arrRef spec7 5)
abbrev a7_6 (c : Dev nD) : Vec Ideal S1x16 .f32 := V c (Pipeline.arrRef spec7 6)
abbrev a7_7 (c : Dev nD) : Vec Ideal S16x16 .f32 := V c (Pipeline.arrRef spec7 7)
abbrev a7_8 (c : Dev nD) : Vec Ideal S1x16 .f32 := V c (Pipeline.arrRef spec7 8)

theorem blk7_0_row (c : Dev nD) (t : Fin cfg7.N) (p : Fin 4096) (r : Fin 1310720) (hr : r.val = t.val * 4096 + p.val) :
    cur2 (iblk7 V c 0 t : Vec Ideal S4096x16 .f32) p = cur2 (a7_0 V c) r := by
  funext k
  show (iblk7 V c 0 t : Vec Ideal S4096x16 .f32) (ix2 p k) = a7_0 V c (ix2 r k)
  unfold iblk7
  rw [View.read_apply]
  refine congrArg (a7_0 V c) ?_
  funext a
  apply Fin.ext
  match a with
  | ⟨0, _⟩ => show win7_0.index t (0 : Fin 2) * 4096 + 1 * p.val = r.val; rw [(idx7_0 t).1, hr]; omega
  | ⟨1, _⟩ => show win7_0.index t (1 : Fin 2) * 16 + 1 * k.val = k.val; rw [(idx7_0 t).2]; omega

theorem blk7_1_row (c : Dev nD) (t : Fin cfg7.N) (p : Fin 4096) (r : Fin 1310720) (hr : r.val = t.val * 4096 + p.val) :
    cur2 (iblk7 V c 1 t : Vec Ideal S4096x16 .f32) p = cur2 (a7_1 V c) r := by
  funext k
  show (iblk7 V c 1 t : Vec Ideal S4096x16 .f32) (ix2 p k) = a7_1 V c (ix2 r k)
  unfold iblk7
  rw [View.read_apply]
  refine congrArg (a7_1 V c) ?_
  funext a
  apply Fin.ext
  match a with
  | ⟨0, _⟩ => show win7_1.index t (0 : Fin 2) * 4096 + 1 * p.val = r.val; rw [(idx7_1 t).1, hr]; omega
  | ⟨1, _⟩ => show win7_1.index t (1 : Fin 2) * 16 + 1 * k.val = k.val; rw [(idx7_1 t).2]; omega

theorem blk7_2_row (c : Dev nD) (t : Fin cfg7.N) (p : Fin 4096) (r : Fin 1310720) (hr : r.val = t.val * 4096 + p.val) :
    cur2 (iblk7 V c 2 t : Vec Ideal S4096x16 .f32) p = cur2 (a7_2 V c) r := by
  funext k
  show (iblk7 V c 2 t : Vec Ideal S4096x16 .f32) (ix2 p k) = a7_2 V c (ix2 r k)
  unfold iblk7
  rw [View.read_apply]
  refine congrArg (a7_2 V c) ?_
  funext a
  apply Fin.ext
  match a with
  | ⟨0, _⟩ => show win7_2.index t (0 : Fin 2) * 4096 + 1 * p.val = r.val; rw [(idx7_2 t).1, hr]; omega
  | ⟨1, _⟩ => show win7_2.index t (1 : Fin 2) * 16 + 1 * k.val = k.val; rw [(idx7_2 t).2]; omega

theorem blk7_3_whole (c : Dev nD) (t : Fin cfg7.N) : (iblk7 V c 3 t : Vec Ideal S16x16 .f32) = a7_3 V c := by
  funext y
  unfold iblk7
  rw [View.read_apply]
  refine congrArg (a7_3 V c) ?_
  funext a
  apply Fin.ext
  match a with
  | ⟨0, _⟩ => show win7_3.index t (0 : Fin 2) * 16 + 1 * (y 0).val = (y 0).val; rw [(idx7_3 t).1]; omega
  | ⟨1, _⟩ => show win7_3.index t (1 : Fin 2) * 16 + 1 * (y 1).val = (y 1).val; rw [(idx7_3 t).2]; omega

theorem blk7_4_whole (c : Dev nD) (t : Fin cfg7.N) : (iblk7 V c 4 t : Vec Ideal S16x16 .f32) = a7_4 V c := by
  funext y
  unfold iblk7
  rw [View.read_apply]
  refine congrArg (a7_4 V c) ?_
  funext a
  apply Fin.ext
  match a with
  | ⟨0, _⟩ => show win7_4.index t (0 : Fin 2) * 16 + 1 * (y 0).val = (y 0).val; rw [(idx7_4 t).1]; omega
  | ⟨1, _⟩ => show win7_4.index t (1 : Fin 2) * 16 + 1 * (y 1).val = (y 1).val; rw [(idx7_4 t).2]; omega

theorem blk7_5_whole (c : Dev nD) (t : Fin cfg7.N) : (iblk7 V c 5 t : Vec Ideal S16x16 .f32) = a7_5 V c := by
  funext y
  unfold iblk7
  rw [View.read_apply]
  refine congrArg (a7_5 V c) ?_
  funext a
  apply Fin.ext
  match a with
  | ⟨0, _⟩ => show win7_5.index t (0 : Fin 2) * 16 + 1 * (y 0).val = (y 0).val; rw [(idx7_5 t).1]; omega
  | ⟨1, _⟩ => show win7_5.index t (1 : Fin 2) * 16 + 1 * (y 1).val = (y 1).val; rw [(idx7_5 t).2]; omega

theorem blk7_6_whole (c : Dev nD) (t : Fin cfg7.N) : (iblk7 V c 6 t : Vec Ideal S1x16 .f32) = a7_6 V c := by
  funext y
  unfold iblk7
  rw [View.read_apply]
  refine congrArg (a7_6 V c) ?_
  funext a
  apply Fin.ext
  match a with
  | ⟨0, _⟩ => show win7_6.index t (0 : Fin 2) * 1 + 1 * (y 0).val = (y 0).val; rw [(idx7_6 t).1]; omega
  | ⟨1, _⟩ => show win7_6.index t (1 : Fin 2) * 16 + 1 * (y 1).val = (y 1).val; rw [(idx7_6 t).2]; omega

theorem blk7_7_whole (c : Dev nD) (t : Fin cfg7.N) : (iblk7 V c 7 t : Vec Ideal S16x16 .f32) = a7_7 V c := by
  funext y
  unfold iblk7
  rw [View.read_apply]
  refine congrArg (a7_7 V c) ?_
  funext a
  apply Fin.ext
  match a with
  | ⟨0, _⟩ => show win7_7.index t (0 : Fin 2) * 16 + 1 * (y 0).val = (y 0).val; rw [(idx7_7 t).1]; omega
  | ⟨1, _⟩ => show win7_7.index t (1 : Fin 2) * 16 + 1 * (y 1).val = (y 1).val; rw [(idx7_7 t).2]; omega

theorem blk7_8_whole (c : Dev nD) (t : Fin cfg7.N) : (iblk7 V c 8 t : Vec Ideal S1x16 .f32) = a7_8 V c := by
  funext y
  unfold iblk7
  rw [View.read_apply]
  refine congrArg (a7_8 V c) ?_
  funext a
  apply Fin.ext
  match a with
  | ⟨0, _⟩ => show win7_8.index t (0 : Fin 2) * 1 + 1 * (y 0).val = (y 0).val; rw [(idx7_8 t).1]; omega
  | ⟨1, _⟩ => show win7_8.index t (1 : Fin 2) * 16 + 1 * (y 1).val = (y 1).val; rw [(idx7_8 t).2]; omega

theorem emb7_9 (t : Fin cfg7.N) (p : Fin 4096) (q : Fin 16) (r : Fin 1310720) (hr : r.val = t.val * 4096 + p.val) :
    ((cfg7.win 9).blk t).view.emb (ix2 p q) = ix2 r q := by
  funext a
  apply Fin.ext
  match a with
  | ⟨0, _⟩ => show win7_9.index t (0 : Fin 2) * 4096 + 1 * p.val = r.val; rw [(idx7_9 t).1, hr]; omega
  | ⟨1, _⟩ => show win7_9.index t (1 : Fin 2) * 16 + 1 * q.val = q.val; rw [(idx7_9 t).2]; omega

abbrev G7 (c : Dev nD) : Vec Ideal S1310720x16 .f32 :=
  unc2 (lin (relu (lin3 (cur2 (a7_0 V c)) (cur2 (a7_1 V c)) (cur2 (a7_2 V c)) (cur2 (a7_3 V c)) (cur2 (a7_4 V c))
    (cur2 (a7_5 V c)) (row1 (a7_6 V c)))) (cur2 (a7_7 V c)) (row1 (a7_8 V c)))

theorem flushed7_eq (c : Dev nD) (t : Fin cfg7.N) :
    (dat7 V c).flushed 9 t = ((cfg7.win 9).blk t).view.read (Elt Ideal) (G7 V c) := by
  show (cfg7.win 9).cut (grid7.coords t) ((dat7 V c).after 9 t) = _
  rw [after7_9]
  unfold out3_9
  rw [View.canon_unit_zero hz3]
  simp only [View.ld_unit_zero (S := S4096x16) hz3, View.ld_unit_zero (S := S16x16) hz3, View.ld_unit_zero (S := S1x16) hz3]
  funext j
  obtain ⟨p, q, rfl⟩ : ∃ (p : Fin 4096) (q : Fin 16), j = ix2 p q := ⟨j 0, j 1, eq_ix2 j⟩
  have ht : t.val < 320 := lt_of_lt_of_eq t.isLt N_7
  have hr : (⟨t.val * 4096 + p.val, by omega⟩ : Fin 1310720).val = t.val * 4096 + p.val := rfl
  rw [View.read_apply, emb7_9 t p q _ hr]
  show k3_pay1 (k3_pay2 (iblk7 V c 0 t) (iblk7 V c 1 t) (iblk7 V c 2 t) (iblk7 V c 3 t) (iblk7 V c 4 t) (iblk7 V c 5 t)
      (iblk7 V c 6 t) (iblk7 V c 7 t)) (k3_pay3 (iblk7 V c 8 t)) (ix2 p q) = _
  rw [pay3_apply (iblk7 V c 0 t) (iblk7 V c 1 t) (iblk7 V c 2 t) (iblk7 V c 3 t) (iblk7 V c 4 t) (iblk7 V c 5 t)
      (iblk7 V c 6 t) (iblk7 V c 7 t) (iblk7 V c 8 t) p q,
    blk7_3_whole, blk7_4_whole, blk7_5_whole, blk7_6_whole, blk7_7_whole, blk7_8_whole]
  exact congrFun (layers3_row _ _ _ _ _ _ _ _ _ _ _ _ p _ (blk7_0_row V c t p _ hr) (blk7_1_row V c t p _ hr)
    (blk7_2_row V c t p _ hr)) q

theorem cover7 (i : S1310720x16.Idx) :
    ∃ t : Fin cfg7.N, (cfg7.win 9).flush t = true ∧ i ∈ ((cfg7.win 9).blk t).view.set := by
  have h0 : (i 0).val < 1310720 := idx2_lt0 i
  have hlt : (i 0).val / 4096 < cfg7.N := lt_of_lt_of_eq (by omega) N_7.symm
  have hp : (i 0).val % 4096 < 4096 := Nat.mod_lt _ (by decide)
  refine ⟨⟨(i 0).val / 4096, hlt⟩, flush7_9 _, ?_⟩
  have he := emb7_9 ⟨(i 0).val / 4096, hlt⟩ ⟨(i 0).val % 4096, hp⟩ (i 1) (i 0)
    (by show (i 0).val = (i 0).val / 4096 * 4096 + (i 0).val % 4096; omega)
  have hm := View.emb_mem_set (v := ((cfg7.win 9).blk ⟨(i 0).val / 4096, hlt⟩).view) (ix2 (⟨(i 0).val % 4096, hp⟩ : Fin 4096) (i 1))
  rw [he] at hm
  exact (congrArg (fun j : S1310720x16.Idx => j ∈ ((cfg7.win 9).blk ⟨(i 0).val / 4096, hlt⟩).view.set) (eq_ix2 i)).mpr hm

theorem final7 (c : Dev nD) : (dat7 (F := Ideal) V c).arrAt 9 cfg7.N =
    unc2 (lin (relu (lin3 (cur2 (V c (Pipeline.arrRef spec7 0) : Vec Ideal S1310720x16 .f32))
      (cur2 (V c (Pipeline.arrRef spec7 1) : Vec Ideal S1310720x16 .f32))
      (cur2 (V c (Pipeline.arrRef spec7 2) : Vec Ideal S1310720x16 .f32))
      (cur2 (V c (Pipeline.arrRef spec7 3) : Vec Ideal S16x16 .f32))
      (cur2 (V c (Pipeline.arrRef spec7 4) : Vec Ideal S16x16 .f32))
      (cur2 (V c (Pipeline.arrRef spec7 5) : Vec Ideal S16x16 .f32))
      (row1 (V c (Pipeline.arrRef spec7 6) : Vec Ideal S1x16 .f32))))
      (cur2 (V c (Pipeline.arrRef spec7 7) : Vec Ideal S16x16 .f32))
      (row1 (V c (Pipeline.arrRef spec7 8) : Vec Ideal S1x16 .f32))) :=
  (dat7 V c).arrAt_eq_of_cover 9 (G7 V c) (fun t _ => flushed7_eq V c t) cover7

end Cert.KernelIdeal.Hand

end
-- ==== Proof.Ki.Val8.lean ====
import proofs.«408468_j77438260346965_2_alg».proof.Proof.Ki.R8
import proofs.«408468_j77438260346965_2_alg».proof.Proof.Ki.Val4
set_option maxRecDepth 16384
noncomputable section
namespace Cert.KernelIdeal.Hand
open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)
open scoped BigOperators
variable (V : (c : Dev nD) → (b : Ref sig .tc) → Buf (Elt Ideal) ((c : Thread nD τ).loc b))

/-- The output array ends as the two-layer value of the input arrays: point t contributes row tile t, and the 64 tiles cover the array. -/
theorem final8 (c : Dev nD) : (dat8 (F := Ideal) V c).arrAt 7 cfg8.N
    = unc2 (lin (relu (lin2 (cur2 (V c (Pipeline.arrRef spec8 0))) (cur2 (V c (Pipeline.arrRef spec8 1))) (cur2 (V c (Pipeline.arrRef spec8 2))) (cur2 (V c (Pipeline.arrRef spec8 3))) (row1 (V c (Pipeline.arrRef spec8 4))))) (cur2 (V c (Pipeline.arrRef spec8 5))) (row1 (V c (Pipeline.arrRef spec8 6)))) :=
  (dat8 (F := Ideal) V c).arrAt_eq_of_cover 7 _ (fun t _ => by
    show (cfg8.win 7).cut (grid8.coords t) ((dat8 (F := Ideal) V c).after 7 t) = _
    rw [after8_7]
    exact funext (tile4 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) t))
    cover4_out

end Cert.KernelIdeal.Hand
-- ==== Proof.Ki.Val9.lean ====
import proofs.«408468_j77438260346965_2_alg».proof.Proof.Ki.R9
import proofs.«408468_j77438260346965_2_alg».proof.Proof.Ki.Val3

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx9_0 : ∀ t : Fin cfg9.N, win9_0.index t (0 : Fin 2) = t.val ∧ win9_0.index t (1 : Fin 2) = 0 :=
  (by decide +kernel : ∀ t : Fin grid9.N, _)
theorem idx9_1 : ∀ t : Fin cfg9.N, win9_1.index t (0 : Fin 2) = t.val ∧ win9_1.index t (1 : Fin 2) = 0 :=
  (by decide +kernel : ∀ t : Fin grid9.N, _)
theorem idx9_2 : ∀ t : Fin cfg9.N, win9_2.index t (0 : Fin 2) = t.val ∧ win9_2.index t (1 : Fin 2) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)
theorem idx9_4 : ∀ t : Fin cfg9.N, win9_4.index t (0 : Fin 2) = 0 ∧ win9_4.index t (1 : Fin 2) = 0 :=
  (by decide +kernel : ∀ t : Fin grid9.N, _)
theorem idx9_5 : ∀ t : Fin cfg9.N, win9_5.index t (0 : Fin 2) = 0 ∧ win9_5.index t (1 : Fin 2) = 0 :=
  (by decide +kernel : ∀ t : Fin grid9.N, _)
theorem idx9_6 : ∀ t : Fin cfg9.N, win9_6.index t (0 : Fin 2) = 0 ∧ win9_6.index t (1 : Fin 2) = 0 :=
  (by decide +kernel : ∀ t : Fin grid9.N, _)
theorem idx9_7 : ∀ t : Fin cfg9.N, win9_7.index t (0 : Fin 2) = 0 ∧ win9_7.index t (1 : Fin 2) = 0 :=
  (by decide +kernel : ∀ t : Fin grid9.N, _)
theorem idx9_8 : ∀ t : Fin cfg9.N, win9_8.index t (0 : Fin 2) = 0 ∧ win9_8.index t (1 : Fin 2) = 0 :=
  (by decide +kernel : ∀ t : Fin grid9.N, _)
theorem idx9_9 : ∀ t : Fin cfg9.N, win9_9.index t (0 : Fin 2) = t.val ∧ win9_9.index t (1 : Fin 2) = 0 :=
  (by decide +kernel : ∀ t : Fin grid9.N, _)

abbrev a9_0 (c : Dev nD) : Vec Ideal S1310720x16 .f32 := V c (Pipeline.arrRef spec9 0)
abbrev a9_1 (c : Dev nD) : Vec Ideal S1310720x16 .f32 := V c (Pipeline.arrRef spec9 1)
abbrev a9_2 (c : Dev nD) : Vec Ideal S1310720x16 .f32 := V c (Pipeline.arrRef spec9 2)
abbrev a9_3 (c : Dev nD) : Vec Ideal S16x16 .f32 := V c (Pipeline.arrRef spec9 3)
abbrev a9_4 (c : Dev nD) : Vec Ideal S16x16 .f32 := V c (Pipeline.arrRef spec9 4)
abbrev a9_5 (c : Dev nD) : Vec Ideal S16x16 .f32 := V c (Pipeline.arrRef spec9 5)
abbrev a9_6 (c : Dev nD) : Vec Ideal S1x16 .f32 := V c (Pipeline.arrRef spec9 6)
abbrev a9_7 (c : Dev nD) : Vec Ideal S16x16 .f32 := V c (Pipeline.arrRef spec9 7)
abbrev a9_8 (c : Dev nD) : Vec Ideal S1x16 .f32 := V c (Pipeline.arrRef spec9 8)

theorem blk9_0_row (c : Dev nD) (t : Fin cfg9.N) (p : Fin 4096) (r : Fin 1310720) (hr : r.val = t.val * 4096 + p.val) :
    cur2 (iblk9 V c 0 t : Vec Ideal S4096x16 .f32) p = cur2 (a9_0 V c) r := by
  funext k
  show (iblk9 V c 0 t : Vec Ideal S4096x16 .f32) (ix2 p k) = a9_0 V c (ix2 r k)
  unfold iblk9
  rw [View.read_apply]
  refine congrArg (a9_0 V c) ?_
  funext a
  apply Fin.ext
  match a with
  | ⟨0, _⟩ => show win9_0.index t (0 : Fin 2) * 4096 + 1 * p.val = r.val; rw [(idx9_0 t).1, hr]; omega
  | ⟨1, _⟩ => show win9_0.index t (1 : Fin 2) * 16 + 1 * k.val = k.val; rw [(idx9_0 t).2]; omega

theorem blk9_1_row (c : Dev nD) (t : Fin cfg9.N) (p : Fin 4096) (r : Fin 1310720) (hr : r.val = t.val * 4096 + p.val) :
    cur2 (iblk9 V c 1 t : Vec Ideal S4096x16 .f32) p = cur2 (a9_1 V c) r := by
  funext k
  show (iblk9 V c 1 t : Vec Ideal S4096x16 .f32) (ix2 p k) = a9_1 V c (ix2 r k)
  unfold iblk9
  rw [View.read_apply]
  refine congrArg (a9_1 V c) ?_
  funext a
  apply Fin.ext
  match a with
  | ⟨0, _⟩ => show win9_1.index t (0 : Fin 2) * 4096 + 1 * p.val = r.val; rw [(idx9_1 t).1, hr]; omega
  | ⟨1, _⟩ => show win9_1.index t (1 : Fin 2) * 16 + 1 * k.val = k.val; rw [(idx9_1 t).2]; omega

theorem blk9_2_row (c : Dev nD) (t : Fin cfg9.N) (p : Fin 4096) (r : Fin 1310720) (hr : r.val = t.val * 4096 + p.val) :
    cur2 (iblk9 V c 2 t : Vec Ideal S4096x16 .f32) p = cur2 (a9_2 V c) r := by
  funext k
  show (iblk9 V c 2 t : Vec Ideal S4096x16 .f32) (ix2 p k) = a9_2 V c (ix2 r k)
  unfold iblk9
  rw [View.read_apply]
  refine congrArg (a9_2 V c) ?_
  funext a
  apply Fin.ext
  match a with
  | ⟨0, _⟩ => show win9_2.index t (0 : Fin 2) * 4096 + 1 * p.val = r.val; rw [(idx9_2 t).1, hr]; omega
  | ⟨1, _⟩ => show win9_2.index t (1 : Fin 2) * 16 + 1 * k.val = k.val; rw [(idx9_2 t).2]; omega

theorem blk9_3_whole (c : Dev nD) (t : Fin cfg9.N) : (iblk9 V c 3 t : Vec Ideal S16x16 .f32) = a9_3 V c := by
  funext y
  unfold iblk9
  rw [View.read_apply]
  refine congrArg (a9_3 V c) ?_
  funext a
  apply Fin.ext
  match a with
  | ⟨0, _⟩ => show win9_3.index t (0 : Fin 2) * 16 + 1 * (y 0).val = (y 0).val; rw [(idx9_3 t).1]; omega
  | ⟨1, _⟩ => show win9_3.index t (1 : Fin 2) * 16 + 1 * (y 1).val = (y 1).val; rw [(idx9_3 t).2]; omega

theorem blk9_4_whole (c : Dev nD) (t : Fin cfg9.N) : (iblk9 V c 4 t : Vec Ideal S16x16 .f32) = a9_4 V c := by
  funext y
  unfold iblk9
  rw [View.read_apply]
  refine congrArg (a9_4 V c) ?_
  funext a
  apply Fin.ext
  match a with
  | ⟨0, _⟩ => show win9_4.index t (0 : Fin 2) * 16 + 1 * (y 0).val = (y 0).val; rw [(idx9_4 t).1]; omega
  | ⟨1, _⟩ => show win9_4.index t (1 : Fin 2) * 16 + 1 * (y 1).val = (y 1).val; rw [(idx9_4 t).2]; omega

theorem blk9_5_whole (c : Dev nD) (t : Fin cfg9.N) : (iblk9 V c 5 t : Vec Ideal S16x16 .f32) = a9_5 V c := by
  funext y
  unfold iblk9
  rw [View.read_apply]
  refine congrArg (a9_5 V c) ?_
  funext a
  apply Fin.ext
  match a with
  | ⟨0, _⟩ => show win9_5.index t (0 : Fin 2) * 16 + 1 * (y 0).val = (y 0).val; rw [(idx9_5 t).1]; omega
  | ⟨1, _⟩ => show win9_5.index t (1 : Fin 2) * 16 + 1 * (y 1).val = (y 1).val; rw [(idx9_5 t).2]; omega

theorem blk9_6_whole (c : Dev nD) (t : Fin cfg9.N) : (iblk9 V c 6 t : Vec Ideal S1x16 .f32) = a9_6 V c := by
  funext y
  unfold iblk9
  rw [View.read_apply]
  refine congrArg (a9_6 V c) ?_
  funext a
  apply Fin.ext
  match a with
  | ⟨0, _⟩ => show win9_6.index t (0 : Fin 2) * 1 + 1 * (y 0).val = (y 0).val; rw [(idx9_6 t).1]; omega
  | ⟨1, _⟩ => show win9_6.index t (1 : Fin 2) * 16 + 1 * (y 1).val = (y 1).val; rw [(idx9_6 t).2]; omega

theorem blk9_7_whole (c : Dev nD) (t : Fin cfg9.N) : (iblk9 V c 7 t : Vec Ideal S16x16 .f32) = a9_7 V c := by
  funext y
  unfold iblk9
  rw [View.read_apply]
  refine congrArg (a9_7 V c) ?_
  funext a
  apply Fin.ext
  match a with
  | ⟨0, _⟩ => show win9_7.index t (0 : Fin 2) * 16 + 1 * (y 0).val = (y 0).val; rw [(idx9_7 t).1]; omega
  | ⟨1, _⟩ => show win9_7.index t (1 : Fin 2) * 16 + 1 * (y 1).val = (y 1).val; rw [(idx9_7 t).2]; omega

theorem blk9_8_whole (c : Dev nD) (t : Fin cfg9.N) : (iblk9 V c 8 t : Vec Ideal S1x16 .f32) = a9_8 V c := by
  funext y
  unfold iblk9
  rw [View.read_apply]
  refine congrArg (a9_8 V c) ?_
  funext a
  apply Fin.ext
  match a with
  | ⟨0, _⟩ => show win9_8.index t (0 : Fin 2) * 1 + 1 * (y 0).val = (y 0).val; rw [(idx9_8 t).1]; omega
  | ⟨1, _⟩ => show win9_8.index t (1 : Fin 2) * 16 + 1 * (y 1).val = (y 1).val; rw [(idx9_8 t).2]; omega

theorem emb9_9 (t : Fin cfg9.N) (p : Fin 4096) (q : Fin 16) (r : Fin 1310720) (hr : r.val = t.val * 4096 + p.val) :
    ((cfg9.win 9).blk t).view.emb (ix2 p q) = ix2 r q := by
  funext a
  apply Fin.ext
  match a with
  | ⟨0, _⟩ => show win9_9.index t (0 : Fin 2) * 4096 + 1 * p.val = r.val; rw [(idx9_9 t).1, hr]; omega
  | ⟨1, _⟩ => show win9_9.index t (1 : Fin 2) * 16 + 1 * q.val = q.val; rw [(idx9_9 t).2]; omega

abbrev G9 (c : Dev nD) : Vec Ideal S1310720x16 .f32 :=
  unc2 (lin (relu (lin3 (cur2 (a9_0 V c)) (cur2 (a9_1 V c)) (cur2 (a9_2 V c)) (cur2 (a9_3 V c)) (cur2 (a9_4 V c))
    (cur2 (a9_5 V c)) (row1 (a9_6 V c)))) (cur2 (a9_7 V c)) (row1 (a9_8 V c)))

theorem flushed9_eq (c : Dev nD) (t : Fin cfg9.N) :
    (dat9 V c).flushed 9 t = ((cfg9.win 9).blk t).view.read (Elt Ideal) (G9 V c) := by
  show (cfg9.win 9).cut (grid9.coords t) ((dat9 V c).after 9 t) = _
  rw [after9_9]
  unfold out3_9
  rw [View.canon_unit_zero hz3]
  simp only [View.ld_unit_zero (S := S4096x16) hz3, View.ld_unit_zero (S := S16x16) hz3, View.ld_unit_zero (S := S1x16) hz3]
  funext j
  obtain ⟨p, q, rfl⟩ : ∃ (p : Fin 4096) (q : Fin 16), j = ix2 p q := ⟨j 0, j 1, eq_ix2 j⟩
  have ht : t.val < 320 := lt_of_lt_of_eq t.isLt N_9
  have hr : (⟨t.val * 4096 + p.val, by omega⟩ : Fin 1310720).val = t.val * 4096 + p.val := rfl
  rw [View.read_apply, emb9_9 t p q _ hr]
  show k3_pay1 (k3_pay2 (iblk9 V c 0 t) (iblk9 V c 1 t) (iblk9 V c 2 t) (iblk9 V c 3 t) (iblk9 V c 4 t) (iblk9 V c 5 t)
      (iblk9 V c 6 t) (iblk9 V c 7 t)) (k3_pay3 (iblk9 V c 8 t)) (ix2 p q) = _
  rw [pay3_apply (iblk9 V c 0 t) (iblk9 V c 1 t) (iblk9 V c 2 t) (iblk9 V c 3 t) (iblk9 V c 4 t) (iblk9 V c 5 t)
      (iblk9 V c 6 t) (iblk9 V c 7 t) (iblk9 V c 8 t) p q,
    blk9_3_whole, blk9_4_whole, blk9_5_whole, blk9_6_whole, blk9_7_whole, blk9_8_whole]
  exact congrFun (layers3_row _ _ _ _ _ _ _ _ _ _ _ _ p _ (blk9_0_row V c t p _ hr) (blk9_1_row V c t p _ hr)
    (blk9_2_row V c t p _ hr)) q

theorem cover9 (i : S1310720x16.Idx) :
    ∃ t : Fin cfg9.N, (cfg9.win 9).flush t = true ∧ i ∈ ((cfg9.win 9).blk t).view.set := by
  have h0 : (i 0).val < 1310720 := idx2_lt0 i
  have hlt : (i 0).val / 4096 < cfg9.N := lt_of_lt_of_eq (by omega) N_9.symm
  have hp : (i 0).val % 4096 < 4096 := Nat.mod_lt _ (by decide)
  refine ⟨⟨(i 0).val / 4096, hlt⟩, flush9_9 _, ?_⟩
  have he := emb9_9 ⟨(i 0).val / 4096, hlt⟩ ⟨(i 0).val % 4096, hp⟩ (i 1) (i 0)
    (by show (i 0).val = (i 0).val / 4096 * 4096 + (i 0).val % 4096; omega)
  have hm := View.emb_mem_set (v := ((cfg9.win 9).blk ⟨(i 0).val / 4096, hlt⟩).view) (ix2 (⟨(i 0).val % 4096, hp⟩ : Fin 4096) (i 1))
  rw [he] at hm
  exact (congrArg (fun j : S1310720x16.Idx => j ∈ ((cfg9.win 9).blk ⟨(i 0).val / 4096, hlt⟩).view.set) (eq_ix2 i)).mpr hm

theorem final9 (c : Dev nD) : (dat9 (F := Ideal) V c).arrAt 9 cfg9.N =
    unc2 (lin (relu (lin3 (cur2 (V c (Pipeline.arrRef spec9 0) : Vec Ideal S1310720x16 .f32))
      (cur2 (V c (Pipeline.arrRef spec9 1) : Vec Ideal S1310720x16 .f32))
      (cur2 (V c (Pipeline.arrRef spec9 2) : Vec Ideal S1310720x16 .f32))
      (cur2 (V c (Pipeline.arrRef spec9 3) : Vec Ideal S16x16 .f32))
      (cur2 (V c (Pipeline.arrRef spec9 4) : Vec Ideal S16x16 .f32))
      (cur2 (V c (Pipeline.arrRef spec9 5) : Vec Ideal S16x16 .f32))
      (row1 (V c (Pipeline.arrRef spec9 6) : Vec Ideal S1x16 .f32))))
      (cur2 (V c (Pipeline.arrRef spec9 7) : Vec Ideal S16x16 .f32))
      (row1 (V c (Pipeline.arrRef spec9 8) : Vec Ideal S1x16 .f32))) :=
  (dat9 V c).arrAt_eq_of_cover 9 (G9 V c) (fun t _ => flushed9_eq V c t) cover9

end Cert.KernelIdeal.Hand

end
-- ==== Proof.Ki.Val10.lean ====
import proofs.«408468_j77438260346965_2_alg».proof.Proof.Ki.R10
import proofs.«408468_j77438260346965_2_alg».proof.Proof.Ki.Val4
set_option maxRecDepth 16384
noncomputable section
namespace Cert.KernelIdeal.Hand
open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)
open scoped BigOperators
variable (V : (c : Dev nD) → (b : Ref sig .tc) → Buf (Elt Ideal) ((c : Thread nD τ).loc b))

/-- The output array ends as the two-layer value of the input arrays: point t contributes row tile t, and the 64 tiles cover the array. -/
theorem final10 (c : Dev nD) : (dat10 (F := Ideal) V c).arrAt 7 cfg10.N
    = unc2 (lin (relu (lin2 (cur2 (V c (Pipeline.arrRef spec10 0))) (cur2 (V c (Pipeline.arrRef spec10 1))) (cur2 (V c (Pipeline.arrRef spec10 2))) (cur2 (V c (Pipeline.arrRef spec10 3))) (row1 (V c (Pipeline.arrRef spec10 4))))) (cur2 (V c (Pipeline.arrRef spec10 5))) (row1 (V c (Pipeline.arrRef spec10 6)))) :=
  (dat10 (F := Ideal) V c).arrAt_eq_of_cover 7 _ (fun t _ => by
    show (cfg10.win 7).cut (grid10.coords t) ((dat10 (F := Ideal) V c).after 7 t) = _
    rw [after10_7]
    exact funext (tile4 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) t))
    cover4_out

end Cert.KernelIdeal.Hand
-- ==== Proof.Ki.Val11.lean ====
import proofs.«408468_j77438260346965_2_alg».proof.Proof.Ki.R11
import proofs.«408468_j77438260346965_2_alg».proof.Proof.Ki.Val3

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx11_0 : ∀ t : Fin cfg11.N, win11_0.index t (0 : Fin 2) = t.val ∧ win11_0.index t (1 : Fin 2) = 0 :=
  (by decide +kernel : ∀ t : Fin grid11.N, _)
theorem idx11_1 : ∀ t : Fin cfg11.N, win11_1.index t (0 : Fin 2) = t.val ∧ win11_1.index t (1 : Fin 2) = 0 :=
  (by decide +kernel : ∀ t : Fin grid11.N, _)
theorem idx11_2 : ∀ t : Fin cfg11.N, win11_2.index t (0 : Fin 2) = t.val ∧ win11_2.index t (1 : Fin 2) = 0 :=
  (by decide +kernel : ∀ t : Fin grid11.N, _)
theorem idx11_3 : ∀ t : Fin cfg11.N, win11_3.index t (0 : Fin 2) = 0 ∧ win11_3.index t (1 : Fin 2) = 0 :=
  (by decide +kernel : ∀ t : Fin grid11.N, _)
theorem idx11_4 : ∀ t : Fin cfg11.N, win11_4.index t (0 : Fin 2) = 0 ∧ win11_4.index t (1 : Fin 2) = 0 :=
  (by decide +kernel : ∀ t : Fin grid11.N, _)
theorem idx11_5 : ∀ t : Fin cfg11.N, win11_5.index t (0 : Fin 2) = 0 ∧ win11_5.index t (1 : Fin 2) = 0 :=
  (by decide +kernel : ∀ t : Fin grid11.N, _)
theorem idx11_6 : ∀ t : Fin cfg11.N, win11_6.index t (0 : Fin 2) = 0 ∧ win11_6.index t (1 : Fin 2) = 0 :=
  (by decide +kernel : ∀ t : Fin grid11.N, _)
theorem idx11_7 : ∀ t : Fin cfg11.N, win11_7.index t (0 : Fin 2) = 0 ∧ win11_7.index t (1 : Fin 2) = 0 :=
  (by decide +kernel : ∀ t : Fin grid11.N, _)
theorem idx11_8 : ∀ t : Fin cfg11.N, win11_8.index t (0 : Fin 2) = 0 ∧ win11_8.index t (1 : Fin 2) = 0 :=
  (by decide +kernel : ∀ t : Fin grid11.N, _)
theorem idx11_9 : ∀ t : Fin cfg11.N, win11_9.index t (0 : Fin 2) = t.val ∧ win11_9.index t (1 : Fin 2) = 0 :=
  (by decide +kernel : ∀ t : Fin grid11.N, _)

abbrev a11_0 (c : Dev nD) : Vec Ideal S1310720x16 .f32 := V c (Pipeline.arrRef spec11 0)
abbrev a11_1 (c : Dev nD) : Vec Ideal S1310720x16 .f32 := V c (Pipeline.arrRef spec11 1)
abbrev a11_2 (c : Dev nD) : Vec Ideal S1310720x16 .f32 := V c (Pipeline.arrRef spec11 2)
abbrev a11_3 (c : Dev nD) : Vec Ideal S16x16 .f32 := V c (Pipeline.arrRef spec11 3)
abbrev a11_4 (c : Dev nD) : Vec Ideal S16x16 .f32 := V c (Pipeline.arrRef spec11 4)
abbrev a11_5 (c : Dev nD) : Vec Ideal S16x16 .f32 := V c (Pipeline.arrRef spec11 5)
abbrev a11_6 (c : Dev nD) : Vec Ideal S1x16 .f32 := V c (Pipeline.arrRef spec11 6)
abbrev a11_7 (c : Dev nD) : Vec Ideal S16x16 .f32 := V c (Pipeline.arrRef spec11 7)
abbrev a11_8 (c : Dev nD) : Vec Ideal S1x16 .f32 := V c (Pipeline.arrRef spec11 8)

theorem blk11_0_row (c : Dev nD) (t : Fin cfg11.N) (p : Fin 4096) (r : Fin 1310720) (hr : r.val = t.val * 4096 + p.val) :
    cur2 (iblk11 V c 0 t : Vec Ideal S4096x16 .f32) p = cur2 (a11_0 V c) r := by
  funext k
  show (iblk11 V c 0 t : Vec Ideal S4096x16 .f32) (ix2 p k) = a11_0 V c (ix2 r k)
  unfold iblk11
  rw [View.read_apply]
  refine congrArg (a11_0 V c) ?_
  funext a
  apply Fin.ext
  match a with
  | ⟨0, _⟩ => show win11_0.index t (0 : Fin 2) * 4096 + 1 * p.val = r.val; rw [(idx11_0 t).1, hr]; omega
  | ⟨1, _⟩ => show win11_0.index t (1 : Fin 2) * 16 + 1 * k.val = k.val; rw [(idx11_0 t).2]; omega

theorem blk11_1_row (c : Dev nD) (t : Fin cfg11.N) (p : Fin 4096) (r : Fin 1310720) (hr : r.val = t.val * 4096 + p.val) :
    cur2 (iblk11 V c 1 t : Vec Ideal S4096x16 .f32) p = cur2 (a11_1 V c) r := by
  funext k
  show (iblk11 V c 1 t : Vec Ideal S4096x16 .f32) (ix2 p k) = a11_1 V c (ix2 r k)
  unfold iblk11
  rw [View.read_apply]
  refine congrArg (a11_1 V c) ?_
  funext a
  apply Fin.ext
  match a with
  | ⟨0, _⟩ => show win11_1.index t (0 : Fin 2) * 4096 + 1 * p.val = r.val; rw [(idx11_1 t).1, hr]; omega
  | ⟨1, _⟩ => show win11_1.index t (1 : Fin 2) * 16 + 1 * k.val = k.val; rw [(idx11_1 t).2]; omega

theorem blk11_2_row (c : Dev nD) (t : Fin cfg11.N) (p : Fin 4096) (r : Fin 1310720) (hr : r.val = t.val * 4096 + p.val) :
    cur2 (iblk11 V c 2 t : Vec Ideal S4096x16 .f32) p = cur2 (a11_2 V c) r := by
  funext k
  show (iblk11 V c 2 t : Vec Ideal S4096x16 .f32) (ix2 p k) = a11_2 V c (ix2 r k)
  unfold iblk11
  rw [View.read_apply]
  refine congrArg (a11_2 V c) ?_
  funext a
  apply Fin.ext
  match a with
  | ⟨0, _⟩ => show win11_2.index t (0 : Fin 2) * 4096 + 1 * p.val = r.val; rw [(idx11_2 t).1, hr]; omega
  | ⟨1, _⟩ => show win11_2.index t (1 : Fin 2) * 16 + 1 * k.val = k.val; rw [(idx11_2 t).2]; omega

theorem blk11_3_whole (c : Dev nD) (t : Fin cfg11.N) : (iblk11 V c 3 t : Vec Ideal S16x16 .f32) = a11_3 V c := by
  funext y
  unfold iblk11
  rw [View.read_apply]
  refine congrArg (a11_3 V c) ?_
  funext a
  apply Fin.ext
  match a with
  | ⟨0, _⟩ => show win11_3.index t (0 : Fin 2) * 16 + 1 * (y 0).val = (y 0).val; rw [(idx11_3 t).1]; omega
  | ⟨1, _⟩ => show win11_3.index t (1 : Fin 2) * 16 + 1 * (y 1).val = (y 1).val; rw [(idx11_3 t).2]; omega

theorem blk11_4_whole (c : Dev nD) (t : Fin cfg11.N) : (iblk11 V c 4 t : Vec Ideal S16x16 .f32) = a11_4 V c := by
  funext y
  unfold iblk11
  rw [View.read_apply]
  refine congrArg (a11_4 V c) ?_
  funext a
  apply Fin.ext
  match a with
  | ⟨0, _⟩ => show win11_4.index t (0 : Fin 2) * 16 + 1 * (y 0).val = (y 0).val; rw [(idx11_4 t).1]; omega
  | ⟨1, _⟩ => show win11_4.index t (1 : Fin 2) * 16 + 1 * (y 1).val = (y 1).val; rw [(idx11_4 t).2]; omega

theorem blk11_5_whole (c : Dev nD) (t : Fin cfg11.N) : (iblk11 V c 5 t : Vec Ideal S16x16 .f32) = a11_5 V c := by
  funext y
  unfold iblk11
  rw [View.read_apply]
  refine congrArg (a11_5 V c) ?_
  funext a
  apply Fin.ext
  match a with
  | ⟨0, _⟩ => show win11_5.index t (0 : Fin 2) * 16 + 1 * (y 0).val = (y 0).val; rw [(idx11_5 t).1]; omega
  | ⟨1, _⟩ => show win11_5.index t (1 : Fin 2) * 16 + 1 * (y 1).val = (y 1).val; rw [(idx11_5 t).2]; omega

theorem blk11_6_whole (c : Dev nD) (t : Fin cfg11.N) : (iblk11 V c 6 t : Vec Ideal S1x16 .f32) = a11_6 V c := by
  funext y
  unfold iblk11
  rw [View.read_apply]
  refine congrArg (a11_6 V c) ?_
  funext a
  apply Fin.ext
  match a with
  | ⟨0, _⟩ => show win11_6.index t (0 : Fin 2) * 1 + 1 * (y 0).val = (y 0).val; rw [(idx11_6 t).1]; omega
  | ⟨1, _⟩ => show win11_6.index t (1 : Fin 2) * 16 + 1 * (y 1).val = (y 1).val; rw [(idx11_6 t).2]; omega

theorem blk11_7_whole (c : Dev nD) (t : Fin cfg11.N) : (iblk11 V c 7 t : Vec Ideal S16x16 .f32) = a11_7 V c := by
  funext y
  unfold iblk11
  rw [View.read_apply]
  refine congrArg (a11_7 V c) ?_
  funext a
  apply Fin.ext
  match a with
  | ⟨0, _⟩ => show win11_7.index t (0 : Fin 2) * 16 + 1 * (y 0).val = (y 0).val; rw [(idx11_7 t).1]; omega
  | ⟨1, _⟩ => show win11_7.index t (1 : Fin 2) * 16 + 1 * (y 1).val = (y 1).val; rw [(idx11_7 t).2]; omega

theorem blk11_8_whole (c : Dev nD) (t : Fin cfg11.N) : (iblk11 V c 8 t : Vec Ideal S1x16 .f32) = a11_8 V c := by
  funext y
  unfold iblk11
  rw [View.read_apply]
  refine congrArg (a11_8 V c) ?_
  funext a
  apply Fin.ext
  match a with
  | ⟨0, _⟩ => show win11_8.index t (0 : Fin 2) * 1 + 1 * (y 0).val = (y 0).val; rw [(idx11_8 t).1]; omega
  | ⟨1, _⟩ => show win11_8.index t (1 : Fin 2) * 16 + 1 * (y 1).val = (y 1).val; rw [(idx11_8 t).2]; omega

theorem emb11_9 (t : Fin cfg11.N) (p : Fin 4096) (q : Fin 16) (r : Fin 1310720) (hr : r.val = t.val * 4096 + p.val) :
    ((cfg11.win 9).blk t).view.emb (ix2 p q) = ix2 r q := by
  funext a
  apply Fin.ext
  match a with
  | ⟨0, _⟩ => show win11_9.index t (0 : Fin 2) * 4096 + 1 * p.val = r.val; rw [(idx11_9 t).1, hr]; omega
  | ⟨1, _⟩ => show win11_9.index t (1 : Fin 2) * 16 + 1 * q.val = q.val; rw [(idx11_9 t).2]; omega

abbrev G11 (c : Dev nD) : Vec Ideal S1310720x16 .f32 :=
  unc2 (lin (relu (lin3 (cur2 (a11_0 V c)) (cur2 (a11_1 V c)) (cur2 (a11_2 V c)) (cur2 (a11_3 V c)) (cur2 (a11_4 V c))
    (cur2 (a11_5 V c)) (row1 (a11_6 V c)))) (cur2 (a11_7 V c)) (row1 (a11_8 V c)))

theorem flushed11_eq (c : Dev nD) (t : Fin cfg11.N) :
    (dat11 V c).flushed 9 t = ((cfg11.win 9).blk t).view.read (Elt Ideal) (G11 V c) := by
  show (cfg11.win 9).cut (grid11.coords t) ((dat11 V c).after 9 t) = _
  rw [after11_9]
  unfold out3_9
  rw [View.canon_unit_zero hz3]
  simp only [View.ld_unit_zero (S := S4096x16) hz3, View.ld_unit_zero (S := S16x16) hz3, View.ld_unit_zero (S := S1x16) hz3]
  funext j
  obtain ⟨p, q, rfl⟩ : ∃ (p : Fin 4096) (q : Fin 16), j = ix2 p q := ⟨j 0, j 1, eq_ix2 j⟩
  have ht : t.val < 320 := lt_of_lt_of_eq t.isLt N_11
  have hr : (⟨t.val * 4096 + p.val, by omega⟩ : Fin 1310720).val = t.val * 4096 + p.val := rfl
  rw [View.read_apply, emb11_9 t p q _ hr]
  show k3_pay1 (k3_pay2 (iblk11 V c 0 t) (iblk11 V c 1 t) (iblk11 V c 2 t) (iblk11 V c 3 t) (iblk11 V c 4 t) (iblk11 V c 5 t)
      (iblk11 V c 6 t) (iblk11 V c 7 t)) (k3_pay3 (iblk11 V c 8 t)) (ix2 p q) = _
  rw [pay3_apply (iblk11 V c 0 t) (iblk11 V c 1 t) (iblk11 V c 2 t) (iblk11 V c 3 t) (iblk11 V c 4 t) (iblk11 V c 5 t)
      (iblk11 V c 6 t) (iblk11 V c 7 t) (iblk11 V c 8 t) p q,
    blk11_3_whole, blk11_4_whole, blk11_5_whole, blk11_6_whole, blk11_7_whole, blk11_8_whole]
  exact congrFun (layers3_row _ _ _ _ _ _ _ _ _ _ _ _ p _ (blk11_0_row V c t p _ hr) (blk11_1_row V c t p _ hr)
    (blk11_2_row V c t p _ hr)) q

theorem cover11 (i : S1310720x16.Idx) :
    ∃ t : Fin cfg11.N, (cfg11.win 9).flush t = true ∧ i ∈ ((cfg11.win 9).blk t).view.set := by
  have h0 : (i 0).val < 1310720 := idx2_lt0 i
  have hlt : (i 0).val / 4096 < cfg11.N := lt_of_lt_of_eq (by omega) N_11.symm
  have hp : (i 0).val % 4096 < 4096 := Nat.mod_lt _ (by decide)
  refine ⟨⟨(i 0).val / 4096, hlt⟩, flush11_9 _, ?_⟩
  have he := emb11_9 ⟨(i 0).val / 4096, hlt⟩ ⟨(i 0).val % 4096, hp⟩ (i 1) (i 0)
    (by show (i 0).val = (i 0).val / 4096 * 4096 + (i 0).val % 4096; omega)
  have hm := View.emb_mem_set (v := ((cfg11.win 9).blk ⟨(i 0).val / 4096, hlt⟩).view) (ix2 (⟨(i 0).val % 4096, hp⟩ : Fin 4096) (i 1))
  rw [he] at hm
  exact (congrArg (fun j : S1310720x16.Idx => j ∈ ((cfg11.win 9).blk ⟨(i 0).val / 4096, hlt⟩).view.set) (eq_ix2 i)).mpr hm

theorem final11 (c : Dev nD) : (dat11 (F := Ideal) V c).arrAt 9 cfg11.N =
    unc2 (lin (relu (lin3 (cur2 (V c (Pipeline.arrRef spec11 0) : Vec Ideal S1310720x16 .f32))
      (cur2 (V c (Pipeline.arrRef spec11 1) : Vec Ideal S1310720x16 .f32))
      (cur2 (V c (Pipeline.arrRef spec11 2) : Vec Ideal S1310720x16 .f32))
      (cur2 (V c (Pipeline.arrRef spec11 3) : Vec Ideal S16x16 .f32))
      (cur2 (V c (Pipeline.arrRef spec11 4) : Vec Ideal S16x16 .f32))
      (cur2 (V c (Pipeline.arrRef spec11 5) : Vec Ideal S16x16 .f32))
      (row1 (V c (Pipeline.arrRef spec11 6) : Vec Ideal S1x16 .f32))))
      (cur2 (V c (Pipeline.arrRef spec11 7) : Vec Ideal S16x16 .f32))
      (row1 (V c (Pipeline.arrRef spec11 8) : Vec Ideal S1x16 .f32))) :=
  (dat11 V c).arrAt_eq_of_cover 9 (G11 V c) (fun t _ => flushed11_eq V c t) cover11

end Cert.KernelIdeal.Hand

end
-- ==== Proof.Ki.Chain.lean ====
import proofs.«408468_j77438260346965_2_alg».proof.Proof.Ki.ChainIn
import proofs.«408468_j77438260346965_2_alg».proof.Proof.Ki.ChainSteps
import proofs.«408468_j77438260346965_2_alg».proof.Proof.SpecArgs
import proofs.«408468_j77438260346965_2_alg».proof.Proof.Ki.Val3
import proofs.«408468_j77438260346965_2_alg».proof.Proof.Ki.Val4
import proofs.«408468_j77438260346965_2_alg».proof.Proof.Ki.Val5
import proofs.«408468_j77438260346965_2_alg».proof.Proof.Ki.Val6
import proofs.«408468_j77438260346965_2_alg».proof.Proof.Ki.Val7
import proofs.«408468_j77438260346965_2_alg».proof.Proof.Ki.Val8
import proofs.«408468_j77438260346965_2_alg».proof.Proof.Ki.Val9
import proofs.«408468_j77438260346965_2_alg».proof.Proof.Ki.Val10
import proofs.«408468_j77438260346965_2_alg».proof.Proof.Ki.Val11

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Cert.Spec

variable (m : (ℓ : Loc nD τ sig) → Buf (Elt Ideal) ℓ) (c : Dev nD)

abbrev mpeAt : Wts (16 + 16 + 16) 16 :=
  wtsOf (W0 m c main_arg17) (W0 m c main_arg18) (W0 m c main_arg19) (W0 m c main_arg20)

abbrev mpnAt : Wts (16 + 16) 16 :=
  wtsOf (W0 m c main_arg21) (W0 m c main_arg22) (W0 m c main_arg23) (W0 m c main_arg24)

section Regions
variable (hn : Fin 262144 → Fin 16 → EReal) (he : Fin 1310720 → Fin 16 → EReal)

theorem round1_edge (Hn : W4 m c main_v4 = unc2 hn) (He : W6 m c main_v7 = unc2 he) :
    W11 m c main_v17 = unc2 (edgeStep (opsAt m c) (mpeAt m c) hn he) := by
  rw [W11_out, final3]
  refine congrArg unc2 (edge_step_eq (opsAt m c) (mpeAt m c) hn he _ _ _ _ _ _ _ _ _ ?_ ?_ ?_ ?_ ?_ ?_ ?_ ?_ ?_)
  · show cur2 (W10 m c main_v10) = _
    rw [in_v10, Hn]; rfl
  · show cur2 (W10 m c main_v11) = _
    rw [in_v11, Hn]; rfl
  · show cur2 (W10 m c main_v7) = _
    rw [in3_v7, He]; rfl
  · show cur2 (W10 m c main_v12) = _
    rw [in_v12]; exact cur2_slice48_0 _ _
  · show cur2 (W10 m c main_v13) = _
    rw [in_v13]; exact cur2_slice48_16 _ _
  · show cur2 (W10 m c main_v14) = _
    rw [in_v14]; exact cur2_slice48_32 _ _
  · show row1 (W10 m c main_v15) = _
    rw [in_v15]; exact row1_shapeCast _ _
  · show cur2 (W10 m c main_arg19) = _
    rw [in3_arg19]; rfl
  · show row1 (W10 m c main_v16) = _
    rw [in_v16]; exact row1_shapeCast _ _

theorem round1_node (Hn : W4 m c main_v4 = unc2 hn) (He : W11 m c main_v17 = unc2 he) :
    W13 m c main_v25 = unc2 (nodeStep (opsAt m c) (mpnAt m c) hn he) := by
  rw [W13_out, final4]
  refine congrArg unc2 (node_step_eq (opsAt m c) (mpnAt m c) hn he _ _ _ _ _ _ _ ?_ ?_ ?_ ?_ ?_ ?_ ?_)
  · show cur2 (W12 m c main_v4) = _
    rw [in4_v4, Hn]; rfl
  · show cur2 (W12 m c main_v20) = _
    rw [in_v20, He]; rfl
  · show cur2 (W12 m c main_v21) = _
    rw [in_v21]; exact cur2_slice32_0 _ _
  · show cur2 (W12 m c main_v22) = _
    rw [in_v22]; exact cur2_slice32_16 _ _
  · show row1 (W12 m c main_v23) = _
    rw [in_v23]; exact row1_shapeCast _ _
  · show cur2 (W12 m c main_arg23) = _
    rw [in4_arg23]; rfl
  · show row1 (W12 m c main_v24) = _
    rw [in_v24]; exact row1_shapeCast _ _

theorem round2_edge (Hn : W13 m c main_v25 = unc2 hn) (He : W11 m c main_v17 = unc2 he) :
    W17 m c main_v33 = unc2 (edgeStep (opsAt m c) (mpeAt m c) hn he) := by
  rw [W17_out, final5]
  refine congrArg unc2 (edge_step_eq (opsAt m c) (mpeAt m c) hn he _ _ _ _ _ _ _ _ _ ?_ ?_ ?_ ?_ ?_ ?_ ?_ ?_ ?_)
  · show cur2 (W16 m c main_v26) = _
    rw [in_v26, Hn]; rfl
  · show cur2 (W16 m c main_v27) = _
    rw [in_v27, Hn]; rfl
  · show cur2 (W16 m c main_v17) = _
    rw [in5_v17, He]; rfl
  · show cur2 (W16 m c main_v28) = _
    rw [in_v28]; exact cur2_slice48_0 _ _
  · show cur2 (W16 m c main_v29) = _
    rw [in_v29]; exact cur2_slice48_16 _ _
  · show cur2 (W16 m c main_v30) = _
    rw [in_v30]; exact cur2_slice48_32 _ _
  · show row1 (W16 m c main_v31) = _
    rw [in_v31]; exact row1_shapeCast _ _
  · show cur2 (W16 m c main_arg19) = _
    rw [in5_arg19]; rfl
  · show row1 (W16 m c main_v32) = _
    rw [in_v32]; exact row1_shapeCast _ _

theorem round2_node (Hn : W13 m c main_v25 = unc2 hn) (He : W17 m c main_v33 = unc2 he) :
    W19 m c main_v41 = unc2 (nodeStep (opsAt m c) (mpnAt m c) hn he) := by
  rw [W19_out, final6]
  refine congrArg unc2 (node_step_eq (opsAt m c) (mpnAt m c) hn he _ _ _ _ _ _ _ ?_ ?_ ?_ ?_ ?_ ?_ ?_)
  · show cur2 (W18 m c main_v25) = _
    rw [in6_v25, Hn]; rfl
  · show cur2 (W18 m c main_v36) = _
    rw [in_v36, He]; rfl
  · show cur2 (W18 m c main_v37) = _
    rw [in_v37]; exact cur2_slice32_0 _ _
  · show cur2 (W18 m c main_v38) = _
    rw [in_v38]; exact cur2_slice32_16 _ _
  · show row1 (W18 m c main_v39) = _
    rw [in_v39]; exact row1_shapeCast _ _
  · show cur2 (W18 m c main_arg23) = _
    rw [in6_arg23]; rfl
  · show row1 (W18 m c main_v40) = _
    rw [in_v40]; exact row1_shapeCast _ _

theorem round3_edge (Hn : W19 m c main_v41 = unc2 hn) (He : W17 m c main_v33 = unc2 he) :
    W23 m c main_v49 = unc2 (edgeStep (opsAt m c) (mpeAt m c) hn he) := by
  rw [W23_out, final7]
  refine congrArg unc2 (edge_step_eq (opsAt m c) (mpeAt m c) hn he _ _ _ _ _ _ _ _ _ ?_ ?_ ?_ ?_ ?_ ?_ ?_ ?_ ?_)
  · show cur2 (W22 m c main_v42) = _
    rw [in_v42, Hn]; rfl
  · show cur2 (W22 m c main_v43) = _
    rw [in_v43, Hn]; rfl
  · show cur2 (W22 m c main_v33) = _
    rw [in7_v33, He]; rfl
  · show cur2 (W22 m c main_v44) = _
    rw [in_v44]; exact cur2_slice48_0 _ _
  · show cur2 (W22 m c main_v45) = _
    rw [in_v45]; exact cur2_slice48_16 _ _
  · show cur2 (W22 m c main_v46) = _
    rw [in_v46]; exact cur2_slice48_32 _ _
  · show row1 (W22 m c main_v47) = _
    rw [in_v47]; exact row1_shapeCast _ _
  · show cur2 (W22 m c main_arg19) = _
    rw [in7_arg19]; rfl
  · show row1 (W22 m c main_v48) = _
    rw [in_v48]; exact row1_shapeCast _ _

theorem round3_node (Hn : W19 m c main_v41 = unc2 hn) (He : W23 m c main_v49 = unc2 he) :
    W25 m c main_v57 = unc2 (nodeStep (opsAt m c) (mpnAt m c) hn he) := by
  rw [W25_out, final8]
  refine congrArg unc2 (node_step_eq (opsAt m c) (mpnAt m c) hn he _ _ _ _ _ _ _ ?_ ?_ ?_ ?_ ?_ ?_ ?_)
  · show cur2 (W24 m c main_v41) = _
    rw [in8_v41, Hn]; rfl
  · show cur2 (W24 m c main_v52) = _
    rw [in_v52, He]; rfl
  · show cur2 (W24 m c main_v53) = _
    rw [in_v53]; exact cur2_slice32_0 _ _
  · show cur2 (W24 m c main_v54) = _
    rw [in_v54]; exact cur2_slice32_16 _ _
  · show row1 (W24 m c main_v55) = _
    rw [in_v55]; exact row1_shapeCast _ _
  · show cur2 (W24 m c main_arg23) = _
    rw [in8_arg23]; rfl
  · show row1 (W24 m c main_v56) = _
    rw [in_v56]; exact row1_shapeCast _ _

theorem round4_edge (Hn : W25 m c main_v57 = unc2 hn) (He : W23 m c main_v49 = unc2 he) :
    W29 m c main_v65 = unc2 (edgeStep (opsAt m c) (mpeAt m c) hn he) := by
  rw [W29_out, final9]
  refine congrArg unc2 (edge_step_eq (opsAt m c) (mpeAt m c) hn he _ _ _ _ _ _ _ _ _ ?_ ?_ ?_ ?_ ?_ ?_ ?_ ?_ ?_)
  · show cur2 (W28 m c main_v58) = _
    rw [in_v58, Hn]; rfl
  · show cur2 (W28 m c main_v59) = _
    rw [in_v59, Hn]; rfl
  · show cur2 (W28 m c main_v49) = _
    rw [in9_v49, He]; rfl
  · show cur2 (W28 m c main_v60) = _
    rw [in_v60]; exact cur2_slice48_0 _ _
  · show cur2 (W28 m c main_v61) = _
    rw [in_v61]; exact cur2_slice48_16 _ _
  · show cur2 (W28 m c main_v62) = _
    rw [in_v62]; exact cur2_slice48_32 _ _
  · show row1 (W28 m c main_v63) = _
    rw [in_v63]; exact row1_shapeCast _ _
  · show cur2 (W28 m c main_arg19) = _
    rw [in9_arg19]; rfl
  · show row1 (W28 m c main_v64) = _
    rw [in_v64]; exact row1_shapeCast _ _

theorem round4_node (Hn : W25 m c main_v57 = unc2 hn) (He : W29 m c main_v65 = unc2 he) :
    W31 m c main_v73 = unc2 (nodeStep (opsAt m c) (mpnAt m c) hn he) := by
  rw [W31_out, final10]
  refine congrArg unc2 (node_step_eq (opsAt m c) (mpnAt m c) hn he _ _ _ _ _ _ _ ?_ ?_ ?_ ?_ ?_ ?_ ?_)
  · show cur2 (W30 m c main_v57) = _
    rw [in10_v57, Hn]; rfl
  · show cur2 (W30 m c main_v68) = _
    rw [in_v68, He]; rfl
  · show cur2 (W30 m c main_v69) = _
    rw [in_v69]; exact cur2_slice32_0 _ _
  · show cur2 (W30 m c main_v70) = _
    rw [in_v70]; exact cur2_slice32_16 _ _
  · show row1 (W30 m c main_v71) = _
    rw [in_v71]; exact row1_shapeCast _ _
  · show cur2 (W30 m c main_arg23) = _
    rw [in10_arg23]; rfl
  · show row1 (W30 m c main_v72) = _
    rw [in_v72]; exact row1_shapeCast _ _

theorem round5_edge (Hn : W31 m c main_v73 = unc2 hn) (He : W29 m c main_v65 = unc2 he) :
    W35 m c main_v81 = unc2 (edgeStep (opsAt m c) (mpeAt m c) hn he) := by
  rw [W35_out, final11]
  refine congrArg unc2 (edge_step_eq (opsAt m c) (mpeAt m c) hn he _ _ _ _ _ _ _ _ _ ?_ ?_ ?_ ?_ ?_ ?_ ?_ ?_ ?_)
  · show cur2 (W34 m c main_v74) = _
    rw [in_v74, Hn]; rfl
  · show cur2 (W34 m c main_v75) = _
    rw [in_v75, Hn]; rfl
  · show cur2 (W34 m c main_v65) = _
    rw [in11_v65, He]; rfl
  · show cur2 (W34 m c main_v76) = _
    rw [in_v76]; exact cur2_slice48_0 _ _
  · show cur2 (W34 m c main_v77) = _
    rw [in_v77]; exact cur2_slice48_16 _ _
  · show cur2 (W34 m c main_v78) = _
    rw [in_v78]; exact cur2_slice48_32 _ _
  · show row1 (W34 m c main_v79) = _
    rw [in_v79]; exact row1_shapeCast _ _
  · show cur2 (W34 m c main_arg19) = _
    rw [in11_arg19]; rfl
  · show row1 (W34 m c main_v80) = _
    rw [in_v80]; exact row1_shapeCast _ _

end Regions

theorem five_rounds (hn0 : Fin 262144 → Fin 16 → EReal) (he0 : Fin 1310720 → Fin 16 → EReal)
    (H0n : W4 m c main_v4 = unc2 hn0) (H0e : W6 m c main_v7 = unc2 he0) :
    W35 m c main_v81
      = unc2 (round (opsAt m c) (mpeAt m c) (mpnAt m c) (round (opsAt m c) (mpeAt m c) (mpnAt m c)
          (round (opsAt m c) (mpeAt m c) (mpnAt m c) (round (opsAt m c) (mpeAt m c) (mpnAt m c)
            (round (opsAt m c) (mpeAt m c) (mpnAt m c) (hn0, he0)))))).2 := by
  have e1 := round1_edge m c hn0 he0 H0n H0e
  have n1 := round1_node m c hn0 _ H0n e1
  have e2 := round2_edge m c _ _ n1 e1
  have n2 := round2_node m c _ _ n1 e2
  have e3 := round3_edge m c _ _ n2 e2
  have n3 := round3_node m c _ _ n2 e3
  have e4 := round4_edge m c _ _ n3 e3
  have n4 := round4_node m c _ _ n3 e4
  exact round5_edge m c _ _ n4 e4

theorem kernel_result_of_ends
    (hN : W4 m c main_v4
      = unc2 ((wtsOf (W0 m c main_arg9) (W0 m c main_arg10) (W0 m c main_arg11) (W0 m c main_arg12)).app
          fun r (_ : Fin 1) => col1 (W0 m c main_arg0) r))
    (hE : W6 m c main_v7
      = unc2 ((wtsOf (W0 m c main_arg13) (W0 m c main_arg14) (W0 m c main_arg15) (W0 m c main_arg16)).app
          fun r (_ : Fin 1) => scale (col1 (W0 m c main_arg1)) (absmax (col1 (W0 m c main_arg1))) r))
    (hOut : ∀ he5 : Fin 1310720 → Fin 16 → EReal, W35 m c main_v81 = unc2 he5 → ∀ k : Fin 1310720,
      W40 m c main_v129 (ix1 k)
        = masked (opsAt m c).mask (col1 (W0 m c main_arg1)) (W0 m c main_arg29 ix0) (absmax (col1 (W0 m c main_arg1)))
            (fun k => (wtsOf (W0 m c main_arg25) (W0 m c main_arg26) (W0 m c main_arg27) (W0 m c main_arg28)).app
              ((opsAt m c).pairavg he5) k (0 : Fin 1)) k)
    (k : Fin 1310720) :
    W40 m c main_v129 (ix1 k)
      = resultOf (opsAt m c) (m ((c : Thread nD τ).loc main_arg0)) (m ((c : Thread nD τ).loc main_arg1))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16))
          (m ((c : Thread nD τ).loc main_arg17)) (m ((c : Thread nD τ).loc main_arg18))
          (m ((c : Thread nD τ).loc main_arg19)) (m ((c : Thread nD τ).loc main_arg20))
          (m ((c : Thread nD τ).loc main_arg21)) (m ((c : Thread nD τ).loc main_arg22))
          (m ((c : Thread nD τ).loc main_arg23)) (m ((c : Thread nD τ).loc main_arg24))
          (m ((c : Thread nD τ).loc main_arg25)) (m ((c : Thread nD τ).loc main_arg26))
          (m ((c : Thread nD τ).loc main_arg27)) (m ((c : Thread nD τ).loc main_arg28))
          (m ((c : Thread nD τ).loc main_arg29)) k :=
  hOut _ (five_rounds m c _ _ hN hE) k

end Cert.KernelIdeal.Hand

end
-- ==== Proof.Ki.ChainEnds.lean ====
import proofs.«408468_j77438260346965_2_alg».proof.Proof.Ki.ChainKeep
import proofs.«408468_j77438260346965_2_alg».proof.Proof.Ki.ChainDefs
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

section Stretches

variable (X : Valuation τ sig (Elt Ideal))

theorem ends_v0 :
    StableHlo.after (hostOps0 (F := Ideal)) X main_v0
      = shapeCast S10240x128 (X main_arg1) shapeCasts_S1310720x1_S10240x128 := by
  after_results
  rfl

theorem ends_v2 :
    StableHlo.after (hostOps1 (F := Ideal)) X main_v2 = shapeCast S1x16 (X main_arg10) shapeCasts_S16_S1x16 := by
  after_results
  rfl

theorem ends_v3 :
    StableHlo.after (hostOps1 (F := Ideal)) X main_v3 = shapeCast S1x16 (X main_arg12) shapeCasts_S16_S1x16 := by
  after_results
  rfl

theorem ends_v5 :
    StableHlo.after (hostOps2 (F := Ideal)) X main_v5 = shapeCast S1x16 (X main_arg14) shapeCasts_S16_S1x16 := by
  after_results
  rfl

theorem ends_v6 :
    StableHlo.after (hostOps2 (F := Ideal)) X main_v6 = shapeCast S1x16 (X main_arg16) shapeCasts_S16_S1x16 := by
  after_results
  rfl

theorem ends_v8 :
    StableHlo.after (hostOps3 (F := Ideal)) X main_v8
      = shapeCast S1310720x1 (X main_arg3) shapeCasts_S1310720_S1310720x1 := by
  after_results
  rfl

theorem ends_v9 :
    StableHlo.after (hostOps3 (F := Ideal)) X main_v9
      = shapeCast S1310720x1 (X main_arg2) shapeCasts_S1310720_S1310720x1 := by
  after_results
  rfl

set_option maxHeartbeats 1000000 in

theorem ends_v124 :
    StableHlo.after (hostOps13 (F := Ideal)) X main_v124 = kPairAvg (X main_arg4) (X main_v81) := by
  unfold kPairAvg kSetE kAvgE kRowsE kHalfE kWrapE kPairCol0 kPairCol1
  after_results_simp
  rfl

theorem ends_v125 :
    StableHlo.after (hostOps13 (F := Ideal)) X main_v125 = shapeCast S1x1 (X main_arg29) shapeCasts_S_S1x1 := by
  after_results
  rfl

theorem ends_v126 :
    StableHlo.after (hostOps13 (F := Ideal)) X main_v126 = shapeCast S1x16 (X main_arg26) shapeCasts_S16_S1x16 := by
  after_results
  rfl

theorem ends_v127 :
    StableHlo.after (hostOps13 (F := Ideal)) X main_v127 = shapeCast S1x1 (X main_arg28) shapeCasts_S1_S1x1 := by
  after_results
  rfl

theorem ends_v129 :
    StableHlo.after (hostOps14 (F := Ideal)) X main_v129
      = shapeCast S1310720 (X main_v128) shapeCasts_S1310720x1_S1310720 := by
  after_results
  rfl

end Stretches

section Entries

variable (m : (ℓ : Loc nD τ sig) → Buf (Elt Ideal) ℓ)

theorem entry0_0 (c : Dev nD) :
    W1 m c (Pipeline.arrRef spec0 0)
      = shapeCast S10240x128 (m ((c : Thread nD τ).loc main_arg1)) shapeCasts_S1310720x1_S10240x128 := by
  show W1 m c main_v0 = _
  exact ends_v0 (W0 m c)

theorem entry1_0 (c : Dev nD) : W3 m c (Pipeline.arrRef spec1 0) = m ((c : Thread nD τ).loc main_arg0) := by
  show W3 m c main_arg0 = _
  w_back
  all_goals rfl

theorem entry1_1 (c : Dev nD) : W3 m c (Pipeline.arrRef spec1 1) = m ((c : Thread nD τ).loc main_arg9) := by
  show W3 m c main_arg9 = _
  w_back
  all_goals rfl

theorem entry1_2 (c : Dev nD) :
    W3 m c (Pipeline.arrRef spec1 2) = shapeCast S1x16 (m ((c : Thread nD τ).loc main_arg10)) shapeCasts_S16_S1x16 := by
  show W3 m c main_v2 = _
  refine (ends_v2 (W2 m c)).trans ?_
  w_back
  all_goals rfl

theorem entry1_3 (c : Dev nD) : W3 m c (Pipeline.arrRef spec1 3) = m ((c : Thread nD τ).loc main_arg11) := by
  show W3 m c main_arg11 = _
  w_back
  all_goals rfl

theorem entry1_4 (c : Dev nD) :
    W3 m c (Pipeline.arrRef spec1 4) = shapeCast S1x16 (m ((c : Thread nD τ).loc main_arg12)) shapeCasts_S16_S1x16 := by
  show W3 m c main_v3 = _
  refine (ends_v3 (W2 m c)).trans ?_
  w_back
  all_goals rfl

theorem entry2_0 (c : Dev nD) : W5 m c (Pipeline.arrRef spec2 0) = m ((c : Thread nD τ).loc main_arg1) := by
  show W5 m c main_arg1 = _
  w_back
  all_goals rfl

theorem entry2_1 (c : Dev nD) : W5 m c (Pipeline.arrRef spec2 1) = W2 m c main_v1 := by
  show W5 m c main_v1 = _
  w_back
  all_goals rfl

theorem entry2_2 (c : Dev nD) : W5 m c (Pipeline.arrRef spec2 2) = m ((c : Thread nD τ).loc main_arg13) := by
  show W5 m c main_arg13 = _
  w_back
  all_goals rfl

theorem entry2_3 (c : Dev nD) :
    W5 m c (Pipeline.arrRef spec2 3) = shapeCast S1x16 (m ((c : Thread nD τ).loc main_arg14)) shapeCasts_S16_S1x16 := by
  show W5 m c main_v5 = _
  refine (ends_v5 (W4 m c)).trans ?_
  w_back
  all_goals rfl

theorem entry2_4 (c : Dev nD) : W5 m c (Pipeline.arrRef spec2 4) = m ((c : Thread nD τ).loc main_arg15) := by
  show W5 m c main_arg15 = _
  w_back
  all_goals rfl

theorem entry2_5 (c : Dev nD) :
    W5 m c (Pipeline.arrRef spec2 5) = shapeCast S1x16 (m ((c : Thread nD τ).loc main_arg16)) shapeCasts_S16_S1x16 := by
  show W5 m c main_v6 = _
  refine (ends_v6 (W4 m c)).trans ?_
  w_back
  all_goals rfl

theorem entry13_0 (c : Dev nD) :
    W38 m c (Pipeline.arrRef spec13 0) = kPairAvg (m ((c : Thread nD τ).loc main_arg4)) (W35 m c main_v81) := by
  show W38 m c main_v124 = _
  refine (ends_v124 (W37 m c)).trans ?_
  w_back
  all_goals rfl

theorem entry13_1 (c : Dev nD) : W38 m c (Pipeline.arrRef spec13 1) = m ((c : Thread nD τ).loc main_arg1) := by
  show W38 m c main_arg1 = _
  w_back
  all_goals rfl

theorem entry13_2 (c : Dev nD) :
    W38 m c (Pipeline.arrRef spec13 2)
      = shapeCast S1310720x1 (m ((c : Thread nD τ).loc main_arg3)) shapeCasts_S1310720_S1310720x1 := by
  show W38 m c main_v8 = _
  w_back
  refine (ends_v8 (W6 m c)).trans ?_
  w_back
  all_goals rfl

theorem entry13_3 (c : Dev nD) :
    W38 m c (Pipeline.arrRef spec13 3)
      = shapeCast S1310720x1 (m ((c : Thread nD τ).loc main_arg2)) shapeCasts_S1310720_S1310720x1 := by
  show W38 m c main_v9 = _
  w_back
  refine (ends_v9 (W6 m c)).trans ?_
  w_back
  all_goals rfl

theorem entry13_4 (c : Dev nD) : W38 m c (Pipeline.arrRef spec13 4) = W2 m c main_v1 := by
  show W38 m c main_v1 = _
  w_back
  all_goals rfl

theorem entry13_5 (c : Dev nD) :
    W38 m c (Pipeline.arrRef spec13 5) = shapeCast S1x1 (m ((c : Thread nD τ).loc main_arg29)) shapeCasts_S_S1x1 := by
  show W38 m c main_v125 = _
  refine (ends_v125 (W37 m c)).trans ?_
  w_back
  all_goals rfl

theorem entry13_6 (c : Dev nD) : W38 m c (Pipeline.arrRef spec13 6) = m ((c : Thread nD τ).loc main_arg25) := by
  show W38 m c main_arg25 = _
  w_back
  all_goals rfl

theorem entry13_7 (c : Dev nD) :
    W38 m c (Pipeline.arrRef spec13 7) = shapeCast S1x16 (m ((c : Thread nD τ).loc main_arg26)) shapeCasts_S16_S1x16 := by
  show W38 m c main_v126 = _
  refine (ends_v126 (W37 m c)).trans ?_
  w_back
  all_goals rfl

theorem entry13_8 (c : Dev nD) : W38 m c (Pipeline.arrRef spec13 8) = m ((c : Thread nD τ).loc main_arg27) := by
  show W38 m c main_arg27 = _
  w_back
  all_goals rfl

theorem entry13_9 (c : Dev nD) :
    W38 m c (Pipeline.arrRef spec13 9) = shapeCast S1x1 (m ((c : Thread nD τ).loc main_arg28)) shapeCasts_S1_S1x1 := by
  show W38 m c main_v127 = _
  refine (ends_v127 (W37 m c)).trans ?_
  w_back
  all_goals rfl

theorem result_v129 (c : Dev nD) :
    W40 m c main_v129 = shapeCast S1310720 (W39 m c main_v128) shapeCasts_S1310720x1_S1310720 :=
  ends_v129 (W39 m c)

end Entries

end Cert.KernelIdeal.Hand

end
-- ==== Proof.Ki.Val0.lean ====
import proofs.«408468_j77438260346965_2_alg».proof.Proof.Ki.R0
import proofs.«408468_j77438260346965_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec

section AnyF
variable {F : FTy → Type} [FloatOps F]

theorem zero0_2 : (![0, 0] : Fin 2 → Nat) = fun _ => 0 :=
  funext fun a => match a with | ⟨0, _⟩ => rfl | ⟨1, _⟩ => rfl

theorem out0_A_eq (x0 : Vec F S32x128 .f32) : out0_A x0 = k0_pay1 x0 := by
  unfold out0_A
  rw [View.canon_unit_zero zero0_2, View.ld_unit_zero zero0_2]

theorem out0_B_eq (x0 : Vec F S32x128 .f32) (xo : Vec F S1x1 .f32) : out0_B x0 xo = k0_pay2 x0 xo := by
  unfold out0_B
  rw [View.canon_unit_zero zero0_2, View.ld_unit_zero zero0_2, View.ld_unit_zero zero0_2]

end AnyF

theorem fold_max_bot0 {ι : Type} [DecidableEq ι] (s : Finset ι) (f : ι → EReal) : s.fold max ⊥ f = s.sup f := by
  induction s using Finset.induction_on with
  | empty => simp
  | insert a s ha ih => rw [Finset.fold_insert ha, ih, Finset.sup_insert]

theorem neg_inf0_f32 : FloatOps.ofBits (F := Ideal) .f32 0xFF800000#32 = (⊥ : EReal) := by
  simp [Ideal.ofBits, Ideal.ieee]

theorem maxred0_apply {s t : Shape} {a : Fin s.rank} (src : FVec Ideal s .f32) (acc : BitVec (FTy.bits .f32))
    (h : s.Reduces [a] t) (hφ : FKind.Formats .f32) (hacc : acc = FKind.maximumf.neutral .f32 hφ)
    (hbot : FloatOps.ofBits (F := Ideal) .f32 acc = (⊥ : EReal)) (j : t.Idx) :
    multiReduction .maximumf [a] t src acc h hφ hacc j = Finset.univ.sup fun k : Fin (s.size a) => src (h.lift j k) := by
  refine (Ideal.multiReduction_maximumf_single src acc h hφ hacc j).trans ?_
  (rw [hbot, fold_max_bot0]) <;> rfl

def tileSup0 (x : Vec Ideal S32x128 .f32) : EReal :=
  Finset.univ.sup fun p : Fin 32 => Finset.univ.sup fun q : Fin 128 => max (x (ix2 p q)) (-(x (ix2 p q)))

theorem pay0_1_apply (x : Vec Ideal S32x128 .f32) (j : S1x1.Idx) : k0_pay1 x j = tileSup0 x := by
  unfold k0_pay1 tileSup0
  try dsimp only
  refine (shapeCast_apply _ shapeCasts_S1_S1x1 j (ix1 (0 : Fin 1)) (by
    rw [Shape.rowMajor_val_one, Shape.rowMajor_val_two]
    have h0 : (j 0).val < 1 := (j 0).isLt
    have h1 : (j 1).val < 1 := (j 1).isLt
    show 0 = (j 0).val * 1 + (j 1).val
    omega)).trans ?_
  refine (maxred0_apply _ _ reduces_S32x1_S1 _ _ neg_inf0_f32 (ix1 (0 : Fin 1))).trans ?_
  refine Finset.sup_congr rfl fun p _ => ?_
  refine (shapeCast_apply _ shapeCasts_S32_S32x1 (reduces_S32x1_S1.lift (ix1 (0 : Fin 1)) p) (ix1 (p : Fin 32)) (by
    rw [Shape.rowMajor_val_one, Shape.rowMajor_val_two]
    show p.val = p.val * 1 + 0
    omega)).trans ?_
  refine (maxred0_apply _ _ reduces_S32x128_S32 _ _ neg_inf0_f32 (ix1 (p : Fin 32))).trans ?_
  refine Finset.sup_congr rfl fun q _ => ?_
  have hl : reduces_S32x128_S32.lift (ix1 (p : Fin 32)) q = ix2 (p : Fin 32) (q : Fin 128) :=
    funext fun a => match a with | ⟨0, _⟩ => rfl | ⟨1, _⟩ => rfl
  beta_reduce
  rw [shapeCast_self, hl]
  rfl

theorem pay0_2_apply (x : Vec Ideal S32x128 .f32) (xo : Vec Ideal S1x1 .f32) (j : S1x1.Idx) :
    k0_pay2 x xo j = max (xo j) (tileSup0 x) := by
  unfold k0_pay2
  try dsimp only
  rw [shapeCast_self]
  show max (xo j) (k0_pay1 x j) = _
  rw [pay0_1_apply]

section AtIdeal
variable (V : (c : Dev nD) → (b : Ref sig .tc) → Buf (Elt Ideal) ((c : Thread nD τ).loc b))

theorem tile0_elem_le (x : Vec Ideal S32x128 .f32) (p : Fin 32) (q : Fin 128) :
    max (x (ix2 p q)) (-(x (ix2 p q))) ≤ tileSup0 x :=
  le_trans (Finset.le_sup (f := fun q : Fin 128 => max (x (ix2 p q)) (-(x (ix2 p q)))) (Finset.mem_univ q))
    (Finset.le_sup (f := fun p : Fin 32 => Finset.univ.sup fun q : Fin 128 => max (x (ix2 p q)) (-(x (ix2 p q)))) (Finset.mem_univ p))

theorem tileSup0_le (x : Vec Ideal S32x128 .f32) (b : EReal) (h : ∀ p q, max (x (ix2 p q)) (-(x (ix2 p q))) ≤ b) :
    tileSup0 x ≤ b :=
  Finset.sup_le fun p _ => Finset.sup_le fun q _ => h p q

def tile0 (c : Dev nD) (t : Fin cfg0.N) : Vec Ideal S32x128 .f32 := iblk0 V c 0 t

def tileMax0 (c : Dev nD) (t : Fin cfg0.N) : EReal := tileSup0 (tile0 V c t)

theorem outsAt0_eq (c : Dev nD) : ∀ (n : ℕ) (h : n < cfg0.N),
    outsAt0 V c n h = fun _ => (Finset.univ.filter fun s : Fin cfg0.N => s.val ≤ n).sup (tileMax0 V c)
  | 0, h => by
    funext j
    show out0_A (tile0 V c ⟨0, h⟩) j = _
    rw [out0_A_eq, pay0_1_apply]
    rw [show (Finset.univ.filter fun s : Fin cfg0.N => s.val ≤ 0) = {⟨0, h⟩} from by
      ext s; simp only [Finset.mem_filter, Finset.mem_univ, true_and, Finset.mem_singleton, Fin.ext_iff]; omega]
    rw [Finset.sup_singleton]; rfl
  | n + 1, h => by
    funext j
    show out0_B (tile0 V c ⟨n + 1, h⟩) (outsAt0 V c n (Nat.lt_of_succ_lt h)) j = _
    rw [out0_B_eq, pay0_2_apply, outsAt0_eq c n (Nat.lt_of_succ_lt h)]
    rw [show (Finset.univ.filter fun s : Fin cfg0.N => s.val ≤ n + 1)
        = insert ⟨n + 1, h⟩ (Finset.univ.filter fun s : Fin cfg0.N => s.val ≤ n) from by
      ext s; simp only [Finset.mem_filter, Finset.mem_univ, true_and, Finset.mem_insert, Fin.ext_iff]; omega]
    rw [Finset.sup_insert]
    exact max_comm _ _

theorem index0_0 : ∀ t : Fin cfg0.N, win0_0.index t 0 = t.val ∧ win0_0.index t 1 = 0 :=
  (by decide +kernel : ∀ t : Fin grid0.N, win0_0.index t 0 = t.val ∧ win0_0.index t 1 = 0)

def arr0 (c : Dev nD) : Fin 10240 → Fin 128 → EReal := fun P q => V c (Pipeline.arrRef spec0 0) (ix2 P q)

theorem tile0_apply (c : Dev nD) (t : Fin cfg0.N) (p : Fin 32) (q : Fin 128) (hp : 32 * t.val + p.val < 10240) :
    tile0 V c t (ix2 p q) = arr0 V c ⟨32 * t.val + p.val, hp⟩ q := by
  unfold tile0 arr0 iblk0
  rw [View.read_apply]
  show V c main_v0 _ = V c main_v0 _
  congr 1
  funext a
  apply Fin.ext
  match a with
  | ⟨0, _⟩ =>
    show win0_0.index t 0 * 32 + 1 * p.val = 32 * t.val + p.val
    rw [(index0_0 t).1]; omega
  | ⟨1, _⟩ =>
    show win0_0.index t 1 * 128 + 1 * q.val = q.val
    rw [(index0_0 t).2]; omega

def absAt0 (c : Dev nD) (P : Fin 10240) (q : Fin 128) : EReal := max (arr0 V c P q) (-(arr0 V c P q))

def allSup0 (c : Dev nD) : EReal := Finset.univ.sup fun P : Fin 10240 => Finset.univ.sup fun q : Fin 128 => absAt0 V c P q

theorem absAt0_le_allSup0 (c : Dev nD) (P : Fin 10240) (q : Fin 128) : absAt0 V c P q ≤ allSup0 V c :=
  le_trans (Finset.le_sup (f := fun q : Fin 128 => absAt0 V c P q) (Finset.mem_univ q))
    (Finset.le_sup (f := fun P : Fin 10240 => Finset.univ.sup fun q : Fin 128 => absAt0 V c P q) (Finset.mem_univ P))

theorem tile0_abs (c : Dev nD) (t : Fin cfg0.N) (p : Fin 32) (q : Fin 128) (hp : 32 * t.val + p.val < 10240) :
    max (tile0 V c t (ix2 p q)) (-(tile0 V c t (ix2 p q))) = absAt0 V c ⟨32 * t.val + p.val, hp⟩ q := by
  unfold absAt0; rw [tile0_apply V c t p q hp]

theorem sup_tiles0 (c : Dev nD) : Finset.univ.sup (tileMax0 V c) = allSup0 V c := by
  have hN : cfg0.N = 320 := N_0
  apply le_antisymm
  · refine Finset.sup_le fun t _ => tileSup0_le _ _ fun p q => ?_
    have ht : t.val < 320 := lt_of_lt_of_eq t.isLt hN
    have hp : 32 * t.val + p.val < 10240 := by have := p.isLt; omega
    rw [tile0_abs V c t p q hp]
    exact absAt0_le_allSup0 V c _ q
  · refine Finset.sup_le fun P _ => Finset.sup_le fun q _ => ?_
    have hP : P.val < 10240 := P.isLt
    have ht : P.val / 32 < cfg0.N := by rw [hN]; omega
    obtain ⟨t, p, hp, rfl⟩ : ∃ (t : Fin cfg0.N) (p : Fin 32) (hp : 32 * t.val + p.val < 10240), P = ⟨32 * t.val + p.val, hp⟩ :=
      ⟨⟨P.val / 32, ht⟩, ⟨P.val % 32, Nat.mod_lt _ (by decide)⟩, (by show 32 * (P.val / 32) + P.val % 32 < 10240; omega),
        Fin.ext (by show P.val = 32 * (P.val / 32) + P.val % 32; omega)⟩
    show absAt0 V c ⟨32 * t.val + p.val, hp⟩ q ≤ _
    rw [← tile0_abs V c t p q hp]
    exact le_trans (tile0_elem_le _ p q) (Finset.le_sup (f := tileMax0 V c) (Finset.mem_univ t))

theorem flushed0_eq (c : Dev nD) (t : Fin cfg0.N) (hf : (cfg0.win 1).flush t = true) :
    (dat0 V c).flushed 1 t = ((cfg0.win 1).blk t).view.read (Elt Ideal) (fun _ => allSup0 V c) := by
  have hN : cfg0.N = 320 := N_0
  show (cfg0.win 1).cut (grid0.coords t) ((dat0 V c).after 1 t) = _
  rw [after0_1, outsAt0_eq]
  funext y
  rw [View.read_apply]
  show (Finset.univ.filter fun s : Fin cfg0.N => s.val ≤ t.val).sup (tileMax0 V c) = allSup0 V c
  have h319 : t.val = 319 := by have := (flush0_1 t).mp hf; have := t.isLt; omega
  rw [Finset.filter_true_of_mem fun s _ => by have := s.isLt; omega]
  exact sup_tiles0 V c

theorem cover0_out (c : Dev nD) (i : ((cfg0.win 1).arr.view.loc (c.tc : Thread nD τ)).2.ty.Idx) :
    ∃ t : Fin cfg0.N, (cfg0.win 1).flush t = true ∧ i ∈ ((cfg0.win 1).blk t).view.set := by
  have hlast : 319 < cfg0.N := by rw [show cfg0.N = 320 from N_0]; decide
  refine ⟨⟨319, hlast⟩, (flush0_1 _).mpr rfl, ?_⟩
  show i ∈ ((View.whole main_v1).slice (win0_1.rect ⟨319, hlast⟩)).set
  rw [View.set_slice_whole, Rect.mem_set_unit]
  have h0 : (i 0 : ℕ) < 1 := (i 0).isLt
  have h1 : (i 1 : ℕ) < 1 := (i 1).isLt
  intro a
  match a with
  | ⟨0, _⟩ =>
    show 0 * 1 ≤ (i 0 : ℕ) ∧ (i 0 : ℕ) < 0 * 1 + 1
    omega
  | ⟨1, _⟩ =>
    show 0 * 1 ≤ (i 1 : ℕ) ∧ (i 1 : ℕ) < 0 * 1 + 1
    omega

theorem final0 (c : Dev nD) :
    (dat0 (F := Ideal) V c).arrAt 1 cfg0.N
      = fun _ => Finset.univ.sup (fun p : Fin 10240 => Finset.univ.sup fun q : Fin 128 =>
          max (cur2 (α := EReal) (V c (Pipeline.arrRef spec0 0)) p q) (-(cur2 (α := EReal) (V c (Pipeline.arrRef spec0 0)) p q))) :=
  (dat0 V c).arrAt_eq_of_cover 1 (fun _ => allSup0 V c) (flushed0_eq V c) (cover0_out c)

theorem final0_absmax (c : Dev nD) :
    (dat0 (F := Ideal) V c).arrAt 1 cfg0.N
      = fun _ => Finset.univ.sup fun p : Fin 10240 => absmax (cur2 (V c (Pipeline.arrRef spec0 0)) p) :=
  final0 V c

end AtIdeal

end Cert.KernelIdeal.Hand
end
-- ==== Proof.Ki.Val1.lean ====
import proofs.«408468_j77438260346965_2_alg».proof.Proof.Ki.R1
import proofs.«408468_j77438260346965_2_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

theorem zero_off1 : (![0, 0] : Fin 2 → Nat) = fun _ => 0 := funext fun a => by fin_cases a <;> rfl

abbrev dot1_a := dot_S4096x1_S1x16_S4096x16_1_0_0_1_n_n
abbrev dot1_b := dot_S4096x16_S16x16_S4096x16_1_0_0_1_n_n

theorem dot1_a_sum (L : S4096x1.Idx → EReal) (R : S1x16.Idx → EReal) (p : Fin 4096) (q : Fin 16) :
    ∑ k : dot1_a.contr.Idx, L (dot1_a.lhsIdx (ix2 p q) k) * R (dot1_a.rhsIdx (ix2 p q) k) = ∑ k : Fin 1, L (ix2 p k) * R (ix2 k q) := by
  rw [← Equiv.sum_comp (contrEquiv1 dot1_a 1 rfl rfl).symm]
  refine Finset.sum_congr rfl fun k _ => ?_
  have hl : dot1_a.lhsIdx (ix2 p q) ((contrEquiv1 dot1_a 1 rfl rfl).symm k) = ix2 p k := by
    funext a; match a with
    | ⟨0, _⟩ => rfl
    | ⟨1, _⟩ => exact Fin.ext (contrEquiv1_symm_val dot1_a 1 rfl rfl k)
  have hr : dot1_a.rhsIdx (ix2 p q) ((contrEquiv1 dot1_a 1 rfl rfl).symm k) = ix2 k q := by
    funext a; match a with
    | ⟨0, _⟩ => exact Fin.ext (contrEquiv1_symm_val dot1_a 1 rfl rfl k)
    | ⟨1, _⟩ => rfl
  rw [hl, hr]

theorem dot1_b_sum (L : S4096x16.Idx → EReal) (R : S16x16.Idx → EReal) (p : Fin 4096) (q : Fin 16) :
    ∑ k : dot1_b.contr.Idx, L (dot1_b.lhsIdx (ix2 p q) k) * R (dot1_b.rhsIdx (ix2 p q) k) = ∑ k : Fin 16, L (ix2 p k) * R (ix2 k q) := by
  rw [← Equiv.sum_comp (contrEquiv1 dot1_b 16 rfl rfl).symm]
  refine Finset.sum_congr rfl fun k _ => ?_
  have hl : dot1_b.lhsIdx (ix2 p q) ((contrEquiv1 dot1_b 16 rfl rfl).symm k) = ix2 p k := by
    funext a; match a with
    | ⟨0, _⟩ => rfl
    | ⟨1, _⟩ => exact Fin.ext (contrEquiv1_symm_val dot1_b 16 rfl rfl k)
  have hr : dot1_b.rhsIdx (ix2 p q) ((contrEquiv1 dot1_b 16 rfl rfl).symm k) = ix2 k q := by
    funext a; match a with
    | ⟨0, _⟩ => exact Fin.ext (contrEquiv1_symm_val dot1_b 16 rfl rfl k)
    | ⟨1, _⟩ => rfl
  rw [hl, hr]

theorem pay1_apply (x0 : Vec Ideal S4096x1 .f32) (x1 : Vec Ideal S1x16 .f32) (x2 : Vec Ideal S1x16 .f32) (x3 : Vec Ideal S16x16 .f32)
    (x4 : Vec Ideal S1x16 .f32) (p : Fin 4096) (q : Fin 16) :
    k1_pay1 (F := Ideal) x0 x1 x2 x3 x4 (ix2 p q)
      = (∑ h : Fin 16, max ((∑ k : Fin 1, x0 (ix2 p k) * x1 (ix2 k h)) + x2 (ix2 (0 : Fin 1) h)) 0 * x3 (ix2 h q)) + x4 (ix2 (0 : Fin 1) q) := by
  unfold k1_pay1
  simp only [matmul, shapeCast_self]
  rw [addf_apply, Ideal.matmul_constant_zero_apply, broadcastTo_1b_ab_apply, dot1_b_sum]
  refine congrArg (· + x4 (ix2 (0 : Fin 1) q)) (Finset.sum_congr rfl fun h _ => ?_)
  rw [truncf_apply, truncf_apply, maximumf_apply, addf_apply, Ideal.matmul_constant_zero_apply, broadcastTo_1b_ab_apply, broadcast_apply, dot1_a_sum]
  simp only [truncf_apply]
  show max _ (Ideal.ofBits .f32 0x00000000#32) * _ = _
  rw [Ideal.ofBits_zero_f32]

theorem idx_facts1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 63 ∧ win1_5.index t (1 : Fin 2) = 0 :=
  (by decide +kernel : ∀ t : Fin grid1.N, _)

theorem idx_onto1 : ∀ q0 : Fin 64, ∃ t : Fin cfg1.N, win1_5.index t = ![q0.val, 0] :=
  (by decide +kernel : ∀ q0 : Fin 64, ∃ t : Fin grid1.N, win1_5.index t = ![q0.val, 0])

theorem emb1_0 (t : Fin cfg1.N) (p : Fin 4096) (k : Fin 1) :
    ((cfg1.win 0).blk t).view.emb (ix2 p k)
      = ix2 (⟨win1_5.index t (0 : Fin 2) * 4096 + p.val, by have := (idx_facts1 t).2.2.2.2.2.2.2.2.2.2.1; omega⟩ : Fin 262144) k := by
  obtain ⟨e0, e1, -⟩ := idx_facts1 t
  funext a; apply Fin.ext
  match a with
  | ⟨0, _⟩ => show win1_0.index t (0 : Fin 2) * 4096 + 1 * p.val = win1_5.index t (0 : Fin 2) * 4096 + p.val; omega
  | ⟨1, _⟩ => show win1_0.index t (1 : Fin 2) * 1 + 1 * k.val = k.val; omega

theorem emb1_1 (t : Fin cfg1.N) (y : S1x16.Idx) : ((cfg1.win 1).blk t).view.emb y = y := by
  obtain ⟨-, -, e0, e1, -⟩ := idx_facts1 t
  exact funext fun a => Fin.ext (win1_1.rect_emb_val_of_index_zero t a (by match a with | ⟨0, _⟩ => exact e0 | ⟨1, _⟩ => exact e1) y)
theorem emb1_2 (t : Fin cfg1.N) (y : S1x16.Idx) : ((cfg1.win 2).blk t).view.emb y = y := by
  obtain ⟨-, -, -, -, e0, e1, -⟩ := idx_facts1 t
  exact funext fun a => Fin.ext (win1_2.rect_emb_val_of_index_zero t a (by match a with | ⟨0, _⟩ => exact e0 | ⟨1, _⟩ => exact e1) y)
theorem emb1_3 (t : Fin cfg1.N) (y : S16x16.Idx) : ((cfg1.win 3).blk t).view.emb y = y := by
  obtain ⟨-, -, -, -, -, -, e0, e1, -⟩ := idx_facts1 t
  exact funext fun a => Fin.ext (win1_3.rect_emb_val_of_index_zero t a (by match a with | ⟨0, _⟩ => exact e0 | ⟨1, _⟩ => exact e1) y)
theorem emb1_4 (t : Fin cfg1.N) (y : S1x16.Idx) : ((cfg1.win 4).blk t).view.emb y = y := by
  obtain ⟨-, -, -, -, -, -, -, -, e0, e1, -⟩ := idx_facts1 t
  exact funext fun a => Fin.ext (win1_4.rect_emb_val_of_index_zero t a (by match a with | ⟨0, _⟩ => exact e0 | ⟨1, _⟩ => exact e1) y)

theorem emb1_5 (t : Fin cfg1.N) (p : Fin 4096) (q : Fin 16) :
    ((cfg1.win 5).blk t).view.emb (ix2 p q)
      = ix2 (⟨win1_5.index t (0 : Fin 2) * 4096 + p.val, by have := (idx_facts1 t).2.2.2.2.2.2.2.2.2.2.1; omega⟩ : Fin 262144) q := by
  obtain ⟨-, -, -, -, -, -, -, -, -, -, e0, e1⟩ := idx_facts1 t
  funext a; apply Fin.ext
  match a with
  | ⟨0, _⟩ => show win1_5.index t (0 : Fin 2) * 4096 + 1 * p.val = win1_5.index t (0 : Fin 2) * 4096 + p.val; omega
  | ⟨1, _⟩ => show win1_5.index t (1 : Fin 2) * 16 + 1 * q.val = q.val; omega

theorem mem_blk1 (t : Fin cfg1.N) (i : S262144x16.Idx) :
    i ∈ ((cfg1.win 5).blk t).view.set ↔ ∀ a : Fin 2, win1_5.index t a * S4096x16.size a ≤ (i a).val ∧ (i a).val < win1_5.index t a * S4096x16.size a + S4096x16.size a := by
  show i ∈ ((View.whole main_v4).slice (win1_5.rect t)).set ↔ _
  rw [View.set_slice_whole, Rect.mem_set_unit]
  exact Iff.rfl

theorem covered1 (i : S262144x16.Idx) : ∃ t : Fin cfg1.N, (cfg1.win 5).flush t = true ∧ i ∈ ((cfg1.win 5).blk t).view.set := by
  have hi0 : (i 0).val < 262144 := (i 0).isLt
  have hi1 : (i 1).val < 16 := (i 1).isLt
  obtain ⟨t, ht⟩ := idx_onto1 ⟨(i 0).val / 4096, by omega⟩
  have q0 : win1_5.index t (0 : Fin 2) = (i 0).val / 4096 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 16 ≤ (i 1).val ∧ (i 1).val < win1_5.index t (1 : Fin 2) * 16 + 16; omega

theorem tile1_eq (X0 : S262144x1.Idx → EReal) (X1 : S1x16.Idx → EReal) (X2 : S1x16.Idx → EReal) (X3 : S16x16.Idx → EReal)
    (X4 : S1x16.Idx → EReal) (t : Fin cfg1.N) (p : Fin 4096) (q : Fin 16) :
    k1_pay1 (F := Ideal) (((cfg1.win 0).blk t).view.read (Elt Ideal) X0) (((cfg1.win 1).blk t).view.read (Elt Ideal) X1)
        (((cfg1.win 2).blk t).view.read (Elt Ideal) X2) (((cfg1.win 3).blk t).view.read (Elt Ideal) X3)
        (((cfg1.win 4).blk t).view.read (Elt Ideal) X4) (ix2 p q)
      = ((cfg1.win 5).blk t).view.read (Elt Ideal) (unc2 (mlp (cur2 X0) (cur2 X1) (row1 X2) (cur2 X3) (row1 X4))) (ix2 p q) := by
  refine (pay1_apply _ _ _ _ _ p q).trans ?_
  obtain ⟨r, hr0, hr5⟩ : ∃ r : Fin 262144, (∀ k : Fin 1, ((cfg1.win 0).blk t).view.emb (ix2 p k) = ix2 r k)
      ∧ ((cfg1.win 5).blk t).view.emb (ix2 p q) = ix2 r q := ⟨_, emb1_0 t p, emb1_5 t p q⟩
  show (∑ h : Fin 16, max ((∑ k : Fin 1, X0 (((cfg1.win 0).blk t).view.emb (ix2 p k)) * X1 (((cfg1.win 1).blk t).view.emb (ix2 k h)))
          + X2 (((cfg1.win 2).blk t).view.emb (ix2 (0 : Fin 1) h))) 0 * X3 (((cfg1.win 3).blk t).view.emb (ix2 h q)))
        + X4 (((cfg1.win 4).blk t).view.emb (ix2 (0 : Fin 1) q))
      = unc2 (mlp (cur2 X0) (cur2 X1) (row1 X2) (cur2 X3) (row1 X4)) (((cfg1.win 5).blk t).view.emb (ix2 p q))
  rw [hr5]
  show _ = (∑ h : Fin 16, max ((∑ k : Fin 1, X0 (ix2 r k) * X1 (ix2 k h)) + X2 (ix2 (0 : Fin 1) h)) 0 * X3 (ix2 h q)) + X4 (ix2 (0 : Fin 1) q)
  rw [emb1_4]
  refine congrArg (· + X4 (ix2 (0 : Fin 1) q)) (Finset.sum_congr rfl fun h _ => ?_)
  rw [emb1_2, emb1_3]
  refine congrArg (fun s => max (s + X2 (ix2 (0 : Fin 1) h)) 0 * X3 (ix2 h q)) (Finset.sum_congr rfl fun k _ => ?_)
  rw [hr0, emb1_1]

variable (V : (c : Dev nD) → (b : Ref sig .tc) → Buf (Elt Ideal) ((c : Thread nD τ).loc b))

theorem flushed1_eq (c : Dev nD) (t : Fin cfg1.N) :
    (dat1 (F := Ideal) V c).flushed 5 t
      = ((cfg1.win 5).blk t).view.read (Elt Ideal)
          (unc2 (mlp (cur2 (V c (Pipeline.arrRef spec1 0))) (cur2 (V c (Pipeline.arrRef spec1 1))) (row1 (V c (Pipeline.arrRef spec1 2)))
            (cur2 (V c (Pipeline.arrRef spec1 3))) (row1 (V c (Pipeline.arrRef spec1 4))))) := by
  show (cfg1.win 5).cut (grid1.coords t) ((dat1 V c).after 5 t) = _
  rw [after1_5]
  unfold out1_5
  rw [View.canon_unit_zero zero_off1]
  simp only [View.ld_unit_zero (S := S4096x1) zero_off1, View.ld_unit_zero (S := S1x16) zero_off1, View.ld_unit_zero (S := S16x16) zero_off1]
  unfold iblk1
  funext j
  obtain ⟨p, q, rfl⟩ : ∃ (p : Fin 4096) (q : Fin 16), j = ix2 p q := ⟨j 0, j 1, eq_ix2 j⟩
  exact tile1_eq (V c (Pipeline.arrRef spec1 0)) (V c (Pipeline.arrRef spec1 1)) (V c (Pipeline.arrRef spec1 2))
    (V c (Pipeline.arrRef spec1 3)) (V c (Pipeline.arrRef spec1 4)) t p q

theorem final1 (c : Dev nD) :
    (dat1 (F := Ideal) V c).arrAt 5 cfg1.N
      = unc2 (mlp (cur2 (V c (Pipeline.arrRef spec1 0))) (cur2 (V c (Pipeline.arrRef spec1 1))) (row1 (V c (Pipeline.arrRef spec1 2)))
          (cur2 (V c (Pipeline.arrRef spec1 3))) (row1 (V c (Pipeline.arrRef spec1 4)))) :=
  (dat1 V c).arrAt_eq_of_cover 5 _ (fun t _ => flushed1_eq V c t) covered1

end Cert.KernelIdeal.Hand

end
-- ==== Proof.Ki.Val2.lean ====
import proofs.«408468_j77438260346965_2_alg».proof.Proof.Ki.R2
import proofs.«408468_j77438260346965_2_alg».proof.Proof.Ki.Val1
import proofs.«408468_j77438260346965_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec
open scoped BigOperators

theorem matmul2a_apply {φ₁ φ₂ : FTy} (lhs : FVec Ideal S4096x1 φ₁) (rhs : FVec Ideal S1x16 φ₂) (p : Fin 4096) (q : Fin 16) :
    FloatOps.matmul dot_S4096x1_S1x16_S4096x16_1_0_0_1_n_n none lhs rhs (constant S4096x16 .f32 0x00000000#32) (ix2 p q)
      = ∑ k : Fin 1, lhs (ix2 p k) * rhs (ix2 k q) := by
  rw [Ideal.matmul_constant_zero_apply]; exact dot1_a_sum lhs rhs p q

theorem matmul2b_apply {φ₁ φ₂ : FTy} (lhs : FVec Ideal S4096x16 φ₁) (rhs : FVec Ideal S16x16 φ₂) (p : Fin 4096) (q : Fin 16) :
    FloatOps.matmul dot_S4096x16_S16x16_S4096x16_1_0_0_1_n_n none lhs rhs (constant S4096x16 .f32 0x00000000#32) (ix2 p q)
      = ∑ k : Fin 16, lhs (ix2 p k) * rhs (ix2 k q) := by
  rw [Ideal.matmul_constant_zero_apply]; exact dot1_b_sum lhs rhs p q

theorem bcastRow2_apply {α : Type} (x : S1x16.Idx → α) (p : Fin 4096) (q : Fin 16) :
    broadcastTo S4096x16 x broadcasts_S1x16_S4096x16 (ix2 p q) = x (ix2 0 q) :=
  broadcastTo_apply x _ _ _ (fun a => by
    match a with
    | ⟨0, _⟩ => rfl
    | ⟨1, _⟩ => rfl)

theorem extract2_norm {α : Type} (x : S1x1.Idx → α) : extractAt ![0, 0] x inpos_S1x1_p0_0 = x (ix2 0 0) := by
  unfold extractAt
  refine congrArg x (funext fun a => Fin.ext ?_)
  match a with
  | ⟨0, _⟩ => rfl
  | ⟨1, _⟩ => rfl

theorem pay2_apply (x1 : Vec Ideal S1x1 .f32) (x0 : Vec Ideal S4096x1 .f32) (x2 x3 : Vec Ideal S1x16 .f32)
    (x4 : Vec Ideal S16x16 .f32) (x5 : Vec Ideal S1x16 .f32) (p : Fin 4096) (q : Fin 16) :
    k2_pay1 (F := Ideal) x1 x0 x2 x3 x4 x5 (ix2 p q)
      = (∑ h : Fin 16, max ((∑ k : Fin 1, Ideal.div (x0 (ix2 p k)) (x1 (ix2 0 0)) * x2 (ix2 k h)) + x3 (ix2 0 h)) 0 * x4 (ix2 h q))
          + x5 (ix2 0 q) := by
  unfold k2_pay1
  simp only [matmul, shapeCast_self]
  rw [addf_apply, matmul2b_apply, bcastRow2_apply]
  refine congrArg (· + x5 (ix2 0 q)) (Finset.sum_congr rfl fun h _ => ?_)
  rw [truncf_apply, truncf_apply, maximumf_apply, addf_apply, matmul2a_apply, bcastRow2_apply, broadcast_apply]
  simp only [truncf_apply, divf_apply, broadcast_apply, extract2_norm, Ideal.ofBits_def, Ideal.ofBits_zero_f32]

theorem hz2 : (![0, 0] : Fin 2 → Nat) = fun _ => 0 := funext fun a => by fin_cases a <;> rfl

theorem idx_facts2 : ∀ t : Fin cfg2.N,
    win2_0.index t (0 : Fin 2) = win2_6.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) = t.val :=
  (by decide +kernel : ∀ t : Fin grid2.N, _)

variable (V : (c : Dev nD) → (b : Ref sig .tc) → Buf (Elt Ideal) ((c : Thread nD τ).loc b))

abbrev G2 (c : Dev nD) : S1310720x16.Idx → EReal :=
  unc2 (mlp (fun r (_ : Fin 1) => scale (col1 (V c (Pipeline.arrRef spec2 0))) ((V c (Pipeline.arrRef spec2 1)) (ix2 0 0)) r) (cur2 (V c (Pipeline.arrRef spec2 2))) (row1 (V c (Pipeline.arrRef spec2 3)))
    (cur2 (V c (Pipeline.arrRef spec2 4))) (row1 (V c (Pipeline.arrRef spec2 5))))

theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz2]
  simp only [View.ld_unit_zero (S := S4096x1) hz2, View.ld_unit_zero (S := S1x1) hz2, View.ld_unit_zero (S := S1x16) hz2,
    View.ld_unit_zero (S := S16x16) hz2]
  obtain ⟨e00, e01, e10, e11, e20, e21, e30, e31, e40, e41, e50, e51, e61, e60⟩ := idx_facts2 t
  have ht : t.val < 320 := by have := t.isLt; have hN : cfg2.N = 320 := N_2; omega
  funext j
  obtain ⟨p, q, rfl⟩ : ∃ (p : Fin 4096) (q : Fin 16), j = ix2 p q := ⟨j 0, j 1, eq_ix2 j⟩
  have hp : p.val < 4096 := p.isLt
  have hq : q.val < 16 := q.isLt
  show k2_pay1 (F := Ideal) (iblk2 V c 1 t) (iblk2 V c 0 t) (iblk2 V c 2 t) (iblk2 V c 3 t) (iblk2 V c 4 t) (iblk2 V c 5 t) (ix2 p q)
    = G2 V c (((cfg2.win 6).blk t).view.emb (ix2 p q))
  rw [pay2_apply]
  have h6 : ((cfg2.win 6).blk t).view.emb (ix2 p q) = ix2 (⟨t.val * 4096 + p.val, by omega⟩ : Fin 1310720) q := by
    funext a; apply Fin.ext
    match a with
    | ⟨0, _⟩ => show win2_6.index t (0 : Fin 2) * 4096 + 1 * p.val = t.val * 4096 + p.val; omega
    | ⟨1, _⟩ => show win2_6.index t (1 : Fin 2) * 16 + 1 * q.val = q.val; omega
  rw [h6]
  have h0 : ∀ k : Fin 1, iblk2 V c 0 t (ix2 p k) = (V c (Pipeline.arrRef spec2 0)) (ix2 (⟨t.val * 4096 + p.val, by omega⟩ : Fin 1310720) (0 : Fin 1)) := fun k => by
    show (V c (Pipeline.arrRef spec2 0)) (((cfg2.win 0).blk t).view.emb (ix2 p k)) = _
    refine congrArg _ (funext fun a => Fin.ext ?_)
    have hk : k.val < 1 := k.isLt
    match a with
    | ⟨0, _⟩ => show win2_0.index t (0 : Fin 2) * 4096 + 1 * p.val = t.val * 4096 + p.val; omega
    | ⟨1, _⟩ => show win2_0.index t (1 : Fin 2) * 1 + 1 * k.val = 0; omega
  have h1 : (iblk2 V c 1 t : Vec Ideal S1x1 .f32) = (V c (Pipeline.arrRef spec2 1) : S1x1.Idx → EReal) := funext fun j =>
    congrArg (V c (Pipeline.arrRef spec2 1) : S1x1.Idx → EReal) (funext fun a => Fin.ext (win2_1.rect_emb_val_of_index_zero t a (by match a with | ⟨0, _⟩ => exact e10 | ⟨1, _⟩ => exact e11) j))
  have h2 : (iblk2 V c 2 t : Vec Ideal S1x16 .f32) = (V c (Pipeline.arrRef spec2 2) : S1x16.Idx → EReal) := funext fun j =>
    congrArg (V c (Pipeline.arrRef spec2 2) : S1x16.Idx → EReal) (funext fun a => Fin.ext (win2_2.rect_emb_val_of_index_zero t a (by match a with | ⟨0, _⟩ => exact e20 | ⟨1, _⟩ => exact e21) j))
  have h3 : (iblk2 V c 3 t : Vec Ideal S1x16 .f32) = (V c (Pipeline.arrRef spec2 3) : S1x16.Idx → EReal) := funext fun j =>
    congrArg (V c (Pipeline.arrRef spec2 3) : S1x16.Idx → EReal) (funext fun a => Fin.ext (win2_3.rect_emb_val_of_index_zero t a (by match a with | ⟨0, _⟩ => exact e30 | ⟨1, _⟩ => exact e31) j))
  have h4 : (iblk2 V c 4 t : Vec Ideal S16x16 .f32) = (V c (Pipeline.arrRef spec2 4) : S16x16.Idx → EReal) := funext fun j =>
    congrArg (V c (Pipeline.arrRef spec2 4) : S16x16.Idx → EReal) (funext fun a => Fin.ext (win2_4.rect_emb_val_of_index_zero t a (by match a with | ⟨0, _⟩ => exact e40 | ⟨1, _⟩ => exact e41) j))
  have h5 : (iblk2 V c 5 t : Vec Ideal S1x16 .f32) = (V c (Pipeline.arrRef spec2 5) : S1x16.Idx → EReal) := funext fun j =>
    congrArg (V c (Pipeline.arrRef spec2 5) : S1x16.Idx → EReal) (funext fun a => Fin.ext (win2_5.rect_emb_val_of_index_zero t a (by match a with | ⟨0, _⟩ => exact e50 | ⟨1, _⟩ => exact e51) j))
  simp only [h0, h1, h2, h3, h4, h5]
  rfl

theorem mem_blk2 (t : Fin cfg2.N) (i : S1310720x16.Idx) :
    i ∈ ((cfg2.win 6).blk t).view.set ↔ ∀ a : Fin 2, win2_6.index t a * S4096x16.size a ≤ (i a).val ∧ (i a).val < win2_6.index t a * S4096x16.size a + S4096x16.size a := by
  show i ∈ ((View.whole main_v7).slice (win2_6.rect t)).set ↔ _
  rw [View.set_slice_whole, Rect.mem_set_unit]
  exact Iff.rfl

theorem cover2 (i : S1310720x16.Idx) : ∃ t : Fin cfg2.N, (cfg2.win 6).flush t = true ∧ i ∈ ((cfg2.win 6).blk t).view.set := by
  have hi0 : (i 0).val < 1310720 := (i 0).isLt
  have hi1 : (i 1).val < 16 := (i 1).isLt
  have hN : cfg2.N = 320 := N_2
  let t : Fin cfg2.N := ⟨(i 0).val / 4096, by omega⟩
  have htv : t.val = (i 0).val / 4096 := rfl
  obtain ⟨-, -, -, -, -, -, -, -, -, -, -, -, e61, e60⟩ := idx_facts2 t
  refine ⟨t, flush2_6 t, ?_⟩
  rw [mem_blk2]
  intro a
  match a with
  | ⟨0, _⟩ => show win2_6.index t (0 : Fin 2) * 4096 ≤ (i 0).val ∧ (i 0).val < win2_6.index t (0 : Fin 2) * 4096 + 4096; omega
  | ⟨1, _⟩ => show win2_6.index t (1 : Fin 2) * 16 ≤ (i 1).val ∧ (i 1).val < win2_6.index t (1 : Fin 2) * 16 + 16; omega

theorem final2 (c : Dev nD) : (dat2 (F := Ideal) V c).arrAt 6 cfg2.N
    = unc2 (mlp (fun r (_ : Fin 1) => scale (col1 (V c (Pipeline.arrRef spec2 0))) ((V c (Pipeline.arrRef spec2 1)) (ix2 0 0)) r) (cur2 (V c (Pipeline.arrRef spec2 2))) (row1 (V c (Pipeline.arrRef spec2 3)))
        (cur2 (V c (Pipeline.arrRef spec2 4))) (row1 (V c (Pipeline.arrRef spec2 5)))) :=
  (dat2 (F := Ideal) V c).arrAt_eq_of_cover 6 (G2 V c) (fun t _ => flushed2_eq V c t) cover2

end Cert.KernelIdeal.Hand
-- ==== Proof.Ki.Val13.lean ====
import proofs.«408468_j77438260346965_2_alg».proof.Proof.Ki.R13
import proofs.«408468_j77438260346965_2_alg».proof.Proof.Ki.Val1
import proofs.«408468_j77438260346965_2_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.ValueIdx Idealize.SL.Sem
open Idealize.ShloMosaic.Pipeline (Dat)
open Cert.Spec
open scoped BigOperators

theorem mmA13_apply {φ₁ φ₂ : FTy} (a : FVec Ideal S4096x16 φ₁) (b : FVec Ideal S16x16 φ₂) (p : Fin 4096) (h : Fin 16) :
    matmul dot_S4096x16_S16x16_S4096x16_1_0_0_1_n_n none a b (constant S4096x16 .f32 0x00000000#32) (ix2 p h)
      = ∑ k : Fin 16, a (ix2 p k) * b (ix2 k h) := by
  simp only [matmul]
  rw [Ideal.matmul_constant_zero_apply]; exact dot1_b_sum a b p h

theorem mmB13_apply {φ₁ φ₂ : FTy} (a : FVec Ideal S4096x16 φ₁) (b : FVec Ideal S16x1 φ₂) (p : Fin 4096) (q : Fin 1) :
    matmul dot_S4096x16_S16x1_S4096x1_1_0_0_1_n_n none a b (constant S4096x1 .f32 0x00000000#32) (ix2 p q)
      = ∑ k : Fin 16, a (ix2 p k) * b (ix2 k q) := by
  simp only [matmul]
  rw [Ideal.matmul_constant_zero_apply, ← Equiv.sum_comp (contrEquiv1 dot_S4096x16_S16x1_S4096x1_1_0_0_1_n_n 16 rfl rfl).symm]
  refine Finset.sum_congr rfl fun k _ => ?_
  have el : dot_S4096x16_S16x1_S4096x1_1_0_0_1_n_n.lhsIdx (ix2 p q) ((contrEquiv1 dot_S4096x16_S16x1_S4096x1_1_0_0_1_n_n 16 rfl rfl).symm k) = ix2 p k := by
    funext a; match a with
    | ⟨0, _⟩ => rfl
    | ⟨1, _⟩ => exact Fin.ext (contrEquiv1_symm_val dot_S4096x16_S16x1_S4096x1_1_0_0_1_n_n 16 rfl rfl k)
  have er : dot_S4096x16_S16x1_S4096x1_1_0_0_1_n_n.rhsIdx (ix2 p q) ((contrEquiv1 dot_S4096x16_S16x1_S4096x1_1_0_0_1_n_n 16 rfl rfl).symm k) = ix2 k q := by
    funext a; match a with
    | ⟨0, _⟩ => exact Fin.ext (contrEquiv1_symm_val dot_S4096x16_S16x1_S4096x1_1_0_0_1_n_n 16 rfl rfl k)
    | ⟨1, _⟩ => rfl
  rw [el, er]

theorem extract13_00 (x : Vec Ideal S1x1 .f32) (h : ∀ a, (![0, 0] : Fin S1x1.rank → Nat) a < S1x1.size a) :
    extractAt ![0, 0] x h = x (ix2 0 0) :=
  congrArg x (funext fun a => Fin.ext (by match a with | ⟨0, _⟩ => rfl | ⟨1, _⟩ => rfl))

theorem bcast13_row (x : FVec Ideal S1x16 .f32) (h : S1x16.Broadcasts S4096x16) (p : Fin 4096) (k : Fin 16) :
    broadcastTo S4096x16 x h (ix2 p k) = x (ix2 0 k) :=
  broadcastTo_apply x h (ix2 p k) (ix2 0 k) (fun a => by match a with | ⟨0, _⟩ => rfl | ⟨1, _⟩ => rfl)

theorem bcast13_one (x : FVec Ideal S1x1 .f32) (h : S1x1.Broadcasts S4096x1) (p : Fin 4096) (q : Fin 1) :
    broadcastTo S4096x1 x h (ix2 p q) = x (ix2 0 0) :=
  broadcastTo_apply x h (ix2 p q) (ix2 0 0) (fun a => by match a with | ⟨0, _⟩ => rfl | ⟨1, _⟩ => rfl)

theorem cmpi13_apply {s : Shape} {w : Nat} (pr : CmpIPredicate) (x y : IVec s w) (i : s.Idx) : cmpi pr x y i = IntOp.cmpi pr (x i) (y i) := rfl

theorem pay13_apply (x0 : Vec Ideal S4096x16 .f32) (x1 : Vec Ideal S4096x1 .f32) (x2 : Vec Ideal S4096x1 .i32) (x3 : Vec Ideal S4096x1 .i32) (x4 : Vec Ideal S1x1 .f32) (x5 : Vec Ideal S1x1 .f32) (x6 : Vec Ideal S16x16 .f32) (x7 : Vec Ideal S1x16 .f32) (x8 : Vec Ideal S16x1 .f32) (x9 : Vec Ideal S1x1 .f32) (p : Fin 4096) (q : Fin 1) :
    k13_pay1 (k13_pay2 x0 x6 x7 x8 x9 x4 x5 x1) (k13_pay3 x2 x3) (Scalar.ofBits .f32 0x00000000#32) (ix2 p q)
      = masked (fun k => IntOp.cmpi .sge (x2 (ix2 k 0)) (x3 (ix2 k 0))) (col1 x1) (x5 (ix2 0 0)) (x4 (ix2 0 0)) (fun k => mlp (cur2 x0) (cur2 x6) (row1 x7) (cur2 x8) (row1 x9) k 0) p := by
  obtain rfl : q = 0 := Subsingleton.elim _ _
  unfold k13_pay1 k13_pay2 k13_pay3
  simp only [select_apply, broadcast_apply, addf_apply, mulf_apply, maximumf_apply, cmpi13_apply, shapeCast_self,
    mmB13_apply, mmA13_apply, truncf_apply, extract13_00, bcast13_row, bcast13_one, Ideal.ofBits_def, Ideal.ofBits_zero_f32]
  rw [extract13_00 x5, extract13_00 x4]
  rfl

theorem masked13_congr (x0 : Vec Ideal S4096x16 .f32) (x1 : Vec Ideal S4096x1 .f32) (x2 : Vec Ideal S4096x1 .i32) (x3 : Vec Ideal S4096x1 .i32) (x4 : Vec Ideal S1x1 .f32) (x5 : Vec Ideal S1x1 .f32) (x6 : Vec Ideal S16x16 .f32) (x7 : Vec Ideal S1x16 .f32) (x8 : Vec Ideal S16x1 .f32) (x9 : Vec Ideal S1x1 .f32)
    (a0 : S1310720x16.Idx → EReal) (a1 : S1310720x1.Idx → EReal) (a2 : S1310720x1.Idx → BitVec 32) (a3 : S1310720x1.Idx → BitVec 32) (a4 : S1x1.Idx → EReal) (a5 : S1x1.Idx → EReal) (a6 : S16x16.Idx → EReal) (a7 : S1x16.Idx → EReal) (a8 : S16x1.Idx → EReal) (a9 : S1x1.Idx → EReal)
    (p : Fin 4096) (P : Fin 1310720)
    (h0 : ∀ k : Fin 16, x0 (ix2 p k) = a0 (ix2 P k)) (h1 : x1 (ix2 p 0) = a1 (ix2 P 0)) (h2 : x2 (ix2 p 0) = a2 (ix2 P 0)) (h3 : x3 (ix2 p 0) = a3 (ix2 P 0))
    (h4 : x4 = a4) (h5 : x5 = a5) (h6 : x6 = a6) (h7 : x7 = a7) (h8 : x8 = a8) (h9 : x9 = a9) :
    masked (fun k => IntOp.cmpi .sge (x2 (ix2 k 0)) (x3 (ix2 k 0))) (col1 x1) (x5 (ix2 0 0)) (x4 (ix2 0 0)) (fun k => mlp (cur2 x0) (cur2 x6) (row1 x7) (cur2 x8) (row1 x9) k 0) p
      = masked (fun k => IntOp.cmpi .sge (a2 (ix2 k 0)) (a3 (ix2 k 0))) (col1 a1) (a5 (ix2 0 0)) (a4 (ix2 0 0)) (fun k => mlp (cur2 a0) (cur2 a6) (row1 a7) (cur2 a8) (row1 a9) k 0) P := by
  subst h4 h5 h6 h7 h8 h9
  simp only [masked, mlp, lin, relu, cur2, row1, col1, h0, h1, h2, h3]

theorem idx13_0 : ∀ t : Fin cfg13.N, win13_0.index t (0 : Fin 2) = t.val ∧ win13_0.index t (1 : Fin 2) = 0 :=
  (by decide +kernel : ∀ t : Fin grid13.N, _)
theorem idx13_1 : ∀ t : Fin cfg13.N, win13_1.index t (0 : Fin 2) = t.val ∧ win13_1.index t (1 : Fin 2) = 0 :=
  (by decide +kernel : ∀ t : Fin grid13.N, _)
theorem idx13_2 : ∀ t : Fin cfg13.N, win13_2.index t (0 : Fin 2) = t.val ∧ win13_2.index t (1 : Fin 2) = 0 :=
  (by decide +kernel : ∀ t : Fin grid13.N, _)
theorem idx13_3 : ∀ t : Fin cfg13.N, win13_3.index t (0 : Fin 2) = t.val ∧ win13_3.index t (1 : Fin 2) = 0 :=
  (by decide +kernel : ∀ t : Fin grid13.N, _)
theorem idx13_const : ∀ (t : Fin cfg13.N) (a : Fin 2), win13_4.index t a = 0 ∧ win13_5.index t a = 0 ∧ win13_6.index t a = 0
    ∧ win13_7.index t a = 0 ∧ win13_8.index t a = 0 ∧ win13_9.index t a = 0 :=
  (by decide +kernel : ∀ (t : Fin grid13.N) (a : Fin 2), _)
theorem idx13_10 : ∀ t : Fin cfg13.N, win13_10.index t (0 : Fin 2) = t.val ∧ win13_10.index t (1 : Fin 2) = 0 :=
  (by decide +kernel : ∀ t : Fin grid13.N, _)

variable (V : (c : Dev nD) → (b : Ref sig .tc) → Buf (Elt Ideal) ((c : Thread nD τ).loc b))

theorem iblk13_0_apply (c : Dev nD) (t : Fin cfg13.N) (p : Fin 4096) (k : Fin 16) (P : Fin 1310720) (hP : P.val = t.val * 4096 + p.val) :
    (iblk13 V c 0 t : Vec Ideal S4096x16 .f32) (ix2 p k) = (V c (Pipeline.arrRef spec13 0) : S1310720x16.Idx → EReal) (ix2 P k) := by
  obtain ⟨e0, e1⟩ := idx13_0 t
  show (V c (Pipeline.arrRef spec13 0) : S1310720x16.Idx → EReal) (((cfg13.win 0).blk t).view.emb (ix2 p k)) = _
  refine congrArg _ (funext fun a => Fin.ext ?_)
  match a with
  | ⟨0, _⟩ => show win13_0.index t (0 : Fin 2) * 4096 + 1 * p.val = P.val; omega
  | ⟨1, _⟩ => show win13_0.index t (1 : Fin 2) * 16 + 1 * k.val = k.val; omega

theorem iblk13_1_apply (c : Dev nD) (t : Fin cfg13.N) (p : Fin 4096) (P : Fin 1310720) (hP : P.val = t.val * 4096 + p.val) :
    (iblk13 V c 1 t : Vec Ideal S4096x1 .f32) (ix2 p 0) = (V c (Pipeline.arrRef spec13 1) : S1310720x1.Idx → EReal) (ix2 P 0) := by
  obtain ⟨e0, e1⟩ := idx13_1 t
  show (V c (Pipeline.arrRef spec13 1) : S1310720x1.Idx → EReal) (((cfg13.win 1).blk t).view.emb (ix2 p 0)) = _
  refine congrArg _ (funext fun a => Fin.ext ?_)
  match a with
  | ⟨0, _⟩ => show win13_1.index t (0 : Fin 2) * 4096 + 1 * p.val = P.val; omega
  | ⟨1, _⟩ => show win13_1.index t (1 : Fin 2) * 1 + 1 * 0 = 0; omega

theorem iblk13_2_apply (c : Dev nD) (t : Fin cfg13.N) (p : Fin 4096) (P : Fin 1310720) (hP : P.val = t.val * 4096 + p.val) :
    (iblk13 V c 2 t : Vec Ideal S4096x1 .i32) (ix2 p 0) = (V c (Pipeline.arrRef spec13 2) : S1310720x1.Idx → BitVec 32) (ix2 P 0) := by
  obtain ⟨e0, e1⟩ := idx13_2 t
  show (V c (Pipeline.arrRef spec13 2) : S1310720x1.Idx → BitVec 32) (((cfg13.win 2).blk t).view.emb (ix2 p 0)) = _
  refine congrArg _ (funext fun a => Fin.ext ?_)
  match a with
  | ⟨0, _⟩ => show win13_2.index t (0 : Fin 2) * 4096 + 1 * p.val = P.val; omega
  | ⟨1, _⟩ => show win13_2.index t (1 : Fin 2) * 1 + 1 * 0 = 0; omega

theorem iblk13_3_apply (c : Dev nD) (t : Fin cfg13.N) (p : Fin 4096) (P : Fin 1310720) (hP : P.val = t.val * 4096 + p.val) :
    (iblk13 V c 3 t : Vec Ideal S4096x1 .i32) (ix2 p 0) = (V c (Pipeline.arrRef spec13 3) : S1310720x1.Idx → BitVec 32) (ix2 P 0) := by
  obtain ⟨e0, e1⟩ := idx13_3 t
  show (V c (Pipeline.arrRef spec13 3) : S1310720x1.Idx → BitVec 32) (((cfg13.win 3).blk t).view.emb (ix2 p 0)) = _
  refine congrArg _ (funext fun a => Fin.ext ?_)
  match a with
  | ⟨0, _⟩ => show win13_3.index t (0 : Fin 2) * 4096 + 1 * p.val = P.val; omega
  | ⟨1, _⟩ => show win13_3.index t (1 : Fin 2) * 1 + 1 * 0 = 0; omega

theorem iblk13_4_eq (c : Dev nD) (t : Fin cfg13.N) : (iblk13 V c 4 t : Vec Ideal S1x1 .f32) = (V c (Pipeline.arrRef spec13 4) : S1x1.Idx → EReal) := funext fun j =>
  congrArg (V c (Pipeline.arrRef spec13 4) : S1x1.Idx → EReal) (funext fun a => Fin.ext (win13_4.rect_emb_val_of_index_zero t a (idx13_const t a).1 j))
theorem iblk13_5_eq (c : Dev nD) (t : Fin cfg13.N) : (iblk13 V c 5 t : Vec Ideal S1x1 .f32) = (V c (Pipeline.arrRef spec13 5) : S1x1.Idx → EReal) := funext fun j =>
  congrArg (V c (Pipeline.arrRef spec13 5) : S1x1.Idx → EReal) (funext fun a => Fin.ext (win13_5.rect_emb_val_of_index_zero t a (idx13_const t a).2.1 j))
theorem iblk13_6_eq (c : Dev nD) (t : Fin cfg13.N) : (iblk13 V c 6 t : Vec Ideal S16x16 .f32) = (V c (Pipeline.arrRef spec13 6) : S16x16.Idx → EReal) := funext fun j =>
  congrArg (V c (Pipeline.arrRef spec13 6) : S16x16.Idx → EReal) (funext fun a => Fin.ext (win13_6.rect_emb_val_of_index_zero t a (idx13_const t a).2.2.1 j))
theorem iblk13_7_eq (c : Dev nD) (t : Fin cfg13.N) : (iblk13 V c 7 t : Vec Ideal S1x16 .f32) = (V c (Pipeline.arrRef spec13 7) : S1x16.Idx → EReal) := funext fun j =>
  congrArg (V c (Pipeline.arrRef spec13 7) : S1x16.Idx → EReal) (funext fun a => Fin.ext (win13_7.rect_emb_val_of_index_zero t a (idx13_const t a).2.2.2.1 j))
theorem iblk13_8_eq (c : Dev nD) (t : Fin cfg13.N) : (iblk13 V c 8 t : Vec Ideal S16x1 .f32) = (V c (Pipeline.arrRef spec13 8) : S16x1.Idx → EReal) := funext fun j =>
  congrArg (V c (Pipeline.arrRef spec13 8) : S16x1.Idx → EReal) (funext fun a => Fin.ext (win13_8.rect_emb_val_of_index_zero t a (idx13_const t a).2.2.2.2.1 j))
theorem iblk13_9_eq (c : Dev nD) (t : Fin cfg13.N) : (iblk13 V c 9 t : Vec Ideal S1x1 .f32) = (V c (Pipeline.arrRef spec13 9) : S1x1.Idx → EReal) := funext fun j =>
  congrArg (V c (Pipeline.arrRef spec13 9) : S1x1.Idx → EReal) (funext fun a => Fin.ext (win13_9.rect_emb_val_of_index_zero t a (idx13_const t a).2.2.2.2.2 j))

theorem hz13 : (![0, 0] : Fin 2 → Nat) = fun _ => 0 := funext fun a => by fin_cases a <;> rfl

abbrev G13 (c : Dev nD) : S1310720x1.Idx → EReal :=
  unc2 (fun (k : Fin 1310720) (_ : Fin 1) => masked (fun k => IntOp.cmpi .sge ((V c (Pipeline.arrRef spec13 2) : S1310720x1.Idx → BitVec 32) (ix2 k 0)) ((V c (Pipeline.arrRef spec13 3) : S1310720x1.Idx → BitVec 32) (ix2 k 0))) (col1 (V c (Pipeline.arrRef spec13 1) : S1310720x1.Idx → EReal)) ((V c (Pipeline.arrRef spec13 5) : S1x1.Idx → EReal) (ix2 0 0)) ((V c (Pipeline.arrRef spec13 4) : S1x1.Idx → EReal) (ix2 0 0)) (fun k => mlp (cur2 (V c (Pipeline.arrRef spec13 0) : S1310720x16.Idx → EReal)) (cur2 (V c (Pipeline.arrRef spec13 6) : S16x16.Idx → EReal)) (row1 (V c (Pipeline.arrRef spec13 7) : S1x16.Idx → EReal)) (cur2 (V c (Pipeline.arrRef spec13 8) : S16x1.Idx → EReal)) (row1 (V c (Pipeline.arrRef spec13 9) : S1x1.Idx → EReal)) k 0) k)

theorem flushed13_eq (c : Dev nD) (t : Fin cfg13.N) :
    (dat13 (F := Ideal) V c).flushed 10 t = ((cfg13.win 10).blk t).view.read (Elt Ideal) (G13 V c) := by
  show (cfg13.win 10).cut (grid13.coords t) ((dat13 (F := Ideal) V c).after 10 t) = _
  rw [after13_10]
  unfold out13_10
  rw [View.canon_unit_zero hz13]
  simp only [View.ld_unit_zero (S := S4096x16) hz13, View.ld_unit_zero (S := S16x16) hz13, View.ld_unit_zero (S := S1x16) hz13, View.ld_unit_zero (S := S16x1) hz13, View.ld_unit_zero (S := S1x1) hz13, View.ld_unit_zero (S := S4096x1) hz13]
  funext j
  obtain ⟨p, q, rfl⟩ : ∃ (p : Fin 4096) (q : Fin 1), j = ix2 p q := ⟨j 0, j 1, eq_ix2 j⟩
  obtain rfl : q = 0 := Subsingleton.elim _ _
  have hN : cfg13.N = 320 := N_13
  have hPlt : t.val * 4096 + p.val < 1310720 := by have := t.isLt; have := p.isLt; omega
  obtain ⟨e0, e1⟩ := idx13_10 t
  have hemb : ((cfg13.win 10).blk t).view.emb (ix2 p (0 : Fin 1)) = (ix2 (⟨t.val * 4096 + p.val, hPlt⟩ : Fin 1310720) (0 : Fin 1) : S1310720x1.Idx) := by
    funext a
    apply Fin.ext
    match a with
    | ⟨0, _⟩ => show win13_10.index t (0 : Fin 2) * 4096 + 1 * p.val = t.val * 4096 + p.val; omega
    | ⟨1, _⟩ => show win13_10.index t (1 : Fin 2) * 1 + 1 * 0 = 0; omega
  rw [View.read_apply]
  show k13_pay1 (F := Ideal) _ _ _ (ix2 p (0 : Fin 1)) = G13 V c (((cfg13.win 10).blk t).view.emb (ix2 p (0 : Fin 1)))
  rw [hemb]
  refine (pay13_apply (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) p 0).trans ?_
  exact masked13_congr (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t)
    (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (V c (Pipeline.arrRef spec13 6)) (V c (Pipeline.arrRef spec13 7)) (V c (Pipeline.arrRef spec13 8)) (V c (Pipeline.arrRef spec13 9))
    p ⟨t.val * 4096 + p.val, hPlt⟩
    (fun k => iblk13_0_apply V c t p k _ rfl) (iblk13_1_apply V c t p _ rfl) (iblk13_2_apply V c t p _ rfl) (iblk13_3_apply V c t p _ rfl)
    (iblk13_4_eq V c t) (iblk13_5_eq V c t) (iblk13_6_eq V c t) (iblk13_7_eq V c t) (iblk13_8_eq V c t) (iblk13_9_eq V c t)

theorem mem_blk13 (t : Fin cfg13.N) (i : S1310720x1.Idx) :
    i ∈ ((cfg13.win 10).blk t).view.set ↔ ∀ a : Fin 2, win13_10.index t a * S4096x1.size a ≤ (i a).val ∧ (i a).val < win13_10.index t a * S4096x1.size a + S4096x1.size a := by
  show i ∈ ((View.whole main_v128).slice (win13_10.rect t)).set ↔ _
  rw [View.set_slice_whole, Rect.mem_set_unit]
  exact Iff.rfl

theorem cover13 (i : S1310720x1.Idx) : ∃ t : Fin cfg13.N, (cfg13.win 10).flush t = true ∧ i ∈ ((cfg13.win 10).blk t).view.set := by
  have hi0 : (i 0).val < 1310720 := idx2_lt0 i
  have hi1 : (i 1).val < 1 := idx2_lt1 i
  have hN : cfg13.N = 320 := N_13
  have ht : (i 0).val / 4096 < cfg13.N := by omega
  obtain ⟨e0, e1⟩ := idx13_10 ⟨(i 0).val / 4096, ht⟩
  have e0' : win13_10.index ⟨(i 0).val / 4096, ht⟩ (0 : Fin 2) = (i 0).val / 4096 := e0
  refine ⟨⟨(i 0).val / 4096, ht⟩, flush13_10 _, ?_⟩
  rw [mem_blk13]
  intro a
  match a with
  | ⟨0, _⟩ => show win13_10.index ⟨(i 0).val / 4096, ht⟩ (0 : Fin 2) * 4096 ≤ (i 0).val ∧ (i 0).val < win13_10.index ⟨(i 0).val / 4096, ht⟩ (0 : Fin 2) * 4096 + 4096; omega
  | ⟨1, _⟩ => show win13_10.index ⟨(i 0).val / 4096, ht⟩ (1 : Fin 2) * 1 ≤ (i 1).val ∧ (i 1).val < win13_10.index ⟨(i 0).val / 4096, ht⟩ (1 : Fin 2) * 1 + 1; omega

theorem final13 (c : Dev nD) : (dat13 (F := Ideal) V c).arrAt 10 cfg13.N = unc2 (fun (k : Fin 1310720) (_ : Fin 1) => masked (fun k => IntOp.cmpi .sge ((V c (Pipeline.arrRef spec13 2) : S1310720x1.Idx → BitVec 32) (ix2 k 0)) ((V c (Pipeline.arrRef spec13 3) : S1310720x1.Idx → BitVec 32) (ix2 k 0))) (col1 (V c (Pipeline.arrRef spec13 1) : S1310720x1.Idx → EReal)) ((V c (Pipeline.arrRef spec13 5) : S1x1.Idx → EReal) (ix2 0 0)) ((V c (Pipeline.arrRef spec13 4) : S1x1.Idx → EReal) (ix2 0 0)) (fun k => mlp (cur2 (V c (Pipeline.arrRef spec13 0) : S1310720x16.Idx → EReal)) (cur2 (V c (Pipeline.arrRef spec13 6) : S16x16.Idx → EReal)) (row1 (V c (Pipeline.arrRef spec13 7) : S1x16.Idx → EReal)) (cur2 (V c (Pipeline.arrRef spec13 8) : S16x1.Idx → EReal)) (row1 (V c (Pipeline.arrRef spec13 9) : S1x1.Idx → EReal)) k 0) k) :=
  (dat13 (F := Ideal) V c).arrAt_eq_of_cover 10 (G13 V c) (fun t _ => flushed13_eq V c t) (fun i => cover13 i)

end Cert.KernelIdeal.Hand
-- ==== Proof.Ki.ChainEndsVal.lean ====
import proofs.«408468_j77438260346965_2_alg».proof.Proof.Ki.ChainEnds
import proofs.«408468_j77438260346965_2_alg».proof.Proof.Ki.ChainSteps
import proofs.«408468_j77438260346965_2_alg».proof.Proof.Ki.Val0
import proofs.«408468_j77438260346965_2_alg».proof.Proof.Ki.Val1
import proofs.«408468_j77438260346965_2_alg».proof.Proof.Ki.Val2
import proofs.«408468_j77438260346965_2_alg».proof.Proof.Ki.Val13
import proofs.«408468_j77438260346965_2_alg».proof.Proof.SpecArgs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Cert.Spec

variable (m : (ℓ : Loc nD τ sig) → Buf (Elt Ideal) ℓ)

theorem norm_out (c : Dev nD) :
    W2 m c main_v1 = fun _ => absmax (col1 (m ((c : Thread nD τ).loc main_arg1) : S1310720x1.Idx → EReal)) := by
  rw [W2_out, final0 (atTc (W1 m)) c]
  dsimp only [atTc]
  rw [entry0_0]
  funext _
  exact absmax_tiles _ _

theorem nodes_encoded (c : Dev nD) :
    W4 m c main_v4
      = unc2 ((wtsOf (m ((c : Thread nD τ).loc main_arg9) : S1x16.Idx → EReal) (m ((c : Thread nD τ).loc main_arg10) : S16.Idx → EReal)
            (m ((c : Thread nD τ).loc main_arg11) : S16x16.Idx → EReal) (m ((c : Thread nD τ).loc main_arg12) : S16.Idx → EReal)).app
          fun r (_ : Fin 1) => col1 (m ((c : Thread nD τ).loc main_arg0) : S262144x1.Idx → EReal) r) := by
  rw [W4_out, final1 (atTc (W3 m)) c]
  dsimp only [atTc]
  rw [entry1_0, entry1_1, entry1_2, entry1_3, entry1_4, row1_shapeCast, row1_shapeCast, cur2_col]
  rfl

theorem edges_encoded (c : Dev nD) :
    W6 m c main_v7
      = unc2 ((wtsOf (m ((c : Thread nD τ).loc main_arg13) : S1x16.Idx → EReal) (m ((c : Thread nD τ).loc main_arg14) : S16.Idx → EReal)
            (m ((c : Thread nD τ).loc main_arg15) : S16x16.Idx → EReal) (m ((c : Thread nD τ).loc main_arg16) : S16.Idx → EReal)).app
          fun r (_ : Fin 1) =>
            scale (col1 (m ((c : Thread nD τ).loc main_arg1) : S1310720x1.Idx → EReal))
              (absmax (col1 (m ((c : Thread nD τ).loc main_arg1) : S1310720x1.Idx → EReal))) r) := by
  rw [W6_out, final2 (atTc (W5 m)) c]
  dsimp only [atTc]
  rw [entry2_0, entry2_1, entry2_2, entry2_3, entry2_4, entry2_5, row1_shapeCast, row1_shapeCast, norm_out]
  rfl

theorem result_from_last_edges (c : Dev nD) (he5 : Fin 1310720 → Fin 16 → EReal)
    (h5 : W35 m c main_v81 = unc2 he5) (k : Fin 1310720) :
    W40 m c main_v129 (ix1 k)
      = masked (opsAt m c).mask (col1 (m ((c : Thread nD τ).loc main_arg1) : S1310720x1.Idx → EReal))
          ((m ((c : Thread nD τ).loc main_arg29) : S_.Idx → EReal) ix0)
          (absmax (col1 (m ((c : Thread nD τ).loc main_arg1) : S1310720x1.Idx → EReal)))
          (fun k => (wtsOf (m ((c : Thread nD τ).loc main_arg25) : S16x16.Idx → EReal) (m ((c : Thread nD τ).loc main_arg26) : S16.Idx → EReal)
              (m ((c : Thread nD τ).loc main_arg27) : S16x1.Idx → EReal) (m ((c : Thread nD τ).loc main_arg28) : S1.Idx → EReal)).app
            ((opsAt m c).pairavg he5) k (0 : Fin 1)) k := by
  rw [result_v129, shapeCast_col, W39_out, final13 (atTc (W38 m)) c]
  dsimp only [atTc]
  rw [entry13_0, entry13_1, entry13_2, entry13_3, entry13_4, entry13_5, entry13_6, entry13_7, entry13_8, entry13_9, h5,
    norm_out]
  simp only [col_shapeCast, scalar_shapeCast, row1_shapeCast]
  rfl

end Cert.KernelIdeal.Hand

end
-- ==== Proof.Ki.ChainResult.lean ====
import proofs.«408468_j77438260346965_2_alg».proof.Proof.Ki.Chain
import proofs.«408468_j77438260346965_2_alg».proof.Proof.Ki.ChainEndsVal

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Cert.Spec

variable (m : (ℓ : Loc nD τ sig) → Buf (Elt Ideal) ℓ) (c : Dev nD)

theorem kernel_result (k : Fin 1310720) :
    W40 m c main_v129 (ix1 k)
      = resultOf (opsAt m c) (m ((c : Thread nD τ).loc main_arg0)) (m ((c : Thread nD τ).loc main_arg1))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16))
          (m ((c : Thread nD τ).loc main_arg17)) (m ((c : Thread nD τ).loc main_arg18))
          (m ((c : Thread nD τ).loc main_arg19)) (m ((c : Thread nD τ).loc main_arg20))
          (m ((c : Thread nD τ).loc main_arg21)) (m ((c : Thread nD τ).loc main_arg22))
          (m ((c : Thread nD τ).loc main_arg23)) (m ((c : Thread nD τ).loc main_arg24))
          (m ((c : Thread nD τ).loc main_arg25)) (m ((c : Thread nD τ).loc main_arg26))
          (m ((c : Thread nD τ).loc main_arg27)) (m ((c : Thread nD τ).loc main_arg28))
          (m ((c : Thread nD τ).loc main_arg29)) k :=
  kernel_result_of_ends m c (nodes_encoded m c) (edges_encoded m c) (result_from_last_edges m c) k

end Cert.KernelIdeal.Hand

end
-- ==== Proof.Ref.Terms.lean ====
import proofs.«408468_j77438260346965_2_alg».proof.Proof.Gen.ReferenceIdeal
import Idealize.ShloMosaic.Lib.ValueIdx

noncomputable section

namespace Cert.Ref

open Cert.ReferenceIdeal Cert.ReferenceIdeal.Facts₀
open Idealize.ShloMosaic Idealize.ShloMosaic.ValueIdx

def wrapN (idx : IVec S1310720 32) : IVec S1310720x1 32 :=
  broadcastInDim S1310720x1 (![0] : Fin 1 → Fin S1310720x1.rank) bcast_S1310720_S1310720x1_0
    (select (cmpi .slt idx (broadcastInDim S1310720 (![] : Fin 0 → Fin S1310720.rank) bcast_S_S1310720 (constantI S_ 32 0#32)))
      (addi idx (broadcastInDim S1310720 (![] : Fin 0 → Fin S1310720.rank) bcast_S_S1310720 (constantI S_ 32 262144#32))) idx)

def rowsN (hn : FVec Ideal S262144x16 .f32) (idx : IVec S1310720 32) : FVec Ideal S1310720x16 .f32 :=
  Host.gather gather_S262144x16_S1310720x1_S1310720x16_1_0_n_n_0_1_116 hn (wrapN idx)

def zerosN : FVec Ideal S262144x16 .f32 :=
  broadcastInDim S262144x16 (![] : Fin 0 → Fin S262144x16.rank) bcast_S_S262144x16 (constant (F := Ideal) S_ .f32 0x00000000#32)

def sumN (recv : IVec S1310720 32) (he : FVec Ideal S1310720x16 .f32) : FVec Ideal S262144x16 .f32 :=
  Host.scatterAdd (F := Ideal) scatter_S262144x16_S1310720x1_S1310720x16_1_0_0_1 zerosN
    (broadcastInDim S1310720x1 (![0] : Fin 1 → Fin S1310720x1.rank) bcast_S1310720_S1310720x1_0 recv) he

def pairCol0 (bi : IVec S655360x2 32) : IVec S655360 32 :=
  shapeCast S655360 (extractStridedSlice S655360x1 ![0, 0] bi slices_S655360x2_S655360x1_0_0) shapeCasts_S655360x1_S655360

def pairCol1 (bi : IVec S655360x2 32) : IVec S655360 32 :=
  shapeCast S655360 (extractStridedSlice S655360x1 ![0, 1] bi slices_S655360x2_S655360x1_0_1) shapeCasts_S655360x1_S655360

def wrapE (idx : IVec S655360 32) : IVec S655360x1 32 :=
  broadcastInDim S655360x1 (![0] : Fin 1 → Fin S655360x1.rank) bcast_S655360_S655360x1_0
    (select (cmpi .slt idx (broadcastInDim S655360 (![] : Fin 0 → Fin S655360.rank) bcast_S_S655360 (constantI S_ 32 0#32)))
      (addi idx (broadcastInDim S655360 (![] : Fin 0 → Fin S655360.rank) bcast_S_S655360 (constantI S_ 32 1310720#32))) idx)

def rowsE (he : FVec Ideal S1310720x16 .f32) (idx : IVec S655360 32) : FVec Ideal S655360x16 .f32 :=
  Host.gather gather_S1310720x16_S655360x1_S655360x16_1_0_n_n_0_1_116 he (wrapE idx)

def halfE : FVec Ideal S655360x16 .f32 :=
  broadcastInDim S655360x16 (![] : Fin 0 → Fin S655360x16.rank) bcast_S_S655360x16 (constant (F := Ideal) S_ .f32 0x3F000000#32)

def avgE (bi : IVec S655360x2 32) (he : FVec Ideal S1310720x16 .f32) : FVec Ideal S655360x16 .f32 :=
  mulf halfE (addf (rowsE he (pairCol0 bi)) (rowsE he (pairCol1 bi)))

def setE (x : FVec Ideal S1310720x16 .f32) (idx : IVec S655360 32) (u : FVec Ideal S655360x16 .f32) : FVec Ideal S1310720x16 .f32 :=
  Host.scatter scatter_S1310720x16_S655360x1_S655360x16_1_0_0_1 (fun _ b => b) x (wrapE idx) u

def pairAvg (bi : IVec S655360x2 32) (he : FVec Ideal S1310720x16 .f32) : FVec Ideal S1310720x16 .f32 :=
  setE (setE he (pairCol0 bi) (avgE bi he)) (pairCol1 bi) (avgE bi he)

def maskGE (send recv : IVec S1310720 32) : IVec S1310720 1 := cmpi .sge send recv

end Cert.Ref

end
-- ==== Proof.Ref.Defs.lean ====
import proofs.«408468_j77438260346965_2_alg».proof.Proof.Ref.Terms
import proofs.«408468_j77438260346965_2_alg».proof.Proof.SpecNet

noncomputable section

namespace Cert.Ref

open Cert.ReferenceIdeal
open Idealize.ShloMosaic Idealize.ShloMosaic.ValueIdx
open Cert.Spec

def opsR (recv send : IVec S1310720 32) (bi : IVec S655360x2 32) : Cert.Spec.Ops 262144 1310720 where
  atS hn := cur2 (rowsN (unc2 hn) send)
  atR hn := cur2 (rowsN (unc2 hn) recv)
  segsum he := cur2 (sumN recv (unc2 he))
  pairavg he := cur2 (pairAvg bi (unc2 he))
  mask k := maskGE send recv (ix1 k)

theorem opsR_atS (recv send : IVec S1310720 32) (bi : IVec S655360x2 32) (hn : Fin 262144 → Fin 16 → EReal) :
    (opsR recv send bi).atS hn = cur2 (rowsN (unc2 hn) send) := rfl

theorem opsR_atR (recv send : IVec S1310720 32) (bi : IVec S655360x2 32) (hn : Fin 262144 → Fin 16 → EReal) :
    (opsR recv send bi).atR hn = cur2 (rowsN (unc2 hn) recv) := rfl

theorem opsR_segsum (recv send : IVec S1310720 32) (bi : IVec S655360x2 32) (he : Fin 1310720 → Fin 16 → EReal) :
    (opsR recv send bi).segsum he = cur2 (sumN recv (unc2 he)) := rfl

theorem opsR_pairavg (recv send : IVec S1310720 32) (bi : IVec S655360x2 32) (he : Fin 1310720 → Fin 16 → EReal) :
    (opsR recv send bi).pairavg he = cur2 (pairAvg bi (unc2 he)) := by simp only [opsR]

theorem opsR_mask (recv send : IVec S1310720 32) (bi : IVec S655360x2 32) (k : Fin 1310720) :
    (opsR recv send bi).mask k = maskGE send recv (ix1 k) := rfl

end Cert.Ref

end
-- ==== Proof.Ref.ResultLib.lean ====
import proofs.«408468_j77438260346965_2_alg».proof.Proof.Spec
import Idealize.ShloMosaic.PureOps.Ideal.Laws

noncomputable section

open scoped BigOperators

namespace Cert.Ref.Result

open Idealize.ShloMosaic Idealize.ShloMosaic.ValueIdx
open Cert.Spec

theorem idx2_of {n0 n1 : ℕ} (f : (⟨2, ![n0, n1]⟩ : Shape).Idx) (a : Fin n0) (b : Fin n1) (h0 : f 0 = a) (h1 : f 1 = b) :
    f = ix2 a b := by
  subst h0 h1
  exact eq_ix2 f

theorem idx1_of {n : ℕ} (f : (⟨1, ![n]⟩ : Shape).Idx) (a : Fin n) (h0 : f 0 = a) : f = ix1 a := by
  subst h0
  exact eq_ix1 f

theorem cur2_col {α : Type} {n : ℕ} (v : (⟨2, ![n, 1]⟩ : Shape).Idx → α) : cur2 v = fun r (_ : Fin 1) => col1 v r := by
  funext r q
  obtain rfl : q = 0 := Subsingleton.elim _ _
  rfl

theorem mlp_of_reads {R K H C : ℕ} (x : Fin R → Fin K → EReal) (W1 : Fin K → Fin H → EReal) (b1 : Fin H → EReal)
    (W2 : Fin H → Fin C → EReal) (b2 : Fin C → EReal) (hid : Fin R → Fin H → EReal) (out : Fin R → Fin C → EReal)
    (hhid : ∀ r h, hid r h = max ((∑ q, x r q * W1 q h) + b1 h) 0)
    (hout : ∀ r j, out r j = (∑ h, hid r h * W2 h j) + b2 j) :
    out = mlp x W1 b1 W2 b2 := by
  funext r j
  rw [hout r j]
  simp only [mlp, lin, relu, hhid]

theorem ofBits_neg_inf : Ideal.ofBits .f32 0xFF800000#32 = (⊥ : EReal) := by
  simp [Ideal.ofBits, Ideal.ieee]

theorem fold_max_bot {ι : Type} (s : Finset ι) (f : ι → EReal) :
    s.fold (FloatOps.maximumf (F := Ideal) (φ := .f32)) (⊥ : EReal) f = s.sup f := rfl

end Cert.Ref.Result

end
-- ==== Proof.Ref.ResultNet.lean ====
import proofs.«408468_j77438260346965_2_alg».proof.Proof.SpecArgs

noncomputable section

namespace Cert.Ref.Result

open Idealize.ShloMosaic Idealize.ShloMosaic.ValueIdx
open Cert.Spec

theorem result_at {N E : ℕ} (o : Ops N E) (nodeW edgeW : Wts 1 16) (mpe : Wts (16 + 16 + 16) 16) (mpn : Wts (16 + 16) 16)
    (dec : Wts 16 1) (nodes : Fin N → EReal) (e : Fin E → EReal) (α : EReal) (k : Fin E) :
    result o nodeW edgeW mpe mpn dec nodes e α k
      = Scalar.select (o.mask k)
          (e k + α * (dec.app (o.pairavg (round o mpe mpn (round o mpe mpn (round o mpe mpn (round o mpe mpn (round o mpe mpn
            (nodeW.app (fun r (_ : Fin 1) => nodes r), edgeW.app (fun r (_ : Fin 1) => scale e (absmax e) r))))))).2) k (0 : Fin 1)
            * absmax e)) 0 := rfl

end Cert.Ref.Result

end
-- ==== Proof.Ref.ResultNorm.lean ====
import proofs.«408468_j77438260346965_2_alg».proof.Proof.Ref.ReadP
import proofs.«408468_j77438260346965_2_alg».proof.Proof.Ref.ResultLib

noncomputable section

open scoped BigOperators

namespace Cert.Ref.Result

open Cert.ReferenceIdeal Cert.ReferenceIdeal.ReadP
open Idealize.ShloMosaic Idealize.ShloMosaic.ValueIdx
open Cert.Spec

theorem norm_eq (x1 : (⟨S1310720x1, .f32⟩ : BufTy).Contents (Elt Ideal)) :
    val_main_v1 (F := Ideal) x1 = fun _ => absmax (col1 x1) := by
  funext j
  unfold val_main_v1
  rw [Host.reduce_eq_fold, Finset.filter_true_of_mem (fun i _ => funext fun d => d.elim0), val_main_cst_apply,
    Ideal.ofBits_def, ofBits_neg_inf, fold_max_bot]
  apply le_antisymm
  · refine Finset.sup_le fun i _ => ?_
    obtain ⟨p, q, rfl⟩ : ∃ (p : Fin 1310720) (q : Fin 1), i = ix2 p q := ⟨i 0, i 1, eq_ix2 i⟩
    obtain rfl : q = 0 := Subsingleton.elim _ _
    rw [val_main_v0_apply]
    exact Finset.le_sup (f := fun k : Fin 1310720 => max (col1 x1 k) (-(col1 x1 k))) (Finset.mem_univ p)
  · refine Finset.sup_le fun k _ => ?_
    have h := Finset.le_sup (f := val_main_v0 (F := Ideal) x1) (Finset.mem_univ (ix2 k (0 : Fin 1)))
    rw [val_main_v0_apply] at h
    exact h

theorem scaled_eq (x1 : (⟨S1310720x1, .f32⟩ : BufTy).Contents (Elt Ideal)) :
    val_main_v3 (F := Ideal) x1 = unc2 (fun r (_ : Fin 1) => scale (col1 x1) (absmax (col1 x1)) r) := by
  funext i
  obtain ⟨p, q, rfl⟩ : ∃ (p : Fin 1310720) (q : Fin 1), i = ix2 p q := ⟨i 0, i 1, eq_ix2 i⟩
  obtain rfl : q = 0 := Subsingleton.elim _ _
  rw [val_main_v3_apply, val_main_v2_apply, norm_eq]
  rfl

end Cert.Ref.Result

end
-- ==== Proof.Ref.ResultTerms.lean ====
import proofs.«408468_j77438260346965_2_alg».proof.Proof.Ref.ReadP
import proofs.«408468_j77438260346965_2_alg».proof.Proof.Ref.Terms

noncomputable section

namespace Cert.Ref.Result

open Cert.ReferenceIdeal Cert.ReferenceIdeal.ReadP
open Idealize.ShloMosaic Idealize.ShloMosaic.ValueIdx
open Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

local notation "HN0" => val_main_v12 (F := Ideal) x0 x9 x10 x11 x12
local notation "HE0" => val_main_v21 (F := Ideal) x1 x13 x14 x15 x16
local notation "HE1" => val_main_v45 (F := Ideal) x0 x1 x2 x3 x9 x10 x11 x12 x13 x14 x15 x16 x17 x18 x19 x20
local notation "HN1" => val_main_v58 (F := Ideal) x0 x1 x2 x3 x9 x10 x11 x12 x13 x14 x15 x16 x17 x18 x19 x20 x21 x22 x23 x24
local notation "HE2" => val_main_v82 (F := Ideal) x0 x1 x2 x3 x9 x10 x11 x12 x13 x14 x15 x16 x17 x18 x19 x20 x21 x22 x23 x24
local notation "HN2" => val_main_v95 (F := Ideal) x0 x1 x2 x3 x9 x10 x11 x12 x13 x14 x15 x16 x17 x18 x19 x20 x21 x22 x23 x24
local notation "HE3" => val_main_v119 (F := Ideal) x0 x1 x2 x3 x9 x10 x11 x12 x13 x14 x15 x16 x17 x18 x19 x20 x21 x22 x23 x24
local notation "HN3" => val_main_v132 (F := Ideal) x0 x1 x2 x3 x9 x10 x11 x12 x13 x14 x15 x16 x17 x18 x19 x20 x21 x22 x23 x24
local notation "HE4" => val_main_v156 (F := Ideal) x0 x1 x2 x3 x9 x10 x11 x12 x13 x14 x15 x16 x17 x18 x19 x20 x21 x22 x23 x24
local notation "HN4" => val_main_v169 (F := Ideal) x0 x1 x2 x3 x9 x10 x11 x12 x13 x14 x15 x16 x17 x18 x19 x20 x21 x22 x23 x24
local notation "HE5" => val_main_v193 (F := Ideal) x0 x1 x2 x3 x9 x10 x11 x12 x13 x14 x15 x16 x17 x18 x19 x20 x21 x22 x23 x24

theorem wrapS_1 : val_main_v27 (F := Ideal) x3 = wrapN x3 := rfl
theorem wrapR_1 : val_main_v34 (F := Ideal) x2 = wrapN x2 := rfl
theorem wrapS_2 : val_main_v64 (F := Ideal) x3 = wrapN x3 := rfl
theorem wrapR_2 : val_main_v71 (F := Ideal) x2 = wrapN x2 := rfl
theorem wrapS_3 : val_main_v101 (F := Ideal) x3 = wrapN x3 := rfl
theorem wrapR_3 : val_main_v108 (F := Ideal) x2 = wrapN x2 := rfl
theorem wrapS_4 : val_main_v138 (F := Ideal) x3 = wrapN x3 := rfl
theorem wrapR_4 : val_main_v145 (F := Ideal) x2 = wrapN x2 := rfl
theorem wrapS_5 : val_main_v175 (F := Ideal) x3 = wrapN x3 := rfl
theorem wrapR_5 : val_main_v182 (F := Ideal) x2 = wrapN x2 := rfl

theorem rowsS_1 : val_main_v28 (F := Ideal) x0 x3 x9 x10 x11 x12 = rowsN HN0 x3 := by
  unfold val_main_v28 rowsN; rw [wrapS_1]
theorem rowsR_1 : val_main_v35 (F := Ideal) x0 x2 x9 x10 x11 x12 = rowsN HN0 x2 := by
  unfold val_main_v35 rowsN; rw [wrapR_1]
theorem rowsS_2 : val_main_v65 (F := Ideal) x0 x1 x2 x3 x9 x10 x11 x12 x13 x14 x15 x16 x17 x18 x19 x20 x21 x22 x23 x24 = rowsN HN1 x3 := by
  unfold val_main_v65 rowsN; rw [wrapS_2]
theorem rowsR_2 : val_main_v72 (F := Ideal) x0 x1 x2 x3 x9 x10 x11 x12 x13 x14 x15 x16 x17 x18 x19 x20 x21 x22 x23 x24 = rowsN HN1 x2 := by
  unfold val_main_v72 rowsN; rw [wrapR_2]
theorem rowsS_3 : val_main_v102 (F := Ideal) x0 x1 x2 x3 x9 x10 x11 x12 x13 x14 x15 x16 x17 x18 x19 x20 x21 x22 x23 x24 = rowsN HN2 x3 := by
  unfold val_main_v102 rowsN; rw [wrapS_3]
theorem rowsR_3 : val_main_v109 (F := Ideal) x0 x1 x2 x3 x9 x10 x11 x12 x13 x14 x15 x16 x17 x18 x19 x20 x21 x22 x23 x24 = rowsN HN2 x2 := by
  unfold val_main_v109 rowsN; rw [wrapR_3]
theorem rowsS_4 : val_main_v139 (F := Ideal) x0 x1 x2 x3 x9 x10 x11 x12 x13 x14 x15 x16 x17 x18 x19 x20 x21 x22 x23 x24 = rowsN HN3 x3 := by
  unfold val_main_v139 rowsN; rw [wrapS_4]
theorem rowsR_4 : val_main_v146 (F := Ideal) x0 x1 x2 x3 x9 x10 x11 x12 x13 x14 x15 x16 x17 x18 x19 x20 x21 x22 x23 x24 = rowsN HN3 x2 := by
  unfold val_main_v146 rowsN; rw [wrapR_4]
theorem rowsS_5 : val_main_v176 (F := Ideal) x0 x1 x2 x3 x9 x10 x11 x12 x13 x14 x15 x16 x17 x18 x19 x20 x21 x22 x23 x24 = rowsN HN4 x3 := by
  unfold val_main_v176 rowsN; rw [wrapS_5]
theorem rowsR_5 : val_main_v183 (F := Ideal) x0 x1 x2 x3 x9 x10 x11 x12 x13 x14 x15 x16 x17 x18 x19 x20 x21 x22 x23 x24 = rowsN HN4 x2 := by
  unfold val_main_v183 rowsN; rw [wrapR_5]

theorem zeros_1 : val_main_v46 (F := Ideal) = zerosN := rfl
theorem zeros_2 : val_main_v83 (F := Ideal) = zerosN := rfl
theorem zeros_3 : val_main_v120 (F := Ideal) = zerosN := rfl
theorem zeros_4 : val_main_v157 (F := Ideal) = zerosN := rfl

theorem sum_1 : val_main_v48 (F := Ideal) x0 x1 x2 x3 x9 x10 x11 x12 x13 x14 x15 x16 x17 x18 x19 x20 = sumN x2 HE1 := by
  unfold val_main_v48 sumN val_main_v47; rw [zeros_1]
theorem sum_2 : val_main_v85 (F := Ideal) x0 x1 x2 x3 x9 x10 x11 x12 x13 x14 x15 x16 x17 x18 x19 x20 x21 x22 x23 x24 = sumN x2 HE2 := by
  unfold val_main_v85 sumN val_main_v84; rw [zeros_2]
theorem sum_3 : val_main_v122 (F := Ideal) x0 x1 x2 x3 x9 x10 x11 x12 x13 x14 x15 x16 x17 x18 x19 x20 x21 x22 x23 x24 = sumN x2 HE3 := by
  unfold val_main_v122 sumN val_main_v121; rw [zeros_3]
theorem sum_4 : val_main_v159 (F := Ideal) x0 x1 x2 x3 x9 x10 x11 x12 x13 x14 x15 x16 x17 x18 x19 x20 x21 x22 x23 x24 = sumN x2 HE4 := by
  unfold val_main_v159 sumN val_main_v158; rw [zeros_4]

theorem col0_a : val_main_v208 (F := Ideal) x4 = pairCol0 x4 := rfl
theorem col1_a : val_main_v217 (F := Ideal) x4 = pairCol1 x4 := rfl
theorem col0_b : val_main_v229 (F := Ideal) x4 = pairCol0 x4 := rfl
theorem col1_b : val_main_v238 (F := Ideal) x4 = pairCol1 x4 := rfl

theorem wrapE0_a : val_main_v214 (F := Ideal) x4 = wrapE (pairCol0 x4) := rfl
theorem wrapE1_a : val_main_v223 (F := Ideal) x4 = wrapE (pairCol1 x4) := rfl
theorem wrapE0_b : val_main_v235 (F := Ideal) x4 = wrapE (pairCol0 x4) := rfl
theorem wrapE1_b : val_main_v244 (F := Ideal) x4 = wrapE (pairCol1 x4) := rfl

theorem rowsE_0 : val_main_v215 (F := Ideal) x0 x1 x2 x3 x4 x9 x10 x11 x12 x13 x14 x15 x16 x17 x18 x19 x20 x21 x22 x23 x24 = rowsE HE5 (pairCol0 x4) := by
  unfold val_main_v215 rowsE; rw [wrapE0_a]
theorem rowsE_1 : val_main_v224 (F := Ideal) x0 x1 x2 x3 x4 x9 x10 x11 x12 x13 x14 x15 x16 x17 x18 x19 x20 x21 x22 x23 x24 = rowsE HE5 (pairCol1 x4) := by
  unfold val_main_v224 rowsE; rw [wrapE1_a]

theorem half_eq : val_main_v226 (F := Ideal) = halfE := rfl

theorem avg_eq : val_main_v227 (F := Ideal) x0 x1 x2 x3 x4 x9 x10 x11 x12 x13 x14 x15 x16 x17 x18 x19 x20 x21 x22 x23 x24 = avgE x4 HE5 := by
  unfold val_main_v227 val_main_v225 avgE; rw [rowsE_0, rowsE_1, half_eq]

theorem set0_eq : val_main_v236 (F := Ideal) x0 x1 x2 x3 x4 x9 x10 x11 x12 x13 x14 x15 x16 x17 x18 x19 x20 x21 x22 x23 x24 = setE HE5 (pairCol0 x4) (avgE x4 HE5) := by
  unfold val_main_v236 setE; rw [wrapE0_b, avg_eq]

theorem pairAvg_eq : val_main_v245 (F := Ideal) x0 x1 x2 x3 x4 x9 x10 x11 x12 x13 x14 x15 x16 x17 x18 x19 x20 x21 x22 x23 x24 = pairAvg x4 HE5 := by
  unfold val_main_v245 pairAvg; rw [set0_eq, wrapE1_b, avg_eq]; rfl

end Cert.Ref.Result

end
-- ==== Proof.Ref.ResultMlpEncN.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem EncN_hid
    (x0 : (⟨S262144x1, .f32⟩ : BufTy).Contents (Elt Ideal)) (x9 : (⟨S1x16, .f32⟩ : BufTy).Contents (Elt Ideal)) (x10 : (⟨S16, .f32⟩ : BufTy).Contents (Elt Ideal))
    (r : Fin 262144) (h : Fin 16) :
    val_main_v8 (F := Ideal) x0 x9 x10 (ix2 r h)
      = max ((∑ q : Fin 1, (x0) (ix2 r q) * x9 (ix2 q h)) + x10 (ix1 h)) 0 := by
  have el : ∀ k : Fin 1, lidx_main_v4 (ix2 r h) k = ix2 r k := fun k => idx2_of _ _ _ rfl rfl
  have er : ∀ k : Fin 1, ridx_main_v4 (ix2 r h) k = ix2 k h := fun k => idx2_of _ _ _ rfl rfl
  have eb : idx_main_v5 (idx_main_v6 (ix2 r h)) = ix1 h := idx1_of _ _ (by first | rfl | exact Subsingleton.elim (α := Fin 1) _ _)
  rw [val_main_v8_apply, val_main_v7_apply, val_main_v4_apply, val_main_v6_apply, val_main_v5_apply,
    val_main_call0_v0_apply, val_main_call0_cst_apply, eb, Ideal.ofBits_def, Ideal.ofBits_zero_f32, Ideal.maximumf_def,
    Ideal.addf_def]
  exact congrArg (fun s => max (s + x10 (ix1 h)) 0) (Finset.sum_congr rfl fun k _ => by rw [el k, er k])

theorem EncN_out
    (x0 : (⟨S262144x1, .f32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal))
    (r : Fin 262144) (j : Fin 16) :
    val_main_v12 (F := Ideal) x0 x9 x10 x11 x12 (ix2 r j)
      = (∑ h : Fin 16, val_main_v8 (F := Ideal) x0 x9 x10 (ix2 r h) * x11 (ix2 h j)) + x12 (ix1 j) := by
  have el : ∀ k : Fin 16, lidx_main_v9 (ix2 r j) k = ix2 r k := fun k => idx2_of _ _ _ rfl rfl
  have er : ∀ k : Fin 16, ridx_main_v9 (ix2 r j) k = ix2 k j := fun k => idx2_of _ _ _ rfl rfl
  have eb : idx_main_v10 (idx_main_v11 (ix2 r j)) = ix1 j := idx1_of _ _ (by first | rfl | exact Subsingleton.elim (α := Fin 1) _ _)
  rw [val_main_v12_apply, val_main_v9_apply, val_main_v11_apply, val_main_v10_apply, eb, Ideal.addf_def]
  exact congrArg (fun s => s + x12 (ix1 j)) (Finset.sum_congr rfl fun k _ => by rw [el k, er k])

theorem mlp_EncN
    (x0 : (⟨S262144x1, .f32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) :
    val_main_v12 (F := Ideal) x0 x9 x10 x11 x12
      = unc2 ((wtsOf (K := 1) (C := 16) x9 x10 x11 x12).app (cur2 (x0))) :=
  (unc2_cur2 _).symm.trans (congrArg unc2 (mlp_of_reads (cur2 (x0)) (cur2 x9) (fun h => x10 (ix1 h)) (cur2 x11)
    (fun j => x12 (ix1 j)) (cur2 (val_main_v8 (F := Ideal) x0 x9 x10)) (cur2 (val_main_v12 (F := Ideal) x0 x9 x10 x11 x12))
    (fun r h => EncN_hid x0 x9 x10 r h) (fun r j => EncN_out x0 x9 x10 x11 x12 r j)))

end Cert.Ref.Result

end
-- ==== Proof.Ref.ResultMlpEncE.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem EncE_hid
    (x1 : (⟨S1310720x1, .f32⟩ : BufTy).Contents (Elt Ideal)) (x13 : (⟨S1x16, .f32⟩ : BufTy).Contents (Elt Ideal)) (x14 : (⟨S16, .f32⟩ : BufTy).Contents (Elt Ideal))
    (r : Fin 1310720) (h : Fin 16) :
    val_main_v17 (F := Ideal) x1 x13 x14 (ix2 r h)
      = max ((∑ q : Fin 1, (val_main_v3 (F := Ideal) x1) (ix2 r q) * x13 (ix2 q h)) + x14 (ix1 h)) 0 := by
  have el : ∀ k : Fin 1, lidx_main_v13 (ix2 r h) k = ix2 r k := fun k => idx2_of _ _ _ rfl rfl
  have er : ∀ k : Fin 1, ridx_main_v13 (ix2 r h) k = ix2 k h := fun k => idx2_of _ _ _ rfl rfl
  have eb : idx_main_v14 (idx_main_v15 (ix2 r h)) = ix1 h := idx1_of _ _ (by first | rfl | exact Subsingleton.elim (α := Fin 1) _ _)
  rw [val_main_v17_apply, val_main_v16_apply, val_main_v13_apply, val_main_v15_apply, val_main_v14_apply,
    val_main_call1_v0_apply, val_main_call1_cst_apply, eb, Ideal.ofBits_def, Ideal.ofBits_zero_f32, Ideal.maximumf_def,
    Ideal.addf_def]
  exact congrArg (fun s => max (s + x14 (ix1 h)) 0) (Finset.sum_congr rfl fun k _ => by rw [el k, er k])

theorem EncE_out
    (x1 : (⟨S1310720x1, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal))
    (r : Fin 1310720) (j : Fin 16) :
    val_main_v21 (F := Ideal) x1 x13 x14 x15 x16 (ix2 r j)
      = (∑ h : Fin 16, val_main_v17 (F := Ideal) x1 x13 x14 (ix2 r h) * x15 (ix2 h j)) + x16 (ix1 j) := by
  have el : ∀ k : Fin 16, lidx_main_v18 (ix2 r j) k = ix2 r k := fun k => idx2_of _ _ _ rfl rfl
  have er : ∀ k : Fin 16, ridx_main_v18 (ix2 r j) k = ix2 k j := fun k => idx2_of _ _ _ rfl rfl
  have eb : idx_main_v19 (idx_main_v20 (ix2 r j)) = ix1 j := idx1_of _ _ (by first | rfl | exact Subsingleton.elim (α := Fin 1) _ _)
  rw [val_main_v21_apply, val_main_v18_apply, val_main_v20_apply, val_main_v19_apply, eb, Ideal.addf_def]
  exact congrArg (fun s => s + x16 (ix1 j)) (Finset.sum_congr rfl fun k _ => by rw [el k, er k])

theorem mlp_EncE
    (x1 : (⟨S1310720x1, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) :
    val_main_v21 (F := Ideal) x1 x13 x14 x15 x16
      = unc2 ((wtsOf (K := 1) (C := 16) x13 x14 x15 x16).app (cur2 (val_main_v3 (F := Ideal) x1))) :=
  (unc2_cur2 _).symm.trans (congrArg unc2 (mlp_of_reads (cur2 (val_main_v3 (F := Ideal) x1)) (cur2 x13) (fun h => x14 (ix1 h)) (cur2 x15)
    (fun j => x16 (ix1 j)) (cur2 (val_main_v17 (F := Ideal) x1 x13 x14)) (cur2 (val_main_v21 (F := Ideal) x1 x13 x14 x15 x16))
    (fun r h => EncE_hid x1 x13 x14 r h) (fun r j => EncE_out x1 x13 x14 x15 x16 r j)))

end Cert.Ref.Result

end
-- ==== Proof.Ref.ResultMlpDec.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Dec_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x4 : (⟨S655360x2, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) (x25 : (⟨S16x16, .f32⟩ : BufTy).Contents (Elt Ideal)) (x26 : (⟨S16, .f32⟩ : BufTy).Contents (Elt Ideal))
    (r : Fin 1310720) (h : Fin 16) :
    val_main_v250 (F := Ideal) x0 x1 x2 x3 x4 x9 x10 x11 x12 x13 x14 x15 x16 x17 x18 x19 x20 x21 x22 x23 x24 x25 x26 (ix2 r h)
      = max ((∑ q : Fin 16, (val_main_v245 (F := Ideal) x0 x1 x2 x3 x4 x9 x10 x11 x12 x13 x14 x15 x16 x17 x18 x19 x20 x21 x22 x23 x24) (ix2 r q) * x25 (ix2 q h)) + x26 (ix1 h)) 0 := by
  have el : ∀ k : Fin 16, lidx_main_v246 (ix2 r h) k = ix2 r k := fun k => idx2_of _ _ _ rfl rfl
  have er : ∀ k : Fin 16, ridx_main_v246 (ix2 r h) k = ix2 k h := fun k => idx2_of _ _ _ rfl rfl
  have eb : idx_main_v247 (idx_main_v248 (ix2 r h)) = ix1 h := idx1_of _ _ (by first | rfl | exact Subsingleton.elim (α := Fin 1) _ _)
  rw [val_main_v250_apply, val_main_v249_apply, val_main_v246_apply, val_main_v248_apply, val_main_v247_apply,
    val_main_call12_v0_apply, val_main_call12_cst_apply, eb, Ideal.ofBits_def, Ideal.ofBits_zero_f32, Ideal.maximumf_def,
    Ideal.addf_def]
  exact congrArg (fun s => max (s + x26 (ix1 h)) 0) (Finset.sum_congr rfl fun k _ => by rw [el k, er k])

theorem Dec_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x4 : (⟨S655360x2, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) (x25 : (⟨S16x16, .f32⟩ : BufTy).Contents (Elt Ideal)) (x26 : (⟨S16, .f32⟩ : BufTy).Contents (Elt Ideal)) (x27 : (⟨S16x1, .f32⟩ : BufTy).Contents (Elt Ideal)) (x28 : (⟨S1, .f32⟩ : BufTy).Contents (Elt Ideal))
    (r : Fin 1310720) (j : Fin 1) :
    val_main_v254 (F := Ideal) x0 x1 x2 x3 x4 x9 x10 x11 x12 x13 x14 x15 x16 x17 x18 x19 x20 x21 x22 x23 x24 x25 x26 x27 x28 (ix2 r j)
      = (∑ h : Fin 16, val_main_v250 (F := Ideal) x0 x1 x2 x3 x4 x9 x10 x11 x12 x13 x14 x15 x16 x17 x18 x19 x20 x21 x22 x23 x24 x25 x26 (ix2 r h) * x27 (ix2 h j)) + x28 (ix1 j) := by
  have el : ∀ k : Fin 16, lidx_main_v251 (ix2 r j) k = ix2 r k := fun k => idx2_of _ _ _ rfl rfl
  have er : ∀ k : Fin 16, ridx_main_v251 (ix2 r j) k = ix2 k j := fun k => idx2_of _ _ _ rfl rfl
  have eb : idx_main_v252 (idx_main_v253 (ix2 r j)) = ix1 j := idx1_of _ _ (by first | rfl | exact Subsingleton.elim (α := Fin 1) _ _)
  rw [val_main_v254_apply, val_main_v251_apply, val_main_v253_apply, val_main_v252_apply, eb, Ideal.addf_def]
  exact congrArg (fun s => s + x28 (ix1 j)) (Finset.sum_congr rfl fun k _ => by rw [el k, er k])

theorem mlp_Dec
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x4 : (⟨S655360x2, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) (x25 : (⟨S16x16, .f32⟩ : BufTy).Contents (Elt Ideal)) (x26 : (⟨S16, .f32⟩ : BufTy).Contents (Elt Ideal)) (x27 : (⟨S16x1, .f32⟩ : BufTy).Contents (Elt Ideal)) (x28 : (⟨S1, .f32⟩ : BufTy).Contents (Elt Ideal)) :
    val_main_v254 (F := Ideal) x0 x1 x2 x3 x4 x9 x10 x11 x12 x13 x14 x15 x16 x17 x18 x19 x20 x21 x22 x23 x24 x25 x26 x27 x28
      = unc2 ((wtsOf (K := 16) (C := 1) x25 x26 x27 x28).app (cur2 (val_main_v245 (F := Ideal) x0 x1 x2 x3 x4 x9 x10 x11 x12 x13 x14 x15 x16 x17 x18 x19 x20 x21 x22 x23 x24))) :=
  (unc2_cur2 _).symm.trans (congrArg unc2 (mlp_of_reads (cur2 (val_main_v245 (F := Ideal) x0 x1 x2 x3 x4 x9 x10 x11 x12 x13 x14 x15 x16 x17 x18 x19 x20 x21 x22 x23 x24)) (cur2 x25) (fun h => x26 (ix1 h)) (cur2 x27)
    (fun j => x28 (ix1 j)) (cur2 (val_main_v250 (F := Ideal) x0 x1 x2 x3 x4 x9 x10 x11 x12 x13 x14 x15 x16 x17 x18 x19 x20 x21 x22 x23 x24 x25 x26)) (cur2 (val_main_v254 (F := Ideal) x0 x1 x2 x3 x4 x9 x10 x11 x12 x13 x14 x15 x16 x17 x18 x19 x20 x21 x22 x23 x24 x25 x26 x27 x28))
    (fun r h => Dec_hid x0 x1 x2 x3 x4 x9 x10 x11 x12 x13 x14 x15 x16 x17 x18 x19 x20 x21 x22 x23 x24 x25 x26 r h) (fun r j => Dec_out x0 x1 x2 x3 x4 x9 x10 x11 x12 x13 x14 x15 x16 x17 x18 x19 x20 x21 x22 x23 x24 x25 x26 x27 x28 r j)))

end Cert.Ref.Result

end
-- ==== Proof.Ref.ResultCat.lean ====
import proofs.«408468_j77438260346965_2_alg».proof.Proof.Spec
import Idealize.ShloMosaic.Lib.Pipeline.Value

noncomputable section

namespace Cert.Ref.Result

open Idealize.ShloMosaic Idealize.ShloMosaic.ValueIdx
open Cert.Spec

variable {α : Type} {R A B D : ℕ}

theorem row_same {W W' : ℕ} (r : Fin R) (k : Fin W) (q : Fin W') (hr : (⟨2, ![R, W]⟩ : Shape).rank = (⟨2, ![R, W']⟩ : Shape).rank)
    (d : Fin (⟨2, ![R, W]⟩ : Shape).rank) (hd : d.cast hr ≠ 1) : ((ix2 r k) d).val = ((ix2 r q) (d.cast hr)).val :=
  match d, hd with
  | ⟨0, _⟩, _ => rfl
  | ⟨1, _⟩, hd => absurd rfl hd

theorem cat2_read (a : (⟨2, ![R, A]⟩ : Shape).Idx → α) (b : (⟨2, ![R, B]⟩ : Shape).Idx → α)
    (h : Shape.Concatenates [(⟨2, ![R, A]⟩ : Shape), ⟨2, ![R, B]⟩] ⟨2, ![R, A + B]⟩ 1) :
    cur2 (concatenate (⟨2, ![R, A + B]⟩ : Shape) 1 [⟨⟨2, ![R, A]⟩, a⟩, ⟨⟨2, ![R, B]⟩, b⟩] h) = cat2 (cur2 a) (cur2 b) := by
  funext r c
  refine Fin.addCases (fun k => ?left) (fun k => ?right) c
  case left =>
    simp only [cat2, Fin.append_left, cur2]
    exact concatenate_apply_piece (t := ⟨2, ![R, A + B]⟩) 1 [⟨⟨2, ![R, A]⟩, a⟩, ⟨⟨2, ![R, B]⟩, b⟩] h (ix2 r (Fin.castAdd B k)) 0
      (by simp) ⟨2, ![R, A]⟩ a rfl rfl 0 rfl (ix2 r k) (row_same r k (Fin.castAdd B k) rfl) (Nat.zero_add _)
  case right =>
    simp only [cat2, Fin.append_right, cur2]
    exact concatenate_apply_piece (t := ⟨2, ![R, A + B]⟩) 1 [⟨⟨2, ![R, A]⟩, a⟩, ⟨⟨2, ![R, B]⟩, b⟩] h (ix2 r (Fin.natAdd A k)) 1
      (by simp) ⟨2, ![R, B]⟩ b rfl rfl A rfl (ix2 r k) (row_same r k (Fin.natAdd A k) rfl) rfl

theorem cat3_read (a : (⟨2, ![R, A]⟩ : Shape).Idx → α) (b : (⟨2, ![R, B]⟩ : Shape).Idx → α) (c : (⟨2, ![R, D]⟩ : Shape).Idx → α)
    (h : Shape.Concatenates [(⟨2, ![R, A]⟩ : Shape), ⟨2, ![R, B]⟩, ⟨2, ![R, D]⟩] ⟨2, ![R, A + B + D]⟩ 1) :
    cur2 (concatenate (⟨2, ![R, A + B + D]⟩ : Shape) 1 [⟨⟨2, ![R, A]⟩, a⟩, ⟨⟨2, ![R, B]⟩, b⟩, ⟨⟨2, ![R, D]⟩, c⟩] h)
      = cat2 (cat2 (cur2 a) (cur2 b)) (cur2 c) := by
  funext r q
  refine Fin.addCases (fun q' => Fin.addCases (fun k => ?left) (fun k => ?mid) q') (fun k => ?right) q
  case left =>
    simp only [cat2, Fin.append_left, cur2]
    exact concatenate_apply_piece (t := ⟨2, ![R, A + B + D]⟩) 1 [⟨⟨2, ![R, A]⟩, a⟩, ⟨⟨2, ![R, B]⟩, b⟩, ⟨⟨2, ![R, D]⟩, c⟩] h
      (ix2 r (Fin.castAdd D (Fin.castAdd B k))) 0 (by simp) ⟨2, ![R, A]⟩ a rfl rfl 0 rfl (ix2 r k) (row_same r k (Fin.castAdd D (Fin.castAdd B k)) rfl)
      (Nat.zero_add _)
  case mid =>
    simp only [cat2, Fin.append_left, Fin.append_right, cur2]
    exact concatenate_apply_piece (t := ⟨2, ![R, A + B + D]⟩) 1 [⟨⟨2, ![R, A]⟩, a⟩, ⟨⟨2, ![R, B]⟩, b⟩, ⟨⟨2, ![R, D]⟩, c⟩] h
      (ix2 r (Fin.castAdd D (Fin.natAdd A k))) 1 (by simp) ⟨2, ![R, B]⟩ b rfl rfl A rfl (ix2 r k) (row_same r k (Fin.castAdd D (Fin.natAdd A k)) rfl) rfl
  case right =>
    simp only [cat2, Fin.append_right, cur2]
    exact concatenate_apply_piece (t := ⟨2, ![R, A + B + D]⟩) 1 [⟨⟨2, ![R, A]⟩, a⟩, ⟨⟨2, ![R, B]⟩, b⟩, ⟨⟨2, ![R, D]⟩, c⟩] h
      (ix2 r (Fin.natAdd (A + B) k)) 2 (by simp) ⟨2, ![R, D]⟩ c rfl rfl (A + B) rfl (ix2 r k) (row_same r k (Fin.natAdd (A + B) k) rfl) rfl

end Cert.Ref.Result

end
-- ==== Proof.Ref.ResultMlpEdge1.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Edge1_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal))
    (r : Fin 1310720) (h : Fin 16) :
    val_main_v41 (F := Ideal) x0 x1 x2 x3 x9 x10 x11 x12 x13 x14 x15 x16 x17 x18 (ix2 r h)
      = max ((∑ q : Fin 48, (val_main_v36 (F := Ideal) x0 x1 x2 x3 x9 x10 x11 x12 x13 x14 x15 x16) (ix2 r q) * x17 (ix2 q h)) + x18 (ix1 h)) 0 := by
  have el : ∀ k : Fin 48, lidx_main_v37 (ix2 r h) k = ix2 r k := fun k => idx2_of _ _ _ rfl rfl
  have er : ∀ k : Fin 48, ridx_main_v37 (ix2 r h) k = ix2 k h := fun k => idx2_of _ _ _ rfl rfl
  have eb : idx_main_v38 (idx_main_v39 (ix2 r h)) = ix1 h := idx1_of _ _ (by first | rfl | exact Subsingleton.elim (α := Fin 1) _ _)
  rw [val_main_v41_apply, val_main_v40_apply, val_main_v37_apply, val_main_v39_apply, val_main_v38_apply,
    val_main_call2_v0_apply, val_main_call2_cst_apply, eb, Ideal.ofBits_def, Ideal.ofBits_zero_f32, Ideal.maximumf_def,
    Ideal.addf_def]
  exact congrArg (fun s => max (s + x18 (ix1 h)) 0) (Finset.sum_congr rfl fun k _ => by rw [el k, er k])

theorem Edge1_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal))
    (r : Fin 1310720) (j : Fin 16) :
    val_main_v45 (F := Ideal) x0 x1 x2 x3 x9 x10 x11 x12 x13 x14 x15 x16 x17 x18 x19 x20 (ix2 r j)
      = (∑ h : Fin 16, val_main_v41 (F := Ideal) x0 x1 x2 x3 x9 x10 x11 x12 x13 x14 x15 x16 x17 x18 (ix2 r h) * x19 (ix2 h j)) + x20 (ix1 j) := by
  have el : ∀ k : Fin 16, lidx_main_v42 (ix2 r j) k = ix2 r k := fun k => idx2_of _ _ _ rfl rfl
  have er : ∀ k : Fin 16, ridx_main_v42 (ix2 r j) k = ix2 k j := fun k => idx2_of _ _ _ rfl rfl
  have eb : idx_main_v43 (idx_main_v44 (ix2 r j)) = ix1 j := idx1_of _ _ (by first | rfl | exact Subsingleton.elim (α := Fin 1) _ _)
  rw [val_main_v45_apply, val_main_v42_apply, val_main_v44_apply, val_main_v43_apply, eb, Ideal.addf_def]
  exact congrArg (fun s => s + x20 (ix1 j)) (Finset.sum_congr rfl fun k _ => by rw [el k, er k])

theorem mlp_Edge1
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) :
    val_main_v45 (F := Ideal) x0 x1 x2 x3 x9 x10 x11 x12 x13 x14 x15 x16 x17 x18 x19 x20
      = unc2 ((wtsOf (K := 16 + 16 + 16) (C := 16) x17 x18 x19 x20).app (cur2 (val_main_v36 (F := Ideal) x0 x1 x2 x3 x9 x10 x11 x12 x13 x14 x15 x16))) :=
  (unc2_cur2 _).symm.trans (congrArg unc2 (mlp_of_reads (cur2 (val_main_v36 (F := Ideal) x0 x1 x2 x3 x9 x10 x11 x12 x13 x14 x15 x16)) (cur2 x17) (fun h => x18 (ix1 h)) (cur2 x19)
    (fun j => x20 (ix1 j)) (cur2 (val_main_v41 (F := Ideal) x0 x1 x2 x3 x9 x10 x11 x12 x13 x14 x15 x16 x17 x18)) (cur2 (val_main_v45 (F := Ideal) x0 x1 x2 x3 x9 x10 x11 x12 x13 x14 x15 x16 x17 x18 x19 x20))
    (fun r h => Edge1_hid x0 x1 x2 x3 x9 x10 x11 x12 x13 x14 x15 x16 x17 x18 r h) (fun r j => Edge1_out x0 x1 x2 x3 x9 x10 x11 x12 x13 x14 x15 x16 x17 x18 x19 x20 r j)))

end Cert.Ref.Result

end
-- ==== Proof.Ref.ResultEdge1.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpEdge1

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem edge_1 :
    cur2 (val_main_v45 (F := Ideal) x0 x1 x2 x3 x9 x10 x11 x12 x13 x14 x15 x16 x17 x18 x19 x20)
      = edgeStep (opsR x2 x3 x4) (wtsOf (K := 16 + 16 + 16) (C := 16) x17 x18 x19 x20)
          (cur2 (val_main_v12 (F := Ideal) x0 x9 x10 x11 x12)) (cur2 (val_main_v21 (F := Ideal) x1 x13 x14 x15 x16)) := by
  have hc : cur2 (val_main_v36 (F := Ideal) x0 x1 x2 x3 x9 x10 x11 x12 x13 x14 x15 x16)
      = cat2 (cat2 (cur2 (val_main_v28 (F := Ideal) x0 x3 x9 x10 x11 x12)) (cur2 (val_main_v35 (F := Ideal) x0 x2 x9 x10 x11 x12)))
          (cur2 (val_main_v21 (F := Ideal) x1 x13 x14 x15 x16)) :=
    cat3_read (R := 1310720) (A := 16) (B := 16) (D := 16) _ _ _ concatenates_S1310720x16_S1310720x16_S1310720x16_S1310720x48_d1
  rw [mlp_Edge1, cur2_unc2, hc, rowsS_1, rowsR_1, edgeStep, opsR_atS, opsR_atR, unc2_cur2]

end Cert.Ref.Result

end
-- ==== Proof.Ref.ResultMlpEdge2.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Edge2_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (h : Fin 16) :
    val_main_v78 (F := Ideal) x0 x1 x2 x3 x9 x10 x11 x12 x13 x14 x15 x16 x17 x18 x19 x20 x21 x22 x23 x24 (ix2 r h)
      = max ((∑ q : Fin 48, (val_main_v73 (F := Ideal) x0 x1 x2 x3 x9 x10 x11 x12 x13 x14 x15 x16 x17 x18 x19 x20 x21 x22 x23 x24) (ix2 r q) * x17 (ix2 q h)) + x18 (ix1 h)) 0 := by
  have el : ∀ k : Fin 48, lidx_main_v74 (ix2 r h) k = ix2 r k := fun k => idx2_of _ _ _ rfl rfl
  have er : ∀ k : Fin 48, ridx_main_v74 (ix2 r h) k = ix2 k h := fun k => idx2_of _ _ _ rfl rfl
  have eb : idx_main_v75 (idx_main_v76 (ix2 r h)) = ix1 h := idx1_of _ _ (by first | rfl | exact Subsingleton.elim (α := Fin 1) _ _)
  rw [val_main_v78_apply, val_main_v77_apply, val_main_v74_apply, val_main_v76_apply, val_main_v75_apply,
    val_main_call4_v0_apply, val_main_call4_cst_apply, eb, Ideal.ofBits_def, Ideal.ofBits_zero_f32, Ideal.maximumf_def,
    Ideal.addf_def]
  exact congrArg (fun s => max (s + x18 (ix1 h)) 0) (Finset.sum_congr rfl fun k _ => by rw [el k, er k])

theorem Edge2_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (j : Fin 16) :
    val_main_v82 (F := Ideal) x0 x1 x2 x3 x9 x10 x11 x12 x13 x14 x15 x16 x17 x18 x19 x20 x21 x22 x23 x24 (ix2 r j)
      = (∑ h : Fin 16, val_main_v78 (F := Ideal) x0 x1 x2 x3 x9 x10 x11 x12 x13 x14 x15 x16 x17 x18 x19 x20 x21 x22 x23 x24 (ix2 r h) * x19 (ix2 h j)) + x20 (ix1 j) := by
  have el : ∀ k : Fin 16, lidx_main_v79 (ix2 r j) k = ix2 r k := fun k => idx2_of _ _ _ rfl rfl
  have er : ∀ k : Fin 16, ridx_main_v79 (ix2 r j) k = ix2 k j := fun k => idx2_of _ _ _ rfl rfl
  have eb : idx_main_v80 (idx_main_v81 (ix2 r j)) = ix1 j := idx1_of _ _ (by first | rfl | exact Subsingleton.elim (α := Fin 1) _ _)
  rw [val_main_v82_apply, val_main_v79_apply, val_main_v81_apply, val_main_v80_apply, eb, Ideal.addf_def]
  exact congrArg (fun s => s + x20 (ix1 j)) (Finset.sum_congr rfl fun k _ => by rw [el k, er k])

theorem mlp_Edge2
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v82 (F := Ideal) x0 x1 x2 x3 x9 x10 x11 x12 x13 x14 x15 x16 x17 x18 x19 x20 x21 x22 x23 x24
      = unc2 ((wtsOf (K := 16 + 16 + 16) (C := 16) x17 x18 x19 x20).app (cur2 (val_main_v73 (F := Ideal) x0 x1 x2 x3 x9 x10 x11 x12 x13 x14 x15 x16 x17 x18 x19 x20 x21 x22 x23 x24))) :=
  (unc2_cur2 _).symm.trans (congrArg unc2 (mlp_of_reads (cur2 (val_main_v73 (F := Ideal) x0 x1 x2 x3 x9 x10 x11 x12 x13 x14 x15 x16 x17 x18 x19 x20 x21 x22 x23 x24)) (cur2 x17) (fun h => x18 (ix1 h)) (cur2 x19)
    (fun j => x20 (ix1 j)) (cur2 (val_main_v78 (F := Ideal) x0 x1 x2 x3 x9 x10 x11 x12 x13 x14 x15 x16 x17 x18 x19 x20 x21 x22 x23 x24)) (cur2 (val_main_v82 (F := Ideal) x0 x1 x2 x3 x9 x10 x11 x12 x13 x14 x15 x16 x17 x18 x19 x20 x21 x22 x23 x24))
    (fun r h => Edge2_hid x0 x1 x2 x3 x9 x10 x11 x12 x13 x14 x15 x16 x17 x18 x19 x20 x21 x22 x23 x24 r h) (fun r j => Edge2_out x0 x1 x2 x3 x9 x10 x11 x12 x13 x14 x15 x16 x17 x18 x19 x20 x21 x22 x23 x24 r j)))

end Cert.Ref.Result

end
-- ==== Proof.Ref.ResultEdge2.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpEdge2

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem edge_2 :
    cur2 (val_main_v82 (F := Ideal) x0 x1 x2 x3 x9 x10 x11 x12 x13 x14 x15 x16 x17 x18 x19 x20 x21 x22 x23 x24)
      = edgeStep (opsR x2 x3 x4) (wtsOf (K := 16 + 16 + 16) (C := 16) x17 x18 x19 x20)
          (cur2 (val_main_v58 (F := Ideal) x0 x1 x2 x3 x9 x10 x11 x12 x13 x14 x15 x16 x17 x18 x19 x20 x21 x22 x23 x24)) (cur2 (val_main_v45 (F := Ideal) x0 x1 x2 x3 x9 x10 x11 x12 x13 x14 x15 x16 x17 x18 x19 x20)) := by
  have hc : cur2 (val_main_v73 (F := Ideal) x0 x1 x2 x3 x9 x10 x11 x12 x13 x14 x15 x16 x17 x18 x19 x20 x21 x22 x23 x24)
      = cat2 (cat2 (cur2 (val_main_v65 (F := Ideal) x0 x1 x2 x3 x9 x10 x11 x12 x13 x14 x15 x16 x17 x18 x19 x20 x21 x22 x23 x24)) (cur2 (val_main_v72 (F := Ideal) x0 x1 x2 x3 x9 x10 x11 x12 x13 x14 x15 x16 x17 x18 x19 x20 x21 x22 x23 x24)))
          (cur2 (val_main_v45 (F := Ideal) x0 x1 x2 x3 x9 x10 x11 x12 x13 x14 x15 x16 x17 x18 x19 x20)) :=
    cat3_read (R := 1310720) (A := 16) (B := 16) (D := 16) _ _ _ concatenates_S1310720x16_S1310720x16_S1310720x16_S1310720x48_d1
  rw [mlp_Edge2, cur2_unc2, hc, rowsS_2, rowsR_2, edgeStep, opsR_atS, opsR_atR, unc2_cur2]

end Cert.Ref.Result

end
-- ==== Proof.Ref.ResultMlpEdge3.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Edge3_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (h : Fin 16) :
    val_main_v115 (F := Ideal) x0 x1 x2 x3 x9 x10 x11 x12 x13 x14 x15 x16 x17 x18 x19 x20 x21 x22 x23 x24 (ix2 r h)
      = max ((∑ q : Fin 48, (val_main_v110 (F := Ideal) x0 x1 x2 x3 x9 x10 x11 x12 x13 x14 x15 x16 x17 x18 x19 x20 x21 x22 x23 x24) (ix2 r q) * x17 (ix2 q h)) + x18 (ix1 h)) 0 := by
  have el : ∀ k : Fin 48, lidx_main_v111 (ix2 r h) k = ix2 r k := fun k => idx2_of _ _ _ rfl rfl
  have er : ∀ k : Fin 48, ridx_main_v111 (ix2 r h) k = ix2 k h := fun k => idx2_of _ _ _ rfl rfl
  have eb : idx_main_v112 (idx_main_v113 (ix2 r h)) = ix1 h := idx1_of _ _ (by first | rfl | exact Subsingleton.elim (α := Fin 1) _ _)
  rw [val_main_v115_apply, val_main_v114_apply, val_main_v111_apply, val_main_v113_apply, val_main_v112_apply,
    val_main_call6_v0_apply, val_main_call6_cst_apply, eb, Ideal.ofBits_def, Ideal.ofBits_zero_f32, Ideal.maximumf_def,
    Ideal.addf_def]
  exact congrArg (fun s => max (s + x18 (ix1 h)) 0) (Finset.sum_congr rfl fun k _ => by rw [el k, er k])

theorem Edge3_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (j : Fin 16) :
    val_main_v119 (F := Ideal) x0 x1 x2 x3 x9 x10 x11 x12 x13 x14 x15 x16 x17 x18 x19 x20 x21 x22 x23 x24 (ix2 r j)
      = (∑ h : Fin 16, val_main_v115 (F := Ideal) x0 x1 x2 x3 x9 x10 x11 x12 x13 x14 x15 x16 x17 x18 x19 x20 x21 x22 x23 x24 (ix2 r h) * x19 (ix2 h j)) + x20 (ix1 j) := by
  have el : ∀ k : Fin 16, lidx_main_v116 (ix2 r j) k = ix2 r k := fun k => idx2_of _ _ _ rfl rfl
  have er : ∀ k : Fin 16, ridx_main_v116 (ix2 r j) k = ix2 k j := fun k => idx2_of _ _ _ rfl rfl
  have eb : idx_main_v117 (idx_main_v118 (ix2 r j)) = ix1 j := idx1_of _ _ (by first | rfl | exact Subsingleton.elim (α := Fin 1) _ _)
  rw [val_main_v119_apply, val_main_v116_apply, val_main_v118_apply, val_main_v117_apply, eb, Ideal.addf_def]
  exact congrArg (fun s => s + x20 (ix1 j)) (Finset.sum_congr rfl fun k _ => by rw [el k, er k])

theorem mlp_Edge3
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v119 (F := Ideal) x0 x1 x2 x3 x9 x10 x11 x12 x13 x14 x15 x16 x17 x18 x19 x20 x21 x22 x23 x24
      = unc2 ((wtsOf (K := 16 + 16 + 16) (C := 16) x17 x18 x19 x20).app (cur2 (val_main_v110 (F := Ideal) x0 x1 x2 x3 x9 x10 x11 x12 x13 x14 x15 x16 x17 x18 x19 x20 x21 x22 x23 x24))) :=
  (unc2_cur2 _).symm.trans (congrArg unc2 (mlp_of_reads (cur2 (val_main_v110 (F := Ideal) x0 x1 x2 x3 x9 x10 x11 x12 x13 x14 x15 x16 x17 x18 x19 x20 x21 x22 x23 x24)) (cur2 x17) (fun h => x18 (ix1 h)) (cur2 x19)
    (fun j => x20 (ix1 j)) (cur2 (val_main_v115 (F := Ideal) x0 x1 x2 x3 x9 x10 x11 x12 x13 x14 x15 x16 x17 x18 x19 x20 x21 x22 x23 x24)) (cur2 (val_main_v119 (F := Ideal) x0 x1 x2 x3 x9 x10 x11 x12 x13 x14 x15 x16 x17 x18 x19 x20 x21 x22 x23 x24))
    (fun r h => Edge3_hid x0 x1 x2 x3 x9 x10 x11 x12 x13 x14 x15 x16 x17 x18 x19 x20 x21 x22 x23 x24 r h) (fun r j => Edge3_out x0 x1 x2 x3 x9 x10 x11 x12 x13 x14 x15 x16 x17 x18 x19 x20 x21 x22 x23 x24 r j)))

end Cert.Ref.Result

end
-- ==== Proof.Ref.ResultEdge3.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpEdge3

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem edge_3 :
    cur2 (val_main_v119 (F := Ideal) x0 x1 x2 x3 x9 x10 x11 x12 x13 x14 x15 x16 x17 x18 x19 x20 x21 x22 x23 x24)
      = edgeStep (opsR x2 x3 x4) (wtsOf (K := 16 + 16 + 16) (C := 16) x17 x18 x19 x20)
          (cur2 (val_main_v95 (F := Ideal) x0 x1 x2 x3 x9 x10 x11 x12 x13 x14 x15 x16 x17 x18 x19 x20 x21 x22 x23 x24)) (cur2 (val_main_v82 (F := Ideal) x0 x1 x2 x3 x9 x10 x11 x12 x13 x14 x15 x16 x17 x18 x19 x20 x21 x22 x23 x24)) := by
  have hc : cur2 (val_main_v110 (F := Ideal) x0 x1 x2 x3 x9 x10 x11 x12 x13 x14 x15 x16 x17 x18 x19 x20 x21 x22 x23 x24)
      = cat2 (cat2 (cur2 (val_main_v102 (F := Ideal) x0 x1 x2 x3 x9 x10 x11 x12 x13 x14 x15 x16 x17 x18 x19 x20 x21 x22 x23 x24)) (cur2 (val_main_v109 (F := Ideal) x0 x1 x2 x3 x9 x10 x11 x12 x13 x14 x15 x16 x17 x18 x19 x20 x21 x22 x23 x24)))
          (cur2 (val_main_v82 (F := Ideal) x0 x1 x2 x3 x9 x10 x11 x12 x13 x14 x15 x16 x17 x18 x19 x20 x21 x22 x23 x24)) :=
    cat3_read (R := 1310720) (A := 16) (B := 16) (D := 16) _ _ _ concatenates_S1310720x16_S1310720x16_S1310720x16_S1310720x48_d1
  rw [mlp_Edge3, cur2_unc2, hc, rowsS_3, rowsR_3, edgeStep, opsR_atS, opsR_atR, unc2_cur2]

end Cert.Ref.Result

end
-- ==== Proof.Ref.ResultMlpEdge4.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Edge4_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (h : Fin 16) :
    val_main_v152 (F := Ideal) x0 x1 x2 x3 x9 x10 x11 x12 x13 x14 x15 x16 x17 x18 x19 x20 x21 x22 x23 x24 (ix2 r h)
      = max ((∑ q : Fin 48, (val_main_v147 (F := Ideal) x0 x1 x2 x3 x9 x10 x11 x12 x13 x14 x15 x16 x17 x18 x19 x20 x21 x22 x23 x24) (ix2 r q) * x17 (ix2 q h)) + x18 (ix1 h)) 0 := by
  have el : ∀ k : Fin 48, lidx_main_v148 (ix2 r h) k = ix2 r k := fun k => idx2_of _ _ _ rfl rfl
  have er : ∀ k : Fin 48, ridx_main_v148 (ix2 r h) k = ix2 k h := fun k => idx2_of _ _ _ rfl rfl
  have eb : idx_main_v149 (idx_main_v150 (ix2 r h)) = ix1 h := idx1_of _ _ (by first | rfl | exact Subsingleton.elim (α := Fin 1) _ _)
  rw [val_main_v152_apply, val_main_v151_apply, val_main_v148_apply, val_main_v150_apply, val_main_v149_apply,
    val_main_call8_v0_apply, val_main_call8_cst_apply, eb, Ideal.ofBits_def, Ideal.ofBits_zero_f32, Ideal.maximumf_def,
    Ideal.addf_def]
  exact congrArg (fun s => max (s + x18 (ix1 h)) 0) (Finset.sum_congr rfl fun k _ => by rw [el k, er k])

theorem Edge4_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (j : Fin 16) :
    val_main_v156 (F := Ideal) x0 x1 x2 x3 x9 x10 x11 x12 x13 x14 x15 x16 x17 x18 x19 x20 x21 x22 x23 x24 (ix2 r j)
      = (∑ h : Fin 16, val_main_v152 (F := Ideal) x0 x1 x2 x3 x9 x10 x11 x12 x13 x14 x15 x16 x17 x18 x19 x20 x21 x22 x23 x24 (ix2 r h) * x19 (ix2 h j)) + x20 (ix1 j) := by
  have el : ∀ k : Fin 16, lidx_main_v153 (ix2 r j) k = ix2 r k := fun k => idx2_of _ _ _ rfl rfl
  have er : ∀ k : Fin 16, ridx_main_v153 (ix2 r j) k = ix2 k j := fun k => idx2_of _ _ _ rfl rfl
  have eb : idx_main_v154 (idx_main_v155 (ix2 r j)) = ix1 j := idx1_of _ _ (by first | rfl | exact Subsingleton.elim (α := Fin 1) _ _)
  rw [val_main_v156_apply, val_main_v153_apply, val_main_v155_apply, val_main_v154_apply, eb, Ideal.addf_def]
  exact congrArg (fun s => s + x20 (ix1 j)) (Finset.sum_congr rfl fun k _ => by rw [el k, er k])

theorem mlp_Edge4
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v156 (F := Ideal) x0 x1 x2 x3 x9 x10 x11 x12 x13 x14 x15 x16 x17 x18 x19 x20 x21 x22 x23 x24
      = unc2 ((wtsOf (K := 16 + 16 + 16) (C := 16) x17 x18 x19 x20).app (cur2 (val_main_v147 (F := Ideal) x0 x1 x2 x3 x9 x10 x11 x12 x13 x14 x15 x16 x17 x18 x19 x20 x21 x22 x23 x24))) :=
  (unc2_cur2 _).symm.trans (congrArg unc2 (mlp_of_reads (cur2 (val_main_v147 (F := Ideal) x0 x1 x2 x3 x9 x10 x11 x12 x13 x14 x15 x16 x17 x18 x19 x20 x21 x22 x23 x24)) (cur2 x17) (fun h => x18 (ix1 h)) (cur2 x19)
    (fun j => x20 (ix1 j)) (cur2 (val_main_v152 (F := Ideal) x0 x1 x2 x3 x9 x10 x11 x12 x13 x14 x15 x16 x17 x18 x19 x20 x21 x22 x23 x24)) (cur2 (val_main_v156 (F := Ideal) x0 x1 x2 x3 x9 x10 x11 x12 x13 x14 x15 x16 x17 x18 x19 x20 x21 x22 x23 x24))
    (fun r h => Edge4_hid x0 x1 x2 x3 x9 x10 x11 x12 x13 x14 x15 x16 x17 x18 x19 x20 x21 x22 x23 x24 r h) (fun r j => Edge4_out x0 x1 x2 x3 x9 x10 x11 x12 x13 x14 x15 x16 x17 x18 x19 x20 x21 x22 x23 x24 r j)))

end Cert.Ref.Result

end
-- ==== Proof.Ref.ResultEdge4.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpEdge4

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem edge_4 :
    cur2 (val_main_v156 (F := Ideal) x0 x1 x2 x3 x9 x10 x11 x12 x13 x14 x15 x16 x17 x18 x19 x20 x21 x22 x23 x24)
      = edgeStep (opsR x2 x3 x4) (wtsOf (K := 16 + 16 + 16) (C := 16) x17 x18 x19 x20)
          (cur2 (val_main_v132 (F := Ideal) x0 x1 x2 x3 x9 x10 x11 x12 x13 x14 x15 x16 x17 x18 x19 x20 x21 x22 x23 x24)) (cur2 (val_main_v119 (F := Ideal) x0 x1 x2 x3 x9 x10 x11 x12 x13 x14 x15 x16 x17 x18 x19 x20 x21 x22 x23 x24)) := by
  have hc : cur2 (val_main_v147 (F := Ideal) x0 x1 x2 x3 x9 x10 x11 x12 x13 x14 x15 x16 x17 x18 x19 x20 x21 x22 x23 x24)
      = cat2 (cat2 (cur2 (val_main_v139 (F := Ideal) x0 x1 x2 x3 x9 x10 x11 x12 x13 x14 x15 x16 x17 x18 x19 x20 x21 x22 x23 x24)) (cur2 (val_main_v146 (F := Ideal) x0 x1 x2 x3 x9 x10 x11 x12 x13 x14 x15 x16 x17 x18 x19 x20 x21 x22 x23 x24)))
          (cur2 (val_main_v119 (F := Ideal) x0 x1 x2 x3 x9 x10 x11 x12 x13 x14 x15 x16 x17 x18 x19 x20 x21 x22 x23 x24)) :=
    cat3_read (R := 1310720) (A := 16) (B := 16) (D := 16) _ _ _ concatenates_S1310720x16_S1310720x16_S1310720x16_S1310720x48_d1
  rw [mlp_Edge4, cur2_unc2, hc, rowsS_4, rowsR_4, edgeStep, opsR_atS, opsR_atR, unc2_cur2]

end Cert.Ref.Result

end
-- ==== Proof.Ref.ResultMlpEdge5.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Edge5_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (h : Fin 16) :
    val_main_v189 (F := Ideal) x0 x1 x2 x3 x9 x10 x11 x12 x13 x14 x15 x16 x17 x18 x19 x20 x21 x22 x23 x24 (ix2 r h)
      = max ((∑ q : Fin 48, (val_main_v184 (F := Ideal) x0 x1 x2 x3 x9 x10 x11 x12 x13 x14 x15 x16 x17 x18 x19 x20 x21 x22 x23 x24) (ix2 r q) * x17 (ix2 q h)) + x18 (ix1 h)) 0 := by
  have el : ∀ k : Fin 48, lidx_main_v185 (ix2 r h) k = ix2 r k := fun k => idx2_of _ _ _ rfl rfl
  have er : ∀ k : Fin 48, ridx_main_v185 (ix2 r h) k = ix2 k h := fun k => idx2_of _ _ _ rfl rfl
  have eb : idx_main_v186 (idx_main_v187 (ix2 r h)) = ix1 h := idx1_of _ _ (by first | rfl | exact Subsingleton.elim (α := Fin 1) _ _)
  rw [val_main_v189_apply, val_main_v188_apply, val_main_v185_apply, val_main_v187_apply, val_main_v186_apply,
    val_main_call10_v0_apply, val_main_call10_cst_apply, eb, Ideal.ofBits_def, Ideal.ofBits_zero_f32, Ideal.maximumf_def,
    Ideal.addf_def]
  exact congrArg (fun s => max (s + x18 (ix1 h)) 0) (Finset.sum_congr rfl fun k _ => by rw [el k, er k])

theorem Edge5_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 1310720) (j : Fin 16) :
    val_main_v193 (F := Ideal) x0 x1 x2 x3 x9 x10 x11 x12 x13 x14 x15 x16 x17 x18 x19 x20 x21 x22 x23 x24 (ix2 r j)
      = (∑ h : Fin 16, val_main_v189 (F := Ideal) x0 x1 x2 x3 x9 x10 x11 x12 x13 x14 x15 x16 x17 x18 x19 x20 x21 x22 x23 x24 (ix2 r h) * x19 (ix2 h j)) + x20 (ix1 j) := by
  have el : ∀ k : Fin 16, lidx_main_v190 (ix2 r j) k = ix2 r k := fun k => idx2_of _ _ _ rfl rfl
  have er : ∀ k : Fin 16, ridx_main_v190 (ix2 r j) k = ix2 k j := fun k => idx2_of _ _ _ rfl rfl
  have eb : idx_main_v191 (idx_main_v192 (ix2 r j)) = ix1 j := idx1_of _ _ (by first | rfl | exact Subsingleton.elim (α := Fin 1) _ _)
  rw [val_main_v193_apply, val_main_v190_apply, val_main_v192_apply, val_main_v191_apply, eb, Ideal.addf_def]
  exact congrArg (fun s => s + x20 (ix1 j)) (Finset.sum_congr rfl fun k _ => by rw [el k, er k])

theorem mlp_Edge5
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v193 (F := Ideal) x0 x1 x2 x3 x9 x10 x11 x12 x13 x14 x15 x16 x17 x18 x19 x20 x21 x22 x23 x24
      = unc2 ((wtsOf (K := 16 + 16 + 16) (C := 16) x17 x18 x19 x20).app (cur2 (val_main_v184 (F := Ideal) x0 x1 x2 x3 x9 x10 x11 x12 x13 x14 x15 x16 x17 x18 x19 x20 x21 x22 x23 x24))) :=
  (unc2_cur2 _).symm.trans (congrArg unc2 (mlp_of_reads (cur2 (val_main_v184 (F := Ideal) x0 x1 x2 x3 x9 x10 x11 x12 x13 x14 x15 x16 x17 x18 x19 x20 x21 x22 x23 x24)) (cur2 x17) (fun h => x18 (ix1 h)) (cur2 x19)
    (fun j => x20 (ix1 j)) (cur2 (val_main_v189 (F := Ideal) x0 x1 x2 x3 x9 x10 x11 x12 x13 x14 x15 x16 x17 x18 x19 x20 x21 x22 x23 x24)) (cur2 (val_main_v193 (F := Ideal) x0 x1 x2 x3 x9 x10 x11 x12 x13 x14 x15 x16 x17 x18 x19 x20 x21 x22 x23 x24))
    (fun r h => Edge5_hid x0 x1 x2 x3 x9 x10 x11 x12 x13 x14 x15 x16 x17 x18 x19 x20 x21 x22 x23 x24 r h) (fun r j => Edge5_out x0 x1 x2 x3 x9 x10 x11 x12 x13 x14 x15 x16 x17 x18 x19 x20 x21 x22 x23 x24 r j)))

end Cert.Ref.Result

end
-- ==== Proof.Ref.ResultEdge5.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpEdge5

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem edge_5 :
    cur2 (val_main_v193 (F := Ideal) x0 x1 x2 x3 x9 x10 x11 x12 x13 x14 x15 x16 x17 x18 x19 x20 x21 x22 x23 x24)
      = edgeStep (opsR x2 x3 x4) (wtsOf (K := 16 + 16 + 16) (C := 16) x17 x18 x19 x20)
          (cur2 (val_main_v169 (F := Ideal) x0 x1 x2 x3 x9 x10 x11 x12 x13 x14 x15 x16 x17 x18 x19 x20 x21 x22 x23 x24)) (cur2 (val_main_v156 (F := Ideal) x0 x1 x2 x3 x9 x10 x11 x12 x13 x14 x15 x16 x17 x18 x19 x20 x21 x22 x23 x24)) := by
  have hc : cur2 (val_main_v184 (F := Ideal) x0 x1 x2 x3 x9 x10 x11 x12 x13 x14 x15 x16 x17 x18 x19 x20 x21 x22 x23 x24)
      = cat2 (cat2 (cur2 (val_main_v176 (F := Ideal) x0 x1 x2 x3 x9 x10 x11 x12 x13 x14 x15 x16 x17 x18 x19 x20 x21 x22 x23 x24)) (cur2 (val_main_v183 (F := Ideal) x0 x1 x2 x3 x9 x10 x11 x12 x13 x14 x15 x16 x17 x18 x19 x20 x21 x22 x23 x24)))
          (cur2 (val_main_v156 (F := Ideal) x0 x1 x2 x3 x9 x10 x11 x12 x13 x14 x15 x16 x17 x18 x19 x20 x21 x22 x23 x24)) :=
    cat3_read (R := 1310720) (A := 16) (B := 16) (D := 16) _ _ _ concatenates_S1310720x16_S1310720x16_S1310720x16_S1310720x48_d1
  rw [mlp_Edge5, cur2_unc2, hc, rowsS_5, rowsR_5, edgeStep, opsR_atS, opsR_atR, unc2_cur2]

end Cert.Ref.Result

end
-- ==== Proof.Ref.ResultMlpNode1.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Node1_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal))
    (r : Fin 262144) (h : Fin 16) :
    val_main_v54 (F := Ideal) x0 x1 x2 x3 x9 x10 x11 x12 x13 x14 x15 x16 x17 x18 x19 x20 x21 x22 (ix2 r h)
      = max ((∑ q : Fin 32, (val_main_v49 (F := Ideal) x0 x1 x2 x3 x9 x10 x11 x12 x13 x14 x15 x16 x17 x18 x19 x20) (ix2 r q) * x21 (ix2 q h)) + x22 (ix1 h)) 0 := by
  have el : ∀ k : Fin 32, lidx_main_v50 (ix2 r h) k = ix2 r k := fun k => idx2_of _ _ _ rfl rfl
  have er : ∀ k : Fin 32, ridx_main_v50 (ix2 r h) k = ix2 k h := fun k => idx2_of _ _ _ rfl rfl
  have eb : idx_main_v51 (idx_main_v52 (ix2 r h)) = ix1 h := idx1_of _ _ (by first | rfl | exact Subsingleton.elim (α := Fin 1) _ _)
  rw [val_main_v54_apply, val_main_v53_apply, val_main_v50_apply, val_main_v52_apply, val_main_v51_apply,
    val_main_call3_v0_apply, val_main_call3_cst_apply, eb, Ideal.ofBits_def, Ideal.ofBits_zero_f32, Ideal.maximumf_def,
    Ideal.addf_def]
  exact congrArg (fun s => max (s + x22 (ix1 h)) 0) (Finset.sum_congr rfl fun k _ => by rw [el k, er k])

theorem Node1_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (j : Fin 16) :
    val_main_v58 (F := Ideal) x0 x1 x2 x3 x9 x10 x11 x12 x13 x14 x15 x16 x17 x18 x19 x20 x21 x22 x23 x24 (ix2 r j)
      = (∑ h : Fin 16, val_main_v54 (F := Ideal) x0 x1 x2 x3 x9 x10 x11 x12 x13 x14 x15 x16 x17 x18 x19 x20 x21 x22 (ix2 r h) * x23 (ix2 h j)) + x24 (ix1 j) := by
  have el : ∀ k : Fin 16, lidx_main_v55 (ix2 r j) k = ix2 r k := fun k => idx2_of _ _ _ rfl rfl
  have er : ∀ k : Fin 16, ridx_main_v55 (ix2 r j) k = ix2 k j := fun k => idx2_of _ _ _ rfl rfl
  have eb : idx_main_v56 (idx_main_v57 (ix2 r j)) = ix1 j := idx1_of _ _ (by first | rfl | exact Subsingleton.elim (α := Fin 1) _ _)
  rw [val_main_v58_apply, val_main_v55_apply, val_main_v57_apply, val_main_v56_apply, eb, Ideal.addf_def]
  exact congrArg (fun s => s + x24 (ix1 j)) (Finset.sum_congr rfl fun k _ => by rw [el k, er k])

theorem mlp_Node1
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v58 (F := Ideal) x0 x1 x2 x3 x9 x10 x11 x12 x13 x14 x15 x16 x17 x18 x19 x20 x21 x22 x23 x24
      = unc2 ((wtsOf (K := 16 + 16) (C := 16) x21 x22 x23 x24).app (cur2 (val_main_v49 (F := Ideal) x0 x1 x2 x3 x9 x10 x11 x12 x13 x14 x15 x16 x17 x18 x19 x20))) :=
  (unc2_cur2 _).symm.trans (congrArg unc2 (mlp_of_reads (cur2 (val_main_v49 (F := Ideal) x0 x1 x2 x3 x9 x10 x11 x12 x13 x14 x15 x16 x17 x18 x19 x20)) (cur2 x21) (fun h => x22 (ix1 h)) (cur2 x23)
    (fun j => x24 (ix1 j)) (cur2 (val_main_v54 (F := Ideal) x0 x1 x2 x3 x9 x10 x11 x12 x13 x14 x15 x16 x17 x18 x19 x20 x21 x22)) (cur2 (val_main_v58 (F := Ideal) x0 x1 x2 x3 x9 x10 x11 x12 x13 x14 x15 x16 x17 x18 x19 x20 x21 x22 x23 x24))
    (fun r h => Node1_hid x0 x1 x2 x3 x9 x10 x11 x12 x13 x14 x15 x16 x17 x18 x19 x20 x21 x22 r h) (fun r j => Node1_out x0 x1 x2 x3 x9 x10 x11 x12 x13 x14 x15 x16 x17 x18 x19 x20 x21 x22 x23 x24 r j)))

end Cert.Ref.Result

end
-- ==== Proof.Ref.ResultNode1.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpNode1

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem node_1 :
    cur2 (val_main_v58 (F := Ideal) x0 x1 x2 x3 x9 x10 x11 x12 x13 x14 x15 x16 x17 x18 x19 x20 x21 x22 x23 x24)
      = nodeStep (opsR x2 x3 x4) (wtsOf (K := 16 + 16) (C := 16) x21 x22 x23 x24)
          (cur2 (val_main_v12 (F := Ideal) x0 x9 x10 x11 x12)) (cur2 (val_main_v45 (F := Ideal) x0 x1 x2 x3 x9 x10 x11 x12 x13 x14 x15 x16 x17 x18 x19 x20)) := by
  have hc : cur2 (val_main_v49 (F := Ideal) x0 x1 x2 x3 x9 x10 x11 x12 x13 x14 x15 x16 x17 x18 x19 x20)
      = cat2 (cur2 (val_main_v12 (F := Ideal) x0 x9 x10 x11 x12)) (cur2 (val_main_v48 (F := Ideal) x0 x1 x2 x3 x9 x10 x11 x12 x13 x14 x15 x16 x17 x18 x19 x20)) :=
    cat2_read (R := 262144) (A := 16) (B := 16) _ _ concatenates_S262144x16_S262144x16_S262144x32_d1
  rw [mlp_Node1, cur2_unc2, hc, sum_1, nodeStep, opsR_segsum, unc2_cur2]

end Cert.Ref.Result

end
-- ==== Proof.Ref.ResultMlpNode2.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Node2_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (h : Fin 16) :
    val_main_v91 (F := Ideal) x0 x1 x2 x3 x9 x10 x11 x12 x13 x14 x15 x16 x17 x18 x19 x20 x21 x22 x23 x24 (ix2 r h)
      = max ((∑ q : Fin 32, (val_main_v86 (F := Ideal) x0 x1 x2 x3 x9 x10 x11 x12 x13 x14 x15 x16 x17 x18 x19 x20 x21 x22 x23 x24) (ix2 r q) * x21 (ix2 q h)) + x22 (ix1 h)) 0 := by
  have el : ∀ k : Fin 32, lidx_main_v87 (ix2 r h) k = ix2 r k := fun k => idx2_of _ _ _ rfl rfl
  have er : ∀ k : Fin 32, ridx_main_v87 (ix2 r h) k = ix2 k h := fun k => idx2_of _ _ _ rfl rfl
  have eb : idx_main_v88 (idx_main_v89 (ix2 r h)) = ix1 h := idx1_of _ _ (by first | rfl | exact Subsingleton.elim (α := Fin 1) _ _)
  rw [val_main_v91_apply, val_main_v90_apply, val_main_v87_apply, val_main_v89_apply, val_main_v88_apply,
    val_main_call5_v0_apply, val_main_call5_cst_apply, eb, Ideal.ofBits_def, Ideal.ofBits_zero_f32, Ideal.maximumf_def,
    Ideal.addf_def]
  exact congrArg (fun s => max (s + x22 (ix1 h)) 0) (Finset.sum_congr rfl fun k _ => by rw [el k, er k])

theorem Node2_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (j : Fin 16) :
    val_main_v95 (F := Ideal) x0 x1 x2 x3 x9 x10 x11 x12 x13 x14 x15 x16 x17 x18 x19 x20 x21 x22 x23 x24 (ix2 r j)
      = (∑ h : Fin 16, val_main_v91 (F := Ideal) x0 x1 x2 x3 x9 x10 x11 x12 x13 x14 x15 x16 x17 x18 x19 x20 x21 x22 x23 x24 (ix2 r h) * x23 (ix2 h j)) + x24 (ix1 j) := by
  have el : ∀ k : Fin 16, lidx_main_v92 (ix2 r j) k = ix2 r k := fun k => idx2_of _ _ _ rfl rfl
  have er : ∀ k : Fin 16, ridx_main_v92 (ix2 r j) k = ix2 k j := fun k => idx2_of _ _ _ rfl rfl
  have eb : idx_main_v93 (idx_main_v94 (ix2 r j)) = ix1 j := idx1_of _ _ (by first | rfl | exact Subsingleton.elim (α := Fin 1) _ _)
  rw [val_main_v95_apply, val_main_v92_apply, val_main_v94_apply, val_main_v93_apply, eb, Ideal.addf_def]
  exact congrArg (fun s => s + x24 (ix1 j)) (Finset.sum_congr rfl fun k _ => by rw [el k, er k])

theorem mlp_Node2
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v95 (F := Ideal) x0 x1 x2 x3 x9 x10 x11 x12 x13 x14 x15 x16 x17 x18 x19 x20 x21 x22 x23 x24
      = unc2 ((wtsOf (K := 16 + 16) (C := 16) x21 x22 x23 x24).app (cur2 (val_main_v86 (F := Ideal) x0 x1 x2 x3 x9 x10 x11 x12 x13 x14 x15 x16 x17 x18 x19 x20 x21 x22 x23 x24))) :=
  (unc2_cur2 _).symm.trans (congrArg unc2 (mlp_of_reads (cur2 (val_main_v86 (F := Ideal) x0 x1 x2 x3 x9 x10 x11 x12 x13 x14 x15 x16 x17 x18 x19 x20 x21 x22 x23 x24)) (cur2 x21) (fun h => x22 (ix1 h)) (cur2 x23)
    (fun j => x24 (ix1 j)) (cur2 (val_main_v91 (F := Ideal) x0 x1 x2 x3 x9 x10 x11 x12 x13 x14 x15 x16 x17 x18 x19 x20 x21 x22 x23 x24)) (cur2 (val_main_v95 (F := Ideal) x0 x1 x2 x3 x9 x10 x11 x12 x13 x14 x15 x16 x17 x18 x19 x20 x21 x22 x23 x24))
    (fun r h => Node2_hid x0 x1 x2 x3 x9 x10 x11 x12 x13 x14 x15 x16 x17 x18 x19 x20 x21 x22 x23 x24 r h) (fun r j => Node2_out x0 x1 x2 x3 x9 x10 x11 x12 x13 x14 x15 x16 x17 x18 x19 x20 x21 x22 x23 x24 r j)))

end Cert.Ref.Result

end
-- ==== Proof.Ref.ResultNode2.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpNode2

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem node_2 :
    cur2 (val_main_v95 (F := Ideal) x0 x1 x2 x3 x9 x10 x11 x12 x13 x14 x15 x16 x17 x18 x19 x20 x21 x22 x23 x24)
      = nodeStep (opsR x2 x3 x4) (wtsOf (K := 16 + 16) (C := 16) x21 x22 x23 x24)
          (cur2 (val_main_v58 (F := Ideal) x0 x1 x2 x3 x9 x10 x11 x12 x13 x14 x15 x16 x17 x18 x19 x20 x21 x22 x23 x24)) (cur2 (val_main_v82 (F := Ideal) x0 x1 x2 x3 x9 x10 x11 x12 x13 x14 x15 x16 x17 x18 x19 x20 x21 x22 x23 x24)) := by
  have hc : cur2 (val_main_v86 (F := Ideal) x0 x1 x2 x3 x9 x10 x11 x12 x13 x14 x15 x16 x17 x18 x19 x20 x21 x22 x23 x24)
      = cat2 (cur2 (val_main_v58 (F := Ideal) x0 x1 x2 x3 x9 x10 x11 x12 x13 x14 x15 x16 x17 x18 x19 x20 x21 x22 x23 x24)) (cur2 (val_main_v85 (F := Ideal) x0 x1 x2 x3 x9 x10 x11 x12 x13 x14 x15 x16 x17 x18 x19 x20 x21 x22 x23 x24)) :=
    cat2_read (R := 262144) (A := 16) (B := 16) _ _ concatenates_S262144x16_S262144x16_S262144x32_d1
  rw [mlp_Node2, cur2_unc2, hc, sum_2, nodeStep, opsR_segsum, unc2_cur2]

end Cert.Ref.Result

end
-- ==== Proof.Ref.ResultMlpNode3.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Node3_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (h : Fin 16) :
    val_main_v128 (F := Ideal) x0 x1 x2 x3 x9 x10 x11 x12 x13 x14 x15 x16 x17 x18 x19 x20 x21 x22 x23 x24 (ix2 r h)
      = max ((∑ q : Fin 32, (val_main_v123 (F := Ideal) x0 x1 x2 x3 x9 x10 x11 x12 x13 x14 x15 x16 x17 x18 x19 x20 x21 x22 x23 x24) (ix2 r q) * x21 (ix2 q h)) + x22 (ix1 h)) 0 := by
  have el : ∀ k : Fin 32, lidx_main_v124 (ix2 r h) k = ix2 r k := fun k => idx2_of _ _ _ rfl rfl
  have er : ∀ k : Fin 32, ridx_main_v124 (ix2 r h) k = ix2 k h := fun k => idx2_of _ _ _ rfl rfl
  have eb : idx_main_v125 (idx_main_v126 (ix2 r h)) = ix1 h := idx1_of _ _ (by first | rfl | exact Subsingleton.elim (α := Fin 1) _ _)
  rw [val_main_v128_apply, val_main_v127_apply, val_main_v124_apply, val_main_v126_apply, val_main_v125_apply,
    val_main_call7_v0_apply, val_main_call7_cst_apply, eb, Ideal.ofBits_def, Ideal.ofBits_zero_f32, Ideal.maximumf_def,
    Ideal.addf_def]
  exact congrArg (fun s => max (s + x22 (ix1 h)) 0) (Finset.sum_congr rfl fun k _ => by rw [el k, er k])

theorem Node3_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (j : Fin 16) :
    val_main_v132 (F := Ideal) x0 x1 x2 x3 x9 x10 x11 x12 x13 x14 x15 x16 x17 x18 x19 x20 x21 x22 x23 x24 (ix2 r j)
      = (∑ h : Fin 16, val_main_v128 (F := Ideal) x0 x1 x2 x3 x9 x10 x11 x12 x13 x14 x15 x16 x17 x18 x19 x20 x21 x22 x23 x24 (ix2 r h) * x23 (ix2 h j)) + x24 (ix1 j) := by
  have el : ∀ k : Fin 16, lidx_main_v129 (ix2 r j) k = ix2 r k := fun k => idx2_of _ _ _ rfl rfl
  have er : ∀ k : Fin 16, ridx_main_v129 (ix2 r j) k = ix2 k j := fun k => idx2_of _ _ _ rfl rfl
  have eb : idx_main_v130 (idx_main_v131 (ix2 r j)) = ix1 j := idx1_of _ _ (by first | rfl | exact Subsingleton.elim (α := Fin 1) _ _)
  rw [val_main_v132_apply, val_main_v129_apply, val_main_v131_apply, val_main_v130_apply, eb, Ideal.addf_def]
  exact congrArg (fun s => s + x24 (ix1 j)) (Finset.sum_congr rfl fun k _ => by rw [el k, er k])

theorem mlp_Node3
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v132 (F := Ideal) x0 x1 x2 x3 x9 x10 x11 x12 x13 x14 x15 x16 x17 x18 x19 x20 x21 x22 x23 x24
      = unc2 ((wtsOf (K := 16 + 16) (C := 16) x21 x22 x23 x24).app (cur2 (val_main_v123 (F := Ideal) x0 x1 x2 x3 x9 x10 x11 x12 x13 x14 x15 x16 x17 x18 x19 x20 x21 x22 x23 x24))) :=
  (unc2_cur2 _).symm.trans (congrArg unc2 (mlp_of_reads (cur2 (val_main_v123 (F := Ideal) x0 x1 x2 x3 x9 x10 x11 x12 x13 x14 x15 x16 x17 x18 x19 x20 x21 x22 x23 x24)) (cur2 x21) (fun h => x22 (ix1 h)) (cur2 x23)
    (fun j => x24 (ix1 j)) (cur2 (val_main_v128 (F := Ideal) x0 x1 x2 x3 x9 x10 x11 x12 x13 x14 x15 x16 x17 x18 x19 x20 x21 x22 x23 x24)) (cur2 (val_main_v132 (F := Ideal) x0 x1 x2 x3 x9 x10 x11 x12 x13 x14 x15 x16 x17 x18 x19 x20 x21 x22 x23 x24))
    (fun r h => Node3_hid x0 x1 x2 x3 x9 x10 x11 x12 x13 x14 x15 x16 x17 x18 x19 x20 x21 x22 x23 x24 r h) (fun r j => Node3_out x0 x1 x2 x3 x9 x10 x11 x12 x13 x14 x15 x16 x17 x18 x19 x20 x21 x22 x23 x24 r j)))

end Cert.Ref.Result

end
-- ==== Proof.Ref.ResultNode3.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpNode3

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem node_3 :
    cur2 (val_main_v132 (F := Ideal) x0 x1 x2 x3 x9 x10 x11 x12 x13 x14 x15 x16 x17 x18 x19 x20 x21 x22 x23 x24)
      = nodeStep (opsR x2 x3 x4) (wtsOf (K := 16 + 16) (C := 16) x21 x22 x23 x24)
          (cur2 (val_main_v95 (F := Ideal) x0 x1 x2 x3 x9 x10 x11 x12 x13 x14 x15 x16 x17 x18 x19 x20 x21 x22 x23 x24)) (cur2 (val_main_v119 (F := Ideal) x0 x1 x2 x3 x9 x10 x11 x12 x13 x14 x15 x16 x17 x18 x19 x20 x21 x22 x23 x24)) := by
  have hc : cur2 (val_main_v123 (F := Ideal) x0 x1 x2 x3 x9 x10 x11 x12 x13 x14 x15 x16 x17 x18 x19 x20 x21 x22 x23 x24)
      = cat2 (cur2 (val_main_v95 (F := Ideal) x0 x1 x2 x3 x9 x10 x11 x12 x13 x14 x15 x16 x17 x18 x19 x20 x21 x22 x23 x24)) (cur2 (val_main_v122 (F := Ideal) x0 x1 x2 x3 x9 x10 x11 x12 x13 x14 x15 x16 x17 x18 x19 x20 x21 x22 x23 x24)) :=
    cat2_read (R := 262144) (A := 16) (B := 16) _ _ concatenates_S262144x16_S262144x16_S262144x32_d1
  rw [mlp_Node3, cur2_unc2, hc, sum_3, nodeStep, opsR_segsum, unc2_cur2]

end Cert.Ref.Result

end
-- ==== Proof.Ref.ResultMlpNode4.lean ====
import proofs.«408468_j77438260346965_2_alg».proof.Proof.Ref.ReadP
import proofs.«408468_j77438260346965_2_alg».proof.Proof.Ref.ResultLib
import proofs.«408468_j77438260346965_2_alg».proof.Proof.SpecArgs

noncomputable section

open scoped BigOperators

namespace Cert.Ref.Result

open Cert.ReferenceIdeal Cert.ReferenceIdeal.ReadP
open Idealize.ShloMosaic Idealize.ShloMosaic.ValueIdx
open Cert.Spec

theorem Node4_hid
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (h : Fin 16) :
    val_main_v165 (F := Ideal) x0 x1 x2 x3 x9 x10 x11 x12 x13 x14 x15 x16 x17 x18 x19 x20 x21 x22 x23 x24 (ix2 r h)
      = max ((∑ q : Fin 32, (val_main_v160 (F := Ideal) x0 x1 x2 x3 x9 x10 x11 x12 x13 x14 x15 x16 x17 x18 x19 x20 x21 x22 x23 x24) (ix2 r q) * x21 (ix2 q h)) + x22 (ix1 h)) 0 := by
  have el : ∀ k : Fin 32, lidx_main_v161 (ix2 r h) k = ix2 r k := fun k => idx2_of _ _ _ rfl rfl
  have er : ∀ k : Fin 32, ridx_main_v161 (ix2 r h) k = ix2 k h := fun k => idx2_of _ _ _ rfl rfl
  have eb : idx_main_v162 (idx_main_v163 (ix2 r h)) = ix1 h := idx1_of _ _ (by first | rfl | exact Subsingleton.elim (α := Fin 1) _ _)
  rw [val_main_v165_apply, val_main_v164_apply, val_main_v161_apply, val_main_v163_apply, val_main_v162_apply,
    val_main_call9_v0_apply, val_main_call9_cst_apply, eb, Ideal.ofBits_def, Ideal.ofBits_zero_f32, Ideal.maximumf_def,
    Ideal.addf_def]
  exact congrArg (fun s => max (s + x22 (ix1 h)) 0) (Finset.sum_congr rfl fun k _ => by rw [el k, er k])

theorem Node4_out
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal))
    (r : Fin 262144) (j : Fin 16) :
    val_main_v169 (F := Ideal) x0 x1 x2 x3 x9 x10 x11 x12 x13 x14 x15 x16 x17 x18 x19 x20 x21 x22 x23 x24 (ix2 r j)
      = (∑ h : Fin 16, val_main_v165 (F := Ideal) x0 x1 x2 x3 x9 x10 x11 x12 x13 x14 x15 x16 x17 x18 x19 x20 x21 x22 x23 x24 (ix2 r h) * x23 (ix2 h j)) + x24 (ix1 j) := by
  have el : ∀ k : Fin 16, lidx_main_v166 (ix2 r j) k = ix2 r k := fun k => idx2_of _ _ _ rfl rfl
  have er : ∀ k : Fin 16, ridx_main_v166 (ix2 r j) k = ix2 k j := fun k => idx2_of _ _ _ rfl rfl
  have eb : idx_main_v167 (idx_main_v168 (ix2 r j)) = ix1 j := idx1_of _ _ (by first | rfl | exact Subsingleton.elim (α := Fin 1) _ _)
  rw [val_main_v169_apply, val_main_v166_apply, val_main_v168_apply, val_main_v167_apply, eb, Ideal.addf_def]
  exact congrArg (fun s => s + x24 (ix1 j)) (Finset.sum_congr rfl fun k _ => by rw [el k, er k])

theorem mlp_Node4
    (x0 : (⟨S262144x1, .f32⟩ : BufTy).Contents (Elt Ideal)) (x1 : (⟨S1310720x1, .f32⟩ : BufTy).Contents (Elt Ideal)) (x2 : (⟨S1310720, .i32⟩ : BufTy).Contents (Elt Ideal)) (x3 : (⟨S1310720, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) :
    val_main_v169 (F := Ideal) x0 x1 x2 x3 x9 x10 x11 x12 x13 x14 x15 x16 x17 x18 x19 x20 x21 x22 x23 x24
      = unc2 ((wtsOf (K := 16 + 16) (C := 16) x21 x22 x23 x24).app (cur2 (val_main_v160 (F := Ideal) x0 x1 x2 x3 x9 x10 x11 x12 x13 x14 x15 x16 x17 x18 x19 x20 x21 x22 x23 x24))) :=
  (unc2_cur2 _).symm.trans (congrArg unc2 (mlp_of_reads (cur2 (val_main_v160 (F := Ideal) x0 x1 x2 x3 x9 x10 x11 x12 x13 x14 x15 x16 x17 x18 x19 x20 x21 x22 x23 x24)) (cur2 x21) (fun h => x22 (ix1 h)) (cur2 x23)
    (fun j => x24 (ix1 j)) (cur2 (val_main_v165 (F := Ideal) x0 x1 x2 x3 x9 x10 x11 x12 x13 x14 x15 x16 x17 x18 x19 x20 x21 x22 x23 x24)) (cur2 (val_main_v169 (F := Ideal) x0 x1 x2 x3 x9 x10 x11 x12 x13 x14 x15 x16 x17 x18 x19 x20 x21 x22 x23 x24))
    (fun r h => Node4_hid x0 x1 x2 x3 x9 x10 x11 x12 x13 x14 x15 x16 x17 x18 x19 x20 x21 x22 x23 x24 r h) (fun r j => Node4_out x0 x1 x2 x3 x9 x10 x11 x12 x13 x14 x15 x16 x17 x18 x19 x20 x21 x22 x23 x24 r j)))

end Cert.Ref.Result

end
-- ==== Proof.Ref.ResultNode4.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultCat
import proofs.«408468_j77438260346965_2_alg».proof.Proof.Ref.ResultTerms
import proofs.«408468_j77438260346965_2_alg».proof.Proof.Ref.ResultMlpNode4

noncomputable section

namespace Cert.Ref.Result

open Cert.ReferenceIdeal Cert.ReferenceIdeal.Gen Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

theorem node_4 :
    cur2 (val_main_v169 (F := Ideal) x0 x1 x2 x3 x9 x10 x11 x12 x13 x14 x15 x16 x17 x18 x19 x20 x21 x22 x23 x24)
      = nodeStep (opsR x2 x3 x4) (wtsOf (K := 16 + 16) (C := 16) x21 x22 x23 x24)
          (cur2 (val_main_v132 (F := Ideal) x0 x1 x2 x3 x9 x10 x11 x12 x13 x14 x15 x16 x17 x18 x19 x20 x21 x22 x23 x24)) (cur2 (val_main_v156 (F := Ideal) x0 x1 x2 x3 x9 x10 x11 x12 x13 x14 x15 x16 x17 x18 x19 x20 x21 x22 x23 x24)) := by
  have hc : cur2 (val_main_v160 (F := Ideal) x0 x1 x2 x3 x9 x10 x11 x12 x13 x14 x15 x16 x17 x18 x19 x20 x21 x22 x23 x24)
      = cat2 (cur2 (val_main_v132 (F := Ideal) x0 x1 x2 x3 x9 x10 x11 x12 x13 x14 x15 x16 x17 x18 x19 x20 x21 x22 x23 x24)) (cur2 (val_main_v159 (F := Ideal) x0 x1 x2 x3 x9 x10 x11 x12 x13 x14 x15 x16 x17 x18 x19 x20 x21 x22 x23 x24)) :=
    cat2_read (R := 262144) (A := 16) (B := 16) _ _ concatenates_S262144x16_S262144x16_S262144x32_d1
  rw [mlp_Node4, cur2_unc2, hc, sum_4, nodeStep, opsR_segsum, unc2_cur2]

end Cert.Ref.Result

end
-- ==== Proof.Ref.ResultRounds.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultEdge1
import proofs.«408468_j77438260346965_2_alg».proof.Proof.Ref.ResultEdge2
import proofs.«408468_j77438260346965_2_alg».proof.Proof.Ref.ResultEdge3
import proofs.«408468_j77438260346965_2_alg».proof.Proof.Ref.ResultEdge4
import proofs.«408468_j77438260346965_2_alg».proof.Proof.Ref.ResultEdge5
import proofs.«408468_j77438260346965_2_alg».proof.Proof.Ref.ResultNode1
import proofs.«408468_j77438260346965_2_alg».proof.Proof.Ref.ResultNode2
import proofs.«408468_j77438260346965_2_alg».proof.Proof.Ref.ResultNode3
import proofs.«408468_j77438260346965_2_alg».proof.Proof.Ref.ResultNode4

noncomputable section

namespace Cert.Ref.Result

open Cert.ReferenceIdeal Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

local notation "HN0" => val_main_v12 (F := Ideal) x0 x9 x10 x11 x12
local notation "HE0" => val_main_v21 (F := Ideal) x1 x13 x14 x15 x16
local notation "HE1" => val_main_v45 (F := Ideal) x0 x1 x2 x3 x9 x10 x11 x12 x13 x14 x15 x16 x17 x18 x19 x20
local notation "HN1" => val_main_v58 (F := Ideal) x0 x1 x2 x3 x9 x10 x11 x12 x13 x14 x15 x16 x17 x18 x19 x20 x21 x22 x23 x24
local notation "HE2" => val_main_v82 (F := Ideal) x0 x1 x2 x3 x9 x10 x11 x12 x13 x14 x15 x16 x17 x18 x19 x20 x21 x22 x23 x24
local notation "HN2" => val_main_v95 (F := Ideal) x0 x1 x2 x3 x9 x10 x11 x12 x13 x14 x15 x16 x17 x18 x19 x20 x21 x22 x23 x24
local notation "HE3" => val_main_v119 (F := Ideal) x0 x1 x2 x3 x9 x10 x11 x12 x13 x14 x15 x16 x17 x18 x19 x20 x21 x22 x23 x24
local notation "HN3" => val_main_v132 (F := Ideal) x0 x1 x2 x3 x9 x10 x11 x12 x13 x14 x15 x16 x17 x18 x19 x20 x21 x22 x23 x24
local notation "HE4" => val_main_v156 (F := Ideal) x0 x1 x2 x3 x9 x10 x11 x12 x13 x14 x15 x16 x17 x18 x19 x20 x21 x22 x23 x24
local notation "HN4" => val_main_v169 (F := Ideal) x0 x1 x2 x3 x9 x10 x11 x12 x13 x14 x15 x16 x17 x18 x19 x20 x21 x22 x23 x24
local notation "HE5" => val_main_v193 (F := Ideal) x0 x1 x2 x3 x9 x10 x11 x12 x13 x14 x15 x16 x17 x18 x19 x20 x21 x22 x23 x24
local notation "OPS" => opsR x2 x3 x4
local notation "MPE" => wtsOf (K := 16 + 16 + 16) (C := 16) x17 x18 x19 x20
local notation "MPN" => wtsOf (K := 16 + 16) (C := 16) x21 x22 x23 x24

theorem round_1 : (cur2 HN1, cur2 HE1) = Spec.round OPS MPE MPN (cur2 HN0, cur2 HE0) := by
  simp only [Spec.round]
  rw [← edge_1, ← node_1]

theorem round_2 : (cur2 HN2, cur2 HE2) = Spec.round OPS MPE MPN (cur2 HN1, cur2 HE1) := by
  simp only [Spec.round]
  rw [← edge_2, ← node_2]

theorem round_3 : (cur2 HN3, cur2 HE3) = Spec.round OPS MPE MPN (cur2 HN2, cur2 HE2) := by
  simp only [Spec.round]
  rw [← edge_3, ← node_3]

theorem round_4 : (cur2 HN4, cur2 HE4) = Spec.round OPS MPE MPN (cur2 HN3, cur2 HE3) := by
  simp only [Spec.round]
  rw [← edge_4, ← node_4]

theorem rounds_4 :
    Spec.round OPS MPE MPN (Spec.round OPS MPE MPN (Spec.round OPS MPE MPN (Spec.round OPS MPE MPN (cur2 HN0, cur2 HE0))))
      = (cur2 HN4, cur2 HE4) := by
  rw [← round_1, ← round_2, ← round_3, ← round_4]

theorem rounds_5_edges :
    (Spec.round OPS MPE MPN (Spec.round OPS MPE MPN (Spec.round OPS MPE MPN (Spec.round OPS MPE MPN (Spec.round OPS MPE MPN (cur2 HN0, cur2 HE0)))))).2
      = cur2 HE5 := by
  rw [rounds_4]
  simp only [Spec.round]
  exact (edge_5 x0 x1 x2 x3 x4 x9 x10 x11 x12 x13 x14 x15 x16 x17 x18 x19 x20 x21 x22 x23 x24).symm

end Cert.Ref.Result

end
-- ==== Proof.Ref.ResultTail.lean ====
import proofs.«408468_j77438260346965_2_alg».proof.Proof.Ref.ReadP
import proofs.«408468_j77438260346965_2_alg».proof.Proof.Ref.Terms
import proofs.«408468_j77438260346965_2_alg».proof.Proof.Spec

noncomputable section

namespace Cert.Ref.Result

open Cert.ReferenceIdeal Cert.ReferenceIdeal.ReadP
open Idealize.ShloMosaic Idealize.ShloMosaic.ValueIdx
open Cert.Spec

theorem tail_idx (k : Fin 1310720) : idx_main_v260 (ix1 k) = ix2 k (0 : Fin 1) := by
  funext a
  apply Fin.ext
  match a with
  | ⟨0, _⟩ => exact Nat.div_one k.val
  | ⟨1, _⟩ => rfl

theorem tail_eq
    (x0 : (⟨S262144x1, .f32⟩ : BufTy).Contents (Elt Ideal)) (x1 : (⟨S1310720x1, .f32⟩ : BufTy).Contents (Elt Ideal)) (x2 x3 : (⟨S1310720, .i32⟩ : BufTy).Contents (Elt Ideal)) (x4 : (⟨S655360x2, .i32⟩ : BufTy).Contents (Elt Ideal)) (x9 : (⟨S1x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S1x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S48x16, .f32⟩ : BufTy).Contents (Elt Ideal)) (x18 : (⟨S16, .f32⟩ : BufTy).Contents (Elt Ideal)) (x19 : (⟨S16x16, .f32⟩ : BufTy).Contents (Elt Ideal)) (x20 : (⟨S16, .f32⟩ : BufTy).Contents (Elt Ideal)) (x21 : (⟨S32x16, .f32⟩ : BufTy).Contents (Elt Ideal)) (x22 : (⟨S16, .f32⟩ : BufTy).Contents (Elt Ideal)) (x23 : (⟨S16x16, .f32⟩ : BufTy).Contents (Elt Ideal)) (x24 : (⟨S16, .f32⟩ : BufTy).Contents (Elt Ideal)) (x25 : (⟨S16x16, .f32⟩ : BufTy).Contents (Elt Ideal)) (x26 : (⟨S16, .f32⟩ : BufTy).Contents (Elt Ideal)) (x27 : (⟨S16x1, .f32⟩ : BufTy).Contents (Elt Ideal)) (x28 : (⟨S1, .f32⟩ : BufTy).Contents (Elt Ideal)) (x29 : (⟨S_, .f32⟩ : BufTy).Contents (Elt Ideal))
    (k : Fin 1310720) :
    val_main_v262 (F := Ideal) x0 x1 x2 x3 x4 x9 x10 x11 x12 x13 x14 x15 x16 x17 x18 x19 x20 x21 x22 x23 x24 x25 x26 x27 x28 x29 (ix1 k)
      = masked (fun k => maskGE x3 x2 (ix1 k)) (col1 x1) (x29 ix0) (val_main_v1 (F := Ideal) x1 ix0)
          (col1 (val_main_v254 (F := Ideal) x0 x1 x2 x3 x4 x9 x10 x11 x12 x13 x14 x15 x16 x17 x18 x19 x20 x21 x22 x23 x24 x25 x26 x27 x28)) k := by
  have e255 : idx_main_v255 (ix2 k (0 : Fin 1)) = ix0 := funext fun a => a.elim0
  have e257 : idx_main_v257 (ix2 k (0 : Fin 1)) = ix0 := funext fun a => a.elim0
  rw [val_main_v262_apply, val_main_v261_apply, val_main_v260_apply, tail_idx, val_main_v259_apply, val_main_v258_apply,
    val_main_v257_apply, val_main_v256_apply, val_main_v255_apply, val_main_call13_v0_apply, val_main_cst_33_apply, e255, e257,
    Ideal.ofBits_def, Ideal.ofBits_zero_f32, Ideal.addf_def, Ideal.mulf_def, Ideal.mulf_def]
  rfl

end Cert.Ref.Result

end
-- ==== Proof.Ref.Result.lean ====
import proofs.«408468_j77438260346965_2_alg».proof.Proof.Ref.ReadP
import proofs.«408468_j77438260346965_2_alg».proof.Proof.Ref.Defs
import proofs.«408468_j77438260346965_2_alg».proof.Proof.SpecArgs
import proofs.«408468_j77438260346965_2_alg».proof.Proof.Ref.ResultLib
import proofs.«408468_j77438260346965_2_alg».proof.Proof.Ref.ResultNet
import proofs.«408468_j77438260346965_2_alg».proof.Proof.Ref.ResultNorm
import proofs.«408468_j77438260346965_2_alg».proof.Proof.Ref.ResultTerms
import proofs.«408468_j77438260346965_2_alg».proof.Proof.Ref.ResultMlpEncN
import proofs.«408468_j77438260346965_2_alg».proof.Proof.Ref.ResultMlpEncE
import proofs.«408468_j77438260346965_2_alg».proof.Proof.Ref.ResultMlpDec
import proofs.«408468_j77438260346965_2_alg».proof.Proof.Ref.ResultRounds
import proofs.«408468_j77438260346965_2_alg».proof.Proof.Ref.ResultTail

noncomputable section

namespace Cert.Ref.Result

open Cert.ReferenceIdeal Cert.ReferenceIdeal.ReadP
open Idealize.ShloMosaic Idealize.ShloMosaic.ValueIdx
open Cert.Spec Cert.Ref

variable (x0 : (⟨S262144x1, .f32⟩ : BufTy).Contents (Elt Ideal)) (x1 : (⟨S1310720x1, .f32⟩ : BufTy).Contents (Elt Ideal))
  (x2 x3 : (⟨S1310720, .i32⟩ : BufTy).Contents (Elt Ideal)) (x4 : (⟨S655360x2, .i32⟩ : BufTy).Contents (Elt Ideal))
  (x9 : (⟨S1x16, .f32⟩ : BufTy).Contents (Elt Ideal))
  (x10 : (⟨S16, .f32⟩ : BufTy).Contents (Elt Ideal))
  (x11 : (⟨S16x16, .f32⟩ : BufTy).Contents (Elt Ideal))
  (x12 : (⟨S16, .f32⟩ : BufTy).Contents (Elt Ideal))
  (x13 : (⟨S1x16, .f32⟩ : BufTy).Contents (Elt Ideal))
  (x14 : (⟨S16, .f32⟩ : BufTy).Contents (Elt Ideal))
  (x15 : (⟨S16x16, .f32⟩ : BufTy).Contents (Elt Ideal))
  (x16 : (⟨S16, .f32⟩ : BufTy).Contents (Elt Ideal))
  (x17 : (⟨S48x16, .f32⟩ : BufTy).Contents (Elt Ideal))
  (x18 : (⟨S16, .f32⟩ : BufTy).Contents (Elt Ideal))
  (x19 : (⟨S16x16, .f32⟩ : BufTy).Contents (Elt Ideal))
  (x20 : (⟨S16, .f32⟩ : BufTy).Contents (Elt Ideal))
  (x21 : (⟨S32x16, .f32⟩ : BufTy).Contents (Elt Ideal))
  (x22 : (⟨S16, .f32⟩ : BufTy).Contents (Elt Ideal))
  (x23 : (⟨S16x16, .f32⟩ : BufTy).Contents (Elt Ideal))
  (x24 : (⟨S16, .f32⟩ : BufTy).Contents (Elt Ideal))
  (x25 : (⟨S16x16, .f32⟩ : BufTy).Contents (Elt Ideal))
  (x26 : (⟨S16, .f32⟩ : BufTy).Contents (Elt Ideal))
  (x27 : (⟨S16x1, .f32⟩ : BufTy).Contents (Elt Ideal))
  (x28 : (⟨S1, .f32⟩ : BufTy).Contents (Elt Ideal))
  (x29 : (⟨S_, .f32⟩ : BufTy).Contents (Elt Ideal))

local notation "HN0" => val_main_v12 (F := Ideal) x0 x9 x10 x11 x12
local notation "HE0" => val_main_v21 (F := Ideal) x1 x13 x14 x15 x16
local notation "HE1" => val_main_v45 (F := Ideal) x0 x1 x2 x3 x9 x10 x11 x12 x13 x14 x15 x16 x17 x18 x19 x20
local notation "HN1" => val_main_v58 (F := Ideal) x0 x1 x2 x3 x9 x10 x11 x12 x13 x14 x15 x16 x17 x18 x19 x20 x21 x22 x23 x24
local notation "HE2" => val_main_v82 (F := Ideal) x0 x1 x2 x3 x9 x10 x11 x12 x13 x14 x15 x16 x17 x18 x19 x20 x21 x22 x23 x24
local notation "HN2" => val_main_v95 (F := Ideal) x0 x1 x2 x3 x9 x10 x11 x12 x13 x14 x15 x16 x17 x18 x19 x20 x21 x22 x23 x24
local notation "HE3" => val_main_v119 (F := Ideal) x0 x1 x2 x3 x9 x10 x11 x12 x13 x14 x15 x16 x17 x18 x19 x20 x21 x22 x23 x24
local notation "HN3" => val_main_v132 (F := Ideal) x0 x1 x2 x3 x9 x10 x11 x12 x13 x14 x15 x16 x17 x18 x19 x20 x21 x22 x23 x24
local notation "HE4" => val_main_v156 (F := Ideal) x0 x1 x2 x3 x9 x10 x11 x12 x13 x14 x15 x16 x17 x18 x19 x20 x21 x22 x23 x24
local notation "HN4" => val_main_v169 (F := Ideal) x0 x1 x2 x3 x9 x10 x11 x12 x13 x14 x15 x16 x17 x18 x19 x20 x21 x22 x23 x24
local notation "HE5" => val_main_v193 (F := Ideal) x0 x1 x2 x3 x9 x10 x11 x12 x13 x14 x15 x16 x17 x18 x19 x20 x21 x22 x23 x24
local notation "OPS" => opsR x2 x3 x4
local notation "MPE" => wtsOf (K := 16 + 16 + 16) (C := 16) x17 x18 x19 x20
local notation "MPN" => wtsOf (K := 16 + 16) (C := 16) x21 x22 x23 x24

theorem enc_nodes : cur2 HN0 = (wtsOf (K := 1) (C := 16) x9 x10 x11 x12).app (fun r (_ : Fin 1) => col1 x0 r) := by
  rw [mlp_EncN, cur2_unc2, cur2_col]

theorem enc_edges :
    cur2 HE0 = (wtsOf (K := 1) (C := 16) x13 x14 x15 x16).app (fun r (_ : Fin 1) => scale (col1 x1) (absmax (col1 x1)) r) := by
  rw [mlp_EncE, cur2_unc2, scaled_eq, cur2_unc2]

theorem dec_eq :
    cur2 (val_main_v254 (F := Ideal) x0 x1 x2 x3 x4 x9 x10 x11 x12 x13 x14 x15 x16 x17 x18 x19 x20 x21 x22 x23 x24 x25 x26 x27 x28)
      = (wtsOf (K := 16) (C := 1) x25 x26 x27 x28).app ((opsR x2 x3 x4).pairavg (cur2 HE5)) := by
  rw [mlp_Dec, cur2_unc2, pairAvg_eq, opsR_pairavg, unc2_cur2]

theorem ref_result (k : Fin 1310720) :
    val_main_v262 (F := Ideal) x0 x1 x2 x3 x4 x9 x10 x11 x12 x13 x14 x15 x16 x17 x18 x19 x20 x21 x22 x23 x24 x25 x26 x27 x28 x29 (ix1 k)
      = resultOf (opsR x2 x3 x4) x0 x1 x9 x10 x11 x12 x13 x14 x15 x16 x17 x18 x19 x20 x21 x22 x23 x24 x25 x26 x27 x28 x29 k := by
  rw [tail_eq, norm_eq, resultOf, result_at, ← enc_nodes, ← enc_edges, rounds_5_edges, ← dec_eq, opsR_mask]

  generalize val_main_v254 (F := Ideal) x0 x1 x2 x3 x4 x9 x10 x11 x12 x13 x14 x15 x16 x17 x18 x19 x20 x21 x22 x23 x24 x25 x26 x27 x28 = d
  rfl

end Cert.Ref.Result

end
-- ==== Proof.LibSegmentSum.lean ====
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

section Seg1

variable {N M w : Nat} (d : ScatterDims ⟨1, ![N]⟩ ⟨2, ![M, 1]⟩ ⟨1, ![M]⟩)

theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>

    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>

    unfold ScatterDims.siIdx
    rw [dif_pos (by rw [hiv])]
    apply Fin.ext
    show List.idxOf (0 : Fin 1) d.scatterDimsToOperandDims = 0
    rw [hsd]; simp

theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1

  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl

  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1

  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

theorem ixP_eq {n : Nat} (p : Fin n) : StableHlo.Predicate.ixP p = ix2 p (0 : Fin 1) := by
  funext b; match b with | ⟨0, _⟩ => rfl | ⟨1, _⟩ => rfl

theorem ofFin_eq {n : Nat} (p : Fin n) : Shape.Idx.ofFin p = ix1 p := by
  funext b; match b with | ⟨0, _⟩ => rfl

theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by

  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  ·
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  ·
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.Take.lean ====
import Idealize.ShloMosaic.PureOps.Reduce
import Idealize.ShloMosaic.Lib.Affine
import Idealize.ShloMosaic.Lib.ValueIdx
import Idealize.ShloMosaic.Lib.StableHlo.Predicate
import proofs.«408468_j77438260346965_2_alg».proof.Proof.LibSegmentSum

set_option maxRecDepth 16384

noncomputable section

namespace Cert.Take

open Idealize.ShloMosaic Idealize.ShloMosaic.ValueIdx

theorem toInt_of_lt (w : BitVec 32) (h : w.toNat < 262144) : w.toInt = (w.toNat : ℤ) :=
  StableHlo.Predicate.toInt_eq_toNat_of_lt (by omega)

theorem not_slt_zero (w : BitVec 32) (h : w.toNat < 262144) : ¬ IntOp.cmpi .slt w 0#32 = 1#1 := by
  have z : (0#32 : BitVec 32).toInt = 0 := by decide
  rw [IntOp.cmpi_slt, toInt_of_lt w h, z]
  omega

theorem range_test (w : BitVec 32) (h : w.toNat < 262144) :
    IntOp.andi (IntOp.cmpi .sge w 0#32) (IntOp.cmpi .sle w 262143#32) = 1#1 := by
  have z : (0#32 : BitVec 32).toInt = 0 := by decide
  have t : (262143#32 : BitVec 32).toInt = 262143 := by decide
  rw [IntOp.andi_eq_one, IntOp.cmpi_sge, IntOp.cmpi_sle, toInt_of_lt w h, z, t]
  constructor <;> omega

theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih fun i hi => h i (Finset.mem_cons_of_mem hi)]
    decide

section Stage

variable {α : Type} {M D : ℕ}
variable (hb0 : (⟨0, ![]⟩ : Shape).BroadcastsInDim ⟨1, ![M]⟩ (![] : Fin 0 → Fin 1))
variable (hb5 : (⟨1, ![M]⟩ : Shape).BroadcastsInDim ⟨2, ![M, 1]⟩ (![0] : Fin 1 → Fin 2))
variable (hb6 : (⟨0, ![]⟩ : Shape).BroadcastsInDim ⟨2, ![M, 1]⟩ (![] : Fin 0 → Fin 2))
variable (hb8 : (⟨1, ![1]⟩ : Shape).BroadcastsInDim ⟨2, ![1, 1]⟩ (![1] : Fin 1 → Fin 2))
variable (hb9 : (⟨2, ![1, 1]⟩ : Shape).BroadcastsInDim ⟨2, ![M, 1]⟩ (![0, 1] : Fin 2 → Fin 2))
variable (hb14 : (⟨1, ![M]⟩ : Shape).BroadcastsInDim ⟨2, ![M, D]⟩ (![0] : Fin 1 → Fin 2))
variable (hred : (⟨2, ![M, 1]⟩ : Shape).ReducesTo [1] ⟨1, ![M]⟩) (hS : 0 < (⟨0, ![]⟩ : Shape).numel)

theorem wrap_eq (idx : IVec ⟨1, ![M]⟩ 32) (hidx : ∀ k, (idx k).toNat < 262144) :
    select (cmpi .slt idx (broadcastInDim ⟨1, ![M]⟩ ![] hb0 (constantI ⟨0, ![]⟩ 32 0#32)))
        (addi idx (broadcastInDim ⟨1, ![M]⟩ ![] hb0 (constantI ⟨0, ![]⟩ 32 262144#32))) idx
      = idx := by
  funext k
  show Scalar.select (IntOp.cmpi .slt (idx k) 0#32) (IntOp.addi (idx k) 262144#32) (idx k) = idx k
  exact if_neg (not_slt_zero _ (hidx k))

theorem mask_one (w : IVec ⟨1, ![M]⟩ 32) (hw : ∀ k, (w k).toNat < 262144) :
    Host.reduce IntOp.andi
        (andi (cmpi .sge (broadcastInDim ⟨2, ![M, 1]⟩ ![0] hb5 w) (broadcastInDim ⟨2, ![M, 1]⟩ ![] hb6 (constantI ⟨0, ![]⟩ 32 0#32)))
          (cmpi .sle (broadcastInDim ⟨2, ![M, 1]⟩ ![0] hb5 w)
            (broadcastInDim ⟨2, ![M, 1]⟩ ![0, 1] hb9 (broadcastInDim ⟨2, ![1, 1]⟩ ![1] hb8 (constantI ⟨1, ![1]⟩ 32 262143#32)))))
        (constantI ⟨0, ![]⟩ 1 1#1) hred hS
      = fun _ => 1#1 := by
  funext j
  rw [Host.reduce_eq_fold]
  refine fold_andi_one _ _ fun i _ => ?_
  exact range_test _ (hw _)

theorem take_select_eq (d : GatherDims ⟨2, ![262144, D]⟩ ⟨2, ![M, 1]⟩ ⟨2, ![M, D]⟩)
    (x : (⟨2, ![262144, D]⟩ : Shape).Idx → α) (fill : (⟨2, ![M, D]⟩ : Shape).Idx → α)
    (w : IVec ⟨1, ![M]⟩ 32) (hw : ∀ k, (w k).toNat < 262144) :
    select
        (broadcastInDim ⟨2, ![M, D]⟩ ![0] hb14
          (Host.reduce IntOp.andi
            (andi (cmpi .sge (broadcastInDim ⟨2, ![M, 1]⟩ ![0] hb5 w) (broadcastInDim ⟨2, ![M, 1]⟩ ![] hb6 (constantI ⟨0, ![]⟩ 32 0#32)))
              (cmpi .sle (broadcastInDim ⟨2, ![M, 1]⟩ ![0] hb5 w)
                (broadcastInDim ⟨2, ![M, 1]⟩ ![0, 1] hb9 (broadcastInDim ⟨2, ![1, 1]⟩ ![1] hb8 (constantI ⟨1, ![1]⟩ 32 262143#32)))))
            (constantI ⟨0, ![]⟩ 1 1#1) hred hS))
        (Host.gather d x (broadcastInDim ⟨2, ![M, 1]⟩ ![0] hb5 w)) fill
      = Host.gather d x (broadcastInDim ⟨2, ![M, 1]⟩ ![0] hb5 w) := by
  rw [mask_one hb5 hb6 hb8 hb9 hred hS w hw]
  funext j
  show Scalar.select (1#1 : BitVec 1) (Host.gather d x (broadcastInDim ⟨2, ![M, 1]⟩ ![0] hb5 w) j) (fill j) = _
  exact if_pos (by decide)

theorem take_eq_gather (d : GatherDims ⟨2, ![262144, D]⟩ ⟨2, ![M, 1]⟩ ⟨2, ![M, D]⟩)
    (x : (⟨2, ![262144, D]⟩ : Shape).Idx → α) (fill : (⟨2, ![M, D]⟩ : Shape).Idx → α)
    (idx : IVec ⟨1, ![M]⟩ 32) (hidx : ∀ k, (idx k).toNat < 262144) :
    select
        (broadcastInDim ⟨2, ![M, D]⟩ ![0] hb14
          (Host.reduce IntOp.andi
            (andi
              (cmpi .sge
                (broadcastInDim ⟨2, ![M, 1]⟩ ![0] hb5
                  (select (cmpi .slt idx (broadcastInDim ⟨1, ![M]⟩ ![] hb0 (constantI ⟨0, ![]⟩ 32 0#32)))
                    (addi idx (broadcastInDim ⟨1, ![M]⟩ ![] hb0 (constantI ⟨0, ![]⟩ 32 262144#32))) idx))
                (broadcastInDim ⟨2, ![M, 1]⟩ ![] hb6 (constantI ⟨0, ![]⟩ 32 0#32)))
              (cmpi .sle
                (broadcastInDim ⟨2, ![M, 1]⟩ ![0] hb5
                  (select (cmpi .slt idx (broadcastInDim ⟨1, ![M]⟩ ![] hb0 (constantI ⟨0, ![]⟩ 32 0#32)))
                    (addi idx (broadcastInDim ⟨1, ![M]⟩ ![] hb0 (constantI ⟨0, ![]⟩ 32 262144#32))) idx))
                (broadcastInDim ⟨2, ![M, 1]⟩ ![0, 1] hb9 (broadcastInDim ⟨2, ![1, 1]⟩ ![1] hb8 (constantI ⟨1, ![1]⟩ 32 262143#32)))))
            (constantI ⟨0, ![]⟩ 1 1#1) hred hS))
        (Host.gather d x
          (broadcastInDim ⟨2, ![M, 1]⟩ ![0] hb5
            (select (cmpi .slt idx (broadcastInDim ⟨1, ![M]⟩ ![] hb0 (constantI ⟨0, ![]⟩ 32 0#32)))
              (addi idx (broadcastInDim ⟨1, ![M]⟩ ![] hb0 (constantI ⟨0, ![]⟩ 32 262144#32))) idx)))
        fill
      = Host.gather d x
          (broadcastInDim ⟨2, ![M, 1]⟩ ![0] hb5
            (select (cmpi .slt idx (broadcastInDim ⟨1, ![M]⟩ ![] hb0 (constantI ⟨0, ![]⟩ 32 0#32)))
              (addi idx (broadcastInDim ⟨1, ![M]⟩ ![] hb0 (constantI ⟨0, ![]⟩ 32 262144#32))) idx)) := by
  rw [wrap_eq hb0 idx hidx]
  exact take_select_eq hb5 hb6 hb8 hb9 hb14 hred hS d x fill idx hidx

theorem start_read (w : IVec ⟨1, ![M]⟩ 32) (e : Fin M) :
    broadcastInDim ⟨2, ![M, 1]⟩ ![0] hb5 w (ix2 e (0 : Fin 1)) = w (ix1 e) := by
  have h := StableHlo.Predicate.bcast_col1 hb5 w e
  rw [Cert.LibSegmentSum.ixP_eq, Cert.LibSegmentSum.ofFin_eq] at h
  exact h

theorem gather_read (d : GatherDims ⟨2, ![262144, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![262144, D]⟩ : Shape).Idx → α) (idx : IVec ⟨1, ![M]⟩ 32) (hidx : ∀ k, (idx k).toNat < 262144)
    (e : Fin M) (c : Fin D) :
    Host.gather d x
        (broadcastInDim ⟨2, ![M, 1]⟩ ![0] hb5
          (select (cmpi .slt idx (broadcastInDim ⟨1, ![M]⟩ ![] hb0 (constantI ⟨0, ![]⟩ 32 0#32)))
            (addi idx (broadcastInDim ⟨1, ![M]⟩ ![] hb0 (constantI ⟨0, ![]⟩ 32 262144#32))) idx))
        (ix2 e c)
      = x (ix2 ⟨(idx (ix1 e)).toNat, hidx (ix1 e)⟩ c) := by
  rw [wrap_eq hb0 idx hidx, Cert.LibSegmentSum.gather_rows d hoff hcoll hob hsb hsim hivd hss x _ e c (by decide)]
  congr 2
  apply Fin.ext
  show min (broadcastInDim ⟨2, ![M, 1]⟩ ![0] hb5 idx (ix2 e 0)).toInt.toNat (262144 - 1) = (idx (ix1 e)).toNat
  rw [start_read hb5 idx e]
  have h := hidx (ix1 e)
  have hi := toInt_of_lt _ h
  omega

end Stage

end Cert.Take

end
-- ==== Proof.Pre.lean ====
import proofs.«408468_j77438260346965_2_alg».proof.Pre_finite_inputs
import Idealize.ShloMosaic.Lib.ReduceAll
import Idealize.ShloMosaic.Lib.ValueIdx

set_option maxRecDepth 16384

noncomputable section

namespace Cert.Pre

open Idealize.ShloMosaic Idealize.ShloMosaic.ValueIdx
open Cert.Pre_finite_inputs

instance : Subsingleton S_.Idx := ⟨fun a b => funext fun d => d.elim0⟩

theorem toNat_lt_of_toInt (w : BitVec 32) (n : ℕ) (h0 : 0 ≤ w.toInt) (h1 : w.toInt < (n : ℤ)) : w.toNat < n := by
  have hw := w.isLt
  rw [BitVec.toInt_eq_toNat_cond] at h0 h1
  split at h0 <;> omega

theorem toNat_lt_of_cmp (w : BitVec 32) (h0 : IntOp.cmpi .sge w 0#32 = 1#1) (h1 : IntOp.cmpi .slt w 262144#32 = 1#1) :
    w.toNat < 262144 := by
  have z : (0#32 : BitVec 32).toInt = 0 := by decide
  have t : (262144#32 : BitVec 32).toInt = 262144 := by decide
  have a := IntOp.cmpi_sge.1 h0
  have b := IntOp.cmpi_slt.1 h1
  rw [z] at a
  rw [t] at b
  exact toNat_lt_of_toInt w 262144 a (by exact_mod_cast b)

variable [Facts] {F : FTy → Type} [FloatOps F]

theorem cmp_of_part7 (a2 a3 : IVec S1310720 32) (v118 : IVec S_ 1) (v119 : FVec F S_ .f32) (i : S_.Idx)
    (h : fn_part7 (F := F) a2 a3 v118 v119 i = 1#1) :
    (∀ k : S1310720.Idx, IntOp.cmpi .sge (a3 k) 0#32 = 1#1 ∧ IntOp.cmpi .slt (a3 k) 262144#32 = 1#1)
      ∧ (∀ k : S1310720.Idx, IntOp.cmpi .sge (a2 k) 0#32 = 1#1 ∧ IntOp.cmpi .slt (a2 k) 262144#32 = 1#1) := by
  dsimp only [fn_part7, fn_part8] at h
  obtain ⟨h134, h137⟩ := IntOp.andi_eq_one.1 h
  obtain ⟨h130, h133⟩ := IntOp.andi_eq_one.1 h134
  obtain ⟨h126, h129⟩ := IntOp.andi_eq_one.1 h130
  obtain ⟨h122, h125⟩ := IntOp.andi_eq_one.1 h126
  exact ⟨fun k => ⟨Host.reduce_andi_all _ _ _ _ i h125 k, Host.reduce_andi_all _ _ _ _ i h129 k⟩,
    fun k => ⟨Host.reduce_andi_all _ _ _ _ i h133 k, Host.reduce_andi_all _ _ _ _ i h137 k⟩⟩

variable {a0 : FVec F S262144x1 .f32} {a1 : FVec F S1310720x1 .f32} {a2 a3 : IVec S1310720 32} {a4 : IVec S655360x2 32}
  {a5 : FVec F S262144x1 .f32} {a6 : FVec F S1310720x1 .f32} {a7 a8 : IVec S1310720 32} {a9 : FVec F S1x16 .f32}
  {a10 : FVec F S16 .f32} {a11 : FVec F S16x16 .f32} {a12 : FVec F S16 .f32} {a13 : FVec F S1x16 .f32} {a14 : FVec F S16 .f32}
  {a15 : FVec F S16x16 .f32} {a16 : FVec F S16 .f32} {a17 : FVec F S48x16 .f32} {a18 : FVec F S16 .f32}
  {a19 : FVec F S16x16 .f32} {a20 : FVec F S16 .f32} {a21 : FVec F S32x16 .f32} {a22 : FVec F S16 .f32}
  {a23 : FVec F S16x16 .f32} {a24 : FVec F S16 .f32} {a25 : FVec F S16x16 .f32} {a26 : FVec F S16 .f32}
  {a27 : FVec F S16x1 .f32} {a28 : FVec F S1 .f32} {a29 : FVec F S_ .f32}

theorem part7_of_fn
    (h : fn (F := F) a0 a1 a2 a3 a4 a5 a6 a7 a8 a9 a10 a11 a12 a13 a14 a15 a16 a17 a18 a19 a20 a21 a22 a23 a24 a25 a26 a27 a28 a29
      = fun _ => 1#1) :
    ∃ (v118 : IVec S_ 1) (v119 : FVec F S_ .f32), fn_part7 (F := F) a2 a3 v118 v119 ix0 = 1#1 :=
  ⟨_, _, congrFun h ix0⟩

theorem senders_lt
    (h : fn (F := F) a0 a1 a2 a3 a4 a5 a6 a7 a8 a9 a10 a11 a12 a13 a14 a15 a16 a17 a18 a19 a20 a21 a22 a23 a24 a25 a26 a27 a28 a29
      = fun _ => 1#1) (k : S1310720.Idx) : (a3 k).toNat < 262144 := by
  obtain ⟨v118, v119, e⟩ := part7_of_fn h
  obtain ⟨hs, -⟩ := cmp_of_part7 a2 a3 v118 v119 ix0 e
  exact toNat_lt_of_cmp _ (hs k).1 (hs k).2

theorem receivers_lt
    (h : fn (F := F) a0 a1 a2 a3 a4 a5 a6 a7 a8 a9 a10 a11 a12 a13 a14 a15 a16 a17 a18 a19 a20 a21 a22 a23 a24 a25 a26 a27 a28 a29
      = fun _ => 1#1) (k : S1310720.Idx) : (a2 k).toNat < 262144 := by
  obtain ⟨v118, v119, e⟩ := part7_of_fn h
  obtain ⟨-, hr⟩ := cmp_of_part7 a2 a3 v118 v119 ix0 e
  exact toNat_lt_of_cmp _ (hr k).1 (hr k).2

theorem senders_lt_fin
    (h : fn (F := F) a0 a1 a2 a3 a4 a5 a6 a7 a8 a9 a10 a11 a12 a13 a14 a15 a16 a17 a18 a19 a20 a21 a22 a23 a24 a25 a26 a27 a28 a29
      = fun _ => 1#1) (k : Fin 1310720) : (a3 (ix1 k)).toNat < 262144 := senders_lt h (ix1 k)

theorem receivers_lt_fin
    (h : fn (F := F) a0 a1 a2 a3 a4 a5 a6 a7 a8 a9 a10 a11 a12 a13 a14 a15 a16 a17 a18 a19 a20 a21 a22 a23 a24 a25 a26 a27 a28 a29
      = fun _ => 1#1) (k : Fin 1310720) : (a2 (ix1 k)).toNat < 262144 := receivers_lt h (ix1 k)

end Cert.Pre

end
-- ==== Proof.Bridge.lean ====
import proofs.«408468_j77438260346965_2_alg».proof.Defs
import proofs.«408468_j77438260346965_2_alg».proof.Proof.Ki.ChainDefs
import proofs.«408468_j77438260346965_2_alg».proof.Proof.Ref.Defs
import proofs.«408468_j77438260346965_2_alg».proof.Proof.Take
import proofs.«408468_j77438260346965_2_alg».proof.Proof.Pre

set_option maxRecDepth 16384

noncomputable section

namespace Cert.Bridge

open Idealize.ShloMosaic Idealize.ShloMosaic.TcCoe Idealize.ShloMosaic.ValueIdx
open Cert.Spec
open Cert.KernelIdeal.Hand Cert.Ref

theorem Ops.ext' {N E : ℕ} (a b : Ops N E) (h1 : a.atS = b.atS) (h2 : a.atR = b.atR) (h3 : a.segsum = b.segsum)
    (h4 : a.pairavg = b.pairavg) (h5 : a.mask = b.mask) : a = b := by
  cases a; cases b
  dsimp only at h1 h2 h3 h4 h5
  subst h1 h2 h3 h4 h5
  rfl

theorem kTake_eq_rowsN (x : FVec Ideal Cert.KernelIdeal.S262144x16 .f32) (idx : IVec Cert.KernelIdeal.S1310720 32)
    (h : ∀ k, (idx k).toNat < 262144) : kTake x idx = rowsN x idx := by
  unfold kTake kInRange kWrapN kFill rowsN wrapN
  exact Cert.Take.take_eq_gather _ _ _ _ _ _ _ _ _ x _ idx h

theorem kSum_eq_sumN (recv : IVec Cert.KernelIdeal.S1310720 32) (he : FVec Ideal Cert.KernelIdeal.S1310720x16 .f32) :
    kSum recv he = sumN recv he := by
  unfold kSum kZerosN sumN zerosN
  rfl

theorem kPairAvg_eq_pairAvg (bi : IVec Cert.KernelIdeal.S655360x2 32) (he : FVec Ideal Cert.KernelIdeal.S1310720x16 .f32) :
    kPairAvg bi he = pairAvg bi he := by
  unfold kPairAvg kSetE kAvgE kHalfE kRowsE kWrapE kPairCol0 kPairCol1 pairAvg setE avgE halfE rowsE wrapE pairCol0 pairCol1
  rfl

theorem kMaskGE_eq_maskGE (send recv : IVec Cert.KernelIdeal.S1310720 32) : kMaskGE send recv = maskGE send recv := rfl

theorem ops_eq (recv send : IVec Cert.KernelIdeal.S1310720 32) (bi : IVec Cert.KernelIdeal.S655360x2 32)
    (hs : ∀ k, (send k).toNat < 262144) (hr : ∀ k, (recv k).toNat < 262144) :
    opsK recv send bi = opsR recv send bi := by
  refine Ops.ext' _ _ ?_ ?_ ?_ ?_ ?_
  · funext hn
    rw [opsK_atS, opsR_atS, kTake_eq_rowsN _ send hs]
  · funext hn
    rw [opsK_atR, opsR_atR, kTake_eq_rowsN _ recv hr]
  · funext he
    rw [opsK_segsum, opsR_segsum, kSum_eq_sumN]
  · funext he
    rw [opsK_pairavg, opsR_pairavg, kPairAvg_eq_pairAvg]
  · funext k
    rw [opsK_mask, opsR_mask, kMaskGE_eq_maskGE]

open Cert.KernelIdeal in

theorem ops_at_eq [Cert.Pre_finite_inputs.Facts] (m : (ℓ : Loc nD τ sig) → Buf (Elt Ideal) ℓ) (c : Dev nD)
    (hpre : Cert.Pre_KernelIdeal m) :
    opsK (m ((c : Thread nD τ).loc main_arg2)) (m ((c : Thread nD τ).loc main_arg3)) (m ((c : Thread nD τ).loc main_arg4))
      = opsR (m ((c : Thread nD τ).loc main_arg2)) (m ((c : Thread nD τ).loc main_arg3)) (m ((c : Thread nD τ).loc main_arg4)) :=
  ops_eq _ _ _ (fun k => Cert.Pre.senders_lt (hpre c) k) (fun k => Cert.Pre.receivers_lt (hpre c) k)

open Cert.KernelIdeal in

theorem opsAt_eq [Cert.Pre_finite_inputs.Facts] (m : (ℓ : Loc nD τ sig) → Buf (Elt Ideal) ℓ) (c : Dev nD)
    (hpre : Cert.Pre_KernelIdeal m) :
    opsAt m c
      = opsR (m ((c : Thread nD τ).loc main_arg2)) (m ((c : Thread nD τ).loc main_arg3)) (m ((c : Thread nD τ).loc main_arg4)) :=
  ops_at_eq m c hpre

end Cert.Bridge

end
-- ==== Proof.Assemble.lean ====
import proofs.«408468_j77438260346965_2_alg».proof.Defs
import proofs.«408468_j77438260346965_2_alg».proof.Proof.Gen.KernelIdeal
import proofs.«408468_j77438260346965_2_alg».proof.Proof.Gen.ReferenceIdeal
import proofs.«408468_j77438260346965_2_alg».proof.Proof.Gen.Pre_finite_inputs
import proofs.«408468_j77438260346965_2_alg».proof.Proof.Ki.RunValue
import proofs.«408468_j77438260346965_2_alg».proof.Proof.Ki.ChainResult
import proofs.«408468_j77438260346965_2_alg».proof.Proof.Ref.Run
import proofs.«408468_j77438260346965_2_alg».proof.Proof.Ref.Result
import proofs.«408468_j77438260346965_2_alg».proof.Proof.Bridge

noncomputable section

namespace Cert.Proof

open Idealize.ShloMosaic Idealize.ShloMosaic.TcCoe Idealize.ShloMosaic.ValueIdx Idealize.SL.Sem

theorem algebraic : Cert.algebraic_KernelIdeal_ReferenceIdeal := by
  intro m ρ m' ρ' hpre hagree
  refine ⟨fun c => Cert.KernelIdeal.Hand.W40 (F := Ideal) m c Cert.KernelIdeal.main_v129,
    Cert.KernelIdeal.Hand.run_value (F := Ideal) m ρ, ?_⟩
  refine (θ_run (Cert.ReferenceIdeal.defs (F := Ideal)) _ _).mono (fun _ h c => ⟨(h c).1.trans ?_, (h c).2⟩)
    (Cert.Ref.run (F := Ideal) m' ρ')
  obtain ⟨h0, h1, h2, h3, h4, -, -, -, -, h9, h10, h11, h12, h13, h14, h15, h16, h17, h18, h19, h20, h21, h22, h23, h24, h25, h26, h27, h28, h29⟩ := hagree c
  beta_reduce
  funext i
  obtain ⟨k, rfl⟩ : ∃ k : Fin 1310720, i = ix1 k := ⟨i 0, eq_ix1 i⟩
  rw [Cert.Ref.Result.ref_result, Cert.KernelIdeal.Hand.kernel_result, Cert.Bridge.opsAt_eq m c hpre,
    h0, h1, h2, h3, h4, h9, h10, h11, h12, h13, h14, h15, h16, h17, h18, h19, h20, h21, h22, h23, h24, h25, h26, h27, h28, h29]

end Cert.Proof

end
-- ==== Proof.lean ====
import proofs.«408468_j77438260346965_2_alg».proof.Defs
import proofs.«408468_j77438260346965_2_alg».proof.Proof.Gen.Kernel
import proofs.«408468_j77438260346965_2_alg».proof.Proof.Gen.KernelIdeal
import proofs.«408468_j77438260346965_2_alg».proof.Proof.Gen.ReferenceIdeal
import proofs.«408468_j77438260346965_2_alg».proof.Proof.Gen.Pre_finite_inputs
import proofs.«408468_j77438260346965_2_alg».proof.Proof.K.Frame
import proofs.«408468_j77438260346965_2_alg».proof.Proof.Ki.Frame
import proofs.«408468_j77438260346965_2_alg».proof.Proof.Ref.Run
import proofs.«408468_j77438260346965_2_alg».proof.Proof.Assemble
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run (Cert.ReferenceIdeal.defs (F := Ideal)) _ _).mono (fun _ h c => (h c).2) (Cert.Ref.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
